-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v115)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v115) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v171) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg9 : FVec F S128x128 .f32) (main_arg10 : FVec F S128 .f32) (main_arg11 : FVec F S128x64 .f32) (main_arg12 : FVec F S64 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x64 .f32 := Host.absf main_arg11
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg6 : FVec F S3x128 .f32) (main_arg7 : FVec F S3x128x128 .f32) (main_arg8 : FVec F S3x128 .f32) (main_arg9 : FVec F S128x128 .f32) (main_arg10 : FVec F S128 .f32) (main_arg11 : FVec F S128x64 .f32) (main_arg12 : FVec F S64 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128 .f32 := Host.absf main_arg6
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128x128 .f32 := Host.absf main_arg7
  let main_cst_8 : FVec F S_ .f32 := constant S_ .f32 0x7F800000#32
  let main_v25 : FVec F S3x128x128 .f32 := broadcastInDim S3x128x128 ![] bcast_S_S3x128x128 main_cst_8
  let main_v26 : IVec S3x128x128 1 := cmpf .olt main_v24 main_v25
  let main_c_9 : IVec S_ 1 := constantI S_ 1 1#1
  let main_v27 : IVec S_ 1 := (fun x v => Host.reduce IntOp.andi x v reducesTo_S3x128x128_S_d0_1_2 h_S_) main_v26 main_c_9
  let main_v28 : IVec S_ 1 := andi main_v23 main_v27
  let main_v29 : FVec F S3x128 .f32 := Host.absf main_arg8
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x128 .f32) (main_arg1 : IVec S2x1600000 32) (main_arg2 : IVec S100000 32) (main_arg3 : FVec F S3x128x128 .f32) (main_arg4 : FVec F S3x128 .f32) (main_arg5 : FVec F S3x128 .f32) (main_arg6 : FVec F S3x128 .f32) (main_arg7 : FVec F S3x128x128 .f32) (main_arg8 : FVec F S3x128 .f32) (main_arg9 : FVec F S128x128 .f32) (main_arg10 : FVec F S128 .f32) (main_arg11 : FVec F S128x64 .f32) (main_arg12 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x128 .f32 := Host.absf main_arg3
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg4
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128 .f32 := Host.absf main_arg5
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg6 main_arg7 main_arg8 main_arg9 main_arg10 main_arg11 main_arg12 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000x1 : Shape := ⟨2, ![100000, 1]⟩
abbrev S_ : Shape := ⟨0, ![]⟩
abbrev S1600000x1 : Shape := ⟨2, ![1600000, 1]⟩
abbrev S1600000x128 : Shape := ⟨2, ![1600000, 128]⟩
abbrev S1x128x128 : Shape := ⟨3, ![1, 128, 128]⟩
abbrev S1x128 : Shape := ⟨2, ![1, 128]⟩
abbrev S2x128 : Shape := ⟨2, ![2, 128]⟩
abbrev S5000x128 : Shape := ⟨2, ![5000, 128]⟩
abbrev S1x64 : Shape := ⟨2, ![1, 64]⟩
abbrev S1024x64 : Shape := ⟨2, ![1024, 64]⟩
abbrev S5000x1 : Shape := ⟨2, ![5000, 1]⟩
abbrev S1024x128 : Shape := ⟨2, ![1024, 128]⟩
abbrev S1x1024 : Shape := ⟨2, ![1, 1024]⟩
abbrev S5000x1024 : Shape := ⟨2, ![5000, 1024]⟩

abbrev nBuf : Space → Nat
  | .hbm => 147
  | .vmem => 73
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S3x128x128, .f32⟩
  | 4 => ⟨S3x128, .f32⟩
  | 5 => ⟨S3x128, .f32⟩
  | 6 => ⟨S3x128, .f32⟩
  | 7 => ⟨S3x128x128, .f32⟩
  | 8 => ⟨S3x128, .f32⟩
  | 9 => ⟨S128x128, .f32⟩
  | 10 => ⟨S128, .f32⟩
  | 11 => ⟨S128x64, .f32⟩
  | 12 => ⟨S64, .f32⟩
  | 13 => ⟨S1x1600000, .i32⟩
  | 14 => ⟨S1600000, .i32⟩
  | 15 => ⟨S1x1600000, .i32⟩
  | 16 => ⟨S1600000, .i32⟩
  | 17 => ⟨S100000x1, .i32⟩
  | 18 => ⟨S_, .i32⟩
  | 19 => ⟨S1600000, .i32⟩
  | 20 => ⟨S1600000, .i1⟩
  | 21 => ⟨S_, .i32⟩
  | 22 => ⟨S1600000, .i32⟩
  | 23 => ⟨S1600000, .i32⟩
  | 24 => ⟨S1600000, .i32⟩
  | 25 => ⟨S1600000x1, .i32⟩
  | 26 => ⟨S1600000x128, .f32⟩
  | 27 => ⟨S_, .f32⟩
  | 28 => ⟨S100000x128, .f32⟩
  | 29 => ⟨S1600000x1, .i32⟩
  | 30 => ⟨S100000x128, .f32⟩
  | 31 => ⟨S1x128x128, .f32⟩
  | 32 => ⟨S128x128, .f32⟩
  | 33 => ⟨S1x128, .f32⟩
  | 34 => ⟨S128, .f32⟩
  | 35 => ⟨S1x128, .f32⟩
  | 36 => ⟨S100000x128, .f32⟩
  | 37 => ⟨S2x128, .f32⟩
  | 38 => ⟨S1x128, .f32⟩
  | 39 => ⟨S_, .f32⟩
  | 40 => ⟨S1x128, .f32⟩
  | 41 => ⟨S1x128, .f32⟩
  | 42 => ⟨S1x128, .f32⟩
  | 43 => ⟨S_, .f32⟩
  | 44 => ⟨S1x128, .f32⟩
  | 45 => ⟨S1x128, .f32⟩
  | 46 => ⟨S1x128, .f32⟩
  | 47 => ⟨S1x128, .f32⟩
  | 48 => ⟨S1x128, .f32⟩
  | 49 => ⟨S128, .f32⟩
  | 50 => ⟨S1x128, .f32⟩
  | 51 => ⟨S1x128, .f32⟩
  | 52 => ⟨S128, .f32⟩
  | 53 => ⟨S1x128, .f32⟩
  | 54 => ⟨S1x128x128, .f32⟩
  | 55 => ⟨S128x128, .f32⟩
  | 56 => ⟨S1x128, .f32⟩
  | 57 => ⟨S128, .f32⟩
  | 58 => ⟨S1x128, .f32⟩
  | 59 => ⟨S100000x128, .f32⟩
  | 60 => ⟨S_, .i32⟩
  | 61 => ⟨S1600000, .i32⟩
  | 62 => ⟨S1600000, .i1⟩
  | 63 => ⟨S_, .i32⟩
  | 64 => ⟨S1600000, .i32⟩
  | 65 => ⟨S1600000, .i32⟩
  | 66 => ⟨S1600000, .i32⟩
  | 67 => ⟨S1600000x1, .i32⟩
  | 68 => ⟨S1600000x128, .f32⟩
  | 69 => ⟨S_, .f32⟩
  | 70 => ⟨S100000x128, .f32⟩
  | 71 => ⟨S1600000x1, .i32⟩
  | 72 => ⟨S100000x128, .f32⟩
  | 73 => ⟨S1x128x128, .f32⟩
  | 74 => ⟨S128x128, .f32⟩
  | 75 => ⟨S1x128, .f32⟩
  | 76 => ⟨S128, .f32⟩
  | 77 => ⟨S1x128, .f32⟩
  | 78 => ⟨S100000x128, .f32⟩
  | 79 => ⟨S2x128, .f32⟩
  | 80 => ⟨S1x128, .f32⟩
  | 81 => ⟨S_, .f32⟩
  | 82 => ⟨S1x128, .f32⟩
  | 83 => ⟨S1x128, .f32⟩
  | 84 => ⟨S1x128, .f32⟩
  | 85 => ⟨S_, .f32⟩
  | 86 => ⟨S1x128, .f32⟩
  | 87 => ⟨S1x128, .f32⟩
  | 88 => ⟨S1x128, .f32⟩
  | 89 => ⟨S1x128, .f32⟩
  | 90 => ⟨S1x128, .f32⟩
  | 91 => ⟨S128, .f32⟩
  | 92 => ⟨S1x128, .f32⟩
  | 93 => ⟨S1x128, .f32⟩
  | 94 => ⟨S128, .f32⟩
  | 95 => ⟨S1x128, .f32⟩
  | 96 => ⟨S1x128x128, .f32⟩
  | 97 => ⟨S128x128, .f32⟩
  | 98 => ⟨S1x128, .f32⟩
  | 99 => ⟨S128, .f32⟩
  | 100 => ⟨S1x128, .f32⟩
  | 101 => ⟨S100000x128, .f32⟩
  | 102 => ⟨S_, .i32⟩
  | 103 => ⟨S1600000, .i32⟩
  | 104 => ⟨S1600000, .i1⟩
  | 105 => ⟨S_, .i32⟩
  | 106 => ⟨S1600000, .i32⟩
  | 107 => ⟨S1600000, .i32⟩
  | 108 => ⟨S1600000, .i32⟩
  | 109 => ⟨S1600000x1, .i32⟩
  | 110 => ⟨S1600000x128, .f32⟩
  | 111 => ⟨S_, .f32⟩
  | 112 => ⟨S100000x128, .f32⟩
  | 113 => ⟨S1600000x1, .i32⟩
  | 114 => ⟨S100000x128, .f32⟩
  | 115 => ⟨S1x128x128, .f32⟩
  | 116 => ⟨S128x128, .f32⟩
  | 117 => ⟨S1x128, .f32⟩
  | 118 => ⟨S128, .f32⟩
  | 119 => ⟨S1x128, .f32⟩
  | 120 => ⟨S100000x128, .f32⟩
  | 121 => ⟨S2x128, .f32⟩
  | 122 => ⟨S1x128, .f32⟩
  | 123 => ⟨S_, .f32⟩
  | 124 => ⟨S1x128, .f32⟩
  | 125 => ⟨S1x128, .f32⟩
  | 126 => ⟨S1x128, .f32⟩
  | 127 => ⟨S_, .f32⟩
  | _ => ⟨S100000x128, .f32⟩

abbrev hbmTy0_1 (i : Nat) : BufTy := match i % 128 with
  | 0 => ⟨S1x128, .f32⟩
  | 1 => ⟨S1x128, .f32⟩
  | 2 => ⟨S1x128, .f32⟩
  | 3 => ⟨S1x128, .f32⟩
  | 4 => ⟨S1x128, .f32⟩
  | 5 => ⟨S128, .f32⟩
  | 6 => ⟨S1x128, .f32⟩
  | 7 => ⟨S1x128, .f32⟩
  | 8 => ⟨S128, .f32⟩
  | 9 => ⟨S1x128, .f32⟩
  | 10 => ⟨S1x128x128, .f32⟩
  | 11 => ⟨S128x128, .f32⟩
  | 12 => ⟨S1x128, .f32⟩
  | 13 => ⟨S128, .f32⟩
  | 14 => ⟨S1x128, .f32⟩
  | 15 => ⟨S100000x128, .f32⟩
  | 16 => ⟨S1x128, .f32⟩
  | 17 => ⟨S1x64, .f32⟩
  | 18 => ⟨S1024x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S2x128, .f32⟩
  | .local _ .vmem, ⟨9, _⟩ => ⟨S1x128, .f32⟩
  | .local _ .vmem, ⟨10, _⟩ => ⟨S1x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S128x128, .f32⟩
  | .local _ .vmem, ⟨18, _⟩ => ⟨S1x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S128x128, .f32⟩
  | .local _ .vmem, ⟨26, _⟩ => ⟨S1x128, .f32⟩
  | .local _ .vmem, ⟨27, _⟩ => ⟨S5000x128, .f32⟩
  | .local _ .vmem, ⟨28, _⟩ => ⟨S5000x128, .f32⟩
  | .local _ .vmem, ⟨29, _⟩ => ⟨S2x128, .f32⟩
  | .local _ .vmem, ⟨30, _⟩ => ⟨S1x128, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S128x128, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S128x128, .f32⟩
  | .local _ .vmem, ⟨47, _⟩ => ⟨S1x128, .f32⟩
  | .local _ .vmem, ⟨48, _⟩ => ⟨S5000x128, .f32⟩
  | .local _ .vmem, ⟨49, _⟩ => ⟨S5000x128, .f32⟩
  | .local _ .vmem, ⟨50, _⟩ => ⟨S2x128, .f32⟩
  | .local _ .vmem, ⟨51, _⟩ => ⟨S1x128, .f32⟩
  | .local _ .vmem, ⟨52, _⟩ => ⟨S1x128, .f32⟩
  | .local _ .vmem, ⟨53, _⟩ => ⟨S5000x128, .f32⟩
  | .local _ .vmem, ⟨54, _⟩ => ⟨S5000x128, .f32⟩
  | .local _ .vmem, ⟨55, _⟩ => ⟨S1x128, .f32⟩
  | .local _ .vmem, ⟨56, _⟩ => ⟨S1x128, .f32⟩
  | .local _ .vmem, ⟨57, _⟩ => ⟨S1x128, .f32⟩
  | .local _ .vmem, ⟨58, _⟩ => ⟨S1x128, .f32⟩
  | .local _ .vmem, ⟨59, _⟩ => ⟨S128x128, .f32⟩
  | .local _ .vmem, ⟨60, _⟩ => ⟨S1x128, .f32⟩
  | .local _ .vmem, ⟨61, _⟩ => ⟨S5000x128, .f32⟩
  | .local _ .vmem, ⟨62, _⟩ => ⟨S5000x128, .f32⟩
  | .local _ .vmem, ⟨63, _⟩ => ⟨S5000x128, .f32⟩
  | .local _ .vmem, ⟨64, _⟩ => ⟨S5000x128, .f32⟩
  | .local _ .vmem, ⟨65, _⟩ => ⟨S5000x1, .i32⟩
  | .local _ .vmem, ⟨66, _⟩ => ⟨S5000x1, .i32⟩
  | .local _ .vmem, ⟨67, _⟩ => ⟨S128x128, .f32⟩
  | .local _ .vmem, ⟨68, _⟩ => ⟨S1x128, .f32⟩
  | .local _ .vmem, ⟨69, _⟩ => ⟨S128x64, .f32⟩
  | .local _ .vmem, ⟨70, _⟩ => ⟨S1x64, .f32⟩
  | .local _ .vmem, ⟨71, _⟩ => ⟨S1024x64, .f32⟩
  | .local _ .vmem, ⟨72, _⟩ => ⟨S1024x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c : Ref sig .tc := ⟨.hbm, 18, rfl⟩
abbrev main_v5 : Ref sig .tc := ⟨.hbm, 19, rfl⟩
abbrev main_v6 : Ref sig .tc := ⟨.hbm, 20, rfl⟩
abbrev main_c_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20_0 : Ref sig .tc := ⟨.hbm, 36, rfl⟩
abbrev main_v20_1 : Ref sig .tc := ⟨.hbm, 37, rfl⟩
abbrev main_v21 : Ref sig .tc := ⟨.hbm, 38, rfl⟩
abbrev main_cst_1 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_2 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_c_3 : Ref sig .tc := ⟨.hbm, 60, rfl⟩
abbrev main_v41 : Ref sig .tc := ⟨.hbm, 61, rfl⟩
abbrev main_v42 : Ref sig .tc := ⟨.hbm, 62, rfl⟩
abbrev main_c_4 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_5 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56_0 : Ref sig .tc := ⟨.hbm, 78, rfl⟩
abbrev main_v56_1 : Ref sig .tc := ⟨.hbm, 79, rfl⟩
abbrev main_v57 : Ref sig .tc := ⟨.hbm, 80, rfl⟩
abbrev main_cst_6 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_7 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_c_8 : Ref sig .tc := ⟨.hbm, 102, rfl⟩
abbrev main_v77 : Ref sig .tc := ⟨.hbm, 103, rfl⟩
abbrev main_v78 : Ref sig .tc := ⟨.hbm, 104, rfl⟩
abbrev main_c_9 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_cst_10 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92_0 : Ref sig .tc := ⟨.hbm, 120, rfl⟩
abbrev main_v92_1 : Ref sig .tc := ⟨.hbm, 121, rfl⟩
abbrev main_v93 : Ref sig .tc := ⟨.hbm, 122, rfl⟩
abbrev main_cst_11 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_cst_12 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_scratch0 : Ref sig .tc := ⟨.vmem, 9, rfl⟩
abbrev cc0_scratch1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg7_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg4_1 : Ref sig .tc := ⟨.vmem, 28, rfl⟩
abbrev cc2_stg5_0 : Ref sig .tc := ⟨.vmem, 29, rfl⟩
abbrev cc2_scratch0 : Ref sig .tc := ⟨.vmem, 30, rfl⟩
abbrev cc2_scratch1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg6_0 : Ref sig .tc := ⟨.vmem, 39, rfl⟩
abbrev cc3_stg7_0 : Ref sig .tc := ⟨.vmem, 40, rfl⟩
abbrev cc3_stg7_1 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg1_1 : Ref sig .tc := ⟨.vmem, 45, rfl⟩
abbrev cc4_stg2_0 : Ref sig .tc := ⟨.vmem, 46, rfl⟩
abbrev cc4_stg3_0 : Ref sig .tc := ⟨.vmem, 47, rfl⟩
abbrev cc4_stg4_0 : Ref sig .tc := ⟨.vmem, 48, rfl⟩
abbrev cc4_stg4_1 : Ref sig .tc := ⟨.vmem, 49, rfl⟩
abbrev cc4_stg5_0 : Ref sig .tc := ⟨.vmem, 50, rfl⟩
abbrev cc4_scratch0 : Ref sig .tc := ⟨.vmem, 51, rfl⟩
abbrev cc4_scratch1 : Ref sig .tc := ⟨.vmem, 52, rfl⟩
abbrev cc5_stg0_0 : Ref sig .tc := ⟨.vmem, 53, rfl⟩
abbrev cc5_stg0_1 : Ref sig .tc := ⟨.vmem, 54, rfl⟩
abbrev cc5_stg1_0 : Ref sig .tc := ⟨.vmem, 55, rfl⟩
abbrev cc5_stg2_0 : Ref sig .tc := ⟨.vmem, 56, rfl⟩
abbrev cc5_stg3_0 : Ref sig .tc := ⟨.vmem, 57, rfl⟩
abbrev cc5_stg4_0 : Ref sig .tc := ⟨.vmem, 58, rfl⟩
abbrev cc5_stg5_0 : Ref sig .tc := ⟨.vmem, 59, rfl⟩
abbrev cc5_stg6_0 : Ref sig .tc := ⟨.vmem, 60, rfl⟩
abbrev cc5_stg7_0 : Ref sig .tc := ⟨.vmem, 61, rfl⟩
abbrev cc5_stg7_1 : Ref sig .tc := ⟨.vmem, 62, rfl⟩
abbrev cc6_stg0_0 : Ref sig .tc := ⟨.vmem, 63, rfl⟩
abbrev cc6_stg0_1 : Ref sig .tc := ⟨.vmem, 64, rfl⟩
abbrev cc6_stg1_0 : Ref sig .tc := ⟨.vmem, 65, rfl⟩
abbrev cc6_stg1_1 : Ref sig .tc := ⟨.vmem, 66, rfl⟩
abbrev cc6_stg2_0 : Ref sig .tc := ⟨.vmem, 67, rfl⟩
abbrev cc6_stg3_0 : Ref sig .tc := ⟨.vmem, 68, rfl⟩
abbrev cc6_stg4_0 : Ref sig .tc := ⟨.vmem, 69, rfl⟩
abbrev cc6_stg5_0 : Ref sig .tc := ⟨.vmem, 70, rfl⟩
abbrev cc6_stg6_0 : Ref sig .tc := ⟨.vmem, 71, rfl⟩
abbrev cc6_scratch0 : Ref sig .tc := ⟨.vmem, 72, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem7_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem4_0 : DmaSem sig := 25
abbrev cc2_sem4_1 : DmaSem sig := 26
abbrev cc2_sem5_0 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem6_0 : DmaSem sig := 35
abbrev cc3_sem7_0 : DmaSem sig := 36
abbrev cc3_sem7_1 : DmaSem sig := 37
abbrev cc4_sem0_0 : DmaSem sig := 38
abbrev cc4_sem0_1 : DmaSem sig := 39
abbrev cc4_sem1_0 : DmaSem sig := 40
abbrev cc4_sem1_1 : DmaSem sig := 41
abbrev cc4_sem2_0 : DmaSem sig := 42
abbrev cc4_sem3_0 : DmaSem sig := 43
abbrev cc4_sem4_0 : DmaSem sig := 44
abbrev cc4_sem4_1 : DmaSem sig := 45
abbrev cc4_sem5_0 : DmaSem sig := 46
abbrev cc5_sem0_0 : DmaSem sig := 47
abbrev cc5_sem0_1 : DmaSem sig := 48
abbrev cc5_sem1_0 : DmaSem sig := 49
abbrev cc5_sem2_0 : DmaSem sig := 50
abbrev cc5_sem3_0 : DmaSem sig := 51
abbrev cc5_sem4_0 : DmaSem sig := 52
abbrev cc5_sem5_0 : DmaSem sig := 53
abbrev cc5_sem6_0 : DmaSem sig := 54
abbrev cc5_sem7_0 : DmaSem sig := 55
abbrev cc5_sem7_1 : DmaSem sig := 56
abbrev cc6_sem0_0 : DmaSem sig := 57
abbrev cc6_sem0_1 : DmaSem sig := 58
abbrev cc6_sem1_0 : DmaSem sig := 59
abbrev cc6_sem1_1 : DmaSem sig := 60
abbrev cc6_sem2_0 : DmaSem sig := 61
abbrev cc6_sem3_0 : DmaSem sig := 62
abbrev cc6_sem4_0 : DmaSem sig := 63
abbrev cc6_sem5_0 : DmaSem sig := 64
abbrev cc6_sem6_0 : DmaSem sig := 65

abbrev nD : Nat := 1
abbrev τ : Topo := Topo.v7x

variable {F : FTy → Type} [FloatOps F]

abbrev grid0 : Pipeline.Grid := ⟨1, ![20], ![false]⟩

def k0_cond2 (i : grid0.Coords) : BitVec 1 :=
  let arg0 : BitVec 32 := BitVec.ofNat 32 (i 0).val
  let c19_i32 : BitVec 32 := 19#32
  let v32 : BitVec 1 := Scalar.cmpi .eq arg0 c19_i32
  let v33 : BitVec 32 := Scalar.extui v32
  let c0_i32_20 : BitVec 32 := 0#32
  let v34 : BitVec 1 := Scalar.cmpi .ne v33 c0_i32_20
  v34

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![20], ![false]⟩

def k2_cond2 (i : grid2.Coords) : BitVec 1 :=
  let arg0 : BitVec 32 := BitVec.ofNat 32 (i 0).val
  let c19_i32 : BitVec 32 := 19#32
  let v33 : BitVec 1 := Scalar.cmpi .eq arg0 c19_i32
  let v34 : BitVec 32 := Scalar.extui v33
  let c0_i32_20 : BitVec 32 := 0#32
  let v35 : BitVec 1 := Scalar.cmpi .ne v34 c0_i32_20
  v35

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S2x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S5000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![20], ![false]⟩

def k4_cond2 (i : grid4.Coords) : BitVec 1 :=
  let arg0 : BitVec 32 := BitVec.ofNat 32 (i 0).val
  let c19_i32 : BitVec 32 := 19#32
  let v33 : BitVec 1 := Scalar.cmpi .eq arg0 c19_i32
  let v34 : BitVec 32 := Scalar.extui v33
  let c0_i32_20 : BitVec 32 := 0#32
  let v35 : BitVec 1 := Scalar.cmpi .ne v34 c0_i32_20
  v35

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S2x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S5000x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![20], ![false]⟩

def k6_cond2 (i : grid6.Coords) : BitVec 1 :=
  let arg0 : BitVec 32 := BitVec.ofNat 32 (i 0).val
  let c19_i32 : BitVec 32 := 19#32
  let v22 : BitVec 1 := Scalar.cmpi .eq arg0 c19_i32
  let v23 : BitVec 32 := Scalar.extui v22
  let c0_i32_10 : BitVec 32 := 0#32
  let v24 : BitVec 1 := Scalar.cmpi .ne v23 c0_i32_10
  v24

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x1 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S128x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x64 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1024x64 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S100000_S100000x1 : S100000.ShapeCasts S100000x1
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S5000x128 : S1x128.Broadcasts S5000x128
  reduces_S5000x128_S128 : S5000x128.Reduces [0] S128
  inb_S2x128_S1x128_0_0 : ∀ a, (![0, 0] : Fin 2 → Nat) a + S1x128.size a ≤ S2x128.size a
  inb_S2x128_S1x128_1_0 : ∀ a, (![1, 0] : Fin 2 → Nat) a + S1x128.size a ≤ S2x128.size a
  slices_S2x128_S1x128_0_0 : S2x128.Slices ![0, 0] S1x128
  bcast_S_S1x128 : S_.BroadcastsInDim S1x128 (![] : Fin 0 → Fin S1x128.rank)
  slices_S2x128_S1x128_1_0 : S2x128.Slices ![1, 0] S1x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  shapeCasts_S64_S1x64 : S64.ShapeCasts S1x64
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  iota_S1x1024_d1_w32 : S1x1024.Iotas .tc 32 [1]
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x1024 : S5000x1.Broadcasts S5000x1024
  broadcasts_S1x1024_S5000x1024 : S1x1024.Broadcasts S5000x1024
  broadcasts_S1x128_S1024x128 : S1x128.Broadcasts S1024x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  inb_S1024x64_S1024x64_0_0 : ∀ a, (![0, 0] : Fin 2 → Nat) a + S1024x64.size a ≤ S1024x64.size a
  h_S1024x64 : 0 < S1024x64.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x1024_S5000x128_S1024x128_0_0_1_1_n_n_wf : DotDims.WF S5000x1024 S5000x128 S1024x128 [0] [0] [1] [1] [] []
  dot_S1024x128_S128x128_S1024x128_1_0_0_1_n_n_wf : DotDims.WF S1024x128 S128x128 S1024x128 [1] [0] [0] [1] [] []
  dot_S1024x128_S128x64_S1024x64_1_0_0_1_n_n_wf : DotDims.WF S1024x128 S128x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x128.size a ≤ S2x128.size a
  hwx0_5 : ∀ i : grid0.Coords, EltTy.bits .f32 = 32 ∨ (Rect.block (s := S2x128) S2x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S100000x128.size a
  hwx1_7 : ∀ i : grid1.Coords, EltTy.bits .f32 = 32 ∨ (Rect.block (s := S100000x128) S5000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S100000x128.size a
  hwx2_4 : ∀ i : grid2.Coords, EltTy.bits .f32 = 32 ∨ (Rect.block (s := S100000x128) S5000x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S2x128.size a ≤ S2x128.size a
  hwx2_5 : ∀ i : grid2.Coords, EltTy.bits .f32 = 32 ∨ (Rect.block (s := S2x128) S2x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x128.size a ≤ S100000x128.size a
  hwx3_7 : ∀ i : grid3.Coords, EltTy.bits .f32 = 32 ∨ (Rect.block (s := S100000x128) S5000x128.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S100000x128.size a
  hwx4_4 : ∀ i : grid4.Coords, EltTy.bits .f32 = 32 ∨ (Rect.block (s := S100000x128) S5000x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S2x128.size a ≤ S2x128.size a
  hwx4_5 : ∀ i : grid4.Coords, EltTy.bits .f32 = 32 ∨ (Rect.block (s := S2x128) S2x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128x128.size a ≤ S128x128.size a
  hwx5_5 : ∀ i : grid5.Coords, EltTy.bits .f32 = 32 ∨ (Rect.block (s := S128x128) S128x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S5000x128.size a ≤ S100000x128.size a
  hwx5_7 : ∀ i : grid5.Coords, EltTy.bits .f32 = 32 ∨ (Rect.block (s := S100000x128) S5000x128.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x1.size a ≤ S100000x1.size a
  hwx6_1 : ∀ i : grid6.Coords, EltTy.bits .i32 = 32 ∨ (Rect.block (s := S100000x1) S5000x1.size (cc6_transform_1 i) (hinb6_1 i)).WholeWords (EltTy.packing .i32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .f32 = 32 ∨ (Rect.block (s := S128x128) S128x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S128x64.size a ≤ S128x64.size a
  hwx6_4 : ∀ i : grid6.Coords, EltTy.bits .f32 = 32 ∨ (Rect.block (s := S128x64) S128x64.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x64.size a ≤ S1x64.size a
  hwx6_5 : ∀ i : grid6.Coords, EltTy.bits .f32 = 32 ∨ (Rect.block (s := S1x64) S1x64.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1024x64.size a ≤ S1024x64.size a
  hwx6_6 : ∀ i : grid6.Coords, EltTy.bits .f32 = 32 ∨ (Rect.block (s := S1024x64) S1024x64.size (cc6_transform_6 i) (hinb6_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x1024_S5000x128_S1024x128_0_0_1_1_n_n : DotDims S5000x1024 S5000x128 S1024x128 where
  lhsContracting := [0]
  rhsContracting := [0]
  lhsNonContracting := [1]
  rhsNonContracting := [1]
  lhsBatch := []
  rhsBatch := []
  wf := dot_S5000x1024_S5000x128_S1024x128_0_0_1_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20_0) S5000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v20_1) S2x128.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v20_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v39) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v40) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v40) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v52) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v55) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v56_0) S5000x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v56_1) S2x128.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun _ => false | 5 => fun i => !(k2_cond2 i == 1#1) | ⟨_ + 6, h⟩ => absurd h (Nat.not_lt.2 (Nat.le_add_left _ _))

abbrev win3_0 : Pipeline.Window sig grid3 :=
  Pipeline.Window.ofSpec (Memref.whole main_v56_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v64) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v67) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v70) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v72) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v75) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v76) S5000x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v76) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v86) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v88) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v91) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v92_0) S5000x128.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v92_1) S2x128.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev idle4 : Fin 6 → grid4.Coords → Bool := fun | 0 => fun _ => false | 1 => fun _ => false | 2 => fun _ => false | 3 => fun _ => false | 4 => fun _ => false | 5 => fun i => !(k4_cond2 i == 1#1) | ⟨_ + 6, h⟩ => absurd h (Nat.not_lt.2 (Nat.le_add_left _ _))

abbrev win5_0 : Pipeline.Window sig grid5 :=
  Pipeline.Window.ofSpec (Memref.whole main_v92_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v95) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v100) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v103) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v106) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v108) S128x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v111) S1x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v112) S5000x128.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v112) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v4) S5000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_arg9) S128x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v113) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_arg11) S128x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v114) S1x64.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v115) S1024x64.size cc6_transform_6 reads6_6 true true 1 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev idle6 : Fin 7 → grid6.Coords → Bool := fun | 0 => fun _ => false | 1 => fun _ => false | 2 => fun _ => false | 3 => fun _ => false | 4 => fun _ => false | 5 => fun _ => false | 6 => fun i => !(k6_cond2 i == 1#1) | ⟨_ + 7, h⟩ => absurd h (Nat.not_lt.2 (Nat.le_add_left _ _))

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128x128 : Shape := ⟨3, ![1, 128, 128]⟩
abbrev S1x128 : Shape := ⟨2, ![1, 128]⟩
abbrev S1024x128 : Shape := ⟨2, ![1024, 128]⟩
abbrev S100000x1 : Shape := ⟨2, ![100000, 1]⟩
abbrev S1024x64 : Shape := ⟨2, ![1024, 64]⟩
abbrev S1x64 : Shape := ⟨2, ![1, 64]⟩

abbrev nBuf : Space → Nat
  | .hbm => 284
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S3x128x128, .f32⟩
  | 4 => ⟨S3x128, .f32⟩
  | 5 => ⟨S3x128, .f32⟩
  | 6 => ⟨S3x128, .f32⟩
  | 7 => ⟨S3x128x128, .f32⟩
  | 8 => ⟨S3x128, .f32⟩
  | 9 => ⟨S128x128, .f32⟩
  | 10 => ⟨S128, .f32⟩
  | 11 => ⟨S128x64, .f32⟩
  | 12 => ⟨S64, .f32⟩
  | 13 => ⟨S1x1600000, .i32⟩
  | 14 => ⟨S1600000, .i32⟩
  | 15 => ⟨S1x1600000, .i32⟩
  | 16 => ⟨S1600000, .i32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S1600000x128, .f32⟩
  | 26 => ⟨S_, .f32⟩
  | 27 => ⟨S100000x128, .f32⟩
  | 28 => ⟨S1600000x1, .i32⟩
  | 29 => ⟨S100000x128, .f32⟩
  | 30 => ⟨S100000x128, .f32⟩
  | 31 => ⟨S1x128x128, .f32⟩
  | 32 => ⟨S128x128, .f32⟩
  | 33 => ⟨S100000x128, .f32⟩
  | 34 => ⟨S1x128, .f32⟩
  | 35 => ⟨S128, .f32⟩
  | 36 => ⟨S1x128, .f32⟩
  | 37 => ⟨S100000x128, .f32⟩
  | 38 => ⟨S100000x128, .f32⟩
  | 39 => ⟨S1x128, .f32⟩
  | 40 => ⟨S128, .f32⟩
  | 41 => ⟨S1x128, .f32⟩
  | 42 => ⟨S128, .f32⟩
  | 43 => ⟨S_, .f32⟩
  | 44 => ⟨S128, .f32⟩
  | 45 => ⟨S_, .f32⟩
  | 46 => ⟨S128, .f32⟩
  | 47 => ⟨S128, .f32⟩
  | 48 => ⟨S_, .i32⟩
  | 49 => ⟨S_, .f32⟩
  | 50 => ⟨S128, .f32⟩
  | 51 => ⟨S1x128, .f32⟩
  | 52 => ⟨S_, .f32⟩
  | 53 => ⟨S1x128, .f32⟩
  | 54 => ⟨S1x128, .f32⟩
  | 55 => ⟨S100000x128, .f32⟩
  | 56 => ⟨S100000x128, .f32⟩
  | 57 => ⟨S100000x128, .f32⟩
  | 58 => ⟨S_, .f32⟩
  | 59 => ⟨S_, .f32⟩
  | 60 => ⟨S_, .f32⟩
  | 61 => ⟨S_, .f32⟩
  | 62 => ⟨S128, .f32⟩
  | 63 => ⟨S128, .f32⟩
  | 64 => ⟨S128, .f32⟩
  | 65 => ⟨S_, .f32⟩
  | 66 => ⟨S_, .i1⟩
  | 67 => ⟨S_, .f32⟩
  | 68 => ⟨S_, .f32⟩
  | 69 => ⟨S128, .f32⟩
  | 70 => ⟨S128, .f32⟩
  | 71 => ⟨S1x128, .f32⟩
  | 72 => ⟨S100000x128, .f32⟩
  | 73 => ⟨S100000x128, .f32⟩
  | 74 => ⟨S_, .f32⟩
  | 75 => ⟨S128, .f32⟩
  | 76 => ⟨S128, .f32⟩
  | 77 => ⟨S128, .f32⟩
  | 78 => ⟨S1x128, .f32⟩
  | 79 => ⟨S100000x128, .f32⟩
  | 80 => ⟨S100000x128, .f32⟩
  | 81 => ⟨S1x128, .f32⟩
  | 82 => ⟨S100000x128, .f32⟩
  | 83 => ⟨S100000x128, .f32⟩
  | 84 => ⟨S1x128, .f32⟩
  | 85 => ⟨S100000x128, .f32⟩
  | 86 => ⟨S100000x128, .f32⟩
  | 87 => ⟨S_, .f32⟩
  | 88 => ⟨S100000x128, .f32⟩
  | 89 => ⟨S100000x128, .f32⟩
  | 90 => ⟨S1x128x128, .f32⟩
  | 91 => ⟨S128x128, .f32⟩
  | 92 => ⟨S100000x128, .f32⟩
  | 93 => ⟨S1x128, .f32⟩
  | 94 => ⟨S128, .f32⟩
  | 95 => ⟨S1x128, .f32⟩
  | 96 => ⟨S100000x128, .f32⟩
  | 97 => ⟨S100000x128, .f32⟩
  | 98 => ⟨S_, .f32⟩
  | 99 => ⟨S100000x128, .f32⟩
  | 100 => ⟨S100000x128, .f32⟩
  | 101 => ⟨S_, .i32⟩
  | 102 => ⟨S1600000, .i32⟩
  | 103 => ⟨S1600000, .i1⟩
  | 104 => ⟨S_, .i32⟩
  | 105 => ⟨S1600000, .i32⟩
  | 106 => ⟨S1600000, .i32⟩
  | 107 => ⟨S1600000, .i32⟩
  | 108 => ⟨S1600000x1, .i32⟩
  | 109 => ⟨S1600000x128, .f32⟩
  | 110 => ⟨S_, .f32⟩
  | 111 => ⟨S100000x128, .f32⟩
  | 112 => ⟨S1600000x1, .i32⟩
  | 113 => ⟨S100000x128, .f32⟩
  | 114 => ⟨S100000x128, .f32⟩
  | 115 => ⟨S1x128x128, .f32⟩
  | 116 => ⟨S128x128, .f32⟩
  | 117 => ⟨S100000x128, .f32⟩
  | 118 => ⟨S1x128, .f32⟩
  | 119 => ⟨S128, .f32⟩
  | 120 => ⟨S1x128, .f32⟩
  | 121 => ⟨S100000x128, .f32⟩
  | 122 => ⟨S100000x128, .f32⟩
  | 123 => ⟨S1x128, .f32⟩
  | 124 => ⟨S128, .f32⟩
  | 125 => ⟨S1x128, .f32⟩
  | 126 => ⟨S128, .f32⟩
  | 127 => ⟨S_, .f32⟩
  | _ => ⟨S100000x128, .f32⟩

abbrev hbmTy0_1 (i : Nat) : BufTy := match i % 128 with
  | 0 => ⟨S128, .f32⟩
  | 1 => ⟨S_, .f32⟩
  | 2 => ⟨S128, .f32⟩
  | 3 => ⟨S128, .f32⟩
  | 4 => ⟨S_, .i32⟩
  | 5 => ⟨S_, .f32⟩
  | 6 => ⟨S128, .f32⟩
  | 7 => ⟨S1x128, .f32⟩
  | 8 => ⟨S_, .f32⟩
  | 9 => ⟨S1x128, .f32⟩
  | 10 => ⟨S1x128, .f32⟩
  | 11 => ⟨S100000x128, .f32⟩
  | 12 => ⟨S100000x128, .f32⟩
  | 13 => ⟨S100000x128, .f32⟩
  | 14 => ⟨S_, .f32⟩
  | 15 => ⟨S_, .f32⟩
  | 16 => ⟨S_, .f32⟩
  | 17 => ⟨S_, .f32⟩
  | 18 => ⟨S128, .f32⟩
  | 19 => ⟨S128, .f32⟩
  | 20 => ⟨S128, .f32⟩
  | 21 => ⟨S_, .f32⟩
  | 22 => ⟨S_, .i1⟩
  | 23 => ⟨S_, .f32⟩
  | 24 => ⟨S_, .f32⟩
  | 25 => ⟨S128, .f32⟩
  | 26 => ⟨S128, .f32⟩
  | 27 => ⟨S1x128, .f32⟩
  | 28 => ⟨S100000x128, .f32⟩
  | 29 => ⟨S100000x128, .f32⟩
  | 30 => ⟨S_, .f32⟩
  | 31 => ⟨S128, .f32⟩
  | 32 => ⟨S128, .f32⟩
  | 33 => ⟨S128, .f32⟩
  | 34 => ⟨S1x128, .f32⟩
  | 35 => ⟨S100000x128, .f32⟩
  | 36 => ⟨S100000x128, .f32⟩
  | 37 => ⟨S1x128, .f32⟩
  | 38 => ⟨S100000x128, .f32⟩
  | 39 => ⟨S100000x128, .f32⟩
  | 40 => ⟨S1x128, .f32⟩
  | 41 => ⟨S100000x128, .f32⟩
  | 42 => ⟨S100000x128, .f32⟩
  | 43 => ⟨S_, .f32⟩
  | 44 => ⟨S100000x128, .f32⟩
  | 45 => ⟨S100000x128, .f32⟩
  | 46 => ⟨S1x128x128, .f32⟩
  | 47 => ⟨S128x128, .f32⟩
  | 48 => ⟨S100000x128, .f32⟩
  | 49 => ⟨S1x128, .f32⟩
  | 50 => ⟨S128, .f32⟩
  | 51 => ⟨S1x128, .f32⟩
  | 52 => ⟨S100000x128, .f32⟩
  | 53 => ⟨S100000x128, .f32⟩
  | 54 => ⟨S_, .f32⟩
  | 55 => ⟨S100000x128, .f32⟩
  | 56 => ⟨S100000x128, .f32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S1600000x128, .f32⟩
  | 66 => ⟨S_, .f32⟩
  | 67 => ⟨S100000x128, .f32⟩
  | 68 => ⟨S1600000x1, .i32⟩
  | 69 => ⟨S100000x128, .f32⟩
  | 70 => ⟨S100000x128, .f32⟩
  | 71 => ⟨S1x128x128, .f32⟩
  | 72 => ⟨S128x128, .f32⟩
  | 73 => ⟨S100000x128, .f32⟩
  | 74 => ⟨S1x128, .f32⟩
  | 75 => ⟨S128, .f32⟩
  | 76 => ⟨S1x128, .f32⟩
  | 77 => ⟨S100000x128, .f32⟩
  | 78 => ⟨S100000x128, .f32⟩
  | 79 => ⟨S1x128, .f32⟩
  | 80 => ⟨S128, .f32⟩
  | 81 => ⟨S1x128, .f32⟩
  | 82 => ⟨S128, .f32⟩
  | 83 => ⟨S_, .f32⟩
  | 84 => ⟨S128, .f32⟩
  | 85 => ⟨S_, .f32⟩
  | 86 => ⟨S128, .f32⟩
  | 87 => ⟨S128, .f32⟩
  | 88 => ⟨S_, .i32⟩
  | 89 => ⟨S_, .f32⟩
  | 90 => ⟨S128, .f32⟩
  | 91 => ⟨S1x128, .f32⟩
  | 92 => ⟨S_, .f32⟩
  | 93 => ⟨S1x128, .f32⟩
  | 94 => ⟨S1x128, .f32⟩
  | 95 => ⟨S100000x128, .f32⟩
  | 96 => ⟨S100000x128, .f32⟩
  | 97 => ⟨S100000x128, .f32⟩
  | 98 => ⟨S_, .f32⟩
  | 99 => ⟨S_, .f32⟩
  | 100 => ⟨S_, .f32⟩
  | 101 => ⟨S_, .f32⟩
  | 102 => ⟨S128, .f32⟩
  | 103 => ⟨S128, .f32⟩
  | 104 => ⟨S128, .f32⟩
  | 105 => ⟨S_, .f32⟩
  | 106 => ⟨S_, .i1⟩
  | 107 => ⟨S_, .f32⟩
  | 108 => ⟨S_, .f32⟩
  | 109 => ⟨S128, .f32⟩
  | 110 => ⟨S128, .f32⟩
  | 111 => ⟨S1x128, .f32⟩
  | 112 => ⟨S100000x128, .f32⟩
  | 113 => ⟨S100000x128, .f32⟩
  | 114 => ⟨S_, .f32⟩
  | 115 => ⟨S128, .f32⟩
  | 116 => ⟨S128, .f32⟩
  | 117 => ⟨S128, .f32⟩
  | 118 => ⟨S1x128, .f32⟩
  | 119 => ⟨S100000x128, .f32⟩
  | 120 => ⟨S100000x128, .f32⟩
  | 121 => ⟨S1x128, .f32⟩
  | 122 => ⟨S100000x128, .f32⟩
  | 123 => ⟨S100000x128, .f32⟩
  | 124 => ⟨S1x128, .f32⟩
  | 125 => ⟨S100000x128, .f32⟩
  | 126 => ⟨S100000x128, .f32⟩
  | 127 => ⟨S_, .f32⟩
  | _ => ⟨S100000x128, .f32⟩

abbrev hbmTy0_2 (i : Nat) : BufTy := match i % 128 with
  | 0 => ⟨S100000x128, .f32⟩
  | 1 => ⟨S100000x128, .f32⟩
  | 2 => ⟨S1x128x128, .f32⟩
  | 3 => ⟨S128x128, .f32⟩
  | 4 => ⟨S100000x128, .f32⟩
  | 5 => ⟨S1x128, .f32⟩
  | 6 => ⟨S128, .f32⟩
  | 7 => ⟨S1x128, .f32⟩
  | 8 => ⟨S100000x128, .f32⟩
  | 9 => ⟨S100000x128, .f32⟩
  | 10 => ⟨S_, .f32⟩
  | 11 => ⟨S100000x128, .f32⟩
  | 12 => ⟨S100000x128, .f32⟩
  | 13 => ⟨S_, .f32⟩
  | 14 => ⟨S1024x128, .f32⟩
  | 15 => ⟨S100000x1, .i32⟩
  | 16 => ⟨S1024x128, .f32⟩
  | 17 => ⟨S1024x128, .f32⟩
  | 18 => ⟨S1x128, .f32⟩
  | 19 => ⟨S1024x128, .f32⟩
  | 20 => ⟨S1024x128, .f32⟩
  | 21 => ⟨S_, .f32⟩
  | 22 => ⟨S1024x128, .f32⟩
  | 23 => ⟨S1024x128, .f32⟩
  | 24 => ⟨S1024x64, .f32⟩
  | 25 => ⟨S1x64, .f32⟩
  | 26 => ⟨S1024x64, .f32⟩
  | 27 => ⟨S1024x64, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_1 : Ref sig .tc := ⟨.hbm, 43, rfl⟩
abbrev main_v27 : Ref sig .tc := ⟨.hbm, 44, rfl⟩
abbrev main_cst_2 : Ref sig .tc := ⟨.hbm, 45, rfl⟩
abbrev main_v28 : Ref sig .tc := ⟨.hbm, 46, rfl⟩
abbrev main_v29 : Ref sig .tc := ⟨.hbm, 47, rfl⟩
abbrev main_c_3 : Ref sig .tc := ⟨.hbm, 48, rfl⟩
abbrev main_call0_cst : Ref sig .tc := ⟨.hbm, 49, rfl⟩
abbrev main_call0_v0 : Ref sig .tc := ⟨.hbm, 50, rfl⟩
abbrev main_call0_v1 : Ref sig .tc := ⟨.hbm, 51, rfl⟩
abbrev main_call0_cst_0 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_call0_v5 : Ref sig .tc := ⟨.hbm, 56, rfl⟩
abbrev main_call0_v6 : Ref sig .tc := ⟨.hbm, 57, rfl⟩
abbrev main_call0_v7 : Ref sig .tc := ⟨.hbm, 58, rfl⟩
abbrev main_call0_cst_1 : Ref sig .tc := ⟨.hbm, 59, rfl⟩
abbrev main_call0_v8 : Ref sig .tc := ⟨.hbm, 60, rfl⟩
abbrev main_call0_cst_2 : Ref sig .tc := ⟨.hbm, 61, rfl⟩
abbrev main_call0_v9 : Ref sig .tc := ⟨.hbm, 62, rfl⟩
abbrev main_call0_v10 : Ref sig .tc := ⟨.hbm, 63, rfl⟩
abbrev main_call0_v11 : Ref sig .tc := ⟨.hbm, 64, rfl⟩
abbrev main_call0_cst_3 : Ref sig .tc := ⟨.hbm, 65, rfl⟩
abbrev main_call0_v12 : Ref sig .tc := ⟨.hbm, 66, rfl⟩
abbrev main_call0_cst_4 : Ref sig .tc := ⟨.hbm, 67, rfl⟩
abbrev main_call0_call0_v0 : Ref sig .tc := ⟨.hbm, 68, rfl⟩
abbrev main_call0_call0_v1 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_cst_4 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_call1_cst : Ref sig .tc := ⟨.hbm, 87, rfl⟩
abbrev main_call1_v0 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_call2_cst : Ref sig .tc := ⟨.hbm, 98, rfl⟩
abbrev main_call2_v0 : Ref sig .tc := ⟨.hbm, 99, rfl⟩
abbrev main_v55 : Ref sig .tc := ⟨.hbm, 100, rfl⟩
abbrev main_c_5 : Ref sig .tc := ⟨.hbm, 101, rfl⟩
abbrev main_v56 : Ref sig .tc := ⟨.hbm, 102, rfl⟩
abbrev main_v57 : Ref sig .tc := ⟨.hbm, 103, rfl⟩
abbrev main_c_6 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_cst_7 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_cst_8 : Ref sig .tc := ⟨.hbm, 127, rfl⟩
abbrev main_v79 : Ref sig .tc := ⟨.hbm, 128, rfl⟩
abbrev main_cst_9 : Ref sig .tc := ⟨.hbm, 129, rfl⟩
abbrev main_v80 : Ref sig .tc := ⟨.hbm, 130, rfl⟩
abbrev main_v81 : Ref sig .tc := ⟨.hbm, 131, rfl⟩
abbrev main_c_10 : Ref sig .tc := ⟨.hbm, 132, rfl⟩
abbrev main_call3_cst : Ref sig .tc := ⟨.hbm, 133, rfl⟩
abbrev main_call3_v0 : Ref sig .tc := ⟨.hbm, 134, rfl⟩
abbrev main_call3_v1 : Ref sig .tc := ⟨.hbm, 135, rfl⟩
abbrev main_call3_cst_0 : Ref sig .tc := ⟨.hbm, 136, rfl⟩
abbrev main_call3_v2 : Ref sig .tc := ⟨.hbm, 137, rfl⟩
abbrev main_call3_v3 : Ref sig .tc := ⟨.hbm, 138, rfl⟩
abbrev main_call3_v4 : Ref sig .tc := ⟨.hbm, 139, rfl⟩
abbrev main_call3_v5 : Ref sig .tc := ⟨.hbm, 140, rfl⟩
abbrev main_call3_v6 : Ref sig .tc := ⟨.hbm, 141, rfl⟩
abbrev main_call3_v7 : Ref sig .tc := ⟨.hbm, 142, rfl⟩
abbrev main_call3_cst_1 : Ref sig .tc := ⟨.hbm, 143, rfl⟩
abbrev main_call3_v8 : Ref sig .tc := ⟨.hbm, 144, rfl⟩
abbrev main_call3_cst_2 : Ref sig .tc := ⟨.hbm, 145, rfl⟩
abbrev main_call3_v9 : Ref sig .tc := ⟨.hbm, 146, rfl⟩
abbrev main_call3_v10 : Ref sig .tc := ⟨.hbm, 147, rfl⟩
abbrev main_call3_v11 : Ref sig .tc := ⟨.hbm, 148, rfl⟩
abbrev main_call3_cst_3 : Ref sig .tc := ⟨.hbm, 149, rfl⟩
abbrev main_call3_v12 : Ref sig .tc := ⟨.hbm, 150, rfl⟩
abbrev main_call3_cst_4 : Ref sig .tc := ⟨.hbm, 151, rfl⟩
abbrev main_call3_call0_v0 : Ref sig .tc := ⟨.hbm, 152, rfl⟩
abbrev main_call3_call0_v1 : Ref sig .tc := ⟨.hbm, 153, rfl⟩
abbrev main_v82 : Ref sig .tc := ⟨.hbm, 154, rfl⟩
abbrev main_v83 : Ref sig .tc := ⟨.hbm, 155, rfl⟩
abbrev main_v84 : Ref sig .tc := ⟨.hbm, 156, rfl⟩
abbrev main_v85 : Ref sig .tc := ⟨.hbm, 157, rfl⟩
abbrev main_cst_11 : Ref sig .tc := ⟨.hbm, 158, rfl⟩
abbrev main_v86 : Ref sig .tc := ⟨.hbm, 159, rfl⟩
abbrev main_v87 : Ref sig .tc := ⟨.hbm, 160, rfl⟩
abbrev main_v88 : Ref sig .tc := ⟨.hbm, 161, rfl⟩
abbrev main_v89 : Ref sig .tc := ⟨.hbm, 162, rfl⟩
abbrev main_v90 : Ref sig .tc := ⟨.hbm, 163, rfl⟩
abbrev main_v91 : Ref sig .tc := ⟨.hbm, 164, rfl⟩
abbrev main_v92 : Ref sig .tc := ⟨.hbm, 165, rfl⟩
abbrev main_v93 : Ref sig .tc := ⟨.hbm, 166, rfl⟩
abbrev main_v94 : Ref sig .tc := ⟨.hbm, 167, rfl⟩
abbrev main_v95 : Ref sig .tc := ⟨.hbm, 168, rfl⟩
abbrev main_v96 : Ref sig .tc := ⟨.hbm, 169, rfl⟩
abbrev main_v97 : Ref sig .tc := ⟨.hbm, 170, rfl⟩
abbrev main_call4_cst : Ref sig .tc := ⟨.hbm, 171, rfl⟩
abbrev main_call4_v0 : Ref sig .tc := ⟨.hbm, 172, rfl⟩
abbrev main_v98 : Ref sig .tc := ⟨.hbm, 173, rfl⟩
abbrev main_v99 : Ref sig .tc := ⟨.hbm, 174, rfl⟩
abbrev main_v100 : Ref sig .tc := ⟨.hbm, 175, rfl⟩
abbrev main_v101 : Ref sig .tc := ⟨.hbm, 176, rfl⟩
abbrev main_v102 : Ref sig .tc := ⟨.hbm, 177, rfl⟩
abbrev main_v103 : Ref sig .tc := ⟨.hbm, 178, rfl⟩
abbrev main_v104 : Ref sig .tc := ⟨.hbm, 179, rfl⟩
abbrev main_v105 : Ref sig .tc := ⟨.hbm, 180, rfl⟩
abbrev main_v106 : Ref sig .tc := ⟨.hbm, 181, rfl⟩
abbrev main_call5_cst : Ref sig .tc := ⟨.hbm, 182, rfl⟩
abbrev main_call5_v0 : Ref sig .tc := ⟨.hbm, 183, rfl⟩
abbrev main_v107 : Ref sig .tc := ⟨.hbm, 184, rfl⟩
abbrev main_c_12 : Ref sig .tc := ⟨.hbm, 185, rfl⟩
abbrev main_v108 : Ref sig .tc := ⟨.hbm, 186, rfl⟩
abbrev main_v109 : Ref sig .tc := ⟨.hbm, 187, rfl⟩
abbrev main_c_13 : Ref sig .tc := ⟨.hbm, 188, rfl⟩
abbrev main_v110 : Ref sig .tc := ⟨.hbm, 189, rfl⟩
abbrev main_v111 : Ref sig .tc := ⟨.hbm, 190, rfl⟩
abbrev main_v112 : Ref sig .tc := ⟨.hbm, 191, rfl⟩
abbrev main_v113 : Ref sig .tc := ⟨.hbm, 192, rfl⟩
abbrev main_v114 : Ref sig .tc := ⟨.hbm, 193, rfl⟩
abbrev main_cst_14 : Ref sig .tc := ⟨.hbm, 194, rfl⟩
abbrev main_v115 : Ref sig .tc := ⟨.hbm, 195, rfl⟩
abbrev main_v116 : Ref sig .tc := ⟨.hbm, 196, rfl⟩
abbrev main_v117 : Ref sig .tc := ⟨.hbm, 197, rfl⟩
abbrev main_v118 : Ref sig .tc := ⟨.hbm, 198, rfl⟩
abbrev main_v119 : Ref sig .tc := ⟨.hbm, 199, rfl⟩
abbrev main_v120 : Ref sig .tc := ⟨.hbm, 200, rfl⟩
abbrev main_v121 : Ref sig .tc := ⟨.hbm, 201, rfl⟩
abbrev main_v122 : Ref sig .tc := ⟨.hbm, 202, rfl⟩
abbrev main_v123 : Ref sig .tc := ⟨.hbm, 203, rfl⟩
abbrev main_v124 : Ref sig .tc := ⟨.hbm, 204, rfl⟩
abbrev main_v125 : Ref sig .tc := ⟨.hbm, 205, rfl⟩
abbrev main_v126 : Ref sig .tc := ⟨.hbm, 206, rfl⟩
abbrev main_v127 : Ref sig .tc := ⟨.hbm, 207, rfl⟩
abbrev main_v128 : Ref sig .tc := ⟨.hbm, 208, rfl⟩
abbrev main_v129 : Ref sig .tc := ⟨.hbm, 209, rfl⟩
abbrev main_v130 : Ref sig .tc := ⟨.hbm, 210, rfl⟩
abbrev main_cst_15 : Ref sig .tc := ⟨.hbm, 211, rfl⟩
abbrev main_v131 : Ref sig .tc := ⟨.hbm, 212, rfl⟩
abbrev main_cst_16 : Ref sig .tc := ⟨.hbm, 213, rfl⟩
abbrev main_v132 : Ref sig .tc := ⟨.hbm, 214, rfl⟩
abbrev main_v133 : Ref sig .tc := ⟨.hbm, 215, rfl⟩
abbrev main_c_17 : Ref sig .tc := ⟨.hbm, 216, rfl⟩
abbrev main_call6_cst : Ref sig .tc := ⟨.hbm, 217, rfl⟩
abbrev main_call6_v0 : Ref sig .tc := ⟨.hbm, 218, rfl⟩
abbrev main_call6_v1 : Ref sig .tc := ⟨.hbm, 219, rfl⟩
abbrev main_call6_cst_0 : Ref sig .tc := ⟨.hbm, 220, rfl⟩
abbrev main_call6_v2 : Ref sig .tc := ⟨.hbm, 221, rfl⟩
abbrev main_call6_v3 : Ref sig .tc := ⟨.hbm, 222, rfl⟩
abbrev main_call6_v4 : Ref sig .tc := ⟨.hbm, 223, rfl⟩
abbrev main_call6_v5 : Ref sig .tc := ⟨.hbm, 224, rfl⟩
abbrev main_call6_v6 : Ref sig .tc := ⟨.hbm, 225, rfl⟩
abbrev main_call6_v7 : Ref sig .tc := ⟨.hbm, 226, rfl⟩
abbrev main_call6_cst_1 : Ref sig .tc := ⟨.hbm, 227, rfl⟩
abbrev main_call6_v8 : Ref sig .tc := ⟨.hbm, 228, rfl⟩
abbrev main_call6_cst_2 : Ref sig .tc := ⟨.hbm, 229, rfl⟩
abbrev main_call6_v9 : Ref sig .tc := ⟨.hbm, 230, rfl⟩
abbrev main_call6_v10 : Ref sig .tc := ⟨.hbm, 231, rfl⟩
abbrev main_call6_v11 : Ref sig .tc := ⟨.hbm, 232, rfl⟩
abbrev main_call6_cst_3 : Ref sig .tc := ⟨.hbm, 233, rfl⟩
abbrev main_call6_v12 : Ref sig .tc := ⟨.hbm, 234, rfl⟩
abbrev main_call6_cst_4 : Ref sig .tc := ⟨.hbm, 235, rfl⟩
abbrev main_call6_call0_v0 : Ref sig .tc := ⟨.hbm, 236, rfl⟩
abbrev main_call6_call0_v1 : Ref sig .tc := ⟨.hbm, 237, rfl⟩
abbrev main_v134 : Ref sig .tc := ⟨.hbm, 238, rfl⟩
abbrev main_v135 : Ref sig .tc := ⟨.hbm, 239, rfl⟩
abbrev main_v136 : Ref sig .tc := ⟨.hbm, 240, rfl⟩
abbrev main_v137 : Ref sig .tc := ⟨.hbm, 241, rfl⟩
abbrev main_cst_18 : Ref sig .tc := ⟨.hbm, 242, rfl⟩
abbrev main_v138 : Ref sig .tc := ⟨.hbm, 243, rfl⟩
abbrev main_v139 : Ref sig .tc := ⟨.hbm, 244, rfl⟩
abbrev main_v140 : Ref sig .tc := ⟨.hbm, 245, rfl⟩
abbrev main_v141 : Ref sig .tc := ⟨.hbm, 246, rfl⟩
abbrev main_v142 : Ref sig .tc := ⟨.hbm, 247, rfl⟩
abbrev main_v143 : Ref sig .tc := ⟨.hbm, 248, rfl⟩
abbrev main_v144 : Ref sig .tc := ⟨.hbm, 249, rfl⟩
abbrev main_v145 : Ref sig .tc := ⟨.hbm, 250, rfl⟩
abbrev main_v146 : Ref sig .tc := ⟨.hbm, 251, rfl⟩
abbrev main_v147 : Ref sig .tc := ⟨.hbm, 252, rfl⟩
abbrev main_v148 : Ref sig .tc := ⟨.hbm, 253, rfl⟩
abbrev main_v149 : Ref sig .tc := ⟨.hbm, 254, rfl⟩
abbrev main_call7_cst : Ref sig .tc := ⟨.hbm, 255, rfl⟩
abbrev main_call7_v0 : Ref sig .tc := ⟨.hbm, 256, rfl⟩
abbrev main_v150 : Ref sig .tc := ⟨.hbm, 257, rfl⟩
abbrev main_v151 : Ref sig .tc := ⟨.hbm, 258, rfl⟩
abbrev main_v152 : Ref sig .tc := ⟨.hbm, 259, rfl⟩
abbrev main_v153 : Ref sig .tc := ⟨.hbm, 260, rfl⟩
abbrev main_v154 : Ref sig .tc := ⟨.hbm, 261, rfl⟩
abbrev main_v155 : Ref sig .tc := ⟨.hbm, 262, rfl⟩
abbrev main_v156 : Ref sig .tc := ⟨.hbm, 263, rfl⟩
abbrev main_v157 : Ref sig .tc := ⟨.hbm, 264, rfl⟩
abbrev main_v158 : Ref sig .tc := ⟨.hbm, 265, rfl⟩
abbrev main_call8_cst : Ref sig .tc := ⟨.hbm, 266, rfl⟩
abbrev main_call8_v0 : Ref sig .tc := ⟨.hbm, 267, rfl⟩
abbrev main_v159 : Ref sig .tc := ⟨.hbm, 268, rfl⟩
abbrev main_cst_19 : Ref sig .tc := ⟨.hbm, 269, rfl⟩
abbrev main_v160 : Ref sig .tc := ⟨.hbm, 270, rfl⟩
abbrev main_v161 : Ref sig .tc := ⟨.hbm, 271, rfl⟩
abbrev main_v162 : Ref sig .tc := ⟨.hbm, 272, rfl⟩
abbrev main_v163 : Ref sig .tc := ⟨.hbm, 273, rfl⟩
abbrev main_v164 : Ref sig .tc := ⟨.hbm, 274, rfl⟩
abbrev main_v165 : Ref sig .tc := ⟨.hbm, 275, rfl⟩
abbrev main_v166 : Ref sig .tc := ⟨.hbm, 276, rfl⟩
abbrev main_call9_cst : Ref sig .tc := ⟨.hbm, 277, rfl⟩
abbrev main_call9_v0 : Ref sig .tc := ⟨.hbm, 278, rfl⟩
abbrev main_v167 : Ref sig .tc := ⟨.hbm, 279, rfl⟩
abbrev main_v168 : Ref sig .tc := ⟨.hbm, 280, rfl⟩
abbrev main_v169 : Ref sig .tc := ⟨.hbm, 281, rfl⟩
abbrev main_v170 : Ref sig .tc := ⟨.hbm, 282, rfl⟩
abbrev main_v171 : Ref sig .tc := ⟨.hbm, 283, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S1024x128 : S_.BroadcastsInDim S1024x128 (![] : Fin 0 → Fin S1024x128.rank)
  bcast_S100000_S100000x1_0 : S100000.BroadcastsInDim S100000x1 (![0] : Fin 1 → Fin S100000x1.rank)
  bcast_S1x128_S1024x128_0_1 : S1x128.BroadcastsInDim S1024x128 (![0, 1] : Fin 2 → Fin S1024x128.rank)
  bcast_S64_S1x64_1 : S64.BroadcastsInDim S1x64 (![1] : Fin 1 → Fin S1x64.rank)
  bcast_S1x64_S1024x64_0_1 : S1x64.BroadcastsInDim S1024x64 (![0, 1] : Fin 2 → Fin S1024x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S1024x128_S100000x1_S100000x128_1_0_0_1_wf : ScatterDims.WF S1024x128 S100000x1 S100000x128 [1] [0] [0] 1
  dot_S1024x128_S128x128_S1024x128_1_0_0_1_n_n_wf : DotDims.WF S1024x128 S128x128 S1024x128 [1] [0] [0] [1] [] []
  dot_S1024x128_S128x64_S1024x64_1_0_0_1_n_n_wf : DotDims.WF S1024x128 S128x64 S1024x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S1024x128_S100000x1_S100000x128_1_0_0_1 : ScatterDims S1024x128 S100000x1 S100000x128 where
  updateWindowDims := [1]
  insertedWindowDims := [0]
  scatterDimsToOperandDims := [0]
  indexVectorDim := 1
  wf := scatter_S1024x128_S100000x1_S100000x128_1_0_0_1_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf

class Facts : Prop extends Facts₀ where

variable [Facts]
-- ==== Proof.K.Reg0Runs.lean ====
import proofs.«425279_j44762149159634_1_alg».proof.Proof.Gen.Kernel.Launch
import proofs.«425279_j44762149159634_1_alg».proof.Proof.Gen.Kernel.Skeleton
import proofs.«425279_j44762149159634_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

abbrev cond0_0 (i : grid0.Coords) : Prop := (Scalar.cmpi .ne (Scalar.extui (Scalar.cmpi .eq (BitVec.ofNat 32 (i 0).val) 0#32)) 0#32) = 1#1

theorem hcond0_0 : ∀ t : Fin cfg0.N, cond0_0 (grid0.coords t) ↔ t.val % 20 = 0 :=
  (by decide +kernel : ∀ t : Fin grid0.N, cond0_0 (grid0.coords t) ↔ t.val % 20 = 0)

abbrev cond0_1 (i : grid0.Coords) : Prop := k0_cond2 i = 1#1

theorem hcond0_1 : ∀ t : Fin cfg0.N, cond0_1 (grid0.coords t) ↔ t.val % 20 = 19 :=
  (by decide +kernel : ∀ t : Fin grid0.N, cond0_1 (grid0.coords t) ↔ t.val % 20 = 19)

theorem liveAt0_0 : ∀ t : Fin cfg0.N, cfg0.idle 0 (grid0.coords t) = false := by decide +kernel

theorem liveAt0_1 : ∀ t : Fin cfg0.N, cfg0.idle 1 (grid0.coords t) = false := by decide +kernel

theorem liveAt0_2 : ∀ t : Fin cfg0.N, cfg0.idle 2 (grid0.coords t) = false := by decide +kernel

theorem liveAt0_3 : ∀ t : Fin cfg0.N, cfg0.idle 3 (grid0.coords t) = false := by decide +kernel

theorem liveAt0_4 : ∀ t : Fin cfg0.N, cfg0.idle 4 (grid0.coords t) = false := by decide +kernel

theorem idleAt0_5_A : ∀ t : Fin cfg0.N, cond0_0 (grid0.coords t) → ¬cond0_1 (grid0.coords t) → cfg0.idle 5 (grid0.coords t) = true := by decide +kernel

theorem noFlush0_5_A : ∀ t : Fin cfg0.N, cond0_0 (grid0.coords t) → ¬cond0_1 (grid0.coords t) → (cfg0.win 5).flush t = false := by decide +kernel

theorem idleAt0_5_B : ∀ t : Fin cfg0.N, ¬cond0_0 (grid0.coords t) → ¬cond0_1 (grid0.coords t) → cfg0.idle 5 (grid0.coords t) = true := by decide +kernel

theorem noFlush0_5_B : ∀ t : Fin cfg0.N, ¬cond0_0 (grid0.coords t) → ¬cond0_1 (grid0.coords t) → (cfg0.win 5).flush t = false := by decide +kernel

theorem liveAt0_5_C : ∀ t : Fin cfg0.N, ¬cond0_0 (grid0.coords t) → cond0_1 (grid0.coords t) → cfg0.idle 5 (grid0.coords t) = false := by decide +kernel

abbrev VO0_4 : View sig .tc .vmem S5000x128 .f32 := (Memref.whole cc0_stg4_0 : Memref sig .tc .vmem S5000x128 .f32).view
abbrev VO0_5 : View sig .tc .vmem S2x128 .f32 := (Memref.whole cc0_stg5_0 : Memref sig .tc .vmem S2x128 .f32).view

abbrev ms0_0 (t : Fin cfg0.N) : Memref sig .tc .vmem S5000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S5000x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x128 .f32 := win0_5.stage (cfg0.slots t 5)
abbrev hs0_5 (t : Fin cfg0.N) : (ms0_5 t).IsWhole := hstage0_5 ((cfg0.slots t 5).cast nbuf0_5)

abbrev scM0_0 : Memref sig .tc .vmem S1x128 .f32 := Memref.whole cc0_scratch0
abbrev scM0_1 : Memref sig .tc .vmem S1x128 .f32 := Memref.whole cc0_scratch1

abbrev VS0_0 : View sig .tc .vmem S1x128 .f32 := scM0_0.view
abbrev VS0_1 : View sig .tc .vmem S1x128 .f32 := scM0_1.view

theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

end Cert.Kernel.Hand

end
-- ==== Proof.K.Reg0RunA.lean ====
import proofs.«425279_j44762149159634_1_alg».proof.Proof.K.Reg0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun0_A (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S2x128 .f32) (harg6 : arg6.IsWhole) (arg7 : Memref sig .tc .vmem S1x128 .f32) (harg7 : arg7.IsWhole) (arg8 : Memref sig .tc .vmem S1x128 .f32) (harg8 : arg8.IsWhole) (hc0 : cond0_0 i) (hc1 : ¬cond0_1 i)
    (x0 : Vec F S5000x128 .f32) (x1 : Vec F S5000x128 .f32) (x2 : Vec F S128x128 .f32) (x3 : Vec F S1x128 .f32) :
    Σ' (L4 : List (View.Piece (Elt F) S5000x128 .f32)) (L5 : List (View.Piece (Elt F) S2x128 .f32)) (LS0 : List (View.Piece (Elt F) S1x128 .f32)), { LS1 : List (View.Piece (Elt F) S1x128 .f32) //
      ∀ (xi5 : Vec F S2x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xi5
            ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4) ∗ owns (c : Thread nD τ) arg6 fullShare xi5
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__gin_a_kernel i arg1 harg1 arg2 harg2 arg3 harg3 arg4 harg4 arg5 harg5 arg6 harg6 arg7 harg7 arg8 harg8) K } := by
  refine ⟨?_, [], ?_, ?_, fun xi5 E K => ?run⟩
  case run =>
    simp only [cc0__gin_a_kernel_eq_skeleton]; unfold cc0__gin_a_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [HS0]; · iexists _; iexact HS0
    iexists _; iexact HS1

end Cert.Kernel.Hand

end
-- ==== Proof.K.Reg0RunB.lean ====
import proofs.«425279_j44762149159634_1_alg».proof.Proof.K.Reg0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun0_B (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S2x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : ¬cond0_1 i)
    (x0 : Vec F S5000x128 .f32) (x1 : Vec F S5000x128 .f32) (x2 : Vec F S128x128 .f32) (x3 : Vec F S1x128 .f32) (xs0 : Vec F S1x128 .f32) (xs1 : Vec F S1x128 .f32) :
    Σ' (L4 : List (View.Piece (Elt F) S5000x128 .f32)) (L5 : List (View.Piece (Elt F) S2x128 .f32)) (LS0 : List (View.Piece (Elt F) S1x128 .f32)), { LS1 : List (View.Piece (Elt F) S1x128 .f32) //
      ∀ (xi5 : Vec F S2x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xi5
            ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4) ∗ owns (c : Thread nD τ) arg6 fullShare xi5
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__gin_a_kernel i arg1 harg1 arg2 harg2 arg3 harg3 arg4 harg4 arg5 harg5 arg6 harg6 arg7 harg7 arg8 harg8) K } := by
  refine ⟨?_, [], ?_, ?_, fun xi5 E K => ?run⟩
  case run =>
    simp only [cc0__gin_a_kernel_eq_skeleton]; unfold cc0__gin_a_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [HS0]; · iexists _; iexact HS0
    iexists _; iexact HS1

end Cert.Kernel.Hand

end
-- ==== Proof.K.Reg0RunC.lean ====
import proofs.«425279_j44762149159634_1_alg».proof.Proof.K.Reg0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun0_C (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S2x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i)
    (x0 : Vec F S5000x128 .f32) (x1 : Vec F S5000x128 .f32) (x2 : Vec F S128x128 .f32) (x3 : Vec F S1x128 .f32) (xs0 : Vec F S1x128 .f32) (xs1 : Vec F S1x128 .f32) :
    Σ' (L4 : List (View.Piece (Elt F) S5000x128 .f32)) (L5 : List (View.Piece (Elt F) S2x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d)
            ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__gin_a_kernel i arg1 harg1 arg2 harg2 arg3 harg3 arg4 harg4 arg5 harg5 arg6 harg6 arg7 harg7 arg8 harg8) K } := by
  refine ⟨?_, ?_, ?_, ?_, fun E K => ?run⟩
  case run =>
    simp only [cc0__gin_a_kernel_eq_skeleton]; unfold cc0__gin_a_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [HS0]; · iexists _; iexact HS0
    iexists _; iexact HS1

end Cert.Kernel.Hand

end
-- ==== Proof.K.Reg0.lean ====
import proofs.«425279_j44762149159634_1_alg».proof.Proof.K.Reg0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S2x128 .f32) (harg6 : arg6.IsWhole) (arg7 : Memref sig .tc .vmem S1x128 .f32) (harg7 : arg7.IsWhole) (arg8 : Memref sig .tc .vmem S1x128 .f32) (harg8 : arg8.IsWhole)
include c i arg1 harg1 arg2 harg2 arg3 harg3 arg4 harg4 arg5 harg5 arg6 harg6 arg7 harg7 arg8 harg8

section
variable (hc0 : cond0_0 i) (hc1 : ¬cond0_1 i) (x0 : Vec F S5000x128 .f32) (x1 : Vec F S5000x128 .f32) (x2 : Vec F S128x128 .f32) (x3 : Vec F S1x128 .f32)
include hc0 hc1 x0 x1 x2 x3

theorem cover0_A_4 (y : S5000x128.Idx) :
    ∃ pc ∈ (kernelRun0_A c i arg1 harg1 arg2 harg2 arg3 harg3 arg4 harg4 arg5 harg5 arg6 harg6 arg7 harg7 arg8 harg8 hc0 hc1 x0 x1 x2 x3).1, y ∈ pc.1.set :=
  View.cover_of_tiledL (kernelRun0_A c i arg1 harg1 arg2 harg2 arg3 harg3 arg4 harg4 arg5 harg5 arg6 harg6 arg7 harg7 arg8 harg8 hc0 hc1 x0 x1 x2 x3).1 S5000x128.size (by sl_kernel_rfl) y

def out0_A_4 : Vec F S5000x128 .f32 :=
  VO0_4.read (Elt F) (VO0_4.writes (Elt F) VO0_4.junk (kernelRun0_A c i arg1 harg1 arg2 harg2 arg3 harg3 arg4 harg4 arg5 harg5 arg6 harg6 arg7 harg7 arg8 harg8 hc0 hc1 x0 x1 x2 x3).1)

def out0_A_5 : Vec F S2x128 .f32 :=
  VO0_5.read (Elt F) (VO0_5.writes (Elt F) VO0_5.junk (kernelRun0_A c i arg1 harg1 arg2 harg2 arg3 harg3 arg4 harg4 arg5 harg5 arg6 harg6 arg7 harg7 arg8 harg8 hc0 hc1 x0 x1 x2 x3).2.1)

theorem scover0_A_0 (y : S1x128.Idx) :
    ∃ pc ∈ (kernelRun0_A c i arg1 harg1 arg2 harg2 arg3 harg3 arg4 harg4 arg5 harg5 arg6 harg6 arg7 harg7 arg8 harg8 hc0 hc1 x0 x1 x2 x3).2.2.1, y ∈ pc.1.set :=
  View.cover_of_tiledL (kernelRun0_A c i arg1 harg1 arg2 harg2 arg3 harg3 arg4 harg4 arg5 harg5 arg6 harg6 arg7 harg7 arg8 harg8 hc0 hc1 x0 x1 x2 x3).2.2.1 S1x128.size (by sl_kernel_rfl) y

def sout0_A_0 : Vec F S1x128 .f32 :=
  VS0_0.read (Elt F) (VS0_0.writes (Elt F) VS0_0.junk (kernelRun0_A c i arg1 harg1 arg2 harg2 arg3 harg3 arg4 harg4 arg5 harg5 arg6 harg6 arg7 harg7 arg8 harg8 hc0 hc1 x0 x1 x2 x3).2.2.1)

theorem scover0_A_1 (y : S1x128.Idx) :
    ∃ pc ∈ (kernelRun0_A c i arg1 harg1 arg2 harg2 arg3 harg3 arg4 harg4 arg5 harg5 arg6 harg6 arg7 harg7 arg8 harg8 hc0 hc1 x0 x1 x2 x3).2.2.2.1, y ∈ pc.1.set :=
  View.cover_of_tiledL (kernelRun0_A c i arg1 harg1 arg2 harg2 arg3 harg3 arg4 harg4 arg5 harg5 arg6 harg6 arg7 harg7 arg8 harg8 hc0 hc1 x0 x1 x2 x3).2.2.2.1 S1x128.size (by sl_kernel_rfl) y

def sout0_A_1 : Vec F S1x128 .f32 :=
  VS0_1.read (Elt F) (VS0_1.writes (Elt F) VS0_1.junk (kernelRun0_A c i arg1 harg1 arg2 harg2 arg3 harg3 arg4 harg4 arg5 harg5 arg6 harg6 arg7 harg7 arg8 harg8 hc0 hc1 x0 x1 x2 x3).2.2.2.1)

def outs0_A : Vec F S5000x128 .f32 × Vec F S2x128 .f32 × Vec F S1x128 .f32 × Vec F S1x128 .f32 :=
  (out0_A_4 c i arg1 harg1 arg2 harg2 arg3 harg3 arg4 harg4 arg5 harg5 arg6 harg6 arg7 harg7 arg8 harg8 hc0 hc1 x0 x1 x2 x3, out0_A_5 c i arg1 harg1 arg2 harg2 arg3 harg3 arg4 harg4 arg5 harg5 arg6 harg6 arg7 harg7 arg8 harg8 hc0 hc1 x0 x1 x2 x3, sout0_A_0 c i arg1 harg1 arg2 harg2 arg3 harg3 arg4 harg4 arg5 harg5 arg6 harg6 arg7 harg7 arg8 harg8 hc0 hc1 x0 x1 x2 x3, sout0_A_1 c i arg1 harg1 arg2 harg2 arg3 harg3 arg4 harg4 arg5 harg5 arg6 harg6 arg7 harg7 arg8 harg8 hc0 hc1 x0 x1 x2 x3)

end

section
variable (hc0 : ¬cond0_0 i) (hc1 : ¬cond0_1 i) (x0 : Vec F S5000x128 .f32) (x1 : Vec F S5000x128 .f32) (x2 : Vec F S128x128 .f32) (x3 : Vec F S1x128 .f32) (xs0 : Vec F S1x128 .f32) (xs1 : Vec F S1x128 .f32)
include hc0 hc1 x0 x1 x2 x3 xs0 xs1

theorem cover0_B_4 (y : S5000x128.Idx) :
    ∃ pc ∈ (kernelRun0_B c i arg1 harg1 arg2 harg2 arg3 harg3 arg4 harg4 arg5 harg5 arg6 harg6 arg7 harg7 arg8 harg8 hc0 hc1 x0 x1 x2 x3 xs0 xs1).1, y ∈ pc.1.set :=
  View.cover_of_tiledL (kernelRun0_B c i arg1 harg1 arg2 harg2 arg3 harg3 arg4 harg4 arg5 harg5 arg6 harg6 arg7 harg7 arg8 harg8 hc0 hc1 x0 x1 x2 x3 xs0 xs1).1 S5000x128.size (by sl_kernel_rfl) y

def out0_B_4 : Vec F S5000x128 .f32 :=
  VO0_4.read (Elt F) (VO0_4.writes (Elt F) VO0_4.junk (kernelRun0_B c i arg1 harg1 arg2 harg2 arg3 harg3 arg4 harg4 arg5 harg5 arg6 harg6 arg7 harg7 arg8 harg8 hc0 hc1 x0 x1 x2 x3 xs0 xs1).1)

def out0_B_5 : Vec F S2x128 .f32 :=
  VO0_5.read (Elt F) (VO0_5.writes (Elt F) VO0_5.junk (kernelRun0_B c i arg1 harg1 arg2 harg2 arg3 harg3 arg4 harg4 arg5 harg5 arg6 harg6 arg7 harg7 arg8 harg8 hc0 hc1 x0 x1 x2 x3 xs0 xs1).2.1)

theorem scover0_B_0 (y : S1x128.Idx) :
    ∃ pc ∈ (kernelRun0_B c i arg1 harg1 arg2 harg2 arg3 harg3 arg4 harg4 arg5 harg5 arg6 harg6 arg7 harg7 arg8 harg8 hc0 hc1 x0 x1 x2 x3 xs0 xs1).2.2.1, y ∈ pc.1.set :=
  View.cover_of_tiledL (kernelRun0_B c i arg1 harg1 arg2 harg2 arg3 harg3 arg4 harg4 arg5 harg5 arg6 harg6 arg7 harg7 arg8 harg8 hc0 hc1 x0 x1 x2 x3 xs0 xs1).2.2.1 S1x128.size (by sl_kernel_rfl) y

def sout0_B_0 : Vec F S1x128 .f32 :=
  VS0_0.read (Elt F) (VS0_0.writes (Elt F) VS0_0.junk (kernelRun0_B c i arg1 harg1 arg2 harg2 arg3 harg3 arg4 harg4 arg5 harg5 arg6 harg6 arg7 harg7 arg8 harg8 hc0 hc1 x0 x1 x2 x3 xs0 xs1).2.2.1)

theorem scover0_B_1 (y : S1x128.Idx) :
    ∃ pc ∈ (kernelRun0_B c i arg1 harg1 arg2 harg2 arg3 harg3 arg4 harg4 arg5 harg5 arg6 harg6 arg7 harg7 arg8 harg8 hc0 hc1 x0 x1 x2 x3 xs0 xs1).2.2.2.1, y ∈ pc.1.set :=
  View.cover_of_tiledL (kernelRun0_B c i arg1 harg1 arg2 harg2 arg3 harg3 arg4 harg4 arg5 harg5 arg6 harg6 arg7 harg7 arg8 harg8 hc0 hc1 x0 x1 x2 x3 xs0 xs1).2.2.2.1 S1x128.size (by sl_kernel_rfl) y

def sout0_B_1 : Vec F S1x128 .f32 :=
  VS0_1.read (Elt F) (VS0_1.writes (Elt F) VS0_1.junk (kernelRun0_B c i arg1 harg1 arg2 harg2 arg3 harg3 arg4 harg4 arg5 harg5 arg6 harg6 arg7 harg7 arg8 harg8 hc0 hc1 x0 x1 x2 x3 xs0 xs1).2.2.2.1)

def outs0_B : Vec F S5000x128 .f32 × Vec F S2x128 .f32 × Vec F S1x128 .f32 × Vec F S1x128 .f32 :=
  (out0_B_4 c i arg1 harg1 arg2 harg2 arg3 harg3 arg4 harg4 arg5 harg5 arg6 harg6 arg7 harg7 arg8 harg8 hc0 hc1 x0 x1 x2 x3 xs0 xs1, out0_B_5 c i arg1 harg1 arg2 harg2 arg3 harg3 arg4 harg4 arg5 harg5 arg6 harg6 arg7 harg7 arg8 harg8 hc0 hc1 x0 x1 x2 x3 xs0 xs1, sout0_B_0 c i arg1 harg1 arg2 harg2 arg3 harg3 arg4 harg4 arg5 harg5 arg6 harg6 arg7 harg7 arg8 harg8 hc0 hc1 x0 x1 x2 x3 xs0 xs1, sout0_B_1 c i arg1 harg1 arg2 harg2 arg3 harg3 arg4 harg4 arg5 harg5 arg6 harg6 arg7 harg7 arg8 harg8 hc0 hc1 x0 x1 x2 x3 xs0 xs1)

end

section
variable (hc0 : ¬cond0_0 i) (hc1 : cond0_1 i) (x0 : Vec F S5000x128 .f32) (x1 : Vec F S5000x128 .f32) (x2 : Vec F S128x128 .f32) (x3 : Vec F S1x128 .f32) (xs0 : Vec F S1x128 .f32) (xs1 : Vec F S1x128 .f32)
include hc0 hc1 x0 x1 x2 x3 xs0 xs1

theorem cover0_C_4 (y : S5000x128.Idx) :
    ∃ pc ∈ (kernelRun0_C c i arg1 harg1 arg2 harg2 arg3 harg3 arg4 harg4 arg5 harg5 arg6 harg6 arg7 harg7 arg8 harg8 hc0 hc1 x0 x1 x2 x3 xs0 xs1).1, y ∈ pc.1.set :=
  View.cover_of_tiledL (kernelRun0_C c i arg1 harg1 arg2 harg2 arg3 harg3 arg4 harg4 arg5 harg5 arg6 harg6 arg7 harg7 arg8 harg8 hc0 hc1 x0 x1 x2 x3 xs0 xs1).1 S5000x128.size (by sl_kernel_rfl) y

def out0_C_4 : Vec F S5000x128 .f32 :=
  VO0_4.read (Elt F) (VO0_4.writes (Elt F) VO0_4.junk (kernelRun0_C c i arg1 harg1 arg2 harg2 arg3 harg3 arg4 harg4 arg5 harg5 arg6 harg6 arg7 harg7 arg8 harg8 hc0 hc1 x0 x1 x2 x3 xs0 xs1).1)

theorem cover0_C_5 (y : S2x128.Idx) :
    ∃ pc ∈ (kernelRun0_C c i arg1 harg1 arg2 harg2 arg3 harg3 arg4 harg4 arg5 harg5 arg6 harg6 arg7 harg7 arg8 harg8 hc0 hc1 x0 x1 x2 x3 xs0 xs1).2.1, y ∈ pc.1.set :=
  View.cover_of_tiledL (kernelRun0_C c i arg1 harg1 arg2 harg2 arg3 harg3 arg4 harg4 arg5 harg5 arg6 harg6 arg7 harg7 arg8 harg8 hc0 hc1 x0 x1 x2 x3 xs0 xs1).2.1 S1x128.size (by sl_kernel_rfl) y

def out0_C_5 : Vec F S2x128 .f32 :=
  VO0_5.read (Elt F) (VO0_5.writes (Elt F) VO0_5.junk (kernelRun0_C c i arg1 harg1 arg2 harg2 arg3 harg3 arg4 harg4 arg5 harg5 arg6 harg6 arg7 harg7 arg8 harg8 hc0 hc1 x0 x1 x2 x3 xs0 xs1).2.1)

theorem scover0_C_0 (y : S1x128.Idx) :
    ∃ pc ∈ (kernelRun0_C c i arg1 harg1 arg2 harg2 arg3 harg3 arg4 harg4 arg5 harg5 arg6 harg6 arg7 harg7 arg8 harg8 hc0 hc1 x0 x1 x2 x3 xs0 xs1).2.2.1, y ∈ pc.1.set :=
  View.cover_of_tiledL (kernelRun0_C c i arg1 harg1 arg2 harg2 arg3 harg3 arg4 harg4 arg5 harg5 arg6 harg6 arg7 harg7 arg8 harg8 hc0 hc1 x0 x1 x2 x3 xs0 xs1).2.2.1 S1x128.size (by sl_kernel_rfl) y

def sout0_C_0 : Vec F S1x128 .f32 :=
  VS0_0.read (Elt F) (VS0_0.writes (Elt F) VS0_0.junk (kernelRun0_C c i arg1 harg1 arg2 harg2 arg3 harg3 arg4 harg4 arg5 harg5 arg6 harg6 arg7 harg7 arg8 harg8 hc0 hc1 x0 x1 x2 x3 xs0 xs1).2.2.1)

theorem scover0_C_1 (y : S1x128.Idx) :
    ∃ pc ∈ (kernelRun0_C c i arg1 harg1 arg2 harg2 arg3 harg3 arg4 harg4 arg5 harg5 arg6 harg6 arg7 harg7 arg8 harg8 hc0 hc1 x0 x1 x2 x3 xs0 xs1).2.2.2.1, y ∈ pc.1.set :=
  View.cover_of_tiledL (kernelRun0_C c i arg1 harg1 arg2 harg2 arg3 harg3 arg4 harg4 arg5 harg5 arg6 harg6 arg7 harg7 arg8 harg8 hc0 hc1 x0 x1 x2 x3 xs0 xs1).2.2.2.1 S1x128.size (by sl_kernel_rfl) y

def sout0_C_1 : Vec F S1x128 .f32 :=
  VS0_1.read (Elt F) (VS0_1.writes (Elt F) VS0_1.junk (kernelRun0_C c i arg1 harg1 arg2 harg2 arg3 harg3 arg4 harg4 arg5 harg5 arg6 harg6 arg7 harg7 arg8 harg8 hc0 hc1 x0 x1 x2 x3 xs0 xs1).2.2.2.1)

def outs0_C : Vec F S5000x128 .f32 × Vec F S2x128 .f32 × Vec F S1x128 .f32 × Vec F S1x128 .f32 :=
  (out0_C_4 c i arg1 harg1 arg2 harg2 arg3 harg3 arg4 harg4 arg5 harg5 arg6 harg6 arg7 harg7 arg8 harg8 hc0 hc1 x0 x1 x2 x3 xs0 xs1, out0_C_5 c i arg1 harg1 arg2 harg2 arg3 harg3 arg4 harg4 arg5 harg5 arg6 harg6 arg7 harg7 arg8 harg8 hc0 hc1 x0 x1 x2 x3 xs0 xs1, sout0_C_0 c i arg1 harg1 arg2 harg2 arg3 harg3 arg4 harg4 arg5 harg5 arg6 harg6 arg7 harg7 arg8 harg8 hc0 hc1 x0 x1 x2 x3 xs0 xs1, sout0_C_1 c i arg1 harg1 arg2 harg2 arg3 harg3 arg4 harg4 arg5 harg5 arg6 harg6 arg7 harg7 arg8 harg8 hc0 hc1 x0 x1 x2 x3 xs0 xs1)

end

end

def outsAt0 (c : Dev nD) : (n : ℕ) → n < cfg0.N → Vec F S5000x128 .f32 × Vec F S2x128 .f32 × Vec F S1x128 .f32 × Vec F S1x128 .f32
  | 0, hn => outs0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩)
  | n + 1, hn =>
    if h0 : (n + 1) % 20 = 0 then
      if h1 : (n + 1) % 20 = 19 then
        False.elim (by have hN : n + 1 < 20 := lt_of_lt_of_eq hn (show cfg0.N = 20 from N_0); omega)
      else
        outs0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩)
    else
      if h1 : (n + 1) % 20 = 19 then
        outs0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2
      else
        outs0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2

theorem outsAt0_A (c : Dev nD) (t : Fin cfg0.N) (h0 : t.val % 20 = 0) (h1 : ¬t.val % 20 = 19) :
    outsAt0 V c t.val t.isLt = outs0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) := by
  obtain ⟨n, hn⟩ := t
  cases n with
  | zero => exact rfl
  | succ n => exact (dif_pos h0).trans ((dif_neg h1).trans rfl)

theorem outsAt0_B (c : Dev nD) (t : Fin cfg0.N) (h0 : ¬t.val % 20 = 0) (h1 : ¬t.val % 20 = 19) :
    outsAt0 V c t.val t.isLt = outs0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 20 = 0) (h1 : t.val % 20 = 19) :
    outsAt0 V c t.val t.isLt = outs0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_pos h1).trans rfl)

def PhiS0 (c : Dev nD) : (n : ℕ) → n ≤ cfg0.N → sProp 𝕄
  | 0, _ => Pipeline.ΦA spec0 c
  | n + 1, hn => iprop(iprop(iprop(owns (c : Thread nD τ) scM0_0 fullShare ((outsAt0 V c n hn).2.2.1) ∗ owns (c : Thread nD τ) scM0_1 fullShare ((outsAt0 V c n hn).2.2.2)) ∗ Pipeline.scopedRestBut (Ix := Unit) (Name := ℕ) (U := UR sig nD τ) (Lvl := ℕ) (Val := Elt F) spec0 c [cc0_scratch0, cc0_scratch1]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0_0 fullShare ((outsAt0 V c n hn).2.2.1) ∗ owns (c : Thread nD τ) scM0_1 fullShare ((outsAt0 V c n hn).2.2.2)) ∗ Pipeline.scopedRestBut (Ix := Unit) (Name := ℕ) (U := UR sig nD τ) (Lvl := ℕ) (Val := Elt F) spec0 c [cc0_scratch0, cc0_scratch1]) ∗ (∃ r, prngReg c r)) := rfl

theorem PhiS0_pos (c : Dev nD) (n : ℕ) (h : n ≤ cfg0.N) (hz : n ≠ 0) :
    PhiS0 V c n h = iprop(iprop(iprop(owns (c : Thread nD τ) scM0_0 fullShare ((outsAt0 V c (n - 1) (by omega)).2.2.1) ∗ owns (c : Thread nD τ) scM0_1 fullShare ((outsAt0 V c (n - 1) (by omega)).2.2.2)) ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 20 := lt_of_lt_of_eq t.isLt (show cfg0.N = 20 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  by_cases h0 : t.val % 20 = 0
  · by_cases h1 : t.val % 20 = 19
    · exfalso; omega
    ·
      rw [Dat.leavesExact_idle (dat0 V c) 5 t (idleAt0_5_A t ((hcond0_0 t).mpr h0) (fun h => h1 ((hcond0_1 t).mp h))) (noFlush0_5_A t ((hcond0_0 t).mpr h0) (fun h => h1 ((hcond0_1 t).mp h)))]
      rw [outsAt0_A V c t h0 h1]
      unfold outs0_A out0_A_4 sout0_A_0 sout0_A_1; (try dsimp only)
      by_cases hz : t.val = 0
      ·
        rw [PhiS0_castSucc V c t, PhiS0_zero V c _ _ hz, PhiA0_eq]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ ((hcond0_0 t).mpr h0) (fun h => h1 ((hcond0_1 t).mp h)) (iblk0 V c 0 t) (iblk0 V c 1 t) (iblk0 V c 2 t) (iblk0 V c 3 t)).2.2.2.2 _ Set.univ _)
        isplitl [H0]; · iexact H0
        isplitl [H1]; · iexact H1
        isplitl [H2]; · iexact H2
        isplitl [H3]; · iexact H3
        isplitl [H4]; · iexists _; iexact H4
        isplitl [H5]; · iexact H5
        isplitl [HS0]; · iexact HS0
        isplitl [HS1]; · iexact HS1
        iintro ⟨H0, H1, H2, H3, ⟨%e4, H4⟩, H5, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _)
              unfold owns; iexists _; isplitr
              swap; · iexact HS1
              ipureintro; exact View.read_writes_of_cover _ _ _ _ _ (scover0_A_1 c _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_A_4 c _ _ _ _ _ _ _ _ _ _ _ _ _ _ _ _ _ _ _ _ _ _ _)
        iexists _; iexact H5
      · exfalso; omega
  · by_cases h1 : t.val % 20 = 19
    ·
      rw [show (dat0 V c).leavesExact 5 t = owns (c : Thread nD τ) (ms0_5 t) fullShare ((dat0 V c).after 5 t) from by
        unfold Dat.leavesExact; rw [liveAt0_5_C t (fun h => h0 ((hcond0_0 t).mp h)) ((hcond0_1 t).mpr h1)], after0_5]
      rw [outsAt0_C V c t h0 h1]
      unfold outs0_C out0_C_4 out0_C_5 sout0_C_0 sout0_C_1; (try dsimp only)
      by_cases hz : t.val = 0
      · exfalso; omega
      ·
        rw [PhiS0_castSucc V c t, PhiS0_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) _ _).2.2.2.2 Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [HS0]; · iexact HS0
        isplitl [HS1]; · iexact HS1
        iintro ⟨H0, H1, H2, H3, ⟨%e4, H4⟩, ⟨%e5, H5⟩, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover0_C_0 c _ _ _ _ _ _ _ _ _ _ _ _ _ _ _ _ _ _ _ _ _ _ _ _ _)
              unfold owns; iexists _; isplitr
              swap; · iexact HS1
              ipureintro; exact View.read_writes_of_cover _ _ _ _ _ (scover0_C_1 c _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_C_4 c _ _ _ _ _ _ _ _ _ _ _ _ _ _ _ _ _ _ _ _ _ _ _ _ _)
        unfold owns; iexists _; isplitr
        swap; · iexact H5
        ipureintro; exact View.read_writes_of_cover _ _ _ _ _ (cover0_C_5 c _ _ _ _ _ _ _ _ _ _ _ _ _ _ _ _ _ _ _ _ _ _ _ _ _)
    ·
      rw [Dat.leavesExact_idle (dat0 V c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      rw [outsAt0_B V c t h0 h1]
      unfold outs0_B out0_B_4 sout0_B_0 sout0_B_1; (try dsimp only)
      by_cases hz : t.val = 0
      · exfalso; omega
      ·
        rw [PhiS0_castSucc V c t, PhiS0_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _ _).2.2.2.2 _ Set.univ _)
        isplitl [H0]; · iexact H0
        isplitl [H1]; · iexact H1
        isplitl [H2]; · iexact H2
        isplitl [H3]; · iexact H3
        isplitl [H4]; · iexists _; iexact H4
        isplitl [H5]; · iexact H5
        isplitl [HS0]; · iexact HS0
        isplitl [HS1]; · iexact HS1
        iintro ⟨H0, H1, H2, H3, ⟨%e4, H4⟩, H5, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover0_B_0 c _ _ _ _ _ _ _ _ _ _ _ _ _ _ _ _ _ _ _ _ _ _ _ _ _)
              unfold owns; iexists _; isplitr
              swap; · iexact HS1
              ipureintro; exact View.read_writes_of_cover _ _ _ _ _ (scover0_B_1 c _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_B_4 c _ _ _ _ _ _ _ _ _ _ _ _ _ _ _ _ _ _ _ _ _ _ _ _ _)
        iexists _; iexact H5

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

theorem hout0 (c : Dev nD) : (dat0 V c).Φ (Fin.last cfg0.N) ⊢ Pipeline.ΦA spec0 c :=
  Phi_out0 V c _ (by rw [Fin.val_last]; have : cfg0.N = 20 := N_0; omega)

end Cert.Kernel.Hand

end
-- ==== Proof.K.Reg1Runs.lean ====
import proofs.«425279_j44762149159634_1_alg».proof.Proof.Gen.Kernel.Launch
import proofs.«425279_j44762149159634_1_alg».proof.Proof.Gen.Kernel.Skeleton
import proofs.«425279_j44762149159634_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

abbrev VO1_7 : View sig .tc .vmem S5000x128 .f32 := (Memref.whole cc1_stg7_0 : Memref sig .tc .vmem S5000x128 .f32).view

abbrev ms1_0 (t : Fin cfg1.N) : Memref sig .tc .vmem S5000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S128x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S5000x128 .f32 := win1_7.stage (cfg1.slots t 7)
abbrev hs1_7 (t : Fin cfg1.N) : (ms1_7 t).IsWhole := hstage1_7 ((cfg1.slots t 7).cast nbuf1_7)

end Cert.Kernel.Hand

end
-- ==== Proof.K.Reg1RunA.lean ====
import proofs.«425279_j44762149159634_1_alg».proof.Proof.K.Reg1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in

noncomputable def kernelRun1_A (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole)
    (x0 : Vec F S5000x128 .f32) (x1 : Vec F S1x128 .f32) (x2 : Vec F S1x128 .f32) (x3 : Vec F S1x128 .f32) (x4 : Vec F S1x128 .f32) (x5 : Vec F S128x128 .f32) (x6 : Vec F S1x128 .f32) :
    { L7 : List (View.Piece (Elt F) S5000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7)) -∗ K ⟨⟩))
          ⊢ wp frame (wpE (defs₀ (F := F)) Variants.none c none) E (cc1__gin_b_kernel i arg1 harg1 arg2 harg2 arg3 harg3 arg4 harg4 arg5 harg5 arg6 harg6 arg7 harg7 arg8 harg8) K } := by
  refine ⟨?_, fun E K => ?run⟩
  case run =>
    simp only [cc1__gin_b_kernel_eq_skeleton]; unfold cc1__gin_b_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; iexact H7

end Cert.Kernel.Hand

end
-- ==== Proof.K.Reg1.lean ====
import proofs.«425279_j44762149159634_1_alg».proof.Proof.K.Reg1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (x0 : Vec F S5000x128 .f32) (x1 : Vec F S1x128 .f32) (x2 : Vec F S1x128 .f32) (x3 : Vec F S1x128 .f32) (x4 : Vec F S1x128 .f32) (x5 : Vec F S128x128 .f32) (x6 : Vec F S1x128 .f32)
include c i arg1 harg1 arg2 harg2 arg3 harg3 arg4 harg4 arg5 harg5 arg6 harg6 arg7 harg7 arg8 harg8 x0 x1 x2 x3 x4 x5 x6

theorem cover1_A_7 (y : S5000x128.Idx) :
    ∃ pc ∈ (kernelRun1_A c i arg1 harg1 arg2 harg2 arg3 harg3 arg4 harg4 arg5 harg5 arg6 harg6 arg7 harg7 arg8 harg8 x0 x1 x2 x3 x4 x5 x6).1, y ∈ pc.1.set :=
  View.cover_of_tiledL (kernelRun1_A c i arg1 harg1 arg2 harg2 arg3 harg3 arg4 harg4 arg5 harg5 arg6 harg6 arg7 harg7 arg8 harg8 x0 x1 x2 x3 x4 x5 x6).1 S5000x128.size (by sl_kernel_rfl) y

def out1_A_7 : Vec F S5000x128 .f32 :=
  VO1_7.read (Elt F) (VO1_7.writes (Elt F) VO1_7.junk (kernelRun1_A c i arg1 harg1 arg2 harg2 arg3 harg3 arg4 harg4 arg5 harg5 arg6 harg6 arg7 harg7 arg8 harg8 x0 x1 x2 x3 x4 x5 x6).1)

end

def out1At (c : Dev nD) (t : Fin cfg1.N) : Vec F S5000x128 .f32 :=
  out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (iblk1 V c 0 t) (iblk1 V c 1 t) (iblk1 V c 2 t) (iblk1 V c 3 t) (iblk1 V c 4 t) (iblk1 V c 5 t) (iblk1 V c 6 t)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1At V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1At V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 4800000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  unfold out1At out1_A_7
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun1_A c (grid1.coords t) _ _ _ _ _ _ _ _ _ _ _ _ _ _ _ _ (iblk1 V c 0 t) (iblk1 V c 1 t) (iblk1 V c 2 t) (iblk1 V c 3 t) (iblk1 V c 4 t) (iblk1 V c 5 t) (iblk1 V c 6 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_of_cover _ _ _ _ _ (cover1_A_7 c _ _ _ _ _ _ _ _ _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := .rfl

theorem hout1 (c : Dev nD) : (dat1 V c).Φ (Fin.last cfg1.N) ⊢ Pipeline.ΦA spec1 c := .rfl

end Cert.Kernel.Hand

end
-- ==== Proof.K.Reg2Runs.lean ====
import proofs.«425279_j44762149159634_1_alg».proof.Proof.Gen.Kernel.Launch
import proofs.«425279_j44762149159634_1_alg».proof.Proof.Gen.Kernel.Skeleton
import proofs.«425279_j44762149159634_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

abbrev cond2_0 (i : grid2.Coords) : Prop := (Scalar.cmpi .ne (Scalar.extui (Scalar.cmpi .eq (BitVec.ofNat 32 (i 0).val) 0#32)) 0#32) = 1#1

theorem hcond2_0 : ∀ t : Fin cfg2.N, cond2_0 (grid2.coords t) ↔ t.val % 20 = 0 :=
  (by decide +kernel : ∀ t : Fin grid2.N, cond2_0 (grid2.coords t) ↔ t.val % 20 = 0)

abbrev cond2_1 (i : grid2.Coords) : Prop := k2_cond2 i = 1#1

theorem hcond2_1 : ∀ t : Fin cfg2.N, cond2_1 (grid2.coords t) ↔ t.val % 20 = 19 :=
  (by decide +kernel : ∀ t : Fin grid2.N, cond2_1 (grid2.coords t) ↔ t.val % 20 = 19)

theorem liveAt2_0 : ∀ t : Fin cfg2.N, cfg2.idle 0 (grid2.coords t) = false := by decide +kernel

theorem liveAt2_1 : ∀ t : Fin cfg2.N, cfg2.idle 1 (grid2.coords t) = false := by decide +kernel

theorem liveAt2_2 : ∀ t : Fin cfg2.N, cfg2.idle 2 (grid2.coords t) = false := by decide +kernel

theorem liveAt2_3 : ∀ t : Fin cfg2.N, cfg2.idle 3 (grid2.coords t) = false := by decide +kernel

theorem liveAt2_4 : ∀ t : Fin cfg2.N, cfg2.idle 4 (grid2.coords t) = false := by decide +kernel

theorem idleAt2_5_A : ∀ t : Fin cfg2.N, cond2_0 (grid2.coords t) → ¬cond2_1 (grid2.coords t) → cfg2.idle 5 (grid2.coords t) = true := by decide +kernel

theorem noFlush2_5_A : ∀ t : Fin cfg2.N, cond2_0 (grid2.coords t) → ¬cond2_1 (grid2.coords t) → (cfg2.win 5).flush t = false := by decide +kernel

theorem idleAt2_5_B : ∀ t : Fin cfg2.N, ¬cond2_0 (grid2.coords t) → ¬cond2_1 (grid2.coords t) → cfg2.idle 5 (grid2.coords t) = true := by decide +kernel

theorem noFlush2_5_B : ∀ t : Fin cfg2.N, ¬cond2_0 (grid2.coords t) → ¬cond2_1 (grid2.coords t) → (cfg2.win 5).flush t = false := by decide +kernel

theorem liveAt2_5_C : ∀ t : Fin cfg2.N, ¬cond2_0 (grid2.coords t) → cond2_1 (grid2.coords t) → cfg2.idle 5 (grid2.coords t) = false := by decide +kernel

abbrev VO2_4 : View sig .tc .vmem S5000x128 .f32 := (Memref.whole cc2_stg4_0 : Memref sig .tc .vmem S5000x128 .f32).view
abbrev VO2_5 : View sig .tc .vmem S2x128 .f32 := (Memref.whole cc2_stg5_0 : Memref sig .tc .vmem S2x128 .f32).view

abbrev ms2_0 (t : Fin cfg2.N) : Memref sig .tc .vmem S5000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S5000x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S128x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S5000x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S2x128 .f32 := win2_5.stage (cfg2.slots t 5)
abbrev hs2_5 (t : Fin cfg2.N) : (ms2_5 t).IsWhole := hstage2_5 ((cfg2.slots t 5).cast nbuf2_5)

abbrev scM2_0 : Memref sig .tc .vmem S1x128 .f32 := Memref.whole cc2_scratch0
abbrev scM2_1 : Memref sig .tc .vmem S1x128 .f32 := Memref.whole cc2_scratch1

abbrev VS2_0 : View sig .tc .vmem S1x128 .f32 := scM2_0.view
abbrev VS2_1 : View sig .tc .vmem S1x128 .f32 := scM2_1.view

theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

end Cert.Kernel.Hand

end
-- ==== Proof.K.Reg2RunA.lean ====
import proofs.«425279_j44762149159634_1_alg».proof.Proof.K.Reg2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun2_A (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S2x128 .f32) (harg6 : arg6.IsWhole) (arg7 : Memref sig .tc .vmem S1x128 .f32) (harg7 : arg7.IsWhole) (arg8 : Memref sig .tc .vmem S1x128 .f32) (harg8 : arg8.IsWhole) (hc0 : cond2_0 i) (hc1 : ¬cond2_1 i)
    (x0 : Vec F S5000x128 .f32) (x1 : Vec F S5000x128 .f32) (x2 : Vec F S128x128 .f32) (x3 : Vec F S1x128 .f32) :
    Σ' (L4 : List (View.Piece (Elt F) S5000x128 .f32)) (L5 : List (View.Piece (Elt F) S2x128 .f32)) (LS0 : List (View.Piece (Elt F) S1x128 .f32)), { LS1 : List (View.Piece (Elt F) S1x128 .f32) //
      ∀ (xi5 : Vec F S2x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xi5
            ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4) ∗ owns (c : Thread nD τ) arg6 fullShare xi5
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc2__gin_a_kernel i arg1 harg1 arg2 harg2 arg3 harg3 arg4 harg4 arg5 harg5 arg6 harg6 arg7 harg7 arg8 harg8) K } := by
  refine ⟨?_, [], ?_, ?_, fun xi5 E K => ?run⟩
  case run =>
    simp only [cc2__gin_a_kernel_eq_skeleton]; unfold cc2__gin_a_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [HS0]; · iexists _; iexact HS0
    iexists _; iexact HS1

end Cert.Kernel.Hand

end
-- ==== Proof.K.Reg2RunB.lean ====
import proofs.«425279_j44762149159634_1_alg».proof.Proof.K.Reg2RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun2_B (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S2x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : ¬cond2_1 i)
    (x0 : Vec F S5000x128 .f32) (x1 : Vec F S5000x128 .f32) (x2 : Vec F S128x128 .f32) (x3 : Vec F S1x128 .f32) (xs0 : Vec F S1x128 .f32) (xs1 : Vec F S1x128 .f32) :
    Σ' (L4 : List (View.Piece (Elt F) S5000x128 .f32)) (L5 : List (View.Piece (Elt F) S2x128 .f32)) (LS0 : List (View.Piece (Elt F) S1x128 .f32)), { LS1 : List (View.Piece (Elt F) S1x128 .f32) //
      ∀ (xi5 : Vec F S2x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xi5
            ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4) ∗ owns (c : Thread nD τ) arg6 fullShare xi5
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc2__gin_a_kernel i arg1 harg1 arg2 harg2 arg3 harg3 arg4 harg4 arg5 harg5 arg6 harg6 arg7 harg7 arg8 harg8) K } := by
  refine ⟨?_, [], ?_, ?_, fun xi5 E K => ?run⟩
  case run =>
    simp only [cc2__gin_a_kernel_eq_skeleton]; unfold cc2__gin_a_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [HS0]; · iexists _; iexact HS0
    iexists _; iexact HS1

end Cert.Kernel.Hand

end
-- ==== Proof.K.Reg2RunC.lean ====
import proofs.«425279_j44762149159634_1_alg».proof.Proof.K.Reg2RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun2_C (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S2x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i)
    (x0 : Vec F S5000x128 .f32) (x1 : Vec F S5000x128 .f32) (x2 : Vec F S128x128 .f32) (x3 : Vec F S1x128 .f32) (xs0 : Vec F S1x128 .f32) (xs1 : Vec F S1x128 .f32) :
    Σ' (L4 : List (View.Piece (Elt F) S5000x128 .f32)) (L5 : List (View.Piece (Elt F) S2x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d)
            ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc2__gin_a_kernel i arg1 harg1 arg2 harg2 arg3 harg3 arg4 harg4 arg5 harg5 arg6 harg6 arg7 harg7 arg8 harg8) K } := by
  refine ⟨?_, ?_, ?_, ?_, fun E K => ?run⟩
  case run =>
    simp only [cc2__gin_a_kernel_eq_skeleton]; unfold cc2__gin_a_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [HS0]; · iexists _; iexact HS0
    iexists _; iexact HS1

end Cert.Kernel.Hand

end
-- ==== Proof.K.Reg2.lean ====
import proofs.«425279_j44762149159634_1_alg».proof.Proof.K.Reg2RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S2x128 .f32) (harg6 : arg6.IsWhole) (arg7 : Memref sig .tc .vmem S1x128 .f32) (harg7 : arg7.IsWhole) (arg8 : Memref sig .tc .vmem S1x128 .f32) (harg8 : arg8.IsWhole)
include c i arg1 harg1 arg2 harg2 arg3 harg3 arg4 harg4 arg5 harg5 arg6 harg6 arg7 harg7 arg8 harg8

section
variable (hc0 : cond2_0 i) (hc1 : ¬cond2_1 i) (x0 : Vec F S5000x128 .f32) (x1 : Vec F S5000x128 .f32) (x2 : Vec F S128x128 .f32) (x3 : Vec F S1x128 .f32)
include hc0 hc1 x0 x1 x2 x3

theorem cover2_A_4 (y : S5000x128.Idx) :
    ∃ pc ∈ (kernelRun2_A c i arg1 harg1 arg2 harg2 arg3 harg3 arg4 harg4 arg5 harg5 arg6 harg6 arg7 harg7 arg8 harg8 hc0 hc1 x0 x1 x2 x3).1, y ∈ pc.1.set :=
  View.cover_of_tiledL (kernelRun2_A c i arg1 harg1 arg2 harg2 arg3 harg3 arg4 harg4 arg5 harg5 arg6 harg6 arg7 harg7 arg8 harg8 hc0 hc1 x0 x1 x2 x3).1 S5000x128.size (by sl_kernel_rfl) y

def out2_A_4 : Vec F S5000x128 .f32 :=
  VO2_4.read (Elt F) (VO2_4.writes (Elt F) VO2_4.junk (kernelRun2_A c i arg1 harg1 arg2 harg2 arg3 harg3 arg4 harg4 arg5 harg5 arg6 harg6 arg7 harg7 arg8 harg8 hc0 hc1 x0 x1 x2 x3).1)

def out2_A_5 : Vec F S2x128 .f32 :=
  VO2_5.read (Elt F) (VO2_5.writes (Elt F) VO2_5.junk (kernelRun2_A c i arg1 harg1 arg2 harg2 arg3 harg3 arg4 harg4 arg5 harg5 arg6 harg6 arg7 harg7 arg8 harg8 hc0 hc1 x0 x1 x2 x3).2.1)

theorem scover2_A_0 (y : S1x128.Idx) :
    ∃ pc ∈ (kernelRun2_A c i arg1 harg1 arg2 harg2 arg3 harg3 arg4 harg4 arg5 harg5 arg6 harg6 arg7 harg7 arg8 harg8 hc0 hc1 x0 x1 x2 x3).2.2.1, y ∈ pc.1.set :=
  View.cover_of_tiledL (kernelRun2_A c i arg1 harg1 arg2 harg2 arg3 harg3 arg4 harg4 arg5 harg5 arg6 harg6 arg7 harg7 arg8 harg8 hc0 hc1 x0 x1 x2 x3).2.2.1 S1x128.size (by sl_kernel_rfl) y

def sout2_A_0 : Vec F S1x128 .f32 :=
  VS2_0.read (Elt F) (VS2_0.writes (Elt F) VS2_0.junk (kernelRun2_A c i arg1 harg1 arg2 harg2 arg3 harg3 arg4 harg4 arg5 harg5 arg6 harg6 arg7 harg7 arg8 harg8 hc0 hc1 x0 x1 x2 x3).2.2.1)

theorem scover2_A_1 (y : S1x128.Idx) :
    ∃ pc ∈ (kernelRun2_A c i arg1 harg1 arg2 harg2 arg3 harg3 arg4 harg4 arg5 harg5 arg6 harg6 arg7 harg7 arg8 harg8 hc0 hc1 x0 x1 x2 x3).2.2.2.1, y ∈ pc.1.set :=
  View.cover_of_tiledL (kernelRun2_A c i arg1 harg1 arg2 harg2 arg3 harg3 arg4 harg4 arg5 harg5 arg6 harg6 arg7 harg7 arg8 harg8 hc0 hc1 x0 x1 x2 x3).2.2.2.1 S1x128.size (by sl_kernel_rfl) y

def sout2_A_1 : Vec F S1x128 .f32 :=
  VS2_1.read (Elt F) (VS2_1.writes (Elt F) VS2_1.junk (kernelRun2_A c i arg1 harg1 arg2 harg2 arg3 harg3 arg4 harg4 arg5 harg5 arg6 harg6 arg7 harg7 arg8 harg8 hc0 hc1 x0 x1 x2 x3).2.2.2.1)

def outs2_A : Vec F S5000x128 .f32 × Vec F S2x128 .f32 × Vec F S1x128 .f32 × Vec F S1x128 .f32 :=
  (out2_A_4 c i arg1 harg1 arg2 harg2 arg3 harg3 arg4 harg4 arg5 harg5 arg6 harg6 arg7 harg7 arg8 harg8 hc0 hc1 x0 x1 x2 x3, out2_A_5 c i arg1 harg1 arg2 harg2 arg3 harg3 arg4 harg4 arg5 harg5 arg6 harg6 arg7 harg7 arg8 harg8 hc0 hc1 x0 x1 x2 x3, sout2_A_0 c i arg1 harg1 arg2 harg2 arg3 harg3 arg4 harg4 arg5 harg5 arg6 harg6 arg7 harg7 arg8 harg8 hc0 hc1 x0 x1 x2 x3, sout2_A_1 c i arg1 harg1 arg2 harg2 arg3 harg3 arg4 harg4 arg5 harg5 arg6 harg6 arg7 harg7 arg8 harg8 hc0 hc1 x0 x1 x2 x3)

end

section
variable (hc0 : ¬cond2_0 i) (hc1 : ¬cond2_1 i) (x0 : Vec F S5000x128 .f32) (x1 : Vec F S5000x128 .f32) (x2 : Vec F S128x128 .f32) (x3 : Vec F S1x128 .f32) (xs0 : Vec F S1x128 .f32) (xs1 : Vec F S1x128 .f32)
include hc0 hc1 x0 x1 x2 x3 xs0 xs1

theorem cover2_B_4 (y : S5000x128.Idx) :
    ∃ pc ∈ (kernelRun2_B c i arg1 harg1 arg2 harg2 arg3 harg3 arg4 harg4 arg5 harg5 arg6 harg6 arg7 harg7 arg8 harg8 hc0 hc1 x0 x1 x2 x3 xs0 xs1).1, y ∈ pc.1.set :=
  View.cover_of_tiledL (kernelRun2_B c i arg1 harg1 arg2 harg2 arg3 harg3 arg4 harg4 arg5 harg5 arg6 harg6 arg7 harg7 arg8 harg8 hc0 hc1 x0 x1 x2 x3 xs0 xs1).1 S5000x128.size (by sl_kernel_rfl) y

def out2_B_4 : Vec F S5000x128 .f32 :=
  VO2_4.read (Elt F) (VO2_4.writes (Elt F) VO2_4.junk (kernelRun2_B c i arg1 harg1 arg2 harg2 arg3 harg3 arg4 harg4 arg5 harg5 arg6 harg6 arg7 harg7 arg8 harg8 hc0 hc1 x0 x1 x2 x3 xs0 xs1).1)

def out2_B_5 : Vec F S2x128 .f32 :=
  VO2_5.read (Elt F) (VO2_5.writes (Elt F) VO2_5.junk (kernelRun2_B c i arg1 harg1 arg2 harg2 arg3 harg3 arg4 harg4 arg5 harg5 arg6 harg6 arg7 harg7 arg8 harg8 hc0 hc1 x0 x1 x2 x3 xs0 xs1).2.1)

theorem scover2_B_0 (y : S1x128.Idx) :
    ∃ pc ∈ (kernelRun2_B c i arg1 harg1 arg2 harg2 arg3 harg3 arg4 harg4 arg5 harg5 arg6 harg6 arg7 harg7 arg8 harg8 hc0 hc1 x0 x1 x2 x3 xs0 xs1).2.2.1, y ∈ pc.1.set :=
  View.cover_of_tiledL (kernelRun2_B c i arg1 harg1 arg2 harg2 arg3 harg3 arg4 harg4 arg5 harg5 arg6 harg6 arg7 harg7 arg8 harg8 hc0 hc1 x0 x1 x2 x3 xs0 xs1).2.2.1 S1x128.size (by sl_kernel_rfl) y

def sout2_B_0 : Vec F S1x128 .f32 :=
  VS2_0.read (Elt F) (VS2_0.writes (Elt F) VS2_0.junk (kernelRun2_B c i arg1 harg1 arg2 harg2 arg3 harg3 arg4 harg4 arg5 harg5 arg6 harg6 arg7 harg7 arg8 harg8 hc0 hc1 x0 x1 x2 x3 xs0 xs1).2.2.1)

theorem scover2_B_1 (y : S1x128.Idx) :
    ∃ pc ∈ (kernelRun2_B c i arg1 harg1 arg2 harg2 arg3 harg3 arg4 harg4 arg5 harg5 arg6 harg6 arg7 harg7 arg8 harg8 hc0 hc1 x0 x1 x2 x3 xs0 xs1).2.2.2.1, y ∈ pc.1.set :=
  View.cover_of_tiledL (kernelRun2_B c i arg1 harg1 arg2 harg2 arg3 harg3 arg4 harg4 arg5 harg5 arg6 harg6 arg7 harg7 arg8 harg8 hc0 hc1 x0 x1 x2 x3 xs0 xs1).2.2.2.1 S1x128.size (by sl_kernel_rfl) y

def sout2_B_1 : Vec F S1x128 .f32 :=
  VS2_1.read (Elt F) (VS2_1.writes (Elt F) VS2_1.junk (kernelRun2_B c i arg1 harg1 arg2 harg2 arg3 harg3 arg4 harg4 arg5 harg5 arg6 harg6 arg7 harg7 arg8 harg8 hc0 hc1 x0 x1 x2 x3 xs0 xs1).2.2.2.1)

def outs2_B : Vec F S5000x128 .f32 × Vec F S2x128 .f32 × Vec F S1x128 .f32 × Vec F S1x128 .f32 :=
  (out2_B_4 c i arg1 harg1 arg2 harg2 arg3 harg3 arg4 harg4 arg5 harg5 arg6 harg6 arg7 harg7 arg8 harg8 hc0 hc1 x0 x1 x2 x3 xs0 xs1, out2_B_5 c i arg1 harg1 arg2 harg2 arg3 harg3 arg4 harg4 arg5 harg5 arg6 harg6 arg7 harg7 arg8 harg8 hc0 hc1 x0 x1 x2 x3 xs0 xs1, sout2_B_0 c i arg1 harg1 arg2 harg2 arg3 harg3 arg4 harg4 arg5 harg5 arg6 harg6 arg7 harg7 arg8 harg8 hc0 hc1 x0 x1 x2 x3 xs0 xs1, sout2_B_1 c i arg1 harg1 arg2 harg2 arg3 harg3 arg4 harg4 arg5 harg5 arg6 harg6 arg7 harg7 arg8 harg8 hc0 hc1 x0 x1 x2 x3 xs0 xs1)

end

section
variable (hc0 : ¬cond2_0 i) (hc1 : cond2_1 i) (x0 : Vec F S5000x128 .f32) (x1 : Vec F S5000x128 .f32) (x2 : Vec F S128x128 .f32) (x3 : Vec F S1x128 .f32) (xs0 : Vec F S1x128 .f32) (xs1 : Vec F S1x128 .f32)
include hc0 hc1 x0 x1 x2 x3 xs0 xs1

theorem cover2_C_4 (y : S5000x128.Idx) :
    ∃ pc ∈ (kernelRun2_C c i arg1 harg1 arg2 harg2 arg3 harg3 arg4 harg4 arg5 harg5 arg6 harg6 arg7 harg7 arg8 harg8 hc0 hc1 x0 x1 x2 x3 xs0 xs1).1, y ∈ pc.1.set :=
  View.cover_of_tiledL (kernelRun2_C c i arg1 harg1 arg2 harg2 arg3 harg3 arg4 harg4 arg5 harg5 arg6 harg6 arg7 harg7 arg8 harg8 hc0 hc1 x0 x1 x2 x3 xs0 xs1).1 S5000x128.size (by sl_kernel_rfl) y

def out2_C_4 : Vec F S5000x128 .f32 :=
  VO2_4.read (Elt F) (VO2_4.writes (Elt F) VO2_4.junk (kernelRun2_C c i arg1 harg1 arg2 harg2 arg3 harg3 arg4 harg4 arg5 harg5 arg6 harg6 arg7 harg7 arg8 harg8 hc0 hc1 x0 x1 x2 x3 xs0 xs1).1)

theorem cover2_C_5 (y : S2x128.Idx) :
    ∃ pc ∈ (kernelRun2_C c i arg1 harg1 arg2 harg2 arg3 harg3 arg4 harg4 arg5 harg5 arg6 harg6 arg7 harg7 arg8 harg8 hc0 hc1 x0 x1 x2 x3 xs0 xs1).2.1, y ∈ pc.1.set :=
  View.cover_of_tiledL (kernelRun2_C c i arg1 harg1 arg2 harg2 arg3 harg3 arg4 harg4 arg5 harg5 arg6 harg6 arg7 harg7 arg8 harg8 hc0 hc1 x0 x1 x2 x3 xs0 xs1).2.1 S1x128.size (by sl_kernel_rfl) y

def out2_C_5 : Vec F S2x128 .f32 :=
  VO2_5.read (Elt F) (VO2_5.writes (Elt F) VO2_5.junk (kernelRun2_C c i arg1 harg1 arg2 harg2 arg3 harg3 arg4 harg4 arg5 harg5 arg6 harg6 arg7 harg7 arg8 harg8 hc0 hc1 x0 x1 x2 x3 xs0 xs1).2.1)

theorem scover2_C_0 (y : S1x128.Idx) :
    ∃ pc ∈ (kernelRun2_C c i arg1 harg1 arg2 harg2 arg3 harg3 arg4 harg4 arg5 harg5 arg6 harg6 arg7 harg7 arg8 harg8 hc0 hc1 x0 x1 x2 x3 xs0 xs1).2.2.1, y ∈ pc.1.set :=
  View.cover_of_tiledL (kernelRun2_C c i arg1 harg1 arg2 harg2 arg3 harg3 arg4 harg4 arg5 harg5 arg6 harg6 arg7 harg7 arg8 harg8 hc0 hc1 x0 x1 x2 x3 xs0 xs1).2.2.1 S1x128.size (by sl_kernel_rfl) y

def sout2_C_0 : Vec F S1x128 .f32 :=
  VS2_0.read (Elt F) (VS2_0.writes (Elt F) VS2_0.junk (kernelRun2_C c i arg1 harg1 arg2 harg2 arg3 harg3 arg4 harg4 arg5 harg5 arg6 harg6 arg7 harg7 arg8 harg8 hc0 hc1 x0 x1 x2 x3 xs0 xs1).2.2.1)

theorem scover2_C_1 (y : S1x128.Idx) :
    ∃ pc ∈ (kernelRun2_C c i arg1 harg1 arg2 harg2 arg3 harg3 arg4 harg4 arg5 harg5 arg6 harg6 arg7 harg7 arg8 harg8 hc0 hc1 x0 x1 x2 x3 xs0 xs1).2.2.2.1, y ∈ pc.1.set :=
  View.cover_of_tiledL (kernelRun2_C c i arg1 harg1 arg2 harg2 arg3 harg3 arg4 harg4 arg5 harg5 arg6 harg6 arg7 harg7 arg8 harg8 hc0 hc1 x0 x1 x2 x3 xs0 xs1).2.2.2.1 S1x128.size (by sl_kernel_rfl) y

def sout2_C_1 : Vec F S1x128 .f32 :=
  VS2_1.read (Elt F) (VS2_1.writes (Elt F) VS2_1.junk (kernelRun2_C c i arg1 harg1 arg2 harg2 arg3 harg3 arg4 harg4 arg5 harg5 arg6 harg6 arg7 harg7 arg8 harg8 hc0 hc1 x0 x1 x2 x3 xs0 xs1).2.2.2.1)

def outs2_C : Vec F S5000x128 .f32 × Vec F S2x128 .f32 × Vec F S1x128 .f32 × Vec F S1x128 .f32 :=
  (out2_C_4 c i arg1 harg1 arg2 harg2 arg3 harg3 arg4 harg4 arg5 harg5 arg6 harg6 arg7 harg7 arg8 harg8 hc0 hc1 x0 x1 x2 x3 xs0 xs1, out2_C_5 c i arg1 harg1 arg2 harg2 arg3 harg3 arg4 harg4 arg5 harg5 arg6 harg6 arg7 harg7 arg8 harg8 hc0 hc1 x0 x1 x2 x3 xs0 xs1, sout2_C_0 c i arg1 harg1 arg2 harg2 arg3 harg3 arg4 harg4 arg5 harg5 arg6 harg6 arg7 harg7 arg8 harg8 hc0 hc1 x0 x1 x2 x3 xs0 xs1, sout2_C_1 c i arg1 harg1 arg2 harg2 arg3 harg3 arg4 harg4 arg5 harg5 arg6 harg6 arg7 harg7 arg8 harg8 hc0 hc1 x0 x1 x2 x3 xs0 xs1)

end

end

def outsAt2 (c : Dev nD) : (n : ℕ) → n < cfg2.N → Vec F S5000x128 .f32 × Vec F S2x128 .f32 × Vec F S1x128 .f32 × Vec F S1x128 .f32
  | 0, hn => outs2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩)
  | n + 1, hn =>
    if h0 : (n + 1) % 20 = 0 then
      if h1 : (n + 1) % 20 = 19 then
        False.elim (by have hN : n + 1 < 20 := lt_of_lt_of_eq hn (show cfg2.N = 20 from N_2); omega)
      else
        outs2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩)
    else
      if h1 : (n + 1) % 20 = 19 then
        outs2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2.1 (outsAt2 c n (Nat.lt_of_succ_lt hn)).2.2.2
      else
        outs2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2.1 (outsAt2 c n (Nat.lt_of_succ_lt hn)).2.2.2

theorem outsAt2_A (c : Dev nD) (t : Fin cfg2.N) (h0 : t.val % 20 = 0) (h1 : ¬t.val % 20 = 19) :
    outsAt2 V c t.val t.isLt = outs2_A c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) := by
  obtain ⟨n, hn⟩ := t
  cases n with
  | zero => exact rfl
  | succ n => exact (dif_pos h0).trans ((dif_neg h1).trans rfl)

theorem outsAt2_B (c : Dev nD) (t : Fin cfg2.N) (h0 : ¬t.val % 20 = 0) (h1 : ¬t.val % 20 = 19) :
    outsAt2 V c t.val t.isLt = outs2_B c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.2.1 (outsAt2 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 20 = 0) (h1 : t.val % 20 = 19) :
    outsAt2 V c t.val t.isLt = outs2_C c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2.1 (outsAt2 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_pos h1).trans rfl)

def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2.2.1) ∗ owns (c : Thread nD τ) scM2_1 fullShare ((outsAt2 V c n hn).2.2.2)) ∗ Pipeline.scopedRestBut (Ix := Unit) (Name := ℕ) (U := UR sig nD τ) (Lvl := ℕ) (Val := Elt F) spec2 c [cc2_scratch0, cc2_scratch1]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare ((outsAt2 V c n hn).2.2.1) ∗ owns (c : Thread nD τ) scM2_1 fullShare ((outsAt2 V c n hn).2.2.2)) ∗ Pipeline.scopedRestBut (Ix := Unit) (Name := ℕ) (U := UR sig nD τ) (Lvl := ℕ) (Val := Elt F) spec2 c [cc2_scratch0, cc2_scratch1]) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2.2.1) ∗ owns (c : Thread nD τ) scM2_1 fullShare ((outsAt2 V c (n - 1) (by omega)).2.2.2)) ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
    | ⟨5, _⟩ => (outsAt2 V c t.val t.isLt).2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]
theorem after2_5 (c : Dev nD) (t : Fin cfg2.N) : (dat2 V c).after 5 t = (outsAt2 V c t.val t.isLt).2.1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4800000 in

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  have hN : t.val < 20 := lt_of_lt_of_eq t.isLt (show cfg2.N = 20 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  by_cases h0 : t.val % 20 = 0
  · by_cases h1 : t.val % 20 = 19
    · exfalso; omega
    ·
      rw [Dat.leavesExact_idle (dat2 V c) 5 t (idleAt2_5_A t ((hcond2_0 t).mpr h0) (fun h => h1 ((hcond2_1 t).mp h))) (noFlush2_5_A t ((hcond2_0 t).mpr h0) (fun h => h1 ((hcond2_1 t).mp h)))]
      rw [outsAt2_A V c t h0 h1]
      unfold outs2_A out2_A_4 sout2_A_0 sout2_A_1; (try dsimp only)
      by_cases hz : t.val = 0
      ·
        rw [PhiS2_castSucc V c t, PhiS2_zero V c _ _ hz, PhiA2_eq]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
        iapply ((kernelRun2_A c (grid2.coords t) _ _ _ _ _ _ _ _ _ _ _ _ _ _ _ _ ((hcond2_0 t).mpr h0) (fun h => h1 ((hcond2_1 t).mp h)) (iblk2 V c 0 t) (iblk2 V c 1 t) (iblk2 V c 2 t) (iblk2 V c 3 t)).2.2.2.2 _ Set.univ _)
        isplitl [H0]; · iexact H0
        isplitl [H1]; · iexact H1
        isplitl [H2]; · iexact H2
        isplitl [H3]; · iexact H3
        isplitl [H4]; · iexists _; iexact H4
        isplitl [H5]; · iexact H5
        isplitl [HS0]; · iexact HS0
        isplitl [HS1]; · iexact HS1
        iintro ⟨H0, H1, H2, H3, ⟨%e4, H4⟩, H5, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover2_A_0 c _ _ _ _ _ _ _ _ _ _ _ _ _ _ _ _ _ _ _ _ _ _ _)
              unfold owns; iexists _; isplitr
              swap; · iexact HS1
              ipureintro; exact View.read_writes_of_cover _ _ _ _ _ (scover2_A_1 c _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover2_A_4 c _ _ _ _ _ _ _ _ _ _ _ _ _ _ _ _ _ _ _ _ _ _ _)
        iexists _; iexact H5
      · exfalso; omega
  · by_cases h1 : t.val % 20 = 19
    ·
      rw [show (dat2 V c).leavesExact 5 t = owns (c : Thread nD τ) (ms2_5 t) fullShare ((dat2 V c).after 5 t) from by
        unfold Dat.leavesExact; rw [liveAt2_5_C t (fun h => h0 ((hcond2_0 t).mp h)) ((hcond2_1 t).mpr h1)], after2_5]
      rw [outsAt2_C V c t h0 h1]
      unfold outs2_C out2_C_4 out2_C_5 sout2_C_0 sout2_C_1; (try dsimp only)
      by_cases hz : t.val = 0
      · exfalso; omega
      ·
        rw [PhiS2_castSucc V c t, PhiS2_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
        iapply ((kernelRun2_C c (grid2.coords t) _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) _ _).2.2.2.2 Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [HS0]; · iexact HS0
        isplitl [HS1]; · iexact HS1
        iintro ⟨H0, H1, H2, H3, ⟨%e4, H4⟩, ⟨%e5, H5⟩, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover2_C_0 c _ _ _ _ _ _ _ _ _ _ _ _ _ _ _ _ _ _ _ _ _ _ _ _ _)
              unfold owns; iexists _; isplitr
              swap; · iexact HS1
              ipureintro; exact View.read_writes_of_cover _ _ _ _ _ (scover2_C_1 c _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover2_C_4 c _ _ _ _ _ _ _ _ _ _ _ _ _ _ _ _ _ _ _ _ _ _ _ _ _)
        unfold owns; iexists _; isplitr
        swap; · iexact H5
        ipureintro; exact View.read_writes_of_cover _ _ _ _ _ (cover2_C_5 c _ _ _ _ _ _ _ _ _ _ _ _ _ _ _ _ _ _ _ _ _ _ _ _ _)
    ·
      rw [Dat.leavesExact_idle (dat2 V c) 5 t (idleAt2_5_B t (fun h => h0 ((hcond2_0 t).mp h)) (fun h => h1 ((hcond2_1 t).mp h))) (noFlush2_5_B t (fun h => h0 ((hcond2_0 t).mp h)) (fun h => h1 ((hcond2_1 t).mp h)))]
      rw [outsAt2_B V c t h0 h1]
      unfold outs2_B out2_B_4 sout2_B_0 sout2_B_1; (try dsimp only)
      by_cases hz : t.val = 0
      · exfalso; omega
      ·
        rw [PhiS2_castSucc V c t, PhiS2_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
        iapply ((kernelRun2_B c (grid2.coords t) _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) _ _).2.2.2.2 _ Set.univ _)
        isplitl [H0]; · iexact H0
        isplitl [H1]; · iexact H1
        isplitl [H2]; · iexact H2
        isplitl [H3]; · iexact H3
        isplitl [H4]; · iexists _; iexact H4
        isplitl [H5]; · iexact H5
        isplitl [HS0]; · iexact HS0
        isplitl [HS1]; · iexact HS1
        iintro ⟨H0, H1, H2, H3, ⟨%e4, H4⟩, H5, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover2_B_0 c _ _ _ _ _ _ _ _ _ _ _ _ _ _ _ _ _ _ _ _ _ _ _ _ _)
              unfold owns; iexists _; isplitr
              swap; · iexact HS1
              ipureintro; exact View.read_writes_of_cover _ _ _ _ _ (scover2_B_1 c _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover2_B_4 c _ _ _ _ _ _ _ _ _ _ _ _ _ _ _ _ _ _ _ _ _ _ _ _ _)
        iexists _; iexact H5

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

theorem hout2 (c : Dev nD) : (dat2 V c).Φ (Fin.last cfg2.N) ⊢ Pipeline.ΦA spec2 c :=
  Phi_out2 V c _ (by rw [Fin.val_last]; have : cfg2.N = 20 := N_2; omega)

end Cert.Kernel.Hand

end
-- ==== Proof.K.Reg3Runs.lean ====
import proofs.«425279_j44762149159634_1_alg».proof.Proof.Gen.Kernel.Launch
import proofs.«425279_j44762149159634_1_alg».proof.Proof.Gen.Kernel.Skeleton
import proofs.«425279_j44762149159634_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

abbrev VO3_7 : View sig .tc .vmem S5000x128 .f32 := (Memref.whole cc3_stg7_0 : Memref sig .tc .vmem S5000x128 .f32).view

abbrev ms3_0 (t : Fin cfg3.N) : Memref sig .tc .vmem S5000x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x128 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x128 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x128 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S128x128 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S1x128 .f32 := win3_6.stage (cfg3.slots t 6)
abbrev hs3_6 (t : Fin cfg3.N) : (ms3_6 t).IsWhole := hstage3_6 ((cfg3.slots t 6).cast nbuf3_6)
abbrev ms3_7 (t : Fin cfg3.N) : Memref sig .tc .vmem S5000x128 .f32 := win3_7.stage (cfg3.slots t 7)
abbrev hs3_7 (t : Fin cfg3.N) : (ms3_7 t).IsWhole := hstage3_7 ((cfg3.slots t 7).cast nbuf3_7)

end Cert.Kernel.Hand

end
-- ==== Proof.K.Reg3RunA.lean ====
import proofs.«425279_j44762149159634_1_alg».proof.Proof.K.Reg3Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in

noncomputable def kernelRun3_A (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole)
    (x0 : Vec F S5000x128 .f32) (x1 : Vec F S1x128 .f32) (x2 : Vec F S1x128 .f32) (x3 : Vec F S1x128 .f32) (x4 : Vec F S1x128 .f32) (x5 : Vec F S128x128 .f32) (x6 : Vec F S1x128 .f32) :
    { L7 : List (View.Piece (Elt F) S5000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7)) -∗ K ⟨⟩))
          ⊢ wp frame (wpE (defs₀ (F := F)) Variants.none c none) E (cc3__gin_b_kernel i arg1 harg1 arg2 harg2 arg3 harg3 arg4 harg4 arg5 harg5 arg6 harg6 arg7 harg7 arg8 harg8) K } := by
  refine ⟨?_, fun E K => ?run⟩
  case run =>
    simp only [cc3__gin_b_kernel_eq_skeleton]; unfold cc3__gin_b_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; iexact H7

end Cert.Kernel.Hand

end
-- ==== Proof.K.Reg3.lean ====
import proofs.«425279_j44762149159634_1_alg».proof.Proof.K.Reg3RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (x0 : Vec F S5000x128 .f32) (x1 : Vec F S1x128 .f32) (x2 : Vec F S1x128 .f32) (x3 : Vec F S1x128 .f32) (x4 : Vec F S1x128 .f32) (x5 : Vec F S128x128 .f32) (x6 : Vec F S1x128 .f32)
include c i arg1 harg1 arg2 harg2 arg3 harg3 arg4 harg4 arg5 harg5 arg6 harg6 arg7 harg7 arg8 harg8 x0 x1 x2 x3 x4 x5 x6

theorem cover3_A_7 (y : S5000x128.Idx) :
    ∃ pc ∈ (kernelRun3_A c i arg1 harg1 arg2 harg2 arg3 harg3 arg4 harg4 arg5 harg5 arg6 harg6 arg7 harg7 arg8 harg8 x0 x1 x2 x3 x4 x5 x6).1, y ∈ pc.1.set :=
  View.cover_of_tiledL (kernelRun3_A c i arg1 harg1 arg2 harg2 arg3 harg3 arg4 harg4 arg5 harg5 arg6 harg6 arg7 harg7 arg8 harg8 x0 x1 x2 x3 x4 x5 x6).1 S5000x128.size (by sl_kernel_rfl) y

def out3_A_7 : Vec F S5000x128 .f32 :=
  VO3_7.read (Elt F) (VO3_7.writes (Elt F) VO3_7.junk (kernelRun3_A c i arg1 harg1 arg2 harg2 arg3 harg3 arg4 harg4 arg5 harg5 arg6 harg6 arg7 harg7 arg8 harg8 x0 x1 x2 x3 x4 x5 x6).1)

end

def out3At (c : Dev nD) (t : Fin cfg3.N) : Vec F S5000x128 .f32 :=
  out3_A_7 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (iblk3 V c 0 t) (iblk3 V c 1 t) (iblk3 V c 2 t) (iblk3 V c 3 t) (iblk3 V c 4 t) (iblk3 V c 5 t) (iblk3 V c 6 t)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3At V c t
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = out3At V c t := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

set_option maxHeartbeats 4800000 in

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  unfold out3At out3_A_7
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun3_A c (grid3.coords t) _ _ _ _ _ _ _ _ _ _ _ _ _ _ _ _ (iblk3 V c 0 t) (iblk3 V c 1 t) (iblk3 V c 2 t) (iblk3 V c 3 t) (iblk3 V c 4 t) (iblk3 V c 5 t) (iblk3 V c 6 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_of_cover _ _ _ _ _ (cover3_A_7 c _ _ _ _ _ _ _ _ _ _ _ _ _ _ _ _ _ _ _ _ _ _ _ _)

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := .rfl

theorem hout3 (c : Dev nD) : (dat3 V c).Φ (Fin.last cfg3.N) ⊢ Pipeline.ΦA spec3 c := .rfl

end Cert.Kernel.Hand

end
-- ==== Proof.K.Reg4Runs.lean ====
import proofs.«425279_j44762149159634_1_alg».proof.Proof.Gen.Kernel.Launch
import proofs.«425279_j44762149159634_1_alg».proof.Proof.Gen.Kernel.Skeleton
import proofs.«425279_j44762149159634_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

abbrev cond4_0 (i : grid4.Coords) : Prop := (Scalar.cmpi .ne (Scalar.extui (Scalar.cmpi .eq (BitVec.ofNat 32 (i 0).val) 0#32)) 0#32) = 1#1

theorem hcond4_0 : ∀ t : Fin cfg4.N, cond4_0 (grid4.coords t) ↔ t.val % 20 = 0 :=
  (by decide +kernel : ∀ t : Fin grid4.N, cond4_0 (grid4.coords t) ↔ t.val % 20 = 0)

abbrev cond4_1 (i : grid4.Coords) : Prop := k4_cond2 i = 1#1

theorem hcond4_1 : ∀ t : Fin cfg4.N, cond4_1 (grid4.coords t) ↔ t.val % 20 = 19 :=
  (by decide +kernel : ∀ t : Fin grid4.N, cond4_1 (grid4.coords t) ↔ t.val % 20 = 19)

theorem liveAt4_0 : ∀ t : Fin cfg4.N, cfg4.idle 0 (grid4.coords t) = false := by decide +kernel

theorem liveAt4_1 : ∀ t : Fin cfg4.N, cfg4.idle 1 (grid4.coords t) = false := by decide +kernel

theorem liveAt4_2 : ∀ t : Fin cfg4.N, cfg4.idle 2 (grid4.coords t) = false := by decide +kernel

theorem liveAt4_3 : ∀ t : Fin cfg4.N, cfg4.idle 3 (grid4.coords t) = false := by decide +kernel

theorem liveAt4_4 : ∀ t : Fin cfg4.N, cfg4.idle 4 (grid4.coords t) = false := by decide +kernel

theorem idleAt4_5_A : ∀ t : Fin cfg4.N, cond4_0 (grid4.coords t) → ¬cond4_1 (grid4.coords t) → cfg4.idle 5 (grid4.coords t) = true := by decide +kernel

theorem noFlush4_5_A : ∀ t : Fin cfg4.N, cond4_0 (grid4.coords t) → ¬cond4_1 (grid4.coords t) → (cfg4.win 5).flush t = false := by decide +kernel

theorem idleAt4_5_B : ∀ t : Fin cfg4.N, ¬cond4_0 (grid4.coords t) → ¬cond4_1 (grid4.coords t) → cfg4.idle 5 (grid4.coords t) = true := by decide +kernel

theorem noFlush4_5_B : ∀ t : Fin cfg4.N, ¬cond4_0 (grid4.coords t) → ¬cond4_1 (grid4.coords t) → (cfg4.win 5).flush t = false := by decide +kernel

theorem liveAt4_5_C : ∀ t : Fin cfg4.N, ¬cond4_0 (grid4.coords t) → cond4_1 (grid4.coords t) → cfg4.idle 5 (grid4.coords t) = false := by decide +kernel

abbrev VO4_4 : View sig .tc .vmem S5000x128 .f32 := (Memref.whole cc4_stg4_0 : Memref sig .tc .vmem S5000x128 .f32).view
abbrev VO4_5 : View sig .tc .vmem S2x128 .f32 := (Memref.whole cc4_stg5_0 : Memref sig .tc .vmem S2x128 .f32).view

abbrev ms4_0 (t : Fin cfg4.N) : Memref sig .tc .vmem S5000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S5000x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S128x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x128 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S5000x128 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S2x128 .f32 := win4_5.stage (cfg4.slots t 5)
abbrev hs4_5 (t : Fin cfg4.N) : (ms4_5 t).IsWhole := hstage4_5 ((cfg4.slots t 5).cast nbuf4_5)

abbrev scM4_0 : Memref sig .tc .vmem S1x128 .f32 := Memref.whole cc4_scratch0
abbrev scM4_1 : Memref sig .tc .vmem S1x128 .f32 := Memref.whole cc4_scratch1

abbrev VS4_0 : View sig .tc .vmem S1x128 .f32 := scM4_0.view
abbrev VS4_1 : View sig .tc .vmem S1x128 .f32 := scM4_1.view

theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

end Cert.Kernel.Hand

end
-- ==== Proof.K.Reg4RunA.lean ====
import proofs.«425279_j44762149159634_1_alg».proof.Proof.K.Reg4Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun4_A (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S2x128 .f32) (harg6 : arg6.IsWhole) (arg7 : Memref sig .tc .vmem S1x128 .f32) (harg7 : arg7.IsWhole) (arg8 : Memref sig .tc .vmem S1x128 .f32) (harg8 : arg8.IsWhole) (hc0 : cond4_0 i) (hc1 : ¬cond4_1 i)
    (x0 : Vec F S5000x128 .f32) (x1 : Vec F S5000x128 .f32) (x2 : Vec F S128x128 .f32) (x3 : Vec F S1x128 .f32) :
    Σ' (L4 : List (View.Piece (Elt F) S5000x128 .f32)) (L5 : List (View.Piece (Elt F) S2x128 .f32)) (LS0 : List (View.Piece (Elt F) S1x128 .f32)), { LS1 : List (View.Piece (Elt F) S1x128 .f32) //
      ∀ (xi5 : Vec F S2x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xi5
            ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4) ∗ owns (c : Thread nD τ) arg6 fullShare xi5
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc4__gin_a_kernel i arg1 harg1 arg2 harg2 arg3 harg3 arg4 harg4 arg5 harg5 arg6 harg6 arg7 harg7 arg8 harg8) K } := by
  refine ⟨?_, [], ?_, ?_, fun xi5 E K => ?run⟩
  case run =>
    simp only [cc4__gin_a_kernel_eq_skeleton]; unfold cc4__gin_a_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [HS0]; · iexists _; iexact HS0
    iexists _; iexact HS1

end Cert.Kernel.Hand

end
-- ==== Proof.K.Reg4RunB.lean ====
import proofs.«425279_j44762149159634_1_alg».proof.Proof.K.Reg4RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun4_B (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S2x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : ¬cond4_1 i)
    (x0 : Vec F S5000x128 .f32) (x1 : Vec F S5000x128 .f32) (x2 : Vec F S128x128 .f32) (x3 : Vec F S1x128 .f32) (xs0 : Vec F S1x128 .f32) (xs1 : Vec F S1x128 .f32) :
    Σ' (L4 : List (View.Piece (Elt F) S5000x128 .f32)) (L5 : List (View.Piece (Elt F) S2x128 .f32)) (LS0 : List (View.Piece (Elt F) S1x128 .f32)), { LS1 : List (View.Piece (Elt F) S1x128 .f32) //
      ∀ (xi5 : Vec F S2x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xi5
            ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4) ∗ owns (c : Thread nD τ) arg6 fullShare xi5
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc4__gin_a_kernel i arg1 harg1 arg2 harg2 arg3 harg3 arg4 harg4 arg5 harg5 arg6 harg6 arg7 harg7 arg8 harg8) K } := by
  refine ⟨?_, [], ?_, ?_, fun xi5 E K => ?run⟩
  case run =>
    simp only [cc4__gin_a_kernel_eq_skeleton]; unfold cc4__gin_a_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [HS0]; · iexists _; iexact HS0
    iexists _; iexact HS1

end Cert.Kernel.Hand

end
-- ==== Proof.K.Reg4RunC.lean ====
import proofs.«425279_j44762149159634_1_alg».proof.Proof.K.Reg4RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun4_C (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S2x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i)
    (x0 : Vec F S5000x128 .f32) (x1 : Vec F S5000x128 .f32) (x2 : Vec F S128x128 .f32) (x3 : Vec F S1x128 .f32) (xs0 : Vec F S1x128 .f32) (xs1 : Vec F S1x128 .f32) :
    Σ' (L4 : List (View.Piece (Elt F) S5000x128 .f32)) (L5 : List (View.Piece (Elt F) S2x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d)
            ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc4__gin_a_kernel i arg1 harg1 arg2 harg2 arg3 harg3 arg4 harg4 arg5 harg5 arg6 harg6 arg7 harg7 arg8 harg8) K } := by
  refine ⟨?_, ?_, ?_, ?_, fun E K => ?run⟩
  case run =>
    simp only [cc4__gin_a_kernel_eq_skeleton]; unfold cc4__gin_a_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [HS0]; · iexists _; iexact HS0
    iexists _; iexact HS1

end Cert.Kernel.Hand

end
-- ==== Proof.K.Reg4.lean ====
import proofs.«425279_j44762149159634_1_alg».proof.Proof.K.Reg4RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S2x128 .f32) (harg6 : arg6.IsWhole) (arg7 : Memref sig .tc .vmem S1x128 .f32) (harg7 : arg7.IsWhole) (arg8 : Memref sig .tc .vmem S1x128 .f32) (harg8 : arg8.IsWhole)
include c i arg1 harg1 arg2 harg2 arg3 harg3 arg4 harg4 arg5 harg5 arg6 harg6 arg7 harg7 arg8 harg8

section
variable (hc0 : cond4_0 i) (hc1 : ¬cond4_1 i) (x0 : Vec F S5000x128 .f32) (x1 : Vec F S5000x128 .f32) (x2 : Vec F S128x128 .f32) (x3 : Vec F S1x128 .f32)
include hc0 hc1 x0 x1 x2 x3

theorem cover4_A_4 (y : S5000x128.Idx) :
    ∃ pc ∈ (kernelRun4_A c i arg1 harg1 arg2 harg2 arg3 harg3 arg4 harg4 arg5 harg5 arg6 harg6 arg7 harg7 arg8 harg8 hc0 hc1 x0 x1 x2 x3).1, y ∈ pc.1.set :=
  View.cover_of_tiledL (kernelRun4_A c i arg1 harg1 arg2 harg2 arg3 harg3 arg4 harg4 arg5 harg5 arg6 harg6 arg7 harg7 arg8 harg8 hc0 hc1 x0 x1 x2 x3).1 S5000x128.size (by sl_kernel_rfl) y

def out4_A_4 : Vec F S5000x128 .f32 :=
  VO4_4.read (Elt F) (VO4_4.writes (Elt F) VO4_4.junk (kernelRun4_A c i arg1 harg1 arg2 harg2 arg3 harg3 arg4 harg4 arg5 harg5 arg6 harg6 arg7 harg7 arg8 harg8 hc0 hc1 x0 x1 x2 x3).1)

def out4_A_5 : Vec F S2x128 .f32 :=
  VO4_5.read (Elt F) (VO4_5.writes (Elt F) VO4_5.junk (kernelRun4_A c i arg1 harg1 arg2 harg2 arg3 harg3 arg4 harg4 arg5 harg5 arg6 harg6 arg7 harg7 arg8 harg8 hc0 hc1 x0 x1 x2 x3).2.1)

theorem scover4_A_0 (y : S1x128.Idx) :
    ∃ pc ∈ (kernelRun4_A c i arg1 harg1 arg2 harg2 arg3 harg3 arg4 harg4 arg5 harg5 arg6 harg6 arg7 harg7 arg8 harg8 hc0 hc1 x0 x1 x2 x3).2.2.1, y ∈ pc.1.set :=
  View.cover_of_tiledL (kernelRun4_A c i arg1 harg1 arg2 harg2 arg3 harg3 arg4 harg4 arg5 harg5 arg6 harg6 arg7 harg7 arg8 harg8 hc0 hc1 x0 x1 x2 x3).2.2.1 S1x128.size (by sl_kernel_rfl) y

def sout4_A_0 : Vec F S1x128 .f32 :=
  VS4_0.read (Elt F) (VS4_0.writes (Elt F) VS4_0.junk (kernelRun4_A c i arg1 harg1 arg2 harg2 arg3 harg3 arg4 harg4 arg5 harg5 arg6 harg6 arg7 harg7 arg8 harg8 hc0 hc1 x0 x1 x2 x3).2.2.1)

theorem scover4_A_1 (y : S1x128.Idx) :
    ∃ pc ∈ (kernelRun4_A c i arg1 harg1 arg2 harg2 arg3 harg3 arg4 harg4 arg5 harg5 arg6 harg6 arg7 harg7 arg8 harg8 hc0 hc1 x0 x1 x2 x3).2.2.2.1, y ∈ pc.1.set :=
  View.cover_of_tiledL (kernelRun4_A c i arg1 harg1 arg2 harg2 arg3 harg3 arg4 harg4 arg5 harg5 arg6 harg6 arg7 harg7 arg8 harg8 hc0 hc1 x0 x1 x2 x3).2.2.2.1 S1x128.size (by sl_kernel_rfl) y

def sout4_A_1 : Vec F S1x128 .f32 :=
  VS4_1.read (Elt F) (VS4_1.writes (Elt F) VS4_1.junk (kernelRun4_A c i arg1 harg1 arg2 harg2 arg3 harg3 arg4 harg4 arg5 harg5 arg6 harg6 arg7 harg7 arg8 harg8 hc0 hc1 x0 x1 x2 x3).2.2.2.1)

def outs4_A : Vec F S5000x128 .f32 × Vec F S2x128 .f32 × Vec F S1x128 .f32 × Vec F S1x128 .f32 :=
  (out4_A_4 c i arg1 harg1 arg2 harg2 arg3 harg3 arg4 harg4 arg5 harg5 arg6 harg6 arg7 harg7 arg8 harg8 hc0 hc1 x0 x1 x2 x3, out4_A_5 c i arg1 harg1 arg2 harg2 arg3 harg3 arg4 harg4 arg5 harg5 arg6 harg6 arg7 harg7 arg8 harg8 hc0 hc1 x0 x1 x2 x3, sout4_A_0 c i arg1 harg1 arg2 harg2 arg3 harg3 arg4 harg4 arg5 harg5 arg6 harg6 arg7 harg7 arg8 harg8 hc0 hc1 x0 x1 x2 x3, sout4_A_1 c i arg1 harg1 arg2 harg2 arg3 harg3 arg4 harg4 arg5 harg5 arg6 harg6 arg7 harg7 arg8 harg8 hc0 hc1 x0 x1 x2 x3)

end

section
variable (hc0 : ¬cond4_0 i) (hc1 : ¬cond4_1 i) (x0 : Vec F S5000x128 .f32) (x1 : Vec F S5000x128 .f32) (x2 : Vec F S128x128 .f32) (x3 : Vec F S1x128 .f32) (xs0 : Vec F S1x128 .f32) (xs1 : Vec F S1x128 .f32)
include hc0 hc1 x0 x1 x2 x3 xs0 xs1

theorem cover4_B_4 (y : S5000x128.Idx) :
    ∃ pc ∈ (kernelRun4_B c i arg1 harg1 arg2 harg2 arg3 harg3 arg4 harg4 arg5 harg5 arg6 harg6 arg7 harg7 arg8 harg8 hc0 hc1 x0 x1 x2 x3 xs0 xs1).1, y ∈ pc.1.set :=
  View.cover_of_tiledL (kernelRun4_B c i arg1 harg1 arg2 harg2 arg3 harg3 arg4 harg4 arg5 harg5 arg6 harg6 arg7 harg7 arg8 harg8 hc0 hc1 x0 x1 x2 x3 xs0 xs1).1 S5000x128.size (by sl_kernel_rfl) y

def out4_B_4 : Vec F S5000x128 .f32 :=
  VO4_4.read (Elt F) (VO4_4.writes (Elt F) VO4_4.junk (kernelRun4_B c i arg1 harg1 arg2 harg2 arg3 harg3 arg4 harg4 arg5 harg5 arg6 harg6 arg7 harg7 arg8 harg8 hc0 hc1 x0 x1 x2 x3 xs0 xs1).1)

def out4_B_5 : Vec F S2x128 .f32 :=
  VO4_5.read (Elt F) (VO4_5.writes (Elt F) VO4_5.junk (kernelRun4_B c i arg1 harg1 arg2 harg2 arg3 harg3 arg4 harg4 arg5 harg5 arg6 harg6 arg7 harg7 arg8 harg8 hc0 hc1 x0 x1 x2 x3 xs0 xs1).2.1)

theorem scover4_B_0 (y : S1x128.Idx) :
    ∃ pc ∈ (kernelRun4_B c i arg1 harg1 arg2 harg2 arg3 harg3 arg4 harg4 arg5 harg5 arg6 harg6 arg7 harg7 arg8 harg8 hc0 hc1 x0 x1 x2 x3 xs0 xs1).2.2.1, y ∈ pc.1.set :=
  View.cover_of_tiledL (kernelRun4_B c i arg1 harg1 arg2 harg2 arg3 harg3 arg4 harg4 arg5 harg5 arg6 harg6 arg7 harg7 arg8 harg8 hc0 hc1 x0 x1 x2 x3 xs0 xs1).2.2.1 S1x128.size (by sl_kernel_rfl) y

def sout4_B_0 : Vec F S1x128 .f32 :=
  VS4_0.read (Elt F) (VS4_0.writes (Elt F) VS4_0.junk (kernelRun4_B c i arg1 harg1 arg2 harg2 arg3 harg3 arg4 harg4 arg5 harg5 arg6 harg6 arg7 harg7 arg8 harg8 hc0 hc1 x0 x1 x2 x3 xs0 xs1).2.2.1)

theorem scover4_B_1 (y : S1x128.Idx) :
    ∃ pc ∈ (kernelRun4_B c i arg1 harg1 arg2 harg2 arg3 harg3 arg4 harg4 arg5 harg5 arg6 harg6 arg7 harg7 arg8 harg8 hc0 hc1 x0 x1 x2 x3 xs0 xs1).2.2.2.1, y ∈ pc.1.set :=
  View.cover_of_tiledL (kernelRun4_B c i arg1 harg1 arg2 harg2 arg3 harg3 arg4 harg4 arg5 harg5 arg6 harg6 arg7 harg7 arg8 harg8 hc0 hc1 x0 x1 x2 x3 xs0 xs1).2.2.2.1 S1x128.size (by sl_kernel_rfl) y

def sout4_B_1 : Vec F S1x128 .f32 :=
  VS4_1.read (Elt F) (VS4_1.writes (Elt F) VS4_1.junk (kernelRun4_B c i arg1 harg1 arg2 harg2 arg3 harg3 arg4 harg4 arg5 harg5 arg6 harg6 arg7 harg7 arg8 harg8 hc0 hc1 x0 x1 x2 x3 xs0 xs1).2.2.2.1)

def outs4_B : Vec F S5000x128 .f32 × Vec F S2x128 .f32 × Vec F S1x128 .f32 × Vec F S1x128 .f32 :=
  (out4_B_4 c i arg1 harg1 arg2 harg2 arg3 harg3 arg4 harg4 arg5 harg5 arg6 harg6 arg7 harg7 arg8 harg8 hc0 hc1 x0 x1 x2 x3 xs0 xs1, out4_B_5 c i arg1 harg1 arg2 harg2 arg3 harg3 arg4 harg4 arg5 harg5 arg6 harg6 arg7 harg7 arg8 harg8 hc0 hc1 x0 x1 x2 x3 xs0 xs1, sout4_B_0 c i arg1 harg1 arg2 harg2 arg3 harg3 arg4 harg4 arg5 harg5 arg6 harg6 arg7 harg7 arg8 harg8 hc0 hc1 x0 x1 x2 x3 xs0 xs1, sout4_B_1 c i arg1 harg1 arg2 harg2 arg3 harg3 arg4 harg4 arg5 harg5 arg6 harg6 arg7 harg7 arg8 harg8 hc0 hc1 x0 x1 x2 x3 xs0 xs1)

end

section
variable (hc0 : ¬cond4_0 i) (hc1 : cond4_1 i) (x0 : Vec F S5000x128 .f32) (x1 : Vec F S5000x128 .f32) (x2 : Vec F S128x128 .f32) (x3 : Vec F S1x128 .f32) (xs0 : Vec F S1x128 .f32) (xs1 : Vec F S1x128 .f32)
include hc0 hc1 x0 x1 x2 x3 xs0 xs1

theorem cover4_C_4 (y : S5000x128.Idx) :
    ∃ pc ∈ (kernelRun4_C c i arg1 harg1 arg2 harg2 arg3 harg3 arg4 harg4 arg5 harg5 arg6 harg6 arg7 harg7 arg8 harg8 hc0 hc1 x0 x1 x2 x3 xs0 xs1).1, y ∈ pc.1.set :=
  View.cover_of_tiledL (kernelRun4_C c i arg1 harg1 arg2 harg2 arg3 harg3 arg4 harg4 arg5 harg5 arg6 harg6 arg7 harg7 arg8 harg8 hc0 hc1 x0 x1 x2 x3 xs0 xs1).1 S5000x128.size (by sl_kernel_rfl) y

def out4_C_4 : Vec F S5000x128 .f32 :=
  VO4_4.read (Elt F) (VO4_4.writes (Elt F) VO4_4.junk (kernelRun4_C c i arg1 harg1 arg2 harg2 arg3 harg3 arg4 harg4 arg5 harg5 arg6 harg6 arg7 harg7 arg8 harg8 hc0 hc1 x0 x1 x2 x3 xs0 xs1).1)

theorem cover4_C_5 (y : S2x128.Idx) :
    ∃ pc ∈ (kernelRun4_C c i arg1 harg1 arg2 harg2 arg3 harg3 arg4 harg4 arg5 harg5 arg6 harg6 arg7 harg7 arg8 harg8 hc0 hc1 x0 x1 x2 x3 xs0 xs1).2.1, y ∈ pc.1.set :=
  View.cover_of_tiledL (kernelRun4_C c i arg1 harg1 arg2 harg2 arg3 harg3 arg4 harg4 arg5 harg5 arg6 harg6 arg7 harg7 arg8 harg8 hc0 hc1 x0 x1 x2 x3 xs0 xs1).2.1 S1x128.size (by sl_kernel_rfl) y

def out4_C_5 : Vec F S2x128 .f32 :=
  VO4_5.read (Elt F) (VO4_5.writes (Elt F) VO4_5.junk (kernelRun4_C c i arg1 harg1 arg2 harg2 arg3 harg3 arg4 harg4 arg5 harg5 arg6 harg6 arg7 harg7 arg8 harg8 hc0 hc1 x0 x1 x2 x3 xs0 xs1).2.1)

theorem scover4_C_0 (y : S1x128.Idx) :
    ∃ pc ∈ (kernelRun4_C c i arg1 harg1 arg2 harg2 arg3 harg3 arg4 harg4 arg5 harg5 arg6 harg6 arg7 harg7 arg8 harg8 hc0 hc1 x0 x1 x2 x3 xs0 xs1).2.2.1, y ∈ pc.1.set :=
  View.cover_of_tiledL (kernelRun4_C c i arg1 harg1 arg2 harg2 arg3 harg3 arg4 harg4 arg5 harg5 arg6 harg6 arg7 harg7 arg8 harg8 hc0 hc1 x0 x1 x2 x3 xs0 xs1).2.2.1 S1x128.size (by sl_kernel_rfl) y

def sout4_C_0 : Vec F S1x128 .f32 :=
  VS4_0.read (Elt F) (VS4_0.writes (Elt F) VS4_0.junk (kernelRun4_C c i arg1 harg1 arg2 harg2 arg3 harg3 arg4 harg4 arg5 harg5 arg6 harg6 arg7 harg7 arg8 harg8 hc0 hc1 x0 x1 x2 x3 xs0 xs1).2.2.1)

theorem scover4_C_1 (y : S1x128.Idx) :
    ∃ pc ∈ (kernelRun4_C c i arg1 harg1 arg2 harg2 arg3 harg3 arg4 harg4 arg5 harg5 arg6 harg6 arg7 harg7 arg8 harg8 hc0 hc1 x0 x1 x2 x3 xs0 xs1).2.2.2.1, y ∈ pc.1.set :=
  View.cover_of_tiledL (kernelRun4_C c i arg1 harg1 arg2 harg2 arg3 harg3 arg4 harg4 arg5 harg5 arg6 harg6 arg7 harg7 arg8 harg8 hc0 hc1 x0 x1 x2 x3 xs0 xs1).2.2.2.1 S1x128.size (by sl_kernel_rfl) y

def sout4_C_1 : Vec F S1x128 .f32 :=
  VS4_1.read (Elt F) (VS4_1.writes (Elt F) VS4_1.junk (kernelRun4_C c i arg1 harg1 arg2 harg2 arg3 harg3 arg4 harg4 arg5 harg5 arg6 harg6 arg7 harg7 arg8 harg8 hc0 hc1 x0 x1 x2 x3 xs0 xs1).2.2.2.1)

def outs4_C : Vec F S5000x128 .f32 × Vec F S2x128 .f32 × Vec F S1x128 .f32 × Vec F S1x128 .f32 :=
  (out4_C_4 c i arg1 harg1 arg2 harg2 arg3 harg3 arg4 harg4 arg5 harg5 arg6 harg6 arg7 harg7 arg8 harg8 hc0 hc1 x0 x1 x2 x3 xs0 xs1, out4_C_5 c i arg1 harg1 arg2 harg2 arg3 harg3 arg4 harg4 arg5 harg5 arg6 harg6 arg7 harg7 arg8 harg8 hc0 hc1 x0 x1 x2 x3 xs0 xs1, sout4_C_0 c i arg1 harg1 arg2 harg2 arg3 harg3 arg4 harg4 arg5 harg5 arg6 harg6 arg7 harg7 arg8 harg8 hc0 hc1 x0 x1 x2 x3 xs0 xs1, sout4_C_1 c i arg1 harg1 arg2 harg2 arg3 harg3 arg4 harg4 arg5 harg5 arg6 harg6 arg7 harg7 arg8 harg8 hc0 hc1 x0 x1 x2 x3 xs0 xs1)

end

end

def outsAt4 (c : Dev nD) : (n : ℕ) → n < cfg4.N → Vec F S5000x128 .f32 × Vec F S2x128 .f32 × Vec F S1x128 .f32 × Vec F S1x128 .f32
  | 0, hn => outs4_A c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩)
  | n + 1, hn =>
    if h0 : (n + 1) % 20 = 0 then
      if h1 : (n + 1) % 20 = 19 then
        False.elim (by have hN : n + 1 < 20 := lt_of_lt_of_eq hn (show cfg4.N = 20 from N_4); omega)
      else
        outs4_A c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) scM4_1 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩)
    else
      if h1 : (n + 1) % 20 = 19 then
        outs4_C c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.1 (outsAt4 c n (Nat.lt_of_succ_lt hn)).2.2.2
      else
        outs4_B c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.1 (outsAt4 c n (Nat.lt_of_succ_lt hn)).2.2.2

theorem outsAt4_A (c : Dev nD) (t : Fin cfg4.N) (h0 : t.val % 20 = 0) (h1 : ¬t.val % 20 = 19) :
    outsAt4 V c t.val t.isLt = outs4_A c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) := by
  obtain ⟨n, hn⟩ := t
  cases n with
  | zero => exact rfl
  | succ n => exact (dif_pos h0).trans ((dif_neg h1).trans rfl)

theorem outsAt4_B (c : Dev nD) (t : Fin cfg4.N) (h0 : ¬t.val % 20 = 0) (h1 : ¬t.val % 20 = 19) :
    outsAt4 V c t.val t.isLt = outs4_B c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (outsAt4 V c (t.val - 1) (Nat.lt_of_le_of_lt (Nat.sub_le _ _) t.isLt)).2.2.1 (outsAt4 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_neg h1).trans rfl)

theorem outsAt4_C (c : Dev nD) (t : Fin cfg4.N) (h0 : ¬t.val % 20 = 0) (h1 : t.val % 20 = 19) :
    outsAt4 V c t.val t.isLt = outs4_C c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2.1 (outsAt4 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_pos h1).trans rfl)

def PhiS4 (c : Dev nD) : (n : ℕ) → n ≤ cfg4.N → sProp 𝕄
  | 0, _ => Pipeline.ΦA spec4 c
  | n + 1, hn => iprop(iprop(iprop(owns (c : Thread nD τ) scM4_0 fullShare ((outsAt4 V c n hn).2.2.1) ∗ owns (c : Thread nD τ) scM4_1 fullShare ((outsAt4 V c n hn).2.2.2)) ∗ Pipeline.scopedRestBut (Ix := Unit) (Name := ℕ) (U := UR sig nD τ) (Lvl := ℕ) (Val := Elt F) spec4 c [cc4_scratch0, cc4_scratch1]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare ((outsAt4 V c n hn).2.2.1) ∗ owns (c : Thread nD τ) scM4_1 fullShare ((outsAt4 V c n hn).2.2.2)) ∗ Pipeline.scopedRestBut (Ix := Unit) (Name := ℕ) (U := UR sig nD τ) (Lvl := ℕ) (Val := Elt F) spec4 c [cc4_scratch0, cc4_scratch1]) ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare ((outsAt4 V c (n - 1) (by omega)).2.2.1) ∗ owns (c : Thread nD τ) scM4_1 fullShare ((outsAt4 V c (n - 1) (by omega)).2.2.2)) ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => (outsAt4 V c t.val t.isLt).1
    | ⟨5, _⟩ => (outsAt4 V c t.val t.isLt).2.1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = (outsAt4 V c t.val t.isLt).1 := by dsimp only [dat4]
theorem after4_5 (c : Dev nD) (t : Fin cfg4.N) : (dat4 V c).after 5 t = (outsAt4 V c t.val t.isLt).2.1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t)

set_option maxHeartbeats 4800000 in

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl]
  rw [show (dat4 V c).Φ t.succ = PhiS4 V c (t.val + 1) t.isLt from rfl, PhiS4_succ]
  have hN : t.val < 20 := lt_of_lt_of_eq t.isLt (show cfg4.N = 20 from N_4)
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [show (dat4 V c).leavesExact 3 t = owns (c : Thread nD τ) (ms4_3 t) fullShare ((dat4 V c).after 3 t) from by
    unfold Dat.leavesExact; rw [liveAt4_3 t], after4_3]
  rw [show (dat4 V c).leavesExact 4 t = owns (c : Thread nD τ) (ms4_4 t) fullShare ((dat4 V c).after 4 t) from by
    unfold Dat.leavesExact; rw [liveAt4_4 t], after4_4]
  by_cases h0 : t.val % 20 = 0
  · by_cases h1 : t.val % 20 = 19
    · exfalso; omega
    ·
      rw [Dat.leavesExact_idle (dat4 V c) 5 t (idleAt4_5_A t ((hcond4_0 t).mpr h0) (fun h => h1 ((hcond4_1 t).mp h))) (noFlush4_5_A t ((hcond4_0 t).mpr h0) (fun h => h1 ((hcond4_1 t).mp h)))]
      rw [outsAt4_A V c t h0 h1]
      unfold outs4_A out4_A_4 sout4_A_0 sout4_A_1; (try dsimp only)
      by_cases hz : t.val = 0
      ·
        rw [PhiS4_castSucc V c t, PhiS4_zero V c _ _ hz, PhiA4_eq]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
        iapply ((kernelRun4_A c (grid4.coords t) _ _ _ _ _ _ _ _ _ _ _ _ _ _ _ _ ((hcond4_0 t).mpr h0) (fun h => h1 ((hcond4_1 t).mp h)) (iblk4 V c 0 t) (iblk4 V c 1 t) (iblk4 V c 2 t) (iblk4 V c 3 t)).2.2.2.2 _ Set.univ _)
        isplitl [H0]; · iexact H0
        isplitl [H1]; · iexact H1
        isplitl [H2]; · iexact H2
        isplitl [H3]; · iexact H3
        isplitl [H4]; · iexists _; iexact H4
        isplitl [H5]; · iexact H5
        isplitl [HS0]; · iexact HS0
        isplitl [HS1]; · iexact HS1
        iintro ⟨H0, H1, H2, H3, ⟨%e4, H4⟩, H5, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover4_A_0 c _ _ _ _ _ _ _ _ _ _ _ _ _ _ _ _ _ _ _ _ _ _ _)
              unfold owns; iexists _; isplitr
              swap; · iexact HS1
              ipureintro; exact View.read_writes_of_cover _ _ _ _ _ (scover4_A_1 c _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover4_A_4 c _ _ _ _ _ _ _ _ _ _ _ _ _ _ _ _ _ _ _ _ _ _ _)
        iexists _; iexact H5
      · exfalso; omega
  · by_cases h1 : t.val % 20 = 19
    ·
      rw [show (dat4 V c).leavesExact 5 t = owns (c : Thread nD τ) (ms4_5 t) fullShare ((dat4 V c).after 5 t) from by
        unfold Dat.leavesExact; rw [liveAt4_5_C t (fun h => h0 ((hcond4_0 t).mp h)) ((hcond4_1 t).mpr h1)], after4_5]
      rw [outsAt4_C V c t h0 h1]
      unfold outs4_C out4_C_4 out4_C_5 sout4_C_0 sout4_C_1; (try dsimp only)
      by_cases hz : t.val = 0
      · exfalso; omega
      ·
        rw [PhiS4_castSucc V c t, PhiS4_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
        iapply ((kernelRun4_C c (grid4.coords t) _ _ _ _ _ _ _ _ _ _ _ _ _ _ _ _ (fun h => h0 ((hcond4_0 t).mp h)) ((hcond4_1 t).mpr h1) (iblk4 V c 0 t) (iblk4 V c 1 t) (iblk4 V c 2 t) (iblk4 V c 3 t) _ _).2.2.2.2 Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [HS0]; · iexact HS0
        isplitl [HS1]; · iexact HS1
        iintro ⟨H0, H1, H2, H3, ⟨%e4, H4⟩, ⟨%e5, H5⟩, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover4_C_0 c _ _ _ _ _ _ _ _ _ _ _ _ _ _ _ _ _ _ _ _ _ _ _ _ _)
              unfold owns; iexists _; isplitr
              swap; · iexact HS1
              ipureintro; exact View.read_writes_of_cover _ _ _ _ _ (scover4_C_1 c _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover4_C_4 c _ _ _ _ _ _ _ _ _ _ _ _ _ _ _ _ _ _ _ _ _ _ _ _ _)
        unfold owns; iexists _; isplitr
        swap; · iexact H5
        ipureintro; exact View.read_writes_of_cover _ _ _ _ _ (cover4_C_5 c _ _ _ _ _ _ _ _ _ _ _ _ _ _ _ _ _ _ _ _ _ _ _ _ _)
    ·
      rw [Dat.leavesExact_idle (dat4 V c) 5 t (idleAt4_5_B t (fun h => h0 ((hcond4_0 t).mp h)) (fun h => h1 ((hcond4_1 t).mp h))) (noFlush4_5_B t (fun h => h0 ((hcond4_0 t).mp h)) (fun h => h1 ((hcond4_1 t).mp h)))]
      rw [outsAt4_B V c t h0 h1]
      unfold outs4_B out4_B_4 sout4_B_0 sout4_B_1; (try dsimp only)
      by_cases hz : t.val = 0
      · exfalso; omega
      ·
        rw [PhiS4_castSucc V c t, PhiS4_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
        iapply ((kernelRun4_B c (grid4.coords t) _ _ _ _ _ _ _ _ _ _ _ _ _ _ _ _ (fun h => h0 ((hcond4_0 t).mp h)) (fun h => h1 ((hcond4_1 t).mp h)) (iblk4 V c 0 t) (iblk4 V c 1 t) (iblk4 V c 2 t) (iblk4 V c 3 t) _ _).2.2.2.2 _ Set.univ _)
        isplitl [H0]; · iexact H0
        isplitl [H1]; · iexact H1
        isplitl [H2]; · iexact H2
        isplitl [H3]; · iexact H3
        isplitl [H4]; · iexists _; iexact H4
        isplitl [H5]; · iexact H5
        isplitl [HS0]; · iexact HS0
        isplitl [HS1]; · iexact HS1
        iintro ⟨H0, H1, H2, H3, ⟨%e4, H4⟩, H5, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover4_B_0 c _ _ _ _ _ _ _ _ _ _ _ _ _ _ _ _ _ _ _ _ _ _ _ _ _)
              unfold owns; iexists _; isplitr
              swap; · iexact HS1
              ipureintro; exact View.read_writes_of_cover _ _ _ _ _ (scover4_B_1 c _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover4_B_4 c _ _ _ _ _ _ _ _ _ _ _ _ _ _ _ _ _ _ _ _ _ _ _ _ _)
        iexists _; iexact H5

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

theorem hout4 (c : Dev nD) : (dat4 V c).Φ (Fin.last cfg4.N) ⊢ Pipeline.ΦA spec4 c :=
  Phi_out4 V c _ (by rw [Fin.val_last]; have : cfg4.N = 20 := N_4; omega)

end Cert.Kernel.Hand

end
-- ==== Proof.K.Reg5Runs.lean ====
import proofs.«425279_j44762149159634_1_alg».proof.Proof.Gen.Kernel.Launch
import proofs.«425279_j44762149159634_1_alg».proof.Proof.Gen.Kernel.Skeleton
import proofs.«425279_j44762149159634_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

abbrev VO5_7 : View sig .tc .vmem S5000x128 .f32 := (Memref.whole cc5_stg7_0 : Memref sig .tc .vmem S5000x128 .f32).view

abbrev ms5_0 (t : Fin cfg5.N) : Memref sig .tc .vmem S5000x128 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S1x128 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x128 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1x128 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S1x128 .f32 := win5_4.stage (cfg5.slots t 4)
abbrev hs5_4 (t : Fin cfg5.N) : (ms5_4 t).IsWhole := hstage5_4 ((cfg5.slots t 4).cast nbuf5_4)
abbrev ms5_5 (t : Fin cfg5.N) : Memref sig .tc .vmem S128x128 .f32 := win5_5.stage (cfg5.slots t 5)
abbrev hs5_5 (t : Fin cfg5.N) : (ms5_5 t).IsWhole := hstage5_5 ((cfg5.slots t 5).cast nbuf5_5)
abbrev ms5_6 (t : Fin cfg5.N) : Memref sig .tc .vmem S1x128 .f32 := win5_6.stage (cfg5.slots t 6)
abbrev hs5_6 (t : Fin cfg5.N) : (ms5_6 t).IsWhole := hstage5_6 ((cfg5.slots t 6).cast nbuf5_6)
abbrev ms5_7 (t : Fin cfg5.N) : Memref sig .tc .vmem S5000x128 .f32 := win5_7.stage (cfg5.slots t 7)
abbrev hs5_7 (t : Fin cfg5.N) : (ms5_7 t).IsWhole := hstage5_7 ((cfg5.slots t 7).cast nbuf5_7)

end Cert.Kernel.Hand

end
-- ==== Proof.K.Reg5RunA.lean ====
import proofs.«425279_j44762149159634_1_alg».proof.Proof.K.Reg5Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in

noncomputable def kernelRun5_A (c : Dev nD) (i : grid5.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole)
    (x0 : Vec F S5000x128 .f32) (x1 : Vec F S1x128 .f32) (x2 : Vec F S1x128 .f32) (x3 : Vec F S1x128 .f32) (x4 : Vec F S1x128 .f32) (x5 : Vec F S128x128 .f32) (x6 : Vec F S1x128 .f32) :
    { L7 : List (View.Piece (Elt F) S5000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7)) -∗ K ⟨⟩))
          ⊢ wp frame (wpE (defs₀ (F := F)) Variants.none c none) E (cc5__gin_b_kernel i arg1 harg1 arg2 harg2 arg3 harg3 arg4 harg4 arg5 harg5 arg6 harg6 arg7 harg7 arg8 harg8) K } := by
  refine ⟨?_, fun E K => ?run⟩
  case run =>
    simp only [cc5__gin_b_kernel_eq_skeleton]; unfold cc5__gin_b_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; iexact H7

end Cert.Kernel.Hand

end
-- ==== Proof.K.Reg5.lean ====
import proofs.«425279_j44762149159634_1_alg».proof.Proof.K.Reg5RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable (c : Dev nD) (i : grid5.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (x0 : Vec F S5000x128 .f32) (x1 : Vec F S1x128 .f32) (x2 : Vec F S1x128 .f32) (x3 : Vec F S1x128 .f32) (x4 : Vec F S1x128 .f32) (x5 : Vec F S128x128 .f32) (x6 : Vec F S1x128 .f32)
include c i arg1 harg1 arg2 harg2 arg3 harg3 arg4 harg4 arg5 harg5 arg6 harg6 arg7 harg7 arg8 harg8 x0 x1 x2 x3 x4 x5 x6

theorem cover5_A_7 (y : S5000x128.Idx) :
    ∃ pc ∈ (kernelRun5_A c i arg1 harg1 arg2 harg2 arg3 harg3 arg4 harg4 arg5 harg5 arg6 harg6 arg7 harg7 arg8 harg8 x0 x1 x2 x3 x4 x5 x6).1, y ∈ pc.1.set :=
  View.cover_of_tiledL (kernelRun5_A c i arg1 harg1 arg2 harg2 arg3 harg3 arg4 harg4 arg5 harg5 arg6 harg6 arg7 harg7 arg8 harg8 x0 x1 x2 x3 x4 x5 x6).1 S5000x128.size (by sl_kernel_rfl) y

def out5_A_7 : Vec F S5000x128 .f32 :=
  VO5_7.read (Elt F) (VO5_7.writes (Elt F) VO5_7.junk (kernelRun5_A c i arg1 harg1 arg2 harg2 arg3 harg3 arg4 harg4 arg5 harg5 arg6 harg6 arg7 harg7 arg8 harg8 x0 x1 x2 x3 x4 x5 x6).1)

end

def out5At (c : Dev nD) (t : Fin cfg5.N) : Vec F S5000x128 .f32 :=
  out5_A_7 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (iblk5 V c 0 t) (iblk5 V c 1 t) (iblk5 V c 2 t) (iblk5 V c 3 t) (iblk5 V c 4 t) (iblk5 V c 5 t) (iblk5 V c 6 t)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => out5At V c t
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = out5At V c t := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t))

set_option maxHeartbeats 4800000 in

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7]
  unfold out5At out5_A_7
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun5_A c (grid5.coords t) _ _ _ _ _ _ _ _ _ _ _ _ _ _ _ _ (iblk5 V c 0 t) (iblk5 V c 1 t) (iblk5 V c 2 t) (iblk5 V c 3 t) (iblk5 V c 4 t) (iblk5 V c 5 t) (iblk5 V c 6 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_of_cover _ _ _ _ _ (cover5_A_7 c _ _ _ _ _ _ _ _ _ _ _ _ _ _ _ _ _ _ _ _ _ _ _ _)

theorem body_obligation5 (c : Dev nD) : BodyObligation (dat5 (F := F) V c) (defs₀ (F := F)) Variants.none () Set.univ := fun t => by
  rw [bigSep_W5, bigSep_W5]
  exact sound_body5 V c t

theorem hin5 (c : Dev nD) : Pipeline.ΦA spec5 c ⊢ (dat5 V c).Φ 0 := .rfl

theorem hout5 (c : Dev nD) : (dat5 V c).Φ (Fin.last cfg5.N) ⊢ Pipeline.ΦA spec5 c := .rfl

end Cert.Kernel.Hand

end
-- ==== Proof.K.Reg6Runs.lean ====
import proofs.«425279_j44762149159634_1_alg».proof.Proof.Gen.Kernel.Launch
import proofs.«425279_j44762149159634_1_alg».proof.Proof.Gen.Kernel.Skeleton
import proofs.«425279_j44762149159634_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

abbrev cond6_0 (i : grid6.Coords) : Prop := (Scalar.cmpi .ne (Scalar.extui (Scalar.cmpi .eq (BitVec.ofNat 32 (i 0).val) 0#32)) 0#32) = 1#1

theorem hcond6_0 : ∀ t : Fin cfg6.N, cond6_0 (grid6.coords t) ↔ t.val % 20 = 0 :=
  (by decide +kernel : ∀ t : Fin grid6.N, cond6_0 (grid6.coords t) ↔ t.val % 20 = 0)

abbrev cond6_1 (i : grid6.Coords) : Prop := k6_cond2 i = 1#1

theorem hcond6_1 : ∀ t : Fin cfg6.N, cond6_1 (grid6.coords t) ↔ t.val % 20 = 19 :=
  (by decide +kernel : ∀ t : Fin grid6.N, cond6_1 (grid6.coords t) ↔ t.val % 20 = 19)

theorem liveAt6_0 : ∀ t : Fin cfg6.N, cfg6.idle 0 (grid6.coords t) = false := by decide +kernel

theorem liveAt6_1 : ∀ t : Fin cfg6.N, cfg6.idle 1 (grid6.coords t) = false := by decide +kernel

theorem liveAt6_2 : ∀ t : Fin cfg6.N, cfg6.idle 2 (grid6.coords t) = false := by decide +kernel

theorem liveAt6_3 : ∀ t : Fin cfg6.N, cfg6.idle 3 (grid6.coords t) = false := by decide +kernel

theorem liveAt6_4 : ∀ t : Fin cfg6.N, cfg6.idle 4 (grid6.coords t) = false := by decide +kernel

theorem liveAt6_5 : ∀ t : Fin cfg6.N, cfg6.idle 5 (grid6.coords t) = false := by decide +kernel

theorem idleAt6_6_A : ∀ t : Fin cfg6.N, cond6_0 (grid6.coords t) → ¬cond6_1 (grid6.coords t) → cfg6.idle 6 (grid6.coords t) = true := by decide +kernel

theorem noFlush6_6_A : ∀ t : Fin cfg6.N, cond6_0 (grid6.coords t) → ¬cond6_1 (grid6.coords t) → (cfg6.win 6).flush t = false := by decide +kernel

theorem idleAt6_6_B : ∀ t : Fin cfg6.N, ¬cond6_0 (grid6.coords t) → ¬cond6_1 (grid6.coords t) → cfg6.idle 6 (grid6.coords t) = true := by decide +kernel

theorem noFlush6_6_B : ∀ t : Fin cfg6.N, ¬cond6_0 (grid6.coords t) → ¬cond6_1 (grid6.coords t) → (cfg6.win 6).flush t = false := by decide +kernel

theorem liveAt6_6_C : ∀ t : Fin cfg6.N, ¬cond6_0 (grid6.coords t) → cond6_1 (grid6.coords t) → cfg6.idle 6 (grid6.coords t) = false := by decide +kernel

abbrev VO6_6 : View sig .tc .vmem S1024x64 .f32 := (Memref.whole cc6_stg6_0 : Memref sig .tc .vmem S1024x64 .f32).view

abbrev ms6_0 (t : Fin cfg6.N) : Memref sig .tc .vmem S5000x128 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S5000x1 .i32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S128x128 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S1x128 .f32 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S128x64 .f32 := win6_4.stage (cfg6.slots t 4)
abbrev hs6_4 (t : Fin cfg6.N) : (ms6_4 t).IsWhole := hstage6_4 ((cfg6.slots t 4).cast nbuf6_4)
abbrev ms6_5 (t : Fin cfg6.N) : Memref sig .tc .vmem S1x64 .f32 := win6_5.stage (cfg6.slots t 5)
abbrev hs6_5 (t : Fin cfg6.N) : (ms6_5 t).IsWhole := hstage6_5 ((cfg6.slots t 5).cast nbuf6_5)
abbrev ms6_6 (t : Fin cfg6.N) : Memref sig .tc .vmem S1024x64 .f32 := win6_6.stage (cfg6.slots t 6)
abbrev hs6_6 (t : Fin cfg6.N) : (ms6_6 t).IsWhole := hstage6_6 ((cfg6.slots t 6).cast nbuf6_6)

abbrev scM6_0 : Memref sig .tc .vmem S1024x128 .f32 := Memref.whole cc6_scratch0

abbrev VS6_0 : View sig .tc .vmem S1024x128 .f32 := scM6_0.view

theorem PhiA6_eq (c : Dev nD) :
    (Pipeline.ΦA spec6 c : sProp 𝕄)
      = iprop(iprop(iprop((∃ d, owns (c : Thread nD τ) scM6_0 fullShare d)) ∗ Pipeline.scopedRestBut spec6 c [cc6_scratch0]) ∗ (∃ r, prngReg c r)) := by
  unfold Pipeline.ΦA; rw [scopedRest6_split]; simp only [scM6_0, owns_whole]; try rfl

end Cert.Kernel.Hand

end
-- ==== Proof.K.Reg6RunA.lean ====
import proofs.«425279_j44762149159634_1_alg».proof.Proof.K.Reg6Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in

noncomputable def kernelRun6_A (c : Dev nD) (i : grid6.Coords) (arg1 : Memref sig .tc .vmem S5000x128 .f32) (harg1 : arg1.IsWhole) (arg2 : Memref sig .tc .vmem S5000x1 .i32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S1024x64 .f32) (harg7 : arg7.IsWhole) (arg8 : Memref sig .tc .vmem S1024x128 .f32) (harg8 : arg8.IsWhole) (hc0 : cond6_0 i) (hc1 : ¬cond6_1 i)
    (x0 : Vec F S5000x128 .f32) (x1 : Vec F S5000x1 .i32) (x2 : Vec F S128x128 .f32) (x3 : Vec F S1x128 .f32) (x4 : Vec F S128x64 .f32) (x5 : Vec F S1x64 .f32) :
    Σ' (L6 : List (View.Piece (Elt F) S1024x64 .f32)), { LS0 : List (View.Piece (Elt F) S1024x128 .f32) //
      ∀ (xi6 : Vec F S1024x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ f, arg8.view.loc (c : Thread nD τ) ↦[arg8.view.set]{fullShare} arg8.view.writes (Elt F) f LS0)) -∗ K ⟨⟩))
          ⊢ wp frame (wpE (defs₀ (F := F)) Variants.none c none) E (cc6__pool_head_kernel i arg1 harg1 arg2 harg2 arg3 harg3 arg4 harg4 arg5 harg5 arg6 harg6 arg7 harg7 arg8 harg8) K } := by
  refine ⟨[], ?_, fun xi6 E K => ?run⟩
  case run =>
    simp only [cc6__pool_head_kernel_eq_skeleton]; unfold cc6__pool_head_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; iexact HS0

end Cert.Kernel.Hand

end
-- ==== Proof.K.Reg6RunB.lean ====
import proofs.«425279_j44762149159634_1_alg».proof.Proof.K.Reg6RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in

noncomputable def kernelRun6_B (c : Dev nD) (i : grid6.Coords) (arg1 : Memref sig .tc .vmem S5000x128 .f32) (harg1 : arg1.IsWhole) (arg2 : Memref sig .tc .vmem S5000x1 .i32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S1024x64 .f32) (harg7 : arg7.IsWhole) (arg8 : Memref sig .tc .vmem S1024x128 .f32) (harg8 : arg8.IsWhole) (hc0 : ¬cond6_0 i) (hc1 : ¬cond6_1 i)
    (x0 : Vec F S5000x128 .f32) (x1 : Vec F S5000x1 .i32) (x2 : Vec F S128x128 .f32) (x3 : Vec F S1x128 .f32) (x4 : Vec F S128x64 .f32) (x5 : Vec F S1x64 .f32) (xs0 : Vec F S1024x128 .f32) :
    Σ' (L6 : List (View.Piece (Elt F) S1024x64 .f32)), { LS0 : List (View.Piece (Elt F) S1024x128 .f32) //
      ∀ (xi6 : Vec F S1024x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ f, arg8.view.loc (c : Thread nD τ) ↦[arg8.view.set]{fullShare} arg8.view.writes (Elt F) f LS0)) -∗ K ⟨⟩))
          ⊢ wp frame (wpE (defs₀ (F := F)) Variants.none c none) E (cc6__pool_head_kernel i arg1 harg1 arg2 harg2 arg3 harg3 arg4 harg4 arg5 harg5 arg6 harg6 arg7 harg7 arg8 harg8) K } := by
  refine ⟨[], ?_, fun xi6 E K => ?run⟩
  case run =>
    simp only [cc6__pool_head_kernel_eq_skeleton]; unfold cc6__pool_head_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; iexact HS0

end Cert.Kernel.Hand

end
-- ==== Proof.K.Reg6RunC.lean ====
import proofs.«425279_j44762149159634_1_alg».proof.Proof.K.Reg6RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in

noncomputable def kernelRun6_C (c : Dev nD) (i : grid6.Coords) (arg1 : Memref sig .tc .vmem S5000x128 .f32) (harg1 : arg1.IsWhole) (arg2 : Memref sig .tc .vmem S5000x1 .i32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S1024x64 .f32) (harg7 : arg7.IsWhole) (arg8 : Memref sig .tc .vmem S1024x128 .f32) (harg8 : arg8.IsWhole) (hc0 : ¬cond6_0 i) (hc1 : cond6_1 i)
    (x0 : Vec F S5000x128 .f32) (x1 : Vec F S5000x1 .i32) (x2 : Vec F S128x128 .f32) (x3 : Vec F S1x128 .f32) (x4 : Vec F S128x64 .f32) (x5 : Vec F S1x64 .f32) (xs0 : Vec F S1024x128 .f32) :
    Σ' (L6 : List (View.Piece (Elt F) S1024x64 .f32)), { LS0 : List (View.Piece (Elt F) S1024x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0)) -∗ K ⟨⟩))
          ⊢ wp frame (wpE (defs₀ (F := F)) Variants.none c none) E (cc6__pool_head_kernel i arg1 harg1 arg2 harg2 arg3 harg3 arg4 harg4 arg5 harg5 arg6 harg6 arg7 harg7 arg8 harg8) K } := by
  refine ⟨?_, ?_, fun E K => ?run⟩
  case run =>
    simp only [cc6__pool_head_kernel_eq_skeleton]; unfold cc6__pool_head_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact HS0

end Cert.Kernel.Hand

end
-- ==== Proof.K.Reg6.lean ====
import proofs.«425279_j44762149159634_1_alg».proof.Proof.K.Reg6RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable (c : Dev nD) (i : grid6.Coords) (arg1 : Memref sig .tc .vmem S5000x128 .f32) (harg1 : arg1.IsWhole) (arg2 : Memref sig .tc .vmem S5000x1 .i32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S1024x64 .f32) (harg7 : arg7.IsWhole) (arg8 : Memref sig .tc .vmem S1024x128 .f32) (harg8 : arg8.IsWhole)
include c i arg1 harg1 arg2 harg2 arg3 harg3 arg4 harg4 arg5 harg5 arg6 harg6 arg7 harg7 arg8 harg8

section
variable (hc0 : cond6_0 i) (hc1 : ¬cond6_1 i) (x0 : Vec F S5000x128 .f32) (x1 : Vec F S5000x1 .i32) (x2 : Vec F S128x128 .f32) (x3 : Vec F S1x128 .f32) (x4 : Vec F S128x64 .f32) (x5 : Vec F S1x64 .f32)
include hc0 hc1 x0 x1 x2 x3 x4 x5

def out6_A_6 : Vec F S1024x64 .f32 :=
  VO6_6.read (Elt F) (VO6_6.writes (Elt F) VO6_6.junk (kernelRun6_A c i arg1 harg1 arg2 harg2 arg3 harg3 arg4 harg4 arg5 harg5 arg6 harg6 arg7 harg7 arg8 harg8 hc0 hc1 x0 x1 x2 x3 x4 x5).1)

theorem scover6_A_0 (y : S1024x128.Idx) :
    ∃ pc ∈ (kernelRun6_A c i arg1 harg1 arg2 harg2 arg3 harg3 arg4 harg4 arg5 harg5 arg6 harg6 arg7 harg7 arg8 harg8 hc0 hc1 x0 x1 x2 x3 x4 x5).2.1, y ∈ pc.1.set :=
  View.cover_of_tiledL (kernelRun6_A c i arg1 harg1 arg2 harg2 arg3 harg3 arg4 harg4 arg5 harg5 arg6 harg6 arg7 harg7 arg8 harg8 hc0 hc1 x0 x1 x2 x3 x4 x5).2.1 S1024x128.size (by sl_kernel_rfl) y

def sout6_A_0 : Vec F S1024x128 .f32 :=
  VS6_0.read (Elt F) (VS6_0.writes (Elt F) VS6_0.junk (kernelRun6_A c i arg1 harg1 arg2 harg2 arg3 harg3 arg4 harg4 arg5 harg5 arg6 harg6 arg7 harg7 arg8 harg8 hc0 hc1 x0 x1 x2 x3 x4 x5).2.1)

def outs6_A : Vec F S1024x64 .f32 × Vec F S1024x128 .f32 :=
  (out6_A_6 c i arg1 harg1 arg2 harg2 arg3 harg3 arg4 harg4 arg5 harg5 arg6 harg6 arg7 harg7 arg8 harg8 hc0 hc1 x0 x1 x2 x3 x4 x5, sout6_A_0 c i arg1 harg1 arg2 harg2 arg3 harg3 arg4 harg4 arg5 harg5 arg6 harg6 arg7 harg7 arg8 harg8 hc0 hc1 x0 x1 x2 x3 x4 x5)

end

section
variable (hc0 : ¬cond6_0 i) (hc1 : ¬cond6_1 i) (x0 : Vec F S5000x128 .f32) (x1 : Vec F S5000x1 .i32) (x2 : Vec F S128x128 .f32) (x3 : Vec F S1x128 .f32) (x4 : Vec F S128x64 .f32) (x5 : Vec F S1x64 .f32) (xs0 : Vec F S1024x128 .f32)
include hc0 hc1 x0 x1 x2 x3 x4 x5 xs0

def out6_B_6 : Vec F S1024x64 .f32 :=
  VO6_6.read (Elt F) (VO6_6.writes (Elt F) VO6_6.junk (kernelRun6_B c i arg1 harg1 arg2 harg2 arg3 harg3 arg4 harg4 arg5 harg5 arg6 harg6 arg7 harg7 arg8 harg8 hc0 hc1 x0 x1 x2 x3 x4 x5 xs0).1)

theorem scover6_B_0 (y : S1024x128.Idx) :
    ∃ pc ∈ (kernelRun6_B c i arg1 harg1 arg2 harg2 arg3 harg3 arg4 harg4 arg5 harg5 arg6 harg6 arg7 harg7 arg8 harg8 hc0 hc1 x0 x1 x2 x3 x4 x5 xs0).2.1, y ∈ pc.1.set :=
  View.cover_of_tiledL (kernelRun6_B c i arg1 harg1 arg2 harg2 arg3 harg3 arg4 harg4 arg5 harg5 arg6 harg6 arg7 harg7 arg8 harg8 hc0 hc1 x0 x1 x2 x3 x4 x5 xs0).2.1 S1024x128.size (by sl_kernel_rfl) y

def sout6_B_0 : Vec F S1024x128 .f32 :=
  VS6_0.read (Elt F) (VS6_0.writes (Elt F) VS6_0.junk (kernelRun6_B c i arg1 harg1 arg2 harg2 arg3 harg3 arg4 harg4 arg5 harg5 arg6 harg6 arg7 harg7 arg8 harg8 hc0 hc1 x0 x1 x2 x3 x4 x5 xs0).2.1)

def outs6_B : Vec F S1024x64 .f32 × Vec F S1024x128 .f32 :=
  (out6_B_6 c i arg1 harg1 arg2 harg2 arg3 harg3 arg4 harg4 arg5 harg5 arg6 harg6 arg7 harg7 arg8 harg8 hc0 hc1 x0 x1 x2 x3 x4 x5 xs0, sout6_B_0 c i arg1 harg1 arg2 harg2 arg3 harg3 arg4 harg4 arg5 harg5 arg6 harg6 arg7 harg7 arg8 harg8 hc0 hc1 x0 x1 x2 x3 x4 x5 xs0)

end

section
variable (hc0 : ¬cond6_0 i) (hc1 : cond6_1 i) (x0 : Vec F S5000x128 .f32) (x1 : Vec F S5000x1 .i32) (x2 : Vec F S128x128 .f32) (x3 : Vec F S1x128 .f32) (x4 : Vec F S128x64 .f32) (x5 : Vec F S1x64 .f32) (xs0 : Vec F S1024x128 .f32)
include hc0 hc1 x0 x1 x2 x3 x4 x5 xs0

theorem cover6_C_6 (y : S1024x64.Idx) :
    ∃ pc ∈ (kernelRun6_C c i arg1 harg1 arg2 harg2 arg3 harg3 arg4 harg4 arg5 harg5 arg6 harg6 arg7 harg7 arg8 harg8 hc0 hc1 x0 x1 x2 x3 x4 x5 xs0).1, y ∈ pc.1.set :=
  View.cover_of_tiledL (kernelRun6_C c i arg1 harg1 arg2 harg2 arg3 harg3 arg4 harg4 arg5 harg5 arg6 harg6 arg7 harg7 arg8 harg8 hc0 hc1 x0 x1 x2 x3 x4 x5 xs0).1 S1024x64.size (by sl_kernel_rfl) y

def out6_C_6 : Vec F S1024x64 .f32 :=
  VO6_6.read (Elt F) (VO6_6.writes (Elt F) VO6_6.junk (kernelRun6_C c i arg1 harg1 arg2 harg2 arg3 harg3 arg4 harg4 arg5 harg5 arg6 harg6 arg7 harg7 arg8 harg8 hc0 hc1 x0 x1 x2 x3 x4 x5 xs0).1)

theorem scover6_C_0 (y : S1024x128.Idx) :
    ∃ pc ∈ (kernelRun6_C c i arg1 harg1 arg2 harg2 arg3 harg3 arg4 harg4 arg5 harg5 arg6 harg6 arg7 harg7 arg8 harg8 hc0 hc1 x0 x1 x2 x3 x4 x5 xs0).2.1, y ∈ pc.1.set :=
  View.cover_of_tiledL (kernelRun6_C c i arg1 harg1 arg2 harg2 arg3 harg3 arg4 harg4 arg5 harg5 arg6 harg6 arg7 harg7 arg8 harg8 hc0 hc1 x0 x1 x2 x3 x4 x5 xs0).2.1 S1024x128.size (by sl_kernel_rfl) y

def sout6_C_0 : Vec F S1024x128 .f32 :=
  VS6_0.read (Elt F) (VS6_0.writes (Elt F) VS6_0.junk (kernelRun6_C c i arg1 harg1 arg2 harg2 arg3 harg3 arg4 harg4 arg5 harg5 arg6 harg6 arg7 harg7 arg8 harg8 hc0 hc1 x0 x1 x2 x3 x4 x5 xs0).2.1)

def outs6_C : Vec F S1024x64 .f32 × Vec F S1024x128 .f32 :=
  (out6_C_6 c i arg1 harg1 arg2 harg2 arg3 harg3 arg4 harg4 arg5 harg5 arg6 harg6 arg7 harg7 arg8 harg8 hc0 hc1 x0 x1 x2 x3 x4 x5 xs0, sout6_C_0 c i arg1 harg1 arg2 harg2 arg3 harg3 arg4 harg4 arg5 harg5 arg6 harg6 arg7 harg7 arg8 harg8 hc0 hc1 x0 x1 x2 x3 x4 x5 xs0)

end

end

def outsAt6 (c : Dev nD) : (n : ℕ) → n < cfg6.N → Vec F S1024x64 .f32 × Vec F S1024x128 .f32
  | 0, hn => outs6_A c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) (ms6_6 ⟨0, hn⟩) (hs6_6 ⟨0, hn⟩) scM6_0 (Memref.isWhole_whole _) ((hcond6_0 ⟨0, hn⟩).mpr (Nat.zero_mod _)) (fun h => (fun h => by (try dsimp only at h); omega) ((hcond6_1 ⟨0, hn⟩).mp h)) (iblk6 V c 0 ⟨0, hn⟩) (iblk6 V c 1 ⟨0, hn⟩) (iblk6 V c 2 ⟨0, hn⟩) (iblk6 V c 3 ⟨0, hn⟩) (iblk6 V c 4 ⟨0, hn⟩) (iblk6 V c 5 ⟨0, hn⟩)
  | n + 1, hn =>
    if h0 : (n + 1) % 20 = 0 then
      if h1 : (n + 1) % 20 = 19 then
        False.elim (by have hN : n + 1 < 20 := lt_of_lt_of_eq hn (show cfg6.N = 20 from N_6); omega)
      else
        outs6_A c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) scM6_0 (Memref.isWhole_whole _) ((hcond6_0 ⟨n + 1, hn⟩).mpr h0) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩)
    else
      if h1 : (n + 1) % 20 = 19 then
        outs6_C c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) scM6_0 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (outsAt6 c n (Nat.lt_of_succ_lt hn)).2
      else
        outs6_B c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) scM6_0 (Memref.isWhole_whole _) (fun h => h0 ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (outsAt6 c n (Nat.lt_of_succ_lt hn)).2

theorem outsAt6_A (c : Dev nD) (t : Fin cfg6.N) (h0 : t.val % 20 = 0) (h1 : ¬t.val % 20 = 19) :
    outsAt6 V c t.val t.isLt = outs6_A c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) scM6_0 (Memref.isWhole_whole _) ((hcond6_0 t).mpr h0) (fun h => h1 ((hcond6_1 t).mp h)) (iblk6 V c 0 t) (iblk6 V c 1 t) (iblk6 V c 2 t) (iblk6 V c 3 t) (iblk6 V c 4 t) (iblk6 V c 5 t) := by
  obtain ⟨n, hn⟩ := t
  cases n with
  | zero => exact rfl
  | succ n => exact (dif_pos h0).trans ((dif_neg h1).trans rfl)

theorem outsAt6_B (c : Dev nD) (t : Fin cfg6.N) (h0 : ¬t.val % 20 = 0) (h1 : ¬t.val % 20 = 19) :
    outsAt6 V c t.val t.isLt = outs6_B c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) scM6_0 (Memref.isWhole_whole _) (fun h => h0 ((hcond6_0 t).mp h)) (fun h => h1 ((hcond6_1 t).mp h)) (iblk6 V c 0 t) (iblk6 V c 1 t) (iblk6 V c 2 t) (iblk6 V c 3 t) (iblk6 V c 4 t) (iblk6 V c 5 t) (outsAt6 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

theorem outsAt6_C (c : Dev nD) (t : Fin cfg6.N) (h0 : ¬t.val % 20 = 0) (h1 : t.val % 20 = 19) :
    outsAt6 V c t.val t.isLt = outs6_C c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) scM6_0 (Memref.isWhole_whole _) (fun h => h0 ((hcond6_0 t).mp h)) ((hcond6_1 t).mpr h1) (iblk6 V c 0 t) (iblk6 V c 1 t) (iblk6 V c 2 t) (iblk6 V c 3 t) (iblk6 V c 4 t) (iblk6 V c 5 t) (outsAt6 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

def PhiS6 (c : Dev nD) : (n : ℕ) → n ≤ cfg6.N → sProp 𝕄
  | 0, _ => Pipeline.ΦA spec6 c
  | n + 1, hn => iprop(iprop(iprop(owns (c : Thread nD τ) scM6_0 fullShare ((outsAt6 V c n hn).2)) ∗ Pipeline.scopedRestBut spec6 c [cc6_scratch0]) ∗ (∃ r, prngReg c r))

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(iprop(iprop(owns (c : Thread nD τ) scM6_0 fullShare ((outsAt6 V c n hn).2)) ∗ Pipeline.scopedRestBut spec6 c [cc6_scratch0]) ∗ (∃ r, prngReg c r)) := rfl

theorem PhiS6_pos (c : Dev nD) (n : ℕ) (h : n ≤ cfg6.N) (hz : n ≠ 0) :
    PhiS6 V c n h = iprop(iprop(iprop(owns (c : Thread nD τ) scM6_0 fullShare ((outsAt6 V c (n - 1) (by omega)).2)) ∗ Pipeline.scopedRestBut spec6 c [cc6_scratch0]) ∗ (∃ r, prngReg c r)) := by
  cases n with
  | zero => exact absurd rfl hz
  | succ n => rfl

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => (outsAt6 V c t.val t.isLt).1
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem PhiS6_castSucc (c : Dev nD) (t : Fin cfg6.N) :
    (dat6 V c).Φ t.castSucc = PhiS6 V c t.val (Nat.le_of_lt t.isLt) := by
  dsimp only [dat6]; simp only [Fin.coe_castSucc]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = (outsAt6 V c t.val t.isLt).1 := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d

def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d))
    ∗ (∃ d, owns (c : Thread nD τ) (ms6_5 t) fullShare ((dat6 V c).before 5 t d))
    ∗ (∃ d, owns (c : Thread nD τ) (ms6_6 t) fullShare ((dat6 V c).before 6 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t
    ∗ (dat6 V c).leavesExact 5 t
    ∗ (dat6 V c).leavesExact 6 t)

set_option maxHeartbeats 4800000 in

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5]
  rw [show (dat6 V c).owesAt () t.succ = (dat6 V c).owesAt () t.castSucc from rfl]
  rw [show (dat6 V c).Φ t.succ = PhiS6 V c (t.val + 1) t.isLt from rfl, PhiS6_succ]
  have hN : t.val < 20 := lt_of_lt_of_eq t.isLt (show cfg6.N = 20 from N_6)
  by_cases h0 : t.val % 20 = 0
  · by_cases h1 : t.val % 20 = 19
    · exfalso; omega
    ·
      rw [show (dat6 V c).leavesExact 0 t = owns (c : Thread nD τ) (ms6_0 t) fullShare ((dat6 V c).after 0 t) from by
        unfold Dat.leavesExact; rw [liveAt6_0 t], after6_0]
      rw [show (dat6 V c).leavesExact 1 t = owns (c : Thread nD τ) (ms6_1 t) fullShare ((dat6 V c).after 1 t) from by
        unfold Dat.leavesExact; rw [liveAt6_1 t], after6_1]
      rw [show (dat6 V c).leavesExact 2 t = owns (c : Thread nD τ) (ms6_2 t) fullShare ((dat6 V c).after 2 t) from by
        unfold Dat.leavesExact; rw [liveAt6_2 t], after6_2]
      rw [show (dat6 V c).leavesExact 3 t = owns (c : Thread nD τ) (ms6_3 t) fullShare ((dat6 V c).after 3 t) from by
        unfold Dat.leavesExact; rw [liveAt6_3 t], after6_3]
      rw [show (dat6 V c).leavesExact 4 t = owns (c : Thread nD τ) (ms6_4 t) fullShare ((dat6 V c).after 4 t) from by
        unfold Dat.leavesExact; rw [liveAt6_4 t], after6_4]
      rw [show (dat6 V c).leavesExact 5 t = owns (c : Thread nD τ) (ms6_5 t) fullShare ((dat6 V c).after 5 t) from by
        unfold Dat.leavesExact; rw [liveAt6_5 t], after6_5]
      rw [Dat.leavesExact_idle (dat6 V c) 6 t (idleAt6_6_A t ((hcond6_0 t).mpr h0) (fun h => h1 ((hcond6_1 t).mp h))) (noFlush6_6_A t ((hcond6_0 t).mpr h0) (fun h => h1 ((hcond6_1 t).mp h)))]
      rw [outsAt6_A V c t h0 h1]
      unfold outs6_A sout6_A_0; (try dsimp only)
      by_cases hz : t.val = 0
      · rw [PhiS6_castSucc V c t, PhiS6_zero V c _ _ hz, PhiA6_eq]
        iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun6_A c (grid6.coords t) _ _ _ _ _ _ _ _ _ _ _ _ _ _ _ _ ((hcond6_0 t).mpr h0) (fun h => h1 ((hcond6_1 t).mp h)) (iblk6 V c 0 t) (iblk6 V c 1 t) (iblk6 V c 2 t) (iblk6 V c 3 t) (iblk6 V c 4 t) (iblk6 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover6_A_0 c _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · exfalso; omega
  · by_cases h1 : t.val % 20 = 19
    ·
      rw [show (dat6 V c).leavesExact 0 t = owns (c : Thread nD τ) (ms6_0 t) fullShare ((dat6 V c).after 0 t) from by
        unfold Dat.leavesExact; rw [liveAt6_0 t], after6_0]
      rw [show (dat6 V c).leavesExact 1 t = owns (c : Thread nD τ) (ms6_1 t) fullShare ((dat6 V c).after 1 t) from by
        unfold Dat.leavesExact; rw [liveAt6_1 t], after6_1]
      rw [show (dat6 V c).leavesExact 2 t = owns (c : Thread nD τ) (ms6_2 t) fullShare ((dat6 V c).after 2 t) from by
        unfold Dat.leavesExact; rw [liveAt6_2 t], after6_2]
      rw [show (dat6 V c).leavesExact 3 t = owns (c : Thread nD τ) (ms6_3 t) fullShare ((dat6 V c).after 3 t) from by
        unfold Dat.leavesExact; rw [liveAt6_3 t], after6_3]
      rw [show (dat6 V c).leavesExact 4 t = owns (c : Thread nD τ) (ms6_4 t) fullShare ((dat6 V c).after 4 t) from by
        unfold Dat.leavesExact; rw [liveAt6_4 t], after6_4]
      rw [show (dat6 V c).leavesExact 5 t = owns (c : Thread nD τ) (ms6_5 t) fullShare ((dat6 V c).after 5 t) from by
        unfold Dat.leavesExact; rw [liveAt6_5 t], after6_5]
      rw [show (dat6 V c).leavesExact 6 t = owns (c : Thread nD τ) (ms6_6 t) fullShare ((dat6 V c).after 6 t) from by
        unfold Dat.leavesExact; rw [liveAt6_6_C t (fun h => h0 ((hcond6_0 t).mp h)) ((hcond6_1 t).mpr h1)], after6_6]
      rw [outsAt6_C V c t h0 h1]
      unfold outs6_C out6_C_6 sout6_C_0; (try dsimp only)
      have hz : t.val ≠ 0 := by omega
      rw [PhiS6_castSucc V c t, PhiS6_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun6_C c (grid6.coords t) _ _ _ _ _ _ _ _ _ _ _ _ _ _ _ _ (fun h => h0 ((hcond6_0 t).mp h)) ((hcond6_1 t).mpr h1) (iblk6 V c 0 t) (iblk6 V c 1 t) (iblk6 V c 2 t) (iblk6 V c 3 t) (iblk6 V c 4 t) (iblk6 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover6_C_0 c _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover6_C_6 c _ _ _ _ _ _ _ _ _ _ _ _ _ _ _ _ _ _ _ _ _ _ _ _ _ _)
    ·
      rw [show (dat6 V c).leavesExact 0 t = owns (c : Thread nD τ) (ms6_0 t) fullShare ((dat6 V c).after 0 t) from by
        unfold Dat.leavesExact; rw [liveAt6_0 t], after6_0]
      rw [show (dat6 V c).leavesExact 1 t = owns (c : Thread nD τ) (ms6_1 t) fullShare ((dat6 V c).after 1 t) from by
        unfold Dat.leavesExact; rw [liveAt6_1 t], after6_1]
      rw [show (dat6 V c).leavesExact 2 t = owns (c : Thread nD τ) (ms6_2 t) fullShare ((dat6 V c).after 2 t) from by
        unfold Dat.leavesExact; rw [liveAt6_2 t], after6_2]
      rw [show (dat6 V c).leavesExact 3 t = owns (c : Thread nD τ) (ms6_3 t) fullShare ((dat6 V c).after 3 t) from by
        unfold Dat.leavesExact; rw [liveAt6_3 t], after6_3]
      rw [show (dat6 V c).leavesExact 4 t = owns (c : Thread nD τ) (ms6_4 t) fullShare ((dat6 V c).after 4 t) from by
        unfold Dat.leavesExact; rw [liveAt6_4 t], after6_4]
      rw [show (dat6 V c).leavesExact 5 t = owns (c : Thread nD τ) (ms6_5 t) fullShare ((dat6 V c).after 5 t) from by
        unfold Dat.leavesExact; rw [liveAt6_5 t], after6_5]
      rw [Dat.leavesExact_idle (dat6 V c) 6 t (idleAt6_6_B t (fun h => h0 ((hcond6_0 t).mp h)) (fun h => h1 ((hcond6_1 t).mp h))) (noFlush6_6_B t (fun h => h0 ((hcond6_0 t).mp h)) (fun h => h1 ((hcond6_1 t).mp h)))]
      rw [outsAt6_B V c t h0 h1]
      unfold outs6_B sout6_B_0; (try dsimp only)
      have hz : t.val ≠ 0 := by omega
      rw [PhiS6_castSucc V c t, PhiS6_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun6_B c (grid6.coords t) _ _ _ _ _ _ _ _ _ _ _ _ _ _ _ _ (fun h => h0 ((hcond6_0 t).mp h)) (fun h => h1 ((hcond6_1 t).mp h)) (iblk6 V c 0 t) (iblk6 V c 1 t) (iblk6 V c 2 t) (iblk6 V c 3 t) (iblk6 V c 4 t) (iblk6 V c 5 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover6_B_0 c _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

theorem body_obligation6 (c : Dev nD) : BodyObligation (dat6 (F := F) V c) (defs₀ (F := F)) Variants.none () Set.univ := fun t => by
  rw [bigSep_W6, bigSep_W6]
  exact sound_body6 V c t

theorem hin6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

theorem Phi_out6 (c : Dev nD) (t : Fin (cfg6.N + 1)) (ht : t.val ≠ 0) : (dat6 V c).Φ t ⊢ Pipeline.ΦA spec6 c := by
  rw [show (dat6 V c).Φ t = PhiS6 V c t.val (Nat.le_of_lt_succ t.isLt) from rfl, PhiS6_pos V c _ _ ht, PhiA6_eq]
  iintro ⟨⟨HS0, Hrest⟩, Hg⟩
  isplitl [HS0 Hrest]
  · isplitl [HS0]
    · iexists _; iexact HS0
    iexact Hrest
  iexact Hg

theorem hout6 (c : Dev nD) : (dat6 V c).Φ (Fin.last cfg6.N) ⊢ Pipeline.ΦA spec6 c :=
  Phi_out6 V c _ (by rw [Fin.val_last]; have : cfg6.N = 20 := N_6; omega)

end Cert.Kernel.Hand

end
-- ==== Proof.K.Dats.lean ====
import proofs.«425279_j44762149159634_1_alg».proof.Proof.K.Reg0
import proofs.«425279_j44762149159634_1_alg».proof.Proof.K.Reg1
import proofs.«425279_j44762149159634_1_alg».proof.Proof.K.Reg2
import proofs.«425279_j44762149159634_1_alg».proof.Proof.K.Reg3
import proofs.«425279_j44762149159634_1_alg».proof.Proof.K.Reg4
import proofs.«425279_j44762149159634_1_alg».proof.Proof.K.Reg5
import proofs.«425279_j44762149159634_1_alg».proof.Proof.K.Reg6
import proofs.«425279_j44762149159634_1_alg».proof.Proof.Gen.Kernel.Regions
import Idealize.ShloMosaic.Lib.Pipeline.FrameSuffix
import Idealize.ShloMosaic.Lib.Pipeline.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev Bd0 : Dev nD → Valuation τ sig (Elt F) := fun c b => m (c, b)

abbrev Bd1 : Dev nD → Valuation τ sig (Elt F) := fun c => StableHlo.after hostOps0 (Bd0 m c)

abbrev Rd1 : (c : Dev nD) → (b : Ref sig .tc) → Buf (Elt F) ((c : Thread nD τ).loc b) := fun c b => Bd1 m c b

def Bd2 (c : Dev nD) : Valuation τ sig (Elt F) :=
  Pipeline.withArrays spec0 c (Bd1 m c) fun w => (dat0 (Rd1 m) c).arrAt w cfg0.N
theorem Bd2_arr (c : Dev nD) (w : Fin cfg0.W) :
    Bd2 m c (Proc.devRef .tc (Pipeline.arrRef spec0 w)) = (dat0 (Rd1 m) c).arrAt w cfg0.N := by
  unfold Bd2; exact Pipeline.withArrays_arr spec0 launch0.win.arr_inj c _ _ w
theorem Bd2_of_ne (c : Dev nD) (b : Ref sig .tc) (hb : ∀ w, Pipeline.arrRef spec0 w ≠ b) :
    Bd2 m c (Proc.devRef .tc b) = Bd1 m c (Proc.devRef .tc b) := by
  unfold Bd2; exact Pipeline.withArrays_of_ne spec0 c _ _ b hb
abbrev Rd2 : (c : Dev nD) → (b : Ref sig .tc) → Buf (Elt F) ((c : Thread nD τ).loc b) := fun c b => Bd2 m c b
theorem hF0 (c : Dev nD) (w : Fin cfg0.W) : (dat0 (Rd1 m) c).arrAt w cfg0.N = Rd2 m c (Pipeline.arrRef spec0 w) :=
  (Bd2_arr m c w).symm
theorem hrest0 (c : Dev nD) : ∀ b, b ∉ Finset.univ.image (Pipeline.arrRef spec0) → Rd2 m c b = Rd1 m c b :=
  fun b hb => Bd2_of_ne m c b fun w e => hb (Finset.mem_image.mpr ⟨w, Finset.mem_univ _, e⟩)

abbrev Bd3 : Dev nD → Valuation τ sig (Elt F) := fun c => StableHlo.after hostOps1 (Bd2 m c)

abbrev Rd3 : (c : Dev nD) → (b : Ref sig .tc) → Buf (Elt F) ((c : Thread nD τ).loc b) := fun c b => Bd3 m c b

def Bd4 (c : Dev nD) : Valuation τ sig (Elt F) :=
  Pipeline.withArrays spec1 c (Bd3 m c) fun w => (dat1 (Rd3 m) c).arrAt w cfg1.N
theorem Bd4_arr (c : Dev nD) (w : Fin cfg1.W) :
    Bd4 m c (Proc.devRef .tc (Pipeline.arrRef spec1 w)) = (dat1 (Rd3 m) c).arrAt w cfg1.N := by
  unfold Bd4; exact Pipeline.withArrays_arr spec1 launch1.win.arr_inj c _ _ w
theorem Bd4_of_ne (c : Dev nD) (b : Ref sig .tc) (hb : ∀ w, Pipeline.arrRef spec1 w ≠ b) :
    Bd4 m c (Proc.devRef .tc b) = Bd3 m c (Proc.devRef .tc b) := by
  unfold Bd4; exact Pipeline.withArrays_of_ne spec1 c _ _ b hb
abbrev Rd4 : (c : Dev nD) → (b : Ref sig .tc) → Buf (Elt F) ((c : Thread nD τ).loc b) := fun c b => Bd4 m c b
theorem hF1 (c : Dev nD) (w : Fin cfg1.W) : (dat1 (Rd3 m) c).arrAt w cfg1.N = Rd4 m c (Pipeline.arrRef spec1 w) :=
  (Bd4_arr m c w).symm
theorem hrest1 (c : Dev nD) : ∀ b, b ∉ Finset.univ.image (Pipeline.arrRef spec1) → Rd4 m c b = Rd3 m c b :=
  fun b hb => Bd4_of_ne m c b fun w e => hb (Finset.mem_image.mpr ⟨w, Finset.mem_univ _, e⟩)

abbrev Bd5 : Dev nD → Valuation τ sig (Elt F) := fun c => StableHlo.after hostOps2 (Bd4 m c)

abbrev Rd5 : (c : Dev nD) → (b : Ref sig .tc) → Buf (Elt F) ((c : Thread nD τ).loc b) := fun c b => Bd5 m c b

def Bd6 (c : Dev nD) : Valuation τ sig (Elt F) :=
  Pipeline.withArrays spec2 c (Bd5 m c) fun w => (dat2 (Rd5 m) c).arrAt w cfg2.N
theorem Bd6_arr (c : Dev nD) (w : Fin cfg2.W) :
    Bd6 m c (Proc.devRef .tc (Pipeline.arrRef spec2 w)) = (dat2 (Rd5 m) c).arrAt w cfg2.N := by
  unfold Bd6; exact Pipeline.withArrays_arr spec2 launch2.win.arr_inj c _ _ w
theorem Bd6_of_ne (c : Dev nD) (b : Ref sig .tc) (hb : ∀ w, Pipeline.arrRef spec2 w ≠ b) :
    Bd6 m c (Proc.devRef .tc b) = Bd5 m c (Proc.devRef .tc b) := by
  unfold Bd6; exact Pipeline.withArrays_of_ne spec2 c _ _ b hb
abbrev Rd6 : (c : Dev nD) → (b : Ref sig .tc) → Buf (Elt F) ((c : Thread nD τ).loc b) := fun c b => Bd6 m c b
theorem hF2 (c : Dev nD) (w : Fin cfg2.W) : (dat2 (Rd5 m) c).arrAt w cfg2.N = Rd6 m c (Pipeline.arrRef spec2 w) :=
  (Bd6_arr m c w).symm
theorem hrest2 (c : Dev nD) : ∀ b, b ∉ Finset.univ.image (Pipeline.arrRef spec2) → Rd6 m c b = Rd5 m c b :=
  fun b hb => Bd6_of_ne m c b fun w e => hb (Finset.mem_image.mpr ⟨w, Finset.mem_univ _, e⟩)

abbrev Bd7 : Dev nD → Valuation τ sig (Elt F) := fun c => StableHlo.after hostOps3 (Bd6 m c)

abbrev Rd7 : (c : Dev nD) → (b : Ref sig .tc) → Buf (Elt F) ((c : Thread nD τ).loc b) := fun c b => Bd7 m c b

def Bd8 (c : Dev nD) : Valuation τ sig (Elt F) :=
  Pipeline.withArrays spec3 c (Bd7 m c) fun w => (dat3 (Rd7 m) c).arrAt w cfg3.N
theorem Bd8_arr (c : Dev nD) (w : Fin cfg3.W) :
    Bd8 m c (Proc.devRef .tc (Pipeline.arrRef spec3 w)) = (dat3 (Rd7 m) c).arrAt w cfg3.N := by
  unfold Bd8; exact Pipeline.withArrays_arr spec3 launch3.win.arr_inj c _ _ w
theorem Bd8_of_ne (c : Dev nD) (b : Ref sig .tc) (hb : ∀ w, Pipeline.arrRef spec3 w ≠ b) :
    Bd8 m c (Proc.devRef .tc b) = Bd7 m c (Proc.devRef .tc b) := by
  unfold Bd8; exact Pipeline.withArrays_of_ne spec3 c _ _ b hb
abbrev Rd8 : (c : Dev nD) → (b : Ref sig .tc) → Buf (Elt F) ((c : Thread nD τ).loc b) := fun c b => Bd8 m c b
theorem hF3 (c : Dev nD) (w : Fin cfg3.W) : (dat3 (Rd7 m) c).arrAt w cfg3.N = Rd8 m c (Pipeline.arrRef spec3 w) :=
  (Bd8_arr m c w).symm
theorem hrest3 (c : Dev nD) : ∀ b, b ∉ Finset.univ.image (Pipeline.arrRef spec3) → Rd8 m c b = Rd7 m c b :=
  fun b hb => Bd8_of_ne m c b fun w e => hb (Finset.mem_image.mpr ⟨w, Finset.mem_univ _, e⟩)

abbrev Bd9 : Dev nD → Valuation τ sig (Elt F) := fun c => StableHlo.after hostOps4 (Bd8 m c)

abbrev Rd9 : (c : Dev nD) → (b : Ref sig .tc) → Buf (Elt F) ((c : Thread nD τ).loc b) := fun c b => Bd9 m c b

def Bd10 (c : Dev nD) : Valuation τ sig (Elt F) :=
  Pipeline.withArrays spec4 c (Bd9 m c) fun w => (dat4 (Rd9 m) c).arrAt w cfg4.N
theorem Bd10_arr (c : Dev nD) (w : Fin cfg4.W) :
    Bd10 m c (Proc.devRef .tc (Pipeline.arrRef spec4 w)) = (dat4 (Rd9 m) c).arrAt w cfg4.N := by
  unfold Bd10; exact Pipeline.withArrays_arr spec4 launch4.win.arr_inj c _ _ w
theorem Bd10_of_ne (c : Dev nD) (b : Ref sig .tc) (hb : ∀ w, Pipeline.arrRef spec4 w ≠ b) :
    Bd10 m c (Proc.devRef .tc b) = Bd9 m c (Proc.devRef .tc b) := by
  unfold Bd10; exact Pipeline.withArrays_of_ne spec4 c _ _ b hb
abbrev Rd10 : (c : Dev nD) → (b : Ref sig .tc) → Buf (Elt F) ((c : Thread nD τ).loc b) := fun c b => Bd10 m c b
theorem hF4 (c : Dev nD) (w : Fin cfg4.W) : (dat4 (Rd9 m) c).arrAt w cfg4.N = Rd10 m c (Pipeline.arrRef spec4 w) :=
  (Bd10_arr m c w).symm
theorem hrest4 (c : Dev nD) : ∀ b, b ∉ Finset.univ.image (Pipeline.arrRef spec4) → Rd10 m c b = Rd9 m c b :=
  fun b hb => Bd10_of_ne m c b fun w e => hb (Finset.mem_image.mpr ⟨w, Finset.mem_univ _, e⟩)

abbrev Bd11 : Dev nD → Valuation τ sig (Elt F) := fun c => StableHlo.after hostOps5 (Bd10 m c)

abbrev Rd11 : (c : Dev nD) → (b : Ref sig .tc) → Buf (Elt F) ((c : Thread nD τ).loc b) := fun c b => Bd11 m c b

def Bd12 (c : Dev nD) : Valuation τ sig (Elt F) :=
  Pipeline.withArrays spec5 c (Bd11 m c) fun w => (dat5 (Rd11 m) c).arrAt w cfg5.N
theorem Bd12_arr (c : Dev nD) (w : Fin cfg5.W) :
    Bd12 m c (Proc.devRef .tc (Pipeline.arrRef spec5 w)) = (dat5 (Rd11 m) c).arrAt w cfg5.N := by
  unfold Bd12; exact Pipeline.withArrays_arr spec5 launch5.win.arr_inj c _ _ w
theorem Bd12_of_ne (c : Dev nD) (b : Ref sig .tc) (hb : ∀ w, Pipeline.arrRef spec5 w ≠ b) :
    Bd12 m c (Proc.devRef .tc b) = Bd11 m c (Proc.devRef .tc b) := by
  unfold Bd12; exact Pipeline.withArrays_of_ne spec5 c _ _ b hb
abbrev Rd12 : (c : Dev nD) → (b : Ref sig .tc) → Buf (Elt F) ((c : Thread nD τ).loc b) := fun c b => Bd12 m c b
theorem hF5 (c : Dev nD) (w : Fin cfg5.W) : (dat5 (Rd11 m) c).arrAt w cfg5.N = Rd12 m c (Pipeline.arrRef spec5 w) :=
  (Bd12_arr m c w).symm
theorem hrest5 (c : Dev nD) : ∀ b, b ∉ Finset.univ.image (Pipeline.arrRef spec5) → Rd12 m c b = Rd11 m c b :=
  fun b hb => Bd12_of_ne m c b fun w e => hb (Finset.mem_image.mpr ⟨w, Finset.mem_univ _, e⟩)

abbrev Bd13 : Dev nD → Valuation τ sig (Elt F) := fun c => StableHlo.after hostOps6 (Bd12 m c)

abbrev Rd13 : (c : Dev nD) → (b : Ref sig .tc) → Buf (Elt F) ((c : Thread nD τ).loc b) := fun c b => Bd13 m c b

def Bd14 (c : Dev nD) : Valuation τ sig (Elt F) :=
  Pipeline.withArrays spec6 c (Bd13 m c) fun w => (dat6 (Rd13 m) c).arrAt w cfg6.N
theorem Bd14_arr (c : Dev nD) (w : Fin cfg6.W) :
    Bd14 m c (Proc.devRef .tc (Pipeline.arrRef spec6 w)) = (dat6 (Rd13 m) c).arrAt w cfg6.N := by
  unfold Bd14; exact Pipeline.withArrays_arr spec6 launch6.win.arr_inj c _ _ w
theorem Bd14_of_ne (c : Dev nD) (b : Ref sig .tc) (hb : ∀ w, Pipeline.arrRef spec6 w ≠ b) :
    Bd14 m c (Proc.devRef .tc b) = Bd13 m c (Proc.devRef .tc b) := by
  unfold Bd14; exact Pipeline.withArrays_of_ne spec6 c _ _ b hb
abbrev Rd14 : (c : Dev nD) → (b : Ref sig .tc) → Buf (Elt F) ((c : Thread nD τ).loc b) := fun c b => Bd14 m c b
theorem hF6 (c : Dev nD) (w : Fin cfg6.W) : (dat6 (Rd13 m) c).arrAt w cfg6.N = Rd14 m c (Pipeline.arrRef spec6 w) :=
  (Bd14_arr m c w).symm
theorem hrest6 (c : Dev nD) : ∀ b, b ∉ Finset.univ.image (Pipeline.arrRef spec6) → Rd14 m c b = Rd13 m c b :=
  fun b hb => Bd14_of_ne m c b fun w e => hb (Finset.mem_image.mpr ⟨w, Finset.mem_univ _, e⟩)

def pdats : (p : Fin 7) → (c : Dev nD) → Dat τ (Elt F) Unit ℕ (UR sig nD τ) ℕ (Pipeline.pin (pcfgs (F := F)) adm p) c
  | ⟨0, _⟩ => fun c => dat0 (Rd1 m) c
  | ⟨1, _⟩ => fun c => dat1 (Rd3 m) c
  | ⟨2, _⟩ => fun c => dat2 (Rd5 m) c
  | ⟨3, _⟩ => fun c => dat3 (Rd7 m) c
  | ⟨4, _⟩ => fun c => dat4 (Rd9 m) c
  | ⟨5, _⟩ => fun c => dat5 (Rd11 m) c
  | ⟨6, _⟩ => fun c => dat6 (Rd13 m) c

abbrev Lz : GSem nD τ sig → Finset Unit := fun _ => ∅
abbrev lvz : GSem nD τ sig → Unit → ℕ := fun _ _ => 0

abbrev Ride (c : Dev nD) : sProp 𝕄 := iprop((∃ r, prngReg c r) ∗ ∃ W, owes (c : Thread nD τ) (0 : CellTallies nD τ sig Unit) W)

variable (p : Fin 7)
    (win : Pipeline.WinFacts (Pipeline.pin (pcfgs (F := F)) adm p).spec)
    (block_pos : ∀ w : Fin (Pipeline.pin (pcfgs (F := F)) adm p).W, 0 < ((Pipeline.pin (pcfgs (F := F)) adm p).spec w).block.numel)
    (stage_whole : ∀ (w : Fin (Pipeline.pin (pcfgs (F := F)) adm p).W) (s : Fin ((Pipeline.pin (pcfgs (F := F)) adm p).spec w).nbuf), (((Pipeline.pin (pcfgs (F := F)) adm p).spec w).stage s).IsWhole)
    (arr_whole : ∀ w, ((Pipeline.pin (pcfgs (F := F)) adm p).spec w).arr.IsWhole)
    (B B' : Dev nD → Valuation τ sig (Elt F))
    (hbody : ∀ c, BodyObligation (pdats m p c) (defs₀ (F := F)) Variants.none () Set.univ)
    (hq : ∀ c w, (pdats m p c).q w = fullShare) (howed : ∀ c t, (pdats m p c).owed t = 0)
    (hrec : ∀ c t, (pdats m p c).recorded t = Set.univ)
    (hA : ∀ c w, (pdats m p c).A w = B c (Proc.devRef .tc (Pipeline.arrRef (Pipeline.pin (pcfgs (F := F)) adm p).spec w)))
    (hin : ∀ c, Pipeline.ΦA (Pipeline.pin (pcfgs (F := F)) adm p).spec c ⊢ (pdats m p c).Φ 0)
    (hout : ∀ c, (pdats m p c).Φ (Fin.last _) ⊢ Pipeline.ΦA (Pipeline.pin (pcfgs (F := F)) adm p).spec c)
    (hF : ∀ c w, (pdats m p c).arrAt w (Pipeline.pin (pcfgs (F := F)) adm p).N = B' c (Proc.devRef .tc (Pipeline.arrRef (Pipeline.pin (pcfgs (F := F)) adm p).spec w)))
    (hrest : ∀ c b, b ∉ Finset.univ.image (Pipeline.arrRef (Pipeline.pin (pcfgs (F := F)) adm p).spec) → B' c (Proc.devRef .tc b) = B c (Proc.devRef .tc b))

-- One kernel region as a step of the program: entered with the core's buffers at `B`, left with them at `B'`, which is `B` with the region's arrays at what the region wrote.
set_option backward.isDefEq.respectTransparency.types false in
def regOf : Pipeline.RegionSeg (pcfgs (F := F)) adm (pdats m) () defs₀ Variants.none Lz lvz p where
  win := win.to₀
  block_pos := block_pos
  stage_whole := stage_whole
  K := PEmpty
  osem k := k.elim
  ho := Pipeline.OwnSemFacts.none _
  hbody c := (hbody c).loose
  hwaits := Pipeline.hwaits_of_owed_zero _ _ _ _ Lz lvz p howed
  pre c := iprop(StableHlo.held (c : Thread nD τ) (Pipeline.ucRefs τ sig) (B c) ∗ Ride c)
  post c := iprop(StableHlo.held (c : Thread nD τ) (Pipeline.ucRefs τ sig) (B' c) ∗ Ride c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (fun b => B c (Proc.devRef .tc b))
  hentry c := by
    rw [Pipeline.ownSems0_none]
    have hsplit := Pipeline.arrays_of_unscopedBufs (p := p) (pcfgs (F := F)) adm (pdats m) win arr_whole c
      ((pdats m p c).share_full (hq c)) (fun b => B c (Proc.devRef .tc b)) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      icases HO with ⟨%W, HO⟩; iexists W; isplitr; · ipureintro; exact fun _ _ => Or.inl ((hrec c 0).symm ▸ Set.mem_univ _)
      iexact HO
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    rw [Pipeline.ownSems0_none]
    refine BIBase.Entails.trans (hout c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      win arr_whole c (pdats m) ((pdats m p c).share_full (hq c))
      (fun b => B c (Proc.devRef .tc b)) (fun b => B' c (Proc.devRef .tc b)) ((pdats m p c).arrAt · (Pipeline.pin (pcfgs (F := F)) adm p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

end Cert.Kernel.Hand

end
-- ==== Proof.K.Seg0.lean ====
import proofs.«425279_j44762149159634_1_alg».proof.Proof.K.Dats

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg0 : Pipeline.RegionSeg (pcfgs (F := F)) adm (pdats m) () defs₀ Variants.none Lz lvz (0 : Fin 7) :=
  regOf m 0 launch0.win launch0.block_pos launch0.stage_whole launch0.arr_whole (Bd1 m) (Bd2 m)
    (body_obligation0 (Rd1 m)) (fun _ _ => rfl) (fun _ _ => rfl) (fun _ _ => rfl) (fun _ _ => rfl) (hin0 (Rd1 m)) (hout0 (Rd1 m)) (hF0 m) (hrest0 m)

end Cert.Kernel.Hand

end
-- ==== Proof.K.Seg1.lean ====
import proofs.«425279_j44762149159634_1_alg».proof.Proof.K.Dats

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg1 : Pipeline.RegionSeg (pcfgs (F := F)) adm (pdats m) () defs₀ Variants.none Lz lvz (1 : Fin 7) :=
  regOf m 1 launch1.win launch1.block_pos launch1.stage_whole launch1.arr_whole (Bd3 m) (Bd4 m)
    (body_obligation1 (Rd3 m)) (fun _ _ => rfl) (fun _ _ => rfl) (fun _ _ => rfl) (fun _ _ => rfl) (hin1 (Rd3 m)) (hout1 (Rd3 m)) (hF1 m) (hrest1 m)

end Cert.Kernel.Hand

end
-- ==== Proof.K.Seg2.lean ====
import proofs.«425279_j44762149159634_1_alg».proof.Proof.K.Dats

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg2 : Pipeline.RegionSeg (pcfgs (F := F)) adm (pdats m) () defs₀ Variants.none Lz lvz (2 : Fin 7) :=
  regOf m 2 launch2.win launch2.block_pos launch2.stage_whole launch2.arr_whole (Bd5 m) (Bd6 m)
    (body_obligation2 (Rd5 m)) (fun _ _ => rfl) (fun _ _ => rfl) (fun _ _ => rfl) (fun _ _ => rfl) (hin2 (Rd5 m)) (hout2 (Rd5 m)) (hF2 m) (hrest2 m)

end Cert.Kernel.Hand

end
-- ==== Proof.K.Seg3.lean ====
import proofs.«425279_j44762149159634_1_alg».proof.Proof.K.Dats

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg3 : Pipeline.RegionSeg (pcfgs (F := F)) adm (pdats m) () defs₀ Variants.none Lz lvz (3 : Fin 7) :=
  regOf m 3 launch3.win launch3.block_pos launch3.stage_whole launch3.arr_whole (Bd7 m) (Bd8 m)
    (body_obligation3 (Rd7 m)) (fun _ _ => rfl) (fun _ _ => rfl) (fun _ _ => rfl) (fun _ _ => rfl) (hin3 (Rd7 m)) (hout3 (Rd7 m)) (hF3 m) (hrest3 m)

end Cert.Kernel.Hand

end
-- ==== Proof.K.Seg4.lean ====
import proofs.«425279_j44762149159634_1_alg».proof.Proof.K.Dats

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg4 : Pipeline.RegionSeg (pcfgs (F := F)) adm (pdats m) () defs₀ Variants.none Lz lvz (4 : Fin 7) :=
  regOf m 4 launch4.win launch4.block_pos launch4.stage_whole launch4.arr_whole (Bd9 m) (Bd10 m)
    (body_obligation4 (Rd9 m)) (fun _ _ => rfl) (fun _ _ => rfl) (fun _ _ => rfl) (fun _ _ => rfl) (hin4 (Rd9 m)) (hout4 (Rd9 m)) (hF4 m) (hrest4 m)

end Cert.Kernel.Hand

end
-- ==== Proof.K.Seg5.lean ====
import proofs.«425279_j44762149159634_1_alg».proof.Proof.K.Dats

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg5 : Pipeline.RegionSeg (pcfgs (F := F)) adm (pdats m) () defs₀ Variants.none Lz lvz (5 : Fin 7) :=
  regOf m 5 launch5.win launch5.block_pos launch5.stage_whole launch5.arr_whole (Bd11 m) (Bd12 m)
    (body_obligation5 (Rd11 m)) (fun _ _ => rfl) (fun _ _ => rfl) (fun _ _ => rfl) (fun _ _ => rfl) (hin5 (Rd11 m)) (hout5 (Rd11 m)) (hF5 m) (hrest5 m)

end Cert.Kernel.Hand

end
-- ==== Proof.K.Seg6.lean ====
import proofs.«425279_j44762149159634_1_alg».proof.Proof.K.Dats

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg6 : Pipeline.RegionSeg (pcfgs (F := F)) adm (pdats m) () defs₀ Variants.none Lz lvz (6 : Fin 7) :=
  regOf m 6 launch6.win launch6.block_pos launch6.stage_whole launch6.arr_whole (Bd13 m) (Bd14 m)
    (body_obligation6 (Rd13 m)) (fun _ _ => rfl) (fun _ _ => rfl) (fun _ _ => rfl) (fun _ _ => rfl) (hin6 (Rd13 m)) (hout6 (Rd13 m)) (hF6 m) (hrest6 m)

end Cert.Kernel.Hand

end
-- ==== Proof.K.Run.lean ====
import proofs.«425279_j44762149159634_1_alg».proof.Proof.K.Seg0
import proofs.«425279_j44762149159634_1_alg».proof.Proof.K.Seg1
import proofs.«425279_j44762149159634_1_alg».proof.Proof.K.Seg2
import proofs.«425279_j44762149159634_1_alg».proof.Proof.K.Seg3
import proofs.«425279_j44762149159634_1_alg».proof.Proof.K.Seg4
import proofs.«425279_j44762149159634_1_alg».proof.Proof.K.Seg5
import proofs.«425279_j44762149159634_1_alg».proof.Proof.K.Seg6

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Ride

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev hsegs : List (Pipeline.Seg (pcfgs (F := F)) adm (pdats m) () defs₀ Variants.none Lz lvz) :=
  [ .host (hseg hostOps0 hostOps0_sub hostOps0_fresh (Bd0 m)),
    .region (reg0 m),
    .host (hseg hostOps1 hostOps1_sub hostOps1_fresh (Bd2 m)),
    .region (reg1 m),
    .host (hseg hostOps2 hostOps2_sub hostOps2_fresh (Bd4 m)),
    .region (reg2 m),
    .host (hseg hostOps3 hostOps3_sub hostOps3_fresh (Bd6 m)),
    .region (reg3 m),
    .host (hseg hostOps4 hostOps4_sub hostOps4_fresh (Bd8 m)),
    .region (reg4 m),
    .host (hseg hostOps5 hostOps5_sub hostOps5_fresh (Bd10 m)),
    .region (reg5 m),
    .host (hseg hostOps6 hostOps6_sub hostOps6_fresh (Bd12 m)),
    .region (reg6 m) ]

theorem main_run (c : Dev nD) : main (F := F) c = Pipeline.Seg.run (hsegs m) := (main_chain c).trans (by chain_rfl)

abbrev Tlast (c : Dev nD) : sProp 𝕄 := iprop(StableHlo.held (c : Thread nD τ) (Pipeline.ucRefs τ sig) (Bd14 m c) ∗ ∃ r, prngReg c r)

theorem lastLink (c : Dev nD) : iprop(StableHlo.held (c : Thread nD τ) (Pipeline.ucRefs τ sig) (Bd14 m c) ∗ Ride (F := F) c)
    ⊢ iprop(Tlast m c ∗ ∃ W, owes (c : Thread nD τ) (0 : CellTallies nD τ sig Unit) W) := by
  iintro ⟨Hh, Hp, HO⟩
  isplitl [Hh Hp]
  · isplitl [Hh]; · iexact Hh
    iexact Hp
  iexact HO

set_option backward.isDefEq.respectTransparency.types false in

theorem run : θ_run defs (onTc (τ := τ) (main (F := F))) ⟨m, fun _ => 0, ρ⟩ (fun r => ∀ c : Dev nD,
      ∀ b ∈ Pipeline.ucRefs τ sig, r.2.mem (((c : Thread nD τ)).1, b) = Bd14 m c b) :=
  Pipeline.θ_run_regions_kit (pcfgs (F := F)) adm (pdats m) () cellOf_inj emb₁ defs₀ Variants.none Lz lvz m ρ main (hsegs m)
    (fun c Q => by rw [main_run m c])
    (by simp only [hsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Bd0 m c) ∗ Ride c)) (Tₙ := Tlast m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => lastLink m c⟩)
    (hinit := by
      refine Pipeline.initEach Lz lvz fun c => ?_
      rw [show unscopedBufs c (fun b => m ((c : Thread nD τ).loc b)) = StableHlo.held (c : Thread nD τ) (Pipeline.ucRefs τ sig) (Bd0 m c)
        from Pipeline.unscopedBufs_held c (Bd0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Bd14 m c b)
    (hfin := fun c s' => by
      iintro ⟨⟨Hh, -⟩, HSI⟩
      unfold StableHlo.held
      imodintro
      iapply (pointsTo_read_all (Pipeline.ucRefs τ sig) (fun b => (((c : Thread nD τ)).1, b)) (Bd14 m c) s')
      isplitl [Hh] <;> iassumption)
    (hQ := fun s h => h)

end Cert.Kernel.Hand

end
-- ==== Proof.K.Args.lean ====
import proofs.«425279_j44762149159634_1_alg».proof.Proof.K.Dats

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem keepH0 (c : Dev nD) (b : Ref sig .tc) (h : b ∉ hostOps0_W) : Bd1 m c (Proc.devRef .tc b) = Bd0 m c (Proc.devRef .tc b) :=
  StableHlo.after_of_writes_sub hostOps0 _ hostOps0_writes h

theorem keepR0 (c : Dev nD) (b : Ref sig .tc) (h : ∀ w, Pipeline.arrRef spec0 w ≠ b) : Bd2 m c (Proc.devRef .tc b) = Bd1 m c (Proc.devRef .tc b) :=
  Bd2_of_ne m c b h

theorem keepH1 (c : Dev nD) (b : Ref sig .tc) (h : b ∉ hostOps1_W) : Bd3 m c (Proc.devRef .tc b) = Bd2 m c (Proc.devRef .tc b) :=
  StableHlo.after_of_writes_sub hostOps1 _ hostOps1_writes h

theorem keepR1 (c : Dev nD) (b : Ref sig .tc) (h : ∀ w, Pipeline.arrRef spec1 w ≠ b) : Bd4 m c (Proc.devRef .tc b) = Bd3 m c (Proc.devRef .tc b) :=
  Bd4_of_ne m c b h

theorem keepH2 (c : Dev nD) (b : Ref sig .tc) (h : b ∉ hostOps2_W) : Bd5 m c (Proc.devRef .tc b) = Bd4 m c (Proc.devRef .tc b) :=
  StableHlo.after_of_writes_sub hostOps2 _ hostOps2_writes h

theorem keepR2 (c : Dev nD) (b : Ref sig .tc) (h : ∀ w, Pipeline.arrRef spec2 w ≠ b) : Bd6 m c (Proc.devRef .tc b) = Bd5 m c (Proc.devRef .tc b) :=
  Bd6_of_ne m c b h

theorem keepH3 (c : Dev nD) (b : Ref sig .tc) (h : b ∉ hostOps3_W) : Bd7 m c (Proc.devRef .tc b) = Bd6 m c (Proc.devRef .tc b) :=
  StableHlo.after_of_writes_sub hostOps3 _ hostOps3_writes h

theorem keepR3 (c : Dev nD) (b : Ref sig .tc) (h : ∀ w, Pipeline.arrRef spec3 w ≠ b) : Bd8 m c (Proc.devRef .tc b) = Bd7 m c (Proc.devRef .tc b) :=
  Bd8_of_ne m c b h

theorem keepH4 (c : Dev nD) (b : Ref sig .tc) (h : b ∉ hostOps4_W) : Bd9 m c (Proc.devRef .tc b) = Bd8 m c (Proc.devRef .tc b) :=
  StableHlo.after_of_writes_sub hostOps4 _ hostOps4_writes h

theorem keepR4 (c : Dev nD) (b : Ref sig .tc) (h : ∀ w, Pipeline.arrRef spec4 w ≠ b) : Bd10 m c (Proc.devRef .tc b) = Bd9 m c (Proc.devRef .tc b) :=
  Bd10_of_ne m c b h

theorem keepH5 (c : Dev nD) (b : Ref sig .tc) (h : b ∉ hostOps5_W) : Bd11 m c (Proc.devRef .tc b) = Bd10 m c (Proc.devRef .tc b) :=
  StableHlo.after_of_writes_sub hostOps5 _ hostOps5_writes h

theorem keepR5 (c : Dev nD) (b : Ref sig .tc) (h : ∀ w, Pipeline.arrRef spec5 w ≠ b) : Bd12 m c (Proc.devRef .tc b) = Bd11 m c (Proc.devRef .tc b) :=
  Bd12_of_ne m c b h

theorem keepH6 (c : Dev nD) (b : Ref sig .tc) (h : b ∉ hostOps6_W) : Bd13 m c (Proc.devRef .tc b) = Bd12 m c (Proc.devRef .tc b) :=
  StableHlo.after_of_writes_sub hostOps6 _ hostOps6_writes h

theorem keepR6 (c : Dev nD) (b : Ref sig .tc) (h : ∀ w, Pipeline.arrRef spec6 w ≠ b) : Bd14 m c (Proc.devRef .tc b) = Bd13 m c (Proc.devRef .tc b) :=
  Bd14_of_ne m c b h

theorem keepIn0_arg0 (c : Dev nD) : Bd2 m c (Proc.devRef .tc main_arg0) = Bd1 m c (Proc.devRef .tc main_arg0) :=
  (Bd2_arr m c 0).trans (((dat0 (Rd1 m) c).arrAt_in 0 rfl _).trans (A_eq0 (Rd1 m) c 0))

theorem keepIn6_arg9 (c : Dev nD) : Bd14 m c (Proc.devRef .tc main_arg9) = Bd13 m c (Proc.devRef .tc main_arg9) :=
  (Bd14_arr m c 2).trans (((dat6 (Rd13 m) c).arrAt_in 2 rfl _).trans (A_eq6 (Rd13 m) c 2))

theorem keepIn6_arg11 (c : Dev nD) : Bd14 m c (Proc.devRef .tc main_arg11) = Bd13 m c (Proc.devRef .tc main_arg11) :=
  (Bd14_arr m c 4).trans (((dat6 (Rd13 m) c).arrAt_in 4 rfl _).trans (A_eq6 (Rd13 m) c 4))

-- A buffer that no host stretch writes and that is no region's array holds, at every stage, what the entry memory held.
section
variable (c : Dev nD) (b : Ref sig .tc)
variable (h0 : b ∉ hostOps0_W) (r0 : ∀ w, Pipeline.arrRef spec0 w ≠ b)
include h0 r0
theorem Bd2_keep : Bd2 m c (Proc.devRef .tc b) = m ((c : Thread nD τ).loc b) :=
  (keepR0 m c b r0).trans ((keepH0 m c b h0).trans rfl)
variable (h1 : b ∉ hostOps1_W) (r1 : ∀ w, Pipeline.arrRef spec1 w ≠ b)
include h1 r1
theorem Bd4_keep : Bd4 m c (Proc.devRef .tc b) = m ((c : Thread nD τ).loc b) :=
  (keepR1 m c b r1).trans ((keepH1 m c b h1).trans (Bd2_keep m c b h0 r0))
variable (h2 : b ∉ hostOps2_W) (r2 : ∀ w, Pipeline.arrRef spec2 w ≠ b)
include h2 r2
theorem Bd6_keep : Bd6 m c (Proc.devRef .tc b) = m ((c : Thread nD τ).loc b) :=
  (keepR2 m c b r2).trans ((keepH2 m c b h2).trans (Bd4_keep m c b h0 r0 h1 r1))
variable (h3 : b ∉ hostOps3_W) (r3 : ∀ w, Pipeline.arrRef spec3 w ≠ b)
include h3 r3
theorem Bd8_keep : Bd8 m c (Proc.devRef .tc b) = m ((c : Thread nD τ).loc b) :=
  (keepR3 m c b r3).trans ((keepH3 m c b h3).trans (Bd6_keep m c b h0 r0 h1 r1 h2 r2))
variable (h4 : b ∉ hostOps4_W) (r4 : ∀ w, Pipeline.arrRef spec4 w ≠ b)
include h4 r4
theorem Bd10_keep : Bd10 m c (Proc.devRef .tc b) = m ((c : Thread nD τ).loc b) :=
  (keepR4 m c b r4).trans ((keepH4 m c b h4).trans (Bd8_keep m c b h0 r0 h1 r1 h2 r2 h3 r3))
variable (h5 : b ∉ hostOps5_W) (r5 : ∀ w, Pipeline.arrRef spec5 w ≠ b)
include h5 r5
theorem Bd12_keep : Bd12 m c (Proc.devRef .tc b) = m ((c : Thread nD τ).loc b) :=
  (keepR5 m c b r5).trans ((keepH5 m c b h5).trans (Bd10_keep m c b h0 r0 h1 r1 h2 r2 h3 r3 h4 r4))
variable (h6 : b ∉ hostOps6_W) (r6 : ∀ w, Pipeline.arrRef spec6 w ≠ b)
include h6 r6
theorem Bd14_keep : Bd14 m c (Proc.devRef .tc b) = m ((c : Thread nD τ).loc b) :=
  (keepR6 m c b r6).trans ((keepH6 m c b h6).trans (Bd12_keep m c b h0 r0 h1 r1 h2 r2 h3 r3 h4 r4 h5 r5))
end

theorem Bd14_arg1 (c : Dev nD) : Bd14 m c (Proc.devRef .tc main_arg1) = m ((c : Thread nD τ).loc main_arg1) :=
  Bd14_keep m c _ (by decide) (by decide) (by decide) (by decide) (by decide) (by decide) (by decide) (by decide) (by decide) (by decide) (by decide) (by decide) (by decide) (by decide)

theorem Bd14_arg2 (c : Dev nD) : Bd14 m c (Proc.devRef .tc main_arg2) = m ((c : Thread nD τ).loc main_arg2) :=
  Bd14_keep m c _ (by decide) (by decide) (by decide) (by decide) (by decide) (by decide) (by decide) (by decide) (by decide) (by decide) (by decide) (by decide) (by decide) (by decide)

theorem Bd14_arg3 (c : Dev nD) : Bd14 m c (Proc.devRef .tc main_arg3) = m ((c : Thread nD τ).loc main_arg3) :=
  Bd14_keep m c _ (by decide) (by decide) (by decide) (by decide) (by decide) (by decide) (by decide) (by decide) (by decide) (by decide) (by decide) (by decide) (by decide) (by decide)

theorem Bd14_arg4 (c : Dev nD) : Bd14 m c (Proc.devRef .tc main_arg4) = m ((c : Thread nD τ).loc main_arg4) :=
  Bd14_keep m c _ (by decide) (by decide) (by decide) (by decide) (by decide) (by decide) (by decide) (by decide) (by decide) (by decide) (by decide) (by decide) (by decide) (by decide)

theorem Bd14_arg5 (c : Dev nD) : Bd14 m c (Proc.devRef .tc main_arg5) = m ((c : Thread nD τ).loc main_arg5) :=
  Bd14_keep m c _ (by decide) (by decide) (by decide) (by decide) (by decide) (by decide) (by decide) (by decide) (by decide) (by decide) (by decide) (by decide) (by decide) (by decide)

theorem Bd14_arg6 (c : Dev nD) : Bd14 m c (Proc.devRef .tc main_arg6) = m ((c : Thread nD τ).loc main_arg6) :=
  Bd14_keep m c _ (by decide) (by decide) (by decide) (by decide) (by decide) (by decide) (by decide) (by decide) (by decide) (by decide) (by decide) (by decide) (by decide) (by decide)

theorem Bd14_arg7 (c : Dev nD) : Bd14 m c (Proc.devRef .tc main_arg7) = m ((c : Thread nD τ).loc main_arg7) :=
  Bd14_keep m c _ (by decide) (by decide) (by decide) (by decide) (by decide) (by decide) (by decide) (by decide) (by decide) (by decide) (by decide) (by decide) (by decide) (by decide)

theorem Bd14_arg8 (c : Dev nD) : Bd14 m c (Proc.devRef .tc main_arg8) = m ((c : Thread nD τ).loc main_arg8) :=
  Bd14_keep m c _ (by decide) (by decide) (by decide) (by decide) (by decide) (by decide) (by decide) (by decide) (by decide) (by decide) (by decide) (by decide) (by decide) (by decide)

theorem Bd14_arg10 (c : Dev nD) : Bd14 m c (Proc.devRef .tc main_arg10) = m ((c : Thread nD τ).loc main_arg10) :=
  Bd14_keep m c _ (by decide) (by decide) (by decide) (by decide) (by decide) (by decide) (by decide) (by decide) (by decide) (by decide) (by decide) (by decide) (by decide) (by decide)

theorem Bd14_arg12 (c : Dev nD) : Bd14 m c (Proc.devRef .tc main_arg12) = m ((c : Thread nD τ).loc main_arg12) :=
  Bd14_keep m c _ (by decide) (by decide) (by decide) (by decide) (by decide) (by decide) (by decide) (by decide) (by decide) (by decide) (by decide) (by decide) (by decide) (by decide)

theorem Bd14_arg0 (c : Dev nD) : Bd14 m c (Proc.devRef .tc main_arg0) = m ((c : Thread nD τ).loc main_arg0) :=
  (keepR6 m c main_arg0 (by decide)).trans ((keepH6 m c main_arg0 (by decide)).trans ((keepR5 m c main_arg0 (by decide)).trans ((keepH5 m c main_arg0 (by decide)).trans ((keepR4 m c main_arg0 (by decide)).trans ((keepH4 m c main_arg0 (by decide)).trans ((keepR3 m c main_arg0 (by decide)).trans ((keepH3 m c main_arg0 (by decide)).trans ((keepR2 m c main_arg0 (by decide)).trans ((keepH2 m c main_arg0 (by decide)).trans ((keepR1 m c main_arg0 (by decide)).trans ((keepH1 m c main_arg0 (by decide)).trans ((keepIn0_arg0 m c).trans ((keepH0 m c main_arg0 (by decide)).trans rfl)))))))))))))

theorem Bd14_arg9 (c : Dev nD) : Bd14 m c (Proc.devRef .tc main_arg9) = m ((c : Thread nD τ).loc main_arg9) :=
  (keepIn6_arg9 m c).trans ((keepH6 m c main_arg9 (by decide)).trans (Bd12_keep m c _ (by decide) (by decide) (by decide) (by decide) (by decide) (by decide) (by decide) (by decide) (by decide) (by decide) (by decide) (by decide)))

theorem Bd14_arg11 (c : Dev nD) : Bd14 m c (Proc.devRef .tc main_arg11) = m ((c : Thread nD τ).loc main_arg11) :=
  (keepIn6_arg11 m c).trans ((keepH6 m c main_arg11 (by decide)).trans (Bd12_keep m c _ (by decide) (by decide) (by decide) (by decide) (by decide) (by decide) (by decide) (by decide) (by decide) (by decide) (by decide) (by decide)))

end Cert.Kernel.Hand

end
-- ==== Proof.K.Frame.lean ====
import proofs.«425279_j44762149159634_1_alg».proof.Proof.K.Run
import proofs.«425279_j44762149159634_1_alg».proof.Proof.K.Args

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (Bd14_arg0 m c),
     (h c _ (mem_uc main_arg1 (by decide))).trans (Bd14_arg1 m c),
     (h c _ (mem_uc main_arg2 (by decide))).trans (Bd14_arg2 m c),
     (h c _ (mem_uc main_arg3 (by decide))).trans (Bd14_arg3 m c),
     (h c _ (mem_uc main_arg4 (by decide))).trans (Bd14_arg4 m c),
     (h c _ (mem_uc main_arg5 (by decide))).trans (Bd14_arg5 m c),
     (h c _ (mem_uc main_arg6 (by decide))).trans (Bd14_arg6 m c),
     (h c _ (mem_uc main_arg7 (by decide))).trans (Bd14_arg7 m c),
     (h c _ (mem_uc main_arg8 (by decide))).trans (Bd14_arg8 m c),
     (h c _ (mem_uc main_arg9 (by decide))).trans (Bd14_arg9 m c),
     (h c _ (mem_uc main_arg10 (by decide))).trans (Bd14_arg10 m c),
     (h c _ (mem_uc main_arg11 (by decide))).trans (Bd14_arg11 m c),
     (h c _ (mem_uc main_arg12 (by decide))).trans (Bd14_arg12 m c)⟩) (run m ρ)

end Cert.Kernel.Hand

end
-- ==== Proof.KI.Reg0Runs.lean ====
import proofs.«425279_j44762149159634_1_alg».proof.Proof.Gen.KernelIdeal.Launch
import proofs.«425279_j44762149159634_1_alg».proof.Proof.Gen.KernelIdeal.Skeleton
import proofs.«425279_j44762149159634_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

abbrev cond0_0 (i : grid0.Coords) : Prop := (Scalar.cmpi .ne (Scalar.extui (Scalar.cmpi .eq (BitVec.ofNat 32 (i 0).val) 0#32)) 0#32) = 1#1

theorem hcond0_0 : ∀ t : Fin cfg0.N, cond0_0 (grid0.coords t) ↔ t.val % 20 = 0 :=
  (by decide +kernel : ∀ t : Fin grid0.N, cond0_0 (grid0.coords t) ↔ t.val % 20 = 0)

abbrev cond0_1 (i : grid0.Coords) : Prop := k0_cond2 i = 1#1

theorem hcond0_1 : ∀ t : Fin cfg0.N, cond0_1 (grid0.coords t) ↔ t.val % 20 = 19 :=
  (by decide +kernel : ∀ t : Fin grid0.N, cond0_1 (grid0.coords t) ↔ t.val % 20 = 19)

theorem liveAt0_0 : ∀ t : Fin cfg0.N, cfg0.idle 0 (grid0.coords t) = false := by decide +kernel

theorem liveAt0_1 : ∀ t : Fin cfg0.N, cfg0.idle 1 (grid0.coords t) = false := by decide +kernel

theorem liveAt0_2 : ∀ t : Fin cfg0.N, cfg0.idle 2 (grid0.coords t) = false := by decide +kernel

theorem liveAt0_3 : ∀ t : Fin cfg0.N, cfg0.idle 3 (grid0.coords t) = false := by decide +kernel

theorem liveAt0_4 : ∀ t : Fin cfg0.N, cfg0.idle 4 (grid0.coords t) = false := by decide +kernel

theorem idleAt0_5_A : ∀ t : Fin cfg0.N, cond0_0 (grid0.coords t) → ¬cond0_1 (grid0.coords t) → cfg0.idle 5 (grid0.coords t) = true := by decide +kernel

theorem noFlush0_5_A : ∀ t : Fin cfg0.N, cond0_0 (grid0.coords t) → ¬cond0_1 (grid0.coords t) → (cfg0.win 5).flush t = false := by decide +kernel

theorem idleAt0_5_B : ∀ t : Fin cfg0.N, ¬cond0_0 (grid0.coords t) → ¬cond0_1 (grid0.coords t) → cfg0.idle 5 (grid0.coords t) = true := by decide +kernel

theorem noFlush0_5_B : ∀ t : Fin cfg0.N, ¬cond0_0 (grid0.coords t) → ¬cond0_1 (grid0.coords t) → (cfg0.win 5).flush t = false := by decide +kernel

theorem liveAt0_5_C : ∀ t : Fin cfg0.N, ¬cond0_0 (grid0.coords t) → cond0_1 (grid0.coords t) → cfg0.idle 5 (grid0.coords t) = false := by decide +kernel

abbrev VO0_4 : View sig .tc .vmem S5000x128 .f32 := (Memref.whole cc0_stg4_0 : Memref sig .tc .vmem S5000x128 .f32).view
abbrev VO0_5 : View sig .tc .vmem S2x128 .f32 := (Memref.whole cc0_stg5_0 : Memref sig .tc .vmem S2x128 .f32).view

abbrev ms0_0 (t : Fin cfg0.N) : Memref sig .tc .vmem S5000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S5000x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x128 .f32 := win0_5.stage (cfg0.slots t 5)
abbrev hs0_5 (t : Fin cfg0.N) : (ms0_5 t).IsWhole := hstage0_5 ((cfg0.slots t 5).cast nbuf0_5)

abbrev scM0_0 : Memref sig .tc .vmem S1x128 .f32 := Memref.whole cc0_scratch0
abbrev scM0_1 : Memref sig .tc .vmem S1x128 .f32 := Memref.whole cc0_scratch1

abbrev VS0_0 : View sig .tc .vmem S1x128 .f32 := scM0_0.view
abbrev VS0_1 : View sig .tc .vmem S1x128 .f32 := scM0_1.view

theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

end Cert.KernelIdeal.Hand

end
-- ==== Proof.KI.Reg0RunA.lean ====
import proofs.«425279_j44762149159634_1_alg».proof.Proof.KI.Reg0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun0_A (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S2x128 .f32) (harg6 : arg6.IsWhole) (arg7 : Memref sig .tc .vmem S1x128 .f32) (harg7 : arg7.IsWhole) (arg8 : Memref sig .tc .vmem S1x128 .f32) (harg8 : arg8.IsWhole) (hc0 : cond0_0 i) (hc1 : ¬cond0_1 i)
    (x0 : Vec F S5000x128 .f32) (x1 : Vec F S5000x128 .f32) (x2 : Vec F S128x128 .f32) (x3 : Vec F S1x128 .f32) :
    Σ' (L4 : List (View.Piece (Elt F) S5000x128 .f32)) (L5 : List (View.Piece (Elt F) S2x128 .f32)) (LS0 : List (View.Piece (Elt F) S1x128 .f32)), { LS1 : List (View.Piece (Elt F) S1x128 .f32) //
      ∀ (xi5 : Vec F S2x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xi5
            ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4) ∗ owns (c : Thread nD τ) arg6 fullShare xi5
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__gin_a_kernel i arg1 harg1 arg2 harg2 arg3 harg3 arg4 harg4 arg5 harg5 arg6 harg6 arg7 harg7 arg8 harg8) K } := by
  refine ⟨?_, [], ?_, ?_, fun xi5 E K => ?run⟩
  case run =>
    simp only [cc0__gin_a_kernel_eq_skeleton]; unfold cc0__gin_a_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [HS0]; · iexists _; iexact HS0
    iexists _; iexact HS1

end Cert.KernelIdeal.Hand

end
-- ==== Proof.KI.Reg0RunB.lean ====
import proofs.«425279_j44762149159634_1_alg».proof.Proof.KI.Reg0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun0_B (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S2x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : ¬cond0_1 i)
    (x0 : Vec F S5000x128 .f32) (x1 : Vec F S5000x128 .f32) (x2 : Vec F S128x128 .f32) (x3 : Vec F S1x128 .f32) (xs0 : Vec F S1x128 .f32) (xs1 : Vec F S1x128 .f32) :
    Σ' (L4 : List (View.Piece (Elt F) S5000x128 .f32)) (L5 : List (View.Piece (Elt F) S2x128 .f32)) (LS0 : List (View.Piece (Elt F) S1x128 .f32)), { LS1 : List (View.Piece (Elt F) S1x128 .f32) //
      ∀ (xi5 : Vec F S2x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xi5
            ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4) ∗ owns (c : Thread nD τ) arg6 fullShare xi5
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__gin_a_kernel i arg1 harg1 arg2 harg2 arg3 harg3 arg4 harg4 arg5 harg5 arg6 harg6 arg7 harg7 arg8 harg8) K } := by
  refine ⟨?_, [], ?_, ?_, fun xi5 E K => ?run⟩
  case run =>
    simp only [cc0__gin_a_kernel_eq_skeleton]; unfold cc0__gin_a_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [HS0]; · iexists _; iexact HS0
    iexists _; iexact HS1

end Cert.KernelIdeal.Hand

end
-- ==== Proof.KI.Reg0RunC.lean ====
import proofs.«425279_j44762149159634_1_alg».proof.Proof.KI.Reg0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun0_C (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S2x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i)
    (x0 : Vec F S5000x128 .f32) (x1 : Vec F S5000x128 .f32) (x2 : Vec F S128x128 .f32) (x3 : Vec F S1x128 .f32) (xs0 : Vec F S1x128 .f32) (xs1 : Vec F S1x128 .f32) :
    Σ' (L4 : List (View.Piece (Elt F) S5000x128 .f32)) (L5 : List (View.Piece (Elt F) S2x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d)
            ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__gin_a_kernel i arg1 harg1 arg2 harg2 arg3 harg3 arg4 harg4 arg5 harg5 arg6 harg6 arg7 harg7 arg8 harg8) K } := by
  refine ⟨?_, ?_, ?_, ?_, fun E K => ?run⟩
  case run =>
    simp only [cc0__gin_a_kernel_eq_skeleton]; unfold cc0__gin_a_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [HS0]; · iexists _; iexact HS0
    iexists _; iexact HS1

end Cert.KernelIdeal.Hand

end
-- ==== Proof.KI.Reg0.lean ====
import proofs.«425279_j44762149159634_1_alg».proof.Proof.KI.Reg0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S2x128 .f32) (harg6 : arg6.IsWhole) (arg7 : Memref sig .tc .vmem S1x128 .f32) (harg7 : arg7.IsWhole) (arg8 : Memref sig .tc .vmem S1x128 .f32) (harg8 : arg8.IsWhole)
include c i arg1 harg1 arg2 harg2 arg3 harg3 arg4 harg4 arg5 harg5 arg6 harg6 arg7 harg7 arg8 harg8

section
variable (hc0 : cond0_0 i) (hc1 : ¬cond0_1 i) (x0 : Vec F S5000x128 .f32) (x1 : Vec F S5000x128 .f32) (x2 : Vec F S128x128 .f32) (x3 : Vec F S1x128 .f32)
include hc0 hc1 x0 x1 x2 x3

theorem cover0_A_4 (y : S5000x128.Idx) :
    ∃ pc ∈ (kernelRun0_A c i arg1 harg1 arg2 harg2 arg3 harg3 arg4 harg4 arg5 harg5 arg6 harg6 arg7 harg7 arg8 harg8 hc0 hc1 x0 x1 x2 x3).1, y ∈ pc.1.set :=
  View.cover_of_tiledL (kernelRun0_A c i arg1 harg1 arg2 harg2 arg3 harg3 arg4 harg4 arg5 harg5 arg6 harg6 arg7 harg7 arg8 harg8 hc0 hc1 x0 x1 x2 x3).1 S5000x128.size (by sl_kernel_rfl) y

def out0_A_4 : Vec F S5000x128 .f32 :=
  VO0_4.read (Elt F) (VO0_4.writes (Elt F) VO0_4.junk (kernelRun0_A c i arg1 harg1 arg2 harg2 arg3 harg3 arg4 harg4 arg5 harg5 arg6 harg6 arg7 harg7 arg8 harg8 hc0 hc1 x0 x1 x2 x3).1)

def out0_A_5 : Vec F S2x128 .f32 :=
  VO0_5.read (Elt F) (VO0_5.writes (Elt F) VO0_5.junk (kernelRun0_A c i arg1 harg1 arg2 harg2 arg3 harg3 arg4 harg4 arg5 harg5 arg6 harg6 arg7 harg7 arg8 harg8 hc0 hc1 x0 x1 x2 x3).2.1)

theorem scover0_A_0 (y : S1x128.Idx) :
    ∃ pc ∈ (kernelRun0_A c i arg1 harg1 arg2 harg2 arg3 harg3 arg4 harg4 arg5 harg5 arg6 harg6 arg7 harg7 arg8 harg8 hc0 hc1 x0 x1 x2 x3).2.2.1, y ∈ pc.1.set :=
  View.cover_of_tiledL (kernelRun0_A c i arg1 harg1 arg2 harg2 arg3 harg3 arg4 harg4 arg5 harg5 arg6 harg6 arg7 harg7 arg8 harg8 hc0 hc1 x0 x1 x2 x3).2.2.1 S1x128.size (by sl_kernel_rfl) y

def sout0_A_0 : Vec F S1x128 .f32 :=
  VS0_0.read (Elt F) (VS0_0.writes (Elt F) VS0_0.junk (kernelRun0_A c i arg1 harg1 arg2 harg2 arg3 harg3 arg4 harg4 arg5 harg5 arg6 harg6 arg7 harg7 arg8 harg8 hc0 hc1 x0 x1 x2 x3).2.2.1)

theorem scover0_A_1 (y : S1x128.Idx) :
    ∃ pc ∈ (kernelRun0_A c i arg1 harg1 arg2 harg2 arg3 harg3 arg4 harg4 arg5 harg5 arg6 harg6 arg7 harg7 arg8 harg8 hc0 hc1 x0 x1 x2 x3).2.2.2.1, y ∈ pc.1.set :=
  View.cover_of_tiledL (kernelRun0_A c i arg1 harg1 arg2 harg2 arg3 harg3 arg4 harg4 arg5 harg5 arg6 harg6 arg7 harg7 arg8 harg8 hc0 hc1 x0 x1 x2 x3).2.2.2.1 S1x128.size (by sl_kernel_rfl) y

def sout0_A_1 : Vec F S1x128 .f32 :=
  VS0_1.read (Elt F) (VS0_1.writes (Elt F) VS0_1.junk (kernelRun0_A c i arg1 harg1 arg2 harg2 arg3 harg3 arg4 harg4 arg5 harg5 arg6 harg6 arg7 harg7 arg8 harg8 hc0 hc1 x0 x1 x2 x3).2.2.2.1)

def outs0_A : Vec F S5000x128 .f32 × Vec F S2x128 .f32 × Vec F S1x128 .f32 × Vec F S1x128 .f32 :=
  (out0_A_4 c i arg1 harg1 arg2 harg2 arg3 harg3 arg4 harg4 arg5 harg5 arg6 harg6 arg7 harg7 arg8 harg8 hc0 hc1 x0 x1 x2 x3, out0_A_5 c i arg1 harg1 arg2 harg2 arg3 harg3 arg4 harg4 arg5 harg5 arg6 harg6 arg7 harg7 arg8 harg8 hc0 hc1 x0 x1 x2 x3, sout0_A_0 c i arg1 harg1 arg2 harg2 arg3 harg3 arg4 harg4 arg5 harg5 arg6 harg6 arg7 harg7 arg8 harg8 hc0 hc1 x0 x1 x2 x3, sout0_A_1 c i arg1 harg1 arg2 harg2 arg3 harg3 arg4 harg4 arg5 harg5 arg6 harg6 arg7 harg7 arg8 harg8 hc0 hc1 x0 x1 x2 x3)

end

section
variable (hc0 : ¬cond0_0 i) (hc1 : ¬cond0_1 i) (x0 : Vec F S5000x128 .f32) (x1 : Vec F S5000x128 .f32) (x2 : Vec F S128x128 .f32) (x3 : Vec F S1x128 .f32) (xs0 : Vec F S1x128 .f32) (xs1 : Vec F S1x128 .f32)
include hc0 hc1 x0 x1 x2 x3 xs0 xs1

theorem cover0_B_4 (y : S5000x128.Idx) :
    ∃ pc ∈ (kernelRun0_B c i arg1 harg1 arg2 harg2 arg3 harg3 arg4 harg4 arg5 harg5 arg6 harg6 arg7 harg7 arg8 harg8 hc0 hc1 x0 x1 x2 x3 xs0 xs1).1, y ∈ pc.1.set :=
  View.cover_of_tiledL (kernelRun0_B c i arg1 harg1 arg2 harg2 arg3 harg3 arg4 harg4 arg5 harg5 arg6 harg6 arg7 harg7 arg8 harg8 hc0 hc1 x0 x1 x2 x3 xs0 xs1).1 S5000x128.size (by sl_kernel_rfl) y

def out0_B_4 : Vec F S5000x128 .f32 :=
  VO0_4.read (Elt F) (VO0_4.writes (Elt F) VO0_4.junk (kernelRun0_B c i arg1 harg1 arg2 harg2 arg3 harg3 arg4 harg4 arg5 harg5 arg6 harg6 arg7 harg7 arg8 harg8 hc0 hc1 x0 x1 x2 x3 xs0 xs1).1)

def out0_B_5 : Vec F S2x128 .f32 :=
  VO0_5.read (Elt F) (VO0_5.writes (Elt F) VO0_5.junk (kernelRun0_B c i arg1 harg1 arg2 harg2 arg3 harg3 arg4 harg4 arg5 harg5 arg6 harg6 arg7 harg7 arg8 harg8 hc0 hc1 x0 x1 x2 x3 xs0 xs1).2.1)

theorem scover0_B_0 (y : S1x128.Idx) :
    ∃ pc ∈ (kernelRun0_B c i arg1 harg1 arg2 harg2 arg3 harg3 arg4 harg4 arg5 harg5 arg6 harg6 arg7 harg7 arg8 harg8 hc0 hc1 x0 x1 x2 x3 xs0 xs1).2.2.1, y ∈ pc.1.set :=
  View.cover_of_tiledL (kernelRun0_B c i arg1 harg1 arg2 harg2 arg3 harg3 arg4 harg4 arg5 harg5 arg6 harg6 arg7 harg7 arg8 harg8 hc0 hc1 x0 x1 x2 x3 xs0 xs1).2.2.1 S1x128.size (by sl_kernel_rfl) y

def sout0_B_0 : Vec F S1x128 .f32 :=
  VS0_0.read (Elt F) (VS0_0.writes (Elt F) VS0_0.junk (kernelRun0_B c i arg1 harg1 arg2 harg2 arg3 harg3 arg4 harg4 arg5 harg5 arg6 harg6 arg7 harg7 arg8 harg8 hc0 hc1 x0 x1 x2 x3 xs0 xs1).2.2.1)

theorem scover0_B_1 (y : S1x128.Idx) :
    ∃ pc ∈ (kernelRun0_B c i arg1 harg1 arg2 harg2 arg3 harg3 arg4 harg4 arg5 harg5 arg6 harg6 arg7 harg7 arg8 harg8 hc0 hc1 x0 x1 x2 x3 xs0 xs1).2.2.2.1, y ∈ pc.1.set :=
  View.cover_of_tiledL (kernelRun0_B c i arg1 harg1 arg2 harg2 arg3 harg3 arg4 harg4 arg5 harg5 arg6 harg6 arg7 harg7 arg8 harg8 hc0 hc1 x0 x1 x2 x3 xs0 xs1).2.2.2.1 S1x128.size (by sl_kernel_rfl) y

def sout0_B_1 : Vec F S1x128 .f32 :=
  VS0_1.read (Elt F) (VS0_1.writes (Elt F) VS0_1.junk (kernelRun0_B c i arg1 harg1 arg2 harg2 arg3 harg3 arg4 harg4 arg5 harg5 arg6 harg6 arg7 harg7 arg8 harg8 hc0 hc1 x0 x1 x2 x3 xs0 xs1).2.2.2.1)

def outs0_B : Vec F S5000x128 .f32 × Vec F S2x128 .f32 × Vec F S1x128 .f32 × Vec F S1x128 .f32 :=
  (out0_B_4 c i arg1 harg1 arg2 harg2 arg3 harg3 arg4 harg4 arg5 harg5 arg6 harg6 arg7 harg7 arg8 harg8 hc0 hc1 x0 x1 x2 x3 xs0 xs1, out0_B_5 c i arg1 harg1 arg2 harg2 arg3 harg3 arg4 harg4 arg5 harg5 arg6 harg6 arg7 harg7 arg8 harg8 hc0 hc1 x0 x1 x2 x3 xs0 xs1, sout0_B_0 c i arg1 harg1 arg2 harg2 arg3 harg3 arg4 harg4 arg5 harg5 arg6 harg6 arg7 harg7 arg8 harg8 hc0 hc1 x0 x1 x2 x3 xs0 xs1, sout0_B_1 c i arg1 harg1 arg2 harg2 arg3 harg3 arg4 harg4 arg5 harg5 arg6 harg6 arg7 harg7 arg8 harg8 hc0 hc1 x0 x1 x2 x3 xs0 xs1)

end

section
variable (hc0 : ¬cond0_0 i) (hc1 : cond0_1 i) (x0 : Vec F S5000x128 .f32) (x1 : Vec F S5000x128 .f32) (x2 : Vec F S128x128 .f32) (x3 : Vec F S1x128 .f32) (xs0 : Vec F S1x128 .f32) (xs1 : Vec F S1x128 .f32)
include hc0 hc1 x0 x1 x2 x3 xs0 xs1

theorem cover0_C_4 (y : S5000x128.Idx) :
    ∃ pc ∈ (kernelRun0_C c i arg1 harg1 arg2 harg2 arg3 harg3 arg4 harg4 arg5 harg5 arg6 harg6 arg7 harg7 arg8 harg8 hc0 hc1 x0 x1 x2 x3 xs0 xs1).1, y ∈ pc.1.set :=
  View.cover_of_tiledL (kernelRun0_C c i arg1 harg1 arg2 harg2 arg3 harg3 arg4 harg4 arg5 harg5 arg6 harg6 arg7 harg7 arg8 harg8 hc0 hc1 x0 x1 x2 x3 xs0 xs1).1 S5000x128.size (by sl_kernel_rfl) y

def out0_C_4 : Vec F S5000x128 .f32 :=
  VO0_4.read (Elt F) (VO0_4.writes (Elt F) VO0_4.junk (kernelRun0_C c i arg1 harg1 arg2 harg2 arg3 harg3 arg4 harg4 arg5 harg5 arg6 harg6 arg7 harg7 arg8 harg8 hc0 hc1 x0 x1 x2 x3 xs0 xs1).1)

theorem cover0_C_5 (y : S2x128.Idx) :
    ∃ pc ∈ (kernelRun0_C c i arg1 harg1 arg2 harg2 arg3 harg3 arg4 harg4 arg5 harg5 arg6 harg6 arg7 harg7 arg8 harg8 hc0 hc1 x0 x1 x2 x3 xs0 xs1).2.1, y ∈ pc.1.set :=
  View.cover_of_tiledL (kernelRun0_C c i arg1 harg1 arg2 harg2 arg3 harg3 arg4 harg4 arg5 harg5 arg6 harg6 arg7 harg7 arg8 harg8 hc0 hc1 x0 x1 x2 x3 xs0 xs1).2.1 S1x128.size (by sl_kernel_rfl) y

def out0_C_5 : Vec F S2x128 .f32 :=
  VO0_5.read (Elt F) (VO0_5.writes (Elt F) VO0_5.junk (kernelRun0_C c i arg1 harg1 arg2 harg2 arg3 harg3 arg4 harg4 arg5 harg5 arg6 harg6 arg7 harg7 arg8 harg8 hc0 hc1 x0 x1 x2 x3 xs0 xs1).2.1)

theorem scover0_C_0 (y : S1x128.Idx) :
    ∃ pc ∈ (kernelRun0_C c i arg1 harg1 arg2 harg2 arg3 harg3 arg4 harg4 arg5 harg5 arg6 harg6 arg7 harg7 arg8 harg8 hc0 hc1 x0 x1 x2 x3 xs0 xs1).2.2.1, y ∈ pc.1.set :=
  View.cover_of_tiledL (kernelRun0_C c i arg1 harg1 arg2 harg2 arg3 harg3 arg4 harg4 arg5 harg5 arg6 harg6 arg7 harg7 arg8 harg8 hc0 hc1 x0 x1 x2 x3 xs0 xs1).2.2.1 S1x128.size (by sl_kernel_rfl) y

def sout0_C_0 : Vec F S1x128 .f32 :=
  VS0_0.read (Elt F) (VS0_0.writes (Elt F) VS0_0.junk (kernelRun0_C c i arg1 harg1 arg2 harg2 arg3 harg3 arg4 harg4 arg5 harg5 arg6 harg6 arg7 harg7 arg8 harg8 hc0 hc1 x0 x1 x2 x3 xs0 xs1).2.2.1)

theorem scover0_C_1 (y : S1x128.Idx) :
    ∃ pc ∈ (kernelRun0_C c i arg1 harg1 arg2 harg2 arg3 harg3 arg4 harg4 arg5 harg5 arg6 harg6 arg7 harg7 arg8 harg8 hc0 hc1 x0 x1 x2 x3 xs0 xs1).2.2.2.1, y ∈ pc.1.set :=
  View.cover_of_tiledL (kernelRun0_C c i arg1 harg1 arg2 harg2 arg3 harg3 arg4 harg4 arg5 harg5 arg6 harg6 arg7 harg7 arg8 harg8 hc0 hc1 x0 x1 x2 x3 xs0 xs1).2.2.2.1 S1x128.size (by sl_kernel_rfl) y

def sout0_C_1 : Vec F S1x128 .f32 :=
  VS0_1.read (Elt F) (VS0_1.writes (Elt F) VS0_1.junk (kernelRun0_C c i arg1 harg1 arg2 harg2 arg3 harg3 arg4 harg4 arg5 harg5 arg6 harg6 arg7 harg7 arg8 harg8 hc0 hc1 x0 x1 x2 x3 xs0 xs1).2.2.2.1)

def outs0_C : Vec F S5000x128 .f32 × Vec F S2x128 .f32 × Vec F S1x128 .f32 × Vec F S1x128 .f32 :=
  (out0_C_4 c i arg1 harg1 arg2 harg2 arg3 harg3 arg4 harg4 arg5 harg5 arg6 harg6 arg7 harg7 arg8 harg8 hc0 hc1 x0 x1 x2 x3 xs0 xs1, out0_C_5 c i arg1 harg1 arg2 harg2 arg3 harg3 arg4 harg4 arg5 harg5 arg6 harg6 arg7 harg7 arg8 harg8 hc0 hc1 x0 x1 x2 x3 xs0 xs1, sout0_C_0 c i arg1 harg1 arg2 harg2 arg3 harg3 arg4 harg4 arg5 harg5 arg6 harg6 arg7 harg7 arg8 harg8 hc0 hc1 x0 x1 x2 x3 xs0 xs1, sout0_C_1 c i arg1 harg1 arg2 harg2 arg3 harg3 arg4 harg4 arg5 harg5 arg6 harg6 arg7 harg7 arg8 harg8 hc0 hc1 x0 x1 x2 x3 xs0 xs1)

end

end

def outsAt0 (c : Dev nD) : (n : ℕ) → n < cfg0.N → Vec F S5000x128 .f32 × Vec F S2x128 .f32 × Vec F S1x128 .f32 × Vec F S1x128 .f32
  | 0, hn => outs0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩)
  | n + 1, hn =>
    if h0 : (n + 1) % 20 = 0 then
      if h1 : (n + 1) % 20 = 19 then
        False.elim (by have hN : n + 1 < 20 := lt_of_lt_of_eq hn (show cfg0.N = 20 from N_0); omega)
      else
        outs0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩)
    else
      if h1 : (n + 1) % 20 = 19 then
        outs0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2
      else
        outs0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2

theorem outsAt0_A (c : Dev nD) (t : Fin cfg0.N) (h0 : t.val % 20 = 0) (h1 : ¬t.val % 20 = 19) :
    outsAt0 V c t.val t.isLt = outs0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) := by
  obtain ⟨n, hn⟩ := t
  cases n with
  | zero => exact rfl
  | succ n => exact (dif_pos h0).trans ((dif_neg h1).trans rfl)

theorem outsAt0_B (c : Dev nD) (t : Fin cfg0.N) (h0 : ¬t.val % 20 = 0) (h1 : ¬t.val % 20 = 19) :
    outsAt0 V c t.val t.isLt = outs0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 20 = 0) (h1 : t.val % 20 = 19) :
    outsAt0 V c t.val t.isLt = outs0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_pos h1).trans rfl)

def PhiS0 (c : Dev nD) : (n : ℕ) → n ≤ cfg0.N → sProp 𝕄
  | 0, _ => Pipeline.ΦA spec0 c
  | n + 1, hn => iprop(iprop(iprop(owns (c : Thread nD τ) scM0_0 fullShare ((outsAt0 V c n hn).2.2.1) ∗ owns (c : Thread nD τ) scM0_1 fullShare ((outsAt0 V c n hn).2.2.2)) ∗ Pipeline.scopedRestBut (Ix := Unit) (Name := ℕ) (U := UR sig nD τ) (Lvl := ℕ) (Val := Elt F) spec0 c [cc0_scratch0, cc0_scratch1]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0_0 fullShare ((outsAt0 V c n hn).2.2.1) ∗ owns (c : Thread nD τ) scM0_1 fullShare ((outsAt0 V c n hn).2.2.2)) ∗ Pipeline.scopedRestBut (Ix := Unit) (Name := ℕ) (U := UR sig nD τ) (Lvl := ℕ) (Val := Elt F) spec0 c [cc0_scratch0, cc0_scratch1]) ∗ (∃ r, prngReg c r)) := rfl

theorem PhiS0_pos (c : Dev nD) (n : ℕ) (h : n ≤ cfg0.N) (hz : n ≠ 0) :
    PhiS0 V c n h = iprop(iprop(iprop(owns (c : Thread nD τ) scM0_0 fullShare ((outsAt0 V c (n - 1) (by omega)).2.2.1) ∗ owns (c : Thread nD τ) scM0_1 fullShare ((outsAt0 V c (n - 1) (by omega)).2.2.2)) ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 20 := lt_of_lt_of_eq t.isLt (show cfg0.N = 20 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  by_cases h0 : t.val % 20 = 0
  · by_cases h1 : t.val % 20 = 19
    · exfalso; omega
    ·
      rw [Dat.leavesExact_idle (dat0 V c) 5 t (idleAt0_5_A t ((hcond0_0 t).mpr h0) (fun h => h1 ((hcond0_1 t).mp h))) (noFlush0_5_A t ((hcond0_0 t).mpr h0) (fun h => h1 ((hcond0_1 t).mp h)))]
      rw [outsAt0_A V c t h0 h1]
      unfold outs0_A out0_A_4 sout0_A_0 sout0_A_1; (try dsimp only)
      by_cases hz : t.val = 0
      ·
        rw [PhiS0_castSucc V c t, PhiS0_zero V c _ _ hz, PhiA0_eq]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ ((hcond0_0 t).mpr h0) (fun h => h1 ((hcond0_1 t).mp h)) (iblk0 V c 0 t) (iblk0 V c 1 t) (iblk0 V c 2 t) (iblk0 V c 3 t)).2.2.2.2 _ Set.univ _)
        isplitl [H0]; · iexact H0
        isplitl [H1]; · iexact H1
        isplitl [H2]; · iexact H2
        isplitl [H3]; · iexact H3
        isplitl [H4]; · iexists _; iexact H4
        isplitl [H5]; · iexact H5
        isplitl [HS0]; · iexact HS0
        isplitl [HS1]; · iexact HS1
        iintro ⟨H0, H1, H2, H3, ⟨%e4, H4⟩, H5, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _)
              unfold owns; iexists _; isplitr
              swap; · iexact HS1
              ipureintro; exact View.read_writes_of_cover _ _ _ _ _ (scover0_A_1 c _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_A_4 c _ _ _ _ _ _ _ _ _ _ _ _ _ _ _ _ _ _ _ _ _ _ _)
        iexists _; iexact H5
      · exfalso; omega
  · by_cases h1 : t.val % 20 = 19
    ·
      rw [show (dat0 V c).leavesExact 5 t = owns (c : Thread nD τ) (ms0_5 t) fullShare ((dat0 V c).after 5 t) from by
        unfold Dat.leavesExact; rw [liveAt0_5_C t (fun h => h0 ((hcond0_0 t).mp h)) ((hcond0_1 t).mpr h1)], after0_5]
      rw [outsAt0_C V c t h0 h1]
      unfold outs0_C out0_C_4 out0_C_5 sout0_C_0 sout0_C_1; (try dsimp only)
      by_cases hz : t.val = 0
      · exfalso; omega
      ·
        rw [PhiS0_castSucc V c t, PhiS0_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) _ _).2.2.2.2 Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [HS0]; · iexact HS0
        isplitl [HS1]; · iexact HS1
        iintro ⟨H0, H1, H2, H3, ⟨%e4, H4⟩, ⟨%e5, H5⟩, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover0_C_0 c _ _ _ _ _ _ _ _ _ _ _ _ _ _ _ _ _ _ _ _ _ _ _ _ _)
              unfold owns; iexists _; isplitr
              swap; · iexact HS1
              ipureintro; exact View.read_writes_of_cover _ _ _ _ _ (scover0_C_1 c _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_C_4 c _ _ _ _ _ _ _ _ _ _ _ _ _ _ _ _ _ _ _ _ _ _ _ _ _)
        unfold owns; iexists _; isplitr
        swap; · iexact H5
        ipureintro; exact View.read_writes_of_cover _ _ _ _ _ (cover0_C_5 c _ _ _ _ _ _ _ _ _ _ _ _ _ _ _ _ _ _ _ _ _ _ _ _ _)
    ·
      rw [Dat.leavesExact_idle (dat0 V c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      rw [outsAt0_B V c t h0 h1]
      unfold outs0_B out0_B_4 sout0_B_0 sout0_B_1; (try dsimp only)
      by_cases hz : t.val = 0
      · exfalso; omega
      ·
        rw [PhiS0_castSucc V c t, PhiS0_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _ _).2.2.2.2 _ Set.univ _)
        isplitl [H0]; · iexact H0
        isplitl [H1]; · iexact H1
        isplitl [H2]; · iexact H2
        isplitl [H3]; · iexact H3
        isplitl [H4]; · iexists _; iexact H4
        isplitl [H5]; · iexact H5
        isplitl [HS0]; · iexact HS0
        isplitl [HS1]; · iexact HS1
        iintro ⟨H0, H1, H2, H3, ⟨%e4, H4⟩, H5, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover0_B_0 c _ _ _ _ _ _ _ _ _ _ _ _ _ _ _ _ _ _ _ _ _ _ _ _ _)
              unfold owns; iexists _; isplitr
              swap; · iexact HS1
              ipureintro; exact View.read_writes_of_cover _ _ _ _ _ (scover0_B_1 c _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_B_4 c _ _ _ _ _ _ _ _ _ _ _ _ _ _ _ _ _ _ _ _ _ _ _ _ _)
        iexists _; iexact H5

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

theorem hout0 (c : Dev nD) : (dat0 V c).Φ (Fin.last cfg0.N) ⊢ Pipeline.ΦA spec0 c :=
  Phi_out0 V c _ (by rw [Fin.val_last]; have : cfg0.N = 20 := N_0; omega)

end Cert.KernelIdeal.Hand

end
-- ==== Proof.KI.Reg1Runs.lean ====
import proofs.«425279_j44762149159634_1_alg».proof.Proof.Gen.KernelIdeal.Launch
import proofs.«425279_j44762149159634_1_alg».proof.Proof.Gen.KernelIdeal.Skeleton
import proofs.«425279_j44762149159634_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

abbrev VO1_7 : View sig .tc .vmem S5000x128 .f32 := (Memref.whole cc1_stg7_0 : Memref sig .tc .vmem S5000x128 .f32).view

abbrev ms1_0 (t : Fin cfg1.N) : Memref sig .tc .vmem S5000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S128x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S5000x128 .f32 := win1_7.stage (cfg1.slots t 7)
abbrev hs1_7 (t : Fin cfg1.N) : (ms1_7 t).IsWhole := hstage1_7 ((cfg1.slots t 7).cast nbuf1_7)

end Cert.KernelIdeal.Hand

end
-- ==== Proof.KI.Reg1RunA.lean ====
import proofs.«425279_j44762149159634_1_alg».proof.Proof.KI.Reg1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in

noncomputable def kernelRun1_A (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole)
    (x0 : Vec F S5000x128 .f32) (x1 : Vec F S1x128 .f32) (x2 : Vec F S1x128 .f32) (x3 : Vec F S1x128 .f32) (x4 : Vec F S1x128 .f32) (x5 : Vec F S128x128 .f32) (x6 : Vec F S1x128 .f32) :
    { L7 : List (View.Piece (Elt F) S5000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7)) -∗ K ⟨⟩))
          ⊢ wp frame (wpE (defs₀ (F := F)) Variants.none c none) E (cc1__gin_b_kernel i arg1 harg1 arg2 harg2 arg3 harg3 arg4 harg4 arg5 harg5 arg6 harg6 arg7 harg7 arg8 harg8) K } := by
  refine ⟨?_, fun E K => ?run⟩
  case run =>
    simp only [cc1__gin_b_kernel_eq_skeleton]; unfold cc1__gin_b_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; iexact H7

end Cert.KernelIdeal.Hand

end
-- ==== Proof.KI.Reg1.lean ====
import proofs.«425279_j44762149159634_1_alg».proof.Proof.KI.Reg1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (x0 : Vec F S5000x128 .f32) (x1 : Vec F S1x128 .f32) (x2 : Vec F S1x128 .f32) (x3 : Vec F S1x128 .f32) (x4 : Vec F S1x128 .f32) (x5 : Vec F S128x128 .f32) (x6 : Vec F S1x128 .f32)
include c i arg1 harg1 arg2 harg2 arg3 harg3 arg4 harg4 arg5 harg5 arg6 harg6 arg7 harg7 arg8 harg8 x0 x1 x2 x3 x4 x5 x6

theorem cover1_A_7 (y : S5000x128.Idx) :
    ∃ pc ∈ (kernelRun1_A c i arg1 harg1 arg2 harg2 arg3 harg3 arg4 harg4 arg5 harg5 arg6 harg6 arg7 harg7 arg8 harg8 x0 x1 x2 x3 x4 x5 x6).1, y ∈ pc.1.set :=
  View.cover_of_tiledL (kernelRun1_A c i arg1 harg1 arg2 harg2 arg3 harg3 arg4 harg4 arg5 harg5 arg6 harg6 arg7 harg7 arg8 harg8 x0 x1 x2 x3 x4 x5 x6).1 S5000x128.size (by sl_kernel_rfl) y

def out1_A_7 : Vec F S5000x128 .f32 :=
  VO1_7.read (Elt F) (VO1_7.writes (Elt F) VO1_7.junk (kernelRun1_A c i arg1 harg1 arg2 harg2 arg3 harg3 arg4 harg4 arg5 harg5 arg6 harg6 arg7 harg7 arg8 harg8 x0 x1 x2 x3 x4 x5 x6).1)

end

def out1At (c : Dev nD) (t : Fin cfg1.N) : Vec F S5000x128 .f32 :=
  out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (iblk1 V c 0 t) (iblk1 V c 1 t) (iblk1 V c 2 t) (iblk1 V c 3 t) (iblk1 V c 4 t) (iblk1 V c 5 t) (iblk1 V c 6 t)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1At V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1At V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 4800000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  unfold out1At out1_A_7
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun1_A c (grid1.coords t) _ _ _ _ _ _ _ _ _ _ _ _ _ _ _ _ (iblk1 V c 0 t) (iblk1 V c 1 t) (iblk1 V c 2 t) (iblk1 V c 3 t) (iblk1 V c 4 t) (iblk1 V c 5 t) (iblk1 V c 6 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_of_cover _ _ _ _ _ (cover1_A_7 c _ _ _ _ _ _ _ _ _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := .rfl

theorem hout1 (c : Dev nD) : (dat1 V c).Φ (Fin.last cfg1.N) ⊢ Pipeline.ΦA spec1 c := .rfl

end Cert.KernelIdeal.Hand

end
-- ==== Proof.KI.Reg2Runs.lean ====
import proofs.«425279_j44762149159634_1_alg».proof.Proof.Gen.KernelIdeal.Launch
import proofs.«425279_j44762149159634_1_alg».proof.Proof.Gen.KernelIdeal.Skeleton
import proofs.«425279_j44762149159634_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

abbrev cond2_0 (i : grid2.Coords) : Prop := (Scalar.cmpi .ne (Scalar.extui (Scalar.cmpi .eq (BitVec.ofNat 32 (i 0).val) 0#32)) 0#32) = 1#1

theorem hcond2_0 : ∀ t : Fin cfg2.N, cond2_0 (grid2.coords t) ↔ t.val % 20 = 0 :=
  (by decide +kernel : ∀ t : Fin grid2.N, cond2_0 (grid2.coords t) ↔ t.val % 20 = 0)

abbrev cond2_1 (i : grid2.Coords) : Prop := k2_cond2 i = 1#1

theorem hcond2_1 : ∀ t : Fin cfg2.N, cond2_1 (grid2.coords t) ↔ t.val % 20 = 19 :=
  (by decide +kernel : ∀ t : Fin grid2.N, cond2_1 (grid2.coords t) ↔ t.val % 20 = 19)

theorem liveAt2_0 : ∀ t : Fin cfg2.N, cfg2.idle 0 (grid2.coords t) = false := by decide +kernel

theorem liveAt2_1 : ∀ t : Fin cfg2.N, cfg2.idle 1 (grid2.coords t) = false := by decide +kernel

theorem liveAt2_2 : ∀ t : Fin cfg2.N, cfg2.idle 2 (grid2.coords t) = false := by decide +kernel

theorem liveAt2_3 : ∀ t : Fin cfg2.N, cfg2.idle 3 (grid2.coords t) = false := by decide +kernel

theorem liveAt2_4 : ∀ t : Fin cfg2.N, cfg2.idle 4 (grid2.coords t) = false := by decide +kernel

theorem idleAt2_5_A : ∀ t : Fin cfg2.N, cond2_0 (grid2.coords t) → ¬cond2_1 (grid2.coords t) → cfg2.idle 5 (grid2.coords t) = true := by decide +kernel

theorem noFlush2_5_A : ∀ t : Fin cfg2.N, cond2_0 (grid2.coords t) → ¬cond2_1 (grid2.coords t) → (cfg2.win 5).flush t = false := by decide +kernel

theorem idleAt2_5_B : ∀ t : Fin cfg2.N, ¬cond2_0 (grid2.coords t) → ¬cond2_1 (grid2.coords t) → cfg2.idle 5 (grid2.coords t) = true := by decide +kernel

theorem noFlush2_5_B : ∀ t : Fin cfg2.N, ¬cond2_0 (grid2.coords t) → ¬cond2_1 (grid2.coords t) → (cfg2.win 5).flush t = false := by decide +kernel

theorem liveAt2_5_C : ∀ t : Fin cfg2.N, ¬cond2_0 (grid2.coords t) → cond2_1 (grid2.coords t) → cfg2.idle 5 (grid2.coords t) = false := by decide +kernel

abbrev VO2_4 : View sig .tc .vmem S5000x128 .f32 := (Memref.whole cc2_stg4_0 : Memref sig .tc .vmem S5000x128 .f32).view
abbrev VO2_5 : View sig .tc .vmem S2x128 .f32 := (Memref.whole cc2_stg5_0 : Memref sig .tc .vmem S2x128 .f32).view

abbrev ms2_0 (t : Fin cfg2.N) : Memref sig .tc .vmem S5000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S5000x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S128x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S5000x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S2x128 .f32 := win2_5.stage (cfg2.slots t 5)
abbrev hs2_5 (t : Fin cfg2.N) : (ms2_5 t).IsWhole := hstage2_5 ((cfg2.slots t 5).cast nbuf2_5)

abbrev scM2_0 : Memref sig .tc .vmem S1x128 .f32 := Memref.whole cc2_scratch0
abbrev scM2_1 : Memref sig .tc .vmem S1x128 .f32 := Memref.whole cc2_scratch1

abbrev VS2_0 : View sig .tc .vmem S1x128 .f32 := scM2_0.view
abbrev VS2_1 : View sig .tc .vmem S1x128 .f32 := scM2_1.view

theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

end Cert.KernelIdeal.Hand

end
-- ==== Proof.KI.Reg2RunA.lean ====
import proofs.«425279_j44762149159634_1_alg».proof.Proof.KI.Reg2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun2_A (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S2x128 .f32) (harg6 : arg6.IsWhole) (arg7 : Memref sig .tc .vmem S1x128 .f32) (harg7 : arg7.IsWhole) (arg8 : Memref sig .tc .vmem S1x128 .f32) (harg8 : arg8.IsWhole) (hc0 : cond2_0 i) (hc1 : ¬cond2_1 i)
    (x0 : Vec F S5000x128 .f32) (x1 : Vec F S5000x128 .f32) (x2 : Vec F S128x128 .f32) (x3 : Vec F S1x128 .f32) :
    Σ' (L4 : List (View.Piece (Elt F) S5000x128 .f32)) (L5 : List (View.Piece (Elt F) S2x128 .f32)) (LS0 : List (View.Piece (Elt F) S1x128 .f32)), { LS1 : List (View.Piece (Elt F) S1x128 .f32) //
      ∀ (xi5 : Vec F S2x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xi5
            ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4) ∗ owns (c : Thread nD τ) arg6 fullShare xi5
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc2__gin_a_kernel i arg1 harg1 arg2 harg2 arg3 harg3 arg4 harg4 arg5 harg5 arg6 harg6 arg7 harg7 arg8 harg8) K } := by
  refine ⟨?_, [], ?_, ?_, fun xi5 E K => ?run⟩
  case run =>
    simp only [cc2__gin_a_kernel_eq_skeleton]; unfold cc2__gin_a_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [HS0]; · iexists _; iexact HS0
    iexists _; iexact HS1

end Cert.KernelIdeal.Hand

end
-- ==== Proof.KI.Reg2RunB.lean ====
import proofs.«425279_j44762149159634_1_alg».proof.Proof.KI.Reg2RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun2_B (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S2x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : ¬cond2_1 i)
    (x0 : Vec F S5000x128 .f32) (x1 : Vec F S5000x128 .f32) (x2 : Vec F S128x128 .f32) (x3 : Vec F S1x128 .f32) (xs0 : Vec F S1x128 .f32) (xs1 : Vec F S1x128 .f32) :
    Σ' (L4 : List (View.Piece (Elt F) S5000x128 .f32)) (L5 : List (View.Piece (Elt F) S2x128 .f32)) (LS0 : List (View.Piece (Elt F) S1x128 .f32)), { LS1 : List (View.Piece (Elt F) S1x128 .f32) //
      ∀ (xi5 : Vec F S2x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xi5
            ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4) ∗ owns (c : Thread nD τ) arg6 fullShare xi5
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc2__gin_a_kernel i arg1 harg1 arg2 harg2 arg3 harg3 arg4 harg4 arg5 harg5 arg6 harg6 arg7 harg7 arg8 harg8) K } := by
  refine ⟨?_, [], ?_, ?_, fun xi5 E K => ?run⟩
  case run =>
    simp only [cc2__gin_a_kernel_eq_skeleton]; unfold cc2__gin_a_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [HS0]; · iexists _; iexact HS0
    iexists _; iexact HS1

end Cert.KernelIdeal.Hand

end
-- ==== Proof.KI.Reg2RunC.lean ====
import proofs.«425279_j44762149159634_1_alg».proof.Proof.KI.Reg2RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun2_C (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S2x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i)
    (x0 : Vec F S5000x128 .f32) (x1 : Vec F S5000x128 .f32) (x2 : Vec F S128x128 .f32) (x3 : Vec F S1x128 .f32) (xs0 : Vec F S1x128 .f32) (xs1 : Vec F S1x128 .f32) :
    Σ' (L4 : List (View.Piece (Elt F) S5000x128 .f32)) (L5 : List (View.Piece (Elt F) S2x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d)
            ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc2__gin_a_kernel i arg1 harg1 arg2 harg2 arg3 harg3 arg4 harg4 arg5 harg5 arg6 harg6 arg7 harg7 arg8 harg8) K } := by
  refine ⟨?_, ?_, ?_, ?_, fun E K => ?run⟩
  case run =>
    simp only [cc2__gin_a_kernel_eq_skeleton]; unfold cc2__gin_a_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [HS0]; · iexists _; iexact HS0
    iexists _; iexact HS1

end Cert.KernelIdeal.Hand

end
-- ==== Proof.KI.Reg2.lean ====
import proofs.«425279_j44762149159634_1_alg».proof.Proof.KI.Reg2RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S2x128 .f32) (harg6 : arg6.IsWhole) (arg7 : Memref sig .tc .vmem S1x128 .f32) (harg7 : arg7.IsWhole) (arg8 : Memref sig .tc .vmem S1x128 .f32) (harg8 : arg8.IsWhole)
include c i arg1 harg1 arg2 harg2 arg3 harg3 arg4 harg4 arg5 harg5 arg6 harg6 arg7 harg7 arg8 harg8

section
variable (hc0 : cond2_0 i) (hc1 : ¬cond2_1 i) (x0 : Vec F S5000x128 .f32) (x1 : Vec F S5000x128 .f32) (x2 : Vec F S128x128 .f32) (x3 : Vec F S1x128 .f32)
include hc0 hc1 x0 x1 x2 x3

theorem cover2_A_4 (y : S5000x128.Idx) :
    ∃ pc ∈ (kernelRun2_A c i arg1 harg1 arg2 harg2 arg3 harg3 arg4 harg4 arg5 harg5 arg6 harg6 arg7 harg7 arg8 harg8 hc0 hc1 x0 x1 x2 x3).1, y ∈ pc.1.set :=
  View.cover_of_tiledL (kernelRun2_A c i arg1 harg1 arg2 harg2 arg3 harg3 arg4 harg4 arg5 harg5 arg6 harg6 arg7 harg7 arg8 harg8 hc0 hc1 x0 x1 x2 x3).1 S5000x128.size (by sl_kernel_rfl) y

def out2_A_4 : Vec F S5000x128 .f32 :=
  VO2_4.read (Elt F) (VO2_4.writes (Elt F) VO2_4.junk (kernelRun2_A c i arg1 harg1 arg2 harg2 arg3 harg3 arg4 harg4 arg5 harg5 arg6 harg6 arg7 harg7 arg8 harg8 hc0 hc1 x0 x1 x2 x3).1)

def out2_A_5 : Vec F S2x128 .f32 :=
  VO2_5.read (Elt F) (VO2_5.writes (Elt F) VO2_5.junk (kernelRun2_A c i arg1 harg1 arg2 harg2 arg3 harg3 arg4 harg4 arg5 harg5 arg6 harg6 arg7 harg7 arg8 harg8 hc0 hc1 x0 x1 x2 x3).2.1)

theorem scover2_A_0 (y : S1x128.Idx) :
    ∃ pc ∈ (kernelRun2_A c i arg1 harg1 arg2 harg2 arg3 harg3 arg4 harg4 arg5 harg5 arg6 harg6 arg7 harg7 arg8 harg8 hc0 hc1 x0 x1 x2 x3).2.2.1, y ∈ pc.1.set :=
  View.cover_of_tiledL (kernelRun2_A c i arg1 harg1 arg2 harg2 arg3 harg3 arg4 harg4 arg5 harg5 arg6 harg6 arg7 harg7 arg8 harg8 hc0 hc1 x0 x1 x2 x3).2.2.1 S1x128.size (by sl_kernel_rfl) y

def sout2_A_0 : Vec F S1x128 .f32 :=
  VS2_0.read (Elt F) (VS2_0.writes (Elt F) VS2_0.junk (kernelRun2_A c i arg1 harg1 arg2 harg2 arg3 harg3 arg4 harg4 arg5 harg5 arg6 harg6 arg7 harg7 arg8 harg8 hc0 hc1 x0 x1 x2 x3).2.2.1)

theorem scover2_A_1 (y : S1x128.Idx) :
    ∃ pc ∈ (kernelRun2_A c i arg1 harg1 arg2 harg2 arg3 harg3 arg4 harg4 arg5 harg5 arg6 harg6 arg7 harg7 arg8 harg8 hc0 hc1 x0 x1 x2 x3).2.2.2.1, y ∈ pc.1.set :=
  View.cover_of_tiledL (kernelRun2_A c i arg1 harg1 arg2 harg2 arg3 harg3 arg4 harg4 arg5 harg5 arg6 harg6 arg7 harg7 arg8 harg8 hc0 hc1 x0 x1 x2 x3).2.2.2.1 S1x128.size (by sl_kernel_rfl) y

def sout2_A_1 : Vec F S1x128 .f32 :=
  VS2_1.read (Elt F) (VS2_1.writes (Elt F) VS2_1.junk (kernelRun2_A c i arg1 harg1 arg2 harg2 arg3 harg3 arg4 harg4 arg5 harg5 arg6 harg6 arg7 harg7 arg8 harg8 hc0 hc1 x0 x1 x2 x3).2.2.2.1)

def outs2_A : Vec F S5000x128 .f32 × Vec F S2x128 .f32 × Vec F S1x128 .f32 × Vec F S1x128 .f32 :=
  (out2_A_4 c i arg1 harg1 arg2 harg2 arg3 harg3 arg4 harg4 arg5 harg5 arg6 harg6 arg7 harg7 arg8 harg8 hc0 hc1 x0 x1 x2 x3, out2_A_5 c i arg1 harg1 arg2 harg2 arg3 harg3 arg4 harg4 arg5 harg5 arg6 harg6 arg7 harg7 arg8 harg8 hc0 hc1 x0 x1 x2 x3, sout2_A_0 c i arg1 harg1 arg2 harg2 arg3 harg3 arg4 harg4 arg5 harg5 arg6 harg6 arg7 harg7 arg8 harg8 hc0 hc1 x0 x1 x2 x3, sout2_A_1 c i arg1 harg1 arg2 harg2 arg3 harg3 arg4 harg4 arg5 harg5 arg6 harg6 arg7 harg7 arg8 harg8 hc0 hc1 x0 x1 x2 x3)

end

section
variable (hc0 : ¬cond2_0 i) (hc1 : ¬cond2_1 i) (x0 : Vec F S5000x128 .f32) (x1 : Vec F S5000x128 .f32) (x2 : Vec F S128x128 .f32) (x3 : Vec F S1x128 .f32) (xs0 : Vec F S1x128 .f32) (xs1 : Vec F S1x128 .f32)
include hc0 hc1 x0 x1 x2 x3 xs0 xs1

theorem cover2_B_4 (y : S5000x128.Idx) :
    ∃ pc ∈ (kernelRun2_B c i arg1 harg1 arg2 harg2 arg3 harg3 arg4 harg4 arg5 harg5 arg6 harg6 arg7 harg7 arg8 harg8 hc0 hc1 x0 x1 x2 x3 xs0 xs1).1, y ∈ pc.1.set :=
  View.cover_of_tiledL (kernelRun2_B c i arg1 harg1 arg2 harg2 arg3 harg3 arg4 harg4 arg5 harg5 arg6 harg6 arg7 harg7 arg8 harg8 hc0 hc1 x0 x1 x2 x3 xs0 xs1).1 S5000x128.size (by sl_kernel_rfl) y

def out2_B_4 : Vec F S5000x128 .f32 :=
  VO2_4.read (Elt F) (VO2_4.writes (Elt F) VO2_4.junk (kernelRun2_B c i arg1 harg1 arg2 harg2 arg3 harg3 arg4 harg4 arg5 harg5 arg6 harg6 arg7 harg7 arg8 harg8 hc0 hc1 x0 x1 x2 x3 xs0 xs1).1)

def out2_B_5 : Vec F S2x128 .f32 :=
  VO2_5.read (Elt F) (VO2_5.writes (Elt F) VO2_5.junk (kernelRun2_B c i arg1 harg1 arg2 harg2 arg3 harg3 arg4 harg4 arg5 harg5 arg6 harg6 arg7 harg7 arg8 harg8 hc0 hc1 x0 x1 x2 x3 xs0 xs1).2.1)

theorem scover2_B_0 (y : S1x128.Idx) :
    ∃ pc ∈ (kernelRun2_B c i arg1 harg1 arg2 harg2 arg3 harg3 arg4 harg4 arg5 harg5 arg6 harg6 arg7 harg7 arg8 harg8 hc0 hc1 x0 x1 x2 x3 xs0 xs1).2.2.1, y ∈ pc.1.set :=
  View.cover_of_tiledL (kernelRun2_B c i arg1 harg1 arg2 harg2 arg3 harg3 arg4 harg4 arg5 harg5 arg6 harg6 arg7 harg7 arg8 harg8 hc0 hc1 x0 x1 x2 x3 xs0 xs1).2.2.1 S1x128.size (by sl_kernel_rfl) y

def sout2_B_0 : Vec F S1x128 .f32 :=
  VS2_0.read (Elt F) (VS2_0.writes (Elt F) VS2_0.junk (kernelRun2_B c i arg1 harg1 arg2 harg2 arg3 harg3 arg4 harg4 arg5 harg5 arg6 harg6 arg7 harg7 arg8 harg8 hc0 hc1 x0 x1 x2 x3 xs0 xs1).2.2.1)

theorem scover2_B_1 (y : S1x128.Idx) :
    ∃ pc ∈ (kernelRun2_B c i arg1 harg1 arg2 harg2 arg3 harg3 arg4 harg4 arg5 harg5 arg6 harg6 arg7 harg7 arg8 harg8 hc0 hc1 x0 x1 x2 x3 xs0 xs1).2.2.2.1, y ∈ pc.1.set :=
  View.cover_of_tiledL (kernelRun2_B c i arg1 harg1 arg2 harg2 arg3 harg3 arg4 harg4 arg5 harg5 arg6 harg6 arg7 harg7 arg8 harg8 hc0 hc1 x0 x1 x2 x3 xs0 xs1).2.2.2.1 S1x128.size (by sl_kernel_rfl) y

def sout2_B_1 : Vec F S1x128 .f32 :=
  VS2_1.read (Elt F) (VS2_1.writes (Elt F) VS2_1.junk (kernelRun2_B c i arg1 harg1 arg2 harg2 arg3 harg3 arg4 harg4 arg5 harg5 arg6 harg6 arg7 harg7 arg8 harg8 hc0 hc1 x0 x1 x2 x3 xs0 xs1).2.2.2.1)

def outs2_B : Vec F S5000x128 .f32 × Vec F S2x128 .f32 × Vec F S1x128 .f32 × Vec F S1x128 .f32 :=
  (out2_B_4 c i arg1 harg1 arg2 harg2 arg3 harg3 arg4 harg4 arg5 harg5 arg6 harg6 arg7 harg7 arg8 harg8 hc0 hc1 x0 x1 x2 x3 xs0 xs1, out2_B_5 c i arg1 harg1 arg2 harg2 arg3 harg3 arg4 harg4 arg5 harg5 arg6 harg6 arg7 harg7 arg8 harg8 hc0 hc1 x0 x1 x2 x3 xs0 xs1, sout2_B_0 c i arg1 harg1 arg2 harg2 arg3 harg3 arg4 harg4 arg5 harg5 arg6 harg6 arg7 harg7 arg8 harg8 hc0 hc1 x0 x1 x2 x3 xs0 xs1, sout2_B_1 c i arg1 harg1 arg2 harg2 arg3 harg3 arg4 harg4 arg5 harg5 arg6 harg6 arg7 harg7 arg8 harg8 hc0 hc1 x0 x1 x2 x3 xs0 xs1)

end

section
variable (hc0 : ¬cond2_0 i) (hc1 : cond2_1 i) (x0 : Vec F S5000x128 .f32) (x1 : Vec F S5000x128 .f32) (x2 : Vec F S128x128 .f32) (x3 : Vec F S1x128 .f32) (xs0 : Vec F S1x128 .f32) (xs1 : Vec F S1x128 .f32)
include hc0 hc1 x0 x1 x2 x3 xs0 xs1

theorem cover2_C_4 (y : S5000x128.Idx) :
    ∃ pc ∈ (kernelRun2_C c i arg1 harg1 arg2 harg2 arg3 harg3 arg4 harg4 arg5 harg5 arg6 harg6 arg7 harg7 arg8 harg8 hc0 hc1 x0 x1 x2 x3 xs0 xs1).1, y ∈ pc.1.set :=
  View.cover_of_tiledL (kernelRun2_C c i arg1 harg1 arg2 harg2 arg3 harg3 arg4 harg4 arg5 harg5 arg6 harg6 arg7 harg7 arg8 harg8 hc0 hc1 x0 x1 x2 x3 xs0 xs1).1 S5000x128.size (by sl_kernel_rfl) y

def out2_C_4 : Vec F S5000x128 .f32 :=
  VO2_4.read (Elt F) (VO2_4.writes (Elt F) VO2_4.junk (kernelRun2_C c i arg1 harg1 arg2 harg2 arg3 harg3 arg4 harg4 arg5 harg5 arg6 harg6 arg7 harg7 arg8 harg8 hc0 hc1 x0 x1 x2 x3 xs0 xs1).1)

theorem cover2_C_5 (y : S2x128.Idx) :
    ∃ pc ∈ (kernelRun2_C c i arg1 harg1 arg2 harg2 arg3 harg3 arg4 harg4 arg5 harg5 arg6 harg6 arg7 harg7 arg8 harg8 hc0 hc1 x0 x1 x2 x3 xs0 xs1).2.1, y ∈ pc.1.set :=
  View.cover_of_tiledL (kernelRun2_C c i arg1 harg1 arg2 harg2 arg3 harg3 arg4 harg4 arg5 harg5 arg6 harg6 arg7 harg7 arg8 harg8 hc0 hc1 x0 x1 x2 x3 xs0 xs1).2.1 S1x128.size (by sl_kernel_rfl) y

def out2_C_5 : Vec F S2x128 .f32 :=
  VO2_5.read (Elt F) (VO2_5.writes (Elt F) VO2_5.junk (kernelRun2_C c i arg1 harg1 arg2 harg2 arg3 harg3 arg4 harg4 arg5 harg5 arg6 harg6 arg7 harg7 arg8 harg8 hc0 hc1 x0 x1 x2 x3 xs0 xs1).2.1)

theorem scover2_C_0 (y : S1x128.Idx) :
    ∃ pc ∈ (kernelRun2_C c i arg1 harg1 arg2 harg2 arg3 harg3 arg4 harg4 arg5 harg5 arg6 harg6 arg7 harg7 arg8 harg8 hc0 hc1 x0 x1 x2 x3 xs0 xs1).2.2.1, y ∈ pc.1.set :=
  View.cover_of_tiledL (kernelRun2_C c i arg1 harg1 arg2 harg2 arg3 harg3 arg4 harg4 arg5 harg5 arg6 harg6 arg7 harg7 arg8 harg8 hc0 hc1 x0 x1 x2 x3 xs0 xs1).2.2.1 S1x128.size (by sl_kernel_rfl) y

def sout2_C_0 : Vec F S1x128 .f32 :=
  VS2_0.read (Elt F) (VS2_0.writes (Elt F) VS2_0.junk (kernelRun2_C c i arg1 harg1 arg2 harg2 arg3 harg3 arg4 harg4 arg5 harg5 arg6 harg6 arg7 harg7 arg8 harg8 hc0 hc1 x0 x1 x2 x3 xs0 xs1).2.2.1)

theorem scover2_C_1 (y : S1x128.Idx) :
    ∃ pc ∈ (kernelRun2_C c i arg1 harg1 arg2 harg2 arg3 harg3 arg4 harg4 arg5 harg5 arg6 harg6 arg7 harg7 arg8 harg8 hc0 hc1 x0 x1 x2 x3 xs0 xs1).2.2.2.1, y ∈ pc.1.set :=
  View.cover_of_tiledL (kernelRun2_C c i arg1 harg1 arg2 harg2 arg3 harg3 arg4 harg4 arg5 harg5 arg6 harg6 arg7 harg7 arg8 harg8 hc0 hc1 x0 x1 x2 x3 xs0 xs1).2.2.2.1 S1x128.size (by sl_kernel_rfl) y

def sout2_C_1 : Vec F S1x128 .f32 :=
  VS2_1.read (Elt F) (VS2_1.writes (Elt F) VS2_1.junk (kernelRun2_C c i arg1 harg1 arg2 harg2 arg3 harg3 arg4 harg4 arg5 harg5 arg6 harg6 arg7 harg7 arg8 harg8 hc0 hc1 x0 x1 x2 x3 xs0 xs1).2.2.2.1)

def outs2_C : Vec F S5000x128 .f32 × Vec F S2x128 .f32 × Vec F S1x128 .f32 × Vec F S1x128 .f32 :=
  (out2_C_4 c i arg1 harg1 arg2 harg2 arg3 harg3 arg4 harg4 arg5 harg5 arg6 harg6 arg7 harg7 arg8 harg8 hc0 hc1 x0 x1 x2 x3 xs0 xs1, out2_C_5 c i arg1 harg1 arg2 harg2 arg3 harg3 arg4 harg4 arg5 harg5 arg6 harg6 arg7 harg7 arg8 harg8 hc0 hc1 x0 x1 x2 x3 xs0 xs1, sout2_C_0 c i arg1 harg1 arg2 harg2 arg3 harg3 arg4 harg4 arg5 harg5 arg6 harg6 arg7 harg7 arg8 harg8 hc0 hc1 x0 x1 x2 x3 xs0 xs1, sout2_C_1 c i arg1 harg1 arg2 harg2 arg3 harg3 arg4 harg4 arg5 harg5 arg6 harg6 arg7 harg7 arg8 harg8 hc0 hc1 x0 x1 x2 x3 xs0 xs1)

end

end

def outsAt2 (c : Dev nD) : (n : ℕ) → n < cfg2.N → Vec F S5000x128 .f32 × Vec F S2x128 .f32 × Vec F S1x128 .f32 × Vec F S1x128 .f32
  | 0, hn => outs2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩)
  | n + 1, hn =>
    if h0 : (n + 1) % 20 = 0 then
      if h1 : (n + 1) % 20 = 19 then
        False.elim (by have hN : n + 1 < 20 := lt_of_lt_of_eq hn (show cfg2.N = 20 from N_2); omega)
      else
        outs2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩)
    else
      if h1 : (n + 1) % 20 = 19 then
        outs2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2.1 (outsAt2 c n (Nat.lt_of_succ_lt hn)).2.2.2
      else
        outs2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2.1 (outsAt2 c n (Nat.lt_of_succ_lt hn)).2.2.2

theorem outsAt2_A (c : Dev nD) (t : Fin cfg2.N) (h0 : t.val % 20 = 0) (h1 : ¬t.val % 20 = 19) :
    outsAt2 V c t.val t.isLt = outs2_A c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) := by
  obtain ⟨n, hn⟩ := t
  cases n with
  | zero => exact rfl
  | succ n => exact (dif_pos h0).trans ((dif_neg h1).trans rfl)

theorem outsAt2_B (c : Dev nD) (t : Fin cfg2.N) (h0 : ¬t.val % 20 = 0) (h1 : ¬t.val % 20 = 19) :
    outsAt2 V c t.val t.isLt = outs2_B c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.2.1 (outsAt2 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 20 = 0) (h1 : t.val % 20 = 19) :
    outsAt2 V c t.val t.isLt = outs2_C c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2.1 (outsAt2 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_pos h1).trans rfl)

def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2.2.1) ∗ owns (c : Thread nD τ) scM2_1 fullShare ((outsAt2 V c n hn).2.2.2)) ∗ Pipeline.scopedRestBut (Ix := Unit) (Name := ℕ) (U := UR sig nD τ) (Lvl := ℕ) (Val := Elt F) spec2 c [cc2_scratch0, cc2_scratch1]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare ((outsAt2 V c n hn).2.2.1) ∗ owns (c : Thread nD τ) scM2_1 fullShare ((outsAt2 V c n hn).2.2.2)) ∗ Pipeline.scopedRestBut (Ix := Unit) (Name := ℕ) (U := UR sig nD τ) (Lvl := ℕ) (Val := Elt F) spec2 c [cc2_scratch0, cc2_scratch1]) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2.2.1) ∗ owns (c : Thread nD τ) scM2_1 fullShare ((outsAt2 V c (n - 1) (by omega)).2.2.2)) ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
    | ⟨5, _⟩ => (outsAt2 V c t.val t.isLt).2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]
theorem after2_5 (c : Dev nD) (t : Fin cfg2.N) : (dat2 V c).after 5 t = (outsAt2 V c t.val t.isLt).2.1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4800000 in

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  have hN : t.val < 20 := lt_of_lt_of_eq t.isLt (show cfg2.N = 20 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  by_cases h0 : t.val % 20 = 0
  · by_cases h1 : t.val % 20 = 19
    · exfalso; omega
    ·
      rw [Dat.leavesExact_idle (dat2 V c) 5 t (idleAt2_5_A t ((hcond2_0 t).mpr h0) (fun h => h1 ((hcond2_1 t).mp h))) (noFlush2_5_A t ((hcond2_0 t).mpr h0) (fun h => h1 ((hcond2_1 t).mp h)))]
      rw [outsAt2_A V c t h0 h1]
      unfold outs2_A out2_A_4 sout2_A_0 sout2_A_1; (try dsimp only)
      by_cases hz : t.val = 0
      ·
        rw [PhiS2_castSucc V c t, PhiS2_zero V c _ _ hz, PhiA2_eq]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
        iapply ((kernelRun2_A c (grid2.coords t) _ _ _ _ _ _ _ _ _ _ _ _ _ _ _ _ ((hcond2_0 t).mpr h0) (fun h => h1 ((hcond2_1 t).mp h)) (iblk2 V c 0 t) (iblk2 V c 1 t) (iblk2 V c 2 t) (iblk2 V c 3 t)).2.2.2.2 _ Set.univ _)
        isplitl [H0]; · iexact H0
        isplitl [H1]; · iexact H1
        isplitl [H2]; · iexact H2
        isplitl [H3]; · iexact H3
        isplitl [H4]; · iexists _; iexact H4
        isplitl [H5]; · iexact H5
        isplitl [HS0]; · iexact HS0
        isplitl [HS1]; · iexact HS1
        iintro ⟨H0, H1, H2, H3, ⟨%e4, H4⟩, H5, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover2_A_0 c _ _ _ _ _ _ _ _ _ _ _ _ _ _ _ _ _ _ _ _ _ _ _)
              unfold owns; iexists _; isplitr
              swap; · iexact HS1
              ipureintro; exact View.read_writes_of_cover _ _ _ _ _ (scover2_A_1 c _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover2_A_4 c _ _ _ _ _ _ _ _ _ _ _ _ _ _ _ _ _ _ _ _ _ _ _)
        iexists _; iexact H5
      · exfalso; omega
  · by_cases h1 : t.val % 20 = 19
    ·
      rw [show (dat2 V c).leavesExact 5 t = owns (c : Thread nD τ) (ms2_5 t) fullShare ((dat2 V c).after 5 t) from by
        unfold Dat.leavesExact; rw [liveAt2_5_C t (fun h => h0 ((hcond2_0 t).mp h)) ((hcond2_1 t).mpr h1)], after2_5]
      rw [outsAt2_C V c t h0 h1]
      unfold outs2_C out2_C_4 out2_C_5 sout2_C_0 sout2_C_1; (try dsimp only)
      by_cases hz : t.val = 0
      · exfalso; omega
      ·
        rw [PhiS2_castSucc V c t, PhiS2_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
        iapply ((kernelRun2_C c (grid2.coords t) _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) _ _).2.2.2.2 Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [HS0]; · iexact HS0
        isplitl [HS1]; · iexact HS1
        iintro ⟨H0, H1, H2, H3, ⟨%e4, H4⟩, ⟨%e5, H5⟩, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover2_C_0 c _ _ _ _ _ _ _ _ _ _ _ _ _ _ _ _ _ _ _ _ _ _ _ _ _)
              unfold owns; iexists _; isplitr
              swap; · iexact HS1
              ipureintro; exact View.read_writes_of_cover _ _ _ _ _ (scover2_C_1 c _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover2_C_4 c _ _ _ _ _ _ _ _ _ _ _ _ _ _ _ _ _ _ _ _ _ _ _ _ _)
        unfold owns; iexists _; isplitr
        swap; · iexact H5
        ipureintro; exact View.read_writes_of_cover _ _ _ _ _ (cover2_C_5 c _ _ _ _ _ _ _ _ _ _ _ _ _ _ _ _ _ _ _ _ _ _ _ _ _)
    ·
      rw [Dat.leavesExact_idle (dat2 V c) 5 t (idleAt2_5_B t (fun h => h0 ((hcond2_0 t).mp h)) (fun h => h1 ((hcond2_1 t).mp h))) (noFlush2_5_B t (fun h => h0 ((hcond2_0 t).mp h)) (fun h => h1 ((hcond2_1 t).mp h)))]
      rw [outsAt2_B V c t h0 h1]
      unfold outs2_B out2_B_4 sout2_B_0 sout2_B_1; (try dsimp only)
      by_cases hz : t.val = 0
      · exfalso; omega
      ·
        rw [PhiS2_castSucc V c t, PhiS2_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
        iapply ((kernelRun2_B c (grid2.coords t) _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) _ _).2.2.2.2 _ Set.univ _)
        isplitl [H0]; · iexact H0
        isplitl [H1]; · iexact H1
        isplitl [H2]; · iexact H2
        isplitl [H3]; · iexact H3
        isplitl [H4]; · iexists _; iexact H4
        isplitl [H5]; · iexact H5
        isplitl [HS0]; · iexact HS0
        isplitl [HS1]; · iexact HS1
        iintro ⟨H0, H1, H2, H3, ⟨%e4, H4⟩, H5, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover2_B_0 c _ _ _ _ _ _ _ _ _ _ _ _ _ _ _ _ _ _ _ _ _ _ _ _ _)
              unfold owns; iexists _; isplitr
              swap; · iexact HS1
              ipureintro; exact View.read_writes_of_cover _ _ _ _ _ (scover2_B_1 c _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover2_B_4 c _ _ _ _ _ _ _ _ _ _ _ _ _ _ _ _ _ _ _ _ _ _ _ _ _)
        iexists _; iexact H5

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

theorem hout2 (c : Dev nD) : (dat2 V c).Φ (Fin.last cfg2.N) ⊢ Pipeline.ΦA spec2 c :=
  Phi_out2 V c _ (by rw [Fin.val_last]; have : cfg2.N = 20 := N_2; omega)

end Cert.KernelIdeal.Hand

end
-- ==== Proof.KI.Reg3Runs.lean ====
import proofs.«425279_j44762149159634_1_alg».proof.Proof.Gen.KernelIdeal.Launch
import proofs.«425279_j44762149159634_1_alg».proof.Proof.Gen.KernelIdeal.Skeleton
import proofs.«425279_j44762149159634_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

abbrev VO3_7 : View sig .tc .vmem S5000x128 .f32 := (Memref.whole cc3_stg7_0 : Memref sig .tc .vmem S5000x128 .f32).view

abbrev ms3_0 (t : Fin cfg3.N) : Memref sig .tc .vmem S5000x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x128 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x128 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x128 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S128x128 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S1x128 .f32 := win3_6.stage (cfg3.slots t 6)
abbrev hs3_6 (t : Fin cfg3.N) : (ms3_6 t).IsWhole := hstage3_6 ((cfg3.slots t 6).cast nbuf3_6)
abbrev ms3_7 (t : Fin cfg3.N) : Memref sig .tc .vmem S5000x128 .f32 := win3_7.stage (cfg3.slots t 7)
abbrev hs3_7 (t : Fin cfg3.N) : (ms3_7 t).IsWhole := hstage3_7 ((cfg3.slots t 7).cast nbuf3_7)

end Cert.KernelIdeal.Hand

end
-- ==== Proof.KI.Reg3RunA.lean ====
import proofs.«425279_j44762149159634_1_alg».proof.Proof.KI.Reg3Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in

noncomputable def kernelRun3_A (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole)
    (x0 : Vec F S5000x128 .f32) (x1 : Vec F S1x128 .f32) (x2 : Vec F S1x128 .f32) (x3 : Vec F S1x128 .f32) (x4 : Vec F S1x128 .f32) (x5 : Vec F S128x128 .f32) (x6 : Vec F S1x128 .f32) :
    { L7 : List (View.Piece (Elt F) S5000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7)) -∗ K ⟨⟩))
          ⊢ wp frame (wpE (defs₀ (F := F)) Variants.none c none) E (cc3__gin_b_kernel i arg1 harg1 arg2 harg2 arg3 harg3 arg4 harg4 arg5 harg5 arg6 harg6 arg7 harg7 arg8 harg8) K } := by
  refine ⟨?_, fun E K => ?run⟩
  case run =>
    simp only [cc3__gin_b_kernel_eq_skeleton]; unfold cc3__gin_b_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; iexact H7

end Cert.KernelIdeal.Hand

end
-- ==== Proof.KI.Reg3.lean ====
import proofs.«425279_j44762149159634_1_alg».proof.Proof.KI.Reg3RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (x0 : Vec F S5000x128 .f32) (x1 : Vec F S1x128 .f32) (x2 : Vec F S1x128 .f32) (x3 : Vec F S1x128 .f32) (x4 : Vec F S1x128 .f32) (x5 : Vec F S128x128 .f32) (x6 : Vec F S1x128 .f32)
include c i arg1 harg1 arg2 harg2 arg3 harg3 arg4 harg4 arg5 harg5 arg6 harg6 arg7 harg7 arg8 harg8 x0 x1 x2 x3 x4 x5 x6

theorem cover3_A_7 (y : S5000x128.Idx) :
    ∃ pc ∈ (kernelRun3_A c i arg1 harg1 arg2 harg2 arg3 harg3 arg4 harg4 arg5 harg5 arg6 harg6 arg7 harg7 arg8 harg8 x0 x1 x2 x3 x4 x5 x6).1, y ∈ pc.1.set :=
  View.cover_of_tiledL (kernelRun3_A c i arg1 harg1 arg2 harg2 arg3 harg3 arg4 harg4 arg5 harg5 arg6 harg6 arg7 harg7 arg8 harg8 x0 x1 x2 x3 x4 x5 x6).1 S5000x128.size (by sl_kernel_rfl) y

def out3_A_7 : Vec F S5000x128 .f32 :=
  VO3_7.read (Elt F) (VO3_7.writes (Elt F) VO3_7.junk (kernelRun3_A c i arg1 harg1 arg2 harg2 arg3 harg3 arg4 harg4 arg5 harg5 arg6 harg6 arg7 harg7 arg8 harg8 x0 x1 x2 x3 x4 x5 x6).1)

end

def out3At (c : Dev nD) (t : Fin cfg3.N) : Vec F S5000x128 .f32 :=
  out3_A_7 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (iblk3 V c 0 t) (iblk3 V c 1 t) (iblk3 V c 2 t) (iblk3 V c 3 t) (iblk3 V c 4 t) (iblk3 V c 5 t) (iblk3 V c 6 t)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3At V c t
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = out3At V c t := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

set_option maxHeartbeats 4800000 in

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  unfold out3At out3_A_7
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun3_A c (grid3.coords t) _ _ _ _ _ _ _ _ _ _ _ _ _ _ _ _ (iblk3 V c 0 t) (iblk3 V c 1 t) (iblk3 V c 2 t) (iblk3 V c 3 t) (iblk3 V c 4 t) (iblk3 V c 5 t) (iblk3 V c 6 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_of_cover _ _ _ _ _ (cover3_A_7 c _ _ _ _ _ _ _ _ _ _ _ _ _ _ _ _ _ _ _ _ _ _ _ _)

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := .rfl

theorem hout3 (c : Dev nD) : (dat3 V c).Φ (Fin.last cfg3.N) ⊢ Pipeline.ΦA spec3 c := .rfl

end Cert.KernelIdeal.Hand

end
-- ==== Proof.KI.Reg4Runs.lean ====
import proofs.«425279_j44762149159634_1_alg».proof.Proof.Gen.KernelIdeal.Launch
import proofs.«425279_j44762149159634_1_alg».proof.Proof.Gen.KernelIdeal.Skeleton
import proofs.«425279_j44762149159634_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

abbrev cond4_0 (i : grid4.Coords) : Prop := (Scalar.cmpi .ne (Scalar.extui (Scalar.cmpi .eq (BitVec.ofNat 32 (i 0).val) 0#32)) 0#32) = 1#1

theorem hcond4_0 : ∀ t : Fin cfg4.N, cond4_0 (grid4.coords t) ↔ t.val % 20 = 0 :=
  (by decide +kernel : ∀ t : Fin grid4.N, cond4_0 (grid4.coords t) ↔ t.val % 20 = 0)

abbrev cond4_1 (i : grid4.Coords) : Prop := k4_cond2 i = 1#1

theorem hcond4_1 : ∀ t : Fin cfg4.N, cond4_1 (grid4.coords t) ↔ t.val % 20 = 19 :=
  (by decide +kernel : ∀ t : Fin grid4.N, cond4_1 (grid4.coords t) ↔ t.val % 20 = 19)

theorem liveAt4_0 : ∀ t : Fin cfg4.N, cfg4.idle 0 (grid4.coords t) = false := by decide +kernel

theorem liveAt4_1 : ∀ t : Fin cfg4.N, cfg4.idle 1 (grid4.coords t) = false := by decide +kernel

theorem liveAt4_2 : ∀ t : Fin cfg4.N, cfg4.idle 2 (grid4.coords t) = false := by decide +kernel

theorem liveAt4_3 : ∀ t : Fin cfg4.N, cfg4.idle 3 (grid4.coords t) = false := by decide +kernel

theorem liveAt4_4 : ∀ t : Fin cfg4.N, cfg4.idle 4 (grid4.coords t) = false := by decide +kernel

theorem idleAt4_5_A : ∀ t : Fin cfg4.N, cond4_0 (grid4.coords t) → ¬cond4_1 (grid4.coords t) → cfg4.idle 5 (grid4.coords t) = true := by decide +kernel

theorem noFlush4_5_A : ∀ t : Fin cfg4.N, cond4_0 (grid4.coords t) → ¬cond4_1 (grid4.coords t) → (cfg4.win 5).flush t = false := by decide +kernel

theorem idleAt4_5_B : ∀ t : Fin cfg4.N, ¬cond4_0 (grid4.coords t) → ¬cond4_1 (grid4.coords t) → cfg4.idle 5 (grid4.coords t) = true := by decide +kernel

theorem noFlush4_5_B : ∀ t : Fin cfg4.N, ¬cond4_0 (grid4.coords t) → ¬cond4_1 (grid4.coords t) → (cfg4.win 5).flush t = false := by decide +kernel

theorem liveAt4_5_C : ∀ t : Fin cfg4.N, ¬cond4_0 (grid4.coords t) → cond4_1 (grid4.coords t) → cfg4.idle 5 (grid4.coords t) = false := by decide +kernel

abbrev VO4_4 : View sig .tc .vmem S5000x128 .f32 := (Memref.whole cc4_stg4_0 : Memref sig .tc .vmem S5000x128 .f32).view
abbrev VO4_5 : View sig .tc .vmem S2x128 .f32 := (Memref.whole cc4_stg5_0 : Memref sig .tc .vmem S2x128 .f32).view

abbrev ms4_0 (t : Fin cfg4.N) : Memref sig .tc .vmem S5000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S5000x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S128x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x128 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S5000x128 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S2x128 .f32 := win4_5.stage (cfg4.slots t 5)
abbrev hs4_5 (t : Fin cfg4.N) : (ms4_5 t).IsWhole := hstage4_5 ((cfg4.slots t 5).cast nbuf4_5)

abbrev scM4_0 : Memref sig .tc .vmem S1x128 .f32 := Memref.whole cc4_scratch0
abbrev scM4_1 : Memref sig .tc .vmem S1x128 .f32 := Memref.whole cc4_scratch1

abbrev VS4_0 : View sig .tc .vmem S1x128 .f32 := scM4_0.view
abbrev VS4_1 : View sig .tc .vmem S1x128 .f32 := scM4_1.view

theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

end Cert.KernelIdeal.Hand

end
-- ==== Proof.KI.Reg4RunA.lean ====
import proofs.«425279_j44762149159634_1_alg».proof.Proof.KI.Reg4Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun4_A (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S2x128 .f32) (harg6 : arg6.IsWhole) (arg7 : Memref sig .tc .vmem S1x128 .f32) (harg7 : arg7.IsWhole) (arg8 : Memref sig .tc .vmem S1x128 .f32) (harg8 : arg8.IsWhole) (hc0 : cond4_0 i) (hc1 : ¬cond4_1 i)
    (x0 : Vec F S5000x128 .f32) (x1 : Vec F S5000x128 .f32) (x2 : Vec F S128x128 .f32) (x3 : Vec F S1x128 .f32) :
    Σ' (L4 : List (View.Piece (Elt F) S5000x128 .f32)) (L5 : List (View.Piece (Elt F) S2x128 .f32)) (LS0 : List (View.Piece (Elt F) S1x128 .f32)), { LS1 : List (View.Piece (Elt F) S1x128 .f32) //
      ∀ (xi5 : Vec F S2x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xi5
            ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4) ∗ owns (c : Thread nD τ) arg6 fullShare xi5
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc4__gin_a_kernel i arg1 harg1 arg2 harg2 arg3 harg3 arg4 harg4 arg5 harg5 arg6 harg6 arg7 harg7 arg8 harg8) K } := by
  refine ⟨?_, [], ?_, ?_, fun xi5 E K => ?run⟩
  case run =>
    simp only [cc4__gin_a_kernel_eq_skeleton]; unfold cc4__gin_a_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [HS0]; · iexists _; iexact HS0
    iexists _; iexact HS1

end Cert.KernelIdeal.Hand

end
-- ==== Proof.KI.Reg4RunB.lean ====
import proofs.«425279_j44762149159634_1_alg».proof.Proof.KI.Reg4RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun4_B (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S2x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : ¬cond4_1 i)
    (x0 : Vec F S5000x128 .f32) (x1 : Vec F S5000x128 .f32) (x2 : Vec F S128x128 .f32) (x3 : Vec F S1x128 .f32) (xs0 : Vec F S1x128 .f32) (xs1 : Vec F S1x128 .f32) :
    Σ' (L4 : List (View.Piece (Elt F) S5000x128 .f32)) (L5 : List (View.Piece (Elt F) S2x128 .f32)) (LS0 : List (View.Piece (Elt F) S1x128 .f32)), { LS1 : List (View.Piece (Elt F) S1x128 .f32) //
      ∀ (xi5 : Vec F S2x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xi5
            ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4) ∗ owns (c : Thread nD τ) arg6 fullShare xi5
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc4__gin_a_kernel i arg1 harg1 arg2 harg2 arg3 harg3 arg4 harg4 arg5 harg5 arg6 harg6 arg7 harg7 arg8 harg8) K } := by
  refine ⟨?_, [], ?_, ?_, fun xi5 E K => ?run⟩
  case run =>
    simp only [cc4__gin_a_kernel_eq_skeleton]; unfold cc4__gin_a_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [HS0]; · iexists _; iexact HS0
    iexists _; iexact HS1

end Cert.KernelIdeal.Hand

end
-- ==== Proof.KI.Reg4RunC.lean ====
import proofs.«425279_j44762149159634_1_alg».proof.Proof.KI.Reg4RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun4_C (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S2x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i)
    (x0 : Vec F S5000x128 .f32) (x1 : Vec F S5000x128 .f32) (x2 : Vec F S128x128 .f32) (x3 : Vec F S1x128 .f32) (xs0 : Vec F S1x128 .f32) (xs1 : Vec F S1x128 .f32) :
    Σ' (L4 : List (View.Piece (Elt F) S5000x128 .f32)) (L5 : List (View.Piece (Elt F) S2x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d)
            ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc4__gin_a_kernel i arg1 harg1 arg2 harg2 arg3 harg3 arg4 harg4 arg5 harg5 arg6 harg6 arg7 harg7 arg8 harg8) K } := by
  refine ⟨?_, ?_, ?_, ?_, fun E K => ?run⟩
  case run =>
    simp only [cc4__gin_a_kernel_eq_skeleton]; unfold cc4__gin_a_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [HS0]; · iexists _; iexact HS0
    iexists _; iexact HS1

end Cert.KernelIdeal.Hand

end
-- ==== Proof.KI.Reg4.lean ====
import proofs.«425279_j44762149159634_1_alg».proof.Proof.KI.Reg4RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S2x128 .f32) (harg6 : arg6.IsWhole) (arg7 : Memref sig .tc .vmem S1x128 .f32) (harg7 : arg7.IsWhole) (arg8 : Memref sig .tc .vmem S1x128 .f32) (harg8 : arg8.IsWhole)
include c i arg1 harg1 arg2 harg2 arg3 harg3 arg4 harg4 arg5 harg5 arg6 harg6 arg7 harg7 arg8 harg8

section
variable (hc0 : cond4_0 i) (hc1 : ¬cond4_1 i) (x0 : Vec F S5000x128 .f32) (x1 : Vec F S5000x128 .f32) (x2 : Vec F S128x128 .f32) (x3 : Vec F S1x128 .f32)
include hc0 hc1 x0 x1 x2 x3

theorem cover4_A_4 (y : S5000x128.Idx) :
    ∃ pc ∈ (kernelRun4_A c i arg1 harg1 arg2 harg2 arg3 harg3 arg4 harg4 arg5 harg5 arg6 harg6 arg7 harg7 arg8 harg8 hc0 hc1 x0 x1 x2 x3).1, y ∈ pc.1.set :=
  View.cover_of_tiledL (kernelRun4_A c i arg1 harg1 arg2 harg2 arg3 harg3 arg4 harg4 arg5 harg5 arg6 harg6 arg7 harg7 arg8 harg8 hc0 hc1 x0 x1 x2 x3).1 S5000x128.size (by sl_kernel_rfl) y

def out4_A_4 : Vec F S5000x128 .f32 :=
  VO4_4.read (Elt F) (VO4_4.writes (Elt F) VO4_4.junk (kernelRun4_A c i arg1 harg1 arg2 harg2 arg3 harg3 arg4 harg4 arg5 harg5 arg6 harg6 arg7 harg7 arg8 harg8 hc0 hc1 x0 x1 x2 x3).1)

def out4_A_5 : Vec F S2x128 .f32 :=
  VO4_5.read (Elt F) (VO4_5.writes (Elt F) VO4_5.junk (kernelRun4_A c i arg1 harg1 arg2 harg2 arg3 harg3 arg4 harg4 arg5 harg5 arg6 harg6 arg7 harg7 arg8 harg8 hc0 hc1 x0 x1 x2 x3).2.1)

theorem scover4_A_0 (y : S1x128.Idx) :
    ∃ pc ∈ (kernelRun4_A c i arg1 harg1 arg2 harg2 arg3 harg3 arg4 harg4 arg5 harg5 arg6 harg6 arg7 harg7 arg8 harg8 hc0 hc1 x0 x1 x2 x3).2.2.1, y ∈ pc.1.set :=
  View.cover_of_tiledL (kernelRun4_A c i arg1 harg1 arg2 harg2 arg3 harg3 arg4 harg4 arg5 harg5 arg6 harg6 arg7 harg7 arg8 harg8 hc0 hc1 x0 x1 x2 x3).2.2.1 S1x128.size (by sl_kernel_rfl) y

def sout4_A_0 : Vec F S1x128 .f32 :=
  VS4_0.read (Elt F) (VS4_0.writes (Elt F) VS4_0.junk (kernelRun4_A c i arg1 harg1 arg2 harg2 arg3 harg3 arg4 harg4 arg5 harg5 arg6 harg6 arg7 harg7 arg8 harg8 hc0 hc1 x0 x1 x2 x3).2.2.1)

theorem scover4_A_1 (y : S1x128.Idx) :
    ∃ pc ∈ (kernelRun4_A c i arg1 harg1 arg2 harg2 arg3 harg3 arg4 harg4 arg5 harg5 arg6 harg6 arg7 harg7 arg8 harg8 hc0 hc1 x0 x1 x2 x3).2.2.2.1, y ∈ pc.1.set :=
  View.cover_of_tiledL (kernelRun4_A c i arg1 harg1 arg2 harg2 arg3 harg3 arg4 harg4 arg5 harg5 arg6 harg6 arg7 harg7 arg8 harg8 hc0 hc1 x0 x1 x2 x3).2.2.2.1 S1x128.size (by sl_kernel_rfl) y

def sout4_A_1 : Vec F S1x128 .f32 :=
  VS4_1.read (Elt F) (VS4_1.writes (Elt F) VS4_1.junk (kernelRun4_A c i arg1 harg1 arg2 harg2 arg3 harg3 arg4 harg4 arg5 harg5 arg6 harg6 arg7 harg7 arg8 harg8 hc0 hc1 x0 x1 x2 x3).2.2.2.1)

def outs4_A : Vec F S5000x128 .f32 × Vec F S2x128 .f32 × Vec F S1x128 .f32 × Vec F S1x128 .f32 :=
  (out4_A_4 c i arg1 harg1 arg2 harg2 arg3 harg3 arg4 harg4 arg5 harg5 arg6 harg6 arg7 harg7 arg8 harg8 hc0 hc1 x0 x1 x2 x3, out4_A_5 c i arg1 harg1 arg2 harg2 arg3 harg3 arg4 harg4 arg5 harg5 arg6 harg6 arg7 harg7 arg8 harg8 hc0 hc1 x0 x1 x2 x3, sout4_A_0 c i arg1 harg1 arg2 harg2 arg3 harg3 arg4 harg4 arg5 harg5 arg6 harg6 arg7 harg7 arg8 harg8 hc0 hc1 x0 x1 x2 x3, sout4_A_1 c i arg1 harg1 arg2 harg2 arg3 harg3 arg4 harg4 arg5 harg5 arg6 harg6 arg7 harg7 arg8 harg8 hc0 hc1 x0 x1 x2 x3)

end

section
variable (hc0 : ¬cond4_0 i) (hc1 : ¬cond4_1 i) (x0 : Vec F S5000x128 .f32) (x1 : Vec F S5000x128 .f32) (x2 : Vec F S128x128 .f32) (x3 : Vec F S1x128 .f32) (xs0 : Vec F S1x128 .f32) (xs1 : Vec F S1x128 .f32)
include hc0 hc1 x0 x1 x2 x3 xs0 xs1

theorem cover4_B_4 (y : S5000x128.Idx) :
    ∃ pc ∈ (kernelRun4_B c i arg1 harg1 arg2 harg2 arg3 harg3 arg4 harg4 arg5 harg5 arg6 harg6 arg7 harg7 arg8 harg8 hc0 hc1 x0 x1 x2 x3 xs0 xs1).1, y ∈ pc.1.set :=
  View.cover_of_tiledL (kernelRun4_B c i arg1 harg1 arg2 harg2 arg3 harg3 arg4 harg4 arg5 harg5 arg6 harg6 arg7 harg7 arg8 harg8 hc0 hc1 x0 x1 x2 x3 xs0 xs1).1 S5000x128.size (by sl_kernel_rfl) y

def out4_B_4 : Vec F S5000x128 .f32 :=
  VO4_4.read (Elt F) (VO4_4.writes (Elt F) VO4_4.junk (kernelRun4_B c i arg1 harg1 arg2 harg2 arg3 harg3 arg4 harg4 arg5 harg5 arg6 harg6 arg7 harg7 arg8 harg8 hc0 hc1 x0 x1 x2 x3 xs0 xs1).1)

def out4_B_5 : Vec F S2x128 .f32 :=
  VO4_5.read (Elt F) (VO4_5.writes (Elt F) VO4_5.junk (kernelRun4_B c i arg1 harg1 arg2 harg2 arg3 harg3 arg4 harg4 arg5 harg5 arg6 harg6 arg7 harg7 arg8 harg8 hc0 hc1 x0 x1 x2 x3 xs0 xs1).2.1)

theorem scover4_B_0 (y : S1x128.Idx) :
    ∃ pc ∈ (kernelRun4_B c i arg1 harg1 arg2 harg2 arg3 harg3 arg4 harg4 arg5 harg5 arg6 harg6 arg7 harg7 arg8 harg8 hc0 hc1 x0 x1 x2 x3 xs0 xs1).2.2.1, y ∈ pc.1.set :=
  View.cover_of_tiledL (kernelRun4_B c i arg1 harg1 arg2 harg2 arg3 harg3 arg4 harg4 arg5 harg5 arg6 harg6 arg7 harg7 arg8 harg8 hc0 hc1 x0 x1 x2 x3 xs0 xs1).2.2.1 S1x128.size (by sl_kernel_rfl) y

def sout4_B_0 : Vec F S1x128 .f32 :=
  VS4_0.read (Elt F) (VS4_0.writes (Elt F) VS4_0.junk (kernelRun4_B c i arg1 harg1 arg2 harg2 arg3 harg3 arg4 harg4 arg5 harg5 arg6 harg6 arg7 harg7 arg8 harg8 hc0 hc1 x0 x1 x2 x3 xs0 xs1).2.2.1)

theorem scover4_B_1 (y : S1x128.Idx) :
    ∃ pc ∈ (kernelRun4_B c i arg1 harg1 arg2 harg2 arg3 harg3 arg4 harg4 arg5 harg5 arg6 harg6 arg7 harg7 arg8 harg8 hc0 hc1 x0 x1 x2 x3 xs0 xs1).2.2.2.1, y ∈ pc.1.set :=
  View.cover_of_tiledL (kernelRun4_B c i arg1 harg1 arg2 harg2 arg3 harg3 arg4 harg4 arg5 harg5 arg6 harg6 arg7 harg7 arg8 harg8 hc0 hc1 x0 x1 x2 x3 xs0 xs1).2.2.2.1 S1x128.size (by sl_kernel_rfl) y

def sout4_B_1 : Vec F S1x128 .f32 :=
  VS4_1.read (Elt F) (VS4_1.writes (Elt F) VS4_1.junk (kernelRun4_B c i arg1 harg1 arg2 harg2 arg3 harg3 arg4 harg4 arg5 harg5 arg6 harg6 arg7 harg7 arg8 harg8 hc0 hc1 x0 x1 x2 x3 xs0 xs1).2.2.2.1)

def outs4_B : Vec F S5000x128 .f32 × Vec F S2x128 .f32 × Vec F S1x128 .f32 × Vec F S1x128 .f32 :=
  (out4_B_4 c i arg1 harg1 arg2 harg2 arg3 harg3 arg4 harg4 arg5 harg5 arg6 harg6 arg7 harg7 arg8 harg8 hc0 hc1 x0 x1 x2 x3 xs0 xs1, out4_B_5 c i arg1 harg1 arg2 harg2 arg3 harg3 arg4 harg4 arg5 harg5 arg6 harg6 arg7 harg7 arg8 harg8 hc0 hc1 x0 x1 x2 x3 xs0 xs1, sout4_B_0 c i arg1 harg1 arg2 harg2 arg3 harg3 arg4 harg4 arg5 harg5 arg6 harg6 arg7 harg7 arg8 harg8 hc0 hc1 x0 x1 x2 x3 xs0 xs1, sout4_B_1 c i arg1 harg1 arg2 harg2 arg3 harg3 arg4 harg4 arg5 harg5 arg6 harg6 arg7 harg7 arg8 harg8 hc0 hc1 x0 x1 x2 x3 xs0 xs1)

end

section
variable (hc0 : ¬cond4_0 i) (hc1 : cond4_1 i) (x0 : Vec F S5000x128 .f32) (x1 : Vec F S5000x128 .f32) (x2 : Vec F S128x128 .f32) (x3 : Vec F S1x128 .f32) (xs0 : Vec F S1x128 .f32) (xs1 : Vec F S1x128 .f32)
include hc0 hc1 x0 x1 x2 x3 xs0 xs1

theorem cover4_C_4 (y : S5000x128.Idx) :
    ∃ pc ∈ (kernelRun4_C c i arg1 harg1 arg2 harg2 arg3 harg3 arg4 harg4 arg5 harg5 arg6 harg6 arg7 harg7 arg8 harg8 hc0 hc1 x0 x1 x2 x3 xs0 xs1).1, y ∈ pc.1.set :=
  View.cover_of_tiledL (kernelRun4_C c i arg1 harg1 arg2 harg2 arg3 harg3 arg4 harg4 arg5 harg5 arg6 harg6 arg7 harg7 arg8 harg8 hc0 hc1 x0 x1 x2 x3 xs0 xs1).1 S5000x128.size (by sl_kernel_rfl) y

def out4_C_4 : Vec F S5000x128 .f32 :=
  VO4_4.read (Elt F) (VO4_4.writes (Elt F) VO4_4.junk (kernelRun4_C c i arg1 harg1 arg2 harg2 arg3 harg3 arg4 harg4 arg5 harg5 arg6 harg6 arg7 harg7 arg8 harg8 hc0 hc1 x0 x1 x2 x3 xs0 xs1).1)

theorem cover4_C_5 (y : S2x128.Idx) :
    ∃ pc ∈ (kernelRun4_C c i arg1 harg1 arg2 harg2 arg3 harg3 arg4 harg4 arg5 harg5 arg6 harg6 arg7 harg7 arg8 harg8 hc0 hc1 x0 x1 x2 x3 xs0 xs1).2.1, y ∈ pc.1.set :=
  View.cover_of_tiledL (kernelRun4_C c i arg1 harg1 arg2 harg2 arg3 harg3 arg4 harg4 arg5 harg5 arg6 harg6 arg7 harg7 arg8 harg8 hc0 hc1 x0 x1 x2 x3 xs0 xs1).2.1 S1x128.size (by sl_kernel_rfl) y

def out4_C_5 : Vec F S2x128 .f32 :=
  VO4_5.read (Elt F) (VO4_5.writes (Elt F) VO4_5.junk (kernelRun4_C c i arg1 harg1 arg2 harg2 arg3 harg3 arg4 harg4 arg5 harg5 arg6 harg6 arg7 harg7 arg8 harg8 hc0 hc1 x0 x1 x2 x3 xs0 xs1).2.1)

theorem scover4_C_0 (y : S1x128.Idx) :
    ∃ pc ∈ (kernelRun4_C c i arg1 harg1 arg2 harg2 arg3 harg3 arg4 harg4 arg5 harg5 arg6 harg6 arg7 harg7 arg8 harg8 hc0 hc1 x0 x1 x2 x3 xs0 xs1).2.2.1, y ∈ pc.1.set :=
  View.cover_of_tiledL (kernelRun4_C c i arg1 harg1 arg2 harg2 arg3 harg3 arg4 harg4 arg5 harg5 arg6 harg6 arg7 harg7 arg8 harg8 hc0 hc1 x0 x1 x2 x3 xs0 xs1).2.2.1 S1x128.size (by sl_kernel_rfl) y

def sout4_C_0 : Vec F S1x128 .f32 :=
  VS4_0.read (Elt F) (VS4_0.writes (Elt F) VS4_0.junk (kernelRun4_C c i arg1 harg1 arg2 harg2 arg3 harg3 arg4 harg4 arg5 harg5 arg6 harg6 arg7 harg7 arg8 harg8 hc0 hc1 x0 x1 x2 x3 xs0 xs1).2.2.1)

theorem scover4_C_1 (y : S1x128.Idx) :
    ∃ pc ∈ (kernelRun4_C c i arg1 harg1 arg2 harg2 arg3 harg3 arg4 harg4 arg5 harg5 arg6 harg6 arg7 harg7 arg8 harg8 hc0 hc1 x0 x1 x2 x3 xs0 xs1).2.2.2.1, y ∈ pc.1.set :=
  View.cover_of_tiledL (kernelRun4_C c i arg1 harg1 arg2 harg2 arg3 harg3 arg4 harg4 arg5 harg5 arg6 harg6 arg7 harg7 arg8 harg8 hc0 hc1 x0 x1 x2 x3 xs0 xs1).2.2.2.1 S1x128.size (by sl_kernel_rfl) y

def sout4_C_1 : Vec F S1x128 .f32 :=
  VS4_1.read (Elt F) (VS4_1.writes (Elt F) VS4_1.junk (kernelRun4_C c i arg1 harg1 arg2 harg2 arg3 harg3 arg4 harg4 arg5 harg5 arg6 harg6 arg7 harg7 arg8 harg8 hc0 hc1 x0 x1 x2 x3 xs0 xs1).2.2.2.1)

def outs4_C : Vec F S5000x128 .f32 × Vec F S2x128 .f32 × Vec F S1x128 .f32 × Vec F S1x128 .f32 :=
  (out4_C_4 c i arg1 harg1 arg2 harg2 arg3 harg3 arg4 harg4 arg5 harg5 arg6 harg6 arg7 harg7 arg8 harg8 hc0 hc1 x0 x1 x2 x3 xs0 xs1, out4_C_5 c i arg1 harg1 arg2 harg2 arg3 harg3 arg4 harg4 arg5 harg5 arg6 harg6 arg7 harg7 arg8 harg8 hc0 hc1 x0 x1 x2 x3 xs0 xs1, sout4_C_0 c i arg1 harg1 arg2 harg2 arg3 harg3 arg4 harg4 arg5 harg5 arg6 harg6 arg7 harg7 arg8 harg8 hc0 hc1 x0 x1 x2 x3 xs0 xs1, sout4_C_1 c i arg1 harg1 arg2 harg2 arg3 harg3 arg4 harg4 arg5 harg5 arg6 harg6 arg7 harg7 arg8 harg8 hc0 hc1 x0 x1 x2 x3 xs0 xs1)

end

end

def outsAt4 (c : Dev nD) : (n : ℕ) → n < cfg4.N → Vec F S5000x128 .f32 × Vec F S2x128 .f32 × Vec F S1x128 .f32 × Vec F S1x128 .f32
  | 0, hn => outs4_A c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩)
  | n + 1, hn =>
    if h0 : (n + 1) % 20 = 0 then
      if h1 : (n + 1) % 20 = 19 then
        False.elim (by have hN : n + 1 < 20 := lt_of_lt_of_eq hn (show cfg4.N = 20 from N_4); omega)
      else
        outs4_A c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) scM4_1 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩)
    else
      if h1 : (n + 1) % 20 = 19 then
        outs4_C c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.1 (outsAt4 c n (Nat.lt_of_succ_lt hn)).2.2.2
      else
        outs4_B c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.1 (outsAt4 c n (Nat.lt_of_succ_lt hn)).2.2.2

theorem outsAt4_A (c : Dev nD) (t : Fin cfg4.N) (h0 : t.val % 20 = 0) (h1 : ¬t.val % 20 = 19) :
    outsAt4 V c t.val t.isLt = outs4_A c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) := by
  obtain ⟨n, hn⟩ := t
  cases n with
  | zero => exact rfl
  | succ n => exact (dif_pos h0).trans ((dif_neg h1).trans rfl)

theorem outsAt4_B (c : Dev nD) (t : Fin cfg4.N) (h0 : ¬t.val % 20 = 0) (h1 : ¬t.val % 20 = 19) :
    outsAt4 V c t.val t.isLt = outs4_B c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (outsAt4 V c (t.val - 1) (Nat.lt_of_le_of_lt (Nat.sub_le _ _) t.isLt)).2.2.1 (outsAt4 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_neg h1).trans rfl)

theorem outsAt4_C (c : Dev nD) (t : Fin cfg4.N) (h0 : ¬t.val % 20 = 0) (h1 : t.val % 20 = 19) :
    outsAt4 V c t.val t.isLt = outs4_C c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2.1 (outsAt4 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_pos h1).trans rfl)

def PhiS4 (c : Dev nD) : (n : ℕ) → n ≤ cfg4.N → sProp 𝕄
  | 0, _ => Pipeline.ΦA spec4 c
  | n + 1, hn => iprop(iprop(iprop(owns (c : Thread nD τ) scM4_0 fullShare ((outsAt4 V c n hn).2.2.1) ∗ owns (c : Thread nD τ) scM4_1 fullShare ((outsAt4 V c n hn).2.2.2)) ∗ Pipeline.scopedRestBut (Ix := Unit) (Name := ℕ) (U := UR sig nD τ) (Lvl := ℕ) (Val := Elt F) spec4 c [cc4_scratch0, cc4_scratch1]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare ((outsAt4 V c n hn).2.2.1) ∗ owns (c : Thread nD τ) scM4_1 fullShare ((outsAt4 V c n hn).2.2.2)) ∗ Pipeline.scopedRestBut (Ix := Unit) (Name := ℕ) (U := UR sig nD τ) (Lvl := ℕ) (Val := Elt F) spec4 c [cc4_scratch0, cc4_scratch1]) ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare ((outsAt4 V c (n - 1) (by omega)).2.2.1) ∗ owns (c : Thread nD τ) scM4_1 fullShare ((outsAt4 V c (n - 1) (by omega)).2.2.2)) ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => (outsAt4 V c t.val t.isLt).1
    | ⟨5, _⟩ => (outsAt4 V c t.val t.isLt).2.1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = (outsAt4 V c t.val t.isLt).1 := by dsimp only [dat4]
theorem after4_5 (c : Dev nD) (t : Fin cfg4.N) : (dat4 V c).after 5 t = (outsAt4 V c t.val t.isLt).2.1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t)

set_option maxHeartbeats 4800000 in

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl]
  rw [show (dat4 V c).Φ t.succ = PhiS4 V c (t.val + 1) t.isLt from rfl, PhiS4_succ]
  have hN : t.val < 20 := lt_of_lt_of_eq t.isLt (show cfg4.N = 20 from N_4)
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [show (dat4 V c).leavesExact 3 t = owns (c : Thread nD τ) (ms4_3 t) fullShare ((dat4 V c).after 3 t) from by
    unfold Dat.leavesExact; rw [liveAt4_3 t], after4_3]
  rw [show (dat4 V c).leavesExact 4 t = owns (c : Thread nD τ) (ms4_4 t) fullShare ((dat4 V c).after 4 t) from by
    unfold Dat.leavesExact; rw [liveAt4_4 t], after4_4]
  by_cases h0 : t.val % 20 = 0
  · by_cases h1 : t.val % 20 = 19
    · exfalso; omega
    ·
      rw [Dat.leavesExact_idle (dat4 V c) 5 t (idleAt4_5_A t ((hcond4_0 t).mpr h0) (fun h => h1 ((hcond4_1 t).mp h))) (noFlush4_5_A t ((hcond4_0 t).mpr h0) (fun h => h1 ((hcond4_1 t).mp h)))]
      rw [outsAt4_A V c t h0 h1]
      unfold outs4_A out4_A_4 sout4_A_0 sout4_A_1; (try dsimp only)
      by_cases hz : t.val = 0
      ·
        rw [PhiS4_castSucc V c t, PhiS4_zero V c _ _ hz, PhiA4_eq]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
        iapply ((kernelRun4_A c (grid4.coords t) _ _ _ _ _ _ _ _ _ _ _ _ _ _ _ _ ((hcond4_0 t).mpr h0) (fun h => h1 ((hcond4_1 t).mp h)) (iblk4 V c 0 t) (iblk4 V c 1 t) (iblk4 V c 2 t) (iblk4 V c 3 t)).2.2.2.2 _ Set.univ _)
        isplitl [H0]; · iexact H0
        isplitl [H1]; · iexact H1
        isplitl [H2]; · iexact H2
        isplitl [H3]; · iexact H3
        isplitl [H4]; · iexists _; iexact H4
        isplitl [H5]; · iexact H5
        isplitl [HS0]; · iexact HS0
        isplitl [HS1]; · iexact HS1
        iintro ⟨H0, H1, H2, H3, ⟨%e4, H4⟩, H5, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover4_A_0 c _ _ _ _ _ _ _ _ _ _ _ _ _ _ _ _ _ _ _ _ _ _ _)
              unfold owns; iexists _; isplitr
              swap; · iexact HS1
              ipureintro; exact View.read_writes_of_cover _ _ _ _ _ (scover4_A_1 c _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover4_A_4 c _ _ _ _ _ _ _ _ _ _ _ _ _ _ _ _ _ _ _ _ _ _ _)
        iexists _; iexact H5
      · exfalso; omega
  · by_cases h1 : t.val % 20 = 19
    ·
      rw [show (dat4 V c).leavesExact 5 t = owns (c : Thread nD τ) (ms4_5 t) fullShare ((dat4 V c).after 5 t) from by
        unfold Dat.leavesExact; rw [liveAt4_5_C t (fun h => h0 ((hcond4_0 t).mp h)) ((hcond4_1 t).mpr h1)], after4_5]
      rw [outsAt4_C V c t h0 h1]
      unfold outs4_C out4_C_4 out4_C_5 sout4_C_0 sout4_C_1; (try dsimp only)
      by_cases hz : t.val = 0
      · exfalso; omega
      ·
        rw [PhiS4_castSucc V c t, PhiS4_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
        iapply ((kernelRun4_C c (grid4.coords t) _ _ _ _ _ _ _ _ _ _ _ _ _ _ _ _ (fun h => h0 ((hcond4_0 t).mp h)) ((hcond4_1 t).mpr h1) (iblk4 V c 0 t) (iblk4 V c 1 t) (iblk4 V c 2 t) (iblk4 V c 3 t) _ _).2.2.2.2 Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [HS0]; · iexact HS0
        isplitl [HS1]; · iexact HS1
        iintro ⟨H0, H1, H2, H3, ⟨%e4, H4⟩, ⟨%e5, H5⟩, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover4_C_0 c _ _ _ _ _ _ _ _ _ _ _ _ _ _ _ _ _ _ _ _ _ _ _ _ _)
              unfold owns; iexists _; isplitr
              swap; · iexact HS1
              ipureintro; exact View.read_writes_of_cover _ _ _ _ _ (scover4_C_1 c _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover4_C_4 c _ _ _ _ _ _ _ _ _ _ _ _ _ _ _ _ _ _ _ _ _ _ _ _ _)
        unfold owns; iexists _; isplitr
        swap; · iexact H5
        ipureintro; exact View.read_writes_of_cover _ _ _ _ _ (cover4_C_5 c _ _ _ _ _ _ _ _ _ _ _ _ _ _ _ _ _ _ _ _ _ _ _ _ _)
    ·
      rw [Dat.leavesExact_idle (dat4 V c) 5 t (idleAt4_5_B t (fun h => h0 ((hcond4_0 t).mp h)) (fun h => h1 ((hcond4_1 t).mp h))) (noFlush4_5_B t (fun h => h0 ((hcond4_0 t).mp h)) (fun h => h1 ((hcond4_1 t).mp h)))]
      rw [outsAt4_B V c t h0 h1]
      unfold outs4_B out4_B_4 sout4_B_0 sout4_B_1; (try dsimp only)
      by_cases hz : t.val = 0
      · exfalso; omega
      ·
        rw [PhiS4_castSucc V c t, PhiS4_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
        iapply ((kernelRun4_B c (grid4.coords t) _ _ _ _ _ _ _ _ _ _ _ _ _ _ _ _ (fun h => h0 ((hcond4_0 t).mp h)) (fun h => h1 ((hcond4_1 t).mp h)) (iblk4 V c 0 t) (iblk4 V c 1 t) (iblk4 V c 2 t) (iblk4 V c 3 t) _ _).2.2.2.2 _ Set.univ _)
        isplitl [H0]; · iexact H0
        isplitl [H1]; · iexact H1
        isplitl [H2]; · iexact H2
        isplitl [H3]; · iexact H3
        isplitl [H4]; · iexists _; iexact H4
        isplitl [H5]; · iexact H5
        isplitl [HS0]; · iexact HS0
        isplitl [HS1]; · iexact HS1
        iintro ⟨H0, H1, H2, H3, ⟨%e4, H4⟩, H5, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover4_B_0 c _ _ _ _ _ _ _ _ _ _ _ _ _ _ _ _ _ _ _ _ _ _ _ _ _)
              unfold owns; iexists _; isplitr
              swap; · iexact HS1
              ipureintro; exact View.read_writes_of_cover _ _ _ _ _ (scover4_B_1 c _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover4_B_4 c _ _ _ _ _ _ _ _ _ _ _ _ _ _ _ _ _ _ _ _ _ _ _ _ _)
        iexists _; iexact H5

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

theorem hout4 (c : Dev nD) : (dat4 V c).Φ (Fin.last cfg4.N) ⊢ Pipeline.ΦA spec4 c :=
  Phi_out4 V c _ (by rw [Fin.val_last]; have : cfg4.N = 20 := N_4; omega)

end Cert.KernelIdeal.Hand

end
-- ==== Proof.KI.Reg5Runs.lean ====
import proofs.«425279_j44762149159634_1_alg».proof.Proof.Gen.KernelIdeal.Launch
import proofs.«425279_j44762149159634_1_alg».proof.Proof.Gen.KernelIdeal.Skeleton
import proofs.«425279_j44762149159634_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

abbrev VO5_7 : View sig .tc .vmem S5000x128 .f32 := (Memref.whole cc5_stg7_0 : Memref sig .tc .vmem S5000x128 .f32).view

abbrev ms5_0 (t : Fin cfg5.N) : Memref sig .tc .vmem S5000x128 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S1x128 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x128 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1x128 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S1x128 .f32 := win5_4.stage (cfg5.slots t 4)
abbrev hs5_4 (t : Fin cfg5.N) : (ms5_4 t).IsWhole := hstage5_4 ((cfg5.slots t 4).cast nbuf5_4)
abbrev ms5_5 (t : Fin cfg5.N) : Memref sig .tc .vmem S128x128 .f32 := win5_5.stage (cfg5.slots t 5)
abbrev hs5_5 (t : Fin cfg5.N) : (ms5_5 t).IsWhole := hstage5_5 ((cfg5.slots t 5).cast nbuf5_5)
abbrev ms5_6 (t : Fin cfg5.N) : Memref sig .tc .vmem S1x128 .f32 := win5_6.stage (cfg5.slots t 6)
abbrev hs5_6 (t : Fin cfg5.N) : (ms5_6 t).IsWhole := hstage5_6 ((cfg5.slots t 6).cast nbuf5_6)
abbrev ms5_7 (t : Fin cfg5.N) : Memref sig .tc .vmem S5000x128 .f32 := win5_7.stage (cfg5.slots t 7)
abbrev hs5_7 (t : Fin cfg5.N) : (ms5_7 t).IsWhole := hstage5_7 ((cfg5.slots t 7).cast nbuf5_7)

end Cert.KernelIdeal.Hand

end
-- ==== Proof.KI.Reg5RunA.lean ====
import proofs.«425279_j44762149159634_1_alg».proof.Proof.KI.Reg5Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in

noncomputable def kernelRun5_A (c : Dev nD) (i : grid5.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole)
    (x0 : Vec F S5000x128 .f32) (x1 : Vec F S1x128 .f32) (x2 : Vec F S1x128 .f32) (x3 : Vec F S1x128 .f32) (x4 : Vec F S1x128 .f32) (x5 : Vec F S128x128 .f32) (x6 : Vec F S1x128 .f32) :
    { L7 : List (View.Piece (Elt F) S5000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7)) -∗ K ⟨⟩))
          ⊢ wp frame (wpE (defs₀ (F := F)) Variants.none c none) E (cc5__gin_b_kernel i arg1 harg1 arg2 harg2 arg3 harg3 arg4 harg4 arg5 harg5 arg6 harg6 arg7 harg7 arg8 harg8) K } := by
  refine ⟨?_, fun E K => ?run⟩
  case run =>
    simp only [cc5__gin_b_kernel_eq_skeleton]; unfold cc5__gin_b_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; iexact H7

end Cert.KernelIdeal.Hand

end
-- ==== Proof.KI.Reg5.lean ====
import proofs.«425279_j44762149159634_1_alg».proof.Proof.KI.Reg5RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable (c : Dev nD) (i : grid5.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (x0 : Vec F S5000x128 .f32) (x1 : Vec F S1x128 .f32) (x2 : Vec F S1x128 .f32) (x3 : Vec F S1x128 .f32) (x4 : Vec F S1x128 .f32) (x5 : Vec F S128x128 .f32) (x6 : Vec F S1x128 .f32)
include c i arg1 harg1 arg2 harg2 arg3 harg3 arg4 harg4 arg5 harg5 arg6 harg6 arg7 harg7 arg8 harg8 x0 x1 x2 x3 x4 x5 x6

theorem cover5_A_7 (y : S5000x128.Idx) :
    ∃ pc ∈ (kernelRun5_A c i arg1 harg1 arg2 harg2 arg3 harg3 arg4 harg4 arg5 harg5 arg6 harg6 arg7 harg7 arg8 harg8 x0 x1 x2 x3 x4 x5 x6).1, y ∈ pc.1.set :=
  View.cover_of_tiledL (kernelRun5_A c i arg1 harg1 arg2 harg2 arg3 harg3 arg4 harg4 arg5 harg5 arg6 harg6 arg7 harg7 arg8 harg8 x0 x1 x2 x3 x4 x5 x6).1 S5000x128.size (by sl_kernel_rfl) y

def out5_A_7 : Vec F S5000x128 .f32 :=
  VO5_7.read (Elt F) (VO5_7.writes (Elt F) VO5_7.junk (kernelRun5_A c i arg1 harg1 arg2 harg2 arg3 harg3 arg4 harg4 arg5 harg5 arg6 harg6 arg7 harg7 arg8 harg8 x0 x1 x2 x3 x4 x5 x6).1)

end

def out5At (c : Dev nD) (t : Fin cfg5.N) : Vec F S5000x128 .f32 :=
  out5_A_7 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (iblk5 V c 0 t) (iblk5 V c 1 t) (iblk5 V c 2 t) (iblk5 V c 3 t) (iblk5 V c 4 t) (iblk5 V c 5 t) (iblk5 V c 6 t)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => out5At V c t
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = out5At V c t := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t))

set_option maxHeartbeats 4800000 in

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7]
  unfold out5At out5_A_7
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun5_A c (grid5.coords t) _ _ _ _ _ _ _ _ _ _ _ _ _ _ _ _ (iblk5 V c 0 t) (iblk5 V c 1 t) (iblk5 V c 2 t) (iblk5 V c 3 t) (iblk5 V c 4 t) (iblk5 V c 5 t) (iblk5 V c 6 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_of_cover _ _ _ _ _ (cover5_A_7 c _ _ _ _ _ _ _ _ _ _ _ _ _ _ _ _ _ _ _ _ _ _ _ _)

theorem body_obligation5 (c : Dev nD) : BodyObligation (dat5 (F := F) V c) (defs₀ (F := F)) Variants.none () Set.univ := fun t => by
  rw [bigSep_W5, bigSep_W5]
  exact sound_body5 V c t

theorem hin5 (c : Dev nD) : Pipeline.ΦA spec5 c ⊢ (dat5 V c).Φ 0 := .rfl

theorem hout5 (c : Dev nD) : (dat5 V c).Φ (Fin.last cfg5.N) ⊢ Pipeline.ΦA spec5 c := .rfl

end Cert.KernelIdeal.Hand

end
-- ==== Proof.KI.Reg6Runs.lean ====
import proofs.«425279_j44762149159634_1_alg».proof.Proof.Gen.KernelIdeal.Launch
import proofs.«425279_j44762149159634_1_alg».proof.Proof.Gen.KernelIdeal.Skeleton
import proofs.«425279_j44762149159634_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

abbrev cond6_0 (i : grid6.Coords) : Prop := (Scalar.cmpi .ne (Scalar.extui (Scalar.cmpi .eq (BitVec.ofNat 32 (i 0).val) 0#32)) 0#32) = 1#1

theorem hcond6_0 : ∀ t : Fin cfg6.N, cond6_0 (grid6.coords t) ↔ t.val % 20 = 0 :=
  (by decide +kernel : ∀ t : Fin grid6.N, cond6_0 (grid6.coords t) ↔ t.val % 20 = 0)

abbrev cond6_1 (i : grid6.Coords) : Prop := k6_cond2 i = 1#1

theorem hcond6_1 : ∀ t : Fin cfg6.N, cond6_1 (grid6.coords t) ↔ t.val % 20 = 19 :=
  (by decide +kernel : ∀ t : Fin grid6.N, cond6_1 (grid6.coords t) ↔ t.val % 20 = 19)

theorem liveAt6_0 : ∀ t : Fin cfg6.N, cfg6.idle 0 (grid6.coords t) = false := by decide +kernel

theorem liveAt6_1 : ∀ t : Fin cfg6.N, cfg6.idle 1 (grid6.coords t) = false := by decide +kernel

theorem liveAt6_2 : ∀ t : Fin cfg6.N, cfg6.idle 2 (grid6.coords t) = false := by decide +kernel

theorem liveAt6_3 : ∀ t : Fin cfg6.N, cfg6.idle 3 (grid6.coords t) = false := by decide +kernel

theorem liveAt6_4 : ∀ t : Fin cfg6.N, cfg6.idle 4 (grid6.coords t) = false := by decide +kernel

theorem liveAt6_5 : ∀ t : Fin cfg6.N, cfg6.idle 5 (grid6.coords t) = false := by decide +kernel

theorem idleAt6_6_A : ∀ t : Fin cfg6.N, cond6_0 (grid6.coords t) → ¬cond6_1 (grid6.coords t) → cfg6.idle 6 (grid6.coords t) = true := by decide +kernel

theorem noFlush6_6_A : ∀ t : Fin cfg6.N, cond6_0 (grid6.coords t) → ¬cond6_1 (grid6.coords t) → (cfg6.win 6).flush t = false := by decide +kernel

theorem idleAt6_6_B : ∀ t : Fin cfg6.N, ¬cond6_0 (grid6.coords t) → ¬cond6_1 (grid6.coords t) → cfg6.idle 6 (grid6.coords t) = true := by decide +kernel

theorem noFlush6_6_B : ∀ t : Fin cfg6.N, ¬cond6_0 (grid6.coords t) → ¬cond6_1 (grid6.coords t) → (cfg6.win 6).flush t = false := by decide +kernel

theorem liveAt6_6_C : ∀ t : Fin cfg6.N, ¬cond6_0 (grid6.coords t) → cond6_1 (grid6.coords t) → cfg6.idle 6 (grid6.coords t) = false := by decide +kernel

abbrev VO6_6 : View sig .tc .vmem S1024x64 .f32 := (Memref.whole cc6_stg6_0 : Memref sig .tc .vmem S1024x64 .f32).view

abbrev ms6_0 (t : Fin cfg6.N) : Memref sig .tc .vmem S5000x128 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S5000x1 .i32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S128x128 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S1x128 .f32 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S128x64 .f32 := win6_4.stage (cfg6.slots t 4)
abbrev hs6_4 (t : Fin cfg6.N) : (ms6_4 t).IsWhole := hstage6_4 ((cfg6.slots t 4).cast nbuf6_4)
abbrev ms6_5 (t : Fin cfg6.N) : Memref sig .tc .vmem S1x64 .f32 := win6_5.stage (cfg6.slots t 5)
abbrev hs6_5 (t : Fin cfg6.N) : (ms6_5 t).IsWhole := hstage6_5 ((cfg6.slots t 5).cast nbuf6_5)
abbrev ms6_6 (t : Fin cfg6.N) : Memref sig .tc .vmem S1024x64 .f32 := win6_6.stage (cfg6.slots t 6)
abbrev hs6_6 (t : Fin cfg6.N) : (ms6_6 t).IsWhole := hstage6_6 ((cfg6.slots t 6).cast nbuf6_6)

abbrev scM6_0 : Memref sig .tc .vmem S1024x128 .f32 := Memref.whole cc6_scratch0

abbrev VS6_0 : View sig .tc .vmem S1024x128 .f32 := scM6_0.view

theorem PhiA6_eq (c : Dev nD) :
    (Pipeline.ΦA spec6 c : sProp 𝕄)
      = iprop(iprop(iprop((∃ d, owns (c : Thread nD τ) scM6_0 fullShare d)) ∗ Pipeline.scopedRestBut spec6 c [cc6_scratch0]) ∗ (∃ r, prngReg c r)) := by
  unfold Pipeline.ΦA; rw [scopedRest6_split]; simp only [scM6_0, owns_whole]; try rfl

end Cert.KernelIdeal.Hand

end
-- ==== Proof.KI.Reg6RunA.lean ====
import proofs.«425279_j44762149159634_1_alg».proof.Proof.KI.Reg6Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in

noncomputable def kernelRun6_A (c : Dev nD) (i : grid6.Coords) (arg1 : Memref sig .tc .vmem S5000x128 .f32) (harg1 : arg1.IsWhole) (arg2 : Memref sig .tc .vmem S5000x1 .i32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S1024x64 .f32) (harg7 : arg7.IsWhole) (arg8 : Memref sig .tc .vmem S1024x128 .f32) (harg8 : arg8.IsWhole) (hc0 : cond6_0 i) (hc1 : ¬cond6_1 i)
    (x0 : Vec F S5000x128 .f32) (x1 : Vec F S5000x1 .i32) (x2 : Vec F S128x128 .f32) (x3 : Vec F S1x128 .f32) (x4 : Vec F S128x64 .f32) (x5 : Vec F S1x64 .f32) :
    Σ' (L6 : List (View.Piece (Elt F) S1024x64 .f32)), { LS0 : List (View.Piece (Elt F) S1024x128 .f32) //
      ∀ (xi6 : Vec F S1024x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ f, arg8.view.loc (c : Thread nD τ) ↦[arg8.view.set]{fullShare} arg8.view.writes (Elt F) f LS0)) -∗ K ⟨⟩))
          ⊢ wp frame (wpE (defs₀ (F := F)) Variants.none c none) E (cc6__pool_head_kernel i arg1 harg1 arg2 harg2 arg3 harg3 arg4 harg4 arg5 harg5 arg6 harg6 arg7 harg7 arg8 harg8) K } := by
  refine ⟨[], ?_, fun xi6 E K => ?run⟩
  case run =>
    simp only [cc6__pool_head_kernel_eq_skeleton]; unfold cc6__pool_head_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; iexact HS0

end Cert.KernelIdeal.Hand

end
-- ==== Proof.KI.Reg6RunB.lean ====
import proofs.«425279_j44762149159634_1_alg».proof.Proof.KI.Reg6RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in

noncomputable def kernelRun6_B (c : Dev nD) (i : grid6.Coords) (arg1 : Memref sig .tc .vmem S5000x128 .f32) (harg1 : arg1.IsWhole) (arg2 : Memref sig .tc .vmem S5000x1 .i32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S1024x64 .f32) (harg7 : arg7.IsWhole) (arg8 : Memref sig .tc .vmem S1024x128 .f32) (harg8 : arg8.IsWhole) (hc0 : ¬cond6_0 i) (hc1 : ¬cond6_1 i)
    (x0 : Vec F S5000x128 .f32) (x1 : Vec F S5000x1 .i32) (x2 : Vec F S128x128 .f32) (x3 : Vec F S1x128 .f32) (x4 : Vec F S128x64 .f32) (x5 : Vec F S1x64 .f32) (xs0 : Vec F S1024x128 .f32) :
    Σ' (L6 : List (View.Piece (Elt F) S1024x64 .f32)), { LS0 : List (View.Piece (Elt F) S1024x128 .f32) //
      ∀ (xi6 : Vec F S1024x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ f, arg8.view.loc (c : Thread nD τ) ↦[arg8.view.set]{fullShare} arg8.view.writes (Elt F) f LS0)) -∗ K ⟨⟩))
          ⊢ wp frame (wpE (defs₀ (F := F)) Variants.none c none) E (cc6__pool_head_kernel i arg1 harg1 arg2 harg2 arg3 harg3 arg4 harg4 arg5 harg5 arg6 harg6 arg7 harg7 arg8 harg8) K } := by
  refine ⟨[], ?_, fun xi6 E K => ?run⟩
  case run =>
    simp only [cc6__pool_head_kernel_eq_skeleton]; unfold cc6__pool_head_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; iexact HS0

end Cert.KernelIdeal.Hand

end
-- ==== Proof.KI.Reg6RunC.lean ====
import proofs.«425279_j44762149159634_1_alg».proof.Proof.KI.Reg6RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in

noncomputable def kernelRun6_C (c : Dev nD) (i : grid6.Coords) (arg1 : Memref sig .tc .vmem S5000x128 .f32) (harg1 : arg1.IsWhole) (arg2 : Memref sig .tc .vmem S5000x1 .i32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S1024x64 .f32) (harg7 : arg7.IsWhole) (arg8 : Memref sig .tc .vmem S1024x128 .f32) (harg8 : arg8.IsWhole) (hc0 : ¬cond6_0 i) (hc1 : cond6_1 i)
    (x0 : Vec F S5000x128 .f32) (x1 : Vec F S5000x1 .i32) (x2 : Vec F S128x128 .f32) (x3 : Vec F S1x128 .f32) (x4 : Vec F S128x64 .f32) (x5 : Vec F S1x64 .f32) (xs0 : Vec F S1024x128 .f32) :
    Σ' (L6 : List (View.Piece (Elt F) S1024x64 .f32)), { LS0 : List (View.Piece (Elt F) S1024x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0)) -∗ K ⟨⟩))
          ⊢ wp frame (wpE (defs₀ (F := F)) Variants.none c none) E (cc6__pool_head_kernel i arg1 harg1 arg2 harg2 arg3 harg3 arg4 harg4 arg5 harg5 arg6 harg6 arg7 harg7 arg8 harg8) K } := by
  refine ⟨?_, ?_, fun E K => ?run⟩
  case run =>
    simp only [cc6__pool_head_kernel_eq_skeleton]; unfold cc6__pool_head_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact HS0

end Cert.KernelIdeal.Hand

end
-- ==== Proof.KI.Reg6.lean ====
import proofs.«425279_j44762149159634_1_alg».proof.Proof.KI.Reg6RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable (c : Dev nD) (i : grid6.Coords) (arg1 : Memref sig .tc .vmem S5000x128 .f32) (harg1 : arg1.IsWhole) (arg2 : Memref sig .tc .vmem S5000x1 .i32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S1024x64 .f32) (harg7 : arg7.IsWhole) (arg8 : Memref sig .tc .vmem S1024x128 .f32) (harg8 : arg8.IsWhole)
include c i arg1 harg1 arg2 harg2 arg3 harg3 arg4 harg4 arg5 harg5 arg6 harg6 arg7 harg7 arg8 harg8

section
variable (hc0 : cond6_0 i) (hc1 : ¬cond6_1 i) (x0 : Vec F S5000x128 .f32) (x1 : Vec F S5000x1 .i32) (x2 : Vec F S128x128 .f32) (x3 : Vec F S1x128 .f32) (x4 : Vec F S128x64 .f32) (x5 : Vec F S1x64 .f32)
include hc0 hc1 x0 x1 x2 x3 x4 x5

def out6_A_6 : Vec F S1024x64 .f32 :=
  VO6_6.read (Elt F) (VO6_6.writes (Elt F) VO6_6.junk (kernelRun6_A c i arg1 harg1 arg2 harg2 arg3 harg3 arg4 harg4 arg5 harg5 arg6 harg6 arg7 harg7 arg8 harg8 hc0 hc1 x0 x1 x2 x3 x4 x5).1)

theorem scover6_A_0 (y : S1024x128.Idx) :
    ∃ pc ∈ (kernelRun6_A c i arg1 harg1 arg2 harg2 arg3 harg3 arg4 harg4 arg5 harg5 arg6 harg6 arg7 harg7 arg8 harg8 hc0 hc1 x0 x1 x2 x3 x4 x5).2.1, y ∈ pc.1.set :=
  View.cover_of_tiledL (kernelRun6_A c i arg1 harg1 arg2 harg2 arg3 harg3 arg4 harg4 arg5 harg5 arg6 harg6 arg7 harg7 arg8 harg8 hc0 hc1 x0 x1 x2 x3 x4 x5).2.1 S1024x128.size (by sl_kernel_rfl) y

def sout6_A_0 : Vec F S1024x128 .f32 :=
  VS6_0.read (Elt F) (VS6_0.writes (Elt F) VS6_0.junk (kernelRun6_A c i arg1 harg1 arg2 harg2 arg3 harg3 arg4 harg4 arg5 harg5 arg6 harg6 arg7 harg7 arg8 harg8 hc0 hc1 x0 x1 x2 x3 x4 x5).2.1)

def outs6_A : Vec F S1024x64 .f32 × Vec F S1024x128 .f32 :=
  (out6_A_6 c i arg1 harg1 arg2 harg2 arg3 harg3 arg4 harg4 arg5 harg5 arg6 harg6 arg7 harg7 arg8 harg8 hc0 hc1 x0 x1 x2 x3 x4 x5, sout6_A_0 c i arg1 harg1 arg2 harg2 arg3 harg3 arg4 harg4 arg5 harg5 arg6 harg6 arg7 harg7 arg8 harg8 hc0 hc1 x0 x1 x2 x3 x4 x5)

end

section
variable (hc0 : ¬cond6_0 i) (hc1 : ¬cond6_1 i) (x0 : Vec F S5000x128 .f32) (x1 : Vec F S5000x1 .i32) (x2 : Vec F S128x128 .f32) (x3 : Vec F S1x128 .f32) (x4 : Vec F S128x64 .f32) (x5 : Vec F S1x64 .f32) (xs0 : Vec F S1024x128 .f32)
include hc0 hc1 x0 x1 x2 x3 x4 x5 xs0

def out6_B_6 : Vec F S1024x64 .f32 :=
  VO6_6.read (Elt F) (VO6_6.writes (Elt F) VO6_6.junk (kernelRun6_B c i arg1 harg1 arg2 harg2 arg3 harg3 arg4 harg4 arg5 harg5 arg6 harg6 arg7 harg7 arg8 harg8 hc0 hc1 x0 x1 x2 x3 x4 x5 xs0).1)

theorem scover6_B_0 (y : S1024x128.Idx) :
    ∃ pc ∈ (kernelRun6_B c i arg1 harg1 arg2 harg2 arg3 harg3 arg4 harg4 arg5 harg5 arg6 harg6 arg7 harg7 arg8 harg8 hc0 hc1 x0 x1 x2 x3 x4 x5 xs0).2.1, y ∈ pc.1.set :=
  View.cover_of_tiledL (kernelRun6_B c i arg1 harg1 arg2 harg2 arg3 harg3 arg4 harg4 arg5 harg5 arg6 harg6 arg7 harg7 arg8 harg8 hc0 hc1 x0 x1 x2 x3 x4 x5 xs0).2.1 S1024x128.size (by sl_kernel_rfl) y

def sout6_B_0 : Vec F S1024x128 .f32 :=
  VS6_0.read (Elt F) (VS6_0.writes (Elt F) VS6_0.junk (kernelRun6_B c i arg1 harg1 arg2 harg2 arg3 harg3 arg4 harg4 arg5 harg5 arg6 harg6 arg7 harg7 arg8 harg8 hc0 hc1 x0 x1 x2 x3 x4 x5 xs0).2.1)

def outs6_B : Vec F S1024x64 .f32 × Vec F S1024x128 .f32 :=
  (out6_B_6 c i arg1 harg1 arg2 harg2 arg3 harg3 arg4 harg4 arg5 harg5 arg6 harg6 arg7 harg7 arg8 harg8 hc0 hc1 x0 x1 x2 x3 x4 x5 xs0, sout6_B_0 c i arg1 harg1 arg2 harg2 arg3 harg3 arg4 harg4 arg5 harg5 arg6 harg6 arg7 harg7 arg8 harg8 hc0 hc1 x0 x1 x2 x3 x4 x5 xs0)

end

section
variable (hc0 : ¬cond6_0 i) (hc1 : cond6_1 i) (x0 : Vec F S5000x128 .f32) (x1 : Vec F S5000x1 .i32) (x2 : Vec F S128x128 .f32) (x3 : Vec F S1x128 .f32) (x4 : Vec F S128x64 .f32) (x5 : Vec F S1x64 .f32) (xs0 : Vec F S1024x128 .f32)
include hc0 hc1 x0 x1 x2 x3 x4 x5 xs0

theorem cover6_C_6 (y : S1024x64.Idx) :
    ∃ pc ∈ (kernelRun6_C c i arg1 harg1 arg2 harg2 arg3 harg3 arg4 harg4 arg5 harg5 arg6 harg6 arg7 harg7 arg8 harg8 hc0 hc1 x0 x1 x2 x3 x4 x5 xs0).1, y ∈ pc.1.set :=
  View.cover_of_tiledL (kernelRun6_C c i arg1 harg1 arg2 harg2 arg3 harg3 arg4 harg4 arg5 harg5 arg6 harg6 arg7 harg7 arg8 harg8 hc0 hc1 x0 x1 x2 x3 x4 x5 xs0).1 S1024x64.size (by sl_kernel_rfl) y

def out6_C_6 : Vec F S1024x64 .f32 :=
  VO6_6.read (Elt F) (VO6_6.writes (Elt F) VO6_6.junk (kernelRun6_C c i arg1 harg1 arg2 harg2 arg3 harg3 arg4 harg4 arg5 harg5 arg6 harg6 arg7 harg7 arg8 harg8 hc0 hc1 x0 x1 x2 x3 x4 x5 xs0).1)

theorem scover6_C_0 (y : S1024x128.Idx) :
    ∃ pc ∈ (kernelRun6_C c i arg1 harg1 arg2 harg2 arg3 harg3 arg4 harg4 arg5 harg5 arg6 harg6 arg7 harg7 arg8 harg8 hc0 hc1 x0 x1 x2 x3 x4 x5 xs0).2.1, y ∈ pc.1.set :=
  View.cover_of_tiledL (kernelRun6_C c i arg1 harg1 arg2 harg2 arg3 harg3 arg4 harg4 arg5 harg5 arg6 harg6 arg7 harg7 arg8 harg8 hc0 hc1 x0 x1 x2 x3 x4 x5 xs0).2.1 S1024x128.size (by sl_kernel_rfl) y

def sout6_C_0 : Vec F S1024x128 .f32 :=
  VS6_0.read (Elt F) (VS6_0.writes (Elt F) VS6_0.junk (kernelRun6_C c i arg1 harg1 arg2 harg2 arg3 harg3 arg4 harg4 arg5 harg5 arg6 harg6 arg7 harg7 arg8 harg8 hc0 hc1 x0 x1 x2 x3 x4 x5 xs0).2.1)

def outs6_C : Vec F S1024x64 .f32 × Vec F S1024x128 .f32 :=
  (out6_C_6 c i arg1 harg1 arg2 harg2 arg3 harg3 arg4 harg4 arg5 harg5 arg6 harg6 arg7 harg7 arg8 harg8 hc0 hc1 x0 x1 x2 x3 x4 x5 xs0, sout6_C_0 c i arg1 harg1 arg2 harg2 arg3 harg3 arg4 harg4 arg5 harg5 arg6 harg6 arg7 harg7 arg8 harg8 hc0 hc1 x0 x1 x2 x3 x4 x5 xs0)

end

end

def outsAt6 (c : Dev nD) : (n : ℕ) → n < cfg6.N → Vec F S1024x64 .f32 × Vec F S1024x128 .f32
  | 0, hn => outs6_A c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) (ms6_6 ⟨0, hn⟩) (hs6_6 ⟨0, hn⟩) scM6_0 (Memref.isWhole_whole _) ((hcond6_0 ⟨0, hn⟩).mpr (Nat.zero_mod _)) (fun h => (fun h => by (try dsimp only at h); omega) ((hcond6_1 ⟨0, hn⟩).mp h)) (iblk6 V c 0 ⟨0, hn⟩) (iblk6 V c 1 ⟨0, hn⟩) (iblk6 V c 2 ⟨0, hn⟩) (iblk6 V c 3 ⟨0, hn⟩) (iblk6 V c 4 ⟨0, hn⟩) (iblk6 V c 5 ⟨0, hn⟩)
  | n + 1, hn =>
    if h0 : (n + 1) % 20 = 0 then
      if h1 : (n + 1) % 20 = 19 then
        False.elim (by have hN : n + 1 < 20 := lt_of_lt_of_eq hn (show cfg6.N = 20 from N_6); omega)
      else
        outs6_A c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) scM6_0 (Memref.isWhole_whole _) ((hcond6_0 ⟨n + 1, hn⟩).mpr h0) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩)
    else
      if h1 : (n + 1) % 20 = 19 then
        outs6_C c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) scM6_0 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (outsAt6 c n (Nat.lt_of_succ_lt hn)).2
      else
        outs6_B c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) scM6_0 (Memref.isWhole_whole _) (fun h => h0 ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (outsAt6 c n (Nat.lt_of_succ_lt hn)).2

theorem outsAt6_A (c : Dev nD) (t : Fin cfg6.N) (h0 : t.val % 20 = 0) (h1 : ¬t.val % 20 = 19) :
    outsAt6 V c t.val t.isLt = outs6_A c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) scM6_0 (Memref.isWhole_whole _) ((hcond6_0 t).mpr h0) (fun h => h1 ((hcond6_1 t).mp h)) (iblk6 V c 0 t) (iblk6 V c 1 t) (iblk6 V c 2 t) (iblk6 V c 3 t) (iblk6 V c 4 t) (iblk6 V c 5 t) := by
  obtain ⟨n, hn⟩ := t
  cases n with
  | zero => exact rfl
  | succ n => exact (dif_pos h0).trans ((dif_neg h1).trans rfl)

theorem outsAt6_B (c : Dev nD) (t : Fin cfg6.N) (h0 : ¬t.val % 20 = 0) (h1 : ¬t.val % 20 = 19) :
    outsAt6 V c t.val t.isLt = outs6_B c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) scM6_0 (Memref.isWhole_whole _) (fun h => h0 ((hcond6_0 t).mp h)) (fun h => h1 ((hcond6_1 t).mp h)) (iblk6 V c 0 t) (iblk6 V c 1 t) (iblk6 V c 2 t) (iblk6 V c 3 t) (iblk6 V c 4 t) (iblk6 V c 5 t) (outsAt6 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

theorem outsAt6_C (c : Dev nD) (t : Fin cfg6.N) (h0 : ¬t.val % 20 = 0) (h1 : t.val % 20 = 19) :
    outsAt6 V c t.val t.isLt = outs6_C c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) scM6_0 (Memref.isWhole_whole _) (fun h => h0 ((hcond6_0 t).mp h)) ((hcond6_1 t).mpr h1) (iblk6 V c 0 t) (iblk6 V c 1 t) (iblk6 V c 2 t) (iblk6 V c 3 t) (iblk6 V c 4 t) (iblk6 V c 5 t) (outsAt6 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

def PhiS6 (c : Dev nD) : (n : ℕ) → n ≤ cfg6.N → sProp 𝕄
  | 0, _ => Pipeline.ΦA spec6 c
  | n + 1, hn => iprop(iprop(iprop(owns (c : Thread nD τ) scM6_0 fullShare ((outsAt6 V c n hn).2)) ∗ Pipeline.scopedRestBut spec6 c [cc6_scratch0]) ∗ (∃ r, prngReg c r))

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(iprop(iprop(owns (c : Thread nD τ) scM6_0 fullShare ((outsAt6 V c n hn).2)) ∗ Pipeline.scopedRestBut spec6 c [cc6_scratch0]) ∗ (∃ r, prngReg c r)) := rfl

theorem PhiS6_pos (c : Dev nD) (n : ℕ) (h : n ≤ cfg6.N) (hz : n ≠ 0) :
    PhiS6 V c n h = iprop(iprop(iprop(owns (c : Thread nD τ) scM6_0 fullShare ((outsAt6 V c (n - 1) (by omega)).2)) ∗ Pipeline.scopedRestBut spec6 c [cc6_scratch0]) ∗ (∃ r, prngReg c r)) := by
  cases n with
  | zero => exact absurd rfl hz
  | succ n => rfl

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => (outsAt6 V c t.val t.isLt).1
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem PhiS6_castSucc (c : Dev nD) (t : Fin cfg6.N) :
    (dat6 V c).Φ t.castSucc = PhiS6 V c t.val (Nat.le_of_lt t.isLt) := by
  dsimp only [dat6]; simp only [Fin.coe_castSucc]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = (outsAt6 V c t.val t.isLt).1 := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d

def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d))
    ∗ (∃ d, owns (c : Thread nD τ) (ms6_5 t) fullShare ((dat6 V c).before 5 t d))
    ∗ (∃ d, owns (c : Thread nD τ) (ms6_6 t) fullShare ((dat6 V c).before 6 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t
    ∗ (dat6 V c).leavesExact 5 t
    ∗ (dat6 V c).leavesExact 6 t)

set_option maxHeartbeats 4800000 in

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5]
  rw [show (dat6 V c).owesAt () t.succ = (dat6 V c).owesAt () t.castSucc from rfl]
  rw [show (dat6 V c).Φ t.succ = PhiS6 V c (t.val + 1) t.isLt from rfl, PhiS6_succ]
  have hN : t.val < 20 := lt_of_lt_of_eq t.isLt (show cfg6.N = 20 from N_6)
  by_cases h0 : t.val % 20 = 0
  · by_cases h1 : t.val % 20 = 19
    · exfalso; omega
    ·
      rw [show (dat6 V c).leavesExact 0 t = owns (c : Thread nD τ) (ms6_0 t) fullShare ((dat6 V c).after 0 t) from by
        unfold Dat.leavesExact; rw [liveAt6_0 t], after6_0]
      rw [show (dat6 V c).leavesExact 1 t = owns (c : Thread nD τ) (ms6_1 t) fullShare ((dat6 V c).after 1 t) from by
        unfold Dat.leavesExact; rw [liveAt6_1 t], after6_1]
      rw [show (dat6 V c).leavesExact 2 t = owns (c : Thread nD τ) (ms6_2 t) fullShare ((dat6 V c).after 2 t) from by
        unfold Dat.leavesExact; rw [liveAt6_2 t], after6_2]
      rw [show (dat6 V c).leavesExact 3 t = owns (c : Thread nD τ) (ms6_3 t) fullShare ((dat6 V c).after 3 t) from by
        unfold Dat.leavesExact; rw [liveAt6_3 t], after6_3]
      rw [show (dat6 V c).leavesExact 4 t = owns (c : Thread nD τ) (ms6_4 t) fullShare ((dat6 V c).after 4 t) from by
        unfold Dat.leavesExact; rw [liveAt6_4 t], after6_4]
      rw [show (dat6 V c).leavesExact 5 t = owns (c : Thread nD τ) (ms6_5 t) fullShare ((dat6 V c).after 5 t) from by
        unfold Dat.leavesExact; rw [liveAt6_5 t], after6_5]
      rw [Dat.leavesExact_idle (dat6 V c) 6 t (idleAt6_6_A t ((hcond6_0 t).mpr h0) (fun h => h1 ((hcond6_1 t).mp h))) (noFlush6_6_A t ((hcond6_0 t).mpr h0) (fun h => h1 ((hcond6_1 t).mp h)))]
      rw [outsAt6_A V c t h0 h1]
      unfold outs6_A sout6_A_0; (try dsimp only)
      by_cases hz : t.val = 0
      · rw [PhiS6_castSucc V c t, PhiS6_zero V c _ _ hz, PhiA6_eq]
        iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun6_A c (grid6.coords t) _ _ _ _ _ _ _ _ _ _ _ _ _ _ _ _ ((hcond6_0 t).mpr h0) (fun h => h1 ((hcond6_1 t).mp h)) (iblk6 V c 0 t) (iblk6 V c 1 t) (iblk6 V c 2 t) (iblk6 V c 3 t) (iblk6 V c 4 t) (iblk6 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover6_A_0 c _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · exfalso; omega
  · by_cases h1 : t.val % 20 = 19
    ·
      rw [show (dat6 V c).leavesExact 0 t = owns (c : Thread nD τ) (ms6_0 t) fullShare ((dat6 V c).after 0 t) from by
        unfold Dat.leavesExact; rw [liveAt6_0 t], after6_0]
      rw [show (dat6 V c).leavesExact 1 t = owns (c : Thread nD τ) (ms6_1 t) fullShare ((dat6 V c).after 1 t) from by
        unfold Dat.leavesExact; rw [liveAt6_1 t], after6_1]
      rw [show (dat6 V c).leavesExact 2 t = owns (c : Thread nD τ) (ms6_2 t) fullShare ((dat6 V c).after 2 t) from by
        unfold Dat.leavesExact; rw [liveAt6_2 t], after6_2]
      rw [show (dat6 V c).leavesExact 3 t = owns (c : Thread nD τ) (ms6_3 t) fullShare ((dat6 V c).after 3 t) from by
        unfold Dat.leavesExact; rw [liveAt6_3 t], after6_3]
      rw [show (dat6 V c).leavesExact 4 t = owns (c : Thread nD τ) (ms6_4 t) fullShare ((dat6 V c).after 4 t) from by
        unfold Dat.leavesExact; rw [liveAt6_4 t], after6_4]
      rw [show (dat6 V c).leavesExact 5 t = owns (c : Thread nD τ) (ms6_5 t) fullShare ((dat6 V c).after 5 t) from by
        unfold Dat.leavesExact; rw [liveAt6_5 t], after6_5]
      rw [show (dat6 V c).leavesExact 6 t = owns (c : Thread nD τ) (ms6_6 t) fullShare ((dat6 V c).after 6 t) from by
        unfold Dat.leavesExact; rw [liveAt6_6_C t (fun h => h0 ((hcond6_0 t).mp h)) ((hcond6_1 t).mpr h1)], after6_6]
      rw [outsAt6_C V c t h0 h1]
      unfold outs6_C out6_C_6 sout6_C_0; (try dsimp only)
      have hz : t.val ≠ 0 := by omega
      rw [PhiS6_castSucc V c t, PhiS6_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun6_C c (grid6.coords t) _ _ _ _ _ _ _ _ _ _ _ _ _ _ _ _ (fun h => h0 ((hcond6_0 t).mp h)) ((hcond6_1 t).mpr h1) (iblk6 V c 0 t) (iblk6 V c 1 t) (iblk6 V c 2 t) (iblk6 V c 3 t) (iblk6 V c 4 t) (iblk6 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover6_C_0 c _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover6_C_6 c _ _ _ _ _ _ _ _ _ _ _ _ _ _ _ _ _ _ _ _ _ _ _ _ _ _)
    ·
      rw [show (dat6 V c).leavesExact 0 t = owns (c : Thread nD τ) (ms6_0 t) fullShare ((dat6 V c).after 0 t) from by
        unfold Dat.leavesExact; rw [liveAt6_0 t], after6_0]
      rw [show (dat6 V c).leavesExact 1 t = owns (c : Thread nD τ) (ms6_1 t) fullShare ((dat6 V c).after 1 t) from by
        unfold Dat.leavesExact; rw [liveAt6_1 t], after6_1]
      rw [show (dat6 V c).leavesExact 2 t = owns (c : Thread nD τ) (ms6_2 t) fullShare ((dat6 V c).after 2 t) from by
        unfold Dat.leavesExact; rw [liveAt6_2 t], after6_2]
      rw [show (dat6 V c).leavesExact 3 t = owns (c : Thread nD τ) (ms6_3 t) fullShare ((dat6 V c).after 3 t) from by
        unfold Dat.leavesExact; rw [liveAt6_3 t], after6_3]
      rw [show (dat6 V c).leavesExact 4 t = owns (c : Thread nD τ) (ms6_4 t) fullShare ((dat6 V c).after 4 t) from by
        unfold Dat.leavesExact; rw [liveAt6_4 t], after6_4]
      rw [show (dat6 V c).leavesExact 5 t = owns (c : Thread nD τ) (ms6_5 t) fullShare ((dat6 V c).after 5 t) from by
        unfold Dat.leavesExact; rw [liveAt6_5 t], after6_5]
      rw [Dat.leavesExact_idle (dat6 V c) 6 t (idleAt6_6_B t (fun h => h0 ((hcond6_0 t).mp h)) (fun h => h1 ((hcond6_1 t).mp h))) (noFlush6_6_B t (fun h => h0 ((hcond6_0 t).mp h)) (fun h => h1 ((hcond6_1 t).mp h)))]
      rw [outsAt6_B V c t h0 h1]
      unfold outs6_B sout6_B_0; (try dsimp only)
      have hz : t.val ≠ 0 := by omega
      rw [PhiS6_castSucc V c t, PhiS6_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun6_B c (grid6.coords t) _ _ _ _ _ _ _ _ _ _ _ _ _ _ _ _ (fun h => h0 ((hcond6_0 t).mp h)) (fun h => h1 ((hcond6_1 t).mp h)) (iblk6 V c 0 t) (iblk6 V c 1 t) (iblk6 V c 2 t) (iblk6 V c 3 t) (iblk6 V c 4 t) (iblk6 V c 5 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover6_B_0 c _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

theorem body_obligation6 (c : Dev nD) : BodyObligation (dat6 (F := F) V c) (defs₀ (F := F)) Variants.none () Set.univ := fun t => by
  rw [bigSep_W6, bigSep_W6]
  exact sound_body6 V c t

theorem hin6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

theorem Phi_out6 (c : Dev nD) (t : Fin (cfg6.N + 1)) (ht : t.val ≠ 0) : (dat6 V c).Φ t ⊢ Pipeline.ΦA spec6 c := by
  rw [show (dat6 V c).Φ t = PhiS6 V c t.val (Nat.le_of_lt_succ t.isLt) from rfl, PhiS6_pos V c _ _ ht, PhiA6_eq]
  iintro ⟨⟨HS0, Hrest⟩, Hg⟩
  isplitl [HS0 Hrest]
  · isplitl [HS0]
    · iexists _; iexact HS0
    iexact Hrest
  iexact Hg

theorem hout6 (c : Dev nD) : (dat6 V c).Φ (Fin.last cfg6.N) ⊢ Pipeline.ΦA spec6 c :=
  Phi_out6 V c _ (by rw [Fin.val_last]; have : cfg6.N = 20 := N_6; omega)

end Cert.KernelIdeal.Hand

end
-- ==== Proof.KI.Dats.lean ====
import proofs.«425279_j44762149159634_1_alg».proof.Proof.KI.Reg0
import proofs.«425279_j44762149159634_1_alg».proof.Proof.KI.Reg1
import proofs.«425279_j44762149159634_1_alg».proof.Proof.KI.Reg2
import proofs.«425279_j44762149159634_1_alg».proof.Proof.KI.Reg3
import proofs.«425279_j44762149159634_1_alg».proof.Proof.KI.Reg4
import proofs.«425279_j44762149159634_1_alg».proof.Proof.KI.Reg5
import proofs.«425279_j44762149159634_1_alg».proof.Proof.KI.Reg6
import proofs.«425279_j44762149159634_1_alg».proof.Proof.Gen.KernelIdeal.Regions
import Idealize.ShloMosaic.Lib.Pipeline.FrameSuffix
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev Bd0 : Dev nD → Valuation τ sig (Elt F) := fun c b => m (c, b)

abbrev Bd1 : Dev nD → Valuation τ sig (Elt F) := fun c => StableHlo.after hostOps0 (Bd0 m c)

abbrev Rd1 : (c : Dev nD) → (b : Ref sig .tc) → Buf (Elt F) ((c : Thread nD τ).loc b) := fun c b => Bd1 m c b

def Bd2 (c : Dev nD) : Valuation τ sig (Elt F) :=
  Pipeline.withArrays spec0 c (Bd1 m c) fun w => (dat0 (Rd1 m) c).arrAt w cfg0.N
theorem Bd2_arr (c : Dev nD) (w : Fin cfg0.W) :
    Bd2 m c (Proc.devRef .tc (Pipeline.arrRef spec0 w)) = (dat0 (Rd1 m) c).arrAt w cfg0.N := by
  unfold Bd2; exact Pipeline.withArrays_arr spec0 launch0.win.arr_inj c _ _ w
theorem Bd2_of_ne (c : Dev nD) (b : Ref sig .tc) (hb : ∀ w, Pipeline.arrRef spec0 w ≠ b) :
    Bd2 m c (Proc.devRef .tc b) = Bd1 m c (Proc.devRef .tc b) := by
  unfold Bd2; exact Pipeline.withArrays_of_ne spec0 c _ _ b hb
abbrev Rd2 : (c : Dev nD) → (b : Ref sig .tc) → Buf (Elt F) ((c : Thread nD τ).loc b) := fun c b => Bd2 m c b
theorem hF0 (c : Dev nD) (w : Fin cfg0.W) : (dat0 (Rd1 m) c).arrAt w cfg0.N = Rd2 m c (Pipeline.arrRef spec0 w) :=
  (Bd2_arr m c w).symm
theorem hrest0 (c : Dev nD) : ∀ b, b ∉ Finset.univ.image (Pipeline.arrRef spec0) → Rd2 m c b = Rd1 m c b :=
  fun b hb => Bd2_of_ne m c b fun w e => hb (Finset.mem_image.mpr ⟨w, Finset.mem_univ _, e⟩)

abbrev Bd3 : Dev nD → Valuation τ sig (Elt F) := fun c => StableHlo.after hostOps1 (Bd2 m c)

abbrev Rd3 : (c : Dev nD) → (b : Ref sig .tc) → Buf (Elt F) ((c : Thread nD τ).loc b) := fun c b => Bd3 m c b

def Bd4 (c : Dev nD) : Valuation τ sig (Elt F) :=
  Pipeline.withArrays spec1 c (Bd3 m c) fun w => (dat1 (Rd3 m) c).arrAt w cfg1.N
theorem Bd4_arr (c : Dev nD) (w : Fin cfg1.W) :
    Bd4 m c (Proc.devRef .tc (Pipeline.arrRef spec1 w)) = (dat1 (Rd3 m) c).arrAt w cfg1.N := by
  unfold Bd4; exact Pipeline.withArrays_arr spec1 launch1.win.arr_inj c _ _ w
theorem Bd4_of_ne (c : Dev nD) (b : Ref sig .tc) (hb : ∀ w, Pipeline.arrRef spec1 w ≠ b) :
    Bd4 m c (Proc.devRef .tc b) = Bd3 m c (Proc.devRef .tc b) := by
  unfold Bd4; exact Pipeline.withArrays_of_ne spec1 c _ _ b hb
abbrev Rd4 : (c : Dev nD) → (b : Ref sig .tc) → Buf (Elt F) ((c : Thread nD τ).loc b) := fun c b => Bd4 m c b
theorem hF1 (c : Dev nD) (w : Fin cfg1.W) : (dat1 (Rd3 m) c).arrAt w cfg1.N = Rd4 m c (Pipeline.arrRef spec1 w) :=
  (Bd4_arr m c w).symm
theorem hrest1 (c : Dev nD) : ∀ b, b ∉ Finset.univ.image (Pipeline.arrRef spec1) → Rd4 m c b = Rd3 m c b :=
  fun b hb => Bd4_of_ne m c b fun w e => hb (Finset.mem_image.mpr ⟨w, Finset.mem_univ _, e⟩)

abbrev Bd5 : Dev nD → Valuation τ sig (Elt F) := fun c => StableHlo.after hostOps2 (Bd4 m c)

abbrev Rd5 : (c : Dev nD) → (b : Ref sig .tc) → Buf (Elt F) ((c : Thread nD τ).loc b) := fun c b => Bd5 m c b

def Bd6 (c : Dev nD) : Valuation τ sig (Elt F) :=
  Pipeline.withArrays spec2 c (Bd5 m c) fun w => (dat2 (Rd5 m) c).arrAt w cfg2.N
theorem Bd6_arr (c : Dev nD) (w : Fin cfg2.W) :
    Bd6 m c (Proc.devRef .tc (Pipeline.arrRef spec2 w)) = (dat2 (Rd5 m) c).arrAt w cfg2.N := by
  unfold Bd6; exact Pipeline.withArrays_arr spec2 launch2.win.arr_inj c _ _ w
theorem Bd6_of_ne (c : Dev nD) (b : Ref sig .tc) (hb : ∀ w, Pipeline.arrRef spec2 w ≠ b) :
    Bd6 m c (Proc.devRef .tc b) = Bd5 m c (Proc.devRef .tc b) := by
  unfold Bd6; exact Pipeline.withArrays_of_ne spec2 c _ _ b hb
abbrev Rd6 : (c : Dev nD) → (b : Ref sig .tc) → Buf (Elt F) ((c : Thread nD τ).loc b) := fun c b => Bd6 m c b
theorem hF2 (c : Dev nD) (w : Fin cfg2.W) : (dat2 (Rd5 m) c).arrAt w cfg2.N = Rd6 m c (Pipeline.arrRef spec2 w) :=
  (Bd6_arr m c w).symm
theorem hrest2 (c : Dev nD) : ∀ b, b ∉ Finset.univ.image (Pipeline.arrRef spec2) → Rd6 m c b = Rd5 m c b :=
  fun b hb => Bd6_of_ne m c b fun w e => hb (Finset.mem_image.mpr ⟨w, Finset.mem_univ _, e⟩)

abbrev Bd7 : Dev nD → Valuation τ sig (Elt F) := fun c => StableHlo.after hostOps3 (Bd6 m c)

abbrev Rd7 : (c : Dev nD) → (b : Ref sig .tc) → Buf (Elt F) ((c : Thread nD τ).loc b) := fun c b => Bd7 m c b

def Bd8 (c : Dev nD) : Valuation τ sig (Elt F) :=
  Pipeline.withArrays spec3 c (Bd7 m c) fun w => (dat3 (Rd7 m) c).arrAt w cfg3.N
theorem Bd8_arr (c : Dev nD) (w : Fin cfg3.W) :
    Bd8 m c (Proc.devRef .tc (Pipeline.arrRef spec3 w)) = (dat3 (Rd7 m) c).arrAt w cfg3.N := by
  unfold Bd8; exact Pipeline.withArrays_arr spec3 launch3.win.arr_inj c _ _ w
theorem Bd8_of_ne (c : Dev nD) (b : Ref sig .tc) (hb : ∀ w, Pipeline.arrRef spec3 w ≠ b) :
    Bd8 m c (Proc.devRef .tc b) = Bd7 m c (Proc.devRef .tc b) := by
  unfold Bd8; exact Pipeline.withArrays_of_ne spec3 c _ _ b hb
abbrev Rd8 : (c : Dev nD) → (b : Ref sig .tc) → Buf (Elt F) ((c : Thread nD τ).loc b) := fun c b => Bd8 m c b
theorem hF3 (c : Dev nD) (w : Fin cfg3.W) : (dat3 (Rd7 m) c).arrAt w cfg3.N = Rd8 m c (Pipeline.arrRef spec3 w) :=
  (Bd8_arr m c w).symm
theorem hrest3 (c : Dev nD) : ∀ b, b ∉ Finset.univ.image (Pipeline.arrRef spec3) → Rd8 m c b = Rd7 m c b :=
  fun b hb => Bd8_of_ne m c b fun w e => hb (Finset.mem_image.mpr ⟨w, Finset.mem_univ _, e⟩)

abbrev Bd9 : Dev nD → Valuation τ sig (Elt F) := fun c => StableHlo.after hostOps4 (Bd8 m c)

abbrev Rd9 : (c : Dev nD) → (b : Ref sig .tc) → Buf (Elt F) ((c : Thread nD τ).loc b) := fun c b => Bd9 m c b

def Bd10 (c : Dev nD) : Valuation τ sig (Elt F) :=
  Pipeline.withArrays spec4 c (Bd9 m c) fun w => (dat4 (Rd9 m) c).arrAt w cfg4.N
theorem Bd10_arr (c : Dev nD) (w : Fin cfg4.W) :
    Bd10 m c (Proc.devRef .tc (Pipeline.arrRef spec4 w)) = (dat4 (Rd9 m) c).arrAt w cfg4.N := by
  unfold Bd10; exact Pipeline.withArrays_arr spec4 launch4.win.arr_inj c _ _ w
theorem Bd10_of_ne (c : Dev nD) (b : Ref sig .tc) (hb : ∀ w, Pipeline.arrRef spec4 w ≠ b) :
    Bd10 m c (Proc.devRef .tc b) = Bd9 m c (Proc.devRef .tc b) := by
  unfold Bd10; exact Pipeline.withArrays_of_ne spec4 c _ _ b hb
abbrev Rd10 : (c : Dev nD) → (b : Ref sig .tc) → Buf (Elt F) ((c : Thread nD τ).loc b) := fun c b => Bd10 m c b
theorem hF4 (c : Dev nD) (w : Fin cfg4.W) : (dat4 (Rd9 m) c).arrAt w cfg4.N = Rd10 m c (Pipeline.arrRef spec4 w) :=
  (Bd10_arr m c w).symm
theorem hrest4 (c : Dev nD) : ∀ b, b ∉ Finset.univ.image (Pipeline.arrRef spec4) → Rd10 m c b = Rd9 m c b :=
  fun b hb => Bd10_of_ne m c b fun w e => hb (Finset.mem_image.mpr ⟨w, Finset.mem_univ _, e⟩)

abbrev Bd11 : Dev nD → Valuation τ sig (Elt F) := fun c => StableHlo.after hostOps5 (Bd10 m c)

abbrev Rd11 : (c : Dev nD) → (b : Ref sig .tc) → Buf (Elt F) ((c : Thread nD τ).loc b) := fun c b => Bd11 m c b

def Bd12 (c : Dev nD) : Valuation τ sig (Elt F) :=
  Pipeline.withArrays spec5 c (Bd11 m c) fun w => (dat5 (Rd11 m) c).arrAt w cfg5.N
theorem Bd12_arr (c : Dev nD) (w : Fin cfg5.W) :
    Bd12 m c (Proc.devRef .tc (Pipeline.arrRef spec5 w)) = (dat5 (Rd11 m) c).arrAt w cfg5.N := by
  unfold Bd12; exact Pipeline.withArrays_arr spec5 launch5.win.arr_inj c _ _ w
theorem Bd12_of_ne (c : Dev nD) (b : Ref sig .tc) (hb : ∀ w, Pipeline.arrRef spec5 w ≠ b) :
    Bd12 m c (Proc.devRef .tc b) = Bd11 m c (Proc.devRef .tc b) := by
  unfold Bd12; exact Pipeline.withArrays_of_ne spec5 c _ _ b hb
abbrev Rd12 : (c : Dev nD) → (b : Ref sig .tc) → Buf (Elt F) ((c : Thread nD τ).loc b) := fun c b => Bd12 m c b
theorem hF5 (c : Dev nD) (w : Fin cfg5.W) : (dat5 (Rd11 m) c).arrAt w cfg5.N = Rd12 m c (Pipeline.arrRef spec5 w) :=
  (Bd12_arr m c w).symm
theorem hrest5 (c : Dev nD) : ∀ b, b ∉ Finset.univ.image (Pipeline.arrRef spec5) → Rd12 m c b = Rd11 m c b :=
  fun b hb => Bd12_of_ne m c b fun w e => hb (Finset.mem_image.mpr ⟨w, Finset.mem_univ _, e⟩)

abbrev Bd13 : Dev nD → Valuation τ sig (Elt F) := fun c => StableHlo.after hostOps6 (Bd12 m c)

abbrev Rd13 : (c : Dev nD) → (b : Ref sig .tc) → Buf (Elt F) ((c : Thread nD τ).loc b) := fun c b => Bd13 m c b

def Bd14 (c : Dev nD) : Valuation τ sig (Elt F) :=
  Pipeline.withArrays spec6 c (Bd13 m c) fun w => (dat6 (Rd13 m) c).arrAt w cfg6.N
theorem Bd14_arr (c : Dev nD) (w : Fin cfg6.W) :
    Bd14 m c (Proc.devRef .tc (Pipeline.arrRef spec6 w)) = (dat6 (Rd13 m) c).arrAt w cfg6.N := by
  unfold Bd14; exact Pipeline.withArrays_arr spec6 launch6.win.arr_inj c _ _ w
theorem Bd14_of_ne (c : Dev nD) (b : Ref sig .tc) (hb : ∀ w, Pipeline.arrRef spec6 w ≠ b) :
    Bd14 m c (Proc.devRef .tc b) = Bd13 m c (Proc.devRef .tc b) := by
  unfold Bd14; exact Pipeline.withArrays_of_ne spec6 c _ _ b hb
abbrev Rd14 : (c : Dev nD) → (b : Ref sig .tc) → Buf (Elt F) ((c : Thread nD τ).loc b) := fun c b => Bd14 m c b
theorem hF6 (c : Dev nD) (w : Fin cfg6.W) : (dat6 (Rd13 m) c).arrAt w cfg6.N = Rd14 m c (Pipeline.arrRef spec6 w) :=
  (Bd14_arr m c w).symm
theorem hrest6 (c : Dev nD) : ∀ b, b ∉ Finset.univ.image (Pipeline.arrRef spec6) → Rd14 m c b = Rd13 m c b :=
  fun b hb => Bd14_of_ne m c b fun w e => hb (Finset.mem_image.mpr ⟨w, Finset.mem_univ _, e⟩)

def pdats : (p : Fin 7) → (c : Dev nD) → Dat τ (Elt F) Unit ℕ (UR sig nD τ) ℕ (Pipeline.pin (pcfgs (F := F)) adm p) c
  | ⟨0, _⟩ => fun c => dat0 (Rd1 m) c
  | ⟨1, _⟩ => fun c => dat1 (Rd3 m) c
  | ⟨2, _⟩ => fun c => dat2 (Rd5 m) c
  | ⟨3, _⟩ => fun c => dat3 (Rd7 m) c
  | ⟨4, _⟩ => fun c => dat4 (Rd9 m) c
  | ⟨5, _⟩ => fun c => dat5 (Rd11 m) c
  | ⟨6, _⟩ => fun c => dat6 (Rd13 m) c

abbrev Lz : GSem nD τ sig → Finset Unit := fun _ => ∅
abbrev lvz : GSem nD τ sig → Unit → ℕ := fun _ _ => 0

abbrev Ride (c : Dev nD) : sProp 𝕄 := iprop((∃ r, prngReg c r) ∗ ∃ W, owes (c : Thread nD τ) (0 : CellTallies nD τ sig Unit) W)

variable (p : Fin 7)
    (win : Pipeline.WinFacts (Pipeline.pin (pcfgs (F := F)) adm p).spec)
    (block_pos : ∀ w : Fin (Pipeline.pin (pcfgs (F := F)) adm p).W, 0 < ((Pipeline.pin (pcfgs (F := F)) adm p).spec w).block.numel)
    (stage_whole : ∀ (w : Fin (Pipeline.pin (pcfgs (F := F)) adm p).W) (s : Fin ((Pipeline.pin (pcfgs (F := F)) adm p).spec w).nbuf), (((Pipeline.pin (pcfgs (F := F)) adm p).spec w).stage s).IsWhole)
    (arr_whole : ∀ w, ((Pipeline.pin (pcfgs (F := F)) adm p).spec w).arr.IsWhole)
    (B B' : Dev nD → Valuation τ sig (Elt F))
    (hbody : ∀ c, BodyObligation (pdats m p c) (defs₀ (F := F)) Variants.none () Set.univ)
    (hq : ∀ c w, (pdats m p c).q w = fullShare) (howed : ∀ c t, (pdats m p c).owed t = 0)
    (hrec : ∀ c t, (pdats m p c).recorded t = Set.univ)
    (hA : ∀ c w, (pdats m p c).A w = B c (Proc.devRef .tc (Pipeline.arrRef (Pipeline.pin (pcfgs (F := F)) adm p).spec w)))
    (hin : ∀ c, Pipeline.ΦA (Pipeline.pin (pcfgs (F := F)) adm p).spec c ⊢ (pdats m p c).Φ 0)
    (hout : ∀ c, (pdats m p c).Φ (Fin.last _) ⊢ Pipeline.ΦA (Pipeline.pin (pcfgs (F := F)) adm p).spec c)
    (hF : ∀ c w, (pdats m p c).arrAt w (Pipeline.pin (pcfgs (F := F)) adm p).N = B' c (Proc.devRef .tc (Pipeline.arrRef (Pipeline.pin (pcfgs (F := F)) adm p).spec w)))
    (hrest : ∀ c b, b ∉ Finset.univ.image (Pipeline.arrRef (Pipeline.pin (pcfgs (F := F)) adm p).spec) → B' c (Proc.devRef .tc b) = B c (Proc.devRef .tc b))

-- One kernel region as a step of the program: entered with the core's buffers at `B`, left with them at `B'`, which is `B` with the region's arrays at what the region wrote.
set_option backward.isDefEq.respectTransparency.types false in
def regOf : Pipeline.RegionSeg (pcfgs (F := F)) adm (pdats m) () defs₀ Variants.none Lz lvz p where
  win := win.to₀
  block_pos := block_pos
  stage_whole := stage_whole
  K := PEmpty
  osem k := k.elim
  ho := Pipeline.OwnSemFacts.none _
  hbody c := (hbody c).loose
  hwaits := Pipeline.hwaits_of_owed_zero _ _ _ _ Lz lvz p howed
  pre c := iprop(StableHlo.held (c : Thread nD τ) (Pipeline.ucRefs τ sig) (B c) ∗ Ride c)
  post c := iprop(StableHlo.held (c : Thread nD τ) (Pipeline.ucRefs τ sig) (B' c) ∗ Ride c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (fun b => B c (Proc.devRef .tc b))
  hentry c := by
    rw [Pipeline.ownSems0_none]
    have hsplit := Pipeline.arrays_of_unscopedBufs (p := p) (pcfgs (F := F)) adm (pdats m) win arr_whole c
      ((pdats m p c).share_full (hq c)) (fun b => B c (Proc.devRef .tc b)) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      icases HO with ⟨%W, HO⟩; iexists W; isplitr; · ipureintro; exact fun _ _ => Or.inl ((hrec c 0).symm ▸ Set.mem_univ _)
      iexact HO
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    rw [Pipeline.ownSems0_none]
    refine BIBase.Entails.trans (hout c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      win arr_whole c (pdats m) ((pdats m p c).share_full (hq c))
      (fun b => B c (Proc.devRef .tc b)) (fun b => B' c (Proc.devRef .tc b)) ((pdats m p c).arrAt · (Pipeline.pin (pcfgs (F := F)) adm p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

end Cert.KernelIdeal.Hand

end
-- ==== Proof.KI.Seg0.lean ====
import proofs.«425279_j44762149159634_1_alg».proof.Proof.KI.Dats

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg0 : Pipeline.RegionSeg (pcfgs (F := F)) adm (pdats m) () defs₀ Variants.none Lz lvz (0 : Fin 7) :=
  regOf m 0 launch0.win launch0.block_pos launch0.stage_whole launch0.arr_whole (Bd1 m) (Bd2 m)
    (body_obligation0 (Rd1 m)) (fun _ _ => rfl) (fun _ _ => rfl) (fun _ _ => rfl) (fun _ _ => rfl) (hin0 (Rd1 m)) (hout0 (Rd1 m)) (hF0 m) (hrest0 m)

end Cert.KernelIdeal.Hand

end
-- ==== Proof.KI.Seg1.lean ====
import proofs.«425279_j44762149159634_1_alg».proof.Proof.KI.Dats

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg1 : Pipeline.RegionSeg (pcfgs (F := F)) adm (pdats m) () defs₀ Variants.none Lz lvz (1 : Fin 7) :=
  regOf m 1 launch1.win launch1.block_pos launch1.stage_whole launch1.arr_whole (Bd3 m) (Bd4 m)
    (body_obligation1 (Rd3 m)) (fun _ _ => rfl) (fun _ _ => rfl) (fun _ _ => rfl) (fun _ _ => rfl) (hin1 (Rd3 m)) (hout1 (Rd3 m)) (hF1 m) (hrest1 m)

end Cert.KernelIdeal.Hand

end
-- ==== Proof.KI.Seg2.lean ====
import proofs.«425279_j44762149159634_1_alg».proof.Proof.KI.Dats

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg2 : Pipeline.RegionSeg (pcfgs (F := F)) adm (pdats m) () defs₀ Variants.none Lz lvz (2 : Fin 7) :=
  regOf m 2 launch2.win launch2.block_pos launch2.stage_whole launch2.arr_whole (Bd5 m) (Bd6 m)
    (body_obligation2 (Rd5 m)) (fun _ _ => rfl) (fun _ _ => rfl) (fun _ _ => rfl) (fun _ _ => rfl) (hin2 (Rd5 m)) (hout2 (Rd5 m)) (hF2 m) (hrest2 m)

end Cert.KernelIdeal.Hand

end
-- ==== Proof.KI.Seg3.lean ====
import proofs.«425279_j44762149159634_1_alg».proof.Proof.KI.Dats

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg3 : Pipeline.RegionSeg (pcfgs (F := F)) adm (pdats m) () defs₀ Variants.none Lz lvz (3 : Fin 7) :=
  regOf m 3 launch3.win launch3.block_pos launch3.stage_whole launch3.arr_whole (Bd7 m) (Bd8 m)
    (body_obligation3 (Rd7 m)) (fun _ _ => rfl) (fun _ _ => rfl) (fun _ _ => rfl) (fun _ _ => rfl) (hin3 (Rd7 m)) (hout3 (Rd7 m)) (hF3 m) (hrest3 m)

end Cert.KernelIdeal.Hand

end
-- ==== Proof.KI.Seg4.lean ====
import proofs.«425279_j44762149159634_1_alg».proof.Proof.KI.Dats

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg4 : Pipeline.RegionSeg (pcfgs (F := F)) adm (pdats m) () defs₀ Variants.none Lz lvz (4 : Fin 7) :=
  regOf m 4 launch4.win launch4.block_pos launch4.stage_whole launch4.arr_whole (Bd9 m) (Bd10 m)
    (body_obligation4 (Rd9 m)) (fun _ _ => rfl) (fun _ _ => rfl) (fun _ _ => rfl) (fun _ _ => rfl) (hin4 (Rd9 m)) (hout4 (Rd9 m)) (hF4 m) (hrest4 m)

end Cert.KernelIdeal.Hand

end
-- ==== Proof.KI.Seg5.lean ====
import proofs.«425279_j44762149159634_1_alg».proof.Proof.KI.Dats

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg5 : Pipeline.RegionSeg (pcfgs (F := F)) adm (pdats m) () defs₀ Variants.none Lz lvz (5 : Fin 7) :=
  regOf m 5 launch5.win launch5.block_pos launch5.stage_whole launch5.arr_whole (Bd11 m) (Bd12 m)
    (body_obligation5 (Rd11 m)) (fun _ _ => rfl) (fun _ _ => rfl) (fun _ _ => rfl) (fun _ _ => rfl) (hin5 (Rd11 m)) (hout5 (Rd11 m)) (hF5 m) (hrest5 m)

end Cert.KernelIdeal.Hand

end
-- ==== Proof.KI.Seg6.lean ====
import proofs.«425279_j44762149159634_1_alg».proof.Proof.KI.Dats

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg6 : Pipeline.RegionSeg (pcfgs (F := F)) adm (pdats m) () defs₀ Variants.none Lz lvz (6 : Fin 7) :=
  regOf m 6 launch6.win launch6.block_pos launch6.stage_whole launch6.arr_whole (Bd13 m) (Bd14 m)
    (body_obligation6 (Rd13 m)) (fun _ _ => rfl) (fun _ _ => rfl) (fun _ _ => rfl) (fun _ _ => rfl) (hin6 (Rd13 m)) (hout6 (Rd13 m)) (hF6 m) (hrest6 m)

end Cert.KernelIdeal.Hand

end
-- ==== Proof.KI.Run.lean ====
import proofs.«425279_j44762149159634_1_alg».proof.Proof.KI.Seg0
import proofs.«425279_j44762149159634_1_alg».proof.Proof.KI.Seg1
import proofs.«425279_j44762149159634_1_alg».proof.Proof.KI.Seg2
import proofs.«425279_j44762149159634_1_alg».proof.Proof.KI.Seg3
import proofs.«425279_j44762149159634_1_alg».proof.Proof.KI.Seg4
import proofs.«425279_j44762149159634_1_alg».proof.Proof.KI.Seg5
import proofs.«425279_j44762149159634_1_alg».proof.Proof.KI.Seg6

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Ride

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev hsegs : List (Pipeline.Seg (pcfgs (F := F)) adm (pdats m) () defs₀ Variants.none Lz lvz) :=
  [ .host (hseg hostOps0 hostOps0_sub hostOps0_fresh (Bd0 m)),
    .region (reg0 m),
    .host (hseg hostOps1 hostOps1_sub hostOps1_fresh (Bd2 m)),
    .region (reg1 m),
    .host (hseg hostOps2 hostOps2_sub hostOps2_fresh (Bd4 m)),
    .region (reg2 m),
    .host (hseg hostOps3 hostOps3_sub hostOps3_fresh (Bd6 m)),
    .region (reg3 m),
    .host (hseg hostOps4 hostOps4_sub hostOps4_fresh (Bd8 m)),
    .region (reg4 m),
    .host (hseg hostOps5 hostOps5_sub hostOps5_fresh (Bd10 m)),
    .region (reg5 m),
    .host (hseg hostOps6 hostOps6_sub hostOps6_fresh (Bd12 m)),
    .region (reg6 m) ]

theorem main_run (c : Dev nD) : main (F := F) c = Pipeline.Seg.run (hsegs m) := (main_chain c).trans (by chain_rfl)

abbrev Tlast (c : Dev nD) : sProp 𝕄 := iprop(StableHlo.held (c : Thread nD τ) (Pipeline.ucRefs τ sig) (Bd14 m c) ∗ ∃ r, prngReg c r)

theorem lastLink (c : Dev nD) : iprop(StableHlo.held (c : Thread nD τ) (Pipeline.ucRefs τ sig) (Bd14 m c) ∗ Ride (F := F) c)
    ⊢ iprop(Tlast m c ∗ ∃ W, owes (c : Thread nD τ) (0 : CellTallies nD τ sig Unit) W) := by
  iintro ⟨Hh, Hp, HO⟩
  isplitl [Hh Hp]
  · isplitl [Hh]; · iexact Hh
    iexact Hp
  iexact HO

set_option backward.isDefEq.respectTransparency.types false in

theorem run : θ_run defs (onTc (τ := τ) (main (F := F))) ⟨m, fun _ => 0, ρ⟩ (fun r => ∀ c : Dev nD,
      ∀ b ∈ Pipeline.ucRefs τ sig, r.2.mem (((c : Thread nD τ)).1, b) = Bd14 m c b) :=
  Pipeline.θ_run_regions_kit (pcfgs (F := F)) adm (pdats m) () cellOf_inj emb₁ defs₀ Variants.none Lz lvz m ρ main (hsegs m)
    (fun c Q => by rw [main_run m c])
    (by simp only [hsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Bd0 m c) ∗ Ride c)) (Tₙ := Tlast m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => lastLink m c⟩)
    (hinit := by
      refine Pipeline.initEach Lz lvz fun c => ?_
      rw [show unscopedBufs c (fun b => m ((c : Thread nD τ).loc b)) = StableHlo.held (c : Thread nD τ) (Pipeline.ucRefs τ sig) (Bd0 m c)
        from Pipeline.unscopedBufs_held c (Bd0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Bd14 m c b)
    (hfin := fun c s' => by
      iintro ⟨⟨Hh, -⟩, HSI⟩
      unfold StableHlo.held
      imodintro
      iapply (pointsTo_read_all (Pipeline.ucRefs τ sig) (fun b => (((c : Thread nD τ)).1, b)) (Bd14 m c) s')
      isplitl [Hh] <;> iassumption)
    (hQ := fun s h => h)

end Cert.KernelIdeal.Hand

end
-- ==== Proof.KI.Args.lean ====
import proofs.«425279_j44762149159634_1_alg».proof.Proof.KI.Dats

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem keepH0 (c : Dev nD) (b : Ref sig .tc) (h : b ∉ hostOps0_W) : Bd1 m c (Proc.devRef .tc b) = Bd0 m c (Proc.devRef .tc b) :=
  StableHlo.after_of_writes_sub hostOps0 _ hostOps0_writes h

theorem keepR0 (c : Dev nD) (b : Ref sig .tc) (h : ∀ w, Pipeline.arrRef spec0 w ≠ b) : Bd2 m c (Proc.devRef .tc b) = Bd1 m c (Proc.devRef .tc b) :=
  Bd2_of_ne m c b h

theorem keepH1 (c : Dev nD) (b : Ref sig .tc) (h : b ∉ hostOps1_W) : Bd3 m c (Proc.devRef .tc b) = Bd2 m c (Proc.devRef .tc b) :=
  StableHlo.after_of_writes_sub hostOps1 _ hostOps1_writes h

theorem keepR1 (c : Dev nD) (b : Ref sig .tc) (h : ∀ w, Pipeline.arrRef spec1 w ≠ b) : Bd4 m c (Proc.devRef .tc b) = Bd3 m c (Proc.devRef .tc b) :=
  Bd4_of_ne m c b h

theorem keepH2 (c : Dev nD) (b : Ref sig .tc) (h : b ∉ hostOps2_W) : Bd5 m c (Proc.devRef .tc b) = Bd4 m c (Proc.devRef .tc b) :=
  StableHlo.after_of_writes_sub hostOps2 _ hostOps2_writes h

theorem keepR2 (c : Dev nD) (b : Ref sig .tc) (h : ∀ w, Pipeline.arrRef spec2 w ≠ b) : Bd6 m c (Proc.devRef .tc b) = Bd5 m c (Proc.devRef .tc b) :=
  Bd6_of_ne m c b h

theorem keepH3 (c : Dev nD) (b : Ref sig .tc) (h : b ∉ hostOps3_W) : Bd7 m c (Proc.devRef .tc b) = Bd6 m c (Proc.devRef .tc b) :=
  StableHlo.after_of_writes_sub hostOps3 _ hostOps3_writes h

theorem keepR3 (c : Dev nD) (b : Ref sig .tc) (h : ∀ w, Pipeline.arrRef spec3 w ≠ b) : Bd8 m c (Proc.devRef .tc b) = Bd7 m c (Proc.devRef .tc b) :=
  Bd8_of_ne m c b h

theorem keepH4 (c : Dev nD) (b : Ref sig .tc) (h : b ∉ hostOps4_W) : Bd9 m c (Proc.devRef .tc b) = Bd8 m c (Proc.devRef .tc b) :=
  StableHlo.after_of_writes_sub hostOps4 _ hostOps4_writes h

theorem keepR4 (c : Dev nD) (b : Ref sig .tc) (h : ∀ w, Pipeline.arrRef spec4 w ≠ b) : Bd10 m c (Proc.devRef .tc b) = Bd9 m c (Proc.devRef .tc b) :=
  Bd10_of_ne m c b h

theorem keepH5 (c : Dev nD) (b : Ref sig .tc) (h : b ∉ hostOps5_W) : Bd11 m c (Proc.devRef .tc b) = Bd10 m c (Proc.devRef .tc b) :=
  StableHlo.after_of_writes_sub hostOps5 _ hostOps5_writes h

theorem keepR5 (c : Dev nD) (b : Ref sig .tc) (h : ∀ w, Pipeline.arrRef spec5 w ≠ b) : Bd12 m c (Proc.devRef .tc b) = Bd11 m c (Proc.devRef .tc b) :=
  Bd12_of_ne m c b h

theorem keepH6 (c : Dev nD) (b : Ref sig .tc) (h : b ∉ hostOps6_W) : Bd13 m c (Proc.devRef .tc b) = Bd12 m c (Proc.devRef .tc b) :=
  StableHlo.after_of_writes_sub hostOps6 _ hostOps6_writes h

theorem keepR6 (c : Dev nD) (b : Ref sig .tc) (h : ∀ w, Pipeline.arrRef spec6 w ≠ b) : Bd14 m c (Proc.devRef .tc b) = Bd13 m c (Proc.devRef .tc b) :=
  Bd14_of_ne m c b h

theorem keepIn0_arg0 (c : Dev nD) : Bd2 m c (Proc.devRef .tc main_arg0) = Bd1 m c (Proc.devRef .tc main_arg0) :=
  (Bd2_arr m c 0).trans (((dat0 (Rd1 m) c).arrAt_in 0 rfl _).trans (A_eq0 (Rd1 m) c 0))

theorem keepIn6_arg9 (c : Dev nD) : Bd14 m c (Proc.devRef .tc main_arg9) = Bd13 m c (Proc.devRef .tc main_arg9) :=
  (Bd14_arr m c 2).trans (((dat6 (Rd13 m) c).arrAt_in 2 rfl _).trans (A_eq6 (Rd13 m) c 2))

theorem keepIn6_arg11 (c : Dev nD) : Bd14 m c (Proc.devRef .tc main_arg11) = Bd13 m c (Proc.devRef .tc main_arg11) :=
  (Bd14_arr m c 4).trans (((dat6 (Rd13 m) c).arrAt_in 4 rfl _).trans (A_eq6 (Rd13 m) c 4))

-- A buffer that no host stretch writes and that is no region's array holds, at every stage, what the entry memory held.
section
variable (c : Dev nD) (b : Ref sig .tc)
variable (h0 : b ∉ hostOps0_W) (r0 : ∀ w, Pipeline.arrRef spec0 w ≠ b)
include h0 r0
theorem Bd2_keep : Bd2 m c (Proc.devRef .tc b) = m ((c : Thread nD τ).loc b) :=
  (keepR0 m c b r0).trans ((keepH0 m c b h0).trans rfl)
variable (h1 : b ∉ hostOps1_W) (r1 : ∀ w, Pipeline.arrRef spec1 w ≠ b)
include h1 r1
theorem Bd4_keep : Bd4 m c (Proc.devRef .tc b) = m ((c : Thread nD τ).loc b) :=
  (keepR1 m c b r1).trans ((keepH1 m c b h1).trans (Bd2_keep m c b h0 r0))
variable (h2 : b ∉ hostOps2_W) (r2 : ∀ w, Pipeline.arrRef spec2 w ≠ b)
include h2 r2
theorem Bd6_keep : Bd6 m c (Proc.devRef .tc b) = m ((c : Thread nD τ).loc b) :=
  (keepR2 m c b r2).trans ((keepH2 m c b h2).trans (Bd4_keep m c b h0 r0 h1 r1))
variable (h3 : b ∉ hostOps3_W) (r3 : ∀ w, Pipeline.arrRef spec3 w ≠ b)
include h3 r3
theorem Bd8_keep : Bd8 m c (Proc.devRef .tc b) = m ((c : Thread nD τ).loc b) :=
  (keepR3 m c b r3).trans ((keepH3 m c b h3).trans (Bd6_keep m c b h0 r0 h1 r1 h2 r2))
variable (h4 : b ∉ hostOps4_W) (r4 : ∀ w, Pipeline.arrRef spec4 w ≠ b)
include h4 r4
theorem Bd10_keep : Bd10 m c (Proc.devRef .tc b) = m ((c : Thread nD τ).loc b) :=
  (keepR4 m c b r4).trans ((keepH4 m c b h4).trans (Bd8_keep m c b h0 r0 h1 r1 h2 r2 h3 r3))
variable (h5 : b ∉ hostOps5_W) (r5 : ∀ w, Pipeline.arrRef spec5 w ≠ b)
include h5 r5
theorem Bd12_keep : Bd12 m c (Proc.devRef .tc b) = m ((c : Thread nD τ).loc b) :=
  (keepR5 m c b r5).trans ((keepH5 m c b h5).trans (Bd10_keep m c b h0 r0 h1 r1 h2 r2 h3 r3 h4 r4))
variable (h6 : b ∉ hostOps6_W) (r6 : ∀ w, Pipeline.arrRef spec6 w ≠ b)
include h6 r6
theorem Bd14_keep : Bd14 m c (Proc.devRef .tc b) = m ((c : Thread nD τ).loc b) :=
  (keepR6 m c b r6).trans ((keepH6 m c b h6).trans (Bd12_keep m c b h0 r0 h1 r1 h2 r2 h3 r3 h4 r4 h5 r5))
end

theorem Bd14_arg1 (c : Dev nD) : Bd14 m c (Proc.devRef .tc main_arg1) = m ((c : Thread nD τ).loc main_arg1) :=
  Bd14_keep m c _ (by decide) (by decide) (by decide) (by decide) (by decide) (by decide) (by decide) (by decide) (by decide) (by decide) (by decide) (by decide) (by decide) (by decide)

theorem Bd14_arg2 (c : Dev nD) : Bd14 m c (Proc.devRef .tc main_arg2) = m ((c : Thread nD τ).loc main_arg2) :=
  Bd14_keep m c _ (by decide) (by decide) (by decide) (by decide) (by decide) (by decide) (by decide) (by decide) (by decide) (by decide) (by decide) (by decide) (by decide) (by decide)

theorem Bd14_arg3 (c : Dev nD) : Bd14 m c (Proc.devRef .tc main_arg3) = m ((c : Thread nD τ).loc main_arg3) :=
  Bd14_keep m c _ (by decide) (by decide) (by decide) (by decide) (by decide) (by decide) (by decide) (by decide) (by decide) (by decide) (by decide) (by decide) (by decide) (by decide)

theorem Bd14_arg4 (c : Dev nD) : Bd14 m c (Proc.devRef .tc main_arg4) = m ((c : Thread nD τ).loc main_arg4) :=
  Bd14_keep m c _ (by decide) (by decide) (by decide) (by decide) (by decide) (by decide) (by decide) (by decide) (by decide) (by decide) (by decide) (by decide) (by decide) (by decide)

theorem Bd14_arg5 (c : Dev nD) : Bd14 m c (Proc.devRef .tc main_arg5) = m ((c : Thread nD τ).loc main_arg5) :=
  Bd14_keep m c _ (by decide) (by decide) (by decide) (by decide) (by decide) (by decide) (by decide) (by decide) (by decide) (by decide) (by decide) (by decide) (by decide) (by decide)

theorem Bd14_arg6 (c : Dev nD) : Bd14 m c (Proc.devRef .tc main_arg6) = m ((c : Thread nD τ).loc main_arg6) :=
  Bd14_keep m c _ (by decide) (by decide) (by decide) (by decide) (by decide) (by decide) (by decide) (by decide) (by decide) (by decide) (by decide) (by decide) (by decide) (by decide)

theorem Bd14_arg7 (c : Dev nD) : Bd14 m c (Proc.devRef .tc main_arg7) = m ((c : Thread nD τ).loc main_arg7) :=
  Bd14_keep m c _ (by decide) (by decide) (by decide) (by decide) (by decide) (by decide) (by decide) (by decide) (by decide) (by decide) (by decide) (by decide) (by decide) (by decide)

theorem Bd14_arg8 (c : Dev nD) : Bd14 m c (Proc.devRef .tc main_arg8) = m ((c : Thread nD τ).loc main_arg8) :=
  Bd14_keep m c _ (by decide) (by decide) (by decide) (by decide) (by decide) (by decide) (by decide) (by decide) (by decide) (by decide) (by decide) (by decide) (by decide) (by decide)

theorem Bd14_arg10 (c : Dev nD) : Bd14 m c (Proc.devRef .tc main_arg10) = m ((c : Thread nD τ).loc main_arg10) :=
  Bd14_keep m c _ (by decide) (by decide) (by decide) (by decide) (by decide) (by decide) (by decide) (by decide) (by decide) (by decide) (by decide) (by decide) (by decide) (by decide)

theorem Bd14_arg12 (c : Dev nD) : Bd14 m c (Proc.devRef .tc main_arg12) = m ((c : Thread nD τ).loc main_arg12) :=
  Bd14_keep m c _ (by decide) (by decide) (by decide) (by decide) (by decide) (by decide) (by decide) (by decide) (by decide) (by decide) (by decide) (by decide) (by decide) (by decide)

theorem Bd14_arg0 (c : Dev nD) : Bd14 m c (Proc.devRef .tc main_arg0) = m ((c : Thread nD τ).loc main_arg0) :=
  (keepR6 m c main_arg0 (by decide)).trans ((keepH6 m c main_arg0 (by decide)).trans ((keepR5 m c main_arg0 (by decide)).trans ((keepH5 m c main_arg0 (by decide)).trans ((keepR4 m c main_arg0 (by decide)).trans ((keepH4 m c main_arg0 (by decide)).trans ((keepR3 m c main_arg0 (by decide)).trans ((keepH3 m c main_arg0 (by decide)).trans ((keepR2 m c main_arg0 (by decide)).trans ((keepH2 m c main_arg0 (by decide)).trans ((keepR1 m c main_arg0 (by decide)).trans ((keepH1 m c main_arg0 (by decide)).trans ((keepIn0_arg0 m c).trans ((keepH0 m c main_arg0 (by decide)).trans rfl)))))))))))))

theorem Bd14_arg9 (c : Dev nD) : Bd14 m c (Proc.devRef .tc main_arg9) = m ((c : Thread nD τ).loc main_arg9) :=
  (keepIn6_arg9 m c).trans ((keepH6 m c main_arg9 (by decide)).trans (Bd12_keep m c _ (by decide) (by decide) (by decide) (by decide) (by decide) (by decide) (by decide) (by decide) (by decide) (by decide) (by decide) (by decide)))

theorem Bd14_arg11 (c : Dev nD) : Bd14 m c (Proc.devRef .tc main_arg11) = m ((c : Thread nD τ).loc main_arg11) :=
  (keepIn6_arg11 m c).trans ((keepH6 m c main_arg11 (by decide)).trans (Bd12_keep m c _ (by decide) (by decide) (by decide) (by decide) (by decide) (by decide) (by decide) (by decide) (by decide) (by decide) (by decide) (by decide)))

end Cert.KernelIdeal.Hand

end
-- ==== Proof.KI.Frame.lean ====
import proofs.«425279_j44762149159634_1_alg».proof.Proof.KI.Run
import proofs.«425279_j44762149159634_1_alg».proof.Proof.KI.Args

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (Bd14_arg0 m c),
     (h c _ (mem_uc main_arg1 (by decide))).trans (Bd14_arg1 m c),
     (h c _ (mem_uc main_arg2 (by decide))).trans (Bd14_arg2 m c),
     (h c _ (mem_uc main_arg3 (by decide))).trans (Bd14_arg3 m c),
     (h c _ (mem_uc main_arg4 (by decide))).trans (Bd14_arg4 m c),
     (h c _ (mem_uc main_arg5 (by decide))).trans (Bd14_arg5 m c),
     (h c _ (mem_uc main_arg6 (by decide))).trans (Bd14_arg6 m c),
     (h c _ (mem_uc main_arg7 (by decide))).trans (Bd14_arg7 m c),
     (h c _ (mem_uc main_arg8 (by decide))).trans (Bd14_arg8 m c),
     (h c _ (mem_uc main_arg9 (by decide))).trans (Bd14_arg9 m c),
     (h c _ (mem_uc main_arg10 (by decide))).trans (Bd14_arg10 m c),
     (h c _ (mem_uc main_arg11 (by decide))).trans (Bd14_arg11 m c),
     (h c _ (mem_uc main_arg12 (by decide))).trans (Bd14_arg12 m c)⟩) (run m ρ)

end Cert.KernelIdeal.Hand

end
-- ==== Proof.KI.Host.lean ====
import proofs.«425279_j44762149159634_1_alg».proof.Proof.Gen.KernelIdeal.Launch
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

def v1Of (ei : ((⟨S2x1600000, .i32⟩ : BufTy).Contents (Elt F))) : ((⟨S1600000, .i32⟩ : BufTy).Contents (Elt F)) :=
  fun i => shapeCast S1600000 (extractStridedSlice S1x1600000 ![0, 0] ei slices_S2x1600000_S1x1600000_0_0) shapeCasts_S1x1600000_S1600000 i

def v3Of (ei : ((⟨S2x1600000, .i32⟩ : BufTy).Contents (Elt F))) : ((⟨S1600000, .i32⟩ : BufTy).Contents (Elt F)) :=
  fun i => shapeCast S1600000 (extractStridedSlice S1x1600000 ![1, 0] ei slices_S2x1600000_S1x1600000_1_0) shapeCasts_S1x1600000_S1600000 i

def batchCol (b : ((⟨S100000, .i32⟩ : BufTy).Contents (Elt F))) : ((⟨S100000x1, .i32⟩ : BufTy).Contents (Elt F)) :=
  fun i => shapeCast S100000x1 b shapeCasts_S100000_S100000x1 i

def srcCol (v1 : ((⟨S1600000, .i32⟩ : BufTy).Contents (Elt F))) : ((⟨S1600000x1, .i32⟩ : BufTy).Contents (Elt F)) :=
  (broadcastInDim S1600000x1 ![0] bcast_S1600000_S1600000x1_0 : ((⟨S1600000, .i32⟩ : BufTy).Contents (Elt F)) → ((⟨S1600000x1, .i32⟩ : BufTy).Contents (Elt F)))
    ((select : ((⟨S1600000, .i1⟩ : BufTy).Contents (Elt F)) → ((⟨S1600000, .i32⟩ : BufTy).Contents (Elt F)) → ((⟨S1600000, .i32⟩ : BufTy).Contents (Elt F)) → ((⟨S1600000, .i32⟩ : BufTy).Contents (Elt F)))
      ((cmpi .slt : ((⟨S1600000, .i32⟩ : BufTy).Contents (Elt F)) → ((⟨S1600000, .i32⟩ : BufTy).Contents (Elt F)) → ((⟨S1600000, .i1⟩ : BufTy).Contents (Elt F))) v1
        ((broadcastInDim S1600000 ![] bcast_S_S1600000 : ((⟨S_, .i32⟩ : BufTy).Contents (Elt F)) → ((⟨S1600000, .i32⟩ : BufTy).Contents (Elt F))) (constantI S_ 32 0#32)))
      ((addi : ((⟨S1600000, .i32⟩ : BufTy).Contents (Elt F)) → ((⟨S1600000, .i32⟩ : BufTy).Contents (Elt F)) → ((⟨S1600000, .i32⟩ : BufTy).Contents (Elt F))) v1
        ((broadcastInDim S1600000 ![] bcast_S_S1600000 : ((⟨S_, .i32⟩ : BufTy).Contents (Elt F)) → ((⟨S1600000, .i32⟩ : BufTy).Contents (Elt F))) (constantI S_ 32 100000#32)))
      v1)

def dstCol (v3 : ((⟨S1600000, .i32⟩ : BufTy).Contents (Elt F))) : ((⟨S1600000x1, .i32⟩ : BufTy).Contents (Elt F)) :=
  (broadcastInDim S1600000x1 ![0] bcast_S1600000_S1600000x1_0 : ((⟨S1600000, .i32⟩ : BufTy).Contents (Elt F)) → ((⟨S1600000x1, .i32⟩ : BufTy).Contents (Elt F))) v3

def aggOf (x : ((⟨S100000x128, .f32⟩ : BufTy).Contents (Elt F))) (v1 v3 : ((⟨S1600000, .i32⟩ : BufTy).Contents (Elt F))) : ((⟨S100000x128, .f32⟩ : BufTy).Contents (Elt F)) :=
  ((fun x i u => Host.scatterAdd scatter_S100000x128_S1600000x1_S1600000x128_1_0_0_1 x i u) : ((⟨S100000x128, .f32⟩ : BufTy).Contents (Elt F)) → ((⟨S1600000x1, .i32⟩ : BufTy).Contents (Elt F)) → ((⟨S1600000x128, .f32⟩ : BufTy).Contents (Elt F)) → ((⟨S100000x128, .f32⟩ : BufTy).Contents (Elt F)))
    ((broadcastInDim S100000x128 ![] bcast_S_S100000x128 : ((⟨S_, .f32⟩ : BufTy).Contents (Elt F)) → ((⟨S100000x128, .f32⟩ : BufTy).Contents (Elt F))) (constant (F := F) S_ .f32 0x00000000#32))
    (dstCol v3)
    (((fun x i => Host.gather gather_S100000x128_S1600000x1_S1600000x128_1_0_n_n_0_1_1128 x i) : ((⟨S100000x128, .f32⟩ : BufTy).Contents (Elt F)) → ((⟨S1600000x1, .i32⟩ : BufTy).Contents (Elt F)) → ((⟨S1600000x128, .f32⟩ : BufTy).Contents (Elt F))) x (srcCol v1))

def sliceM (l : Fin 3) (W : ((⟨S3x128x128, .f32⟩ : BufTy).Contents (Elt F))) : ((⟨S128x128, .f32⟩ : BufTy).Contents (Elt F)) :=
  match l with
  | 0 => fun i => shapeCast S128x128 (extractStridedSlice S1x128x128 ![0, 0, 0] W slices_S3x128x128_S1x128x128_0_0_0) shapeCasts_S1x128x128_S128x128 i
  | 1 => fun i => shapeCast S128x128 (extractStridedSlice S1x128x128 ![1, 0, 0] W slices_S3x128x128_S1x128x128_1_0_0) shapeCasts_S1x128x128_S128x128 i
  | 2 => fun i => shapeCast S128x128 (extractStridedSlice S1x128x128 ![2, 0, 0] W slices_S3x128x128_S1x128x128_2_0_0) shapeCasts_S1x128x128_S128x128 i

def sliceRow (l : Fin 3) (b : ((⟨S3x128, .f32⟩ : BufTy).Contents (Elt F))) : ((⟨S1x128, .f32⟩ : BufTy).Contents (Elt F)) :=
  match l with
  | 0 => fun i => shapeCast S1x128 (fun j => shapeCast S128 (extractStridedSlice S1x128 ![0, 0] b slices_S3x128_S1x128_0_0) shapeCasts_S1x128_S128 j) shapeCasts_S128_S1x128 i
  | 1 => fun i => shapeCast S1x128 (fun j => shapeCast S128 (extractStridedSlice S1x128 ![1, 0] b slices_S3x128_S1x128_1_0) shapeCasts_S1x128_S128 j) shapeCasts_S128_S1x128 i
  | 2 => fun i => shapeCast S1x128 (fun j => shapeCast S128 (extractStridedSlice S1x128 ![2, 0] b slices_S3x128_S1x128_2_0) shapeCasts_S1x128_S128 j) shapeCasts_S128_S1x128 i

def countRow : ((⟨S1x128, .f32⟩ : BufTy).Contents (Elt F)) :=
  (broadcastInDim S1x128 ![] bcast_S_S1x128 : ((⟨S_, .f32⟩ : BufTy).Contents (Elt F)) → ((⟨S1x128, .f32⟩ : BufTy).Contents (Elt F))) (constant (F := F) S_ .f32 0x47C35000#32)

def meanOf (stats : ((⟨S2x128, .f32⟩ : BufTy).Contents (Elt F))) : ((⟨S1x128, .f32⟩ : BufTy).Contents (Elt F)) :=
  (Host.divf : ((⟨S1x128, .f32⟩ : BufTy).Contents (Elt F)) → ((⟨S1x128, .f32⟩ : BufTy).Contents (Elt F)) → ((⟨S1x128, .f32⟩ : BufTy).Contents (Elt F)))
    (extractStridedSlice S1x128 ![0, 0] stats slices_S2x128_S1x128_0_0) countRow

def varOf (stats : ((⟨S2x128, .f32⟩ : BufTy).Contents (Elt F))) : ((⟨S1x128, .f32⟩ : BufTy).Contents (Elt F)) :=
  (subf : ((⟨S1x128, .f32⟩ : BufTy).Contents (Elt F)) → ((⟨S1x128, .f32⟩ : BufTy).Contents (Elt F)) → ((⟨S1x128, .f32⟩ : BufTy).Contents (Elt F)))
    ((Host.divf : ((⟨S1x128, .f32⟩ : BufTy).Contents (Elt F)) → ((⟨S1x128, .f32⟩ : BufTy).Contents (Elt F)) → ((⟨S1x128, .f32⟩ : BufTy).Contents (Elt F)))
      (extractStridedSlice S1x128 ![1, 0] stats slices_S2x128_S1x128_1_0) countRow)
    ((mulf : ((⟨S1x128, .f32⟩ : BufTy).Contents (Elt F)) → ((⟨S1x128, .f32⟩ : BufTy).Contents (Elt F)) → ((⟨S1x128, .f32⟩ : BufTy).Contents (Elt F))) (meanOf stats) (meanOf stats))

def rowOf128 (b : ((⟨S128, .f32⟩ : BufTy).Contents (Elt F))) : ((⟨S1x128, .f32⟩ : BufTy).Contents (Elt F)) :=
  fun i => shapeCast S1x128 b shapeCasts_S128_S1x128 i

def rowOf64 (b : ((⟨S64, .f32⟩ : BufTy).Contents (Elt F))) : ((⟨S1x64, .f32⟩ : BufTy).Contents (Elt F)) :=
  fun i => shapeCast S1x64 b shapeCasts_S64_S1x64 i

theorem host0_v1 (W : Valuation τ sig (Elt F)) :
    StableHlo.after hostOps0 W (Proc.devRef .tc main_v1) = v1Of (W (Proc.devRef .tc main_arg1)) := by
  after_results; rfl
theorem host0_v3 (W : Valuation τ sig (Elt F)) :
    StableHlo.after hostOps0 W (Proc.devRef .tc main_v3) = v3Of (W (Proc.devRef .tc main_arg1)) := by
  after_results; rfl
theorem host0_v4 (W : Valuation τ sig (Elt F)) :
    StableHlo.after hostOps0 W (Proc.devRef .tc main_v4) = batchCol (W (Proc.devRef .tc main_arg2)) := by
  after_results; rfl
theorem host0_v14 (W : Valuation τ sig (Elt F)) :
    StableHlo.after hostOps0 W (Proc.devRef .tc main_v14) = aggOf (W (Proc.devRef .tc main_arg0)) (v1Of (W (Proc.devRef .tc main_arg1))) (v3Of (W (Proc.devRef .tc main_arg1))) := by
  after_results_simp; rfl
theorem host0_v16 (W : Valuation τ sig (Elt F)) :
    StableHlo.after hostOps0 W (Proc.devRef .tc main_v16) = sliceM 0 (W (Proc.devRef .tc main_arg3)) := by
  after_results; rfl
theorem host0_v19 (W : Valuation τ sig (Elt F)) :
    StableHlo.after hostOps0 W (Proc.devRef .tc main_v19) = sliceRow 0 (W (Proc.devRef .tc main_arg4)) := by
  after_results; rfl

theorem host1_v23 (W : Valuation τ sig (Elt F)) :
    StableHlo.after hostOps1 W (Proc.devRef .tc main_v23) = meanOf (W (Proc.devRef .tc main_v20_1)) := by
  after_results; rfl
theorem host1_v28 (W : Valuation τ sig (Elt F)) :
    StableHlo.after hostOps1 W (Proc.devRef .tc main_v28) = varOf (W (Proc.devRef .tc main_v20_1)) := by
  after_results; rfl
theorem host1_v31 (W : Valuation τ sig (Elt F)) :
    StableHlo.after hostOps1 W (Proc.devRef .tc main_v31) = sliceRow 0 (W (Proc.devRef .tc main_arg5)) := by
  after_results; rfl
theorem host1_v34 (W : Valuation τ sig (Elt F)) :
    StableHlo.after hostOps1 W (Proc.devRef .tc main_v34) = sliceRow 0 (W (Proc.devRef .tc main_arg6)) := by
  after_results; rfl
theorem host1_v36 (W : Valuation τ sig (Elt F)) :
    StableHlo.after hostOps1 W (Proc.devRef .tc main_v36) = sliceM 0 (W (Proc.devRef .tc main_arg7)) := by
  after_results; rfl
theorem host1_v39 (W : Valuation τ sig (Elt F)) :
    StableHlo.after hostOps1 W (Proc.devRef .tc main_v39) = sliceRow 0 (W (Proc.devRef .tc main_arg8)) := by
  after_results; rfl

theorem host2_v50 (W : Valuation τ sig (Elt F)) :
    StableHlo.after hostOps2 W (Proc.devRef .tc main_v50) = aggOf (W (Proc.devRef .tc main_v40)) (W (Proc.devRef .tc main_v1)) (W (Proc.devRef .tc main_v3)) := by
  after_results_simp; rfl
theorem host2_v52 (W : Valuation τ sig (Elt F)) :
    StableHlo.after hostOps2 W (Proc.devRef .tc main_v52) = sliceM 1 (W (Proc.devRef .tc main_arg3)) := by
  after_results; rfl
theorem host2_v55 (W : Valuation τ sig (Elt F)) :
    StableHlo.after hostOps2 W (Proc.devRef .tc main_v55) = sliceRow 1 (W (Proc.devRef .tc main_arg4)) := by
  after_results; rfl

theorem host3_v59 (W : Valuation τ sig (Elt F)) :
    StableHlo.after hostOps3 W (Proc.devRef .tc main_v59) = meanOf (W (Proc.devRef .tc main_v56_1)) := by
  after_results; rfl
theorem host3_v64 (W : Valuation τ sig (Elt F)) :
    StableHlo.after hostOps3 W (Proc.devRef .tc main_v64) = varOf (W (Proc.devRef .tc main_v56_1)) := by
  after_results; rfl
theorem host3_v67 (W : Valuation τ sig (Elt F)) :
    StableHlo.after hostOps3 W (Proc.devRef .tc main_v67) = sliceRow 1 (W (Proc.devRef .tc main_arg5)) := by
  after_results; rfl
theorem host3_v70 (W : Valuation τ sig (Elt F)) :
    StableHlo.after hostOps3 W (Proc.devRef .tc main_v70) = sliceRow 1 (W (Proc.devRef .tc main_arg6)) := by
  after_results; rfl
theorem host3_v72 (W : Valuation τ sig (Elt F)) :
    StableHlo.after hostOps3 W (Proc.devRef .tc main_v72) = sliceM 1 (W (Proc.devRef .tc main_arg7)) := by
  after_results; rfl
theorem host3_v75 (W : Valuation τ sig (Elt F)) :
    StableHlo.after hostOps3 W (Proc.devRef .tc main_v75) = sliceRow 1 (W (Proc.devRef .tc main_arg8)) := by
  after_results; rfl

theorem host4_v86 (W : Valuation τ sig (Elt F)) :
    StableHlo.after hostOps4 W (Proc.devRef .tc main_v86) = aggOf (W (Proc.devRef .tc main_v76)) (W (Proc.devRef .tc main_v1)) (W (Proc.devRef .tc main_v3)) := by
  after_results_simp; rfl
theorem host4_v88 (W : Valuation τ sig (Elt F)) :
    StableHlo.after hostOps4 W (Proc.devRef .tc main_v88) = sliceM 2 (W (Proc.devRef .tc main_arg3)) := by
  after_results; rfl
theorem host4_v91 (W : Valuation τ sig (Elt F)) :
    StableHlo.after hostOps4 W (Proc.devRef .tc main_v91) = sliceRow 2 (W (Proc.devRef .tc main_arg4)) := by
  after_results; rfl

theorem host5_v95 (W : Valuation τ sig (Elt F)) :
    StableHlo.after hostOps5 W (Proc.devRef .tc main_v95) = meanOf (W (Proc.devRef .tc main_v92_1)) := by
  after_results; rfl
theorem host5_v100 (W : Valuation τ sig (Elt F)) :
    StableHlo.after hostOps5 W (Proc.devRef .tc main_v100) = varOf (W (Proc.devRef .tc main_v92_1)) := by
  after_results; rfl
theorem host5_v103 (W : Valuation τ sig (Elt F)) :
    StableHlo.after hostOps5 W (Proc.devRef .tc main_v103) = sliceRow 2 (W (Proc.devRef .tc main_arg5)) := by
  after_results; rfl
theorem host5_v106 (W : Valuation τ sig (Elt F)) :
    StableHlo.after hostOps5 W (Proc.devRef .tc main_v106) = sliceRow 2 (W (Proc.devRef .tc main_arg6)) := by
  after_results; rfl
theorem host5_v108 (W : Valuation τ sig (Elt F)) :
    StableHlo.after hostOps5 W (Proc.devRef .tc main_v108) = sliceM 2 (W (Proc.devRef .tc main_arg7)) := by
  after_results; rfl
theorem host5_v111 (W : Valuation τ sig (Elt F)) :
    StableHlo.after hostOps5 W (Proc.devRef .tc main_v111) = sliceRow 2 (W (Proc.devRef .tc main_arg8)) := by
  after_results; rfl

theorem host6_v113 (W : Valuation τ sig (Elt F)) :
    StableHlo.after hostOps6 W (Proc.devRef .tc main_v113) = rowOf128 (W (Proc.devRef .tc main_arg10)) := by
  after_results; rfl
theorem host6_v114 (W : Valuation τ sig (Elt F)) :
    StableHlo.after hostOps6 W (Proc.devRef .tc main_v114) = rowOf64 (W (Proc.devRef .tc main_arg12)) := by
  after_results; rfl

end Cert.KernelIdeal.Hand

end
-- ==== Proof.KI.Chain.lean ====
import proofs.«425279_j44762149159634_1_alg».proof.Proof.KI.Args
import proofs.«425279_j44762149159634_1_alg».proof.Proof.KI.Host

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev argAt (c : Dev nD) (b : Ref sig .tc) : Buf (Elt F) ((c : Thread nD τ).loc b) := m ((c : Thread nD τ).loc b)

abbrev srcV (c : Dev nD) := v1Of (F := F) (argAt m c main_arg1)
abbrev dstV (c : Dev nD) := v3Of (F := F) (argAt m c main_arg1)

theorem Bd1_v1 (c : Dev nD) : Bd1 m c (Proc.devRef .tc main_v1) = srcV m c := host0_v1 (Bd0 m c)
theorem Bd1_v3 (c : Dev nD) : Bd1 m c (Proc.devRef .tc main_v3) = dstV m c := host0_v3 (Bd0 m c)
theorem Bd4_v1 (c : Dev nD) : Bd4 m c (Proc.devRef .tc main_v1) = srcV m c :=
  (keepR1 m c main_v1 (by decide)).trans ((keepH1 m c main_v1 (by decide)).trans ((keepR0 m c main_v1 (by decide)).trans (Bd1_v1 m c)))
theorem Bd4_v3 (c : Dev nD) : Bd4 m c (Proc.devRef .tc main_v3) = dstV m c :=
  (keepR1 m c main_v3 (by decide)).trans ((keepH1 m c main_v3 (by decide)).trans ((keepR0 m c main_v3 (by decide)).trans (Bd1_v3 m c)))
theorem Bd8_v1 (c : Dev nD) : Bd8 m c (Proc.devRef .tc main_v1) = srcV m c :=
  (keepR3 m c main_v1 (by decide)).trans ((keepH3 m c main_v1 (by decide)).trans ((keepR2 m c main_v1 (by decide)).trans ((keepH2 m c main_v1 (by decide)).trans (Bd4_v1 m c))))
theorem Bd8_v3 (c : Dev nD) : Bd8 m c (Proc.devRef .tc main_v3) = dstV m c :=
  (keepR3 m c main_v3 (by decide)).trans ((keepH3 m c main_v3 (by decide)).trans ((keepR2 m c main_v3 (by decide)).trans ((keepH2 m c main_v3 (by decide)).trans (Bd4_v3 m c))))

theorem Bd2_arg5 (c : Dev nD) : Bd2 m c (Proc.devRef .tc main_arg5) = argAt m c main_arg5 :=
  Bd2_keep m c _ (by decide) (by decide)
theorem Bd2_arg6 (c : Dev nD) : Bd2 m c (Proc.devRef .tc main_arg6) = argAt m c main_arg6 :=
  Bd2_keep m c _ (by decide) (by decide)
theorem Bd2_arg7 (c : Dev nD) : Bd2 m c (Proc.devRef .tc main_arg7) = argAt m c main_arg7 :=
  Bd2_keep m c _ (by decide) (by decide)
theorem Bd2_arg8 (c : Dev nD) : Bd2 m c (Proc.devRef .tc main_arg8) = argAt m c main_arg8 :=
  Bd2_keep m c _ (by decide) (by decide)
theorem Bd4_arg3 (c : Dev nD) : Bd4 m c (Proc.devRef .tc main_arg3) = argAt m c main_arg3 :=
  Bd4_keep m c _ (by decide) (by decide) (by decide) (by decide)
theorem Bd4_arg4 (c : Dev nD) : Bd4 m c (Proc.devRef .tc main_arg4) = argAt m c main_arg4 :=
  Bd4_keep m c _ (by decide) (by decide) (by decide) (by decide)
theorem Bd6_arg5 (c : Dev nD) : Bd6 m c (Proc.devRef .tc main_arg5) = argAt m c main_arg5 :=
  Bd6_keep m c _ (by decide) (by decide) (by decide) (by decide) (by decide) (by decide)
theorem Bd6_arg6 (c : Dev nD) : Bd6 m c (Proc.devRef .tc main_arg6) = argAt m c main_arg6 :=
  Bd6_keep m c _ (by decide) (by decide) (by decide) (by decide) (by decide) (by decide)
theorem Bd6_arg7 (c : Dev nD) : Bd6 m c (Proc.devRef .tc main_arg7) = argAt m c main_arg7 :=
  Bd6_keep m c _ (by decide) (by decide) (by decide) (by decide) (by decide) (by decide)
theorem Bd6_arg8 (c : Dev nD) : Bd6 m c (Proc.devRef .tc main_arg8) = argAt m c main_arg8 :=
  Bd6_keep m c _ (by decide) (by decide) (by decide) (by decide) (by decide) (by decide)
theorem Bd8_arg3 (c : Dev nD) : Bd8 m c (Proc.devRef .tc main_arg3) = argAt m c main_arg3 :=
  Bd8_keep m c _ (by decide) (by decide) (by decide) (by decide) (by decide) (by decide) (by decide) (by decide)
theorem Bd8_arg4 (c : Dev nD) : Bd8 m c (Proc.devRef .tc main_arg4) = argAt m c main_arg4 :=
  Bd8_keep m c _ (by decide) (by decide) (by decide) (by decide) (by decide) (by decide) (by decide) (by decide)
theorem Bd10_arg5 (c : Dev nD) : Bd10 m c (Proc.devRef .tc main_arg5) = argAt m c main_arg5 :=
  Bd10_keep m c _ (by decide) (by decide) (by decide) (by decide) (by decide) (by decide) (by decide) (by decide) (by decide) (by decide)
theorem Bd10_arg6 (c : Dev nD) : Bd10 m c (Proc.devRef .tc main_arg6) = argAt m c main_arg6 :=
  Bd10_keep m c _ (by decide) (by decide) (by decide) (by decide) (by decide) (by decide) (by decide) (by decide) (by decide) (by decide)
theorem Bd10_arg7 (c : Dev nD) : Bd10 m c (Proc.devRef .tc main_arg7) = argAt m c main_arg7 :=
  Bd10_keep m c _ (by decide) (by decide) (by decide) (by decide) (by decide) (by decide) (by decide) (by decide) (by decide) (by decide)
theorem Bd10_arg8 (c : Dev nD) : Bd10 m c (Proc.devRef .tc main_arg8) = argAt m c main_arg8 :=
  Bd10_keep m c _ (by decide) (by decide) (by decide) (by decide) (by decide) (by decide) (by decide) (by decide) (by decide) (by decide)
theorem Bd12_arg10 (c : Dev nD) : Bd12 m c (Proc.devRef .tc main_arg10) = argAt m c main_arg10 :=
  Bd12_keep m c _ (by decide) (by decide) (by decide) (by decide) (by decide) (by decide) (by decide) (by decide) (by decide) (by decide) (by decide) (by decide)
theorem Bd12_arg12 (c : Dev nD) : Bd12 m c (Proc.devRef .tc main_arg12) = argAt m c main_arg12 :=
  Bd12_keep m c _ (by decide) (by decide) (by decide) (by decide) (by decide) (by decide) (by decide) (by decide) (by decide) (by decide) (by decide) (by decide)
theorem Bd13_arg9 (c : Dev nD) : Bd13 m c (Proc.devRef .tc main_arg9) = argAt m c main_arg9 :=
  (keepH6 m c _ (by decide)).trans (Bd12_keep m c _ (by decide) (by decide) (by decide) (by decide) (by decide) (by decide) (by decide) (by decide) (by decide) (by decide) (by decide) (by decide))
theorem Bd13_arg11 (c : Dev nD) : Bd13 m c (Proc.devRef .tc main_arg11) = argAt m c main_arg11 :=
  (keepH6 m c _ (by decide)).trans (Bd12_keep m c _ (by decide) (by decide) (by decide) (by decide) (by decide) (by decide) (by decide) (by decide) (by decide) (by decide) (by decide) (by decide))

abbrev xIn0 (c : Dev nD) := argAt m c main_arg0

abbrev zOut0 (c : Dev nD) := (dat0 (Rd1 m) c).arrAt 4 cfg0.N
abbrev stOut0 (c : Dev nD) := (dat0 (Rd1 m) c).arrAt 5 cfg0.N
abbrev xOut0 (c : Dev nD) := (dat1 (Rd3 m) c).arrAt 7 cfg1.N
abbrev zOut1 (c : Dev nD) := (dat2 (Rd5 m) c).arrAt 4 cfg2.N
abbrev stOut1 (c : Dev nD) := (dat2 (Rd5 m) c).arrAt 5 cfg2.N
abbrev xOut1 (c : Dev nD) := (dat3 (Rd7 m) c).arrAt 7 cfg3.N
abbrev zOut2 (c : Dev nD) := (dat4 (Rd9 m) c).arrAt 4 cfg4.N
abbrev stOut2 (c : Dev nD) := (dat4 (Rd9 m) c).arrAt 5 cfg4.N
abbrev xOut2 (c : Dev nD) := (dat5 (Rd11 m) c).arrAt 7 cfg5.N

theorem in0_0 (c : Dev nD) : Rd1 m c (Pipeline.arrRef spec0 0) = xIn0 m c := keepH0 m c main_arg0 (by decide)
theorem in0_1 (c : Dev nD) : Rd1 m c (Pipeline.arrRef spec0 1) = aggOf (xIn0 m c) (srcV m c) (dstV m c) := host0_v14 (Bd0 m c)
theorem in0_2 (c : Dev nD) : Rd1 m c (Pipeline.arrRef spec0 2) = sliceM 0 (argAt m c main_arg3) := host0_v16 (Bd0 m c)
theorem in0_3 (c : Dev nD) : Rd1 m c (Pipeline.arrRef spec0 3) = sliceRow 0 (argAt m c main_arg4) := host0_v19 (Bd0 m c)
theorem Bd2_z (c : Dev nD) : Bd2 m c (Proc.devRef .tc main_v20_0) = zOut0 m c := Bd2_arr m c 4
theorem Bd2_st (c : Dev nD) : Bd2 m c (Proc.devRef .tc main_v20_1) = stOut0 m c := Bd2_arr m c 5
theorem in1_0 (c : Dev nD) : Rd3 m c (Pipeline.arrRef spec1 0) = zOut0 m c := (keepH1 m c main_v20_0 (by decide)).trans (Bd2_z m c)
theorem in1_1 (c : Dev nD) : Rd3 m c (Pipeline.arrRef spec1 1) = meanOf (stOut0 m c) := by
  refine (host1_v23 (Bd2 m c)).trans ?_; rw [Bd2_st m c]
theorem in1_2 (c : Dev nD) : Rd3 m c (Pipeline.arrRef spec1 2) = varOf (stOut0 m c) := by
  refine (host1_v28 (Bd2 m c)).trans ?_; rw [Bd2_st m c]
theorem in1_3 (c : Dev nD) : Rd3 m c (Pipeline.arrRef spec1 3) = sliceRow 0 (argAt m c main_arg5) := by
  refine (host1_v31 (Bd2 m c)).trans ?_; rw [Bd2_arg5 m c]
theorem in1_4 (c : Dev nD) : Rd3 m c (Pipeline.arrRef spec1 4) = sliceRow 0 (argAt m c main_arg6) := by
  refine (host1_v34 (Bd2 m c)).trans ?_; rw [Bd2_arg6 m c]
theorem in1_5 (c : Dev nD) : Rd3 m c (Pipeline.arrRef spec1 5) = sliceM 0 (argAt m c main_arg7) := by
  refine (host1_v36 (Bd2 m c)).trans ?_; rw [Bd2_arg7 m c]
theorem in1_6 (c : Dev nD) : Rd3 m c (Pipeline.arrRef spec1 6) = sliceRow 0 (argAt m c main_arg8) := by
  refine (host1_v39 (Bd2 m c)).trans ?_; rw [Bd2_arg8 m c]

theorem Bd4_x (c : Dev nD) : Bd4 m c (Proc.devRef .tc main_v40) = xOut0 m c := Bd4_arr m c 7
theorem in2_0 (c : Dev nD) : Rd5 m c (Pipeline.arrRef spec2 0) = xOut0 m c := (keepH2 m c main_v40 (by decide)).trans (Bd4_x m c)
theorem in2_1 (c : Dev nD) : Rd5 m c (Pipeline.arrRef spec2 1) = aggOf (xOut0 m c) (srcV m c) (dstV m c) := by
  refine (host2_v50 (Bd4 m c)).trans ?_
  rw [Bd4_x m c, Bd4_v1 m c, Bd4_v3 m c]
theorem in2_2 (c : Dev nD) : Rd5 m c (Pipeline.arrRef spec2 2) = sliceM 1 (argAt m c main_arg3) := by
  refine (host2_v52 (Bd4 m c)).trans ?_; rw [Bd4_arg3 m c]
theorem in2_3 (c : Dev nD) : Rd5 m c (Pipeline.arrRef spec2 3) = sliceRow 1 (argAt m c main_arg4) := by
  refine (host2_v55 (Bd4 m c)).trans ?_; rw [Bd4_arg4 m c]
theorem Bd6_z (c : Dev nD) : Bd6 m c (Proc.devRef .tc main_v56_0) = zOut1 m c := Bd6_arr m c 4
theorem Bd6_st (c : Dev nD) : Bd6 m c (Proc.devRef .tc main_v56_1) = stOut1 m c := Bd6_arr m c 5
theorem in3_0 (c : Dev nD) : Rd7 m c (Pipeline.arrRef spec3 0) = zOut1 m c := (keepH3 m c main_v56_0 (by decide)).trans (Bd6_z m c)
theorem in3_1 (c : Dev nD) : Rd7 m c (Pipeline.arrRef spec3 1) = meanOf (stOut1 m c) := by
  refine (host3_v59 (Bd6 m c)).trans ?_; rw [Bd6_st m c]
theorem in3_2 (c : Dev nD) : Rd7 m c (Pipeline.arrRef spec3 2) = varOf (stOut1 m c) := by
  refine (host3_v64 (Bd6 m c)).trans ?_; rw [Bd6_st m c]
theorem in3_3 (c : Dev nD) : Rd7 m c (Pipeline.arrRef spec3 3) = sliceRow 1 (argAt m c main_arg5) := by
  refine (host3_v67 (Bd6 m c)).trans ?_; rw [Bd6_arg5 m c]
theorem in3_4 (c : Dev nD) : Rd7 m c (Pipeline.arrRef spec3 4) = sliceRow 1 (argAt m c main_arg6) := by
  refine (host3_v70 (Bd6 m c)).trans ?_; rw [Bd6_arg6 m c]
theorem in3_5 (c : Dev nD) : Rd7 m c (Pipeline.arrRef spec3 5) = sliceM 1 (argAt m c main_arg7) := by
  refine (host3_v72 (Bd6 m c)).trans ?_; rw [Bd6_arg7 m c]
theorem in3_6 (c : Dev nD) : Rd7 m c (Pipeline.arrRef spec3 6) = sliceRow 1 (argAt m c main_arg8) := by
  refine (host3_v75 (Bd6 m c)).trans ?_; rw [Bd6_arg8 m c]

theorem Bd8_x (c : Dev nD) : Bd8 m c (Proc.devRef .tc main_v76) = xOut1 m c := Bd8_arr m c 7
theorem in4_0 (c : Dev nD) : Rd9 m c (Pipeline.arrRef spec4 0) = xOut1 m c := (keepH4 m c main_v76 (by decide)).trans (Bd8_x m c)
theorem in4_1 (c : Dev nD) : Rd9 m c (Pipeline.arrRef spec4 1) = aggOf (xOut1 m c) (srcV m c) (dstV m c) := by
  refine (host4_v86 (Bd8 m c)).trans ?_
  rw [Bd8_x m c, Bd8_v1 m c, Bd8_v3 m c]
theorem in4_2 (c : Dev nD) : Rd9 m c (Pipeline.arrRef spec4 2) = sliceM 2 (argAt m c main_arg3) := by
  refine (host4_v88 (Bd8 m c)).trans ?_; rw [Bd8_arg3 m c]
theorem in4_3 (c : Dev nD) : Rd9 m c (Pipeline.arrRef spec4 3) = sliceRow 2 (argAt m c main_arg4) := by
  refine (host4_v91 (Bd8 m c)).trans ?_; rw [Bd8_arg4 m c]
theorem Bd10_z (c : Dev nD) : Bd10 m c (Proc.devRef .tc main_v92_0) = zOut2 m c := Bd10_arr m c 4
theorem Bd10_st (c : Dev nD) : Bd10 m c (Proc.devRef .tc main_v92_1) = stOut2 m c := Bd10_arr m c 5
theorem in5_0 (c : Dev nD) : Rd11 m c (Pipeline.arrRef spec5 0) = zOut2 m c := (keepH5 m c main_v92_0 (by decide)).trans (Bd10_z m c)
theorem in5_1 (c : Dev nD) : Rd11 m c (Pipeline.arrRef spec5 1) = meanOf (stOut2 m c) := by
  refine (host5_v95 (Bd10 m c)).trans ?_; rw [Bd10_st m c]
theorem in5_2 (c : Dev nD) : Rd11 m c (Pipeline.arrRef spec5 2) = varOf (stOut2 m c) := by
  refine (host5_v100 (Bd10 m c)).trans ?_; rw [Bd10_st m c]
theorem in5_3 (c : Dev nD) : Rd11 m c (Pipeline.arrRef spec5 3) = sliceRow 2 (argAt m c main_arg5) := by
  refine (host5_v103 (Bd10 m c)).trans ?_; rw [Bd10_arg5 m c]
theorem in5_4 (c : Dev nD) : Rd11 m c (Pipeline.arrRef spec5 4) = sliceRow 2 (argAt m c main_arg6) := by
  refine (host5_v106 (Bd10 m c)).trans ?_; rw [Bd10_arg6 m c]
theorem in5_5 (c : Dev nD) : Rd11 m c (Pipeline.arrRef spec5 5) = sliceM 2 (argAt m c main_arg7) := by
  refine (host5_v108 (Bd10 m c)).trans ?_; rw [Bd10_arg7 m c]
theorem in5_6 (c : Dev nD) : Rd11 m c (Pipeline.arrRef spec5 6) = sliceRow 2 (argAt m c main_arg8) := by
  refine (host5_v111 (Bd10 m c)).trans ?_; rw [Bd10_arg8 m c]

theorem Bd12_x (c : Dev nD) : Bd12 m c (Proc.devRef .tc main_v112) = xOut2 m c := Bd12_arr m c 7
theorem in6_0 (c : Dev nD) : Rd13 m c (Pipeline.arrRef spec6 0) = xOut2 m c := (keepH6 m c main_v112 (by decide)).trans (Bd12_x m c)
theorem in6_1 (c : Dev nD) : Rd13 m c (Pipeline.arrRef spec6 1) = batchCol (argAt m c main_arg2) :=
  (keepH6 m c main_v4 (by decide)).trans ((keepR5 m c main_v4 (by decide)).trans ((keepH5 m c main_v4 (by decide)).trans ((keepR4 m c main_v4 (by decide)).trans ((keepH4 m c main_v4 (by decide)).trans
    ((keepR3 m c main_v4 (by decide)).trans ((keepH3 m c main_v4 (by decide)).trans ((keepR2 m c main_v4 (by decide)).trans ((keepH2 m c main_v4 (by decide)).trans ((keepR1 m c main_v4 (by decide)).trans
    ((keepH1 m c main_v4 (by decide)).trans ((keepR0 m c main_v4 (by decide)).trans (host0_v4 (Bd0 m c)))))))))))))
theorem in6_2 (c : Dev nD) : Rd13 m c (Pipeline.arrRef spec6 2) = argAt m c main_arg9 := Bd13_arg9 m c
theorem in6_3 (c : Dev nD) : Rd13 m c (Pipeline.arrRef spec6 3) = rowOf128 (argAt m c main_arg10) := by
  refine (host6_v113 (Bd12 m c)).trans ?_; rw [Bd12_arg10 m c]
theorem in6_4 (c : Dev nD) : Rd13 m c (Pipeline.arrRef spec6 4) = argAt m c main_arg11 := Bd13_arg11 m c
theorem in6_5 (c : Dev nD) : Rd13 m c (Pipeline.arrRef spec6 5) = rowOf64 (argAt m c main_arg12) := by
  refine (host6_v114 (Bd12 m c)).trans ?_; rw [Bd12_arg12 m c]

theorem Bd14_result (c : Dev nD) : Bd14 m c (Proc.devRef .tc main_v115) = (dat6 (Rd13 m) c).arrAt 6 cfg6.N := Bd14_arr m c 6

end Cert.KernelIdeal.Hand

end
-- ==== Proof.KI.Pieces0.lean ====
import proofs.«425279_j44762149159634_1_alg».proof.Proof.KI.Reg0
import Idealize.ShloMosaic.Lib.Pipeline.Value
import Idealize.ShloMosaic.Lib.ValueIdx
import Idealize.ShloMosaic.Lib.WritesUnit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

section
variable (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S2x128 .f32) (harg6 : arg6.IsWhole) (arg7 : Memref sig .tc .vmem S1x128 .f32) (harg7 : arg7.IsWhole) (arg8 : Memref sig .tc .vmem S1x128 .f32) (harg8 : arg8.IsWhole)
include c i arg1 harg1 arg2 harg2 arg3 harg3 arg4 harg4 arg5 harg5 arg6 harg6 arg7 harg7 arg8 harg8

section
variable (hc0 : cond0_0 i) (hc1 : ¬cond0_1 i) (x0 : Vec F S5000x128 .f32) (x1 : Vec F S5000x128 .f32) (x2 : Vec F S128x128 .f32) (x3 : Vec F S1x128 .f32)
include hc0 hc1 x0 x1 x2 x3

theorem out0_A_4_eq :
    out0_A_4 c i arg1 harg1 arg2 harg2 arg3 harg3 arg4 harg4 arg5 harg5 arg6 harg6 arg7 harg7 arg8 harg8 hc0 hc1 x0 x1 x2 x3 = k0_pay3 x0 x1 x2 x3 := by
  have hz : (![0, 0] : Fin 2 → Nat) = fun _ => 0 := funext fun a => by fin_cases a <;> rfl
  unfold out0_A_4
  rw [View.read_writes_eq_canon _ _ _ (cover0_A_4 c i arg1 harg1 arg2 harg2 arg3 harg3 arg4 harg4 arg5 harg5 arg6 harg6 arg7 harg7 arg8 harg8 hc0 hc1 x0 x1 x2 x3)]
  unfold kernelRun0_A
  dsimp only
  sl_unfold_words
  rw [View.canon_unit_zero hz]
  simp only [View.readAt_eq_ld, harg1.read_unread, harg2.read_unread, harg3.read_unread, harg4.read_unread, harg7.read_unread, harg8.read_unread,
    View.ld_unit_zero (S := S5000x128) hz, View.ld_unit_zero (S := S128x128) hz, View.ld_unit_zero (S := S1x128) hz]

theorem sout0_A_0_eq :
    sout0_A_0 c i arg1 harg1 arg2 harg2 arg3 harg3 arg4 harg4 arg5 harg5 arg6 harg6 arg7 harg7 arg8 harg8 hc0 hc1 x0 x1 x2 x3 = k0_pay4 x0 x1 x2 x3 (k0_pay1 (F := F)) := by
  have hz : (![0, 0] : Fin 2 → Nat) = fun _ => 0 := funext fun a => by fin_cases a <;> rfl
  unfold sout0_A_0
  rw [View.read_writes_eq_canon _ _ _ (scover0_A_0 c i arg1 harg1 arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S1x128) hz, View.readCov_unit_zero (S := S1x128) _ hz]
  simp only [View.readAt_eq_ld, harg1.read_unread, harg2.read_unread, harg3.read_unread, harg4.read_unread, harg7.read_unread, harg8.read_unread,
    View.ld_unit_zero (S := S5000x128) hz, View.ld_unit_zero (S := S128x128) hz, View.ld_unit_zero (S := S1x128) hz]

theorem sout0_A_1_eq :
    sout0_A_1 c i arg1 harg1 arg2 harg2 arg3 harg3 arg4 harg4 arg5 harg5 arg6 harg6 arg7 harg7 arg8 harg8 hc0 hc1 x0 x1 x2 x3 = k0_pay5 x0 x1 x2 x3 (k0_pay2 (F := F)) := by
  have hz : (![0, 0] : Fin 2 → Nat) = fun _ => 0 := funext fun a => by fin_cases a <;> rfl
  unfold sout0_A_1
  rw [View.read_writes_eq_canon _ _ _ (scover0_A_1 c i arg1 harg1 arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S1x128) hz, View.readCov_unit_zero (S := S1x128) _ hz]
  simp only [View.readAt_eq_ld, harg1.read_unread, harg2.read_unread, harg3.read_unread, harg4.read_unread, harg7.read_unread, harg8.read_unread,
    View.ld_unit_zero (S := S5000x128) hz, View.ld_unit_zero (S := S128x128) hz, View.ld_unit_zero (S := S1x128) hz]

end

section
variable (hc0 : ¬cond0_0 i) (hc1 : ¬cond0_1 i) (x0 : Vec F S5000x128 .f32) (x1 : Vec F S5000x128 .f32) (x2 : Vec F S128x128 .f32) (x3 : Vec F S1x128 .f32) (xs0 : Vec F S1x128 .f32) (xs1 : Vec F S1x128 .f32)
include hc0 hc1 x0 x1 x2 x3 xs0 xs1

theorem out0_B_4_eq :
    out0_B_4 c i arg1 harg1 arg2 harg2 arg3 harg3 arg4 harg4 arg5 harg5 arg6 harg6 arg7 harg7 arg8 harg8 hc0 hc1 x0 x1 x2 x3 xs0 xs1 = k0_pay3 x0 x1 x2 x3 := by
  have hz : (![0, 0] : Fin 2 → Nat) = fun _ => 0 := funext fun a => by fin_cases a <;> rfl
  unfold out0_B_4
  rw [View.read_writes_eq_canon _ _ _ (cover0_B_4 c i arg1 harg1 arg2 harg2 arg3 harg3 arg4 harg4 arg5 harg5 arg6 harg6 arg7 harg7 arg8 harg8 hc0 hc1 x0 x1 x2 x3 xs0 xs1)]
  unfold kernelRun0_B
  dsimp only
  sl_unfold_words
  rw [View.canon_unit_zero hz]
  simp only [View.readAt_eq_ld, harg1.read_unread, harg2.read_unread, harg3.read_unread, harg4.read_unread, harg7.read_unread, harg8.read_unread,
    View.ld_unit_zero (S := S5000x128) hz, View.ld_unit_zero (S := S128x128) hz, View.ld_unit_zero (S := S1x128) hz]

theorem sout0_B_0_eq :
    sout0_B_0 c i arg1 harg1 arg2 harg2 arg3 harg3 arg4 harg4 arg5 harg5 arg6 harg6 arg7 harg7 arg8 harg8 hc0 hc1 x0 x1 x2 x3 xs0 xs1 = k0_pay4 x0 x1 x2 x3 xs0 := by
  have hz : (![0, 0] : Fin 2 → Nat) = fun _ => 0 := funext fun a => by fin_cases a <;> rfl
  unfold sout0_B_0
  rw [View.read_writes_eq_canon _ _ _ (scover0_B_0 c i arg1 harg1 arg2 harg2 arg3 harg3 arg4 harg4 arg5 harg5 arg6 harg6 arg7 harg7 arg8 harg8 hc0 hc1 x0 x1 x2 x3 xs0 xs1)]
  unfold kernelRun0_B
  dsimp only
  sl_unfold_words
  rw [View.canon_unit_zero hz]
  simp only [View.readAt_eq_ld, harg1.read_unread, harg2.read_unread, harg3.read_unread, harg4.read_unread, harg7.read_unread, harg8.read_unread,
    View.ld_unit_zero (S := S5000x128) hz, View.ld_unit_zero (S := S128x128) hz, View.ld_unit_zero (S := S1x128) hz]

theorem sout0_B_1_eq :
    sout0_B_1 c i arg1 harg1 arg2 harg2 arg3 harg3 arg4 harg4 arg5 harg5 arg6 harg6 arg7 harg7 arg8 harg8 hc0 hc1 x0 x1 x2 x3 xs0 xs1 = k0_pay5 x0 x1 x2 x3 xs1 := by
  have hz : (![0, 0] : Fin 2 → Nat) = fun _ => 0 := funext fun a => by fin_cases a <;> rfl
  unfold sout0_B_1
  rw [View.read_writes_eq_canon _ _ _ (scover0_B_1 c i arg1 harg1 arg2 harg2 arg3 harg3 arg4 harg4 arg5 harg5 arg6 harg6 arg7 harg7 arg8 harg8 hc0 hc1 x0 x1 x2 x3 xs0 xs1)]
  unfold kernelRun0_B
  dsimp only
  sl_unfold_words
  rw [View.canon_unit_zero hz]
  simp only [View.readAt_eq_ld, harg1.read_unread, harg2.read_unread, harg3.read_unread, harg4.read_unread, harg7.read_unread, harg8.read_unread,
    View.ld_unit_zero (S := S5000x128) hz, View.ld_unit_zero (S := S128x128) hz, View.ld_unit_zero (S := S1x128) hz]

end

section
variable (hc0 : ¬cond0_0 i) (hc1 : cond0_1 i) (x0 : Vec F S5000x128 .f32) (x1 : Vec F S5000x128 .f32) (x2 : Vec F S128x128 .f32) (x3 : Vec F S1x128 .f32) (xs0 : Vec F S1x128 .f32) (xs1 : Vec F S1x128 .f32)
include hc0 hc1 x0 x1 x2 x3 xs0 xs1

theorem out0_C_4_eq :
    out0_C_4 c i arg1 harg1 arg2 harg2 arg3 harg3 arg4 harg4 arg5 harg5 arg6 harg6 arg7 harg7 arg8 harg8 hc0 hc1 x0 x1 x2 x3 xs0 xs1 = k0_pay3 x0 x1 x2 x3 := by
  have hz : (![0, 0] : Fin 2 → Nat) = fun _ => 0 := funext fun a => by fin_cases a <;> rfl
  unfold out0_C_4
  rw [View.read_writes_eq_canon _ _ _ (cover0_C_4 c i arg1 harg1 arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz]
  simp only [View.readAt_eq_ld, harg1.read_unread, harg2.read_unread, harg3.read_unread, harg4.read_unread, harg7.read_unread, harg8.read_unread,
    View.ld_unit_zero (S := S5000x128) hz, View.ld_unit_zero (S := S128x128) hz, View.ld_unit_zero (S := S1x128) hz]

theorem sout0_C_0_eq :
    sout0_C_0 c i arg1 harg1 arg2 harg2 arg3 harg3 arg4 harg4 arg5 harg5 arg6 harg6 arg7 harg7 arg8 harg8 hc0 hc1 x0 x1 x2 x3 xs0 xs1 = k0_pay4 x0 x1 x2 x3 xs0 := by
  have hz : (![0, 0] : Fin 2 → Nat) = fun _ => 0 := funext fun a => by fin_cases a <;> rfl
  unfold sout0_C_0
  rw [View.read_writes_eq_canon _ _ _ (scover0_C_0 c i arg1 harg1 arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz]
  simp only [View.readAt_eq_ld, harg1.read_unread, harg2.read_unread, harg3.read_unread, harg4.read_unread, harg7.read_unread, harg8.read_unread,
    View.ld_unit_zero (S := S5000x128) hz, View.ld_unit_zero (S := S128x128) hz, View.ld_unit_zero (S := S1x128) hz]

theorem sout0_C_1_eq :
    sout0_C_1 c i arg1 harg1 arg2 harg2 arg3 harg3 arg4 harg4 arg5 harg5 arg6 harg6 arg7 harg7 arg8 harg8 hc0 hc1 x0 x1 x2 x3 xs0 xs1 = k0_pay5 x0 x1 x2 x3 xs1 := by
  have hz : (![0, 0] : Fin 2 → Nat) = fun _ => 0 := funext fun a => by fin_cases a <;> rfl
  unfold sout0_C_1
  rw [View.read_writes_eq_canon _ _ _ (scover0_C_1 c i arg1 harg1 arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz]
  simp only [View.readAt_eq_ld, harg1.read_unread, harg2.read_unread, harg3.read_unread, harg4.read_unread, harg7.read_unread, harg8.read_unread,
    View.ld_unit_zero (S := S5000x128) hz, View.ld_unit_zero (S := S128x128) hz, View.ld_unit_zero (S := S1x128) hz]

theorem out0_C_5_row0 (q : Fin 128) :
    out0_C_5 c i arg1 harg1 arg2 harg2 arg3 harg3 arg4 harg4 arg5 harg5 arg6 harg6 arg7 harg7 arg8 harg8 hc0 hc1 x0 x1 x2 x3 xs0 xs1 (ix2 (0 : Fin 2) q) = k0_pay4 x0 x1 x2 x3 xs0 (ix2 (0 : Fin 1) q) := by
  have hz : (![0, 0] : Fin 2 → Nat) = fun _ => 0 := funext fun a => by fin_cases a <;> rfl
  unfold out0_C_5
  unfold kernelRun0_C
  dsimp only
  sl_unfold_words
  refine (View.read_writes_cons_rows_of_not_mem (Val := Elt F) VO0_5 VO0_5.junk (off := ![1, 0]) (size := ![1, 128]) (o := 1) (W := 1)
    inb_S2x128_S1x128_1_0 _ _ (ix2 (0 : Fin 2) q) rfl rfl (Or.inl Nat.zero_lt_one)).trans ?_
  refine (View.read_writes_cons_rows_of_mem (Val := Elt F) VO0_5 VO0_5.junk (off := ![0, 0]) (size := ![1, 128]) (o := 0)
    inb_S2x128_S1x128_0_0 _ _ (ix2 (0 : Fin 2) q) (ix2 (0 : Fin 1) q) rfl rfl rfl).trans ?_
  refine congrFun ?_ (ix2 (0 : Fin 1) q)
  rw [View.readCov_unit_zero (S := S1x128) _ hz]
  simp only [View.readAt_eq_ld, harg1.read_unread, harg2.read_unread, harg3.read_unread, harg4.read_unread, harg7.read_unread, harg8.read_unread,
    View.ld_unit_zero (S := S5000x128) hz, View.ld_unit_zero (S := S128x128) hz, View.ld_unit_zero (S := S1x128) hz]

theorem out0_C_5_row1 (q : Fin 128) :
    out0_C_5 c i arg1 harg1 arg2 harg2 arg3 harg3 arg4 harg4 arg5 harg5 arg6 harg6 arg7 harg7 arg8 harg8 hc0 hc1 x0 x1 x2 x3 xs0 xs1 (ix2 (1 : Fin 2) q) = k0_pay5 x0 x1 x2 x3 xs1 (ix2 (0 : Fin 1) q) := by
  have hz : (![0, 0] : Fin 2 → Nat) = fun _ => 0 := funext fun a => by fin_cases a <;> rfl
  unfold out0_C_5
  unfold kernelRun0_C
  dsimp only
  sl_unfold_words
  refine (View.read_writes_cons_rows_of_mem (Val := Elt F) VO0_5 VO0_5.junk (off := ![1, 0]) (size := ![1, 128]) (o := 1)
    inb_S2x128_S1x128_1_0 _ _ (ix2 (1 : Fin 2) q) (ix2 (0 : Fin 1) q) rfl rfl rfl).trans ?_
  refine congrFun ?_ (ix2 (0 : Fin 1) q)
  rw [View.readCov_unit_zero (S := S1x128) _ hz]
  simp only [View.readAt_eq_ld, harg1.read_unread, harg2.read_unread, harg3.read_unread, harg4.read_unread, harg7.read_unread, harg8.read_unread,
    View.ld_unit_zero (S := S5000x128) hz, View.ld_unit_zero (S := S128x128) hz, View.ld_unit_zero (S := S1x128) hz]

end

end

end Cert.KernelIdeal.Hand

end
-- ==== Proof.KI.ValA0Pay.lean ====
import proofs.«425279_j44762149159634_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandV

open Cert.KernelIdeal Cert.KernelIdeal.Gen
open Idealize.ShloMosaic Idealize.ShloMosaic.TcCoe
open Idealize.ShloMosaic.ValueIdx
open Idealize.SL.Sem
open scoped BigOperators

theorem lhs_row_r0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

theorem lhs_col_r0 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

theorem rhs_row_r0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

theorem rhs_col_r0 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

theorem matmul_apply_r0 {φ₁ φ₂ : FTy} (a : FVec Ideal S5000x128 φ₁) (w : FVec Ideal S128x128 φ₂) (p : Fin 5000) (q : Fin 128) :
    matmul dot_S5000x128_S128x128_S5000x128_1_0_0_1_n_n none a w (constant (F := Ideal) S5000x128 .f32 0x00000000#32) (ix2 p q)
      = ∑ k : Fin 128, a (ix2 p k) * w (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row_r0 _ _
    | ⟨1, _⟩ => exact (lhs_col_r0 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_row_r0 _ _).trans hk
    | ⟨1, _⟩ => exact rhs_col_r0 _ _)
  rw [el, er]

theorem pay3_apply_r0 (v3 v4 : Vec Ideal S5000x128 .f32) (v8 : Vec Ideal S128x128 .f32) (v12 : Vec Ideal S1x128 .f32) (p : Fin 5000) (q : Fin 128) :
    k0_pay3 v3 v4 v8 v12 (ix2 p q) = (∑ k : Fin 128, (v3 (ix2 p k) + v4 (ix2 p k)) * v8 (ix2 k q)) + v12 (ix2 (0 : Fin 1) q) := by
  unfold k0_pay3
  refine (addf_apply _ _ _).trans ?_
  refine congrArg₂ (· + ·) ?_ ?_
  · refine (matmul_apply_r0 _ _ p q).trans ?_
    refine Finset.sum_congr rfl fun k _ => ?_
    simp only [shapeCast_self]
    rfl
  · refine (broadcastTo_1b_ab_apply _ _ p q).trans ?_
    rw [shapeCast_self]

theorem pay1_apply_r0 (q : Fin 128) : (k0_pay1 (F := Ideal)) (ix2 (0 : Fin 1) q) = 0 := by
  unfold k0_pay1
  rw [shapeCast_self]
  exact Ideal.ofBits_zero_f32
theorem pay2_apply_r0 (q : Fin 128) : (k0_pay2 (F := Ideal)) (ix2 (0 : Fin 1) q) = 0 := by
  unfold k0_pay2
  rw [shapeCast_self]
  exact Ideal.ofBits_zero_f32

theorem colsum_tile_apply_r0 (y : FVec Ideal S5000x128 .f32) (q : Fin 128) :
    shapeCast S1x128 (multiReduction (F := Ideal) .add [0] S128 y 0x00000000#32 reduces_S5000x128_S128 (.inl rfl) rfl) shapeCasts_S128_S1x128 (ix2 (0 : Fin 1) q)
      = ∑ r : Fin 5000, y (ix2 r q) := by
  refine (shapeCast_a_1a_apply _ _ (0 : Fin 1) q).trans ?_
  refine (Ideal.multiReduction_add_single y _ reduces_S5000x128_S128 (.inl rfl) rfl (ix1 q)).trans ?_
  refine Finset.sum_congr rfl fun r _ => ?_
  refine congrArg y ?_
  funext a
  match a with
  | ⟨0, _⟩ => rfl
  | ⟨1, _⟩ => rfl

theorem pay4_apply_r0 (v3 v4 : Vec Ideal S5000x128 .f32) (v8 : Vec Ideal S128x128 .f32) (v12 : Vec Ideal S1x128 .f32) (v17 : Vec Ideal S1x128 .f32) (q : Fin 128) :
    k0_pay4 v3 v4 v8 v12 v17 (ix2 (0 : Fin 1) q) = v17 (ix2 (0 : Fin 1) q) + ∑ r : Fin 5000, k0_pay3 v3 v4 v8 v12 (ix2 r q) := by
  unfold k0_pay4
  rw [shapeCast_self]
  refine (addf_apply _ _ _).trans ?_
  exact congrArg (v17 (ix2 (0 : Fin 1) q) + ·) (colsum_tile_apply_r0 _ q)

theorem pay5_apply_r0 (v3 v4 : Vec Ideal S5000x128 .f32) (v8 : Vec Ideal S128x128 .f32) (v12 : Vec Ideal S1x128 .f32) (v24 : Vec Ideal S1x128 .f32) (q : Fin 128) :
    k0_pay5 v3 v4 v8 v12 v24 (ix2 (0 : Fin 1) q) = v24 (ix2 (0 : Fin 1) q) + ∑ r : Fin 5000, k0_pay3 v3 v4 v8 v12 (ix2 r q) * k0_pay3 v3 v4 v8 v12 (ix2 r q) := by
  unfold k0_pay5
  rw [shapeCast_self]
  refine (addf_apply _ _ _).trans ?_
  refine congrArg (v24 (ix2 (0 : Fin 1) q) + ·) ?_
  refine (colsum_tile_apply_r0 _ q).trans ?_
  rfl

end Cert.KernelIdeal.HandV

end
-- ==== Proof.Spec.lean ====
import Idealize.ShloMosaic.PureOps.Ideal
import Idealize.ShloMosaic.PureOps.Ideal.Laws
import Mathlib.Algebra.BigOperators.Fin
import Mathlib.Data.EReal.Operations

noncomputable section

namespace Cert.Spec

open Idealize.ShloMosaic
open scoped BigOperators

abbrev Mat (n m : ℕ) := Fin n → Fin m → EReal

def IsFin {ι : Type} (f : ι → EReal) : Prop := ∀ i, ∃ q : ℝ, f i = (q : EReal)

def IsFinM {n m : ℕ} (a : Mat n m) : Prop := ∀ r j, ∃ q : ℝ, a r j = (q : EReal)

def lin {n k m : ℕ} (h : Mat n k) (W : Mat k m) (b : Fin m → EReal) : Mat n m :=
  fun r j => (∑ q : Fin k, h r q * W q j) + b j

def colsum {n m : ℕ} (z : Mat n m) : Fin m → EReal := fun j => ∑ r : Fin n, z r j

def colsumsq {n m : ℕ} (z : Mat n m) : Fin m → EReal := fun j => ∑ r : Fin n, z r j * z r j

theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem max_coe_zero (x : ℝ) : max (x : EReal) 0 = ((max x 0 : ℝ) : EReal) := by
  rcases le_total x 0 with h | h
  · rw [max_eq_right h, max_eq_right (by exact_mod_cast h), EReal.coe_zero]
  · rw [max_eq_left h, max_eq_left (by exact_mod_cast h)]

theorem sum_tiles {T n : ℕ} (f : Fin (T * n) → EReal) (e : Fin T → Fin n → Fin (T * n))
    (he : ∀ t r, (e t r).val = t.val * n + r.val) :
    ∑ t : Fin T, ∑ r : Fin n, f (e t r) = ∑ R : Fin (T * n), f R := by

  rw [← Fintype.sum_prod_type' (f := fun t r => f (e t r))]
  refine Fintype.sum_equiv finProdFinEquiv _ _ (fun x => ?_)
  congr 1
  apply Fin.ext
  rw [he]
  simp only [finProdFinEquiv, Equiv.coe_fn_mk]
  ring

def mean {n m : ℕ} (N : EReal) (z : Mat n m) : Fin m → EReal := fun j => Ideal.div (colsum z j) N

def varSums {n m : ℕ} (N : EReal) (z : Mat n m) : Fin m → EReal :=
  fun j => Ideal.div (colsumsq z j) N - mean N z j * mean N z j

def varCentred {n m : ℕ} (N : EReal) (z : Mat n m) : Fin m → EReal :=
  fun j => Ideal.div (∑ r : Fin n, (z r j - mean N z j) * (z r j - mean N z j)) N

theorem mean_coe {n m : ℕ} (hn : n ≠ 0) (z : Mat n m) (q : Fin n → Fin m → ℝ) (hq : ∀ r j, z r j = (q r j : EReal))
    (j : Fin m) : mean ((n : ℝ) : EReal) z j = (((∑ r : Fin n, q r j) * (1 / (n : ℝ)) : ℝ) : EReal) := by
  have hn' : (n : ℝ) ≠ 0 := Nat.cast_ne_zero.mpr hn
  simp only [mean, colsum, Ideal.div_coe hn', hq, ← coe_sum, ← EReal.coe_mul]

theorem varSums_coe {n m : ℕ} (hn : n ≠ 0) (z : Mat n m) (q : Fin n → Fin m → ℝ) (hq : ∀ r j, z r j = (q r j : EReal))
    (j : Fin m) :
    varSums ((n : ℝ) : EReal) z j
      = (((∑ r : Fin n, q r j * q r j) * (1 / (n : ℝ))
          - (∑ r : Fin n, q r j) * (1 / (n : ℝ)) * ((∑ r : Fin n, q r j) * (1 / (n : ℝ))) : ℝ) : EReal) := by
  have hn' : (n : ℝ) ≠ 0 := Nat.cast_ne_zero.mpr hn
  simp only [varSums, mean_coe hn z q hq, colsumsq, Ideal.div_coe hn', hq, ← EReal.coe_mul, ← coe_sum, ← EReal.coe_sub]

theorem varCentred_coe {n m : ℕ} (hn : n ≠ 0) (z : Mat n m) (q : Fin n → Fin m → ℝ) (hq : ∀ r j, z r j = (q r j : EReal))
    (j : Fin m) :
    varCentred ((n : ℝ) : EReal) z j
      = (((∑ r : Fin n, (q r j - (∑ r : Fin n, q r j) * (1 / (n : ℝ))) * (q r j - (∑ r : Fin n, q r j) * (1 / (n : ℝ))))
          * (1 / (n : ℝ)) : ℝ) : EReal) := by
  have hn' : (n : ℝ) ≠ 0 := Nat.cast_ne_zero.mpr hn
  simp only [varCentred, mean_coe hn z q hq, Ideal.div_coe hn', hq, ← EReal.coe_sub, ← EReal.coe_mul, ← coe_sum]

theorem sum_centred_sq {n : ℕ} (x : Fin n → ℝ) (μ : ℝ) :
    ∑ r : Fin n, (x r - μ) * (x r - μ) = (∑ r : Fin n, x r * x r) - 2 * μ * (∑ r : Fin n, x r) + (n : ℝ) * (μ * μ) := by
  have h : ∀ r, (x r - μ) * (x r - μ) = x r * x r - 2 * μ * x r + μ * μ := fun r => by ring
  simp only [h, Finset.sum_add_distrib, Finset.sum_sub_distrib, ← Finset.mul_sum, Finset.sum_const, Finset.card_univ,
    Fintype.card_fin, nsmul_eq_mul]
  ring

theorem var_eq {n m : ℕ} (hn : n ≠ 0) (z : Mat n m) (hz : IsFinM z) :
    varSums ((n : ℝ) : EReal) z = varCentred ((n : ℝ) : EReal) z := by
  funext j
  choose q hq using hz
  have hn' : (n : ℝ) ≠ 0 := Nat.cast_ne_zero.mpr hn
  rw [varSums_coe hn z q hq, varCentred_coe hn z q hq, sum_centred_sq]
  congr 1

  generalize (∑ r : Fin n, q r j) = S
  generalize (∑ r : Fin n, q r j * q r j) = Q
  field_simp
  ring

theorem varCentred_real {n m : ℕ} (hn : n ≠ 0) (z : Mat n m) (hz : IsFinM z) (j : Fin m) :
    ∃ v : ℝ, 0 ≤ v ∧ varCentred ((n : ℝ) : EReal) z j = (v : EReal) := by
  choose q hq using hz
  refine ⟨_, ?_, varCentred_coe hn z q hq j⟩

  exact mul_nonneg (Finset.sum_nonneg (fun r _ => mul_self_nonneg _)) (by positivity)

def bnrelu {n m : ℕ} (z : Mat n m) (mu var g bt : Fin m → EReal) (eps : EReal) : Mat n m :=
  fun r j => max ((z r j - mu j) * Ideal.rsqrt (var j + eps) * g j + bt j) 0

def layerOut {n m : ℕ} (z : Mat n m) (mu var g bt : Fin m → EReal) (eps : EReal) (W2 : Mat m m) (b2 : Fin m → EReal) : Mat n m :=
  fun r j => max (lin (bnrelu z mu var g bt eps) W2 b2 r j) 0

def poolOneHot {n m G : ℕ} (x : Mat n m) (lab : Fin n → ℤ) : Mat G m :=
  fun g j => ∑ r : Fin n, (if lab r = (g.val : ℤ) then (1 : EReal) else 0) * x r j

def poolSeg {n m G : ℕ} (x : Mat n m) (lab : Fin n → ℤ) : Mat G m :=
  fun g j => ∑ r ∈ Finset.univ.filter (fun r : Fin n => lab r = (g.val : ℤ)), x r j

theorem pool_eq {n m G : ℕ} (x : Mat n m) (lab : Fin n → ℤ) : (poolOneHot x lab : Mat G m) = poolSeg x lab := by
  funext g j
  simp only [poolOneHot, poolSeg]

  rw [Finset.sum_filter]
  refine Finset.sum_congr rfl (fun r _ => ?_)
  split_ifs
  · exact one_mul _
  · exact zero_mul _

def head {G m o : ℕ} (g : Mat G m) (W1 : Mat m m) (b1 : Fin m → EReal) (W2 : Mat m o) (b2 : Fin o → EReal) : Mat G o :=
  lin (fun r j => max (lin g W1 b1 r j) 0) W2 b2

theorem isFin_sum {ι : Type} (s : Finset ι) (f : ι → EReal) (hf : ∀ i ∈ s, ∃ q : ℝ, f i = (q : EReal)) :
    ∃ q : ℝ, ∑ i ∈ s, f i = (q : EReal) := by
  classical
  induction s using Finset.induction_on with
  | empty => exact ⟨0, by simp⟩
  | insert a s ha ih =>
    obtain ⟨q, hq⟩ := hf a (Finset.mem_insert_self a s)
    obtain ⟨p, hp⟩ := ih (fun i hi => hf i (Finset.mem_insert_of_mem hi))
    exact ⟨q + p, by rw [Finset.sum_insert ha, hq, hp, EReal.coe_add]⟩

theorem isFinM_add {n m : ℕ} (a b : Mat n m) (ha : IsFinM a) (hb : IsFinM b) : IsFinM (fun r j => a r j + b r j) := by
  intro r j
  obtain ⟨p, hp⟩ := ha r j
  obtain ⟨q, hq⟩ := hb r j
  exact ⟨p + q, by show a r j + b r j = _; rw [hp, hq, EReal.coe_add]⟩

theorem isFinM_lin {n k m : ℕ} (h : Mat n k) (W : Mat k m) (b : Fin m → EReal) (hh : IsFinM h) (hW : IsFinM W) (hb : IsFin b) :
    IsFinM (lin h W b) := by
  intro r j
  obtain ⟨s, hs⟩ := isFin_sum Finset.univ (fun q => h r q * W q j) (fun q _ => by
    obtain ⟨a, ha⟩ := hh r q
    obtain ⟨c, hc⟩ := hW q j
    exact ⟨a * c, by rw [ha, hc, EReal.coe_mul]⟩)
  obtain ⟨c, hc⟩ := hb j
  exact ⟨s + c, by show (∑ q : Fin k, h r q * W q j) + b j = _; rw [hs, hc, EReal.coe_add]⟩

theorem isFinM_layerOut {n m : ℕ} (z : Mat n m) (mu var g bt : Fin m → EReal) (eps : EReal) (W2 : Mat m m) (b2 : Fin m → EReal)
    (hz : IsFinM z) (hmu : IsFin mu) (hvar : ∀ j, ∃ v : ℝ, 0 ≤ v ∧ var j = (v : EReal)) (hg : IsFin g) (hbt : IsFin bt)
    (heps : ∃ e : ℝ, 0 < e ∧ eps = (e : EReal)) (hW2 : IsFinM W2) (hb2 : IsFin b2) :
    IsFinM (layerOut z mu var g bt eps W2 b2) := by
  obtain ⟨e, he, rfl⟩ := heps

  have hbn : IsFinM (bnrelu z mu var g bt (e : EReal)) := by
    intro r j
    obtain ⟨x, hx⟩ := hz r j
    obtain ⟨u, hu⟩ := hmu j
    obtain ⟨v, hv0, hv⟩ := hvar j
    obtain ⟨c, hc⟩ := hg j
    obtain ⟨d, hd⟩ := hbt j
    have hpos : 0 < v + e := by positivity
    refine ⟨max ((x - u) * (Real.sqrt (v + e))⁻¹ * c + d) 0, ?_⟩
    show max ((z r j - mu j) * Ideal.rsqrt (var j + (e : EReal)) * g j + bt j) 0 = _
    rw [hx, hu, hv, hc, hd, ← EReal.coe_add v e, Ideal.rsqrt_coe, if_neg (not_lt.mpr hpos.le), if_neg hpos.ne',
      ← EReal.coe_sub, ← EReal.coe_mul, ← EReal.coe_mul, ← EReal.coe_add, max_coe_zero]
  intro r j
  obtain ⟨y, hy⟩ := isFinM_lin _ W2 b2 hbn hW2 hb2 r j
  exact ⟨max y 0, by show max (lin (bnrelu z mu var g bt (e : EReal)) W2 b2 r j) 0 = _; rw [hy, max_coe_zero]⟩

theorem isFin_mean {n m : ℕ} (hn : n ≠ 0) (z : Mat n m) (hz : IsFinM z) : IsFin (mean ((n : ℝ) : EReal) z) := by
  choose q hq using hz
  exact fun j => ⟨_, mean_coe hn z q hq j⟩

theorem fold_tiles (c acc : ℕ → EReal) (h0 : acc 0 = 0 + c 0) (hs : ∀ k, acc (k + 1) = acc k + c (k + 1)) (k : ℕ) :
    acc k = ∑ t ∈ Finset.range (k + 1), c t := by
  induction k with
  | zero => rw [h0, zero_add, Finset.sum_range_one]
  | succ k ih => rw [hs, ih, Finset.sum_range_succ _ (k + 1)]

end Cert.Spec

end
-- ==== Proof.KI.ValA0.lean ====
import proofs.«425279_j44762149159634_1_alg».proof.Proof.KI.Reg0
import proofs.«425279_j44762149159634_1_alg».proof.Proof.KI.Pieces0
import proofs.«425279_j44762149159634_1_alg».proof.Proof.KI.ValA0Pay
import proofs.«425279_j44762149159634_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.Tactic
open Idealize.ShloMosaic.ValueIdx
open Idealize.SL.Sem
open Idealize.ShloMosaic.Pipeline (Dat Cfg Window)
open scoped BigOperators

variable (V : (c : Dev nD) → (b : Ref sig .tc) → Buf (Elt Ideal) ((c : Thread nD τ).loc b))

abbrev xM0 (c : Dev nD) : Spec.Mat 100000 128 := fun r k => V c (Pipeline.arrRef spec0 0) (ValueIdx.ix2 r k)
abbrev aM0 (c : Dev nD) : Spec.Mat 100000 128 := fun r k => V c (Pipeline.arrRef spec0 1) (ValueIdx.ix2 r k)
abbrev wM0 (c : Dev nD) : Spec.Mat 128 128 := fun k j => V c (Pipeline.arrRef spec0 2) (ValueIdx.ix2 k j)
abbrev bR0 (c : Dev nD) : Fin 128 → EReal := fun j => V c (Pipeline.arrRef spec0 3) (ValueIdx.ix2 0 j)

abbrev zM0 (c : Dev nD) : Spec.Mat 100000 128 := Spec.lin (fun r k => xM0 V c r k + aM0 V c r k) (wM0 V c) (bR0 V c)

theorem idx_facts_r0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0 :=
  (by decide +kernel : ∀ t : Fin grid0.N, _)

abbrev xblk_r0 (c : Dev nD) (t : Fin cfg0.N) : Vec Ideal S5000x128 .f32 := iblk0 V c 0 t
abbrev ablk_r0 (c : Dev nD) (t : Fin cfg0.N) : Vec Ideal S5000x128 .f32 := iblk0 V c 1 t
abbrev wblk_r0 (c : Dev nD) (t : Fin cfg0.N) : Vec Ideal S128x128 .f32 := iblk0 V c 2 t
abbrev bblk_r0 (c : Dev nD) (t : Fin cfg0.N) : Vec Ideal S1x128 .f32 := iblk0 V c 3 t

theorem xblk_apply_r0 (c : Dev nD) (t : Fin cfg0.N) (r : Fin 5000) (k : Fin 128) (h : 5000 * t.val + r.val < 100000) :
    xblk_r0 V c t (ix2 r k) = xM0 V c ⟨5000 * t.val + r.val, h⟩ k := by
  show iblk0 V c 0 t (ix2 r k) = _
  unfold iblk0
  rw [View.read_apply]
  show V c (Pipeline.arrRef spec0 0) _ = V c (Pipeline.arrRef spec0 0) _
  obtain ⟨e0, e1, -⟩ := idx_facts_r0 t
  congr 1
  funext a
  apply Fin.ext
  match a with
  | ⟨0, _⟩ => show win0_0.index t (0 : Fin 2) * 5000 + 1 * r.val = 5000 * t.val + r.val; rw [e0]; omega
  | ⟨1, _⟩ => show win0_0.index t (1 : Fin 2) * 128 + 1 * k.val = k.val; rw [e1]; omega

theorem ablk_apply_r0 (c : Dev nD) (t : Fin cfg0.N) (r : Fin 5000) (k : Fin 128) (h : 5000 * t.val + r.val < 100000) :
    ablk_r0 V c t (ix2 r k) = aM0 V c ⟨5000 * t.val + r.val, h⟩ k := by
  show iblk0 V c 1 t (ix2 r k) = _
  unfold iblk0
  rw [View.read_apply]
  show V c (Pipeline.arrRef spec0 1) _ = V c (Pipeline.arrRef spec0 1) _
  obtain ⟨-, -, e0, e1, -⟩ := idx_facts_r0 t
  congr 1
  funext a
  apply Fin.ext
  match a with
  | ⟨0, _⟩ => show win0_1.index t (0 : Fin 2) * 5000 + 1 * r.val = 5000 * t.val + r.val; rw [e0]; omega
  | ⟨1, _⟩ => show win0_1.index t (1 : Fin 2) * 128 + 1 * k.val = k.val; rw [e1]; omega

theorem wblk_apply_r0 (c : Dev nD) (t : Fin cfg0.N) (k j : Fin 128) : wblk_r0 V c t (ix2 k j) = wM0 V c k j := by
  show iblk0 V c 2 t (ix2 k j) = _
  unfold iblk0
  rw [View.read_apply]
  show V c (Pipeline.arrRef spec0 2) _ = V c (Pipeline.arrRef spec0 2) _
  obtain ⟨-, -, -, -, e0, e1, -⟩ := idx_facts_r0 t
  congr 1
  funext a
  apply Fin.ext
  match a with
  | ⟨0, _⟩ => show win0_2.index t (0 : Fin 2) * 128 + 1 * k.val = k.val; rw [e0]; omega
  | ⟨1, _⟩ => show win0_2.index t (1 : Fin 2) * 128 + 1 * j.val = j.val; rw [e1]; omega

theorem bblk_apply_r0 (c : Dev nD) (t : Fin cfg0.N) (j : Fin 128) : bblk_r0 V c t (ix2 (0 : Fin 1) j) = bR0 V c j := by
  show iblk0 V c 3 t (ix2 (0 : Fin 1) j) = _
  unfold iblk0
  rw [View.read_apply]
  show V c (Pipeline.arrRef spec0 3) _ = V c (Pipeline.arrRef spec0 3) _
  obtain ⟨-, -, -, -, -, -, e0, e1, -⟩ := idx_facts_r0 t
  congr 1
  funext a
  apply Fin.ext
  match a with
  | ⟨0, _⟩ => show win0_3.index t (0 : Fin 2) * 1 + 1 * 0 = 0; rw [e0]
  | ⟨1, _⟩ => show win0_3.index t (1 : Fin 2) * 128 + 1 * j.val = j.val; rw [e1]; omega

theorem pay3_blk_r0 (c : Dev nD) (t : Fin cfg0.N) (r : Fin 5000) (q : Fin 128) (h : 5000 * t.val + r.val < 100000) :
    k0_pay3 (xblk_r0 V c t) (ablk_r0 V c t) (wblk_r0 V c t) (bblk_r0 V c t) (ix2 r q) = zM0 V c ⟨5000 * t.val + r.val, h⟩ q := by
  refine (pay3_apply_r0 (xblk_r0 V c t) (ablk_r0 V c t) (wblk_r0 V c t) (bblk_r0 V c t) r q).trans ?_
  show _ = (∑ k : Fin 128, (xM0 V c ⟨5000 * t.val + r.val, h⟩ k + aM0 V c ⟨5000 * t.val + r.val, h⟩ k) * wM0 V c k q) + bR0 V c q
  rw [bblk_apply_r0 V c t q]
  refine congrArg (· + bR0 V c q) ?_
  refine Finset.sum_congr rfl fun k _ => ?_
  rw [xblk_apply_r0 V c t r k h, ablk_apply_r0 V c t r k h, wblk_apply_r0 V c t k q]

theorem outs4_r0 (c : Dev nD) (t : Fin cfg0.N) :
    ((outsAt0 V c t.val t.isLt).1 : Vec Ideal S5000x128 .f32) = k0_pay3 (xblk_r0 V c t) (ablk_r0 V c t) (wblk_r0 V c t) (bblk_r0 V c t) := by
  by_cases h0 : t.val % 20 = 0
  · have h1 : ¬t.val % 20 = 19 := by omega
    rw [outsAt0_A V c t h0 h1]
    dsimp only [outs0_A]
    exact out0_A_4_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t)
  · by_cases h1 : t.val % 20 = 19
    · rw [outsAt0_C V c t h0 h1]
      dsimp only [outs0_C]
      exact out0_C_4_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2
    · rw [outsAt0_B V c t h0 h1]
      dsimp only [outs0_B]
      exact out0_B_4_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2

theorem outsS0_zero_r0 (c : Dev nD) (t : Fin cfg0.N) (hz : t.val = 0) :
    ((outsAt0 V c t.val t.isLt).2.2.1 : Vec Ideal S1x128 .f32) = k0_pay4 (xblk_r0 V c t) (ablk_r0 V c t) (wblk_r0 V c t) (bblk_r0 V c t) (k0_pay1 (F := Ideal)) := by
  have h0 : t.val % 20 = 0 := by omega
  have h1 : ¬t.val % 20 = 19 := by omega
  rw [outsAt0_A V c t h0 h1]
  dsimp only [outs0_A]
  exact sout0_A_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t)

theorem outsS1_zero_r0 (c : Dev nD) (t : Fin cfg0.N) (hz : t.val = 0) :
    ((outsAt0 V c t.val t.isLt).2.2.2 : Vec Ideal S1x128 .f32) = k0_pay5 (xblk_r0 V c t) (ablk_r0 V c t) (wblk_r0 V c t) (bblk_r0 V c t) (k0_pay2 (F := Ideal)) := by
  have h0 : t.val % 20 = 0 := by omega
  have h1 : ¬t.val % 20 = 19 := by omega
  rw [outsAt0_A V c t h0 h1]
  dsimp only [outs0_A]
  exact sout0_A_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t)

theorem outsS0_pos_r0 (c : Dev nD) (t : Fin cfg0.N) (hz : t.val ≠ 0) :
    ((outsAt0 V c t.val t.isLt).2.2.1 : Vec Ideal S1x128 .f32) = k0_pay4 (xblk_r0 V c t) (ablk_r0 V c t) (wblk_r0 V c t) (bblk_r0 V c t) (outsAt0 V c (t.val - 1) (Nat.lt_of_le_of_lt (Nat.sub_le _ _) t.isLt)).2.2.1 := by
  have hN : cfg0.N = 20 := N_0
  have h0 : ¬t.val % 20 = 0 := by have := t.isLt; omega
  by_cases h1 : t.val % 20 = 19
  · rw [outsAt0_C V c t h0 h1]
    dsimp only [outs0_C]
    exact sout0_C_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2
  · rw [outsAt0_B V c t h0 h1]
    dsimp only [outs0_B]
    exact sout0_B_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2

theorem outsS1_pos_r0 (c : Dev nD) (t : Fin cfg0.N) (hz : t.val ≠ 0) :
    ((outsAt0 V c t.val t.isLt).2.2.2 : Vec Ideal S1x128 .f32) = k0_pay5 (xblk_r0 V c t) (ablk_r0 V c t) (wblk_r0 V c t) (bblk_r0 V c t) (outsAt0 V c (t.val - 1) (Nat.lt_of_le_of_lt (Nat.sub_le _ _) t.isLt)).2.2.2 := by
  have hN : cfg0.N = 20 := N_0
  have h0 : ¬t.val % 20 = 0 := by have := t.isLt; omega
  by_cases h1 : t.val % 20 = 19
  · rw [outsAt0_C V c t h0 h1]
    dsimp only [outs0_C]
    exact sout0_C_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2
  · rw [outsAt0_B V c t h0 h1]
    dsimp only [outs0_B]
    exact sout0_B_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2

def tsum_r0 (c : Dev nD) (q : Fin 128) (t : ℕ) : EReal :=
  if h : t < 20 then ∑ r : Fin 5000, zM0 V c ⟨5000 * t + r.val, by omega⟩ q else 0

def tsumsq_r0 (c : Dev nD) (q : Fin 128) (t : ℕ) : EReal :=
  if h : t < 20 then ∑ r : Fin 5000, zM0 V c ⟨5000 * t + r.val, by omega⟩ q * zM0 V c ⟨5000 * t + r.val, by omega⟩ q else 0

theorem sum_inv_r0 (c : Dev nD) (q : Fin 128) : ∀ (n : ℕ) (h : n < cfg0.N),
    ((outsAt0 V c n h).2.2.1 : Vec Ideal S1x128 .f32) (ix2 (0 : Fin 1) q) = ∑ t ∈ Finset.range (n + 1), tsum_r0 V c q t
  | 0, h => by
    rw [outsS0_zero_r0 V c ⟨0, h⟩ rfl]
    refine (pay4_apply_r0 _ _ _ _ _ q).trans ?_
    rw [pay1_apply_r0, zero_add, Finset.sum_range_one]
    unfold tsum_r0
    rw [dif_pos (by omega : (0 : ℕ) < 20)]
    exact Finset.sum_congr rfl fun r _ => pay3_blk_r0 V c ⟨0, h⟩ r q _
  | n + 1, h => by
    have hN : cfg0.N = 20 := N_0
    rw [outsS0_pos_r0 V c ⟨n + 1, h⟩ (Nat.succ_ne_zero n)]
    refine (pay4_apply_r0 _ _ _ _ _ q).trans ?_
    rw [Finset.sum_range_succ]
    refine congrArg₂ (· + ·) (sum_inv_r0 c q n (Nat.lt_of_succ_lt h)) ?_
    unfold tsum_r0
    rw [dif_pos (by omega : n + 1 < 20)]
    exact Finset.sum_congr rfl fun r _ => pay3_blk_r0 V c ⟨n + 1, h⟩ r q _

theorem sumsq_inv_r0 (c : Dev nD) (q : Fin 128) : ∀ (n : ℕ) (h : n < cfg0.N),
    ((outsAt0 V c n h).2.2.2 : Vec Ideal S1x128 .f32) (ix2 (0 : Fin 1) q) = ∑ t ∈ Finset.range (n + 1), tsumsq_r0 V c q t
  | 0, h => by
    rw [outsS1_zero_r0 V c ⟨0, h⟩ rfl]
    refine (pay5_apply_r0 _ _ _ _ _ q).trans ?_
    rw [pay2_apply_r0, zero_add, Finset.sum_range_one]
    unfold tsumsq_r0
    rw [dif_pos (by omega : (0 : ℕ) < 20)]
    exact Finset.sum_congr rfl fun r _ => by rw [pay3_blk_r0 V c ⟨0, h⟩ r q _]
  | n + 1, h => by
    have hN : cfg0.N = 20 := N_0
    rw [outsS1_pos_r0 V c ⟨n + 1, h⟩ (Nat.succ_ne_zero n)]
    refine (pay5_apply_r0 _ _ _ _ _ q).trans ?_
    rw [Finset.sum_range_succ]
    refine congrArg₂ (· + ·) (sumsq_inv_r0 c q n (Nat.lt_of_succ_lt h)) ?_
    unfold tsumsq_r0
    rw [dif_pos (by omega : n + 1 < 20)]
    exact Finset.sum_congr rfl fun r _ => by rw [pay3_blk_r0 V c ⟨n + 1, h⟩ r q _]

theorem total_sum_r0 (c : Dev nD) (q : Fin 128) : ∑ t ∈ Finset.range 20, tsum_r0 V c q t = Spec.colsum (zM0 V c) q := by
  rw [← Fin.sum_univ_eq_sum_range (fun t => tsum_r0 V c q t) 20]
  refine (Finset.sum_congr rfl fun t _ => ?_).trans
    (Spec.sum_tiles (T := 20) (n := 5000) (fun R => zM0 V c R q) (fun t r => ⟨5000 * t.val + r.val, by omega⟩) (fun t r => by show 5000 * t.val + r.val = t.val * 5000 + r.val; omega))
  unfold tsum_r0
  rw [dif_pos t.isLt]

theorem total_sumsq_r0 (c : Dev nD) (q : Fin 128) : ∑ t ∈ Finset.range 20, tsumsq_r0 V c q t = Spec.colsumsq (zM0 V c) q := by
  rw [← Fin.sum_univ_eq_sum_range (fun t => tsumsq_r0 V c q t) 20]
  refine (Finset.sum_congr rfl fun t _ => ?_).trans
    (Spec.sum_tiles (T := 20) (n := 5000) (fun R => zM0 V c R q * zM0 V c R q) (fun t r => ⟨5000 * t.val + r.val, by omega⟩) (fun t r => by show 5000 * t.val + r.val = t.val * 5000 + r.val; omega))
  unfold tsumsq_r0
  rw [dif_pos t.isLt]

abbrev zG_r0 (c : Dev nD) : Vec Ideal S100000x128 .f32 := fun i => zM0 V c (i 0) (i 1)

theorem flushed4_r0 (c : Dev nD) (t : Fin cfg0.N) :
    (dat0 (F := Ideal) V c).flushed 4 t = ((cfg0.win 4).blk t).view.read (Elt Ideal) (zG_r0 V c) := by
  have hN : cfg0.N = 20 := N_0
  have ht : t.val < 20 := by have := t.isLt; omega
  show (cfg0.win 4).cut (grid0.coords t) ((dat0 V c).after 4 t) = _
  rw [after0_4, outs4_r0]
  funext j
  obtain ⟨r, q, rfl⟩ : ∃ (r : Fin 5000) (q : Fin 128), j = ix2 r q := ⟨j 0, j 1, eq_ix2 j⟩
  rw [View.read_apply]
  show k0_pay3 (xblk_r0 V c t) (ablk_r0 V c t) (wblk_r0 V c t) (bblk_r0 V c t) (ix2 r q)
    = zM0 V c ((((cfg0.win 4).blk t).view.emb (ix2 r q)) 0) ((((cfg0.win 4).blk t).view.emb (ix2 r q)) 1)
  refine (pay3_blk_r0 V c t r q (by omega)).trans ?_
  obtain ⟨-, -, -, -, -, -, -, -, e0, e1, -⟩ := idx_facts_r0 t
  refine congrArg₂ (fun a b => zM0 V c a b) (Fin.ext ?_) (Fin.ext ?_)
  · show 5000 * t.val + r.val = win0_4.index t (0 : Fin 2) * 5000 + 1 * r.val
    rw [e0]; omega
  · show q.val = win0_4.index t (1 : Fin 2) * 128 + 1 * q.val
    rw [e1]; omega

theorem mem_blk4_r0 (t : Fin cfg0.N) (i : S100000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole (Pipeline.arrRef spec0 4)).slice (win0_4.rect t)).set ↔ _
  rw [View.set_slice_whole, Rect.mem_set_unit]
  exact Iff.rfl

theorem cover4_r0 (i : S100000x128.Idx) : ∃ t : Fin cfg0.N, (cfg0.win 4).flush t = true ∧ i ∈ ((cfg0.win 4).blk t).view.set := by
  have hN : cfg0.N = 20 := N_0
  have hi0 : (i 0).val < 100000 := (i 0).isLt
  have hi1 : (i 1).val < 128 := (i 1).isLt
  have hq : (i 0).val / 5000 < cfg0.N := by omega
  refine ⟨⟨(i 0).val / 5000, hq⟩, flush0_4 _, ?_⟩
  rw [mem_blk4_r0]
  obtain ⟨-, -, -, -, -, -, -, -, e0, e1, -⟩ := idx_facts_r0 ⟨(i 0).val / 5000, hq⟩
  intro a
  match a with
  | ⟨0, _⟩ =>
    show win0_4.index ⟨(i 0).val / 5000, hq⟩ (0 : Fin 2) * 5000 ≤ (i 0).val ∧ (i 0).val < win0_4.index ⟨(i 0).val / 5000, hq⟩ (0 : Fin 2) * 5000 + 5000
    rw [e0]; dsimp only; omega
  | ⟨1, _⟩ =>
    show win0_4.index ⟨(i 0).val / 5000, hq⟩ (1 : Fin 2) * 128 ≤ (i 1).val ∧ (i 1).val < win0_4.index ⟨(i 0).val / 5000, hq⟩ (1 : Fin 2) * 128 + 128
    rw [e1]; omega

theorem zArr0 (c : Dev nD) (p : Fin 100000) (q : Fin 128) : (dat0 (F := Ideal) V c).arrAt 4 cfg0.N (ValueIdx.ix2 p q) = zM0 V c p q :=
  congrFun ((dat0 (F := Ideal) V c).arrAt_eq_of_cover 4 (zG_r0 V c) (fun t _ => flushed4_r0 V c t) cover4_r0) (ix2 p q)

abbrev statsG_r0 (c : Dev nD) : Vec Ideal S2x128 .f32 := fun i => if (i 0).val = 0 then Spec.colsum (zM0 V c) (i 1) else Spec.colsumsq (zM0 V c) (i 1)

theorem outs5_last_r0 (c : Dev nD) (t : Fin cfg0.N) (h1 : t.val % 20 = 19) (q : Fin 128) :
    ((outsAt0 V c t.val t.isLt).2.1 : Vec Ideal S2x128 .f32) (ix2 (0 : Fin 2) q) = ((outsAt0 V c t.val t.isLt).2.2.1 : Vec Ideal S1x128 .f32) (ix2 (0 : Fin 1) q)
    ∧ ((outsAt0 V c t.val t.isLt).2.1 : Vec Ideal S2x128 .f32) (ix2 (1 : Fin 2) q) = ((outsAt0 V c t.val t.isLt).2.2.2 : Vec Ideal S1x128 .f32) (ix2 (0 : Fin 1) q) := by
  have h0 : ¬t.val % 20 = 0 := by omega
  rw [outsAt0_C V c t h0 h1]
  dsimp only [outs0_C]
  exact ⟨(out0_C_5_row0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2 q).trans (congrFun (sout0_C_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2) (ix2 (0 : Fin 1) q)).symm,
    (out0_C_5_row1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2 q).trans (congrFun (sout0_C_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2) (ix2 (0 : Fin 1) q)).symm⟩

theorem flushed5_r0 (c : Dev nD) (t : Fin cfg0.N) (hf : (cfg0.win 5).flush t = true) :
    (dat0 (F := Ideal) V c).flushed 5 t = ((cfg0.win 5).blk t).view.read (Elt Ideal) (statsG_r0 V c) := by
  have hN : cfg0.N = 20 := N_0
  have h1 : t.val % 20 = 19 := (flush0_5 t).mp hf
  have ht : t.val = 19 := by have := t.isLt; omega
  show (cfg0.win 5).cut (grid0.coords t) ((dat0 V c).after 5 t) = _
  rw [after0_5]
  funext j
  obtain ⟨a, q, rfl⟩ : ∃ (a : Fin 2) (q : Fin 128), j = ix2 a q := ⟨j 0, j 1, eq_ix2 j⟩
  rw [View.read_apply]
  obtain ⟨-, -, -, -, -, -, -, -, -, -, e0, e1⟩ := idx_facts_r0 t
  have hemb : ((cfg0.win 5).blk t).view.emb (ix2 a q) = ix2 a q := funext fun ax => Fin.ext (by
    match ax with
    | ⟨0, _⟩ => show win0_5.index t (0 : Fin 2) * 2 + 1 * a.val = a.val; rw [e0]; omega
    | ⟨1, _⟩ => show win0_5.index t (1 : Fin 2) * 128 + 1 * q.val = q.val; rw [e1]; omega)
  show ((outsAt0 V c t.val t.isLt).2.1 : Vec Ideal S2x128 .f32) (ix2 a q) = statsG_r0 V c (((cfg0.win 5).blk t).view.emb (ix2 a q))
  rw [hemb]
  obtain ⟨r0, r1⟩ := outs5_last_r0 V c t h1 q

  have s0 : ((outsAt0 V c t.val t.isLt).2.2.1 : Vec Ideal S1x128 .f32) (ix2 (0 : Fin 1) q) = Spec.colsum (zM0 V c) q :=
    (sum_inv_r0 V c q t.val t.isLt).trans
      ((congrArg (fun n => ∑ x ∈ Finset.range (n + 1), tsum_r0 V c q x) ht).trans (total_sum_r0 V c q))
  have s1 : ((outsAt0 V c t.val t.isLt).2.2.2 : Vec Ideal S1x128 .f32) (ix2 (0 : Fin 1) q) = Spec.colsumsq (zM0 V c) q :=
    (sumsq_inv_r0 V c q t.val t.isLt).trans
      ((congrArg (fun n => ∑ x ∈ Finset.range (n + 1), tsumsq_r0 V c q x) ht).trans (total_sumsq_r0 V c q))
  match a with
  | ⟨0, _⟩ =>
    show _ = Spec.colsum (zM0 V c) q
    exact r0.trans s0
  | ⟨1, _⟩ =>
    show _ = Spec.colsumsq (zM0 V c) q
    exact r1.trans s1

theorem mem_blk5_r0 (t : Fin cfg0.N) (i : S2x128.Idx) :
    i ∈ ((cfg0.win 5).blk t).view.set ↔ ∀ a : Fin 2, win0_5.index t a * S2x128.size a ≤ (i a).val ∧ (i a).val < win0_5.index t a * S2x128.size a + S2x128.size a := by
  show i ∈ ((View.whole (Pipeline.arrRef spec0 5)).slice (win0_5.rect t)).set ↔ _
  rw [View.set_slice_whole, Rect.mem_set_unit]
  exact Iff.rfl

theorem cover5_r0 (i : S2x128.Idx) : ∃ t : Fin cfg0.N, (cfg0.win 5).flush t = true ∧ i ∈ ((cfg0.win 5).blk t).view.set := by
  have hN : cfg0.N = 20 := N_0
  have hi0 : (i 0).val < 2 := (i 0).isLt
  have hi1 : (i 1).val < 128 := (i 1).isLt
  have h19 : 19 < cfg0.N := by omega
  refine ⟨⟨19, h19⟩, (flush0_5 _).mpr rfl, ?_⟩
  rw [mem_blk5_r0]
  obtain ⟨-, -, -, -, -, -, -, -, -, -, e0, e1⟩ := idx_facts_r0 ⟨19, h19⟩
  intro a
  match a with
  | ⟨0, _⟩ =>
    show win0_5.index ⟨19, h19⟩ (0 : Fin 2) * 2 ≤ (i 0).val ∧ (i 0).val < win0_5.index ⟨19, h19⟩ (0 : Fin 2) * 2 + 2
    rw [e0]; omega
  | ⟨1, _⟩ =>
    show win0_5.index ⟨19, h19⟩ (1 : Fin 2) * 128 ≤ (i 1).val ∧ (i 1).val < win0_5.index ⟨19, h19⟩ (1 : Fin 2) * 128 + 128
    rw [e1]; omega

theorem statsArr0 (c : Dev nD) : (dat0 (F := Ideal) V c).arrAt 5 cfg0.N = statsG_r0 V c :=
  (dat0 (F := Ideal) V c).arrAt_eq_of_cover 5 (statsG_r0 V c) (flushed5_r0 V c) cover5_r0

theorem statsArr0_sum (c : Dev nD) (q : Fin 128) : (dat0 (F := Ideal) V c).arrAt 5 cfg0.N (ValueIdx.ix2 0 q) = Spec.colsum (zM0 V c) q :=
  congrFun (statsArr0 V c) (ix2 (0 : Fin 2) q)
theorem statsArr0_sumsq (c : Dev nD) (q : Fin 128) : (dat0 (F := Ideal) V c).arrAt 5 cfg0.N (ValueIdx.ix2 1 q) = Spec.colsumsq (zM0 V c) q :=
  congrFun (statsArr0 V c) (ix2 (1 : Fin 2) q)

end Cert.KernelIdeal.HandV

end
-- ==== Proof.KI.Pieces2.lean ====
import proofs.«425279_j44762149159634_1_alg».proof.Proof.KI.Reg2
import Idealize.ShloMosaic.Lib.Pipeline.Value
import Idealize.ShloMosaic.Lib.ValueIdx
import Idealize.ShloMosaic.Lib.WritesUnit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

section
variable (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S2x128 .f32) (harg6 : arg6.IsWhole) (arg7 : Memref sig .tc .vmem S1x128 .f32) (harg7 : arg7.IsWhole) (arg8 : Memref sig .tc .vmem S1x128 .f32) (harg8 : arg8.IsWhole)
include c i arg1 harg1 arg2 harg2 arg3 harg3 arg4 harg4 arg5 harg5 arg6 harg6 arg7 harg7 arg8 harg8

section
variable (hc0 : cond2_0 i) (hc1 : ¬cond2_1 i) (x0 : Vec F S5000x128 .f32) (x1 : Vec F S5000x128 .f32) (x2 : Vec F S128x128 .f32) (x3 : Vec F S1x128 .f32)
include hc0 hc1 x0 x1 x2 x3

theorem out2_A_4_eq :
    out2_A_4 c i arg1 harg1 arg2 harg2 arg3 harg3 arg4 harg4 arg5 harg5 arg6 harg6 arg7 harg7 arg8 harg8 hc0 hc1 x0 x1 x2 x3 = k2_pay3 x0 x1 x2 x3 := by
  have hz : (![0, 0] : Fin 2 → Nat) = fun _ => 0 := funext fun a => by fin_cases a <;> rfl
  unfold out2_A_4
  rw [View.read_writes_eq_canon _ _ _ (cover2_A_4 c i arg1 harg1 arg2 harg2 arg3 harg3 arg4 harg4 arg5 harg5 arg6 harg6 arg7 harg7 arg8 harg8 hc0 hc1 x0 x1 x2 x3)]
  unfold kernelRun2_A
  dsimp only
  sl_unfold_words
  rw [View.canon_unit_zero hz]
  simp only [View.readAt_eq_ld, harg1.read_unread, harg2.read_unread, harg3.read_unread, harg4.read_unread, harg7.read_unread, harg8.read_unread,
    View.ld_unit_zero (S := S5000x128) hz, View.ld_unit_zero (S := S128x128) hz, View.ld_unit_zero (S := S1x128) hz]

theorem sout2_A_0_eq :
    sout2_A_0 c i arg1 harg1 arg2 harg2 arg3 harg3 arg4 harg4 arg5 harg5 arg6 harg6 arg7 harg7 arg8 harg8 hc0 hc1 x0 x1 x2 x3 = k2_pay4 x0 x1 x2 x3 (k2_pay1 (F := F)) := by
  have hz : (![0, 0] : Fin 2 → Nat) = fun _ => 0 := funext fun a => by fin_cases a <;> rfl
  unfold sout2_A_0
  rw [View.read_writes_eq_canon _ _ _ (scover2_A_0 c i arg1 harg1 arg2 harg2 arg3 harg3 arg4 harg4 arg5 harg5 arg6 harg6 arg7 harg7 arg8 harg8 hc0 hc1 x0 x1 x2 x3)]
  unfold kernelRun2_A
  dsimp only
  sl_unfold_words
  rw [View.canon_cons_unit_zero (S := S1x128) hz, View.readCov_unit_zero (S := S1x128) _ hz]
  simp only [View.readAt_eq_ld, harg1.read_unread, harg2.read_unread, harg3.read_unread, harg4.read_unread, harg7.read_unread, harg8.read_unread,
    View.ld_unit_zero (S := S5000x128) hz, View.ld_unit_zero (S := S128x128) hz, View.ld_unit_zero (S := S1x128) hz]

theorem sout2_A_1_eq :
    sout2_A_1 c i arg1 harg1 arg2 harg2 arg3 harg3 arg4 harg4 arg5 harg5 arg6 harg6 arg7 harg7 arg8 harg8 hc0 hc1 x0 x1 x2 x3 = k2_pay5 x0 x1 x2 x3 (k2_pay2 (F := F)) := by
  have hz : (![0, 0] : Fin 2 → Nat) = fun _ => 0 := funext fun a => by fin_cases a <;> rfl
  unfold sout2_A_1
  rw [View.read_writes_eq_canon _ _ _ (scover2_A_1 c i arg1 harg1 arg2 harg2 arg3 harg3 arg4 harg4 arg5 harg5 arg6 harg6 arg7 harg7 arg8 harg8 hc0 hc1 x0 x1 x2 x3)]
  unfold kernelRun2_A
  dsimp only
  sl_unfold_words
  rw [View.canon_cons_unit_zero (S := S1x128) hz, View.readCov_unit_zero (S := S1x128) _ hz]
  simp only [View.readAt_eq_ld, harg1.read_unread, harg2.read_unread, harg3.read_unread, harg4.read_unread, harg7.read_unread, harg8.read_unread,
    View.ld_unit_zero (S := S5000x128) hz, View.ld_unit_zero (S := S128x128) hz, View.ld_unit_zero (S := S1x128) hz]

end

section
variable (hc0 : ¬cond2_0 i) (hc1 : ¬cond2_1 i) (x0 : Vec F S5000x128 .f32) (x1 : Vec F S5000x128 .f32) (x2 : Vec F S128x128 .f32) (x3 : Vec F S1x128 .f32) (xs0 : Vec F S1x128 .f32) (xs1 : Vec F S1x128 .f32)
include hc0 hc1 x0 x1 x2 x3 xs0 xs1

theorem out2_B_4_eq :
    out2_B_4 c i arg1 harg1 arg2 harg2 arg3 harg3 arg4 harg4 arg5 harg5 arg6 harg6 arg7 harg7 arg8 harg8 hc0 hc1 x0 x1 x2 x3 xs0 xs1 = k2_pay3 x0 x1 x2 x3 := by
  have hz : (![0, 0] : Fin 2 → Nat) = fun _ => 0 := funext fun a => by fin_cases a <;> rfl
  unfold out2_B_4
  rw [View.read_writes_eq_canon _ _ _ (cover2_B_4 c i arg1 harg1 arg2 harg2 arg3 harg3 arg4 harg4 arg5 harg5 arg6 harg6 arg7 harg7 arg8 harg8 hc0 hc1 x0 x1 x2 x3 xs0 xs1)]
  unfold kernelRun2_B
  dsimp only
  sl_unfold_words
  rw [View.canon_unit_zero hz]
  simp only [View.readAt_eq_ld, harg1.read_unread, harg2.read_unread, harg3.read_unread, harg4.read_unread, harg7.read_unread, harg8.read_unread,
    View.ld_unit_zero (S := S5000x128) hz, View.ld_unit_zero (S := S128x128) hz, View.ld_unit_zero (S := S1x128) hz]

theorem sout2_B_0_eq :
    sout2_B_0 c i arg1 harg1 arg2 harg2 arg3 harg3 arg4 harg4 arg5 harg5 arg6 harg6 arg7 harg7 arg8 harg8 hc0 hc1 x0 x1 x2 x3 xs0 xs1 = k2_pay4 x0 x1 x2 x3 xs0 := by
  have hz : (![0, 0] : Fin 2 → Nat) = fun _ => 0 := funext fun a => by fin_cases a <;> rfl
  unfold sout2_B_0
  rw [View.read_writes_eq_canon _ _ _ (scover2_B_0 c i arg1 harg1 arg2 harg2 arg3 harg3 arg4 harg4 arg5 harg5 arg6 harg6 arg7 harg7 arg8 harg8 hc0 hc1 x0 x1 x2 x3 xs0 xs1)]
  unfold kernelRun2_B
  dsimp only
  sl_unfold_words
  rw [View.canon_unit_zero hz]
  simp only [View.readAt_eq_ld, harg1.read_unread, harg2.read_unread, harg3.read_unread, harg4.read_unread, harg7.read_unread, harg8.read_unread,
    View.ld_unit_zero (S := S5000x128) hz, View.ld_unit_zero (S := S128x128) hz, View.ld_unit_zero (S := S1x128) hz]

theorem sout2_B_1_eq :
    sout2_B_1 c i arg1 harg1 arg2 harg2 arg3 harg3 arg4 harg4 arg5 harg5 arg6 harg6 arg7 harg7 arg8 harg8 hc0 hc1 x0 x1 x2 x3 xs0 xs1 = k2_pay5 x0 x1 x2 x3 xs1 := by
  have hz : (![0, 0] : Fin 2 → Nat) = fun _ => 0 := funext fun a => by fin_cases a <;> rfl
  unfold sout2_B_1
  rw [View.read_writes_eq_canon _ _ _ (scover2_B_1 c i arg1 harg1 arg2 harg2 arg3 harg3 arg4 harg4 arg5 harg5 arg6 harg6 arg7 harg7 arg8 harg8 hc0 hc1 x0 x1 x2 x3 xs0 xs1)]
  unfold kernelRun2_B
  dsimp only
  sl_unfold_words
  rw [View.canon_unit_zero hz]
  simp only [View.readAt_eq_ld, harg1.read_unread, harg2.read_unread, harg3.read_unread, harg4.read_unread, harg7.read_unread, harg8.read_unread,
    View.ld_unit_zero (S := S5000x128) hz, View.ld_unit_zero (S := S128x128) hz, View.ld_unit_zero (S := S1x128) hz]

end

section
variable (hc0 : ¬cond2_0 i) (hc1 : cond2_1 i) (x0 : Vec F S5000x128 .f32) (x1 : Vec F S5000x128 .f32) (x2 : Vec F S128x128 .f32) (x3 : Vec F S1x128 .f32) (xs0 : Vec F S1x128 .f32) (xs1 : Vec F S1x128 .f32)
include hc0 hc1 x0 x1 x2 x3 xs0 xs1

theorem out2_C_4_eq :
    out2_C_4 c i arg1 harg1 arg2 harg2 arg3 harg3 arg4 harg4 arg5 harg5 arg6 harg6 arg7 harg7 arg8 harg8 hc0 hc1 x0 x1 x2 x3 xs0 xs1 = k2_pay3 x0 x1 x2 x3 := by
  have hz : (![0, 0] : Fin 2 → Nat) = fun _ => 0 := funext fun a => by fin_cases a <;> rfl
  unfold out2_C_4
  rw [View.read_writes_eq_canon _ _ _ (cover2_C_4 c i arg1 harg1 arg2 harg2 arg3 harg3 arg4 harg4 arg5 harg5 arg6 harg6 arg7 harg7 arg8 harg8 hc0 hc1 x0 x1 x2 x3 xs0 xs1)]
  unfold kernelRun2_C
  dsimp only
  sl_unfold_words
  rw [View.canon_unit_zero hz]
  simp only [View.readAt_eq_ld, harg1.read_unread, harg2.read_unread, harg3.read_unread, harg4.read_unread, harg7.read_unread, harg8.read_unread,
    View.ld_unit_zero (S := S5000x128) hz, View.ld_unit_zero (S := S128x128) hz, View.ld_unit_zero (S := S1x128) hz]

theorem sout2_C_0_eq :
    sout2_C_0 c i arg1 harg1 arg2 harg2 arg3 harg3 arg4 harg4 arg5 harg5 arg6 harg6 arg7 harg7 arg8 harg8 hc0 hc1 x0 x1 x2 x3 xs0 xs1 = k2_pay4 x0 x1 x2 x3 xs0 := by
  have hz : (![0, 0] : Fin 2 → Nat) = fun _ => 0 := funext fun a => by fin_cases a <;> rfl
  unfold sout2_C_0
  rw [View.read_writes_eq_canon _ _ _ (scover2_C_0 c i arg1 harg1 arg2 harg2 arg3 harg3 arg4 harg4 arg5 harg5 arg6 harg6 arg7 harg7 arg8 harg8 hc0 hc1 x0 x1 x2 x3 xs0 xs1)]
  unfold kernelRun2_C
  dsimp only
  sl_unfold_words
  rw [View.canon_unit_zero hz]
  simp only [View.readAt_eq_ld, harg1.read_unread, harg2.read_unread, harg3.read_unread, harg4.read_unread, harg7.read_unread, harg8.read_unread,
    View.ld_unit_zero (S := S5000x128) hz, View.ld_unit_zero (S := S128x128) hz, View.ld_unit_zero (S := S1x128) hz]

theorem sout2_C_1_eq :
    sout2_C_1 c i arg1 harg1 arg2 harg2 arg3 harg3 arg4 harg4 arg5 harg5 arg6 harg6 arg7 harg7 arg8 harg8 hc0 hc1 x0 x1 x2 x3 xs0 xs1 = k2_pay5 x0 x1 x2 x3 xs1 := by
  have hz : (![0, 0] : Fin 2 → Nat) = fun _ => 0 := funext fun a => by fin_cases a <;> rfl
  unfold sout2_C_1
  rw [View.read_writes_eq_canon _ _ _ (scover2_C_1 c i arg1 harg1 arg2 harg2 arg3 harg3 arg4 harg4 arg5 harg5 arg6 harg6 arg7 harg7 arg8 harg8 hc0 hc1 x0 x1 x2 x3 xs0 xs1)]
  unfold kernelRun2_C
  dsimp only
  sl_unfold_words
  rw [View.canon_unit_zero hz]
  simp only [View.readAt_eq_ld, harg1.read_unread, harg2.read_unread, harg3.read_unread, harg4.read_unread, harg7.read_unread, harg8.read_unread,
    View.ld_unit_zero (S := S5000x128) hz, View.ld_unit_zero (S := S128x128) hz, View.ld_unit_zero (S := S1x128) hz]

theorem out2_C_5_row0 (q : Fin 128) :
    out2_C_5 c i arg1 harg1 arg2 harg2 arg3 harg3 arg4 harg4 arg5 harg5 arg6 harg6 arg7 harg7 arg8 harg8 hc0 hc1 x0 x1 x2 x3 xs0 xs1 (ix2 (0 : Fin 2) q) = k2_pay4 x0 x1 x2 x3 xs0 (ix2 (0 : Fin 1) q) := by
  have hz : (![0, 0] : Fin 2 → Nat) = fun _ => 0 := funext fun a => by fin_cases a <;> rfl
  unfold out2_C_5
  unfold kernelRun2_C
  dsimp only
  sl_unfold_words
  refine (View.read_writes_cons_rows_of_not_mem (Val := Elt F) VO2_5 VO2_5.junk (off := ![1, 0]) (size := ![1, 128]) (o := 1) (W := 1)
    inb_S2x128_S1x128_1_0 _ _ (ix2 (0 : Fin 2) q) rfl rfl (Or.inl Nat.zero_lt_one)).trans ?_
  refine (View.read_writes_cons_rows_of_mem (Val := Elt F) VO2_5 VO2_5.junk (off := ![0, 0]) (size := ![1, 128]) (o := 0)
    inb_S2x128_S1x128_0_0 _ _ (ix2 (0 : Fin 2) q) (ix2 (0 : Fin 1) q) rfl rfl rfl).trans ?_
  refine congrFun ?_ (ix2 (0 : Fin 1) q)
  rw [View.readCov_unit_zero (S := S1x128) _ hz]
  simp only [View.readAt_eq_ld, harg1.read_unread, harg2.read_unread, harg3.read_unread, harg4.read_unread, harg7.read_unread, harg8.read_unread,
    View.ld_unit_zero (S := S5000x128) hz, View.ld_unit_zero (S := S128x128) hz, View.ld_unit_zero (S := S1x128) hz]

theorem out2_C_5_row1 (q : Fin 128) :
    out2_C_5 c i arg1 harg1 arg2 harg2 arg3 harg3 arg4 harg4 arg5 harg5 arg6 harg6 arg7 harg7 arg8 harg8 hc0 hc1 x0 x1 x2 x3 xs0 xs1 (ix2 (1 : Fin 2) q) = k2_pay5 x0 x1 x2 x3 xs1 (ix2 (0 : Fin 1) q) := by
  have hz : (![0, 0] : Fin 2 → Nat) = fun _ => 0 := funext fun a => by fin_cases a <;> rfl
  unfold out2_C_5
  unfold kernelRun2_C
  dsimp only
  sl_unfold_words
  refine (View.read_writes_cons_rows_of_mem (Val := Elt F) VO2_5 VO2_5.junk (off := ![1, 0]) (size := ![1, 128]) (o := 1)
    inb_S2x128_S1x128_1_0 _ _ (ix2 (1 : Fin 2) q) (ix2 (0 : Fin 1) q) rfl rfl rfl).trans ?_
  refine congrFun ?_ (ix2 (0 : Fin 1) q)
  rw [View.readCov_unit_zero (S := S1x128) _ hz]
  simp only [View.readAt_eq_ld, harg1.read_unread, harg2.read_unread, harg3.read_unread, harg4.read_unread, harg7.read_unread, harg8.read_unread,
    View.ld_unit_zero (S := S5000x128) hz, View.ld_unit_zero (S := S128x128) hz, View.ld_unit_zero (S := S1x128) hz]

end

end

end Cert.KernelIdeal.Hand

end
-- ==== Proof.KI.ValA2Pay.lean ====
import proofs.«425279_j44762149159634_1_alg».proof.Proof.KI.ValA0Pay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandV

open Cert.KernelIdeal Cert.KernelIdeal.Gen
open Idealize.ShloMosaic Idealize.ShloMosaic.TcCoe
open Idealize.ShloMosaic.ValueIdx
open Idealize.SL.Sem
open scoped BigOperators

theorem pay3_apply_r2 (v3 v4 : Vec Ideal S5000x128 .f32) (v8 : Vec Ideal S128x128 .f32) (v12 : Vec Ideal S1x128 .f32) (p : Fin 5000) (q : Fin 128) :
    k2_pay3 v3 v4 v8 v12 (ix2 p q) = (∑ k : Fin 128, (v3 (ix2 p k) + v4 (ix2 p k)) * v8 (ix2 k q)) + v12 (ix2 (0 : Fin 1) q) := by
  unfold k2_pay3
  refine (addf_apply _ _ _).trans ?_
  refine congrArg₂ (· + ·) ?_ ?_
  · refine (matmul_apply_r0 _ _ p q).trans ?_
    refine Finset.sum_congr rfl fun k _ => ?_
    simp only [shapeCast_self]
    rfl
  · refine (broadcastTo_1b_ab_apply _ _ p q).trans ?_
    rw [shapeCast_self]

theorem pay1_apply_r2 (q : Fin 128) : (k2_pay1 (F := Ideal)) (ix2 (0 : Fin 1) q) = 0 := by
  unfold k2_pay1
  rw [shapeCast_self]
  exact Ideal.ofBits_zero_f32
theorem pay2_apply_r2 (q : Fin 128) : (k2_pay2 (F := Ideal)) (ix2 (0 : Fin 1) q) = 0 := by
  unfold k2_pay2
  rw [shapeCast_self]
  exact Ideal.ofBits_zero_f32

theorem pay4_apply_r2 (v3 v4 : Vec Ideal S5000x128 .f32) (v8 : Vec Ideal S128x128 .f32) (v12 : Vec Ideal S1x128 .f32) (v17 : Vec Ideal S1x128 .f32) (q : Fin 128) :
    k2_pay4 v3 v4 v8 v12 v17 (ix2 (0 : Fin 1) q) = v17 (ix2 (0 : Fin 1) q) + ∑ r : Fin 5000, k2_pay3 v3 v4 v8 v12 (ix2 r q) := by
  unfold k2_pay4
  rw [shapeCast_self]
  refine (addf_apply _ _ _).trans ?_
  exact congrArg (v17 (ix2 (0 : Fin 1) q) + ·) (colsum_tile_apply_r0 _ q)

theorem pay5_apply_r2 (v3 v4 : Vec Ideal S5000x128 .f32) (v8 : Vec Ideal S128x128 .f32) (v12 : Vec Ideal S1x128 .f32) (v24 : Vec Ideal S1x128 .f32) (q : Fin 128) :
    k2_pay5 v3 v4 v8 v12 v24 (ix2 (0 : Fin 1) q) = v24 (ix2 (0 : Fin 1) q) + ∑ r : Fin 5000, k2_pay3 v3 v4 v8 v12 (ix2 r q) * k2_pay3 v3 v4 v8 v12 (ix2 r q) := by
  unfold k2_pay5
  rw [shapeCast_self]
  refine (addf_apply _ _ _).trans ?_
  refine congrArg (v24 (ix2 (0 : Fin 1) q) + ·) ?_
  refine (colsum_tile_apply_r0 _ q).trans ?_
  rfl

end Cert.KernelIdeal.HandV

end
-- ==== Proof.KI.ValA2.lean ====
import proofs.«425279_j44762149159634_1_alg».proof.Proof.KI.Reg2
import proofs.«425279_j44762149159634_1_alg».proof.Proof.KI.Pieces2
import proofs.«425279_j44762149159634_1_alg».proof.Proof.KI.ValA2Pay
import proofs.«425279_j44762149159634_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.Tactic
open Idealize.ShloMosaic.ValueIdx
open Idealize.SL.Sem
open Idealize.ShloMosaic.Pipeline (Dat Cfg Window)
open scoped BigOperators

variable (V : (c : Dev nD) → (b : Ref sig .tc) → Buf (Elt Ideal) ((c : Thread nD τ).loc b))

abbrev xM2 (c : Dev nD) : Spec.Mat 100000 128 := fun r k => V c (Pipeline.arrRef spec2 0) (ValueIdx.ix2 r k)
abbrev aM2 (c : Dev nD) : Spec.Mat 100000 128 := fun r k => V c (Pipeline.arrRef spec2 1) (ValueIdx.ix2 r k)
abbrev wM2 (c : Dev nD) : Spec.Mat 128 128 := fun k j => V c (Pipeline.arrRef spec2 2) (ValueIdx.ix2 k j)
abbrev bR2 (c : Dev nD) : Fin 128 → EReal := fun j => V c (Pipeline.arrRef spec2 3) (ValueIdx.ix2 0 j)

abbrev zM2 (c : Dev nD) : Spec.Mat 100000 128 := Spec.lin (fun r k => xM2 V c r k + aM2 V c r k) (wM2 V c) (bR2 V c)

theorem idx_facts_r2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = 0 ∧ win2_5.index t (1 : Fin 2) = 0 :=
  (by decide +kernel : ∀ t : Fin grid2.N, _)

abbrev xblk_r2 (c : Dev nD) (t : Fin cfg2.N) : Vec Ideal S5000x128 .f32 := iblk2 V c 0 t
abbrev ablk_r2 (c : Dev nD) (t : Fin cfg2.N) : Vec Ideal S5000x128 .f32 := iblk2 V c 1 t
abbrev wblk_r2 (c : Dev nD) (t : Fin cfg2.N) : Vec Ideal S128x128 .f32 := iblk2 V c 2 t
abbrev bblk_r2 (c : Dev nD) (t : Fin cfg2.N) : Vec Ideal S1x128 .f32 := iblk2 V c 3 t

theorem xblk_apply_r2 (c : Dev nD) (t : Fin cfg2.N) (r : Fin 5000) (k : Fin 128) (h : 5000 * t.val + r.val < 100000) :
    xblk_r2 V c t (ix2 r k) = xM2 V c ⟨5000 * t.val + r.val, h⟩ k := by
  show iblk2 V c 0 t (ix2 r k) = _
  unfold iblk2
  rw [View.read_apply]
  show V c (Pipeline.arrRef spec2 0) _ = V c (Pipeline.arrRef spec2 0) _
  obtain ⟨e0, e1, -⟩ := idx_facts_r2 t
  congr 1
  funext a
  apply Fin.ext
  match a with
  | ⟨0, _⟩ => show win2_0.index t (0 : Fin 2) * 5000 + 1 * r.val = 5000 * t.val + r.val; rw [e0]; omega
  | ⟨1, _⟩ => show win2_0.index t (1 : Fin 2) * 128 + 1 * k.val = k.val; rw [e1]; omega

theorem ablk_apply_r2 (c : Dev nD) (t : Fin cfg2.N) (r : Fin 5000) (k : Fin 128) (h : 5000 * t.val + r.val < 100000) :
    ablk_r2 V c t (ix2 r k) = aM2 V c ⟨5000 * t.val + r.val, h⟩ k := by
  show iblk2 V c 1 t (ix2 r k) = _
  unfold iblk2
  rw [View.read_apply]
  show V c (Pipeline.arrRef spec2 1) _ = V c (Pipeline.arrRef spec2 1) _
  obtain ⟨-, -, e0, e1, -⟩ := idx_facts_r2 t
  congr 1
  funext a
  apply Fin.ext
  match a with
  | ⟨0, _⟩ => show win2_1.index t (0 : Fin 2) * 5000 + 1 * r.val = 5000 * t.val + r.val; rw [e0]; omega
  | ⟨1, _⟩ => show win2_1.index t (1 : Fin 2) * 128 + 1 * k.val = k.val; rw [e1]; omega

theorem wblk_apply_r2 (c : Dev nD) (t : Fin cfg2.N) (k j : Fin 128) : wblk_r2 V c t (ix2 k j) = wM2 V c k j := by
  show iblk2 V c 2 t (ix2 k j) = _
  unfold iblk2
  rw [View.read_apply]
  show V c (Pipeline.arrRef spec2 2) _ = V c (Pipeline.arrRef spec2 2) _
  obtain ⟨-, -, -, -, e0, e1, -⟩ := idx_facts_r2 t
  congr 1
  funext a
  apply Fin.ext
  match a with
  | ⟨0, _⟩ => show win2_2.index t (0 : Fin 2) * 128 + 1 * k.val = k.val; rw [e0]; omega
  | ⟨1, _⟩ => show win2_2.index t (1 : Fin 2) * 128 + 1 * j.val = j.val; rw [e1]; omega

theorem bblk_apply_r2 (c : Dev nD) (t : Fin cfg2.N) (j : Fin 128) : bblk_r2 V c t (ix2 (0 : Fin 1) j) = bR2 V c j := by
  show iblk2 V c 3 t (ix2 (0 : Fin 1) j) = _
  unfold iblk2
  rw [View.read_apply]
  show V c (Pipeline.arrRef spec2 3) _ = V c (Pipeline.arrRef spec2 3) _
  obtain ⟨-, -, -, -, -, -, e0, e1, -⟩ := idx_facts_r2 t
  congr 1
  funext a
  apply Fin.ext
  match a with
  | ⟨0, _⟩ => show win2_3.index t (0 : Fin 2) * 1 + 1 * 0 = 0; rw [e0]
  | ⟨1, _⟩ => show win2_3.index t (1 : Fin 2) * 128 + 1 * j.val = j.val; rw [e1]; omega

theorem pay3_blk_r2 (c : Dev nD) (t : Fin cfg2.N) (r : Fin 5000) (q : Fin 128) (h : 5000 * t.val + r.val < 100000) :
    k2_pay3 (xblk_r2 V c t) (ablk_r2 V c t) (wblk_r2 V c t) (bblk_r2 V c t) (ix2 r q) = zM2 V c ⟨5000 * t.val + r.val, h⟩ q := by
  refine (pay3_apply_r2 (xblk_r2 V c t) (ablk_r2 V c t) (wblk_r2 V c t) (bblk_r2 V c t) r q).trans ?_
  show _ = (∑ k : Fin 128, (xM2 V c ⟨5000 * t.val + r.val, h⟩ k + aM2 V c ⟨5000 * t.val + r.val, h⟩ k) * wM2 V c k q) + bR2 V c q
  rw [bblk_apply_r2 V c t q]
  refine congrArg (· + bR2 V c q) ?_
  refine Finset.sum_congr rfl fun k _ => ?_
  rw [xblk_apply_r2 V c t r k h, ablk_apply_r2 V c t r k h, wblk_apply_r2 V c t k q]

theorem outs4_r2 (c : Dev nD) (t : Fin cfg2.N) :
    ((outsAt2 V c t.val t.isLt).1 : Vec Ideal S5000x128 .f32) = k2_pay3 (xblk_r2 V c t) (ablk_r2 V c t) (wblk_r2 V c t) (bblk_r2 V c t) := by
  by_cases h0 : t.val % 20 = 0
  · have h1 : ¬t.val % 20 = 19 := by omega
    rw [outsAt2_A V c t h0 h1]
    dsimp only [outs2_A]
    exact out2_A_4_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t)
  · by_cases h1 : t.val % 20 = 19
    · rw [outsAt2_C V c t h0 h1]
      dsimp only [outs2_C]
      exact out2_C_4_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2.1 (outsAt2 V c (t.val - 1) (Nat.lt_of_le_of_lt (Nat.sub_le _ _) t.isLt)).2.2.2
    · rw [outsAt2_B V c t h0 h1]
      dsimp only [outs2_B]
      exact out2_B_4_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.2.1 (outsAt2 V c (t.val - 1) (Nat.lt_of_le_of_lt (Nat.sub_le _ _) t.isLt)).2.2.2

theorem outsS0_zero_r2 (c : Dev nD) (t : Fin cfg2.N) (hz : t.val = 0) :
    ((outsAt2 V c t.val t.isLt).2.2.1 : Vec Ideal S1x128 .f32) = k2_pay4 (xblk_r2 V c t) (ablk_r2 V c t) (wblk_r2 V c t) (bblk_r2 V c t) (k2_pay1 (F := Ideal)) := by
  have h0 : t.val % 20 = 0 := by omega
  have h1 : ¬t.val % 20 = 19 := by omega
  rw [outsAt2_A V c t h0 h1]
  dsimp only [outs2_A]
  exact sout2_A_0_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t)

theorem outsS1_zero_r2 (c : Dev nD) (t : Fin cfg2.N) (hz : t.val = 0) :
    ((outsAt2 V c t.val t.isLt).2.2.2 : Vec Ideal S1x128 .f32) = k2_pay5 (xblk_r2 V c t) (ablk_r2 V c t) (wblk_r2 V c t) (bblk_r2 V c t) (k2_pay2 (F := Ideal)) := by
  have h0 : t.val % 20 = 0 := by omega
  have h1 : ¬t.val % 20 = 19 := by omega
  rw [outsAt2_A V c t h0 h1]
  dsimp only [outs2_A]
  exact sout2_A_1_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t)

theorem outsS0_pos_r2 (c : Dev nD) (t : Fin cfg2.N) (hz : t.val ≠ 0) :
    ((outsAt2 V c t.val t.isLt).2.2.1 : Vec Ideal S1x128 .f32) = k2_pay4 (xblk_r2 V c t) (ablk_r2 V c t) (wblk_r2 V c t) (bblk_r2 V c t) (outsAt2 V c (t.val - 1) (Nat.lt_of_le_of_lt (Nat.sub_le _ _) t.isLt)).2.2.1 := by
  have hN : cfg2.N = 20 := N_2
  have h0 : ¬t.val % 20 = 0 := by have := t.isLt; omega
  by_cases h1 : t.val % 20 = 19
  · rw [outsAt2_C V c t h0 h1]
    dsimp only [outs2_C]
    exact sout2_C_0_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2.1 (outsAt2 V c (t.val - 1) (Nat.lt_of_le_of_lt (Nat.sub_le _ _) t.isLt)).2.2.2
  · rw [outsAt2_B V c t h0 h1]
    dsimp only [outs2_B]
    exact sout2_B_0_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.2.1 (outsAt2 V c (t.val - 1) (Nat.lt_of_le_of_lt (Nat.sub_le _ _) t.isLt)).2.2.2

theorem outsS1_pos_r2 (c : Dev nD) (t : Fin cfg2.N) (hz : t.val ≠ 0) :
    ((outsAt2 V c t.val t.isLt).2.2.2 : Vec Ideal S1x128 .f32) = k2_pay5 (xblk_r2 V c t) (ablk_r2 V c t) (wblk_r2 V c t) (bblk_r2 V c t) (outsAt2 V c (t.val - 1) (Nat.lt_of_le_of_lt (Nat.sub_le _ _) t.isLt)).2.2.2 := by
  have hN : cfg2.N = 20 := N_2
  have h0 : ¬t.val % 20 = 0 := by have := t.isLt; omega
  by_cases h1 : t.val % 20 = 19
  · rw [outsAt2_C V c t h0 h1]
    dsimp only [outs2_C]
    exact sout2_C_1_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2.1 (outsAt2 V c (t.val - 1) (Nat.lt_of_le_of_lt (Nat.sub_le _ _) t.isLt)).2.2.2
  · rw [outsAt2_B V c t h0 h1]
    dsimp only [outs2_B]
    exact sout2_B_1_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.2.1 (outsAt2 V c (t.val - 1) (Nat.lt_of_le_of_lt (Nat.sub_le _ _) t.isLt)).2.2.2

def tsum_r2 (c : Dev nD) (q : Fin 128) (t : ℕ) : EReal :=
  if h : t < 20 then ∑ r : Fin 5000, zM2 V c ⟨5000 * t + r.val, by omega⟩ q else 0

def tsumsq_r2 (c : Dev nD) (q : Fin 128) (t : ℕ) : EReal :=
  if h : t < 20 then ∑ r : Fin 5000, zM2 V c ⟨5000 * t + r.val, by omega⟩ q * zM2 V c ⟨5000 * t + r.val, by omega⟩ q else 0

theorem sum_inv_r2 (c : Dev nD) (q : Fin 128) : ∀ (n : ℕ) (h : n < cfg2.N),
    ((outsAt2 V c n h).2.2.1 : Vec Ideal S1x128 .f32) (ix2 (0 : Fin 1) q) = ∑ t ∈ Finset.range (n + 1), tsum_r2 V c q t
  | 0, h => by
    rw [outsS0_zero_r2 V c ⟨0, h⟩ rfl]
    refine (pay4_apply_r2 _ _ _ _ _ q).trans ?_
    rw [pay1_apply_r2, zero_add, Finset.sum_range_one]
    unfold tsum_r2
    rw [dif_pos (by omega : (0 : ℕ) < 20)]
    exact Finset.sum_congr rfl fun r _ => pay3_blk_r2 V c ⟨0, h⟩ r q _
  | n + 1, h => by
    have hN : cfg2.N = 20 := N_2
    rw [outsS0_pos_r2 V c ⟨n + 1, h⟩ (Nat.succ_ne_zero n)]
    refine (pay4_apply_r2 _ _ _ _ _ q).trans ?_
    rw [Finset.sum_range_succ]
    refine congrArg₂ (· + ·) (sum_inv_r2 c q n (Nat.lt_of_succ_lt h)) ?_
    unfold tsum_r2
    rw [dif_pos (by omega : n + 1 < 20)]
    exact Finset.sum_congr rfl fun r _ => pay3_blk_r2 V c ⟨n + 1, h⟩ r q _

theorem sumsq_inv_r2 (c : Dev nD) (q : Fin 128) : ∀ (n : ℕ) (h : n < cfg2.N),
    ((outsAt2 V c n h).2.2.2 : Vec Ideal S1x128 .f32) (ix2 (0 : Fin 1) q) = ∑ t ∈ Finset.range (n + 1), tsumsq_r2 V c q t
  | 0, h => by
    rw [outsS1_zero_r2 V c ⟨0, h⟩ rfl]
    refine (pay5_apply_r2 _ _ _ _ _ q).trans ?_
    rw [pay2_apply_r2, zero_add, Finset.sum_range_one]
    unfold tsumsq_r2
    rw [dif_pos (by omega : (0 : ℕ) < 20)]
    exact Finset.sum_congr rfl fun r _ => by rw [pay3_blk_r2 V c ⟨0, h⟩ r q _]
  | n + 1, h => by
    have hN : cfg2.N = 20 := N_2
    rw [outsS1_pos_r2 V c ⟨n + 1, h⟩ (Nat.succ_ne_zero n)]
    refine (pay5_apply_r2 _ _ _ _ _ q).trans ?_
    rw [Finset.sum_range_succ]
    refine congrArg₂ (· + ·) (sumsq_inv_r2 c q n (Nat.lt_of_succ_lt h)) ?_
    unfold tsumsq_r2
    rw [dif_pos (by omega : n + 1 < 20)]
    exact Finset.sum_congr rfl fun r _ => by rw [pay3_blk_r2 V c ⟨n + 1, h⟩ r q _]

theorem total_sum_r2 (c : Dev nD) (q : Fin 128) : ∑ t ∈ Finset.range 20, tsum_r2 V c q t = Spec.colsum (zM2 V c) q := by
  rw [← Fin.sum_univ_eq_sum_range (fun t => tsum_r2 V c q t) 20]
  refine (Finset.sum_congr rfl fun t _ => ?_).trans
    (Spec.sum_tiles (T := 20) (n := 5000) (fun R => zM2 V c R q) (fun t r => ⟨5000 * t.val + r.val, by omega⟩) (fun t r => by show 5000 * t.val + r.val = t.val * 5000 + r.val; omega))
  unfold tsum_r2
  rw [dif_pos t.isLt]

theorem total_sumsq_r2 (c : Dev nD) (q : Fin 128) : ∑ t ∈ Finset.range 20, tsumsq_r2 V c q t = Spec.colsumsq (zM2 V c) q := by
  rw [← Fin.sum_univ_eq_sum_range (fun t => tsumsq_r2 V c q t) 20]
  refine (Finset.sum_congr rfl fun t _ => ?_).trans
    (Spec.sum_tiles (T := 20) (n := 5000) (fun R => zM2 V c R q * zM2 V c R q) (fun t r => ⟨5000 * t.val + r.val, by omega⟩) (fun t r => by show 5000 * t.val + r.val = t.val * 5000 + r.val; omega))
  unfold tsumsq_r2
  rw [dif_pos t.isLt]

abbrev zG_r2 (c : Dev nD) : Vec Ideal S100000x128 .f32 := fun i => zM2 V c (i 0) (i 1)

theorem flushed4_r2 (c : Dev nD) (t : Fin cfg2.N) :
    (dat2 (F := Ideal) V c).flushed 4 t = ((cfg2.win 4).blk t).view.read (Elt Ideal) (zG_r2 V c) := by
  have hN : cfg2.N = 20 := N_2
  have ht : t.val < 20 := by have := t.isLt; omega
  show (cfg2.win 4).cut (grid2.coords t) ((dat2 V c).after 4 t) = _
  rw [after2_4, outs4_r2]
  funext j
  obtain ⟨r, q, rfl⟩ : ∃ (r : Fin 5000) (q : Fin 128), j = ix2 r q := ⟨j 0, j 1, eq_ix2 j⟩
  rw [View.read_apply]
  show k2_pay3 (xblk_r2 V c t) (ablk_r2 V c t) (wblk_r2 V c t) (bblk_r2 V c t) (ix2 r q)
    = zM2 V c ((((cfg2.win 4).blk t).view.emb (ix2 r q)) 0) ((((cfg2.win 4).blk t).view.emb (ix2 r q)) 1)
  refine (pay3_blk_r2 V c t r q (by omega)).trans ?_
  obtain ⟨-, -, -, -, -, -, -, -, e0, e1, -⟩ := idx_facts_r2 t
  refine congrArg₂ (fun a b => zM2 V c a b) (Fin.ext ?_) (Fin.ext ?_)
  · show 5000 * t.val + r.val = win2_4.index t (0 : Fin 2) * 5000 + 1 * r.val
    rw [e0]; omega
  · show q.val = win2_4.index t (1 : Fin 2) * 128 + 1 * q.val
    rw [e1]; omega

theorem mem_blk4_r2 (t : Fin cfg2.N) (i : S100000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole (Pipeline.arrRef spec2 4)).slice (win2_4.rect t)).set ↔ _
  rw [View.set_slice_whole, Rect.mem_set_unit]
  exact Iff.rfl

theorem cover4_r2 (i : S100000x128.Idx) : ∃ t : Fin cfg2.N, (cfg2.win 4).flush t = true ∧ i ∈ ((cfg2.win 4).blk t).view.set := by
  have hN : cfg2.N = 20 := N_2
  have hi0 : (i 0).val < 100000 := (i 0).isLt
  have hi1 : (i 1).val < 128 := (i 1).isLt
  have hq : (i 0).val / 5000 < cfg2.N := by omega
  refine ⟨⟨(i 0).val / 5000, hq⟩, flush2_4 _, ?_⟩
  rw [mem_blk4_r2]
  obtain ⟨-, -, -, -, -, -, -, -, e0, e1, -⟩ := idx_facts_r2 ⟨(i 0).val / 5000, hq⟩
  intro a
  match a with
  | ⟨0, _⟩ =>
    show win2_4.index ⟨(i 0).val / 5000, hq⟩ (0 : Fin 2) * 5000 ≤ (i 0).val ∧ (i 0).val < win2_4.index ⟨(i 0).val / 5000, hq⟩ (0 : Fin 2) * 5000 + 5000
    rw [e0]; dsimp only; omega
  | ⟨1, _⟩ =>
    show win2_4.index ⟨(i 0).val / 5000, hq⟩ (1 : Fin 2) * 128 ≤ (i 1).val ∧ (i 1).val < win2_4.index ⟨(i 0).val / 5000, hq⟩ (1 : Fin 2) * 128 + 128
    rw [e1]; omega

theorem zArr2 (c : Dev nD) (p : Fin 100000) (q : Fin 128) : (dat2 (F := Ideal) V c).arrAt 4 cfg2.N (ValueIdx.ix2 p q) = zM2 V c p q :=
  congrFun ((dat2 (F := Ideal) V c).arrAt_eq_of_cover 4 (zG_r2 V c) (fun t _ => flushed4_r2 V c t) cover4_r2) (ix2 p q)

abbrev statsG_r2 (c : Dev nD) : Vec Ideal S2x128 .f32 := fun i => if (i 0).val = 0 then Spec.colsum (zM2 V c) (i 1) else Spec.colsumsq (zM2 V c) (i 1)

theorem outs5_last_r2 (c : Dev nD) (t : Fin cfg2.N) (h1 : t.val % 20 = 19) (q : Fin 128) :
    ((outsAt2 V c t.val t.isLt).2.1 : Vec Ideal S2x128 .f32) (ix2 (0 : Fin 2) q) = ((outsAt2 V c t.val t.isLt).2.2.1 : Vec Ideal S1x128 .f32) (ix2 (0 : Fin 1) q)
    ∧ ((outsAt2 V c t.val t.isLt).2.1 : Vec Ideal S2x128 .f32) (ix2 (1 : Fin 2) q) = ((outsAt2 V c t.val t.isLt).2.2.2 : Vec Ideal S1x128 .f32) (ix2 (0 : Fin 1) q) := by
  have h0 : ¬t.val % 20 = 0 := by omega
  rw [outsAt2_C V c t h0 h1]
  dsimp only [outs2_C]
  exact ⟨(out2_C_5_row0 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2.1 (outsAt2 V c (t.val - 1) (Nat.lt_of_le_of_lt (Nat.sub_le _ _) t.isLt)).2.2.2 q).trans (congrFun (sout2_C_0_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2.1 (outsAt2 V c (t.val - 1) (Nat.lt_of_le_of_lt (Nat.sub_le _ _) t.isLt)).2.2.2) (ix2 (0 : Fin 1) q)).symm,
    (out2_C_5_row1 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2.1 (outsAt2 V c (t.val - 1) (Nat.lt_of_le_of_lt (Nat.sub_le _ _) t.isLt)).2.2.2 q).trans (congrFun (sout2_C_1_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2.1 (outsAt2 V c (t.val - 1) (Nat.lt_of_le_of_lt (Nat.sub_le _ _) t.isLt)).2.2.2) (ix2 (0 : Fin 1) q)).symm⟩

theorem flushed5_r2 (c : Dev nD) (t : Fin cfg2.N) (hf : (cfg2.win 5).flush t = true) :
    (dat2 (F := Ideal) V c).flushed 5 t = ((cfg2.win 5).blk t).view.read (Elt Ideal) (statsG_r2 V c) := by
  have hN : cfg2.N = 20 := N_2
  have h1 : t.val % 20 = 19 := (flush2_5 t).mp hf
  have ht : t.val = 19 := by have := t.isLt; omega
  show (cfg2.win 5).cut (grid2.coords t) ((dat2 V c).after 5 t) = _
  rw [after2_5]
  funext j
  obtain ⟨a, q, rfl⟩ : ∃ (a : Fin 2) (q : Fin 128), j = ix2 a q := ⟨j 0, j 1, eq_ix2 j⟩
  rw [View.read_apply]
  obtain ⟨-, -, -, -, -, -, -, -, -, -, e0, e1⟩ := idx_facts_r2 t
  have hemb : ((cfg2.win 5).blk t).view.emb (ix2 a q) = ix2 a q := funext fun ax => Fin.ext (by
    match ax with
    | ⟨0, _⟩ => show win2_5.index t (0 : Fin 2) * 2 + 1 * a.val = a.val; rw [e0]; omega
    | ⟨1, _⟩ => show win2_5.index t (1 : Fin 2) * 128 + 1 * q.val = q.val; rw [e1]; omega)
  show ((outsAt2 V c t.val t.isLt).2.1 : Vec Ideal S2x128 .f32) (ix2 a q) = statsG_r2 V c (((cfg2.win 5).blk t).view.emb (ix2 a q))
  rw [hemb]
  obtain ⟨r0, r1⟩ := outs5_last_r2 V c t h1 q

  have s0 : ((outsAt2 V c t.val t.isLt).2.2.1 : Vec Ideal S1x128 .f32) (ix2 (0 : Fin 1) q) = Spec.colsum (zM2 V c) q :=
    (sum_inv_r2 V c q t.val t.isLt).trans
      ((congrArg (fun n => ∑ x ∈ Finset.range (n + 1), tsum_r2 V c q x) ht).trans (total_sum_r2 V c q))
  have s1 : ((outsAt2 V c t.val t.isLt).2.2.2 : Vec Ideal S1x128 .f32) (ix2 (0 : Fin 1) q) = Spec.colsumsq (zM2 V c) q :=
    (sumsq_inv_r2 V c q t.val t.isLt).trans
      ((congrArg (fun n => ∑ x ∈ Finset.range (n + 1), tsumsq_r2 V c q x) ht).trans (total_sumsq_r2 V c q))
  match a with
  | ⟨0, _⟩ =>
    show _ = Spec.colsum (zM2 V c) q
    exact r0.trans s0
  | ⟨1, _⟩ =>
    show _ = Spec.colsumsq (zM2 V c) q
    exact r1.trans s1

theorem mem_blk5_r2 (t : Fin cfg2.N) (i : S2x128.Idx) :
    i ∈ ((cfg2.win 5).blk t).view.set ↔ ∀ a : Fin 2, win2_5.index t a * S2x128.size a ≤ (i a).val ∧ (i a).val < win2_5.index t a * S2x128.size a + S2x128.size a := by
  show i ∈ ((View.whole (Pipeline.arrRef spec2 5)).slice (win2_5.rect t)).set ↔ _
  rw [View.set_slice_whole, Rect.mem_set_unit]
  exact Iff.rfl

theorem cover5_r2 (i : S2x128.Idx) : ∃ t : Fin cfg2.N, (cfg2.win 5).flush t = true ∧ i ∈ ((cfg2.win 5).blk t).view.set := by
  have hN : cfg2.N = 20 := N_2
  have hi0 : (i 0).val < 2 := (i 0).isLt
  have hi1 : (i 1).val < 128 := (i 1).isLt
  have h19 : 19 < cfg2.N := by omega
  refine ⟨⟨19, h19⟩, (flush2_5 _).mpr rfl, ?_⟩
  rw [mem_blk5_r2]
  obtain ⟨-, -, -, -, -, -, -, -, -, -, e0, e1⟩ := idx_facts_r2 ⟨19, h19⟩
  intro a
  match a with
  | ⟨0, _⟩ =>
    show win2_5.index ⟨19, h19⟩ (0 : Fin 2) * 2 ≤ (i 0).val ∧ (i 0).val < win2_5.index ⟨19, h19⟩ (0 : Fin 2) * 2 + 2
    rw [e0]; omega
  | ⟨1, _⟩ =>
    show win2_5.index ⟨19, h19⟩ (1 : Fin 2) * 128 ≤ (i 1).val ∧ (i 1).val < win2_5.index ⟨19, h19⟩ (1 : Fin 2) * 128 + 128
    rw [e1]; omega

theorem statsArr2 (c : Dev nD) : (dat2 (F := Ideal) V c).arrAt 5 cfg2.N = statsG_r2 V c :=
  (dat2 (F := Ideal) V c).arrAt_eq_of_cover 5 (statsG_r2 V c) (flushed5_r2 V c) cover5_r2

theorem statsArr2_sum (c : Dev nD) (q : Fin 128) : (dat2 (F := Ideal) V c).arrAt 5 cfg2.N (ValueIdx.ix2 0 q) = Spec.colsum (zM2 V c) q :=
  congrFun (statsArr2 V c) (ix2 (0 : Fin 2) q)
theorem statsArr2_sumsq (c : Dev nD) (q : Fin 128) : (dat2 (F := Ideal) V c).arrAt 5 cfg2.N (ValueIdx.ix2 1 q) = Spec.colsumsq (zM2 V c) q :=
  congrFun (statsArr2 V c) (ix2 (1 : Fin 2) q)

end Cert.KernelIdeal.HandV

end
-- ==== Proof.KI.Pieces4.lean ====
import proofs.«425279_j44762149159634_1_alg».proof.Proof.KI.Reg4
import Idealize.ShloMosaic.Lib.Pipeline.Value
import Idealize.ShloMosaic.Lib.ValueIdx
import Idealize.ShloMosaic.Lib.WritesUnit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

section
variable (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S2x128 .f32) (harg6 : arg6.IsWhole) (arg7 : Memref sig .tc .vmem S1x128 .f32) (harg7 : arg7.IsWhole) (arg8 : Memref sig .tc .vmem S1x128 .f32) (harg8 : arg8.IsWhole)
include c i arg1 harg1 arg2 harg2 arg3 harg3 arg4 harg4 arg5 harg5 arg6 harg6 arg7 harg7 arg8 harg8

section
variable (hc0 : cond4_0 i) (hc1 : ¬cond4_1 i) (x0 : Vec F S5000x128 .f32) (x1 : Vec F S5000x128 .f32) (x2 : Vec F S128x128 .f32) (x3 : Vec F S1x128 .f32)
include hc0 hc1 x0 x1 x2 x3

theorem out4_A_4_eq :
    out4_A_4 c i arg1 harg1 arg2 harg2 arg3 harg3 arg4 harg4 arg5 harg5 arg6 harg6 arg7 harg7 arg8 harg8 hc0 hc1 x0 x1 x2 x3 = k4_pay3 x0 x1 x2 x3 := by
  have hz : (![0, 0] : Fin 2 → Nat) = fun _ => 0 := funext fun a => by fin_cases a <;> rfl
  unfold out4_A_4
  rw [View.read_writes_eq_canon _ _ _ (cover4_A_4 c i arg1 harg1 arg2 harg2 arg3 harg3 arg4 harg4 arg5 harg5 arg6 harg6 arg7 harg7 arg8 harg8 hc0 hc1 x0 x1 x2 x3)]
  unfold kernelRun4_A
  dsimp only
  sl_unfold_words
  rw [View.canon_unit_zero hz]
  simp only [View.readAt_eq_ld, harg1.read_unread, harg2.read_unread, harg3.read_unread, harg4.read_unread, harg7.read_unread, harg8.read_unread,
    View.ld_unit_zero (S := S5000x128) hz, View.ld_unit_zero (S := S128x128) hz, View.ld_unit_zero (S := S1x128) hz]

theorem sout4_A_0_eq :
    sout4_A_0 c i arg1 harg1 arg2 harg2 arg3 harg3 arg4 harg4 arg5 harg5 arg6 harg6 arg7 harg7 arg8 harg8 hc0 hc1 x0 x1 x2 x3 = k4_pay4 x0 x1 x2 x3 (k4_pay1 (F := F)) := by
  have hz : (![0, 0] : Fin 2 → Nat) = fun _ => 0 := funext fun a => by fin_cases a <;> rfl
  unfold sout4_A_0
  rw [View.read_writes_eq_canon _ _ _ (scover4_A_0 c i arg1 harg1 arg2 harg2 arg3 harg3 arg4 harg4 arg5 harg5 arg6 harg6 arg7 harg7 arg8 harg8 hc0 hc1 x0 x1 x2 x3)]
  unfold kernelRun4_A
  dsimp only
  sl_unfold_words
  rw [View.canon_cons_unit_zero (S := S1x128) hz, View.readCov_unit_zero (S := S1x128) _ hz]
  simp only [View.readAt_eq_ld, harg1.read_unread, harg2.read_unread, harg3.read_unread, harg4.read_unread, harg7.read_unread, harg8.read_unread,
    View.ld_unit_zero (S := S5000x128) hz, View.ld_unit_zero (S := S128x128) hz, View.ld_unit_zero (S := S1x128) hz]

theorem sout4_A_1_eq :
    sout4_A_1 c i arg1 harg1 arg2 harg2 arg3 harg3 arg4 harg4 arg5 harg5 arg6 harg6 arg7 harg7 arg8 harg8 hc0 hc1 x0 x1 x2 x3 = k4_pay5 x0 x1 x2 x3 (k4_pay2 (F := F)) := by
  have hz : (![0, 0] : Fin 2 → Nat) = fun _ => 0 := funext fun a => by fin_cases a <;> rfl
  unfold sout4_A_1
  rw [View.read_writes_eq_canon _ _ _ (scover4_A_1 c i arg1 harg1 arg2 harg2 arg3 harg3 arg4 harg4 arg5 harg5 arg6 harg6 arg7 harg7 arg8 harg8 hc0 hc1 x0 x1 x2 x3)]
  unfold kernelRun4_A
  dsimp only
  sl_unfold_words
  rw [View.canon_cons_unit_zero (S := S1x128) hz, View.readCov_unit_zero (S := S1x128) _ hz]
  simp only [View.readAt_eq_ld, harg1.read_unread, harg2.read_unread, harg3.read_unread, harg4.read_unread, harg7.read_unread, harg8.read_unread,
    View.ld_unit_zero (S := S5000x128) hz, View.ld_unit_zero (S := S128x128) hz, View.ld_unit_zero (S := S1x128) hz]

end

section
variable (hc0 : ¬cond4_0 i) (hc1 : ¬cond4_1 i) (x0 : Vec F S5000x128 .f32) (x1 : Vec F S5000x128 .f32) (x2 : Vec F S128x128 .f32) (x3 : Vec F S1x128 .f32) (xs0 : Vec F S1x128 .f32) (xs1 : Vec F S1x128 .f32)
include hc0 hc1 x0 x1 x2 x3 xs0 xs1

theorem out4_B_4_eq :
    out4_B_4 c i arg1 harg1 arg2 harg2 arg3 harg3 arg4 harg4 arg5 harg5 arg6 harg6 arg7 harg7 arg8 harg8 hc0 hc1 x0 x1 x2 x3 xs0 xs1 = k4_pay3 x0 x1 x2 x3 := by
  have hz : (![0, 0] : Fin 2 → Nat) = fun _ => 0 := funext fun a => by fin_cases a <;> rfl
  unfold out4_B_4
  rw [View.read_writes_eq_canon _ _ _ (cover4_B_4 c i arg1 harg1 arg2 harg2 arg3 harg3 arg4 harg4 arg5 harg5 arg6 harg6 arg7 harg7 arg8 harg8 hc0 hc1 x0 x1 x2 x3 xs0 xs1)]
  unfold kernelRun4_B
  dsimp only
  sl_unfold_words
  rw [View.canon_unit_zero hz]
  simp only [View.readAt_eq_ld, harg1.read_unread, harg2.read_unread, harg3.read_unread, harg4.read_unread, harg7.read_unread, harg8.read_unread,
    View.ld_unit_zero (S := S5000x128) hz, View.ld_unit_zero (S := S128x128) hz, View.ld_unit_zero (S := S1x128) hz]

theorem sout4_B_0_eq :
    sout4_B_0 c i arg1 harg1 arg2 harg2 arg3 harg3 arg4 harg4 arg5 harg5 arg6 harg6 arg7 harg7 arg8 harg8 hc0 hc1 x0 x1 x2 x3 xs0 xs1 = k4_pay4 x0 x1 x2 x3 xs0 := by
  have hz : (![0, 0] : Fin 2 → Nat) = fun _ => 0 := funext fun a => by fin_cases a <;> rfl
  unfold sout4_B_0
  rw [View.read_writes_eq_canon _ _ _ (scover4_B_0 c i arg1 harg1 arg2 harg2 arg3 harg3 arg4 harg4 arg5 harg5 arg6 harg6 arg7 harg7 arg8 harg8 hc0 hc1 x0 x1 x2 x3 xs0 xs1)]
  unfold kernelRun4_B
  dsimp only
  sl_unfold_words
  rw [View.canon_unit_zero hz]
  simp only [View.readAt_eq_ld, harg1.read_unread, harg2.read_unread, harg3.read_unread, harg4.read_unread, harg7.read_unread, harg8.read_unread,
    View.ld_unit_zero (S := S5000x128) hz, View.ld_unit_zero (S := S128x128) hz, View.ld_unit_zero (S := S1x128) hz]

theorem sout4_B_1_eq :
    sout4_B_1 c i arg1 harg1 arg2 harg2 arg3 harg3 arg4 harg4 arg5 harg5 arg6 harg6 arg7 harg7 arg8 harg8 hc0 hc1 x0 x1 x2 x3 xs0 xs1 = k4_pay5 x0 x1 x2 x3 xs1 := by
  have hz : (![0, 0] : Fin 2 → Nat) = fun _ => 0 := funext fun a => by fin_cases a <;> rfl
  unfold sout4_B_1
  rw [View.read_writes_eq_canon _ _ _ (scover4_B_1 c i arg1 harg1 arg2 harg2 arg3 harg3 arg4 harg4 arg5 harg5 arg6 harg6 arg7 harg7 arg8 harg8 hc0 hc1 x0 x1 x2 x3 xs0 xs1)]
  unfold kernelRun4_B
  dsimp only
  sl_unfold_words
  rw [View.canon_unit_zero hz]
  simp only [View.readAt_eq_ld, harg1.read_unread, harg2.read_unread, harg3.read_unread, harg4.read_unread, harg7.read_unread, harg8.read_unread,
    View.ld_unit_zero (S := S5000x128) hz, View.ld_unit_zero (S := S128x128) hz, View.ld_unit_zero (S := S1x128) hz]

end

section
variable (hc0 : ¬cond4_0 i) (hc1 : cond4_1 i) (x0 : Vec F S5000x128 .f32) (x1 : Vec F S5000x128 .f32) (x2 : Vec F S128x128 .f32) (x3 : Vec F S1x128 .f32) (xs0 : Vec F S1x128 .f32) (xs1 : Vec F S1x128 .f32)
include hc0 hc1 x0 x1 x2 x3 xs0 xs1

theorem out4_C_4_eq :
    out4_C_4 c i arg1 harg1 arg2 harg2 arg3 harg3 arg4 harg4 arg5 harg5 arg6 harg6 arg7 harg7 arg8 harg8 hc0 hc1 x0 x1 x2 x3 xs0 xs1 = k4_pay3 x0 x1 x2 x3 := by
  have hz : (![0, 0] : Fin 2 → Nat) = fun _ => 0 := funext fun a => by fin_cases a <;> rfl
  unfold out4_C_4
  rw [View.read_writes_eq_canon _ _ _ (cover4_C_4 c i arg1 harg1 arg2 harg2 arg3 harg3 arg4 harg4 arg5 harg5 arg6 harg6 arg7 harg7 arg8 harg8 hc0 hc1 x0 x1 x2 x3 xs0 xs1)]
  unfold kernelRun4_C
  dsimp only
  sl_unfold_words
  rw [View.canon_unit_zero hz]
  simp only [View.readAt_eq_ld, harg1.read_unread, harg2.read_unread, harg3.read_unread, harg4.read_unread, harg7.read_unread, harg8.read_unread,
    View.ld_unit_zero (S := S5000x128) hz, View.ld_unit_zero (S := S128x128) hz, View.ld_unit_zero (S := S1x128) hz]

theorem sout4_C_0_eq :
    sout4_C_0 c i arg1 harg1 arg2 harg2 arg3 harg3 arg4 harg4 arg5 harg5 arg6 harg6 arg7 harg7 arg8 harg8 hc0 hc1 x0 x1 x2 x3 xs0 xs1 = k4_pay4 x0 x1 x2 x3 xs0 := by
  have hz : (![0, 0] : Fin 2 → Nat) = fun _ => 0 := funext fun a => by fin_cases a <;> rfl
  unfold sout4_C_0
  rw [View.read_writes_eq_canon _ _ _ (scover4_C_0 c i arg1 harg1 arg2 harg2 arg3 harg3 arg4 harg4 arg5 harg5 arg6 harg6 arg7 harg7 arg8 harg8 hc0 hc1 x0 x1 x2 x3 xs0 xs1)]
  unfold kernelRun4_C
  dsimp only
  sl_unfold_words
  rw [View.canon_unit_zero hz]
  simp only [View.readAt_eq_ld, harg1.read_unread, harg2.read_unread, harg3.read_unread, harg4.read_unread, harg7.read_unread, harg8.read_unread,
    View.ld_unit_zero (S := S5000x128) hz, View.ld_unit_zero (S := S128x128) hz, View.ld_unit_zero (S := S1x128) hz]

theorem sout4_C_1_eq :
    sout4_C_1 c i arg1 harg1 arg2 harg2 arg3 harg3 arg4 harg4 arg5 harg5 arg6 harg6 arg7 harg7 arg8 harg8 hc0 hc1 x0 x1 x2 x3 xs0 xs1 = k4_pay5 x0 x1 x2 x3 xs1 := by
  have hz : (![0, 0] : Fin 2 → Nat) = fun _ => 0 := funext fun a => by fin_cases a <;> rfl
  unfold sout4_C_1
  rw [View.read_writes_eq_canon _ _ _ (scover4_C_1 c i arg1 harg1 arg2 harg2 arg3 harg3 arg4 harg4 arg5 harg5 arg6 harg6 arg7 harg7 arg8 harg8 hc0 hc1 x0 x1 x2 x3 xs0 xs1)]
  unfold kernelRun4_C
  dsimp only
  sl_unfold_words
  rw [View.canon_unit_zero hz]
  simp only [View.readAt_eq_ld, harg1.read_unread, harg2.read_unread, harg3.read_unread, harg4.read_unread, harg7.read_unread, harg8.read_unread,
    View.ld_unit_zero (S := S5000x128) hz, View.ld_unit_zero (S := S128x128) hz, View.ld_unit_zero (S := S1x128) hz]

theorem out4_C_5_row0 (q : Fin 128) :
    out4_C_5 c i arg1 harg1 arg2 harg2 arg3 harg3 arg4 harg4 arg5 harg5 arg6 harg6 arg7 harg7 arg8 harg8 hc0 hc1 x0 x1 x2 x3 xs0 xs1 (ix2 (0 : Fin 2) q) = k4_pay4 x0 x1 x2 x3 xs0 (ix2 (0 : Fin 1) q) := by
  have hz : (![0, 0] : Fin 2 → Nat) = fun _ => 0 := funext fun a => by fin_cases a <;> rfl
  unfold out4_C_5
  unfold kernelRun4_C
  dsimp only
  sl_unfold_words
  refine (View.read_writes_cons_rows_of_not_mem (Val := Elt F) VO4_5 VO4_5.junk (off := ![1, 0]) (size := ![1, 128]) (o := 1) (W := 1)
    inb_S2x128_S1x128_1_0 _ _ (ix2 (0 : Fin 2) q) rfl rfl (Or.inl Nat.zero_lt_one)).trans ?_
  refine (View.read_writes_cons_rows_of_mem (Val := Elt F) VO4_5 VO4_5.junk (off := ![0, 0]) (size := ![1, 128]) (o := 0)
    inb_S2x128_S1x128_0_0 _ _ (ix2 (0 : Fin 2) q) (ix2 (0 : Fin 1) q) rfl rfl rfl).trans ?_
  refine congrFun ?_ (ix2 (0 : Fin 1) q)
  rw [View.readCov_unit_zero (S := S1x128) _ hz]
  simp only [View.readAt_eq_ld, harg1.read_unread, harg2.read_unread, harg3.read_unread, harg4.read_unread, harg7.read_unread, harg8.read_unread,
    View.ld_unit_zero (S := S5000x128) hz, View.ld_unit_zero (S := S128x128) hz, View.ld_unit_zero (S := S1x128) hz]

theorem out4_C_5_row1 (q : Fin 128) :
    out4_C_5 c i arg1 harg1 arg2 harg2 arg3 harg3 arg4 harg4 arg5 harg5 arg6 harg6 arg7 harg7 arg8 harg8 hc0 hc1 x0 x1 x2 x3 xs0 xs1 (ix2 (1 : Fin 2) q) = k4_pay5 x0 x1 x2 x3 xs1 (ix2 (0 : Fin 1) q) := by
  have hz : (![0, 0] : Fin 2 → Nat) = fun _ => 0 := funext fun a => by fin_cases a <;> rfl
  unfold out4_C_5
  unfold kernelRun4_C
  dsimp only
  sl_unfold_words
  refine (View.read_writes_cons_rows_of_mem (Val := Elt F) VO4_5 VO4_5.junk (off := ![1, 0]) (size := ![1, 128]) (o := 1)
    inb_S2x128_S1x128_1_0 _ _ (ix2 (1 : Fin 2) q) (ix2 (0 : Fin 1) q) rfl rfl rfl).trans ?_
  refine congrFun ?_ (ix2 (0 : Fin 1) q)
  rw [View.readCov_unit_zero (S := S1x128) _ hz]
  simp only [View.readAt_eq_ld, harg1.read_unread, harg2.read_unread, harg3.read_unread, harg4.read_unread, harg7.read_unread, harg8.read_unread,
    View.ld_unit_zero (S := S5000x128) hz, View.ld_unit_zero (S := S128x128) hz, View.ld_unit_zero (S := S1x128) hz]

end

end

end Cert.KernelIdeal.Hand

end
-- ==== Proof.KI.ValA4Pay.lean ====
import proofs.«425279_j44762149159634_1_alg».proof.Proof.KI.ValA2Pay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandV

open Cert.KernelIdeal Cert.KernelIdeal.Gen
open Idealize.ShloMosaic Idealize.ShloMosaic.TcCoe
open Idealize.ShloMosaic.ValueIdx
open Idealize.SL.Sem
open scoped BigOperators

theorem pay3_apply_r4 (v3 v4 : Vec Ideal S5000x128 .f32) (v8 : Vec Ideal S128x128 .f32) (v12 : Vec Ideal S1x128 .f32) (p : Fin 5000) (q : Fin 128) :
    k4_pay3 v3 v4 v8 v12 (ix2 p q) = (∑ k : Fin 128, (v3 (ix2 p k) + v4 (ix2 p k)) * v8 (ix2 k q)) + v12 (ix2 (0 : Fin 1) q) :=
  pay3_apply_r2 v3 v4 v8 v12 p q

theorem pay1_apply_r4 (q : Fin 128) : (k4_pay1 (F := Ideal)) (ix2 (0 : Fin 1) q) = 0 :=
  pay1_apply_r2 q

theorem pay2_apply_r4 (q : Fin 128) : (k4_pay2 (F := Ideal)) (ix2 (0 : Fin 1) q) = 0 :=
  pay2_apply_r2 q

theorem pay4_apply_r4 (v3 v4 : Vec Ideal S5000x128 .f32) (v8 : Vec Ideal S128x128 .f32) (v12 : Vec Ideal S1x128 .f32) (v17 : Vec Ideal S1x128 .f32) (q : Fin 128) :
    k4_pay4 v3 v4 v8 v12 v17 (ix2 (0 : Fin 1) q) = v17 (ix2 (0 : Fin 1) q) + ∑ r : Fin 5000, k4_pay3 v3 v4 v8 v12 (ix2 r q) :=
  pay4_apply_r2 v3 v4 v8 v12 v17 q

theorem pay5_apply_r4 (v3 v4 : Vec Ideal S5000x128 .f32) (v8 : Vec Ideal S128x128 .f32) (v12 : Vec Ideal S1x128 .f32) (v24 : Vec Ideal S1x128 .f32) (q : Fin 128) :
    k4_pay5 v3 v4 v8 v12 v24 (ix2 (0 : Fin 1) q) = v24 (ix2 (0 : Fin 1) q) + ∑ r : Fin 5000, k4_pay3 v3 v4 v8 v12 (ix2 r q) * k4_pay3 v3 v4 v8 v12 (ix2 r q) :=
  pay5_apply_r2 v3 v4 v8 v12 v24 q

end Cert.KernelIdeal.HandV

end
-- ==== Proof.KI.ValA4.lean ====
import proofs.«425279_j44762149159634_1_alg».proof.Proof.KI.Reg4
import proofs.«425279_j44762149159634_1_alg».proof.Proof.KI.Pieces4
import proofs.«425279_j44762149159634_1_alg».proof.Proof.KI.ValA4Pay
import proofs.«425279_j44762149159634_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.Tactic
open Idealize.ShloMosaic.ValueIdx
open Idealize.SL.Sem
open Idealize.ShloMosaic.Pipeline (Dat Cfg Window)
open scoped BigOperators

variable (V : (c : Dev nD) → (b : Ref sig .tc) → Buf (Elt Ideal) ((c : Thread nD τ).loc b))

abbrev xM4 (c : Dev nD) : Spec.Mat 100000 128 := fun r k => V c (Pipeline.arrRef spec4 0) (ValueIdx.ix2 r k)
abbrev aM4 (c : Dev nD) : Spec.Mat 100000 128 := fun r k => V c (Pipeline.arrRef spec4 1) (ValueIdx.ix2 r k)
abbrev wM4 (c : Dev nD) : Spec.Mat 128 128 := fun k j => V c (Pipeline.arrRef spec4 2) (ValueIdx.ix2 k j)
abbrev bR4 (c : Dev nD) : Fin 128 → EReal := fun j => V c (Pipeline.arrRef spec4 3) (ValueIdx.ix2 0 j)

abbrev zM4 (c : Dev nD) : Spec.Mat 100000 128 := Spec.lin (fun r k => xM4 V c r k + aM4 V c r k) (wM4 V c) (bR4 V c)

theorem idx_facts_r4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0
    ∧ win4_5.index t (0 : Fin 2) = 0 ∧ win4_5.index t (1 : Fin 2) = 0 :=
  (by decide +kernel : ∀ t : Fin grid4.N, _)

abbrev xblk_r4 (c : Dev nD) (t : Fin cfg4.N) : Vec Ideal S5000x128 .f32 := iblk4 V c 0 t
abbrev ablk_r4 (c : Dev nD) (t : Fin cfg4.N) : Vec Ideal S5000x128 .f32 := iblk4 V c 1 t
abbrev wblk_r4 (c : Dev nD) (t : Fin cfg4.N) : Vec Ideal S128x128 .f32 := iblk4 V c 2 t
abbrev bblk_r4 (c : Dev nD) (t : Fin cfg4.N) : Vec Ideal S1x128 .f32 := iblk4 V c 3 t

theorem xblk_apply_r4 (c : Dev nD) (t : Fin cfg4.N) (r : Fin 5000) (k : Fin 128) (h : 5000 * t.val + r.val < 100000) :
    xblk_r4 V c t (ix2 r k) = xM4 V c ⟨5000 * t.val + r.val, h⟩ k := by
  show iblk4 V c 0 t (ix2 r k) = _
  unfold iblk4
  rw [View.read_apply]
  show V c (Pipeline.arrRef spec4 0) _ = V c (Pipeline.arrRef spec4 0) _
  obtain ⟨e0, e1, -⟩ := idx_facts_r4 t
  congr 1
  funext a
  apply Fin.ext
  match a with
  | ⟨0, _⟩ => show win4_0.index t (0 : Fin 2) * 5000 + 1 * r.val = 5000 * t.val + r.val; rw [e0]; omega
  | ⟨1, _⟩ => show win4_0.index t (1 : Fin 2) * 128 + 1 * k.val = k.val; rw [e1]; omega

theorem ablk_apply_r4 (c : Dev nD) (t : Fin cfg4.N) (r : Fin 5000) (k : Fin 128) (h : 5000 * t.val + r.val < 100000) :
    ablk_r4 V c t (ix2 r k) = aM4 V c ⟨5000 * t.val + r.val, h⟩ k := by
  show iblk4 V c 1 t (ix2 r k) = _
  unfold iblk4
  rw [View.read_apply]
  show V c (Pipeline.arrRef spec4 1) _ = V c (Pipeline.arrRef spec4 1) _
  obtain ⟨-, -, e0, e1, -⟩ := idx_facts_r4 t
  congr 1
  funext a
  apply Fin.ext
  match a with
  | ⟨0, _⟩ => show win4_1.index t (0 : Fin 2) * 5000 + 1 * r.val = 5000 * t.val + r.val; rw [e0]; omega
  | ⟨1, _⟩ => show win4_1.index t (1 : Fin 2) * 128 + 1 * k.val = k.val; rw [e1]; omega

theorem wblk_apply_r4 (c : Dev nD) (t : Fin cfg4.N) (k j : Fin 128) : wblk_r4 V c t (ix2 k j) = wM4 V c k j := by
  show iblk4 V c 2 t (ix2 k j) = _
  unfold iblk4
  rw [View.read_apply]
  show V c (Pipeline.arrRef spec4 2) _ = V c (Pipeline.arrRef spec4 2) _
  obtain ⟨-, -, -, -, e0, e1, -⟩ := idx_facts_r4 t
  congr 1
  funext a
  apply Fin.ext
  match a with
  | ⟨0, _⟩ => show win4_2.index t (0 : Fin 2) * 128 + 1 * k.val = k.val; rw [e0]; omega
  | ⟨1, _⟩ => show win4_2.index t (1 : Fin 2) * 128 + 1 * j.val = j.val; rw [e1]; omega

theorem bblk_apply_r4 (c : Dev nD) (t : Fin cfg4.N) (j : Fin 128) : bblk_r4 V c t (ix2 (0 : Fin 1) j) = bR4 V c j := by
  show iblk4 V c 3 t (ix2 (0 : Fin 1) j) = _
  unfold iblk4
  rw [View.read_apply]
  show V c (Pipeline.arrRef spec4 3) _ = V c (Pipeline.arrRef spec4 3) _
  obtain ⟨-, -, -, -, -, -, e0, e1, -⟩ := idx_facts_r4 t
  congr 1
  funext a
  apply Fin.ext
  match a with
  | ⟨0, _⟩ => show win4_3.index t (0 : Fin 2) * 1 + 1 * 0 = 0; rw [e0]
  | ⟨1, _⟩ => show win4_3.index t (1 : Fin 2) * 128 + 1 * j.val = j.val; rw [e1]; omega

theorem pay3_blk_r4 (c : Dev nD) (t : Fin cfg4.N) (r : Fin 5000) (q : Fin 128) (h : 5000 * t.val + r.val < 100000) :
    k4_pay3 (xblk_r4 V c t) (ablk_r4 V c t) (wblk_r4 V c t) (bblk_r4 V c t) (ix2 r q) = zM4 V c ⟨5000 * t.val + r.val, h⟩ q := by
  refine (pay3_apply_r4 (xblk_r4 V c t) (ablk_r4 V c t) (wblk_r4 V c t) (bblk_r4 V c t) r q).trans ?_
  show _ = (∑ k : Fin 128, (xM4 V c ⟨5000 * t.val + r.val, h⟩ k + aM4 V c ⟨5000 * t.val + r.val, h⟩ k) * wM4 V c k q) + bR4 V c q
  rw [bblk_apply_r4 V c t q]
  refine congrArg (· + bR4 V c q) ?_
  refine Finset.sum_congr rfl fun k _ => ?_
  rw [xblk_apply_r4 V c t r k h, ablk_apply_r4 V c t r k h, wblk_apply_r4 V c t k q]

theorem outs4_r4 (c : Dev nD) (t : Fin cfg4.N) :
    ((outsAt4 V c t.val t.isLt).1 : Vec Ideal S5000x128 .f32) = k4_pay3 (xblk_r4 V c t) (ablk_r4 V c t) (wblk_r4 V c t) (bblk_r4 V c t) := by
  by_cases h0 : t.val % 20 = 0
  · have h1 : ¬t.val % 20 = 19 := by omega
    rw [outsAt4_A V c t h0 h1]
    dsimp only [outs4_A]
    exact out4_A_4_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t)
  · by_cases h1 : t.val % 20 = 19
    · rw [outsAt4_C V c t h0 h1]
      dsimp only [outs4_C]
      exact out4_C_4_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2.1 (outsAt4 V c (t.val - 1) (Nat.lt_of_le_of_lt (Nat.sub_le _ _) t.isLt)).2.2.2
    · rw [outsAt4_B V c t h0 h1]
      dsimp only [outs4_B]
      exact out4_B_4_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (outsAt4 V c (t.val - 1) (Nat.lt_of_le_of_lt (Nat.sub_le _ _) t.isLt)).2.2.1 (outsAt4 V c (t.val - 1) (Nat.lt_of_le_of_lt (Nat.sub_le _ _) t.isLt)).2.2.2

theorem outsS0_zero_r4 (c : Dev nD) (t : Fin cfg4.N) (hz : t.val = 0) :
    ((outsAt4 V c t.val t.isLt).2.2.1 : Vec Ideal S1x128 .f32) = k4_pay4 (xblk_r4 V c t) (ablk_r4 V c t) (wblk_r4 V c t) (bblk_r4 V c t) (k4_pay1 (F := Ideal)) := by
  have h0 : t.val % 20 = 0 := by omega
  have h1 : ¬t.val % 20 = 19 := by omega
  rw [outsAt4_A V c t h0 h1]
  dsimp only [outs4_A]
  exact sout4_A_0_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t)

theorem outsS1_zero_r4 (c : Dev nD) (t : Fin cfg4.N) (hz : t.val = 0) :
    ((outsAt4 V c t.val t.isLt).2.2.2 : Vec Ideal S1x128 .f32) = k4_pay5 (xblk_r4 V c t) (ablk_r4 V c t) (wblk_r4 V c t) (bblk_r4 V c t) (k4_pay2 (F := Ideal)) := by
  have h0 : t.val % 20 = 0 := by omega
  have h1 : ¬t.val % 20 = 19 := by omega
  rw [outsAt4_A V c t h0 h1]
  dsimp only [outs4_A]
  exact sout4_A_1_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t)

theorem outsS0_pos_r4 (c : Dev nD) (t : Fin cfg4.N) (hz : t.val ≠ 0) :
    ((outsAt4 V c t.val t.isLt).2.2.1 : Vec Ideal S1x128 .f32) = k4_pay4 (xblk_r4 V c t) (ablk_r4 V c t) (wblk_r4 V c t) (bblk_r4 V c t) (outsAt4 V c (t.val - 1) (Nat.lt_of_le_of_lt (Nat.sub_le _ _) t.isLt)).2.2.1 := by
  have hN : cfg4.N = 20 := N_4
  have h0 : ¬t.val % 20 = 0 := by have := t.isLt; omega
  by_cases h1 : t.val % 20 = 19
  · rw [outsAt4_C V c t h0 h1]
    dsimp only [outs4_C]
    exact sout4_C_0_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2.1 (outsAt4 V c (t.val - 1) (Nat.lt_of_le_of_lt (Nat.sub_le _ _) t.isLt)).2.2.2
  · rw [outsAt4_B V c t h0 h1]
    dsimp only [outs4_B]
    exact sout4_B_0_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (outsAt4 V c (t.val - 1) (Nat.lt_of_le_of_lt (Nat.sub_le _ _) t.isLt)).2.2.1 (outsAt4 V c (t.val - 1) (Nat.lt_of_le_of_lt (Nat.sub_le _ _) t.isLt)).2.2.2

theorem outsS1_pos_r4 (c : Dev nD) (t : Fin cfg4.N) (hz : t.val ≠ 0) :
    ((outsAt4 V c t.val t.isLt).2.2.2 : Vec Ideal S1x128 .f32) = k4_pay5 (xblk_r4 V c t) (ablk_r4 V c t) (wblk_r4 V c t) (bblk_r4 V c t) (outsAt4 V c (t.val - 1) (Nat.lt_of_le_of_lt (Nat.sub_le _ _) t.isLt)).2.2.2 := by
  have hN : cfg4.N = 20 := N_4
  have h0 : ¬t.val % 20 = 0 := by have := t.isLt; omega
  by_cases h1 : t.val % 20 = 19
  · rw [outsAt4_C V c t h0 h1]
    dsimp only [outs4_C]
    exact sout4_C_1_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2.1 (outsAt4 V c (t.val - 1) (Nat.lt_of_le_of_lt (Nat.sub_le _ _) t.isLt)).2.2.2
  · rw [outsAt4_B V c t h0 h1]
    dsimp only [outs4_B]
    exact sout4_B_1_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (outsAt4 V c (t.val - 1) (Nat.lt_of_le_of_lt (Nat.sub_le _ _) t.isLt)).2.2.1 (outsAt4 V c (t.val - 1) (Nat.lt_of_le_of_lt (Nat.sub_le _ _) t.isLt)).2.2.2

def tsum_r4 (c : Dev nD) (q : Fin 128) (t : ℕ) : EReal :=
  if h : t < 20 then ∑ r : Fin 5000, zM4 V c ⟨5000 * t + r.val, by omega⟩ q else 0

def tsumsq_r4 (c : Dev nD) (q : Fin 128) (t : ℕ) : EReal :=
  if h : t < 20 then ∑ r : Fin 5000, zM4 V c ⟨5000 * t + r.val, by omega⟩ q * zM4 V c ⟨5000 * t + r.val, by omega⟩ q else 0

theorem sum_inv_r4 (c : Dev nD) (q : Fin 128) : ∀ (n : ℕ) (h : n < cfg4.N),
    ((outsAt4 V c n h).2.2.1 : Vec Ideal S1x128 .f32) (ix2 (0 : Fin 1) q) = ∑ t ∈ Finset.range (n + 1), tsum_r4 V c q t
  | 0, h => by
    rw [outsS0_zero_r4 V c ⟨0, h⟩ rfl]
    refine (pay4_apply_r4 _ _ _ _ _ q).trans ?_
    rw [pay1_apply_r4, zero_add, Finset.sum_range_one]
    unfold tsum_r4
    rw [dif_pos (by omega : (0 : ℕ) < 20)]
    exact Finset.sum_congr rfl fun r _ => pay3_blk_r4 V c ⟨0, h⟩ r q _
  | n + 1, h => by
    have hN : cfg4.N = 20 := N_4
    rw [outsS0_pos_r4 V c ⟨n + 1, h⟩ (Nat.succ_ne_zero n)]
    refine (pay4_apply_r4 _ _ _ _ _ q).trans ?_
    rw [Finset.sum_range_succ]
    refine congrArg₂ (· + ·) (sum_inv_r4 c q n (Nat.lt_of_succ_lt h)) ?_
    unfold tsum_r4
    rw [dif_pos (by omega : n + 1 < 20)]
    exact Finset.sum_congr rfl fun r _ => pay3_blk_r4 V c ⟨n + 1, h⟩ r q _

theorem sumsq_inv_r4 (c : Dev nD) (q : Fin 128) : ∀ (n : ℕ) (h : n < cfg4.N),
    ((outsAt4 V c n h).2.2.2 : Vec Ideal S1x128 .f32) (ix2 (0 : Fin 1) q) = ∑ t ∈ Finset.range (n + 1), tsumsq_r4 V c q t
  | 0, h => by
    rw [outsS1_zero_r4 V c ⟨0, h⟩ rfl]
    refine (pay5_apply_r4 _ _ _ _ _ q).trans ?_
    rw [pay2_apply_r4, zero_add, Finset.sum_range_one]
    unfold tsumsq_r4
    rw [dif_pos (by omega : (0 : ℕ) < 20)]
    exact Finset.sum_congr rfl fun r _ => by rw [pay3_blk_r4 V c ⟨0, h⟩ r q _]
  | n + 1, h => by
    have hN : cfg4.N = 20 := N_4
    rw [outsS1_pos_r4 V c ⟨n + 1, h⟩ (Nat.succ_ne_zero n)]
    refine (pay5_apply_r4 _ _ _ _ _ q).trans ?_
    rw [Finset.sum_range_succ]
    refine congrArg₂ (· + ·) (sumsq_inv_r4 c q n (Nat.lt_of_succ_lt h)) ?_
    unfold tsumsq_r4
    rw [dif_pos (by omega : n + 1 < 20)]
    exact Finset.sum_congr rfl fun r _ => by rw [pay3_blk_r4 V c ⟨n + 1, h⟩ r q _]

theorem total_sum_r4 (c : Dev nD) (q : Fin 128) : ∑ t ∈ Finset.range 20, tsum_r4 V c q t = Spec.colsum (zM4 V c) q := by
  rw [← Fin.sum_univ_eq_sum_range (fun t => tsum_r4 V c q t) 20]
  refine (Finset.sum_congr rfl fun t _ => ?_).trans
    (Spec.sum_tiles (T := 20) (n := 5000) (fun R => zM4 V c R q) (fun t r => ⟨5000 * t.val + r.val, by omega⟩) (fun t r => by show 5000 * t.val + r.val = t.val * 5000 + r.val; omega))
  unfold tsum_r4
  rw [dif_pos t.isLt]

theorem total_sumsq_r4 (c : Dev nD) (q : Fin 128) : ∑ t ∈ Finset.range 20, tsumsq_r4 V c q t = Spec.colsumsq (zM4 V c) q := by
  rw [← Fin.sum_univ_eq_sum_range (fun t => tsumsq_r4 V c q t) 20]
  refine (Finset.sum_congr rfl fun t _ => ?_).trans
    (Spec.sum_tiles (T := 20) (n := 5000) (fun R => zM4 V c R q * zM4 V c R q) (fun t r => ⟨5000 * t.val + r.val, by omega⟩) (fun t r => by show 5000 * t.val + r.val = t.val * 5000 + r.val; omega))
  unfold tsumsq_r4
  rw [dif_pos t.isLt]

abbrev zG_r4 (c : Dev nD) : Vec Ideal S100000x128 .f32 := fun i => zM4 V c (i 0) (i 1)

theorem flushed4_r4 (c : Dev nD) (t : Fin cfg4.N) :
    (dat4 (F := Ideal) V c).flushed 4 t = ((cfg4.win 4).blk t).view.read (Elt Ideal) (zG_r4 V c) := by
  have hN : cfg4.N = 20 := N_4
  have ht : t.val < 20 := by have := t.isLt; omega
  show (cfg4.win 4).cut (grid4.coords t) ((dat4 V c).after 4 t) = _
  rw [after4_4, outs4_r4]
  funext j
  obtain ⟨r, q, rfl⟩ : ∃ (r : Fin 5000) (q : Fin 128), j = ix2 r q := ⟨j 0, j 1, eq_ix2 j⟩
  rw [View.read_apply]
  show k4_pay3 (xblk_r4 V c t) (ablk_r4 V c t) (wblk_r4 V c t) (bblk_r4 V c t) (ix2 r q)
    = zM4 V c ((((cfg4.win 4).blk t).view.emb (ix2 r q)) 0) ((((cfg4.win 4).blk t).view.emb (ix2 r q)) 1)
  refine (pay3_blk_r4 V c t r q (by omega)).trans ?_
  obtain ⟨-, -, -, -, -, -, -, -, e0, e1, -⟩ := idx_facts_r4 t
  refine congrArg₂ (fun a b => zM4 V c a b) (Fin.ext ?_) (Fin.ext ?_)
  · show 5000 * t.val + r.val = win4_4.index t (0 : Fin 2) * 5000 + 1 * r.val
    rw [e0]; omega
  · show q.val = win4_4.index t (1 : Fin 2) * 128 + 1 * q.val
    rw [e1]; omega

theorem mem_blk4_r4 (t : Fin cfg4.N) (i : S100000x128.Idx) :
    i ∈ ((cfg4.win 4).blk t).view.set ↔ ∀ a : Fin 2, win4_4.index t a * S5000x128.size a ≤ (i a).val ∧ (i a).val < win4_4.index t a * S5000x128.size a + S5000x128.size a := by
  show i ∈ ((View.whole (Pipeline.arrRef spec4 4)).slice (win4_4.rect t)).set ↔ _
  rw [View.set_slice_whole, Rect.mem_set_unit]
  exact Iff.rfl

theorem cover4_r4 (i : S100000x128.Idx) : ∃ t : Fin cfg4.N, (cfg4.win 4).flush t = true ∧ i ∈ ((cfg4.win 4).blk t).view.set := by
  have hN : cfg4.N = 20 := N_4
  have hi0 : (i 0).val < 100000 := (i 0).isLt
  have hi1 : (i 1).val < 128 := (i 1).isLt
  have hq : (i 0).val / 5000 < cfg4.N := by omega
  refine ⟨⟨(i 0).val / 5000, hq⟩, flush4_4 _, ?_⟩
  rw [mem_blk4_r4]
  obtain ⟨-, -, -, -, -, -, -, -, e0, e1, -⟩ := idx_facts_r4 ⟨(i 0).val / 5000, hq⟩
  intro a
  match a with
  | ⟨0, _⟩ =>
    show win4_4.index ⟨(i 0).val / 5000, hq⟩ (0 : Fin 2) * 5000 ≤ (i 0).val ∧ (i 0).val < win4_4.index ⟨(i 0).val / 5000, hq⟩ (0 : Fin 2) * 5000 + 5000
    rw [e0]; dsimp only; omega
  | ⟨1, _⟩ =>
    show win4_4.index ⟨(i 0).val / 5000, hq⟩ (1 : Fin 2) * 128 ≤ (i 1).val ∧ (i 1).val < win4_4.index ⟨(i 0).val / 5000, hq⟩ (1 : Fin 2) * 128 + 128
    rw [e1]; omega

theorem zArr4 (c : Dev nD) (p : Fin 100000) (q : Fin 128) : (dat4 (F := Ideal) V c).arrAt 4 cfg4.N (ValueIdx.ix2 p q) = zM4 V c p q :=
  congrFun ((dat4 (F := Ideal) V c).arrAt_eq_of_cover 4 (zG_r4 V c) (fun t _ => flushed4_r4 V c t) cover4_r4) (ix2 p q)

abbrev statsG_r4 (c : Dev nD) : Vec Ideal S2x128 .f32 := fun i => if (i 0).val = 0 then Spec.colsum (zM4 V c) (i 1) else Spec.colsumsq (zM4 V c) (i 1)

theorem outs5_last_r4 (c : Dev nD) (t : Fin cfg4.N) (h1 : t.val % 20 = 19) (q : Fin 128) :
    ((outsAt4 V c t.val t.isLt).2.1 : Vec Ideal S2x128 .f32) (ix2 (0 : Fin 2) q) = ((outsAt4 V c t.val t.isLt).2.2.1 : Vec Ideal S1x128 .f32) (ix2 (0 : Fin 1) q)
    ∧ ((outsAt4 V c t.val t.isLt).2.1 : Vec Ideal S2x128 .f32) (ix2 (1 : Fin 2) q) = ((outsAt4 V c t.val t.isLt).2.2.2 : Vec Ideal S1x128 .f32) (ix2 (0 : Fin 1) q) := by
  have h0 : ¬t.val % 20 = 0 := by omega
  rw [outsAt4_C V c t h0 h1]
  dsimp only [outs4_C]
  exact ⟨(out4_C_5_row0 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2.1 (outsAt4 V c (t.val - 1) (Nat.lt_of_le_of_lt (Nat.sub_le _ _) t.isLt)).2.2.2 q).trans (congrFun (sout4_C_0_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2.1 (outsAt4 V c (t.val - 1) (Nat.lt_of_le_of_lt (Nat.sub_le _ _) t.isLt)).2.2.2) (ix2 (0 : Fin 1) q)).symm,
    (out4_C_5_row1 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2.1 (outsAt4 V c (t.val - 1) (Nat.lt_of_le_of_lt (Nat.sub_le _ _) t.isLt)).2.2.2 q).trans (congrFun (sout4_C_1_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2.1 (outsAt4 V c (t.val - 1) (Nat.lt_of_le_of_lt (Nat.sub_le _ _) t.isLt)).2.2.2) (ix2 (0 : Fin 1) q)).symm⟩

theorem flushed5_r4 (c : Dev nD) (t : Fin cfg4.N) (hf : (cfg4.win 5).flush t = true) :
    (dat4 (F := Ideal) V c).flushed 5 t = ((cfg4.win 5).blk t).view.read (Elt Ideal) (statsG_r4 V c) := by
  have hN : cfg4.N = 20 := N_4
  have h1 : t.val % 20 = 19 := (flush4_5 t).mp hf
  have ht : t.val = 19 := by have := t.isLt; omega
  show (cfg4.win 5).cut (grid4.coords t) ((dat4 V c).after 5 t) = _
  rw [after4_5]
  funext j
  obtain ⟨a, q, rfl⟩ : ∃ (a : Fin 2) (q : Fin 128), j = ix2 a q := ⟨j 0, j 1, eq_ix2 j⟩
  rw [View.read_apply]
  obtain ⟨-, -, -, -, -, -, -, -, -, -, e0, e1⟩ := idx_facts_r4 t
  have hemb : ((cfg4.win 5).blk t).view.emb (ix2 a q) = ix2 a q := funext fun ax => Fin.ext (by
    match ax with
    | ⟨0, _⟩ => show win4_5.index t (0 : Fin 2) * 2 + 1 * a.val = a.val; rw [e0]; omega
    | ⟨1, _⟩ => show win4_5.index t (1 : Fin 2) * 128 + 1 * q.val = q.val; rw [e1]; omega)
  show ((outsAt4 V c t.val t.isLt).2.1 : Vec Ideal S2x128 .f32) (ix2 a q) = statsG_r4 V c (((cfg4.win 5).blk t).view.emb (ix2 a q))
  rw [hemb]
  obtain ⟨r0, r1⟩ := outs5_last_r4 V c t h1 q

  have s0 : ((outsAt4 V c t.val t.isLt).2.2.1 : Vec Ideal S1x128 .f32) (ix2 (0 : Fin 1) q) = Spec.colsum (zM4 V c) q :=
    (sum_inv_r4 V c q t.val t.isLt).trans
      ((congrArg (fun n => ∑ x ∈ Finset.range (n + 1), tsum_r4 V c q x) ht).trans (total_sum_r4 V c q))
  have s1 : ((outsAt4 V c t.val t.isLt).2.2.2 : Vec Ideal S1x128 .f32) (ix2 (0 : Fin 1) q) = Spec.colsumsq (zM4 V c) q :=
    (sumsq_inv_r4 V c q t.val t.isLt).trans
      ((congrArg (fun n => ∑ x ∈ Finset.range (n + 1), tsumsq_r4 V c q x) ht).trans (total_sumsq_r4 V c q))
  match a with
  | ⟨0, _⟩ =>
    show _ = Spec.colsum (zM4 V c) q
    exact r0.trans s0
  | ⟨1, _⟩ =>
    show _ = Spec.colsumsq (zM4 V c) q
    exact r1.trans s1

theorem mem_blk5_r4 (t : Fin cfg4.N) (i : S2x128.Idx) :
    i ∈ ((cfg4.win 5).blk t).view.set ↔ ∀ a : Fin 2, win4_5.index t a * S2x128.size a ≤ (i a).val ∧ (i a).val < win4_5.index t a * S2x128.size a + S2x128.size a := by
  show i ∈ ((View.whole (Pipeline.arrRef spec4 5)).slice (win4_5.rect t)).set ↔ _
  rw [View.set_slice_whole, Rect.mem_set_unit]
  exact Iff.rfl

theorem cover5_r4 (i : S2x128.Idx) : ∃ t : Fin cfg4.N, (cfg4.win 5).flush t = true ∧ i ∈ ((cfg4.win 5).blk t).view.set := by
  have hN : cfg4.N = 20 := N_4
  have hi0 : (i 0).val < 2 := (i 0).isLt
  have hi1 : (i 1).val < 128 := (i 1).isLt
  have h19 : 19 < cfg4.N := by omega
  refine ⟨⟨19, h19⟩, (flush4_5 _).mpr rfl, ?_⟩
  rw [mem_blk5_r4]
  obtain ⟨-, -, -, -, -, -, -, -, -, -, e0, e1⟩ := idx_facts_r4 ⟨19, h19⟩
  intro a
  match a with
  | ⟨0, _⟩ =>
    show win4_5.index ⟨19, h19⟩ (0 : Fin 2) * 2 ≤ (i 0).val ∧ (i 0).val < win4_5.index ⟨19, h19⟩ (0 : Fin 2) * 2 + 2
    rw [e0]; omega
  | ⟨1, _⟩ =>
    show win4_5.index ⟨19, h19⟩ (1 : Fin 2) * 128 ≤ (i 1).val ∧ (i 1).val < win4_5.index ⟨19, h19⟩ (1 : Fin 2) * 128 + 128
    rw [e1]; omega

theorem statsArr4 (c : Dev nD) : (dat4 (F := Ideal) V c).arrAt 5 cfg4.N = statsG_r4 V c :=
  (dat4 (F := Ideal) V c).arrAt_eq_of_cover 5 (statsG_r4 V c) (flushed5_r4 V c) cover5_r4

theorem statsArr4_sum (c : Dev nD) (q : Fin 128) : (dat4 (F := Ideal) V c).arrAt 5 cfg4.N (ValueIdx.ix2 0 q) = Spec.colsum (zM4 V c) q :=
  congrFun (statsArr4 V c) (ix2 (0 : Fin 2) q)
theorem statsArr4_sumsq (c : Dev nD) (q : Fin 128) : (dat4 (F := Ideal) V c).arrAt 5 cfg4.N (ValueIdx.ix2 1 q) = Spec.colsumsq (zM4 V c) q :=
  congrFun (statsArr4 V c) (ix2 (1 : Fin 2) q)

end Cert.KernelIdeal.HandV

end
-- ==== Proof.KI.ValB1.lean ====
import proofs.«425279_j44762149159634_1_alg».proof.Proof.KI.Reg1
import proofs.«425279_j44762149159634_1_alg».proof.Proof.Spec
import proofs.«425279_j44762149159634_1_alg».proof.Proof.KI.ValA0Pay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

theorem k1_rsqrt_apply {s : Shape} {φ : FTy} (x : FVec Ideal s φ) (i : s.Idx) : rsqrt x i = Ideal.rsqrt (x i) := rfl

theorem k1_pay1_apply (z : FVec Ideal S5000x128 .f32) (vr mu g bt : FVec Ideal S1x128 .f32) (W : FVec Ideal S128x128 .f32)
    (b2 : FVec Ideal S1x128 .f32) (p : Fin 5000) (q : Fin 128) :
    k1_pay1 (F := Ideal) z vr mu g bt W b2 (ix2 p q)
      = max ((∑ k : Fin 128, max ((z (ix2 p k) - mu (ix2 (0 : Fin 1) k)) * Ideal.rsqrt (vr (ix2 (0 : Fin 1) k) + Ideal.ofBits .f32 0x3727C5AC#32)
                * g (ix2 (0 : Fin 1) k) + bt (ix2 (0 : Fin 1) k)) 0 * W (ix2 k q)) + b2 (ix2 (0 : Fin 1) q)) 0 := by
  unfold k1_pay1
  rw [maximumf_apply, addf_apply, broadcast_apply, matmul_apply_r0, broadcastTo_1b_ab_apply, shapeCast_self]
  simp only [truncf_apply, maximumf_apply, addf_apply, mulf_apply, subf_apply, broadcast_apply, broadcastTo_1b_ab_apply,
    shapeCast_self, k1_rsqrt_apply, Ideal.ofBits_def, Ideal.ofBits_zero_f32]

variable (V : (c : Dev nD) → (b : Ref sig .tc) → Buf (Elt Ideal) ((c : Thread nD τ).loc b))

abbrev zM1 (c : Dev nD) : Spec.Mat 100000 128 := fun r k => V c (Pipeline.arrRef spec1 0) (ValueIdx.ix2 r k)

abbrev muR1 (c : Dev nD) : Fin 128 → EReal := fun j => V c (Pipeline.arrRef spec1 1) (ValueIdx.ix2 (0 : Fin 1) j)

abbrev varR1 (c : Dev nD) : Fin 128 → EReal := fun j => V c (Pipeline.arrRef spec1 2) (ValueIdx.ix2 (0 : Fin 1) j)

abbrev gR1 (c : Dev nD) : Fin 128 → EReal := fun j => V c (Pipeline.arrRef spec1 3) (ValueIdx.ix2 (0 : Fin 1) j)

abbrev btR1 (c : Dev nD) : Fin 128 → EReal := fun j => V c (Pipeline.arrRef spec1 4) (ValueIdx.ix2 (0 : Fin 1) j)

abbrev w2M1 (c : Dev nD) : Spec.Mat 128 128 := fun k j => V c (Pipeline.arrRef spec1 5) (ValueIdx.ix2 k j)

abbrev b2R1 (c : Dev nD) : Fin 128 → EReal := fun j => V c (Pipeline.arrRef spec1 6) (ValueIdx.ix2 (0 : Fin 1) j)

theorem win1_0_idx : ∀ t : Fin cfg1.N, win1_0.index t (0 : Fin 2) = t.val ∧ win1_0.index t (1 : Fin 2) = 0 :=
  (by decide +kernel : ∀ t : Fin grid1.N, _)
theorem win1_1_idx : ∀ t : Fin cfg1.N, win1_1.index t (0 : Fin 2) = 0 ∧ win1_1.index t (1 : Fin 2) = 0 :=
  (by decide +kernel : ∀ t : Fin grid1.N, _)
theorem win1_2_idx : ∀ t : Fin cfg1.N, win1_2.index t (0 : Fin 2) = 0 ∧ win1_2.index t (1 : Fin 2) = 0 :=
  (by decide +kernel : ∀ t : Fin grid1.N, _)
theorem win1_3_idx : ∀ t : Fin cfg1.N, win1_3.index t (0 : Fin 2) = 0 ∧ win1_3.index t (1 : Fin 2) = 0 :=
  (by decide +kernel : ∀ t : Fin grid1.N, _)
theorem win1_4_idx : ∀ t : Fin cfg1.N, win1_4.index t (0 : Fin 2) = 0 ∧ win1_4.index t (1 : Fin 2) = 0 :=
  (by decide +kernel : ∀ t : Fin grid1.N, _)
theorem win1_5_idx : ∀ t : Fin cfg1.N, win1_5.index t (0 : Fin 2) = 0 ∧ win1_5.index t (1 : Fin 2) = 0 :=
  (by decide +kernel : ∀ t : Fin grid1.N, _)
theorem win1_6_idx : ∀ t : Fin cfg1.N, win1_6.index t (0 : Fin 2) = 0 ∧ win1_6.index t (1 : Fin 2) = 0 :=
  (by decide +kernel : ∀ t : Fin grid1.N, _)
theorem win1_7_idx : ∀ t : Fin cfg1.N, win1_7.index t (0 : Fin 2) = t.val ∧ win1_7.index t (1 : Fin 2) = 0 :=
  (by decide +kernel : ∀ t : Fin grid1.N, _)

theorem win1_row_lt (t : Fin cfg1.N) (r : Fin 5000) : 5000 * t.val + r.val < 100000 := by
  have ht : t.val < grid1.N := t.isLt
  have hN : grid1.N = 20 := N_1
  have hr : r.val < 5000 := r.isLt
  omega

theorem iblk1_0_apply (c : Dev nD) (t : Fin cfg1.N) (r : Fin 5000) (k : Fin 128) :
    iblk1 V c 0 t (ix2 r k) = zM1 V c ⟨5000 * t.val + r.val, win1_row_lt t r⟩ k := by
  show V c (Pipeline.arrRef spec1 0) (((cfg1.win 0).blk t).view.emb (ix2 r k)) = V c (Pipeline.arrRef spec1 0) (ix2 (⟨5000 * t.val + r.val, win1_row_lt t r⟩ : Fin 100000) k)
  refine congrArg (V c (Pipeline.arrRef spec1 0)) (funext fun a => Fin.ext ?_)
  obtain ⟨e0, e1⟩ := win1_0_idx t
  match a with
  | ⟨0, _⟩ => show win1_0.index t (0 : Fin 2) * 5000 + 1 * r.val = 5000 * t.val + r.val; omega
  | ⟨1, _⟩ => show win1_0.index t (1 : Fin 2) * 128 + 1 * k.val = k.val; omega

theorem iblk1_1_apply (c : Dev nD) (t : Fin cfg1.N) (k : Fin 128) :
    iblk1 V c 1 t (ix2 (0 : Fin 1) k) = muR1 V c k := by
  show V c (Pipeline.arrRef spec1 1) (((cfg1.win 1).blk t).view.emb (ix2 (0 : Fin 1) k)) = V c (Pipeline.arrRef spec1 1) (ix2 (0 : Fin 1) k)
  refine congrArg (V c (Pipeline.arrRef spec1 1)) (funext fun a => Fin.ext ?_)
  obtain ⟨e0, e1⟩ := win1_1_idx t
  match a with
  | ⟨0, _⟩ => show win1_1.index t (0 : Fin 2) * 1 + 1 * 0 = 0; omega
  | ⟨1, _⟩ => show win1_1.index t (1 : Fin 2) * 128 + 1 * k.val = k.val; omega

theorem iblk1_2_apply (c : Dev nD) (t : Fin cfg1.N) (k : Fin 128) :
    iblk1 V c 2 t (ix2 (0 : Fin 1) k) = varR1 V c k := by
  show V c (Pipeline.arrRef spec1 2) (((cfg1.win 2).blk t).view.emb (ix2 (0 : Fin 1) k)) = V c (Pipeline.arrRef spec1 2) (ix2 (0 : Fin 1) k)
  refine congrArg (V c (Pipeline.arrRef spec1 2)) (funext fun a => Fin.ext ?_)
  obtain ⟨e0, e1⟩ := win1_2_idx t
  match a with
  | ⟨0, _⟩ => show win1_2.index t (0 : Fin 2) * 1 + 1 * 0 = 0; omega
  | ⟨1, _⟩ => show win1_2.index t (1 : Fin 2) * 128 + 1 * k.val = k.val; omega

theorem iblk1_3_apply (c : Dev nD) (t : Fin cfg1.N) (k : Fin 128) :
    iblk1 V c 3 t (ix2 (0 : Fin 1) k) = gR1 V c k := by
  show V c (Pipeline.arrRef spec1 3) (((cfg1.win 3).blk t).view.emb (ix2 (0 : Fin 1) k)) = V c (Pipeline.arrRef spec1 3) (ix2 (0 : Fin 1) k)
  refine congrArg (V c (Pipeline.arrRef spec1 3)) (funext fun a => Fin.ext ?_)
  obtain ⟨e0, e1⟩ := win1_3_idx t
  match a with
  | ⟨0, _⟩ => show win1_3.index t (0 : Fin 2) * 1 + 1 * 0 = 0; omega
  | ⟨1, _⟩ => show win1_3.index t (1 : Fin 2) * 128 + 1 * k.val = k.val; omega

theorem iblk1_4_apply (c : Dev nD) (t : Fin cfg1.N) (k : Fin 128) :
    iblk1 V c 4 t (ix2 (0 : Fin 1) k) = btR1 V c k := by
  show V c (Pipeline.arrRef spec1 4) (((cfg1.win 4).blk t).view.emb (ix2 (0 : Fin 1) k)) = V c (Pipeline.arrRef spec1 4) (ix2 (0 : Fin 1) k)
  refine congrArg (V c (Pipeline.arrRef spec1 4)) (funext fun a => Fin.ext ?_)
  obtain ⟨e0, e1⟩ := win1_4_idx t
  match a with
  | ⟨0, _⟩ => show win1_4.index t (0 : Fin 2) * 1 + 1 * 0 = 0; omega
  | ⟨1, _⟩ => show win1_4.index t (1 : Fin 2) * 128 + 1 * k.val = k.val; omega

theorem iblk1_5_apply (c : Dev nD) (t : Fin cfg1.N) (k : Fin 128) (j : Fin 128) :
    iblk1 V c 5 t (ix2 k j) = w2M1 V c k j := by
  show V c (Pipeline.arrRef spec1 5) (((cfg1.win 5).blk t).view.emb (ix2 k j)) = V c (Pipeline.arrRef spec1 5) (ix2 k j)
  refine congrArg (V c (Pipeline.arrRef spec1 5)) (funext fun a => Fin.ext ?_)
  obtain ⟨e0, e1⟩ := win1_5_idx t
  match a with
  | ⟨0, _⟩ => show win1_5.index t (0 : Fin 2) * 128 + 1 * k.val = k.val; omega
  | ⟨1, _⟩ => show win1_5.index t (1 : Fin 2) * 128 + 1 * j.val = j.val; omega

theorem iblk1_6_apply (c : Dev nD) (t : Fin cfg1.N) (k : Fin 128) :
    iblk1 V c 6 t (ix2 (0 : Fin 1) k) = b2R1 V c k := by
  show V c (Pipeline.arrRef spec1 6) (((cfg1.win 6).blk t).view.emb (ix2 (0 : Fin 1) k)) = V c (Pipeline.arrRef spec1 6) (ix2 (0 : Fin 1) k)
  refine congrArg (V c (Pipeline.arrRef spec1 6)) (funext fun a => Fin.ext ?_)
  obtain ⟨e0, e1⟩ := win1_6_idx t
  match a with
  | ⟨0, _⟩ => show win1_6.index t (0 : Fin 2) * 1 + 1 * 0 = 0; omega
  | ⟨1, _⟩ => show win1_6.index t (1 : Fin 2) * 128 + 1 * k.val = k.val; omega

section Piece
variable {F : FTy → Type} [FloatOps F]

theorem k1_hz : (![0, 0] : Fin 2 → Nat) = fun _ => 0 := funext fun a => by fin_cases a <;> rfl

theorem out1_A_7_eq (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole)
    (x0 : Vec F S5000x128 .f32) (x1 : Vec F S1x128 .f32) (x2 : Vec F S1x128 .f32) (x3 : Vec F S1x128 .f32) (x4 : Vec F S1x128 .f32) (x5 : Vec F S128x128 .f32) (x6 : Vec F S1x128 .f32) :
    out1_A_7 c i arg1 harg1 arg2 harg2 arg3 harg3 arg4 harg4 arg5 harg5 arg6 harg6 arg7 harg7 arg8 harg8 x0 x1 x2 x3 x4 x5 x6 = k1_pay1 x0 x2 x1 x3 x4 x5 x6 := by
  unfold out1_A_7
  rw [View.read_writes_eq_canon _ _ _ (cover1_A_7 c i arg1 harg1 arg2 harg2 arg3 harg3 arg4 harg4 arg5 harg5 arg6 harg6 arg7 harg7 arg8 harg8 x0 x1 x2 x3 x4 x5 x6)]
  unfold kernelRun1_A
  dsimp only
  sl_unfold_words
  rw [View.canon_unit_zero k1_hz]
  simp only [View.readAt_eq_ld, harg1.read_unread, harg2.read_unread, harg3.read_unread, harg4.read_unread, harg5.read_unread, harg6.read_unread, harg7.read_unread,
    View.ld_unit_zero (S := S5000x128) k1_hz, View.ld_unit_zero (S := S1x128) k1_hz, View.ld_unit_zero (S := S128x128) k1_hz]

end Piece

theorem win1_7_emb (t : Fin cfg1.N) (r : Fin 5000) (k : Fin 128) :
    ((cfg1.win 7).blk t).view.emb (ix2 r k) = (ix2 (⟨5000 * t.val + r.val, win1_row_lt t r⟩ : Fin 100000) k : S100000x128.Idx) := by
  funext a; apply Fin.ext
  obtain ⟨e0, e1⟩ := win1_7_idx t
  match a with
  | ⟨0, _⟩ => show win1_7.index t (0 : Fin 2) * 5000 + 1 * r.val = 5000 * t.val + r.val; omega
  | ⟨1, _⟩ => show win1_7.index t (1 : Fin 2) * 128 + 1 * k.val = k.val; omega

abbrev out1G (c : Dev nD) : S100000x128.Idx → EReal := fun i =>
  Spec.layerOut (zM1 V c) (muR1 V c) (varR1 V c) (gR1 V c) (btR1 V c) (Ideal.ofBits .f32 0x3727C5AC#32) (w2M1 V c) (b2R1 V c) (i 0) (i 1)

theorem flush1_7_eq (c : Dev nD) (t : Fin cfg1.N) :
    (dat1 (F := Ideal) V c).flushed 7 t = ((cfg1.win 7).blk t).view.read (Elt Ideal) (out1G V c) := by
  show (cfg1.win 7).cut (grid1.coords t) ((dat1 (F := Ideal) V c).after 7 t) = _
  rw [after1_7]
  funext j
  obtain ⟨r, k, rfl⟩ : ∃ (r : Fin 5000) (k : Fin 128), j = ix2 r k := ⟨j 0, j 1, eq_ix2 (n0 := 5000) (n1 := 128) j⟩
  show out1At V c t (ix2 r k) = out1G V c (((cfg1.win 7).blk t).view.emb (ix2 r k))
  rw [win1_7_emb t r k]
  unfold out1At
  refine (congrFun (out1_A_7_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (iblk1 V c 0 t) (iblk1 V c 1 t) (iblk1 V c 2 t) (iblk1 V c 3 t) (iblk1 V c 4 t) (iblk1 V c 5 t) (iblk1 V c 6 t)) (ix2 r k)).trans ?_
  refine (k1_pay1_apply (iblk1 V c 0 t) (iblk1 V c 2 t) (iblk1 V c 1 t) (iblk1 V c 3 t) (iblk1 V c 4 t) (iblk1 V c 5 t) (iblk1 V c 6 t) r k).trans ?_
  simp only [iblk1_0_apply, iblk1_1_apply, iblk1_2_apply, iblk1_3_apply, iblk1_4_apply, iblk1_5_apply, iblk1_6_apply]
  rfl

theorem win1_7_mem_blk (t : Fin cfg1.N) (i : S100000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole (Pipeline.arrRef spec1 7)).slice (win1_7.rect t)).set ↔ _
  rw [View.set_slice_whole, Rect.mem_set_unit]
  exact Iff.rfl

theorem cover1_arr (i : S100000x128.Idx) : ∃ t : Fin cfg1.N, (cfg1.win 7).flush t = true ∧ i ∈ ((cfg1.win 7).blk t).view.set := by
  have hi0 : (i 0).val < 100000 := (i 0).isLt
  have hi1 : (i 1).val < 128 := (i 1).isLt
  have hN : grid1.N = 20 := N_1
  have ht : (i 0).val / 5000 < grid1.N := by omega
  refine ⟨⟨(i 0).val / 5000, ht⟩, flush1_7 _, ?_⟩
  rw [win1_7_mem_blk]
  obtain ⟨e0, e1⟩ := win1_7_idx ⟨(i 0).val / 5000, ht⟩
  intro a
  match a with
  | ⟨0, _⟩ =>
    show win1_7.index ⟨(i 0).val / 5000, ht⟩ (0 : Fin 2) * 5000 ≤ (i 0).val ∧ (i 0).val < win1_7.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_7.index ⟨(i 0).val / 5000, ht⟩ (1 : Fin 2) * 128 ≤ (i 1).val ∧ (i 1).val < win1_7.index ⟨(i 0).val / 5000, ht⟩ (1 : Fin 2) * 128 + 128
    rw [e1]; omega

theorem out1_final (c : Dev nD) : (dat1 (F := Ideal) V c).arrAt 7 cfg1.N = out1G V c :=
  (dat1 (F := Ideal) V c).arrAt_eq_of_cover 7 (out1G V c) (fun t _ => flush1_7_eq V c t) cover1_arr

theorem outArr1 (c : Dev nD) (p : Fin 100000) (q : Fin 128) :
    (dat1 (F := Ideal) V c).arrAt 7 cfg1.N (ValueIdx.ix2 p q)
      = Spec.layerOut (zM1 V c) (muR1 V c) (varR1 V c) (gR1 V c) (btR1 V c) (Ideal.ofBits .f32 0x3727C5AC#32) (w2M1 V c) (b2R1 V c) p q :=
  congrFun (out1_final V c) (ValueIdx.ix2 p q)

end Cert.KernelIdeal.HandV

end
-- ==== Proof.KI.ValB3.lean ====
import proofs.«425279_j44762149159634_1_alg».proof.Proof.KI.Reg3
import proofs.«425279_j44762149159634_1_alg».proof.Proof.Spec
import proofs.«425279_j44762149159634_1_alg».proof.Proof.KI.ValB1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

theorem k3_pay1_apply (z : FVec Ideal S5000x128 .f32) (vr mu g bt : FVec Ideal S1x128 .f32) (W : FVec Ideal S128x128 .f32)
    (b2 : FVec Ideal S1x128 .f32) (p : Fin 5000) (q : Fin 128) :
    k3_pay1 (F := Ideal) z vr mu g bt W b2 (ix2 p q)
      = max ((∑ k : Fin 128, max ((z (ix2 p k) - mu (ix2 (0 : Fin 1) k)) * Ideal.rsqrt (vr (ix2 (0 : Fin 1) k) + Ideal.ofBits .f32 0x3727C5AC#32)
                * g (ix2 (0 : Fin 1) k) + bt (ix2 (0 : Fin 1) k)) 0 * W (ix2 k q)) + b2 (ix2 (0 : Fin 1) q)) 0 :=
  k1_pay1_apply z vr mu g bt W b2 p q

variable (V : (c : Dev nD) → (b : Ref sig .tc) → Buf (Elt Ideal) ((c : Thread nD τ).loc b))

abbrev zM3 (c : Dev nD) : Spec.Mat 100000 128 := fun r k => V c (Pipeline.arrRef spec3 0) (ValueIdx.ix2 r k)

abbrev muR3 (c : Dev nD) : Fin 128 → EReal := fun j => V c (Pipeline.arrRef spec3 1) (ValueIdx.ix2 (0 : Fin 1) j)

abbrev varR3 (c : Dev nD) : Fin 128 → EReal := fun j => V c (Pipeline.arrRef spec3 2) (ValueIdx.ix2 (0 : Fin 1) j)

abbrev gR3 (c : Dev nD) : Fin 128 → EReal := fun j => V c (Pipeline.arrRef spec3 3) (ValueIdx.ix2 (0 : Fin 1) j)

abbrev btR3 (c : Dev nD) : Fin 128 → EReal := fun j => V c (Pipeline.arrRef spec3 4) (ValueIdx.ix2 (0 : Fin 1) j)

abbrev w2M3 (c : Dev nD) : Spec.Mat 128 128 := fun k j => V c (Pipeline.arrRef spec3 5) (ValueIdx.ix2 k j)

abbrev b2R3 (c : Dev nD) : Fin 128 → EReal := fun j => V c (Pipeline.arrRef spec3 6) (ValueIdx.ix2 (0 : Fin 1) j)

theorem win3_0_idx : ∀ t : Fin cfg3.N, win3_0.index t (0 : Fin 2) = t.val ∧ win3_0.index t (1 : Fin 2) = 0 :=
  (by decide +kernel : ∀ t : Fin grid3.N, _)
theorem win3_1_idx : ∀ t : Fin cfg3.N, win3_1.index t (0 : Fin 2) = 0 ∧ win3_1.index t (1 : Fin 2) = 0 :=
  (by decide +kernel : ∀ t : Fin grid3.N, _)
theorem win3_2_idx : ∀ t : Fin cfg3.N, win3_2.index t (0 : Fin 2) = 0 ∧ win3_2.index t (1 : Fin 2) = 0 :=
  (by decide +kernel : ∀ t : Fin grid3.N, _)
theorem win3_3_idx : ∀ t : Fin cfg3.N, win3_3.index t (0 : Fin 2) = 0 ∧ win3_3.index t (1 : Fin 2) = 0 :=
  (by decide +kernel : ∀ t : Fin grid3.N, _)
theorem win3_4_idx : ∀ t : Fin cfg3.N, win3_4.index t (0 : Fin 2) = 0 ∧ win3_4.index t (1 : Fin 2) = 0 :=
  (by decide +kernel : ∀ t : Fin grid3.N, _)
theorem win3_5_idx : ∀ t : Fin cfg3.N, win3_5.index t (0 : Fin 2) = 0 ∧ win3_5.index t (1 : Fin 2) = 0 :=
  (by decide +kernel : ∀ t : Fin grid3.N, _)
theorem win3_6_idx : ∀ t : Fin cfg3.N, win3_6.index t (0 : Fin 2) = 0 ∧ win3_6.index t (1 : Fin 2) = 0 :=
  (by decide +kernel : ∀ t : Fin grid3.N, _)
theorem win3_7_idx : ∀ t : Fin cfg3.N, win3_7.index t (0 : Fin 2) = t.val ∧ win3_7.index t (1 : Fin 2) = 0 :=
  (by decide +kernel : ∀ t : Fin grid3.N, _)

theorem win3_row_lt (t : Fin cfg3.N) (r : Fin 5000) : 5000 * t.val + r.val < 100000 := by
  have ht : t.val < grid3.N := t.isLt
  have hN : grid3.N = 20 := N_3
  have hr : r.val < 5000 := r.isLt
  omega

theorem iblk3_0_apply (c : Dev nD) (t : Fin cfg3.N) (r : Fin 5000) (k : Fin 128) :
    iblk3 V c 0 t (ix2 r k) = zM3 V c ⟨5000 * t.val + r.val, win3_row_lt t r⟩ k := by
  show V c (Pipeline.arrRef spec3 0) (((cfg3.win 0).blk t).view.emb (ix2 r k)) = V c (Pipeline.arrRef spec3 0) (ix2 (⟨5000 * t.val + r.val, win3_row_lt t r⟩ : Fin 100000) k)
  refine congrArg (V c (Pipeline.arrRef spec3 0)) (funext fun a => Fin.ext ?_)
  obtain ⟨e0, e1⟩ := win3_0_idx t
  match a with
  | ⟨0, _⟩ => show win3_0.index t (0 : Fin 2) * 5000 + 1 * r.val = 5000 * t.val + r.val; omega
  | ⟨1, _⟩ => show win3_0.index t (1 : Fin 2) * 128 + 1 * k.val = k.val; omega

theorem iblk3_1_apply (c : Dev nD) (t : Fin cfg3.N) (k : Fin 128) :
    iblk3 V c 1 t (ix2 (0 : Fin 1) k) = muR3 V c k := by
  show V c (Pipeline.arrRef spec3 1) (((cfg3.win 1).blk t).view.emb (ix2 (0 : Fin 1) k)) = V c (Pipeline.arrRef spec3 1) (ix2 (0 : Fin 1) k)
  refine congrArg (V c (Pipeline.arrRef spec3 1)) (funext fun a => Fin.ext ?_)
  obtain ⟨e0, e1⟩ := win3_1_idx t
  match a with
  | ⟨0, _⟩ => show win3_1.index t (0 : Fin 2) * 1 + 1 * 0 = 0; omega
  | ⟨1, _⟩ => show win3_1.index t (1 : Fin 2) * 128 + 1 * k.val = k.val; omega

theorem iblk3_2_apply (c : Dev nD) (t : Fin cfg3.N) (k : Fin 128) :
    iblk3 V c 2 t (ix2 (0 : Fin 1) k) = varR3 V c k := by
  show V c (Pipeline.arrRef spec3 2) (((cfg3.win 2).blk t).view.emb (ix2 (0 : Fin 1) k)) = V c (Pipeline.arrRef spec3 2) (ix2 (0 : Fin 1) k)
  refine congrArg (V c (Pipeline.arrRef spec3 2)) (funext fun a => Fin.ext ?_)
  obtain ⟨e0, e1⟩ := win3_2_idx t
  match a with
  | ⟨0, _⟩ => show win3_2.index t (0 : Fin 2) * 1 + 1 * 0 = 0; omega
  | ⟨1, _⟩ => show win3_2.index t (1 : Fin 2) * 128 + 1 * k.val = k.val; omega

theorem iblk3_3_apply (c : Dev nD) (t : Fin cfg3.N) (k : Fin 128) :
    iblk3 V c 3 t (ix2 (0 : Fin 1) k) = gR3 V c k := by
  show V c (Pipeline.arrRef spec3 3) (((cfg3.win 3).blk t).view.emb (ix2 (0 : Fin 1) k)) = V c (Pipeline.arrRef spec3 3) (ix2 (0 : Fin 1) k)
  refine congrArg (V c (Pipeline.arrRef spec3 3)) (funext fun a => Fin.ext ?_)
  obtain ⟨e0, e1⟩ := win3_3_idx t
  match a with
  | ⟨0, _⟩ => show win3_3.index t (0 : Fin 2) * 1 + 1 * 0 = 0; omega
  | ⟨1, _⟩ => show win3_3.index t (1 : Fin 2) * 128 + 1 * k.val = k.val; omega

theorem iblk3_4_apply (c : Dev nD) (t : Fin cfg3.N) (k : Fin 128) :
    iblk3 V c 4 t (ix2 (0 : Fin 1) k) = btR3 V c k := by
  show V c (Pipeline.arrRef spec3 4) (((cfg3.win 4).blk t).view.emb (ix2 (0 : Fin 1) k)) = V c (Pipeline.arrRef spec3 4) (ix2 (0 : Fin 1) k)
  refine congrArg (V c (Pipeline.arrRef spec3 4)) (funext fun a => Fin.ext ?_)
  obtain ⟨e0, e1⟩ := win3_4_idx t
  match a with
  | ⟨0, _⟩ => show win3_4.index t (0 : Fin 2) * 1 + 1 * 0 = 0; omega
  | ⟨1, _⟩ => show win3_4.index t (1 : Fin 2) * 128 + 1 * k.val = k.val; omega

theorem iblk3_5_apply (c : Dev nD) (t : Fin cfg3.N) (k : Fin 128) (j : Fin 128) :
    iblk3 V c 5 t (ix2 k j) = w2M3 V c k j := by
  show V c (Pipeline.arrRef spec3 5) (((cfg3.win 5).blk t).view.emb (ix2 k j)) = V c (Pipeline.arrRef spec3 5) (ix2 k j)
  refine congrArg (V c (Pipeline.arrRef spec3 5)) (funext fun a => Fin.ext ?_)
  obtain ⟨e0, e1⟩ := win3_5_idx t
  match a with
  | ⟨0, _⟩ => show win3_5.index t (0 : Fin 2) * 128 + 1 * k.val = k.val; omega
  | ⟨1, _⟩ => show win3_5.index t (1 : Fin 2) * 128 + 1 * j.val = j.val; omega

theorem iblk3_6_apply (c : Dev nD) (t : Fin cfg3.N) (k : Fin 128) :
    iblk3 V c 6 t (ix2 (0 : Fin 1) k) = b2R3 V c k := by
  show V c (Pipeline.arrRef spec3 6) (((cfg3.win 6).blk t).view.emb (ix2 (0 : Fin 1) k)) = V c (Pipeline.arrRef spec3 6) (ix2 (0 : Fin 1) k)
  refine congrArg (V c (Pipeline.arrRef spec3 6)) (funext fun a => Fin.ext ?_)
  obtain ⟨e0, e1⟩ := win3_6_idx t
  match a with
  | ⟨0, _⟩ => show win3_6.index t (0 : Fin 2) * 1 + 1 * 0 = 0; omega
  | ⟨1, _⟩ => show win3_6.index t (1 : Fin 2) * 128 + 1 * k.val = k.val; omega

section Piece
variable {F : FTy → Type} [FloatOps F]

theorem k3_hz : (![0, 0] : Fin 2 → Nat) = fun _ => 0 := funext fun a => by fin_cases a <;> rfl

theorem out3_A_7_eq (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole)
    (x0 : Vec F S5000x128 .f32) (x1 : Vec F S1x128 .f32) (x2 : Vec F S1x128 .f32) (x3 : Vec F S1x128 .f32) (x4 : Vec F S1x128 .f32) (x5 : Vec F S128x128 .f32) (x6 : Vec F S1x128 .f32) :
    out3_A_7 c i arg1 harg1 arg2 harg2 arg3 harg3 arg4 harg4 arg5 harg5 arg6 harg6 arg7 harg7 arg8 harg8 x0 x1 x2 x3 x4 x5 x6 = k3_pay1 x0 x2 x1 x3 x4 x5 x6 := by
  unfold out3_A_7
  rw [View.read_writes_eq_canon _ _ _ (cover3_A_7 c i arg1 harg1 arg2 harg2 arg3 harg3 arg4 harg4 arg5 harg5 arg6 harg6 arg7 harg7 arg8 harg8 x0 x1 x2 x3 x4 x5 x6)]
  unfold kernelRun3_A
  dsimp only
  sl_unfold_words
  rw [View.canon_unit_zero k3_hz]
  simp only [View.readAt_eq_ld, harg1.read_unread, harg2.read_unread, harg3.read_unread, harg4.read_unread, harg5.read_unread, harg6.read_unread, harg7.read_unread,
    View.ld_unit_zero (S := S5000x128) k3_hz, View.ld_unit_zero (S := S1x128) k3_hz, View.ld_unit_zero (S := S128x128) k3_hz]

end Piece

theorem win3_7_emb (t : Fin cfg3.N) (r : Fin 5000) (k : Fin 128) :
    ((cfg3.win 7).blk t).view.emb (ix2 r k) = (ix2 (⟨5000 * t.val + r.val, win3_row_lt t r⟩ : Fin 100000) k : S100000x128.Idx) := by
  funext a; apply Fin.ext
  obtain ⟨e0, e1⟩ := win3_7_idx t
  match a with
  | ⟨0, _⟩ => show win3_7.index t (0 : Fin 2) * 5000 + 1 * r.val = 5000 * t.val + r.val; omega
  | ⟨1, _⟩ => show win3_7.index t (1 : Fin 2) * 128 + 1 * k.val = k.val; omega

abbrev out3G (c : Dev nD) : S100000x128.Idx → EReal := fun i =>
  Spec.layerOut (zM3 V c) (muR3 V c) (varR3 V c) (gR3 V c) (btR3 V c) (Ideal.ofBits .f32 0x3727C5AC#32) (w2M3 V c) (b2R3 V c) (i 0) (i 1)

theorem flush3_7_eq (c : Dev nD) (t : Fin cfg3.N) :
    (dat3 (F := Ideal) V c).flushed 7 t = ((cfg3.win 7).blk t).view.read (Elt Ideal) (out3G V c) := by
  show (cfg3.win 7).cut (grid3.coords t) ((dat3 (F := Ideal) V c).after 7 t) = _
  rw [after3_7]
  funext j
  obtain ⟨r, k, rfl⟩ : ∃ (r : Fin 5000) (k : Fin 128), j = ix2 r k := ⟨j 0, j 1, eq_ix2 (n0 := 5000) (n1 := 128) j⟩
  show out3At V c t (ix2 r k) = out3G V c (((cfg3.win 7).blk t).view.emb (ix2 r k))
  rw [win3_7_emb t r k]
  unfold out3At
  refine (congrFun (out3_A_7_eq (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (iblk3 V c 0 t) (iblk3 V c 1 t) (iblk3 V c 2 t) (iblk3 V c 3 t) (iblk3 V c 4 t) (iblk3 V c 5 t) (iblk3 V c 6 t)) (ix2 r k)).trans ?_
  refine (k3_pay1_apply (iblk3 V c 0 t) (iblk3 V c 2 t) (iblk3 V c 1 t) (iblk3 V c 3 t) (iblk3 V c 4 t) (iblk3 V c 5 t) (iblk3 V c 6 t) r k).trans ?_
  simp only [iblk3_0_apply, iblk3_1_apply, iblk3_2_apply, iblk3_3_apply, iblk3_4_apply, iblk3_5_apply, iblk3_6_apply]
  rfl

theorem win3_7_mem_blk (t : Fin cfg3.N) (i : S100000x128.Idx) :
    i ∈ ((cfg3.win 7).blk t).view.set ↔ ∀ a : Fin 2, win3_7.index t a * S5000x128.size a ≤ (i a).val ∧ (i a).val < win3_7.index t a * S5000x128.size a + S5000x128.size a := by
  show i ∈ ((View.whole (Pipeline.arrRef spec3 7)).slice (win3_7.rect t)).set ↔ _
  rw [View.set_slice_whole, Rect.mem_set_unit]
  exact Iff.rfl

theorem cover3_arr (i : S100000x128.Idx) : ∃ t : Fin cfg3.N, (cfg3.win 7).flush t = true ∧ i ∈ ((cfg3.win 7).blk t).view.set := by
  have hi0 : (i 0).val < 100000 := (i 0).isLt
  have hi1 : (i 1).val < 128 := (i 1).isLt
  have hN : grid3.N = 20 := N_3
  have ht : (i 0).val / 5000 < grid3.N := by omega
  refine ⟨⟨(i 0).val / 5000, ht⟩, flush3_7 _, ?_⟩
  rw [win3_7_mem_blk]
  obtain ⟨e0, e1⟩ := win3_7_idx ⟨(i 0).val / 5000, ht⟩
  intro a
  match a with
  | ⟨0, _⟩ =>
    show win3_7.index ⟨(i 0).val / 5000, ht⟩ (0 : Fin 2) * 5000 ≤ (i 0).val ∧ (i 0).val < win3_7.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win3_7.index ⟨(i 0).val / 5000, ht⟩ (1 : Fin 2) * 128 ≤ (i 1).val ∧ (i 1).val < win3_7.index ⟨(i 0).val / 5000, ht⟩ (1 : Fin 2) * 128 + 128
    rw [e1]; omega

theorem out3_final (c : Dev nD) : (dat3 (F := Ideal) V c).arrAt 7 cfg3.N = out3G V c :=
  (dat3 (F := Ideal) V c).arrAt_eq_of_cover 7 (out3G V c) (fun t _ => flush3_7_eq V c t) cover3_arr

theorem outArr3 (c : Dev nD) (p : Fin 100000) (q : Fin 128) :
    (dat3 (F := Ideal) V c).arrAt 7 cfg3.N (ValueIdx.ix2 p q)
      = Spec.layerOut (zM3 V c) (muR3 V c) (varR3 V c) (gR3 V c) (btR3 V c) (Ideal.ofBits .f32 0x3727C5AC#32) (w2M3 V c) (b2R3 V c) p q :=
  congrFun (out3_final V c) (ValueIdx.ix2 p q)

end Cert.KernelIdeal.HandV

end
-- ==== Proof.KI.ValB5.lean ====
import proofs.«425279_j44762149159634_1_alg».proof.Proof.KI.Reg5
import proofs.«425279_j44762149159634_1_alg».proof.Proof.Spec
import proofs.«425279_j44762149159634_1_alg».proof.Proof.KI.ValB1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

theorem k5_pay1_apply (z : FVec Ideal S5000x128 .f32) (vr mu g bt : FVec Ideal S1x128 .f32) (W : FVec Ideal S128x128 .f32)
    (b2 : FVec Ideal S1x128 .f32) (p : Fin 5000) (q : Fin 128) :
    k5_pay1 (F := Ideal) z vr mu g bt W b2 (ix2 p q)
      = max ((∑ k : Fin 128, max ((z (ix2 p k) - mu (ix2 (0 : Fin 1) k)) * Ideal.rsqrt (vr (ix2 (0 : Fin 1) k) + Ideal.ofBits .f32 0x3727C5AC#32)
                * g (ix2 (0 : Fin 1) k) + bt (ix2 (0 : Fin 1) k)) 0 * W (ix2 k q)) + b2 (ix2 (0 : Fin 1) q)) 0 :=
  k1_pay1_apply z vr mu g bt W b2 p q

variable (V : (c : Dev nD) → (b : Ref sig .tc) → Buf (Elt Ideal) ((c : Thread nD τ).loc b))

abbrev zM5 (c : Dev nD) : Spec.Mat 100000 128 := fun r k => V c (Pipeline.arrRef spec5 0) (ValueIdx.ix2 r k)

abbrev muR5 (c : Dev nD) : Fin 128 → EReal := fun j => V c (Pipeline.arrRef spec5 1) (ValueIdx.ix2 (0 : Fin 1) j)

abbrev varR5 (c : Dev nD) : Fin 128 → EReal := fun j => V c (Pipeline.arrRef spec5 2) (ValueIdx.ix2 (0 : Fin 1) j)

abbrev gR5 (c : Dev nD) : Fin 128 → EReal := fun j => V c (Pipeline.arrRef spec5 3) (ValueIdx.ix2 (0 : Fin 1) j)

abbrev btR5 (c : Dev nD) : Fin 128 → EReal := fun j => V c (Pipeline.arrRef spec5 4) (ValueIdx.ix2 (0 : Fin 1) j)

abbrev w2M5 (c : Dev nD) : Spec.Mat 128 128 := fun k j => V c (Pipeline.arrRef spec5 5) (ValueIdx.ix2 k j)

abbrev b2R5 (c : Dev nD) : Fin 128 → EReal := fun j => V c (Pipeline.arrRef spec5 6) (ValueIdx.ix2 (0 : Fin 1) j)

theorem win5_0_idx : ∀ t : Fin cfg5.N, win5_0.index t (0 : Fin 2) = t.val ∧ win5_0.index t (1 : Fin 2) = 0 :=
  (by decide +kernel : ∀ t : Fin grid5.N, _)
theorem win5_1_idx : ∀ t : Fin cfg5.N, win5_1.index t (0 : Fin 2) = 0 ∧ win5_1.index t (1 : Fin 2) = 0 :=
  (by decide +kernel : ∀ t : Fin grid5.N, _)
theorem win5_2_idx : ∀ t : Fin cfg5.N, win5_2.index t (0 : Fin 2) = 0 ∧ win5_2.index t (1 : Fin 2) = 0 :=
  (by decide +kernel : ∀ t : Fin grid5.N, _)
theorem win5_3_idx : ∀ t : Fin cfg5.N, win5_3.index t (0 : Fin 2) = 0 ∧ win5_3.index t (1 : Fin 2) = 0 :=
  (by decide +kernel : ∀ t : Fin grid5.N, _)
theorem win5_4_idx : ∀ t : Fin cfg5.N, win5_4.index t (0 : Fin 2) = 0 ∧ win5_4.index t (1 : Fin 2) = 0 :=
  (by decide +kernel : ∀ t : Fin grid5.N, _)
theorem win5_5_idx : ∀ t : Fin cfg5.N, win5_5.index t (0 : Fin 2) = 0 ∧ win5_5.index t (1 : Fin 2) = 0 :=
  (by decide +kernel : ∀ t : Fin grid5.N, _)
theorem win5_6_idx : ∀ t : Fin cfg5.N, win5_6.index t (0 : Fin 2) = 0 ∧ win5_6.index t (1 : Fin 2) = 0 :=
  (by decide +kernel : ∀ t : Fin grid5.N, _)
theorem win5_7_idx : ∀ t : Fin cfg5.N, win5_7.index t (0 : Fin 2) = t.val ∧ win5_7.index t (1 : Fin 2) = 0 :=
  (by decide +kernel : ∀ t : Fin grid5.N, _)

theorem win5_row_lt (t : Fin cfg5.N) (r : Fin 5000) : 5000 * t.val + r.val < 100000 := by
  have ht : t.val < grid5.N := t.isLt
  have hN : grid5.N = 20 := N_5
  have hr : r.val < 5000 := r.isLt
  omega

theorem iblk5_0_apply (c : Dev nD) (t : Fin cfg5.N) (r : Fin 5000) (k : Fin 128) :
    iblk5 V c 0 t (ix2 r k) = zM5 V c ⟨5000 * t.val + r.val, win5_row_lt t r⟩ k := by
  show V c (Pipeline.arrRef spec5 0) (((cfg5.win 0).blk t).view.emb (ix2 r k)) = V c (Pipeline.arrRef spec5 0) (ix2 (⟨5000 * t.val + r.val, win5_row_lt t r⟩ : Fin 100000) k)
  refine congrArg (V c (Pipeline.arrRef spec5 0)) (funext fun a => Fin.ext ?_)
  obtain ⟨e0, e1⟩ := win5_0_idx t
  match a with
  | ⟨0, _⟩ => show win5_0.index t (0 : Fin 2) * 5000 + 1 * r.val = 5000 * t.val + r.val; omega
  | ⟨1, _⟩ => show win5_0.index t (1 : Fin 2) * 128 + 1 * k.val = k.val; omega

theorem iblk5_1_apply (c : Dev nD) (t : Fin cfg5.N) (k : Fin 128) :
    iblk5 V c 1 t (ix2 (0 : Fin 1) k) = muR5 V c k := by
  show V c (Pipeline.arrRef spec5 1) (((cfg5.win 1).blk t).view.emb (ix2 (0 : Fin 1) k)) = V c (Pipeline.arrRef spec5 1) (ix2 (0 : Fin 1) k)
  refine congrArg (V c (Pipeline.arrRef spec5 1)) (funext fun a => Fin.ext ?_)
  obtain ⟨e0, e1⟩ := win5_1_idx t
  match a with
  | ⟨0, _⟩ => show win5_1.index t (0 : Fin 2) * 1 + 1 * 0 = 0; omega
  | ⟨1, _⟩ => show win5_1.index t (1 : Fin 2) * 128 + 1 * k.val = k.val; omega

theorem iblk5_2_apply (c : Dev nD) (t : Fin cfg5.N) (k : Fin 128) :
    iblk5 V c 2 t (ix2 (0 : Fin 1) k) = varR5 V c k := by
  show V c (Pipeline.arrRef spec5 2) (((cfg5.win 2).blk t).view.emb (ix2 (0 : Fin 1) k)) = V c (Pipeline.arrRef spec5 2) (ix2 (0 : Fin 1) k)
  refine congrArg (V c (Pipeline.arrRef spec5 2)) (funext fun a => Fin.ext ?_)
  obtain ⟨e0, e1⟩ := win5_2_idx t
  match a with
  | ⟨0, _⟩ => show win5_2.index t (0 : Fin 2) * 1 + 1 * 0 = 0; omega
  | ⟨1, _⟩ => show win5_2.index t (1 : Fin 2) * 128 + 1 * k.val = k.val; omega

theorem iblk5_3_apply (c : Dev nD) (t : Fin cfg5.N) (k : Fin 128) :
    iblk5 V c 3 t (ix2 (0 : Fin 1) k) = gR5 V c k := by
  show V c (Pipeline.arrRef spec5 3) (((cfg5.win 3).blk t).view.emb (ix2 (0 : Fin 1) k)) = V c (Pipeline.arrRef spec5 3) (ix2 (0 : Fin 1) k)
  refine congrArg (V c (Pipeline.arrRef spec5 3)) (funext fun a => Fin.ext ?_)
  obtain ⟨e0, e1⟩ := win5_3_idx t
  match a with
  | ⟨0, _⟩ => show win5_3.index t (0 : Fin 2) * 1 + 1 * 0 = 0; omega
  | ⟨1, _⟩ => show win5_3.index t (1 : Fin 2) * 128 + 1 * k.val = k.val; omega

theorem iblk5_4_apply (c : Dev nD) (t : Fin cfg5.N) (k : Fin 128) :
    iblk5 V c 4 t (ix2 (0 : Fin 1) k) = btR5 V c k := by
  show V c (Pipeline.arrRef spec5 4) (((cfg5.win 4).blk t).view.emb (ix2 (0 : Fin 1) k)) = V c (Pipeline.arrRef spec5 4) (ix2 (0 : Fin 1) k)
  refine congrArg (V c (Pipeline.arrRef spec5 4)) (funext fun a => Fin.ext ?_)
  obtain ⟨e0, e1⟩ := win5_4_idx t
  match a with
  | ⟨0, _⟩ => show win5_4.index t (0 : Fin 2) * 1 + 1 * 0 = 0; omega
  | ⟨1, _⟩ => show win5_4.index t (1 : Fin 2) * 128 + 1 * k.val = k.val; omega

theorem iblk5_5_apply (c : Dev nD) (t : Fin cfg5.N) (k : Fin 128) (j : Fin 128) :
    iblk5 V c 5 t (ix2 k j) = w2M5 V c k j := by
  show V c (Pipeline.arrRef spec5 5) (((cfg5.win 5).blk t).view.emb (ix2 k j)) = V c (Pipeline.arrRef spec5 5) (ix2 k j)
  refine congrArg (V c (Pipeline.arrRef spec5 5)) (funext fun a => Fin.ext ?_)
  obtain ⟨e0, e1⟩ := win5_5_idx t
  match a with
  | ⟨0, _⟩ => show win5_5.index t (0 : Fin 2) * 128 + 1 * k.val = k.val; omega
  | ⟨1, _⟩ => show win5_5.index t (1 : Fin 2) * 128 + 1 * j.val = j.val; omega

theorem iblk5_6_apply (c : Dev nD) (t : Fin cfg5.N) (k : Fin 128) :
    iblk5 V c 6 t (ix2 (0 : Fin 1) k) = b2R5 V c k := by
  show V c (Pipeline.arrRef spec5 6) (((cfg5.win 6).blk t).view.emb (ix2 (0 : Fin 1) k)) = V c (Pipeline.arrRef spec5 6) (ix2 (0 : Fin 1) k)
  refine congrArg (V c (Pipeline.arrRef spec5 6)) (funext fun a => Fin.ext ?_)
  obtain ⟨e0, e1⟩ := win5_6_idx t
  match a with
  | ⟨0, _⟩ => show win5_6.index t (0 : Fin 2) * 1 + 1 * 0 = 0; omega
  | ⟨1, _⟩ => show win5_6.index t (1 : Fin 2) * 128 + 1 * k.val = k.val; omega

section Piece
variable {F : FTy → Type} [FloatOps F]

theorem k5_hz : (![0, 0] : Fin 2 → Nat) = fun _ => 0 := funext fun a => by fin_cases a <;> rfl

theorem out5_A_7_eq (c : Dev nD) (i : grid5.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole)
    (x0 : Vec F S5000x128 .f32) (x1 : Vec F S1x128 .f32) (x2 : Vec F S1x128 .f32) (x3 : Vec F S1x128 .f32) (x4 : Vec F S1x128 .f32) (x5 : Vec F S128x128 .f32) (x6 : Vec F S1x128 .f32) :
    out5_A_7 c i arg1 harg1 arg2 harg2 arg3 harg3 arg4 harg4 arg5 harg5 arg6 harg6 arg7 harg7 arg8 harg8 x0 x1 x2 x3 x4 x5 x6 = k5_pay1 x0 x2 x1 x3 x4 x5 x6 := by
  unfold out5_A_7
  rw [View.read_writes_eq_canon _ _ _ (cover5_A_7 c i arg1 harg1 arg2 harg2 arg3 harg3 arg4 harg4 arg5 harg5 arg6 harg6 arg7 harg7 arg8 harg8 x0 x1 x2 x3 x4 x5 x6)]
  unfold kernelRun5_A
  dsimp only
  sl_unfold_words
  rw [View.canon_unit_zero k5_hz]
  simp only [View.readAt_eq_ld, harg1.read_unread, harg2.read_unread, harg3.read_unread, harg4.read_unread, harg5.read_unread, harg6.read_unread, harg7.read_unread,
    View.ld_unit_zero (S := S5000x128) k5_hz, View.ld_unit_zero (S := S1x128) k5_hz, View.ld_unit_zero (S := S128x128) k5_hz]

end Piece

theorem win5_7_emb (t : Fin cfg5.N) (r : Fin 5000) (k : Fin 128) :
    ((cfg5.win 7).blk t).view.emb (ix2 r k) = (ix2 (⟨5000 * t.val + r.val, win5_row_lt t r⟩ : Fin 100000) k : S100000x128.Idx) := by
  funext a; apply Fin.ext
  obtain ⟨e0, e1⟩ := win5_7_idx t
  match a with
  | ⟨0, _⟩ => show win5_7.index t (0 : Fin 2) * 5000 + 1 * r.val = 5000 * t.val + r.val; omega
  | ⟨1, _⟩ => show win5_7.index t (1 : Fin 2) * 128 + 1 * k.val = k.val; omega

abbrev out5G (c : Dev nD) : S100000x128.Idx → EReal := fun i =>
  Spec.layerOut (zM5 V c) (muR5 V c) (varR5 V c) (gR5 V c) (btR5 V c) (Ideal.ofBits .f32 0x3727C5AC#32) (w2M5 V c) (b2R5 V c) (i 0) (i 1)

theorem flush5_7_eq (c : Dev nD) (t : Fin cfg5.N) :
    (dat5 (F := Ideal) V c).flushed 7 t = ((cfg5.win 7).blk t).view.read (Elt Ideal) (out5G V c) := by
  show (cfg5.win 7).cut (grid5.coords t) ((dat5 (F := Ideal) V c).after 7 t) = _
  rw [after5_7]
  funext j
  obtain ⟨r, k, rfl⟩ : ∃ (r : Fin 5000) (k : Fin 128), j = ix2 r k := ⟨j 0, j 1, eq_ix2 (n0 := 5000) (n1 := 128) j⟩
  show out5At V c t (ix2 r k) = out5G V c (((cfg5.win 7).blk t).view.emb (ix2 r k))
  rw [win5_7_emb t r k]
  unfold out5At
  refine (congrFun (out5_A_7_eq (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (iblk5 V c 0 t) (iblk5 V c 1 t) (iblk5 V c 2 t) (iblk5 V c 3 t) (iblk5 V c 4 t) (iblk5 V c 5 t) (iblk5 V c 6 t)) (ix2 r k)).trans ?_
  refine (k5_pay1_apply (iblk5 V c 0 t) (iblk5 V c 2 t) (iblk5 V c 1 t) (iblk5 V c 3 t) (iblk5 V c 4 t) (iblk5 V c 5 t) (iblk5 V c 6 t) r k).trans ?_
  simp only [iblk5_0_apply, iblk5_1_apply, iblk5_2_apply, iblk5_3_apply, iblk5_4_apply, iblk5_5_apply, iblk5_6_apply]
  rfl

theorem win5_7_mem_blk (t : Fin cfg5.N) (i : S100000x128.Idx) :
    i ∈ ((cfg5.win 7).blk t).view.set ↔ ∀ a : Fin 2, win5_7.index t a * S5000x128.size a ≤ (i a).val ∧ (i a).val < win5_7.index t a * S5000x128.size a + S5000x128.size a := by
  show i ∈ ((View.whole (Pipeline.arrRef spec5 7)).slice (win5_7.rect t)).set ↔ _
  rw [View.set_slice_whole, Rect.mem_set_unit]
  exact Iff.rfl

theorem cover5_arr (i : S100000x128.Idx) : ∃ t : Fin cfg5.N, (cfg5.win 7).flush t = true ∧ i ∈ ((cfg5.win 7).blk t).view.set := by
  have hi0 : (i 0).val < 100000 := (i 0).isLt
  have hi1 : (i 1).val < 128 := (i 1).isLt
  have hN : grid5.N = 20 := N_5
  have ht : (i 0).val / 5000 < grid5.N := by omega
  refine ⟨⟨(i 0).val / 5000, ht⟩, flush5_7 _, ?_⟩
  rw [win5_7_mem_blk]
  obtain ⟨e0, e1⟩ := win5_7_idx ⟨(i 0).val / 5000, ht⟩
  intro a
  match a with
  | ⟨0, _⟩ =>
    show win5_7.index ⟨(i 0).val / 5000, ht⟩ (0 : Fin 2) * 5000 ≤ (i 0).val ∧ (i 0).val < win5_7.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win5_7.index ⟨(i 0).val / 5000, ht⟩ (1 : Fin 2) * 128 ≤ (i 1).val ∧ (i 1).val < win5_7.index ⟨(i 0).val / 5000, ht⟩ (1 : Fin 2) * 128 + 128
    rw [e1]; omega

theorem out5_final (c : Dev nD) : (dat5 (F := Ideal) V c).arrAt 7 cfg5.N = out5G V c :=
  (dat5 (F := Ideal) V c).arrAt_eq_of_cover 7 (out5G V c) (fun t _ => flush5_7_eq V c t) cover5_arr

theorem outArr5 (c : Dev nD) (p : Fin 100000) (q : Fin 128) :
    (dat5 (F := Ideal) V c).arrAt 7 cfg5.N (ValueIdx.ix2 p q)
      = Spec.layerOut (zM5 V c) (muR5 V c) (varR5 V c) (gR5 V c) (btR5 V c) (Ideal.ofBits .f32 0x3727C5AC#32) (w2M5 V c) (b2R5 V c) p q :=
  congrFun (out5_final V c) (ValueIdx.ix2 p q)

end Cert.KernelIdeal.HandV

end
-- ==== Proof.KI.Pieces6.lean ====
import proofs.«425279_j44762149159634_1_alg».proof.Proof.KI.Reg6
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz6 : (![0, 0] : Fin 2 → Nat) = fun _ => 0 := funext fun a => by fin_cases a <;> rfl

section
variable (c : Dev nD) (i : grid6.Coords) (arg1 : Memref sig .tc .vmem S5000x128 .f32) (harg1 : arg1.IsWhole) (arg2 : Memref sig .tc .vmem S5000x1 .i32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S1024x64 .f32) (harg7 : arg7.IsWhole) (arg8 : Memref sig .tc .vmem S1024x128 .f32) (harg8 : arg8.IsWhole)
include c i arg1 harg1 arg2 harg2 arg3 harg3 arg4 harg4 arg5 harg5 arg6 harg6 arg7 harg7 arg8 harg8

theorem sout6_A_0_eq (hc0 : cond6_0 i) (hc1 : ¬cond6_1 i)
    (x0 : Vec F S5000x128 .f32) (x1 : Vec F S5000x1 .i32) (x2 : Vec F S128x128 .f32) (x3 : Vec F S1x128 .f32) (x4 : Vec F S128x64 .f32) (x5 : Vec F S1x64 .f32) :
    sout6_A_0 c i arg1 harg1 arg2 harg2 arg3 harg3 arg4 harg4 arg5 harg5 arg6 harg6 arg7 harg7 arg8 harg8 hc0 hc1 x0 x1 x2 x3 x4 x5 = k6_pay2 x1 x0 (k6_pay1 (F := F)) := by
  unfold sout6_A_0
  rw [View.read_writes_eq_canon _ _ _ (scover6_A_0 c i arg1 harg1 arg2 harg2 arg3 harg3 arg4 harg4 arg5 harg5 arg6 harg6 arg7 harg7 arg8 harg8 hc0 hc1 x0 x1 x2 x3 x4 x5)]
  unfold kernelRun6_A
  dsimp only
  sl_unfold_words
  rw [View.canon_cons_unit_zero (S := S1024x128) hz6, View.readCov_unit_zero (S := S1024x128) _ hz6]
  simp only [View.readAt_eq_ld, harg1.read_unread, harg2.read_unread, View.ld_unit_zero (S := S5000x128) hz6, View.ld_unit_zero (S := S5000x1) hz6]

theorem sout6_B_0_eq (hc0 : ¬cond6_0 i) (hc1 : ¬cond6_1 i)
    (x0 : Vec F S5000x128 .f32) (x1 : Vec F S5000x1 .i32) (x2 : Vec F S128x128 .f32) (x3 : Vec F S1x128 .f32) (x4 : Vec F S128x64 .f32) (x5 : Vec F S1x64 .f32) (xs0 : Vec F S1024x128 .f32) :
    sout6_B_0 c i arg1 harg1 arg2 harg2 arg3 harg3 arg4 harg4 arg5 harg5 arg6 harg6 arg7 harg7 arg8 harg8 hc0 hc1 x0 x1 x2 x3 x4 x5 xs0 = k6_pay2 x1 x0 xs0 := by
  unfold sout6_B_0
  rw [View.read_writes_eq_canon _ _ _ (scover6_B_0 c i arg1 harg1 arg2 harg2 arg3 harg3 arg4 harg4 arg5 harg5 arg6 harg6 arg7 harg7 arg8 harg8 hc0 hc1 x0 x1 x2 x3 x4 x5 xs0)]
  unfold kernelRun6_B
  dsimp only
  sl_unfold_words
  rw [View.canon_unit_zero (S := S1024x128) hz6]
  simp only [View.readAt_eq_ld, harg1.read_unread, harg2.read_unread, harg8.read_unread, View.ld_unit_zero (S := S5000x128) hz6, View.ld_unit_zero (S := S5000x1) hz6, View.ld_unit_zero (S := S1024x128) hz6]

section
variable (hc0 : ¬cond6_0 i) (hc1 : cond6_1 i) (x0 : Vec F S5000x128 .f32) (x1 : Vec F S5000x1 .i32) (x2 : Vec F S128x128 .f32) (x3 : Vec F S1x128 .f32) (x4 : Vec F S128x64 .f32) (x5 : Vec F S1x64 .f32) (xs0 : Vec F S1024x128 .f32)
include hc0 hc1 x0 x1 x2 x3 x4 x5 xs0

theorem sout6_C_0_eq :
    sout6_C_0 c i arg1 harg1 arg2 harg2 arg3 harg3 arg4 harg4 arg5 harg5 arg6 harg6 arg7 harg7 arg8 harg8 hc0 hc1 x0 x1 x2 x3 x4 x5 xs0 = k6_pay2 x1 x0 xs0 := by
  unfold sout6_C_0
  rw [View.read_writes_eq_canon _ _ _ (scover6_C_0 c i arg1 harg1 arg2 harg2 arg3 harg3 arg4 harg4 arg5 harg5 arg6 harg6 arg7 harg7 arg8 harg8 hc0 hc1 x0 x1 x2 x3 x4 x5 xs0)]
  unfold kernelRun6_C
  dsimp only
  sl_unfold_words
  rw [View.canon_unit_zero (S := S1024x128) hz6]
  simp only [View.readAt_eq_ld, harg1.read_unread, harg2.read_unread, harg8.read_unread, View.ld_unit_zero (S := S5000x128) hz6, View.ld_unit_zero (S := S5000x1) hz6, View.ld_unit_zero (S := S1024x128) hz6]

theorem out6_C_6_eq :
    out6_C_6 c i arg1 harg1 arg2 harg2 arg3 harg3 arg4 harg4 arg5 harg5 arg6 harg6 arg7 harg7 arg8 harg8 hc0 hc1 x0 x1 x2 x3 x4 x5 xs0 = k6_pay3 (k6_pay2 x1 x0 xs0) x2 x3 x4 x5 := by
  unfold out6_C_6
  rw [View.read_writes_eq_canon _ _ _ (cover6_C_6 c i arg1 harg1 arg2 harg2 arg3 harg3 arg4 harg4 arg5 harg5 arg6 harg6 arg7 harg7 arg8 harg8 hc0 hc1 x0 x1 x2 x3 x4 x5 xs0)]
  unfold kernelRun6_C
  dsimp only
  sl_unfold_words
  rw [View.canon_unit_zero (S := S1024x64) hz6]
  simp only [View.readAt_eq_ld, View.readCov_unit_zero (S := S1024x128) _ hz6, harg1.read_unread, harg2.read_unread, harg3.read_unread, harg4.read_unread, harg5.read_unread, harg6.read_unread, harg8.read_unread,
    View.ld_unit_zero (S := S5000x128) hz6, View.ld_unit_zero (S := S5000x1) hz6, View.ld_unit_zero (S := S1024x128) hz6,
    View.ld_unit_zero (S := S128x128) hz6, View.ld_unit_zero (S := S1x128) hz6, View.ld_unit_zero (S := S128x64) hz6, View.ld_unit_zero (S := S1x64) hz6]

end

end

end Cert.KernelIdeal.Hand

end
-- ==== Proof.KI.ValC6Pay.lean ====
import proofs.«425279_j44762149159634_1_alg».proof.Proof.Gen.KernelIdeal.Skeleton
import proofs.«425279_j44762149159634_1_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.Lib.StableHlo.Predicate
import Idealize.ShloMosaic.PureOps.Ideal.Laws

set_option maxRecDepth 16384

noncomputable section

namespace Cert.KernelIdeal.HandV

open Cert.KernelIdeal Cert.KernelIdeal.Gen
open Idealize.ShloMosaic Idealize.ShloMosaic.TcCoe
open Idealize.ShloMosaic.ValueIdx
open scoped BigOperators

theorem pay1_apply (i : S1024x128.Idx) : k6_pay1 (F := Ideal) i = 0 := by
  unfold k6_pay1
  rw [shapeCast_self]
  exact Ideal.ofBits_zero_f32

theorem toInt_ofNat_group (g : Fin 1024) : (BitVec.ofNat 32 g.val).toInt = (g.val : ℤ) := by
  have hg := g.isLt
  rw [BitVec.toInt_eq_toNat_cond, BitVec.toNat_ofNat]
  have h : g.val % 2 ^ 32 = g.val := Nat.mod_eq_of_lt (by omega)
  rw [h, if_pos (by omega)]

theorem word_eq_group_iff (w : BitVec 32) (g : Fin 1024) : w = BitVec.ofNat 32 g.val ↔ w.toInt = (g.val : ℤ) := by
  rw [← toInt_ofNat_group g, BitVec.toInt_inj]

theorem lhs_pool_0 (i : S1024x128.Idx) (q : dot_S5000x1024_S5000x128_S1024x128_0_0_1_1_n_n.contr.Idx) :
    (dot_S5000x1024_S5000x128_S1024x128_0_0_1_1_n_n.lhsIdx i q 0).val = (q ⟨0, by decide⟩).val :=
  dot_S5000x1024_S5000x128_S1024x128_0_0_1_1_n_n.lhsIdx_val_of_single rfl i q
theorem lhs_pool_1 (i : S1024x128.Idx) (q : dot_S5000x1024_S5000x128_S1024x128_0_0_1_1_n_n.contr.Idx) :
    (dot_S5000x1024_S5000x128_S1024x128_0_0_1_1_n_n.lhsIdx i q 1).val = (i 0).val := by
  unfold DotDims.lhsIdx
  rw [dif_neg (show ¬(1 : Fin S5000x1024.rank) ∈ dot_S5000x1024_S5000x128_S1024x128_0_0_1_1_n_n.lhsBatch by decide), dif_pos (show (1 : Fin S5000x1024.rank) ∈ dot_S5000x1024_S5000x128_S1024x128_0_0_1_1_n_n.lhsNonContracting by decide)]
  rfl
theorem rhs_pool_0 (i : S1024x128.Idx) (q : dot_S5000x1024_S5000x128_S1024x128_0_0_1_1_n_n.contr.Idx) :
    (dot_S5000x1024_S5000x128_S1024x128_0_0_1_1_n_n.rhsIdx i q 0).val = (q ⟨0, by decide⟩).val :=
  dot_S5000x1024_S5000x128_S1024x128_0_0_1_1_n_n.rhsIdx_val_of_single rfl i q
theorem rhs_pool_1 (i : S1024x128.Idx) (q : dot_S5000x1024_S5000x128_S1024x128_0_0_1_1_n_n.contr.Idx) :
    (dot_S5000x1024_S5000x128_S1024x128_0_0_1_1_n_n.rhsIdx i q 1).val = (i 1).val := by
  unfold DotDims.rhsIdx
  rw [dif_neg (show ¬(1 : Fin S5000x128.rank) ∈ dot_S5000x1024_S5000x128_S1024x128_0_0_1_1_n_n.rhsBatch by decide), dif_pos (show (1 : Fin S5000x128.rank) ∈ dot_S5000x1024_S5000x128_S1024x128_0_0_1_1_n_n.rhsNonContracting by decide)]
  rfl

theorem matmul_pool_apply (A : FVec Ideal S5000x1024 .bf16) (B : FVec Ideal S5000x128 .bf16) (g : Fin 1024) (j : Fin 128) :
    matmul dot_S5000x1024_S5000x128_S1024x128_0_0_1_1_n_n none A B (constant S1024x128 .f32 0x00000000#32) (ix2 g j)
      = ∑ r : Fin 5000, A (ix2 r g) * B (ix2 r j) := by
  show FloatOps.matmul dot_S5000x1024_S5000x128_S1024x128_0_0_1_1_n_n none A B (constant S1024x128 .f32 0x00000000#32) (ix2 g j) = _
  rw [Ideal.matmul_constant_zero_apply, ← Equiv.sum_comp (contrEquiv1 dot_S5000x1024_S5000x128_S1024x128_0_0_1_1_n_n 5000 rfl rfl).symm]
  refine Finset.sum_congr rfl fun k _ => ?_
  have hk := contrEquiv1_symm_val dot_S5000x1024_S5000x128_S1024x128_0_0_1_1_n_n 5000 rfl rfl k
  have el : dot_S5000x1024_S5000x128_S1024x128_0_0_1_1_n_n.lhsIdx (ix2 g j) ((contrEquiv1 dot_S5000x1024_S5000x128_S1024x128_0_0_1_1_n_n 5000 rfl rfl).symm k) = ix2 k g := funext fun a => Fin.ext (by
    match a with
    | ⟨0, _⟩ => exact (lhs_pool_0 _ _).trans hk
    | ⟨1, _⟩ => exact lhs_pool_1 _ _)
  have er : dot_S5000x1024_S5000x128_S1024x128_0_0_1_1_n_n.rhsIdx (ix2 g j) ((contrEquiv1 dot_S5000x1024_S5000x128_S1024x128_0_0_1_1_n_n 5000 rfl rfl).symm k) = ix2 k j := funext fun a => Fin.ext (by
    match a with
    | ⟨0, _⟩ => exact (rhs_pool_0 _ _).trans hk
    | ⟨1, _⟩ => exact rhs_pool_1 _ _)
  rw [el, er]

theorem bcast_label_apply {α : Type} (x : S5000x1.Idx → α) (r : Fin 5000) (g : Fin 1024) :
    broadcastTo S5000x1024 x broadcasts_S5000x1_S5000x1024 (ix2 r g) = x (ix2 r 0) :=
  broadcastTo_apply x _ (ix2 r g) (ix2 r 0) (fun a => by match a with | ⟨0, _⟩ => rfl | ⟨1, _⟩ => rfl)

theorem bcast_group_apply {α : Type} (x : S1x1024.Idx → α) (r : Fin 5000) (g : Fin 1024) :
    broadcastTo S5000x1024 x broadcasts_S1x1024_S5000x1024 (ix2 r g) = x (ix2 0 g) :=
  broadcastTo_apply x _ (ix2 r g) (ix2 0 g) (fun a => by match a with | ⟨0, _⟩ => rfl | ⟨1, _⟩ => rfl)

theorem bcast_b1_apply {α : Type} (x : S1x128.Idx → α) (g : Fin 1024) (j : Fin 128) :
    broadcastTo S1024x128 x broadcasts_S1x128_S1024x128 (ix2 g j) = x (ix2 0 j) :=
  broadcastTo_apply x _ (ix2 g j) (ix2 0 j) (fun a => by match a with | ⟨0, _⟩ => rfl | ⟨1, _⟩ => rfl)

theorem bcast_b2_apply {α : Type} (x : S1x64.Idx → α) (g : Fin 1024) (j : Fin 64) :
    broadcastTo S1024x64 x broadcasts_S1x64_S1024x64 (ix2 g j) = x (ix2 0 j) :=
  broadcastTo_apply x _ (ix2 g j) (ix2 0 j) (fun a => by match a with | ⟨0, _⟩ => rfl | ⟨1, _⟩ => rfl)

theorem onehot_cmp_apply (v4 : Vec Ideal S5000x1 .i32) (r : Fin 5000) (g : Fin 1024) :
    cmpi .eq (broadcastTo S5000x1024 v4 broadcasts_S5000x1_S5000x1024)
        (broadcastTo S5000x1024 (iota .tc S1x1024 32 [1] iota_S1x1024_d1_w32) broadcasts_S1x1024_S5000x1024) (ix2 r g)
      = IntOp.cmpi .eq (v4 (ix2 r 0)) (BitVec.ofNat 32 g.val) := by
  show IntOp.cmpi .eq (broadcastTo S5000x1024 v4 broadcasts_S5000x1_S5000x1024 (ix2 r g))
      (broadcastTo S5000x1024 (iota .tc S1x1024 32 [1] iota_S1x1024_d1_w32) broadcasts_S1x1024_S5000x1024 (ix2 r g)) = _
  rw [bcast_label_apply, bcast_group_apply, iota_single_apply]

theorem pay2_apply (v4 : Vec Ideal S5000x1 .i32) (v13 : Vec Ideal S5000x128 .f32) (v17 : Vec Ideal S1024x128 .f32) (g : Fin 1024) (j : Fin 128) :
    k6_pay2 (F := Ideal) v4 v13 v17 (ix2 g j)
      = v17 (ix2 g j) + ∑ r : Fin 5000, (if (v4 (ix2 r 0) : BitVec 32).toInt = (g.val : ℤ) then (1 : EReal) else 0) * v13 (ix2 r j) := by
  unfold k6_pay2
  simp only [shapeCast_self]
  rw [addf_apply, matmul_pool_apply]
  refine congrArg (v17 (ix2 g j) + ·) (Finset.sum_congr rfl fun r _ => ?_)
  rw [truncf_apply, truncf_apply, select_apply, broadcast_apply, broadcast_apply, onehot_cmp_apply]
  by_cases h : (v4 (ix2 r 0) : BitVec 32).toInt = (g.val : ℤ)
  · rw [if_pos h, StableHlo.Predicate.cmpi_eq_iff.mpr ((word_eq_group_iff _ g).mpr h), select_one]
    exact congrArg (· * v13 (ix2 r j)) Ideal.ofBits_one_f32
  · rw [if_neg h, eq_zero_of_ne_one (fun hh => h ((word_eq_group_iff _ g).mp (StableHlo.Predicate.cmpi_eq_iff.mp hh))), select_zero]
    exact congrArg (· * v13 (ix2 r j)) Ideal.ofBits_zero_f32

theorem lhs_h1_0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
theorem lhs_h1_1 (i : S1024x128.Idx) (q : dot_S1024x128_S128x128_S1024x128_1_0_0_1_n_n.contr.Idx) :
    (dot_S1024x128_S128x128_S1024x128_1_0_0_1_n_n.lhsIdx i q 1).val = (q ⟨0, by decide⟩).val :=
  dot_S1024x128_S128x128_S1024x128_1_0_0_1_n_n.lhsIdx_val_of_single rfl i q
theorem rhs_h1_0 (i : S1024x128.Idx) (q : dot_S1024x128_S128x128_S1024x128_1_0_0_1_n_n.contr.Idx) :
    (dot_S1024x128_S128x128_S1024x128_1_0_0_1_n_n.rhsIdx i q 0).val = (q ⟨0, by decide⟩).val :=
  dot_S1024x128_S128x128_S1024x128_1_0_0_1_n_n.rhsIdx_val_of_single rfl i q
theorem rhs_h1_1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl

theorem matmul_h1_apply (A : FVec Ideal S1024x128 .bf16) (B : FVec Ideal S128x128 .bf16) (g : Fin 1024) (j : Fin 128) :
    matmul dot_S1024x128_S128x128_S1024x128_1_0_0_1_n_n none A B (constant S1024x128 .f32 0x00000000#32) (ix2 g j)
      = ∑ k : Fin 128, A (ix2 g k) * B (ix2 k j) := by
  show FloatOps.matmul dot_S1024x128_S128x128_S1024x128_1_0_0_1_n_n none A B (constant S1024x128 .f32 0x00000000#32) (ix2 g j) = _
  rw [Ideal.matmul_constant_zero_apply, ← Equiv.sum_comp (contrEquiv1 dot_S1024x128_S128x128_S1024x128_1_0_0_1_n_n 128 rfl rfl).symm]
  refine Finset.sum_congr rfl fun k _ => ?_
  have hk := contrEquiv1_symm_val dot_S1024x128_S128x128_S1024x128_1_0_0_1_n_n 128 rfl rfl k
  have el : dot_S1024x128_S128x128_S1024x128_1_0_0_1_n_n.lhsIdx (ix2 g j) ((contrEquiv1 dot_S1024x128_S128x128_S1024x128_1_0_0_1_n_n 128 rfl rfl).symm k) = ix2 g k := funext fun a => Fin.ext (by
    match a with
    | ⟨0, _⟩ => exact lhs_h1_0 _ _
    | ⟨1, _⟩ => exact (lhs_h1_1 _ _).trans hk)
  have er : dot_S1024x128_S128x128_S1024x128_1_0_0_1_n_n.rhsIdx (ix2 g j) ((contrEquiv1 dot_S1024x128_S128x128_S1024x128_1_0_0_1_n_n 128 rfl rfl).symm k) = ix2 k j := funext fun a => Fin.ext (by
    match a with
    | ⟨0, _⟩ => exact (rhs_h1_0 _ _).trans hk
    | ⟨1, _⟩ => exact rhs_h1_1 _ _)
  rw [el, er]

theorem lhs_h2_0 (i : S1024x64.Idx) (q : dot_S1024x128_S128x64_S1024x64_1_0_0_1_n_n.contr.Idx) :
    (dot_S1024x128_S128x64_S1024x64_1_0_0_1_n_n.lhsIdx i q 0).val = (i 0).val := by
  unfold DotDims.lhsIdx
  rw [dif_neg (show ¬(0 : Fin S1024x128.rank) ∈ dot_S1024x128_S128x64_S1024x64_1_0_0_1_n_n.lhsBatch by decide), dif_pos (show (0 : Fin S1024x128.rank) ∈ dot_S1024x128_S128x64_S1024x64_1_0_0_1_n_n.lhsNonContracting by decide)]
  rfl
theorem lhs_h2_1 (i : S1024x64.Idx) (q : dot_S1024x128_S128x64_S1024x64_1_0_0_1_n_n.contr.Idx) :
    (dot_S1024x128_S128x64_S1024x64_1_0_0_1_n_n.lhsIdx i q 1).val = (q ⟨0, by decide⟩).val :=
  dot_S1024x128_S128x64_S1024x64_1_0_0_1_n_n.lhsIdx_val_of_single rfl i q
theorem rhs_h2_0 (i : S1024x64.Idx) (q : dot_S1024x128_S128x64_S1024x64_1_0_0_1_n_n.contr.Idx) :
    (dot_S1024x128_S128x64_S1024x64_1_0_0_1_n_n.rhsIdx i q 0).val = (q ⟨0, by decide⟩).val :=
  dot_S1024x128_S128x64_S1024x64_1_0_0_1_n_n.rhsIdx_val_of_single rfl i q
theorem rhs_h2_1 (i : S1024x64.Idx) (q : dot_S1024x128_S128x64_S1024x64_1_0_0_1_n_n.contr.Idx) :
    (dot_S1024x128_S128x64_S1024x64_1_0_0_1_n_n.rhsIdx i q 1).val = (i 1).val := by
  unfold DotDims.rhsIdx
  rw [dif_neg (show ¬(1 : Fin S128x64.rank) ∈ dot_S1024x128_S128x64_S1024x64_1_0_0_1_n_n.rhsBatch by decide), dif_pos (show (1 : Fin S128x64.rank) ∈ dot_S1024x128_S128x64_S1024x64_1_0_0_1_n_n.rhsNonContracting by decide)]
  rfl

theorem matmul_h2_apply (A : FVec Ideal S1024x128 .bf16) (B : FVec Ideal S128x64 .bf16) (g : Fin 1024) (j : Fin 64) :
    matmul dot_S1024x128_S128x64_S1024x64_1_0_0_1_n_n none A B (constant S1024x64 .f32 0x00000000#32) (ix2 g j)
      = ∑ k : Fin 128, A (ix2 g k) * B (ix2 k j) := by
  show FloatOps.matmul dot_S1024x128_S128x64_S1024x64_1_0_0_1_n_n none A B (constant S1024x64 .f32 0x00000000#32) (ix2 g j) = _
  rw [Ideal.matmul_constant_zero_apply, ← Equiv.sum_comp (contrEquiv1 dot_S1024x128_S128x64_S1024x64_1_0_0_1_n_n 128 rfl rfl).symm]
  refine Finset.sum_congr rfl fun k _ => ?_
  have hk := contrEquiv1_symm_val dot_S1024x128_S128x64_S1024x64_1_0_0_1_n_n 128 rfl rfl k
  have el : dot_S1024x128_S128x64_S1024x64_1_0_0_1_n_n.lhsIdx (ix2 g j) ((contrEquiv1 dot_S1024x128_S128x64_S1024x64_1_0_0_1_n_n 128 rfl rfl).symm k) = ix2 g k := funext fun a => Fin.ext (by
    match a with
    | ⟨0, _⟩ => exact lhs_h2_0 _ _
    | ⟨1, _⟩ => exact (lhs_h2_1 _ _).trans hk)
  have er : dot_S1024x128_S128x64_S1024x64_1_0_0_1_n_n.rhsIdx (ix2 g j) ((contrEquiv1 dot_S1024x128_S128x64_S1024x64_1_0_0_1_n_n 128 rfl rfl).symm k) = ix2 k j := funext fun a => Fin.ext (by
    match a with
    | ⟨0, _⟩ => exact (rhs_h2_0 _ _).trans hk
    | ⟨1, _⟩ => exact rhs_h2_1 _ _)
  rw [el, er]

theorem pay3_apply (v25 : Vec Ideal S1024x128 .f32) (v27 : Vec Ideal S128x128 .f32) (v30 : Vec Ideal S1x128 .f32)
    (v37 : Vec Ideal S128x64 .f32) (v40 : Vec Ideal S1x64 .f32) (g : Fin 1024) (o : Fin 64) :
    k6_pay3 (F := Ideal) v25 v27 v30 v37 v40 (ix2 g o)
      = Spec.head (fun g j => v25 (ix2 g j) : Spec.Mat 1024 128) (fun k j => v27 (ix2 k j)) (fun j => v30 (ix2 0 j))
          (fun k j => v37 (ix2 k j)) (fun j => v40 (ix2 0 j)) g o := by
  unfold k6_pay3
  simp only [shapeCast_self]
  rw [addf_apply, matmul_h2_apply, bcast_b2_apply]
  show _ = (∑ q : Fin 128, max ((∑ p : Fin 128, v25 (ix2 g p) * v27 (ix2 p q)) + v30 (ix2 0 q)) 0 * v37 (ix2 q o)) + v40 (ix2 0 o)
  refine congrArg (· + v40 (ix2 0 o)) (Finset.sum_congr rfl fun q _ => ?_)
  rw [truncf_apply, truncf_apply, maximumf_apply, addf_apply, matmul_h1_apply, bcast_b1_apply, broadcast_apply]
  refine congrArg (· * v37 (ix2 q o)) ?_
  refine congrArg₂ max ?_ Ideal.ofBits_zero_f32
  rfl

end Cert.KernelIdeal.HandV

end
-- ==== Proof.KI.ValC6.lean ====
import proofs.«425279_j44762149159634_1_alg».proof.Proof.KI.Reg6
import proofs.«425279_j44762149159634_1_alg».proof.Proof.KI.Pieces6
import proofs.«425279_j44762149159634_1_alg».proof.Proof.KI.ValC6Pay
import proofs.«425279_j44762149159634_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (V : (c : Dev nD) → (b : Ref sig .tc) → Buf (Elt Ideal) ((c : Thread nD τ).loc b))

abbrev xM6 (c : Dev nD) : Spec.Mat 100000 128 := fun r k => V c (Pipeline.arrRef spec6 0) (ValueIdx.ix2 r k)

abbrev lab6 (c : Dev nD) : Fin 100000 → ℤ := fun r => (V c (Pipeline.arrRef spec6 1) (ValueIdx.ix2 r 0) : BitVec 32).toInt

abbrev fw1M6 (c : Dev nD) : Spec.Mat 128 128 := fun k j => V c (Pipeline.arrRef spec6 2) (ValueIdx.ix2 k j)

abbrev fb1R6 (c : Dev nD) : Fin 128 → EReal := fun j => V c (Pipeline.arrRef spec6 3) (ValueIdx.ix2 0 j)

abbrev fw2M6 (c : Dev nD) : Spec.Mat 128 64 := fun k j => V c (Pipeline.arrRef spec6 4) (ValueIdx.ix2 k j)

abbrev fb2R6 (c : Dev nD) : Fin 64 → EReal := fun j => V c (Pipeline.arrRef spec6 5) (ValueIdx.ix2 0 j)

theorem idx6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0 :=
  (by decide +kernel : ∀ t : Fin grid6.N, _)

abbrev xblk6 (c : Dev nD) (t : Fin cfg6.N) : Vec Ideal S5000x128 .f32 := iblk6 V c 0 t

abbrev lblk6 (c : Dev nD) (t : Fin cfg6.N) : Vec Ideal S5000x1 .i32 := iblk6 V c 1 t

abbrev w1blk6 (c : Dev nD) (t : Fin cfg6.N) : Vec Ideal S128x128 .f32 := iblk6 V c 2 t

abbrev b1blk6 (c : Dev nD) (t : Fin cfg6.N) : Vec Ideal S1x128 .f32 := iblk6 V c 3 t

abbrev w2blk6 (c : Dev nD) (t : Fin cfg6.N) : Vec Ideal S128x64 .f32 := iblk6 V c 4 t

abbrev b2blk6 (c : Dev nD) (t : Fin cfg6.N) : Vec Ideal S1x64 .f32 := iblk6 V c 5 t

theorem xblk6_apply (c : Dev nD) (t : Fin cfg6.N) (r : Fin 5000) (q : Fin 128) (h : 5000 * t.val + r.val < 100000) :
    xblk6 V c t (ix2 r q) = xM6 V c ⟨5000 * t.val + r.val, h⟩ q := by
  show ((cfg6.win 0).blk t).view.read (Elt Ideal) (V c (Pipeline.arrRef spec6 0)) (ix2 r q) = _
  rw [View.read_apply]
  show V c (Pipeline.arrRef spec6 0) _ = V c (Pipeline.arrRef spec6 0) _
  congr 1
  funext a; apply Fin.ext
  obtain ⟨e0, e1, -⟩ := idx6 t
  match a with
  | ⟨0, _⟩ => show win6_0.index t (0 : Fin 2) * 5000 + 1 * r.val = 5000 * t.val + r.val; rw [e0]; omega
  | ⟨1, _⟩ => show win6_0.index t (1 : Fin 2) * 128 + 1 * q.val = q.val; rw [e1]; omega

theorem lblk6_apply (c : Dev nD) (t : Fin cfg6.N) (r : Fin 5000) (h : 5000 * t.val + r.val < 100000) :
    (lblk6 V c t (ix2 r 0) : BitVec 32).toInt = lab6 V c ⟨5000 * t.val + r.val, h⟩ := by
  show (((cfg6.win 1).blk t).view.read (Elt Ideal) (V c (Pipeline.arrRef spec6 1)) (ix2 r 0) : BitVec 32).toInt = _
  rw [View.read_apply]
  show (V c (Pipeline.arrRef spec6 1) _ : BitVec 32).toInt = (V c (Pipeline.arrRef spec6 1) _ : BitVec 32).toInt
  congr 2
  funext a; apply Fin.ext
  obtain ⟨-, -, e0, e1, -⟩ := idx6 t
  match a with
  | ⟨0, _⟩ => show win6_1.index t (0 : Fin 2) * 5000 + 1 * r.val = 5000 * t.val + r.val; rw [e0]; omega
  | ⟨1, _⟩ => show win6_1.index t (1 : Fin 2) * 1 + 1 * 0 = 0; rw [e1]

theorem w1blk6_apply (c : Dev nD) (t : Fin cfg6.N) (k : Fin 128) (j : Fin 128) :
    w1blk6 V c t (ix2 k j) = fw1M6 V c k j := by
  show ((cfg6.win 2).blk t).view.read (Elt Ideal) (V c (Pipeline.arrRef spec6 2)) (ix2 k j) = _
  rw [View.read_apply]
  show V c (Pipeline.arrRef spec6 2) _ = V c (Pipeline.arrRef spec6 2) _
  congr 1
  funext a; apply Fin.ext
  obtain ⟨-, -, -, -, e0, e1, -⟩ := idx6 t
  match a with
  | ⟨0, _⟩ => show win6_2.index t (0 : Fin 2) * 128 + 1 * k.val = k.val; rw [e0]; omega
  | ⟨1, _⟩ => show win6_2.index t (1 : Fin 2) * 128 + 1 * j.val = j.val; rw [e1]; omega

theorem b1blk6_apply (c : Dev nD) (t : Fin cfg6.N) (j : Fin 128) :
    b1blk6 V c t (ix2 0 j) = fb1R6 V c j := by
  show ((cfg6.win 3).blk t).view.read (Elt Ideal) (V c (Pipeline.arrRef spec6 3)) (ix2 0 j) = _
  rw [View.read_apply]
  show V c (Pipeline.arrRef spec6 3) _ = V c (Pipeline.arrRef spec6 3) _
  congr 1
  funext a; apply Fin.ext
  obtain ⟨-, -, -, -, -, -, e0, e1, -⟩ := idx6 t
  match a with
  | ⟨0, _⟩ => show win6_3.index t (0 : Fin 2) * 1 + 1 * 0 = 0; rw [e0]
  | ⟨1, _⟩ => show win6_3.index t (1 : Fin 2) * 128 + 1 * j.val = j.val; rw [e1]; omega

theorem w2blk6_apply (c : Dev nD) (t : Fin cfg6.N) (k : Fin 128) (j : Fin 64) :
    w2blk6 V c t (ix2 k j) = fw2M6 V c k j := by
  show ((cfg6.win 4).blk t).view.read (Elt Ideal) (V c (Pipeline.arrRef spec6 4)) (ix2 k j) = _
  rw [View.read_apply]
  show V c (Pipeline.arrRef spec6 4) _ = V c (Pipeline.arrRef spec6 4) _
  congr 1
  funext a; apply Fin.ext
  obtain ⟨-, -, -, -, -, -, -, -, e0, e1, -⟩ := idx6 t
  match a with
  | ⟨0, _⟩ => show win6_4.index t (0 : Fin 2) * 128 + 1 * k.val = k.val; rw [e0]; omega
  | ⟨1, _⟩ => show win6_4.index t (1 : Fin 2) * 64 + 1 * j.val = j.val; rw [e1]; omega

theorem b2blk6_apply (c : Dev nD) (t : Fin cfg6.N) (j : Fin 64) :
    b2blk6 V c t (ix2 0 j) = fb2R6 V c j := by
  show ((cfg6.win 5).blk t).view.read (Elt Ideal) (V c (Pipeline.arrRef spec6 5)) (ix2 0 j) = _
  rw [View.read_apply]
  show V c (Pipeline.arrRef spec6 5) _ = V c (Pipeline.arrRef spec6 5) _
  congr 1
  funext a; apply Fin.ext
  obtain ⟨-, -, -, -, -, -, -, -, -, -, e0, e1, -⟩ := idx6 t
  match a with
  | ⟨0, _⟩ => show win6_5.index t (0 : Fin 2) * 1 + 1 * 0 = 0; rw [e0]
  | ⟨1, _⟩ => show win6_5.index t (1 : Fin 2) * 64 + 1 * j.val = j.val; rw [e1]; omega

def row6 (t r : ℕ) : Fin 100000 := ⟨(5000 * t + r) % 100000, Nat.mod_lt _ (by norm_num)⟩

theorem row6_val (t r : ℕ) (ht : t < 20) (hr : r < 5000) : (row6 t r).val = 5000 * t + r :=
  Nat.mod_eq_of_lt (by omega)

def tile6 (X : Spec.Mat 100000 128) (lab : Fin 100000 → ℤ) (t : ℕ) (g : Fin 1024) (j : Fin 128) : EReal :=
  ∑ r : Fin 5000, (if lab (row6 t r.val) = (g.val : ℤ) then (1 : EReal) else 0) * X (row6 t r.val) j

theorem point_apply (X : Spec.Mat 100000 128) (lab : Fin 100000 → ℤ) (t : ℕ)
    (x0 : Vec Ideal S5000x128 .f32) (x1 : Vec Ideal S5000x1 .i32) (acc : Vec Ideal S1024x128 .f32)
    (hx : ∀ (r : Fin 5000) (q : Fin 128), x0 (ix2 r q) = X (row6 t r.val) q)
    (hl : ∀ r : Fin 5000, (x1 (ix2 r 0) : BitVec 32).toInt = lab (row6 t r.val)) (g : Fin 1024) (j : Fin 128) :
    k6_pay2 (F := Ideal) x1 x0 acc (ix2 g j) = acc (ix2 g j) + tile6 X lab t g j := by
  rw [pay2_apply]
  refine congrArg (acc (ix2 g j) + ·) (Finset.sum_congr rfl fun r _ => ?_)
  rw [hx r j, hl r]

theorem sum_tile6 (X : Spec.Mat 100000 128) (lab : Fin 100000 → ℤ) (g : Fin 1024) (j : Fin 128) :
    ∑ t ∈ Finset.range 20, tile6 X lab t g j = (Spec.poolOneHot X lab : Spec.Mat 1024 128) g j := by
  rw [← Fin.sum_univ_eq_sum_range (fun t => tile6 X lab t g j) 20]
  exact Spec.sum_tiles (T := 20) (n := 5000) (fun R => (if lab R = (g.val : ℤ) then (1 : EReal) else 0) * X R j)
    (fun t r => row6 t.val r.val)
    (fun t r => by rw [row6_val t.val r.val t.isLt r.isLt]; ring)

theorem xblk6_row (c : Dev nD) (t : Fin cfg6.N) (r : Fin 5000) (q : Fin 128) :
    xblk6 V c t (ix2 r q) = xM6 V c (row6 t.val r.val) q := by
  have hN : t.val < 20 := lt_of_lt_of_eq t.isLt (show cfg6.N = 20 from N_6)
  have hr := r.isLt
  rw [xblk6_apply V c t r q (by omega)]
  exact congrArg (fun R => xM6 V c R q) (Fin.ext (row6_val t.val r.val hN hr).symm)
theorem lblk6_row (c : Dev nD) (t : Fin cfg6.N) (r : Fin 5000) :
    (lblk6 V c t (ix2 r 0) : BitVec 32).toInt = lab6 V c (row6 t.val r.val) := by
  have hN : t.val < 20 := lt_of_lt_of_eq t.isLt (show cfg6.N = 20 from N_6)
  have hr := r.isLt
  rw [lblk6_apply V c t r (by omega)]
  exact congrArg (lab6 V c) (Fin.ext (row6_val t.val r.val hN hr).symm)

theorem acc_eq (c : Dev nD) : ∀ (n : ℕ) (hn : n < cfg6.N) (g : Fin 1024) (j : Fin 128),
    ((outsAt6 V c n hn).2 : Vec Ideal S1024x128 .f32) (ix2 g j)
      = ∑ t ∈ Finset.range (n + 1), tile6 (xM6 V c) (lab6 V c) t g j
  | 0, hn, g, j => by
    rw [outsAt6_A V c ⟨0, hn⟩ rfl (show ¬(0 % 20 = 19) from by decide)]
    dsimp only [outs6_A]
    refine (congrFun (sout6_A_0_eq (F := Ideal) c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) (ms6_6 ⟨0, hn⟩) (hs6_6 ⟨0, hn⟩) scM6_0 (Memref.isWhole_whole cc6_scratch0) ((hcond6_0 ⟨0, hn⟩).mpr rfl) (fun h => (by decide : ¬(0 % 20 = 19)) ((hcond6_1 ⟨0, hn⟩).mp h)) (iblk6 V c 0 ⟨0, hn⟩) (iblk6 V c 1 ⟨0, hn⟩) (iblk6 V c 2 ⟨0, hn⟩) (iblk6 V c 3 ⟨0, hn⟩) (iblk6 V c 4 ⟨0, hn⟩) (iblk6 V c 5 ⟨0, hn⟩)) (ix2 g j)).trans ?_
    refine (point_apply (xM6 V c) (lab6 V c) 0 (xblk6 V c ⟨0, hn⟩) (lblk6 V c ⟨0, hn⟩) (k6_pay1 (F := Ideal))
      (xblk6_row V c ⟨0, hn⟩) (lblk6_row V c ⟨0, hn⟩) g j).trans ?_
    rw [pay1_apply, Finset.sum_range_one, zero_add]
  | n + 1, hn, g, j => by
    have hN : n + 1 < 20 := lt_of_lt_of_eq hn (show cfg6.N = 20 from N_6)
    have h0 : ¬(⟨n + 1, hn⟩ : Fin cfg6.N).val % 20 = 0 := by dsimp only; omega
    have step : ∀ prev : Vec Ideal S1024x128 .f32, prev (ix2 g j) = ∑ t ∈ Finset.range (n + 1), tile6 (xM6 V c) (lab6 V c) t g j →
        k6_pay2 (F := Ideal) (lblk6 V c ⟨n + 1, hn⟩) (xblk6 V c ⟨n + 1, hn⟩) prev (ix2 g j)
          = ∑ t ∈ Finset.range (n + 1 + 1), tile6 (xM6 V c) (lab6 V c) t g j := fun prev hp => by
      rw [point_apply (xM6 V c) (lab6 V c) (n + 1) (xblk6 V c ⟨n + 1, hn⟩) (lblk6 V c ⟨n + 1, hn⟩) prev
        (xblk6_row V c ⟨n + 1, hn⟩) (lblk6_row V c ⟨n + 1, hn⟩) g j, hp, Finset.sum_range_succ _ (n + 1)]
    by_cases h1 : (⟨n + 1, hn⟩ : Fin cfg6.N).val % 20 = 19
    · rw [outsAt6_C V c ⟨n + 1, hn⟩ h0 h1]
      dsimp only [outs6_C]
      refine (congrFun (sout6_C_0_eq (F := Ideal) c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) scM6_0 (Memref.isWhole_whole cc6_scratch0) (fun h => h0 ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (outsAt6 V c n (Nat.lt_of_succ_lt hn)).2) (ix2 g j)).trans ?_
      exact step _ (acc_eq c n (Nat.lt_of_succ_lt hn) g j)
    · rw [outsAt6_B V c ⟨n + 1, hn⟩ h0 h1]
      dsimp only [outs6_B]
      refine (congrFun (sout6_B_0_eq (F := Ideal) c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) scM6_0 (Memref.isWhole_whole cc6_scratch0) (fun h => h0 ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (outsAt6 V c n (Nat.lt_of_succ_lt hn)).2) (ix2 g j)).trans ?_
      exact step _ (acc_eq c n (Nat.lt_of_succ_lt hn) g j)

abbrev G6 (c : Dev nD) : S1024x64.Idx → EReal := fun i =>
  Spec.head (Spec.poolOneHot (xM6 V c) (lab6 V c) : Spec.Mat 1024 128) (fw1M6 V c) (fb1R6 V c) (fw2M6 V c) (fb2R6 V c) (i 0) (i 1)

theorem out_eq (c : Dev nD) (t : Fin cfg6.N) (h19 : t.val = 19) (g : Fin 1024) (o : Fin 64) :
    ((outsAt6 V c t.val t.isLt).1 : Vec Ideal S1024x64 .f32) (ix2 g o) = G6 V c (ix2 g o) := by
  have h0 : ¬t.val % 20 = 0 := by omega
  have h1 : t.val % 20 = 19 := by omega
  have hp : t.val - 1 < cfg6.N := Nat.lt_of_le_of_lt (Nat.sub_le _ _) t.isLt
  rw [outsAt6_C V c t h0 h1]
  dsimp only [outs6_C]
  refine (congrFun (out6_C_6_eq (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) scM6_0 (Memref.isWhole_whole cc6_scratch0) (fun h => h0 ((hcond6_0 t).mp h)) ((hcond6_1 t).mpr h1) (iblk6 V c 0 t) (iblk6 V c 1 t) (iblk6 V c 2 t) (iblk6 V c 3 t) (iblk6 V c 4 t) (iblk6 V c 5 t) (outsAt6 V c (t.val - 1) hp).2) (ix2 g o)).trans ?_
  refine (pay3_apply (k6_pay2 (F := Ideal) (lblk6 V c t) (xblk6 V c t) (outsAt6 V c (t.val - 1) hp).2) (w1blk6 V c t) (b1blk6 V c t)
    (w2blk6 V c t) (b2blk6 V c t) g o).trans ?_
  have e1 : (fun (g : Fin 1024) (j : Fin 128) => k6_pay2 (F := Ideal) (lblk6 V c t) (xblk6 V c t) (outsAt6 V c (t.val - 1) hp).2 (ix2 g j))
      = (Spec.poolOneHot (xM6 V c) (lab6 V c) : Spec.Mat 1024 128) := by
    funext g j
    rw [point_apply (xM6 V c) (lab6 V c) t.val (xblk6 V c t) (lblk6 V c t) (outsAt6 V c (t.val - 1) hp).2
      (xblk6_row V c t) (lblk6_row V c t) g j, acc_eq V c (t.val - 1) hp g j, ← sum_tile6]
    have e : t.val = t.val - 1 + 1 := by omega
    rw [show Finset.range 20 = Finset.range (t.val - 1 + 1 + 1) from by rw [← e, h19], Finset.sum_range_succ _ (t.val - 1 + 1), ← e]
  have e2 : (fun (k : Fin 128) (j : Fin 128) => w1blk6 V c t (ix2 k j)) = fw1M6 V c := funext fun k => funext fun j => w1blk6_apply V c t k j
  have e3 : (fun (j : Fin 128) => b1blk6 V c t (ix2 0 j)) = fb1R6 V c := funext fun j => b1blk6_apply V c t j
  have e4 : (fun (k : Fin 128) (j : Fin 64) => w2blk6 V c t (ix2 k j)) = fw2M6 V c := funext fun k => funext fun j => w2blk6_apply V c t k j
  have e5 : (fun (j : Fin 64) => b2blk6 V c t (ix2 0 j)) = fb2R6 V c := funext fun j => b2blk6_apply V c t j
  show Spec.head (fun (g : Fin 1024) (j : Fin 128) => k6_pay2 (F := Ideal) (lblk6 V c t) (xblk6 V c t) (outsAt6 V c (t.val - 1) hp).2 (ix2 g j))
      (fun (k : Fin 128) (j : Fin 128) => w1blk6 V c t (ix2 k j)) (fun (j : Fin 128) => b1blk6 V c t (ix2 0 j))
      (fun (k : Fin 128) (j : Fin 64) => w2blk6 V c t (ix2 k j)) (fun (j : Fin 64) => b2blk6 V c t (ix2 0 j)) g o = _
  rw [e1, e2, e3, e4, e5]

theorem flushed_eq6 (c : Dev nD) (t : Fin cfg6.N) (hf : (cfg6.win 6).flush t = true) :
    (dat6 (F := Ideal) V c).flushed 6 t = ((cfg6.win 6).blk t).view.read (Elt Ideal) (G6 V c) := by
  have hN : t.val < 20 := lt_of_lt_of_eq t.isLt (show cfg6.N = 20 from N_6)
  have h19 : t.val = 19 := by have := (flush6_6 t).mp hf; omega
  show (cfg6.win 6).cut (grid6.coords t) ((dat6 (F := Ideal) V c).after 6 t) = _
  rw [after6_6]
  funext y
  obtain ⟨g, o, rfl⟩ : ∃ (g : Fin 1024) (o : Fin 64), y = ix2 g o := ⟨y 0, y 1, eq_ix2 y⟩
  show ((outsAt6 V c t.val t.isLt).1 : Vec Ideal S1024x64 .f32) (ix2 g o) = G6 V c (((cfg6.win 6).blk t).view.emb (ix2 g o))
  have hemb : ((cfg6.win 6).blk t).view.emb (ix2 g o) = ix2 g o := by
    funext a; apply Fin.ext
    obtain ⟨-, -, -, -, -, -, -, -, -, -, -, -, e0, e1⟩ := idx6 t
    match a with
    | ⟨0, _⟩ => show win6_6.index t (0 : Fin 2) * 1024 + 1 * g.val = g.val; rw [e0]; omega
    | ⟨1, _⟩ => show win6_6.index t (1 : Fin 2) * 64 + 1 * o.val = o.val; rw [e1]; omega
  rw [hemb]
  exact out_eq V c t h19 g o

theorem mem_blk6 (t : Fin cfg6.N) (i : S1024x64.Idx) :
    i ∈ ((cfg6.win 6).blk t).view.set ↔ ∀ a : Fin 2, win6_6.index t a * S1024x64.size a ≤ (i a).val ∧ (i a).val < win6_6.index t a * S1024x64.size a + S1024x64.size a := by
  show i ∈ ((View.whole main_v115).slice (win6_6.rect t)).set ↔ _
  rw [View.set_slice_whole, Rect.mem_set_unit]
  exact Iff.rfl

theorem final6 (c : Dev nD) : (dat6 (F := Ideal) V c).arrAt 6 cfg6.N = G6 V c :=
  (dat6 (F := Ideal) V c).arrAt_eq_of_cover 6 (G6 V c) (flushed_eq6 V c) fun i => by
    have h19 : 19 < cfg6.N := by rw [show cfg6.N = 20 from N_6]; decide
    refine ⟨⟨19, h19⟩, (flush6_6 ⟨19, h19⟩).mpr rfl, (mem_blk6 ⟨19, h19⟩ i).mpr ?_⟩
    obtain ⟨-, -, -, -, -, -, -, -, -, -, -, -, e0, e1⟩ := idx6 ⟨19, h19⟩
    have i0 : (i 0).val < 1024 := (i 0).isLt
    have i1 : (i 1).val < 64 := (i 1).isLt
    intro a
    match a with
    | ⟨0, _⟩ =>
      show win6_6.index ⟨19, h19⟩ (0 : Fin 2) * 1024 ≤ (i 0).val ∧ (i 0).val < win6_6.index ⟨19, h19⟩ (0 : Fin 2) * 1024 + 1024
      rw [e0]; omega
    | ⟨1, _⟩ =>
      show win6_6.index ⟨19, h19⟩ (1 : Fin 2) * 64 ≤ (i 1).val ∧ (i 1).val < win6_6.index ⟨19, h19⟩ (1 : Fin 2) * 64 + 64
      rw [e1]; omega

theorem outArr6 (c : Dev nD) (g : Fin 1024) (o : Fin 64) :
    (dat6 (F := Ideal) V c).arrAt 6 cfg6.N (ValueIdx.ix2 g o)
      = Spec.head (Spec.poolOneHot (xM6 V c) (lab6 V c) : Spec.Mat 1024 128) (fw1M6 V c) (fb1R6 V c) (fw2M6 V c) (fb2R6 V c) g o :=
  congrFun (final6 V c) (ValueIdx.ix2 g o)

end Cert.KernelIdeal.HandV

end
-- ==== Proof.KI.HostRead.lean ====
import proofs.«425279_j44762149159634_1_alg».proof.Proof.KI.Host
import proofs.«425279_j44762149159634_1_alg».proof.Proof.Spec
import Idealize.ShloMosaic.Lib.Pipeline.Value
import Idealize.ShloMosaic.Lib.ValueIdx
import Idealize.ShloMosaic.Lib.IdealHost

set_option maxRecDepth 16384

noncomputable section

namespace Cert.KernelIdeal.HandV

open Cert.KernelIdeal Cert.KernelIdeal.Gen Cert.KernelIdeal.Hand
open Idealize.ShloMosaic Idealize.ShloMosaic.ValueIdx

local notation "𝔽[" S "]" => BufTy.Contents (Elt Ideal) (BufTy.mk S EltTy.f32)
local notation "𝕀[" S "]" => BufTy.Contents (Elt Ideal) (BufTy.mk S EltTy.i32)

abbrev N5 : EReal := ((100000 : ℝ) : EReal)

theorem ofBits_N5 : Ideal.ofBits .f32 0x47C35000#32 = N5 := by
  simp [Ideal.ofBits, Ideal.ieee, -EReal.coe_mul]; norm_num

theorem countRow_apply (i : S1x128.Idx) : (countRow (F := Ideal)) i = N5 := by
  unfold countRow
  rw [broadcastInDim_scalar_apply]
  exact ofBits_N5

theorem sliceStats_apply (c : Nat) (hc : c < 2) (stats : 𝔽[S2x128]) (h : S2x128.Slices ![c, 0] S1x128) (j : Fin 128) :
    extractStridedSlice S1x128 ![c, 0] stats h (ix2 0 j) = stats (ix2 ⟨c, hc⟩ j) :=
  extractStridedSlice_apply ![c, 0] stats h (ix2 0 j) (ix2 ⟨c, hc⟩ j) (fun a => match a with
    | ⟨0, _⟩ => by show c = c + 0; omega
    | ⟨1, _⟩ => by show j.val = 0 + j.val; omega)

theorem meanOf_apply (stats : 𝔽[S2x128]) (j : Fin 128) :
    meanOf stats (ix2 0 j) = Ideal.div (stats (ix2 0 j)) N5 := by
  show Ideal.div (extractStridedSlice S1x128 ![0, 0] stats slices_S2x128_S1x128_0_0 (ix2 0 j)) (countRow (F := Ideal) (ix2 0 j)) = _
  rw [sliceStats_apply 0 (by omega), countRow_apply]
  rfl

theorem varOf_apply (stats : 𝔽[S2x128]) (j : Fin 128) :
    varOf stats (ix2 0 j)
      = Ideal.div (stats (ix2 1 j)) N5 - Ideal.div (stats (ix2 0 j)) N5 * Ideal.div (stats (ix2 0 j)) N5 := by
  show Ideal.div (extractStridedSlice S1x128 ![1, 0] stats slices_S2x128_S1x128_1_0 (ix2 0 j)) (countRow (F := Ideal) (ix2 0 j))
      - meanOf stats (ix2 0 j) * meanOf stats (ix2 0 j) = _
  rw [sliceStats_apply 1 (by omega), countRow_apply, meanOf_apply]
  rfl

theorem sliceM_chain (c : Nat) (hc : c < 3) (W : 𝔽[S3x128x128]) (h : S3x128x128.Slices ![c, 0, 0] S1x128x128) (k j : Fin 128) :
    shapeCast S128x128 (extractStridedSlice S1x128x128 ![c, 0, 0] W h) shapeCasts_S1x128x128_S128x128 (ix2 k j)
      = W (ix3 ⟨c, hc⟩ k j) := by
  refine (shapeCast_apply _ _ (ix2 k j) (ix3 (0 : Fin 1) k j) (by
    rw [Shape.rowMajor_val_three, Shape.rowMajor_val_two]
    show (0 * 128 + k.val) * 128 + j.val = k.val * 128 + j.val
    omega)).trans ?_
  exact extractStridedSlice_apply ![c, 0, 0] W h (ix3 (0 : Fin 1) k j) (ix3 ⟨c, hc⟩ k j) (fun a => match a with
    | ⟨0, _⟩ => by show c = c + 0; omega
    | ⟨1, _⟩ => by show k.val = 0 + k.val; omega
    | ⟨2, _⟩ => by show j.val = 0 + j.val; omega)

theorem sliceM_apply (l : Fin 3) (W : 𝔽[S3x128x128]) (k j : Fin 128) : sliceM l W (ix2 k j) = W (ix3 l k j) := by
  match l with
  | 0 => exact sliceM_chain 0 (by omega) W _ k j
  | 1 => exact sliceM_chain 1 (by omega) W _ k j
  | 2 => exact sliceM_chain 2 (by omega) W _ k j

theorem sliceRow_chain (c : Nat) (hc : c < 3) (b : 𝔽[S3x128]) (h : S3x128.Slices ![c, 0] S1x128) (j : Fin 128) :
    shapeCast S1x128 (fun i => shapeCast S128 (extractStridedSlice S1x128 ![c, 0] b h) shapeCasts_S1x128_S128 i) shapeCasts_S128_S1x128 (ix2 0 j)
      = b (ix2 ⟨c, hc⟩ j) := by
  refine (shapeCast_apply _ _ (ix2 (0 : Fin 1) j) (ix1 j) (by
    rw [Shape.rowMajor_val_one, Shape.rowMajor_val_two]
    show j.val = 0 * 128 + j.val
    omega)).trans ?_
  refine (shapeCast_apply _ _ (ix1 j) (ix2 (0 : Fin 1) j) (by
    rw [Shape.rowMajor_val_two, Shape.rowMajor_val_one]
    show 0 * 128 + j.val = j.val
    omega)).trans ?_
  exact extractStridedSlice_apply ![c, 0] b h (ix2 (0 : Fin 1) j) (ix2 ⟨c, hc⟩ j) (fun a => match a with
    | ⟨0, _⟩ => by show c = c + 0; omega
    | ⟨1, _⟩ => by show j.val = 0 + j.val; omega)

theorem sliceRow_apply (l : Fin 3) (b : 𝔽[S3x128]) (j : Fin 128) : sliceRow l b (ix2 0 j) = b (ix2 l j) := by
  match l with
  | 0 => exact sliceRow_chain 0 (by omega) b _ j
  | 1 => exact sliceRow_chain 1 (by omega) b _ j
  | 2 => exact sliceRow_chain 2 (by omega) b _ j

theorem rowOf128_apply (v : 𝔽[S128]) (j : Fin 128) : rowOf128 v (ix2 0 j) = v (ix1 j) :=
  shapeCast_apply v shapeCasts_S128_S1x128 (ix2 (0 : Fin 1) j) (ix1 j) (by
    rw [Shape.rowMajor_val_one, Shape.rowMajor_val_two]
    show j.val = 0 * 128 + j.val
    omega)

theorem rowOf64_apply (v : 𝔽[S64]) (j : Fin 64) : rowOf64 v (ix2 0 j) = v (ix1 j) :=
  shapeCast_apply v shapeCasts_S64_S1x64 (ix2 (0 : Fin 1) j) (ix1 j) (by
    rw [Shape.rowMajor_val_one, Shape.rowMajor_val_two]
    show j.val = 0 * 64 + j.val
    omega)

theorem batchCol_apply (b : 𝕀[S100000]) (r : Fin 100000) : batchCol (F := Ideal) b (ix2 r 0) = b (ix1 r) :=
  shapeCast_apply b shapeCasts_S100000_S100000x1 (ix2 r (0 : Fin 1)) (ix1 r) (by
    rw [Shape.rowMajor_val_one, Shape.rowMajor_val_two]
    show r.val = r.val * 1 + 0
    omega)

end Cert.KernelIdeal.HandV

end
-- ==== Proof.RI.Stages.lean ====
import proofs.«425279_j44762149159634_1_alg».proof.Proof.Gen.ReferenceIdeal
import Idealize.ShloMosaic.Lib.StableHlo.Run

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option quotPrecheck false in
local notation "𝔽[" s "]" => (⟨s, .f32⟩ : BufTy).Contents (Elt F)
set_option quotPrecheck false in
local notation "𝕀[" s "]" => (⟨s, .i32⟩ : BufTy).Contents (Elt F)

def row0 (ei : 𝕀[S2x1600000]) : 𝕀[S1600000] :=
  shapeCast S1600000 (extractStridedSlice S1x1600000 ![0, 0] ei slices_S2x1600000_S1x1600000_0_0) shapeCasts_S1x1600000_S1600000

def row1 (ei : 𝕀[S2x1600000]) : 𝕀[S1600000] :=
  shapeCast S1600000 (extractStridedSlice S1x1600000 ![1, 0] ei slices_S2x1600000_S1x1600000_1_0) shapeCasts_S1x1600000_S1600000

def srcIdx (ei : 𝕀[S2x1600000]) : 𝕀[S1600000x1] :=
  broadcastInDim S1600000x1 ![0] bcast_S1600000_S1600000x1_0
    (select (cmpi .slt (row0 (F := F) ei) (broadcastInDim S1600000 ![] bcast_S_S1600000 (constantI S_ 32 0#32)))
      (addi (row0 (F := F) ei) (broadcastInDim S1600000 ![] bcast_S_S1600000 (constantI S_ 32 100000#32)))
      (row0 (F := F) ei))

def dstIdx (ei : 𝕀[S2x1600000]) : 𝕀[S1600000x1] :=
  broadcastInDim S1600000x1 ![0] bcast_S1600000_S1600000x1_0 (row1 (F := F) ei)

def agg (x : 𝔽[S100000x128]) (ei : 𝕀[S2x1600000]) : 𝔽[S100000x128] :=
  Host.scatterAdd scatter_S100000x128_S1600000x1_S1600000x128_1_0_0_1
    (broadcastInDim S100000x128 ![] bcast_S_S100000x128 (constant S_ .f32 0x00000000#32))
    (dstIdx (F := F) ei)
    (Host.gather gather_S100000x128_S1600000x1_S1600000x128_1_0_n_n_0_1_1128 x (srcIdx (F := F) ei))

def rowB (v : 𝔽[S128]) : 𝔽[S100000x128] :=
  broadcastInDim S100000x128 ![0, 1] bcast_S1x128_S100000x128_0_1 (broadcastInDim S1x128 ![1] bcast_S128_S1x128_1 v)

def lin (z : 𝔽[S100000x128]) (W : 𝔽[S128x128]) (b : 𝔽[S128]) : 𝔽[S100000x128] :=
  addf (Host.dotGeneral dot_S100000x128_S128x128_S100000x128_1_0_0_1_n_n none z W) (rowB b)

def mean (z : 𝔽[S100000x128]) : 𝔽[S128] :=
  Host.divf (Host.reduceAdd z (constant S_ .f32 0x00000000#32) reducesTo_S100000x128_S128_d0 h_S_)
    (broadcastInDim S128 ![] bcast_S_S128 (constant S_ .f32 0x47C35000#32))

def varDen : 𝔽[S_] :=
  subf (constant S_ .f32 0x47C35000#32) (sitofp .f32 (constantI S_ 32 0#32))

def var (z : 𝔽[S100000x128]) : 𝔽[S128] :=
  select (broadcastInDim S128 ![] bcast_S_S128 (cmpf .ogt (varDen (F := F)) (constant S_ .f32 0x00000000#32)))
    (Host.divf
      (Host.reduceAdd
        (mulf
          (subf z (broadcastInDim S100000x128 ![0, 1] bcast_S1x128_S100000x128_0_1
            (Host.divf
              (broadcastInDim S1x128 ![1] bcast_S128_S1x128_1
                (Host.reduceAdd z (constant S_ .f32 0x00000000#32) reducesTo_S100000x128_S128_d0 h_S_))
              (broadcastInDim S1x128 ![] bcast_S_S1x128 (constant S_ .f32 0x47C35000#32)))))
          (subf z (broadcastInDim S100000x128 ![0, 1] bcast_S1x128_S100000x128_0_1
            (Host.divf
              (broadcastInDim S1x128 ![1] bcast_S128_S1x128_1
                (Host.reduceAdd z (constant S_ .f32 0x00000000#32) reducesTo_S100000x128_S128_d0 h_S_))
              (broadcastInDim S1x128 ![] bcast_S_S1x128 (constant S_ .f32 0x47C35000#32))))))
        (constant S_ .f32 0x00000000#32) reducesTo_S100000x128_S128_d0 h_S_)
      (broadcastInDim S128 ![] bcast_S_S128 (varDen (F := F))))
    (broadcastInDim S128 ![] bcast_S_S128 (id (constant S_ .f32 0x7FC00000#32)))

def bn (z : 𝔽[S100000x128]) (g bt : 𝔽[S128]) : 𝔽[S100000x128] :=
  addf
    (mulf
      (mulf (subf z (rowB (mean z)))
        (rowB (Host.rsqrt (addf (var z) (broadcastInDim S128 ![] bcast_S_S128 (constant S_ .f32 0x3727C5AC#32))))))
      (rowB g))
    (rowB bt)

def relu (z : 𝔽[S100000x128]) : 𝔽[S100000x128] :=
  maximumf z (broadcastInDim S100000x128 ![] bcast_S_S100000x128 (constant S_ .f32 0x00000000#32))

def hidden (x : 𝔽[S100000x128]) (ei : 𝕀[S2x1600000]) (W1l : 𝔽[S128x128]) (b1l g bt : 𝔽[S128]) : 𝔽[S100000x128] :=
  relu (bn (lin (addf x (agg x ei)) W1l b1l) g bt)

def layer (x : 𝔽[S100000x128]) (ei : 𝕀[S2x1600000]) (W1l : 𝔽[S128x128]) (b1l g bt : 𝔽[S128])
    (W2l : 𝔽[S128x128]) (b2l : 𝔽[S128]) : 𝔽[S100000x128] :=
  relu (lin (hidden x ei W1l b1l g bt) W2l b2l)

def pool (x : 𝔽[S100000x128]) (batch : 𝕀[S100000]) : 𝔽[S1024x128] :=
  Host.scatterAdd scatter_S1024x128_S100000x1_S100000x128_1_0_0_1
    (broadcastInDim S1024x128 ![] bcast_S_S1024x128 (constant S_ .f32 0x00000000#32))
    (broadcastInDim S100000x1 ![0] bcast_S100000_S100000x1_0 batch)
    x

def head (g : 𝔽[S1024x128]) (fW1 : 𝔽[S128x128]) (fb1 : 𝔽[S128]) (fW2 : 𝔽[S128x64]) (fb2 : 𝔽[S64]) : 𝔽[S1024x64] :=
  addf
    (Host.dotGeneral dot_S1024x128_S128x64_S1024x64_1_0_0_1_n_n none
      (maximumf
        (addf (Host.dotGeneral dot_S1024x128_S128x128_S1024x128_1_0_0_1_n_n none g fW1)
          (broadcastInDim S1024x128 ![0, 1] bcast_S1x128_S1024x128_0_1 (broadcastInDim S1x128 ![1] bcast_S128_S1x128_1 fb1)))
        (broadcastInDim S1024x128 ![] bcast_S_S1024x128 (constant S_ .f32 0x00000000#32)))
      fW2)
    (broadcastInDim S1024x64 ![0, 1] bcast_S1x64_S1024x64_0_1 (broadcastInDim S1x64 ![1] bcast_S64_S1x64_1 fb2))

def parM (l : Fin 3) (W : 𝔽[S3x128x128]) : 𝔽[S128x128] :=
  match l with
  | 0 => shapeCast S128x128 (extractStridedSlice S1x128x128 ![0, 0, 0] W slices_S3x128x128_S1x128x128_0_0_0) shapeCasts_S1x128x128_S128x128
  | 1 => shapeCast S128x128 (extractStridedSlice S1x128x128 ![1, 0, 0] W slices_S3x128x128_S1x128x128_1_0_0) shapeCasts_S1x128x128_S128x128
  | 2 => shapeCast S128x128 (extractStridedSlice S1x128x128 ![2, 0, 0] W slices_S3x128x128_S1x128x128_2_0_0) shapeCasts_S1x128x128_S128x128

def parV (l : Fin 3) (b : 𝔽[S3x128]) : 𝔽[S128] :=
  match l with
  | 0 => shapeCast S128 (extractStridedSlice S1x128 ![0, 0] b slices_S3x128_S1x128_0_0) shapeCasts_S1x128_S128
  | 1 => shapeCast S128 (extractStridedSlice S1x128 ![1, 0] b slices_S3x128_S1x128_1_0) shapeCasts_S1x128_S128
  | 2 => shapeCast S128 (extractStridedSlice S1x128 ![2, 0] b slices_S3x128_S1x128_2_0) shapeCasts_S1x128_S128

def layerAt (l : Fin 3) (x : 𝔽[S100000x128]) (ei : 𝕀[S2x1600000]) (W1 : 𝔽[S3x128x128]) (b1 gamma beta : 𝔽[S3x128])
    (W2 : 𝔽[S3x128x128]) (b2 : 𝔽[S3x128]) : 𝔽[S100000x128] :=
  layer x ei (parM l W1) (parV l b1) (parV l gamma) (parV l beta) (parM l W2) (parV l b2)

def out (x : 𝔽[S100000x128]) (ei : 𝕀[S2x1600000]) (batch : 𝕀[S100000]) (W1 : 𝔽[S3x128x128]) (b1 gamma beta : 𝔽[S3x128])
    (W2 : 𝔽[S3x128x128]) (b2 : 𝔽[S3x128]) (fW1 : 𝔽[S128x128]) (fb1 : 𝔽[S128]) (fW2 : 𝔽[S128x64]) (fb2 : 𝔽[S64]) : 𝔽[S1024x64] :=
  head
    (pool
      (layerAt 2 (layerAt 1 (layerAt 0 x ei W1 b1 gamma beta W2 b2) ei W1 b1 gamma beta W2 b2) ei W1 b1 gamma beta W2 b2)
      batch)
    fW1 fb1 fW2 fb2

end Cert.ReferenceIdeal.Hand

end
-- ==== Proof.RI.Read.lean ====
import proofs.«425279_j44762149159634_1_alg».proof.Proof.RI.Stages
import proofs.«425279_j44762149159634_1_alg».proof.Proof.Spec
import Idealize.ShloMosaic.Lib.IdealHost
import Idealize.ShloMosaic.Lib.ValueIdx
import Idealize.ShloMosaic.Lib.Pipeline.Value
import Idealize.ShloMosaic.PureOps.Ideal.Laws
import Idealize.ShloMosaic.Lib.KernelVsHost
import Idealize.ShloMosaic.Lib.StackMember

set_option maxRecDepth 16384

noncomputable section

namespace Cert.ReferenceIdeal.HandV

open Cert.ReferenceIdeal Cert.ReferenceIdeal.Gen Cert.ReferenceIdeal.Hand Idealize.ShloMosaic Idealize.ShloMosaic.ValueIdx
open scoped BigOperators

set_option quotPrecheck false in
local notation "𝔽[" s "]" => (⟨s, .f32⟩ : BufTy).Contents (Elt Ideal)
set_option quotPrecheck false in
local notation "𝕀[" s "]" => (⟨s, .i32⟩ : BufTy).Contents (Elt Ideal)

abbrev N5 : EReal := ((100000 : ℝ) : EReal)

abbrev eps : EReal := Ideal.ofBits .f32 0x3727C5AC#32

abbrev mat {a b : ℕ} (x : (⟨⟨2, ![a, b]⟩, .f32⟩ : BufTy).Contents (Elt Ideal)) : Spec.Mat a b := fun r k => x (ix2 r k)

abbrev vec {a : ℕ} (v : (⟨⟨1, ![a]⟩, .f32⟩ : BufTy).Contents (Elt Ideal)) : Fin a → EReal := fun j => v (ix1 j)

abbrev zOf (x : 𝔽[S100000x128]) (ei : 𝕀[S2x1600000]) (W1l : 𝔽[S128x128]) (b1l : 𝔽[S128]) : Spec.Mat 100000 128 :=
  Spec.lin (fun r k => x (ix2 r k) + Hand.agg x ei (ix2 r k)) (mat W1l) (vec b1l)

theorem rows_apply {m n : ℕ} (h0 : (⟨1, ![n]⟩ : Shape).BroadcastsInDim ⟨2, ![1, n]⟩ ![1])
    (h1 : (⟨2, ![1, n]⟩ : Shape).BroadcastsInDim ⟨2, ![m, n]⟩ ![0, 1]) (v : (⟨1, ![n]⟩ : Shape).Idx → EReal)
    (r : Fin m) (t : Fin n) :
    broadcastInDim ⟨2, ![m, n]⟩ ![0, 1] h1 (broadcastInDim ⟨2, ![1, n]⟩ ![1] h0 v) (ix2 r t) = v (ix1 t) := by
  rw [broadcastInDim_oneRow_apply]
  refine broadcastInDim_apply ![1] h0 v (ix2 (0 : Fin 1) t) (ix1 t) ?_
  intro a
  match a with
  | ⟨0, _⟩ =>
    show t.val = if n = 1 then 0 else t.val
    split_ifs with hn
    · have := t.isLt; omega
    · rfl

theorem oneRow_apply {n : ℕ} (h0 : (⟨1, ![n]⟩ : Shape).BroadcastsInDim ⟨2, ![1, n]⟩ ![1])
    (v : (⟨1, ![n]⟩ : Shape).Idx → EReal) (t : Fin n) :
    broadcastInDim ⟨2, ![1, n]⟩ ![1] h0 v (ix2 (0 : Fin 1) t) = v (ix1 t) := by
  refine broadcastInDim_apply ![1] h0 v (ix2 (0 : Fin 1) t) (ix1 t) ?_
  intro a
  match a with
  | ⟨0, _⟩ =>
    show t.val = if n = 1 then 0 else t.val
    split_ifs with hn
    · have := t.isLt; omega
    · rfl

theorem rowB_apply (v : 𝔽[S128]) (p : Fin 100000) (q : Fin 128) : Hand.rowB v (ix2 p q) = v (ix1 q) :=
  rows_apply _ _ v p q

theorem dot_apply {m k n : ℕ} (d : DotDims ⟨2, ![m, k]⟩ ⟨2, ![k, n]⟩ ⟨2, ![m, n]⟩) (hd : d = DotDims.plain m k n)
    (A : FVec Ideal ⟨2, ![m, k]⟩ .f32) (B : FVec Ideal ⟨2, ![k, n]⟩ .f32) (a : Fin m) (b : Fin n) :
    Host.dotGeneral d none A B (ix2 a b) = ∑ c : Fin k, A (ix2 a c) * B (ix2 c b) := by
  subst hd
  exact StackMember.dotGeneral_plain_apply none A B a b

theorem colsum_apply {m n : ℕ} {u : Shape} (z : FVec Ideal ⟨2, ![m, n]⟩ .f32) (init : u.Idx → Ideal .f32)
    (h' : (⟨2, ![m, n]⟩ : Shape).ReducesTo [0] ⟨1, ![n]⟩) (hu : 0 < u.numel) (q : Fin n) :
    Host.reduceAdd z init h' hu (ix1 q) = init (Shape.Idx.first hu) + ∑ r : Fin m, z (ix2 r q) := by
  have h : (⟨2, ![m, n]⟩ : Shape).Reduces [0] ⟨1, ![n]⟩ := ⟨h'.1, Nat.one_pos, h'.2⟩
  show Ideal.hostReduceAdd h' z _ (ix1 q) = _
  rw [Ideal.hostReduceAdd_single h' h]
  refine congrArg (_ + ·) (Finset.sum_congr rfl fun k _ => ?_)
  refine congrArg z (funext fun a => Fin.ext ?_)
  match a with
  | ⟨0, _⟩ => rfl
  | ⟨1, _⟩ => rfl

theorem ofBits_N5 : Ideal.ofBits .f32 0x47C35000#32 = N5 := by
  simp [Ideal.ofBits, Ideal.ieee, -EReal.coe_mul]; norm_num

theorem colsum0_apply (z : 𝔽[S100000x128]) (q : Fin 128) :
    Host.reduceAdd (F := Ideal) z (constant S_ .f32 0x00000000#32) reducesTo_S100000x128_S128_d0 h_S_ (ix1 q)
      = ∑ r : Fin 100000, z (ix2 r q) := by
  rw [colsum_apply]
  show Ideal.ofBits .f32 0x00000000#32 + _ = _
  rw [Ideal.ofBits_zero_f32, zero_add]

theorem lin_apply (z : 𝔽[S100000x128]) (W : 𝔽[S128x128]) (b : 𝔽[S128]) (p : Fin 100000) (q : Fin 128) :
    Hand.lin z W b (ix2 p q) = Spec.lin (mat z) (mat W) (vec b) p q := by
  show Host.dotGeneral (F := Ideal) dot_S100000x128_S128x128_S100000x128_1_0_0_1_n_n none z W (ix2 p q)
      + Hand.rowB b (ix2 p q) = _
  rw [dot_apply dot_S100000x128_S128x128_S100000x128_1_0_0_1_n_n rfl, rowB_apply]
  rfl

theorem mean_apply (z : 𝔽[S100000x128]) (q : Fin 128) : Hand.mean z (ix1 q) = Spec.mean N5 (mat z) q := by
  show Ideal.div (Host.reduceAdd (F := Ideal) z (constant S_ .f32 0x00000000#32) reducesTo_S100000x128_S128_d0 h_S_ (ix1 q))
      (broadcastInDim S128 ![] bcast_S_S128 (constant (F := Ideal) S_ .f32 0x47C35000#32) (ix1 q)) = _
  rw [colsum0_apply, broadcastInDim_scalar_apply]
  show Ideal.div _ (Ideal.ofBits .f32 0x47C35000#32) = _
  rw [ofBits_N5]
  rfl

theorem varDen_apply : Hand.varDen (F := Ideal) ix0 = N5 := by
  show Ideal.ofBits .f32 0x47C35000#32 - (Scalar.sitofp .f32 0#32 : Ideal .f32) = N5
  rw [ofBits_N5, sitofp_zero]
  simp

theorem centred_apply (z : 𝔽[S100000x128]) (r : Fin 100000) (q : Fin 128) :
    subf z (broadcastInDim S100000x128 ![0, 1] bcast_S1x128_S100000x128_0_1
        (Host.divf
          (broadcastInDim S1x128 ![1] bcast_S128_S1x128_1
            (Host.reduceAdd (F := Ideal) z (constant S_ .f32 0x00000000#32) reducesTo_S100000x128_S128_d0 h_S_))
          (broadcastInDim S1x128 ![] bcast_S_S1x128 (constant (F := Ideal) S_ .f32 0x47C35000#32)))) (ix2 r q)
      = mat z r q - Spec.mean N5 (mat z) q := by
  rw [subf_apply, broadcastInDim_oneRow_apply, hostDivf_apply, oneRow_apply, colsum0_apply, broadcastInDim_scalar_apply]
  show _ - Ideal.div _ (Ideal.ofBits .f32 0x47C35000#32) = _
  rw [ofBits_N5]
  rfl

theorem var_apply (z : 𝔽[S100000x128]) (q : Fin 128) : Hand.var z (ix1 q) = Spec.varCentred N5 (mat z) q := by
  have hc : broadcastInDim S128 ![] bcast_S_S128
      (cmpf (F := Ideal) .ogt (Hand.varDen (F := Ideal)) (constant S_ .f32 0x00000000#32)) (ix1 q) = 1#1 := by
    rw [broadcastInDim_scalar_apply, cmpf_apply]
    show Ideal.cmp .ogt (Hand.varDen (F := Ideal) ix0) (Ideal.ofBits .f32 0x00000000#32) = 1#1
    rw [varDen_apply, Ideal.ofBits_zero_f32]
    have h : (0 : EReal) < N5 := by
      show ((0 : ℝ) : EReal) < ((100000 : ℝ) : EReal)
      exact_mod_cast (by norm_num : (0 : ℝ) < 100000)
    simp [Ideal.cmp, h]
  unfold Hand.var
  rw [select_apply, hc, select_one, hostDivf_apply, colsum0_apply, broadcastInDim_scalar_apply, varDen_apply]
  show Ideal.div (∑ r : Fin 100000, _) N5 = Ideal.div (∑ r : Fin 100000, _) N5
  refine congrArg (Ideal.div · N5) (Finset.sum_congr rfl fun r _ => ?_)
  rw [mulf_apply, centred_apply]

theorem relu_apply (z : 𝔽[S100000x128]) (p : Fin 100000) (q : Fin 128) : Hand.relu z (ix2 p q) = max (z (ix2 p q)) 0 := by
  unfold Hand.relu
  rw [maximumf_apply, broadcastInDim_scalar_apply]
  show max _ (Ideal.ofBits .f32 0x00000000#32) = _
  rw [Ideal.ofBits_zero_f32]

theorem bn_apply (z : 𝔽[S100000x128]) (g bt : 𝔽[S128]) (p : Fin 100000) (q : Fin 128) :
    Hand.bn z g bt (ix2 p q)
      = (z (ix2 p q) - Spec.mean N5 (mat z) q) * Ideal.rsqrt (Spec.varCentred N5 (mat z) q + eps) * vec g q + vec bt q := by
  unfold Hand.bn
  rw [addf_apply, mulf_apply, mulf_apply, subf_apply, rowB_apply, rowB_apply, rowB_apply, rowB_apply, mean_apply]
  show (_ - _) * Ideal.rsqrt (Hand.var z (ix1 q)
      + broadcastInDim S128 ![] bcast_S_S128 (constant (F := Ideal) S_ .f32 0x3727C5AC#32) (ix1 q)) * _ + _ = _
  rw [var_apply, broadcastInDim_scalar_apply]
  rfl

theorem zOf_eq (x : 𝔽[S100000x128]) (ei : 𝕀[S2x1600000]) (W1l : 𝔽[S128x128]) (b1l : 𝔽[S128]) :
    mat (Hand.lin (addf x (Hand.agg x ei)) W1l b1l) = zOf x ei W1l b1l := by
  funext r k
  exact lin_apply _ _ _ r k

theorem hidden_mat (x : 𝔽[S100000x128]) (ei : 𝕀[S2x1600000]) (W1l : 𝔽[S128x128]) (b1l g bt : 𝔽[S128]) :
    mat (Hand.hidden x ei W1l b1l g bt)
      = Spec.bnrelu (zOf x ei W1l b1l) (Spec.mean N5 (zOf x ei W1l b1l)) (Spec.varCentred N5 (zOf x ei W1l b1l))
          (vec g) (vec bt) eps := by
  funext r j
  show Hand.relu (Hand.bn (Hand.lin (addf x (Hand.agg x ei)) W1l b1l) g bt) (ix2 r j) = _
  rw [relu_apply, bn_apply, zOf_eq, lin_apply]
  rfl

theorem layer_apply (x : 𝔽[S100000x128]) (ei : 𝕀[S2x1600000]) (W1l : 𝔽[S128x128]) (b1l g bt : 𝔽[S128])
    (W2l : 𝔽[S128x128]) (b2l : 𝔽[S128]) (p : Fin 100000) (q : Fin 128) :
    Hand.layer x ei W1l b1l g bt W2l b2l (ix2 p q)
      = Spec.layerOut (zOf x ei W1l b1l) (Spec.mean N5 (zOf x ei W1l b1l)) (Spec.varCentred N5 (zOf x ei W1l b1l))
          (vec g) (vec bt) eps (mat W2l) (vec b2l) p q := by
  show Hand.relu (Hand.lin (Hand.hidden x ei W1l b1l g bt) W2l b2l) (ix2 p q) = _
  rw [relu_apply, lin_apply, hidden_mat]
  rfl

theorem sliceM_apply (c : ℕ) (hc : c < 3) (hs : S3x128x128.Slices ![c, 0, 0] S1x128x128) (W : 𝔽[S3x128x128])
    (k j : Fin 128) :
    shapeCast S128x128 (extractStridedSlice S1x128x128 ![c, 0, 0] W hs) shapeCasts_S1x128x128_S128x128 (ix2 k j)
      = W (ix3 (⟨c, hc⟩ : Fin 3) k j) := by
  rw [shapeCast_apply _ _ (ix2 k j) (ix3 (0 : Fin 1) k j) (by
    rw [Shape.rowMajor_val_three, Shape.rowMajor_val_two]
    show (0 * 128 + k.val) * 128 + j.val = k.val * 128 + j.val
    omega)]
  refine extractStridedSlice_apply ![c, 0, 0] W hs (ix3 (0 : Fin 1) k j) (ix3 (⟨c, hc⟩ : Fin 3) k j) (fun a => ?_)
  match a with
  | ⟨0, _⟩ => rfl
  | ⟨1, _⟩ => show k.val = 0 + k.val; omega
  | ⟨2, _⟩ => show j.val = 0 + j.val; omega

theorem sliceV_apply (c : ℕ) (hc : c < 3) (hs : S3x128.Slices ![c, 0] S1x128) (b : 𝔽[S3x128]) (j : Fin 128) :
    shapeCast S128 (extractStridedSlice S1x128 ![c, 0] b hs) shapeCasts_S1x128_S128 (ix1 j)
      = b (ix2 (⟨c, hc⟩ : Fin 3) j) := by
  rw [shapeCast_apply _ _ (ix1 j) (ix2 (0 : Fin 1) j) (by
    rw [Shape.rowMajor_val_two, Shape.rowMajor_val_one]
    show 0 * 128 + j.val = j.val
    omega)]
  refine extractStridedSlice_apply ![c, 0] b hs (ix2 (0 : Fin 1) j) (ix2 (⟨c, hc⟩ : Fin 3) j) (fun a => ?_)
  match a with
  | ⟨0, _⟩ => rfl
  | ⟨1, _⟩ => show j.val = 0 + j.val; omega

theorem parM_apply (l : Fin 3) (W : 𝔽[S3x128x128]) (k j : Fin 128) : Hand.parM l W (ix2 k j) = W (ix3 l k j) := by
  match l with
  | 0 => exact sliceM_apply 0 (by decide) _ W k j
  | 1 => exact sliceM_apply 1 (by decide) _ W k j
  | 2 => exact sliceM_apply 2 (by decide) _ W k j

theorem parV_apply (l : Fin 3) (b : 𝔽[S3x128]) (j : Fin 128) : Hand.parV l b (ix1 j) = b (ix2 l j) := by
  match l with
  | 0 => exact sliceV_apply 0 (by decide) _ b j
  | 1 => exact sliceV_apply 1 (by decide) _ b j
  | 2 => exact sliceV_apply 2 (by decide) _ b j

theorem head_apply (g : 𝔽[S1024x128]) (fW1 : 𝔽[S128x128]) (fb1 : 𝔽[S128]) (fW2 : 𝔽[S128x64]) (fb2 : 𝔽[S64])
    (p : Fin 1024) (o : Fin 64) :
    Hand.head g fW1 fb1 fW2 fb2 (ix2 p o) = Spec.head (mat g) (mat fW1) (vec fb1) (mat fW2) (vec fb2) p o := by
  unfold Hand.head
  rw [addf_apply, dot_apply dot_S1024x128_S128x64_S1024x64_1_0_0_1_n_n rfl, rows_apply]
  show (∑ c : Fin 128, _) + _ = (∑ c : Fin 128, _) + _
  refine congrArg (· + _) (Finset.sum_congr rfl fun c _ => ?_)
  rw [maximumf_apply, addf_apply, dot_apply dot_S1024x128_S128x128_S1024x128_1_0_0_1_n_n rfl, rows_apply,
    broadcastInDim_scalar_apply]
  show max _ (Ideal.ofBits .f32 0x00000000#32) * _ = _
  rw [Ideal.ofBits_zero_f32]
  rfl

theorem resultIdx?_eq_some_iff {s si u : Shape} (d : ScatterDims s si u) {w : ℕ} (j : u.Idx) (idx : IVec si w)
    (i : s.Idx) :
    d.resultIdx? j idx = some i ↔ ∀ a, d.start j idx a + (d.window j a : ℤ) = ((i a).val : ℤ) := by
  unfold ScatterDims.resultIdx?
  constructor
  · intro h a
    split at h
    · rename_i hall
      have hi := Option.some.inj h
      have ha := congrArg (fun f => (f a).val) hi
      simp only at ha
      have := (hall a).1
      omega
    · exact absurd h (by simp)
  · intro hall
    have h' : ∀ a, 0 ≤ d.start j idx a + (d.window j a : ℤ)
        ∧ d.start j idx a + (d.window j a : ℤ) < (s.size a : ℤ) := by
      intro a
      rw [hall a]
      have := (i a).isLt
      constructor <;> omega
    rw [dif_pos h']
    refine congrArg some (funext fun a => Fin.ext ?_)
    show (d.start j idx a + (d.window j a : ℤ)).toNat = (i a).val
    rw [hall a]
    simp

section RowScatter
variable {G n m : ℕ}

theorem rowScatter_pos0 (w : ScatterDims.WF ⟨2, ![G, m]⟩ ⟨2, ![n, 1]⟩ ⟨2, ![n, m]⟩ [1] [0] [0] 1)
    (idx : IVec ⟨2, ![n, 1]⟩ 32) (r : Fin n) (c : Fin m) :
    (⟨[1], [0], [0], 1, w⟩ : ScatterDims ⟨2, ![G, m]⟩ ⟨2, ![n, 1]⟩ ⟨2, ![n, m]⟩).start (ix2 r c) idx (0 : Fin 2)
      + ((⟨[1], [0], [0], 1, w⟩ : ScatterDims ⟨2, ![G, m]⟩ ⟨2, ![n, 1]⟩ ⟨2, ![n, m]⟩).window (ix2 r c) (0 : Fin 2) : ℤ)
      = (idx (ix2 r (0 : Fin 1))).toInt := by
  have hi : (⟨[1], [0], [0], 1, w⟩ : ScatterDims ⟨2, ![G, m]⟩ ⟨2, ![n, 1]⟩ ⟨2, ![n, m]⟩).siIdx (ix2 r c) ⟨0, Nat.zero_lt_one⟩
      = ix2 r (0 : Fin 1) := by
    funext b; apply Fin.ext
    match b with
    | ⟨0, _⟩ => simp [ScatterDims.siIdx, ScatterDims.siCoord]; rfl
    | ⟨1, _⟩ => simp [ScatterDims.siIdx]
  simp [ScatterDims.start, ScatterDims.window, Shape.kept]
  exact congrArg (fun v => (idx v).toInt) hi

theorem rowScatter_pos1 (w : ScatterDims.WF ⟨2, ![G, m]⟩ ⟨2, ![n, 1]⟩ ⟨2, ![n, m]⟩ [1] [0] [0] 1)
    (idx : IVec ⟨2, ![n, 1]⟩ 32) (r : Fin n) (c : Fin m) :
    (⟨[1], [0], [0], 1, w⟩ : ScatterDims ⟨2, ![G, m]⟩ ⟨2, ![n, 1]⟩ ⟨2, ![n, m]⟩).start (ix2 r c) idx (1 : Fin 2)
      + ((⟨[1], [0], [0], 1, w⟩ : ScatterDims ⟨2, ![G, m]⟩ ⟨2, ![n, 1]⟩ ⟨2, ![n, m]⟩).window (ix2 r c) (1 : Fin 2) : ℤ)
      = (c.val : ℤ) := by
  simp [ScatterDims.start, ScatterDims.window, Shape.kept]
  rfl

theorem rowScatter_resultIdx (d : ScatterDims ⟨2, ![G, m]⟩ ⟨2, ![n, 1]⟩ ⟨2, ![n, m]⟩)
    (w : ScatterDims.WF ⟨2, ![G, m]⟩ ⟨2, ![n, 1]⟩ ⟨2, ![n, m]⟩ [1] [0] [0] 1) (hd : d = ⟨[1], [0], [0], 1, w⟩)
    (idx : IVec ⟨2, ![n, 1]⟩ 32) (r : Fin n) (c : Fin m) (g : Fin G) (j : Fin m) (t : ℤ)
    (ht : (idx (ix2 r (0 : Fin 1))).toInt = t) :
    d.resultIdx? (ix2 r c) idx = some (ix2 g j) ↔ t = (g.val : ℤ) ∧ c = j := by
  subst hd
  subst ht
  rw [resultIdx?_eq_some_iff, Fin.forall_fin_two, rowScatter_pos0, rowScatter_pos1]
  show _ = (g.val : ℤ) ∧ (c.val : ℤ) = (j.val : ℤ) ↔ _
  constructor
  · rintro ⟨h0, h1⟩; exact ⟨h0, Fin.ext (by exact_mod_cast h1)⟩
  · rintro ⟨h0, rfl⟩; exact ⟨h0, rfl⟩

end RowScatter

theorem labelCol_apply (batch : 𝕀[S100000]) (r : Fin 100000) :
    broadcastInDim S100000x1 ![0] bcast_S100000_S100000x1_0 batch (ix2 r (0 : Fin 1)) = batch (ix1 r) := by
  refine broadcastInDim_apply ![0] bcast_S100000_S100000x1_0 batch (ix2 r (0 : Fin 1)) (ix1 r) ?_
  intro a
  match a with
  | ⟨0, _⟩ =>
    show r.val = if (100000 : ℕ) = 1 then 0 else r.val
    rw [if_neg (by decide)]

theorem pool_apply (x : 𝔽[S100000x128]) (batch : 𝕀[S100000]) (g : Fin 1024) (j : Fin 128) :
    Hand.pool x batch (ix2 g j)
      = (Spec.poolSeg (mat x) (fun r => (batch (ix1 r) : BitVec 32).toInt) : Spec.Mat 1024 128) g j := by
  unfold Hand.pool
  show Ideal.hostScatterAdd scatter_S1024x128_S100000x1_S100000x128_1_0_0_1 _ _ x (ix2 g j) = _
  unfold Ideal.hostScatterAdd
  rw [broadcastInDim_scalar_apply]
  show Ideal.ofBits .f32 0x00000000#32 + _ = _
  rw [Ideal.ofBits_zero_f32, zero_add]
  show _ = ∑ r ∈ Finset.univ.filter (fun r : Fin 100000 => (batch (ix1 r) : BitVec 32).toInt = ((g.val : ℕ) : ℤ)),
      x (ix2 r j)
  rw [Finset.sum_filter, Finset.sum_filter, sum_idx2]
  refine Finset.sum_congr rfl fun r _ => ?_
  have key : ∀ c : Fin 128,
      (scatter_S1024x128_S100000x1_S100000x128_1_0_0_1.resultIdx? (ix2 r c)
          (broadcastInDim S100000x1 ![0] bcast_S100000_S100000x1_0 batch) = some (ix2 g j))
        ↔ ((batch (ix1 r) : BitVec 32).toInt = (g.val : ℤ) ∧ c = j) :=
    fun c => rowScatter_resultIdx _ _ rfl _ r c g j _ (congrArg BitVec.toInt (labelCol_apply batch r))
  simp only [key]
  by_cases ht : (batch (ix1 r) : BitVec 32).toInt = (g.val : ℤ)
  · simp only [ht, true_and, if_true]
    rw [Finset.sum_ite_eq' Finset.univ j (fun c => x (ix2 r c))]
    simp
  · simp [ht]

end Cert.ReferenceIdeal.HandV

end
-- ==== Proof.RI.Read2.lean ====
import proofs.«425279_j44762149159634_1_alg».proof.Proof.RI.Stages
import proofs.«425279_j44762149159634_1_alg».proof.Proof.Spec
import Idealize.ShloMosaic.Lib.IdealHost
import Idealize.ShloMosaic.Lib.ValueIdx
import Idealize.ShloMosaic.PureOps.Ideal.Laws

set_option maxRecDepth 16384

noncomputable section

namespace Cert.ReferenceIdeal.HandV

open Cert.ReferenceIdeal Cert.ReferenceIdeal.Gen Cert.ReferenceIdeal.Hand Idealize.ShloMosaic Idealize.ShloMosaic.ValueIdx
open scoped BigOperators

set_option quotPrecheck false in
local notation "𝔽[" s "]" => (⟨s, .f32⟩ : BufTy).Contents (Elt Ideal)
set_option quotPrecheck false in
local notation "𝕀[" s "]" => (⟨s, .i32⟩ : BufTy).Contents (Elt Ideal)

theorem eps_pos : ∃ e : ℝ, 0 < e ∧ Ideal.ofBits .f32 0x3727C5AC#32 = (e : EReal) := by
  have h : Ideal.ofBits .f32 0x3727C5AC#32 = ((10995116 * (2 : ℝ) ^ (-40 : ℤ) : ℝ) : EReal) := by
    show Ideal.ieee 8 23 (0x3727C5AC#32) = _
    delta Ideal.ieee
    simp [-EReal.coe_mul]
  exact ⟨_, by positivity, h⟩

theorem isFin_entry {a b : ℕ} (x : (⟨2, ![a, b]⟩ : Shape).Idx → EReal) (hx : Spec.IsFinM (fun r k => x (ix2 r k)))
    (k : (⟨2, ![a, b]⟩ : Shape).Idx) : ∃ q : ℝ, x k = (q : EReal) := by
  have h := hx (k 0) (k 1)
  rw [eq_ix2 k]
  exact h

theorem scatterAdd_zero_isFin {s si u : Shape} {w : ℕ} (d : ScatterDims s si u) (x0 : FVec Ideal s .f32) (idx : IVec si w)
    (upd : FVec Ideal u .f32) (hx0 : ∀ i, x0 i = 0) (hupd : ∀ j, ∃ q : ℝ, upd j = (q : EReal)) (i : s.Idx) :
    ∃ q : ℝ, Host.scatterAdd d x0 idx upd i = (q : EReal) := by
  show ∃ q : ℝ, Ideal.hostScatterAdd d x0 idx upd i = (q : EReal)
  unfold Ideal.hostScatterAdd
  rw [hx0, zero_add]
  exact Spec.isFin_sum _ _ (fun j _ => hupd j)

theorem zeros_apply {T : Shape} (h : (⟨0, ![]⟩ : Shape).BroadcastsInDim T ![]) (i : T.Idx) :
    broadcastInDim T ![] h (constant (F := Ideal) ⟨0, ![]⟩ .f32 0x00000000#32) i = 0 := by
  rw [broadcastInDim_scalar_apply]
  exact Ideal.ofBits_zero_f32

theorem agg_isFin (x : 𝔽[S100000x128]) (ei : 𝕀[S2x1600000]) (hx : Spec.IsFinM (fun r k => x (ix2 r k))) :
    Spec.IsFinM (fun r k => Hand.agg x ei (ix2 r k)) :=
  fun r j => scatterAdd_zero_isFin scatter_S100000x128_S1600000x1_S1600000x128_1_0_0_1 _ _ _
    (fun i => zeros_apply _ i) (fun u => isFin_entry x hx _) (ix2 r j)

end Cert.ReferenceIdeal.HandV

end
-- ==== Proof.Bridge.Layer.lean ====
import proofs.«425279_j44762149159634_1_alg».proof.Proof.KI.Host
import proofs.«425279_j44762149159634_1_alg».proof.Proof.KI.HostRead
import proofs.«425279_j44762149159634_1_alg».proof.Proof.RI.Stages
import proofs.«425279_j44762149159634_1_alg».proof.Proof.RI.Read
import proofs.«425279_j44762149159634_1_alg».proof.Proof.RI.Read2
import proofs.«425279_j44762149159634_1_alg».proof.Proof.Spec
import Idealize.ShloMosaic.Lib.ValueIdx

noncomputable section

namespace Cert.Bridge

open Idealize.ShloMosaic Idealize.ShloMosaic.ValueIdx
open Cert.KernelIdeal.Hand
open scoped BigOperators

abbrev Arr (S : Shape) (e : EltTy) := (⟨S, e⟩ : BufTy).Contents (Elt Ideal)

abbrev SN : Shape := ⟨2, ![100000, 128]⟩
abbrev SW : Shape := ⟨2, ![128, 128]⟩
abbrev SW3 : Shape := ⟨3, ![3, 128, 128]⟩
abbrev SB3 : Shape := ⟨2, ![3, 128]⟩
abbrev SSt : Shape := ⟨2, ![2, 128]⟩
abbrev SE : Shape := ⟨2, ![2, 1600000]⟩

def AllReal {S : Shape} (a : S.Idx → EReal) : Prop := ∀ i, ∃ q : ℝ, a i = (q : EReal)

abbrev mat {a b : ℕ} (x : (⟨2, ![a, b]⟩ : Shape).Idx → EReal) : Spec.Mat a b := fun r k => x (ix2 r k)
abbrev row {a b : ℕ} (x : (⟨2, ![a + 1, b]⟩ : Shape).Idx → EReal) : Fin b → EReal := fun j => x (ix2 0 j)

abbrev N5 : EReal := ((100000 : ℝ) : EReal)
abbrev eps : EReal := Ideal.ofBits .f32 0x3727C5AC#32

theorem agg_eq (x : Arr SN .f32) (ei : Arr SE .i32) :
    aggOf (F := Ideal) x (v1Of (F := Ideal) ei) (v3Of (F := Ideal) ei) = Cert.ReferenceIdeal.Hand.agg (F := Ideal) x ei := by

  rfl

theorem layer_bridge (l : Fin 3) (xin : Arr SN .f32) (ei : Arr SE .i32)
    (W1 : Arr SW3 .f32) (B1 G BT : Arr SB3 .f32) (W2 : Arr SW3 .f32) (B2 : Arr SB3 .f32)
    (zArr : Arr SN .f32) (stArr : Arr SSt .f32) (xout : Arr SN .f32)
    (hz : ∀ p q, zArr (ix2 p q) = Spec.lin (fun r k => xin (ix2 r k) + aggOf (F := Ideal) xin (v1Of (F := Ideal) ei) (v3Of (F := Ideal) ei) (ix2 r k))
        (mat (sliceM (F := Ideal) l W1)) (row (sliceRow (F := Ideal) l B1)) p q)
    (hs0 : ∀ q, stArr (ix2 0 q) = Spec.colsum (mat zArr) q) (hs1 : ∀ q, stArr (ix2 1 q) = Spec.colsumsq (mat zArr) q)
    (hout : ∀ p q, xout (ix2 p q) = Spec.layerOut (mat zArr) (row (meanOf (F := Ideal) stArr)) (row (varOf (F := Ideal) stArr))
        (row (sliceRow (F := Ideal) l G)) (row (sliceRow (F := Ideal) l BT)) eps (mat (sliceM (F := Ideal) l W2)) (row (sliceRow (F := Ideal) l B2)) p q)
    (hx : Spec.IsFinM (mat xin)) (hW1 : AllReal W1) (hB1 : AllReal B1) (hG : AllReal G) (hBT : AllReal BT) (hW2 : AllReal W2) (hB2 : AllReal B2) :
    xout = Cert.ReferenceIdeal.Hand.layerAt (F := Ideal) l xin ei W1 B1 G BT W2 B2 ∧ Spec.IsFinM (mat xout) := by

  have hM : ∀ W : Arr SW3 .f32, mat (sliceM (F := Ideal) l W) = Cert.ReferenceIdeal.HandV.mat (Cert.ReferenceIdeal.Hand.parM (F := Ideal) l W) := fun W => by
    funext k j
    exact (Cert.KernelIdeal.HandV.sliceM_apply l W k j).trans (Cert.ReferenceIdeal.HandV.parM_apply l W k j).symm
  have hV : ∀ b : Arr SB3 .f32, row (sliceRow (F := Ideal) l b) = Cert.ReferenceIdeal.HandV.vec (Cert.ReferenceIdeal.Hand.parV (F := Ideal) l b) := fun b => by
    funext j
    exact (Cert.KernelIdeal.HandV.sliceRow_apply l b j).trans (Cert.ReferenceIdeal.HandV.parV_apply l b j).symm
  have hMfin : ∀ W : Arr SW3 .f32, AllReal W → Spec.IsFinM (Cert.ReferenceIdeal.HandV.mat (Cert.ReferenceIdeal.Hand.parM (F := Ideal) l W)) :=
    fun W hW k j => by
      obtain ⟨q, hq⟩ := hW (ix3 l k j)
      exact ⟨q, (Cert.ReferenceIdeal.HandV.parM_apply l W k j).trans hq⟩
  have hVfin : ∀ b : Arr SB3 .f32, AllReal b → Spec.IsFin (Cert.ReferenceIdeal.HandV.vec (Cert.ReferenceIdeal.Hand.parV (F := Ideal) l b)) :=
    fun b hb j => by
      obtain ⟨q, hq⟩ := hb (ix2 l j)
      exact ⟨q, (Cert.ReferenceIdeal.HandV.parV_apply l b j).trans hq⟩

  have hZ : mat zArr = Cert.ReferenceIdeal.HandV.zOf xin ei (Cert.ReferenceIdeal.Hand.parM (F := Ideal) l W1) (Cert.ReferenceIdeal.Hand.parV (F := Ideal) l B1) := by
    funext p q
    show zArr (ix2 p q) = _
    rw [hz p q, agg_eq, hM, hV]

  have hZfin : Spec.IsFinM (mat zArr) := by
    rw [hZ]
    exact Spec.isFinM_lin _ _ _ (Spec.isFinM_add _ _ hx (Cert.ReferenceIdeal.HandV.agg_isFin xin ei hx)) (hMfin W1 hW1) (hVfin B1 hB1)
  have hN : (((100000 : ℕ) : ℝ) : EReal) = N5 := by norm_num
  have hn : (100000 : ℕ) ≠ 0 := by norm_num

  have hmu : row (meanOf (F := Ideal) stArr) = Spec.mean N5 (mat zArr) := by
    funext j
    show meanOf (F := Ideal) stArr (ix2 0 j) = Ideal.div (Spec.colsum (mat zArr) j) N5
    rw [Cert.KernelIdeal.HandV.meanOf_apply, hs0]
  have hvs : row (varOf (F := Ideal) stArr) = Spec.varSums N5 (mat zArr) := by
    funext j
    show varOf (F := Ideal) stArr (ix2 0 j)
      = Ideal.div (Spec.colsumsq (mat zArr) j) N5 - Ideal.div (Spec.colsum (mat zArr) j) N5 * Ideal.div (Spec.colsum (mat zArr) j) N5
    rw [Cert.KernelIdeal.HandV.varOf_apply, hs0, hs1]

  have hvar : Spec.varSums N5 (mat zArr) = Spec.varCentred N5 (mat zArr) := by
    have h := Spec.var_eq hn (mat zArr) hZfin
    rwa [hN] at h

  have hmat : mat xout = Spec.layerOut (mat zArr) (Spec.mean N5 (mat zArr)) (Spec.varCentred N5 (mat zArr))
      (Cert.ReferenceIdeal.HandV.vec (Cert.ReferenceIdeal.Hand.parV (F := Ideal) l G)) (Cert.ReferenceIdeal.HandV.vec (Cert.ReferenceIdeal.Hand.parV (F := Ideal) l BT)) eps
      (Cert.ReferenceIdeal.HandV.mat (Cert.ReferenceIdeal.Hand.parM (F := Ideal) l W2)) (Cert.ReferenceIdeal.HandV.vec (Cert.ReferenceIdeal.Hand.parV (F := Ideal) l B2)) := by
    funext p q
    show xout (ix2 p q) = _
    rw [hout p q, hmu, hvs, hvar, hM W2, hV G, hV BT, hV B2]
  refine ⟨?_, ?_⟩
  · funext i
    obtain ⟨p, q, rfl⟩ : ∃ p q, i = ix2 p q := ⟨i 0, i 1, eq_ix2 i⟩
    have h := congrFun (congrFun hmat p) q
    rw [hZ] at h
    exact h.trans (Cert.ReferenceIdeal.HandV.layer_apply xin ei _ _ _ _ _ _ p q).symm
  · rw [hmat]
    refine Spec.isFinM_layerOut _ _ _ _ _ _ _ _ hZfin ?_ ?_ (hVfin G hG) (hVfin BT hBT) Cert.ReferenceIdeal.HandV.eps_pos (hMfin W2 hW2) (hVfin B2 hB2)
    · have h := Spec.isFin_mean hn (mat zArr) hZfin
      rwa [hN] at h
    · intro j
      have h := Spec.varCentred_real hn (mat zArr) hZfin j
      rwa [hN] at h

theorem pool_head_bridge (x : Arr SN .f32) (batch : Arr ⟨1, ![100000]⟩ .i32) (fW1 : Arr SW .f32) (fb1 : Arr ⟨1, ![128]⟩ .f32)
    (fW2 : Arr ⟨2, ![128, 64]⟩ .f32) (fb2 : Arr ⟨1, ![64]⟩ .f32) (res : Arr ⟨2, ![1024, 64]⟩ .f32)
    (hres : ∀ g o, res (ix2 g o) = Spec.head (Spec.poolOneHot (mat x) (fun r => (batchCol (F := Ideal) batch (ix2 r 0) : BitVec 32).toInt) : Spec.Mat 1024 128)
        (mat fW1) (row (rowOf128 (F := Ideal) fb1)) (mat fW2) (row (rowOf64 (F := Ideal) fb2)) g o) :
    res = Cert.ReferenceIdeal.Hand.head (F := Ideal) (Cert.ReferenceIdeal.Hand.pool (F := Ideal) x batch) fW1 fb1 fW2 fb2 := by

  have hp : (Spec.poolOneHot (mat x) (fun r => (batchCol (F := Ideal) batch (ix2 r 0) : BitVec 32).toInt) : Spec.Mat 1024 128)
      = Cert.ReferenceIdeal.HandV.mat (Cert.ReferenceIdeal.Hand.pool (F := Ideal) x batch) := by
    rw [Spec.pool_eq]
    funext g j
    refine Eq.trans ?_ (Cert.ReferenceIdeal.HandV.pool_apply x batch g j).symm
    simp only [Cert.KernelIdeal.HandV.batchCol_apply]
  have h1 : row (rowOf128 (F := Ideal) fb1) = Cert.ReferenceIdeal.HandV.vec fb1 := funext fun j => Cert.KernelIdeal.HandV.rowOf128_apply fb1 j
  have h2 : row (rowOf64 (F := Ideal) fb2) = Cert.ReferenceIdeal.HandV.vec fb2 := funext fun j => Cert.KernelIdeal.HandV.rowOf64_apply fb2 j
  funext i
  obtain ⟨g, o, rfl⟩ : ∃ g o, i = ix2 g o := ⟨i 0, i 1, eq_ix2 i⟩
  rw [hres g o, hp, h1, h2]
  exact (Cert.ReferenceIdeal.HandV.head_apply _ fW1 fb1 fW2 fb2 g o).symm

end Cert.Bridge

end
-- ==== Proof.KI.Result.lean ====
import proofs.«425279_j44762149159634_1_alg».proof.Proof.KI.Chain
import proofs.«425279_j44762149159634_1_alg».proof.Proof.KI.ValA0
import proofs.«425279_j44762149159634_1_alg».proof.Proof.KI.ValA2
import proofs.«425279_j44762149159634_1_alg».proof.Proof.KI.ValA4
import proofs.«425279_j44762149159634_1_alg».proof.Proof.KI.ValB1
import proofs.«425279_j44762149159634_1_alg».proof.Proof.KI.ValB3
import proofs.«425279_j44762149159634_1_alg».proof.Proof.KI.ValB5
import proofs.«425279_j44762149159634_1_alg».proof.Proof.KI.ValC6
import proofs.«425279_j44762149159634_1_alg».proof.Proof.Bridge.Layer

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx
open Idealize.SL.Sem

variable (m : (ℓ : Loc nD τ sig) → Buf (Elt Ideal) ℓ)

theorem hz0 (c : Dev nD) (p : Fin 100000) (q : Fin 128) :
    Bridge.mat (zOut0 m c) p q
      = Spec.lin (fun r k => Bridge.mat (xIn0 m c) r k + Bridge.mat (aggOf (F := Ideal) (xIn0 m c) (srcV m c) (dstV m c)) r k)
          (Bridge.mat (sliceM (F := Ideal) 0 (argAt m c main_arg3))) (Bridge.row (sliceRow (F := Ideal) 0 (argAt m c main_arg4))) p q := by
  have h := zArr0 (Rd1 m) c p q
  simp (config := { unfoldPartialApp := true }) only [zM0, xM0, aM0, wM0, bR0, in0_0 m c, in0_1 m c, in0_2 m c, in0_3 m c] at h
  exact h

theorem hzM0 (c : Dev nD) : zM0 (Rd1 m) c = Bridge.mat (zOut0 m c) :=
  funext fun r => funext fun k => (zArr0 (Rd1 m) c r k).symm

theorem hsum0 (c : Dev nD) (q : Fin 128) : Bridge.mat (stOut0 m c) 0 q = Spec.colsum (Bridge.mat (zOut0 m c)) q :=
  (statsArr0_sum (Rd1 m) c q).trans (congrArg (fun z => Spec.colsum z q) (hzM0 m c))

theorem hsumsq0 (c : Dev nD) (q : Fin 128) : Bridge.mat (stOut0 m c) 1 q = Spec.colsumsq (Bridge.mat (zOut0 m c)) q :=
  (statsArr0_sumsq (Rd1 m) c q).trans (congrArg (fun z => Spec.colsumsq z q) (hzM0 m c))

theorem hout0 (c : Dev nD) (p : Fin 100000) (q : Fin 128) :
    Bridge.mat (xOut0 m c) p q
      = Spec.layerOut (Bridge.mat (zOut0 m c)) (Bridge.row (meanOf (F := Ideal) (stOut0 m c))) (Bridge.row (varOf (F := Ideal) (stOut0 m c)))
          (Bridge.row (sliceRow (F := Ideal) 0 (argAt m c main_arg5))) (Bridge.row (sliceRow (F := Ideal) 0 (argAt m c main_arg6))) Bridge.eps
          (Bridge.mat (sliceM (F := Ideal) 0 (argAt m c main_arg7))) (Bridge.row (sliceRow (F := Ideal) 0 (argAt m c main_arg8))) p q := by
  have h := outArr1 (Rd3 m) c p q
  simp (config := { unfoldPartialApp := true }) only [zM1, muR1, varR1, gR1, btR1, w2M1, b2R1, in1_0 m c, in1_1 m c, in1_2 m c, in1_3 m c, in1_4 m c, in1_5 m c, in1_6 m c] at h
  exact h

theorem layer0 (c : Dev nD) (hx : Spec.IsFinM (Bridge.mat (xIn0 m c)))
    (h3 : Bridge.AllReal (argAt m c main_arg3)) (h4 : Bridge.AllReal (argAt m c main_arg4)) (h5 : Bridge.AllReal (argAt m c main_arg5))
    (h6 : Bridge.AllReal (argAt m c main_arg6)) (h7 : Bridge.AllReal (argAt m c main_arg7)) (h8 : Bridge.AllReal (argAt m c main_arg8)) :
    xOut0 m c = Cert.ReferenceIdeal.Hand.layerAt (F := Ideal) 0 (xIn0 m c) (argAt m c main_arg1) (argAt m c main_arg3) (argAt m c main_arg4) (argAt m c main_arg5) (argAt m c main_arg6) (argAt m c main_arg7) (argAt m c main_arg8)
      ∧ Spec.IsFinM (Bridge.mat (xOut0 m c)) :=
  Bridge.layer_bridge 0 (xIn0 m c) (argAt m c main_arg1) (argAt m c main_arg3) (argAt m c main_arg4) (argAt m c main_arg5) (argAt m c main_arg6) (argAt m c main_arg7) (argAt m c main_arg8) (zOut0 m c) (stOut0 m c) (xOut0 m c)
    (fun p q => hz0 m c p q) (fun q => hsum0 m c q) (fun q => hsumsq0 m c q) (fun p q => hout0 m c p q)
    hx h3 h4 h5 h6 h7 h8

theorem hz1 (c : Dev nD) (p : Fin 100000) (q : Fin 128) :
    Bridge.mat (zOut1 m c) p q
      = Spec.lin (fun r k => Bridge.mat (xOut0 m c) r k + Bridge.mat (aggOf (F := Ideal) (xOut0 m c) (srcV m c) (dstV m c)) r k)
          (Bridge.mat (sliceM (F := Ideal) 1 (argAt m c main_arg3))) (Bridge.row (sliceRow (F := Ideal) 1 (argAt m c main_arg4))) p q := by
  have h := zArr2 (Rd5 m) c p q
  simp (config := { unfoldPartialApp := true }) only [zM2, xM2, aM2, wM2, bR2, in2_0 m c, in2_1 m c, in2_2 m c, in2_3 m c] at h
  exact h

theorem hzM1 (c : Dev nD) : zM2 (Rd5 m) c = Bridge.mat (zOut1 m c) :=
  funext fun r => funext fun k => (zArr2 (Rd5 m) c r k).symm

theorem hsum1 (c : Dev nD) (q : Fin 128) : Bridge.mat (stOut1 m c) 0 q = Spec.colsum (Bridge.mat (zOut1 m c)) q :=
  (statsArr2_sum (Rd5 m) c q).trans (congrArg (fun z => Spec.colsum z q) (hzM1 m c))

theorem hsumsq1 (c : Dev nD) (q : Fin 128) : Bridge.mat (stOut1 m c) 1 q = Spec.colsumsq (Bridge.mat (zOut1 m c)) q :=
  (statsArr2_sumsq (Rd5 m) c q).trans (congrArg (fun z => Spec.colsumsq z q) (hzM1 m c))

theorem hout1 (c : Dev nD) (p : Fin 100000) (q : Fin 128) :
    Bridge.mat (xOut1 m c) p q
      = Spec.layerOut (Bridge.mat (zOut1 m c)) (Bridge.row (meanOf (F := Ideal) (stOut1 m c))) (Bridge.row (varOf (F := Ideal) (stOut1 m c)))
          (Bridge.row (sliceRow (F := Ideal) 1 (argAt m c main_arg5))) (Bridge.row (sliceRow (F := Ideal) 1 (argAt m c main_arg6))) Bridge.eps
          (Bridge.mat (sliceM (F := Ideal) 1 (argAt m c main_arg7))) (Bridge.row (sliceRow (F := Ideal) 1 (argAt m c main_arg8))) p q := by
  have h := outArr3 (Rd7 m) c p q
  simp (config := { unfoldPartialApp := true }) only [zM3, muR3, varR3, gR3, btR3, w2M3, b2R3, in3_0 m c, in3_1 m c, in3_2 m c, in3_3 m c, in3_4 m c, in3_5 m c, in3_6 m c] at h
  exact h

theorem layer1 (c : Dev nD) (hx : Spec.IsFinM (Bridge.mat (xOut0 m c)))
    (h3 : Bridge.AllReal (argAt m c main_arg3)) (h4 : Bridge.AllReal (argAt m c main_arg4)) (h5 : Bridge.AllReal (argAt m c main_arg5))
    (h6 : Bridge.AllReal (argAt m c main_arg6)) (h7 : Bridge.AllReal (argAt m c main_arg7)) (h8 : Bridge.AllReal (argAt m c main_arg8)) :
    xOut1 m c = Cert.ReferenceIdeal.Hand.layerAt (F := Ideal) 1 (xOut0 m c) (argAt m c main_arg1) (argAt m c main_arg3) (argAt m c main_arg4) (argAt m c main_arg5) (argAt m c main_arg6) (argAt m c main_arg7) (argAt m c main_arg8)
      ∧ Spec.IsFinM (Bridge.mat (xOut1 m c)) :=
  Bridge.layer_bridge 1 (xOut0 m c) (argAt m c main_arg1) (argAt m c main_arg3) (argAt m c main_arg4) (argAt m c main_arg5) (argAt m c main_arg6) (argAt m c main_arg7) (argAt m c main_arg8) (zOut1 m c) (stOut1 m c) (xOut1 m c)
    (fun p q => hz1 m c p q) (fun q => hsum1 m c q) (fun q => hsumsq1 m c q) (fun p q => hout1 m c p q)
    hx h3 h4 h5 h6 h7 h8

theorem hz2 (c : Dev nD) (p : Fin 100000) (q : Fin 128) :
    Bridge.mat (zOut2 m c) p q
      = Spec.lin (fun r k => Bridge.mat (xOut1 m c) r k + Bridge.mat (aggOf (F := Ideal) (xOut1 m c) (srcV m c) (dstV m c)) r k)
          (Bridge.mat (sliceM (F := Ideal) 2 (argAt m c main_arg3))) (Bridge.row (sliceRow (F := Ideal) 2 (argAt m c main_arg4))) p q := by
  have h := zArr4 (Rd9 m) c p q
  simp (config := { unfoldPartialApp := true }) only [zM4, xM4, aM4, wM4, bR4, in4_0 m c, in4_1 m c, in4_2 m c, in4_3 m c] at h
  exact h

theorem hzM2 (c : Dev nD) : zM4 (Rd9 m) c = Bridge.mat (zOut2 m c) :=
  funext fun r => funext fun k => (zArr4 (Rd9 m) c r k).symm

theorem hsum2 (c : Dev nD) (q : Fin 128) : Bridge.mat (stOut2 m c) 0 q = Spec.colsum (Bridge.mat (zOut2 m c)) q :=
  (statsArr4_sum (Rd9 m) c q).trans (congrArg (fun z => Spec.colsum z q) (hzM2 m c))

theorem hsumsq2 (c : Dev nD) (q : Fin 128) : Bridge.mat (stOut2 m c) 1 q = Spec.colsumsq (Bridge.mat (zOut2 m c)) q :=
  (statsArr4_sumsq (Rd9 m) c q).trans (congrArg (fun z => Spec.colsumsq z q) (hzM2 m c))

theorem hout2 (c : Dev nD) (p : Fin 100000) (q : Fin 128) :
    Bridge.mat (xOut2 m c) p q
      = Spec.layerOut (Bridge.mat (zOut2 m c)) (Bridge.row (meanOf (F := Ideal) (stOut2 m c))) (Bridge.row (varOf (F := Ideal) (stOut2 m c)))
          (Bridge.row (sliceRow (F := Ideal) 2 (argAt m c main_arg5))) (Bridge.row (sliceRow (F := Ideal) 2 (argAt m c main_arg6))) Bridge.eps
          (Bridge.mat (sliceM (F := Ideal) 2 (argAt m c main_arg7))) (Bridge.row (sliceRow (F := Ideal) 2 (argAt m c main_arg8))) p q := by
  have h := outArr5 (Rd11 m) c p q
  simp (config := { unfoldPartialApp := true }) only [zM5, muR5, varR5, gR5, btR5, w2M5, b2R5, in5_0 m c, in5_1 m c, in5_2 m c, in5_3 m c, in5_4 m c, in5_5 m c, in5_6 m c] at h
  exact h

theorem layer2 (c : Dev nD) (hx : Spec.IsFinM (Bridge.mat (xOut1 m c)))
    (h3 : Bridge.AllReal (argAt m c main_arg3)) (h4 : Bridge.AllReal (argAt m c main_arg4)) (h5 : Bridge.AllReal (argAt m c main_arg5))
    (h6 : Bridge.AllReal (argAt m c main_arg6)) (h7 : Bridge.AllReal (argAt m c main_arg7)) (h8 : Bridge.AllReal (argAt m c main_arg8)) :
    xOut2 m c = Cert.ReferenceIdeal.Hand.layerAt (F := Ideal) 2 (xOut1 m c) (argAt m c main_arg1) (argAt m c main_arg3) (argAt m c main_arg4) (argAt m c main_arg5) (argAt m c main_arg6) (argAt m c main_arg7) (argAt m c main_arg8)
      ∧ Spec.IsFinM (Bridge.mat (xOut2 m c)) :=
  Bridge.layer_bridge 2 (xOut1 m c) (argAt m c main_arg1) (argAt m c main_arg3) (argAt m c main_arg4) (argAt m c main_arg5) (argAt m c main_arg6) (argAt m c main_arg7) (argAt m c main_arg8) (zOut2 m c) (stOut2 m c) (xOut2 m c)
    (fun p q => hz2 m c p q) (fun q => hsum2 m c q) (fun q => hsumsq2 m c q) (fun p q => hout2 m c p q)
    hx h3 h4 h5 h6 h7 h8

theorem hres6 (c : Dev nD) (g : Fin 1024) (o : Fin 64) :
    Bridge.mat ((dat6 (Rd13 m) c).arrAt 6 cfg6.N) g o
      = Spec.head (Spec.poolOneHot (Bridge.mat (xOut2 m c)) (fun r => (batchCol (F := Ideal) (argAt m c main_arg2) (ix2 r 0) : BitVec 32).toInt) : Spec.Mat 1024 128)
          (Bridge.mat (argAt m c main_arg9)) (Bridge.row (rowOf128 (F := Ideal) (argAt m c main_arg10))) (Bridge.mat (argAt m c main_arg11)) (Bridge.row (rowOf64 (F := Ideal) (argAt m c main_arg12))) g o := by
  have h := outArr6 (Rd13 m) c g o
  simp (config := { unfoldPartialApp := true }) only [xM6, lab6, fw1M6, fb1R6, fw2M6, fb2R6, in6_0 m c, in6_1 m c, in6_2 m c, in6_3 m c, in6_4 m c, in6_5 m c] at h
  exact h

theorem pool6 (c : Dev nD) :
    (dat6 (Rd13 m) c).arrAt 6 cfg6.N
      = Cert.ReferenceIdeal.Hand.head (F := Ideal) (Cert.ReferenceIdeal.Hand.pool (F := Ideal) (xOut2 m c) (argAt m c main_arg2)) (argAt m c main_arg9) (argAt m c main_arg10) (argAt m c main_arg11) (argAt m c main_arg12) :=
  Bridge.pool_head_bridge (xOut2 m c) (argAt m c main_arg2) (argAt m c main_arg9) (argAt m c main_arg10) (argAt m c main_arg11) (argAt m c main_arg12) ((dat6 (Rd13 m) c).arrAt 6 cfg6.N)
    (fun g o => hres6 m c g o)

theorem result_eq (c : Dev nD)
    (h0 : Bridge.AllReal (argAt m c main_arg0)) (h3 : Bridge.AllReal (argAt m c main_arg3)) (h4 : Bridge.AllReal (argAt m c main_arg4))
    (h5 : Bridge.AllReal (argAt m c main_arg5)) (h6 : Bridge.AllReal (argAt m c main_arg6)) (h7 : Bridge.AllReal (argAt m c main_arg7))
    (h8 : Bridge.AllReal (argAt m c main_arg8)) :
    (dat6 (Rd13 m) c).arrAt 6 cfg6.N
      = Cert.ReferenceIdeal.Hand.out (F := Ideal) (argAt m c main_arg0) (argAt m c main_arg1) (argAt m c main_arg2) (argAt m c main_arg3) (argAt m c main_arg4)
          (argAt m c main_arg5) (argAt m c main_arg6) (argAt m c main_arg7) (argAt m c main_arg8) (argAt m c main_arg9) (argAt m c main_arg10)
          (argAt m c main_arg11) (argAt m c main_arg12) := by

  have L0 := layer0 m c (fun r k => h0 (ix2 r k)) h3 h4 h5 h6 h7 h8
  have L1 := layer1 m c L0.2 h3 h4 h5 h6 h7 h8
  have L2 := layer2 m c L1.2 h3 h4 h5 h6 h7 h8
  rw [pool6 m c, L2.1, L1.1, L0.1]
  rfl

end Cert.KernelIdeal.HandV

end
-- ==== Proof.RI.Ops.lean ====
import proofs.«425279_j44762149159634_1_alg».proof.Proof.Gen.ReferenceIdeal
import Idealize.ShloMosaic.Lib.StableHlo.Run

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops_part0 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_c (constantI S_ 32 0#32),
    StableHlo.unary main_c main_v4 (broadcastInDim S1600000 ![] bcast_S_S1600000 : (⟨S_, .i32⟩ : BufTy).Contents (Elt F) → (⟨S1600000, .i32⟩ : BufTy).Contents (Elt F)),
    StableHlo.binary main_v1 main_v4 main_v5 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v6 (broadcastInDim S1600000 ![] bcast_S_S1600000 : (⟨S_, .i32⟩ : BufTy).Contents (Elt F) → (⟨S1600000, .i32⟩ : BufTy).Contents (Elt F)),
    StableHlo.binary main_v1 main_v6 main_v7 (addi : (⟨S1600000, .i32⟩ : BufTy).Contents (Elt F) → (⟨S1600000, .i32⟩ : BufTy).Contents (Elt F) → (⟨S1600000, .i32⟩ : BufTy).Contents (Elt F)),
    StableHlo.ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v8 main_v9 (broadcastInDim S1600000x1 ![0] bcast_S1600000_S1600000x1_0 : (⟨S1600000, .i32⟩ : BufTy).Contents (Elt F) → (⟨S1600000x1, .i32⟩ : BufTy).Contents (Elt F)),
    StableHlo.binary main_arg0 main_v9 main_v10 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst (constant S_ .f32 0x00000000#32),
    StableHlo.unary main_cst main_v11 (broadcastInDim S100000x128 ![] bcast_S_S100000x128 : (⟨S_, .f32⟩ : BufTy).Contents (Elt F) → (⟨S100000x128, .f32⟩ : BufTy).Contents (Elt F)),
    StableHlo.unary main_v3 main_v12 (broadcastInDim S1600000x1 ![0] bcast_S1600000_S1600000x1_0 : (⟨S1600000, .i32⟩ : BufTy).Contents (Elt F) → (⟨S1600000x1, .i32⟩ : BufTy).Contents (Elt F)),
    StableHlo.ternary main_v11 main_v12 main_v10 main_v13 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_arg0 main_v13 main_v14 (addf : (⟨S100000x128, .f32⟩ : BufTy).Contents (Elt F) → (⟨S100000x128, .f32⟩ : BufTy).Contents (Elt F) → (⟨S100000x128, .f32⟩ : BufTy).Contents (Elt F)),
    StableHlo.unary main_arg3 main_v15 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v15 main_v16 rfl shapeCasts_S1x128x128_S128x128,
    StableHlo.binary main_v14 main_v16 main_v17 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg4 main_v18 ((extractStridedSlice S1x128 ![0, 0] · slices_S3x128_S1x128_0_0) : (⟨S3x128, .f32⟩ : BufTy).Contents (Elt F) → (⟨S1x128, .f32⟩ : BufTy).Contents (Elt F)),
    StableHlo.reshape main_v18 main_v19 rfl shapeCasts_S1x128_S128,
    StableHlo.unary main_v19 main_v20 (broadcastInDim S1x128 ![1] bcast_S128_S1x128_1 : (⟨S128, .f32⟩ : BufTy).Contents (Elt F) → (⟨S1x128, .f32⟩ : BufTy).Contents (Elt F)),
    StableHlo.unary main_v20 main_v21 (broadcastInDim S100000x128 ![0, 1] bcast_S1x128_S100000x128_0_1 : (⟨S1x128, .f32⟩ : BufTy).Contents (Elt F) → (⟨S100000x128, .f32⟩ : BufTy).Contents (Elt F)),
    StableHlo.binary main_v17 main_v21 main_v22 (addf : (⟨S100000x128, .f32⟩ : BufTy).Contents (Elt F) → (⟨S100000x128, .f32⟩ : BufTy).Contents (Elt F) → (⟨S100000x128, .f32⟩ : BufTy).Contents (Elt F)),
    StableHlo.unary main_arg5 main_v23 ((extractStridedSlice S1x128 ![0, 0] · slices_S3x128_S1x128_0_0) : (⟨S3x128, .f32⟩ : BufTy).Contents (Elt F) → (⟨S1x128, .f32⟩ : BufTy).Contents (Elt F)),
    StableHlo.reshape main_v23 main_v24 rfl shapeCasts_S1x128_S128,
    StableHlo.unary main_arg6 main_v25 ((extractStridedSlice S1x128 ![0, 0] · slices_S3x128_S1x128_0_0) : (⟨S3x128, .f32⟩ : BufTy).Contents (Elt F) → (⟨S1x128, .f32⟩ : BufTy).Contents (Elt F)),
    StableHlo.reshape main_v25 main_v26 rfl shapeCasts_S1x128_S128,
    StableHlo.nullary main_cst_1 (constant S_ .f32 0x00000000#32),
    StableHlo.binary main_v22 main_cst_1 main_v27 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_2 (constant S_ .f32 0x47C35000#32),
    StableHlo.unary main_cst_2 main_v28 (broadcastInDim S128 ![] bcast_S_S128 : (⟨S_, .f32⟩ : BufTy).Contents (Elt F) → (⟨S128, .f32⟩ : BufTy).Contents (Elt F)),
    StableHlo.binary main_v27 main_v28 main_v29 (Host.divf : (⟨S128, .f32⟩ : BufTy).Contents (Elt F) → (⟨S128, .f32⟩ : BufTy).Contents (Elt F) → (⟨S128, .f32⟩ : BufTy).Contents (Elt F)),
    StableHlo.nullary main_c_3 (constantI S_ 32 0#32),
    StableHlo.TRef.nullary main_call0.cst (constant S_ .f32 0x00000000#32),
    StableHlo.TRef.binary (.of main_v22 : StableHlo.TRef sig ⟨S100000x128, .f32⟩) main_call0.cst main_call0.v0 (fun x v => Host.reduceAdd x v reducesTo_S100000x128_S128_d0 h_S_),
    StableHlo.TRef.unary main_call0.v0 main_call0.v1 (broadcastInDim S1x128 ![1] bcast_S128_S1x128_1),
    StableHlo.TRef.nullary main_call0.cst_0 (constant S_ .f32 0x47C35000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S100000x128 ![0, 1] bcast_S1x128_S100000x128_0_1),
    StableHlo.TRef.binary (.of main_v22 : StableHlo.TRef sig ⟨S100000x128, .f32⟩) main_call0.v4 main_call0.v5 subf,
    StableHlo.TRef.binary main_call0.v5 main_call0.v5 main_call0.v6 mulf,
    StableHlo.TRef.unary (.of main_c_3 : StableHlo.TRef sig ⟨S_, .i32⟩) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v29 main_v31 (broadcastInDim S1x128 ![1] bcast_S128_S1x128_1 : (⟨S128, .f32⟩ : BufTy).Contents (Elt F) → (⟨S1x128, .f32⟩ : BufTy).Contents (Elt F)),
    StableHlo.unary main_v31 main_v32 (broadcastInDim S100000x128 ![0, 1] bcast_S1x128_S100000x128_0_1 : (⟨S1x128, .f32⟩ : BufTy).Contents (Elt F) → (⟨S100000x128, .f32⟩ : BufTy).Contents (Elt F)),
    StableHlo.binary main_v22 main_v32 main_v33 (subf : (⟨S100000x128, .f32⟩ : BufTy).Contents (Elt F) → (⟨S100000x128, .f32⟩ : BufTy).Contents (Elt F) → (⟨S100000x128, .f32⟩ : BufTy).Contents (Elt F)),
    StableHlo.nullary main_cst_4 (constant S_ .f32 0x3727C5AC#32),
    StableHlo.unary main_cst_4 main_v34 (broadcastInDim S128 ![] bcast_S_S128 : (⟨S_, .f32⟩ : BufTy).Contents (Elt F) → (⟨S128, .f32⟩ : BufTy).Contents (Elt F)),
    StableHlo.binary main_v30 main_v34 main_v35 (addf : (⟨S128, .f32⟩ : BufTy).Contents (Elt F) → (⟨S128, .f32⟩ : BufTy).Contents (Elt F) → (⟨S128, .f32⟩ : BufTy).Contents (Elt F)),
    StableHlo.unary main_v35 main_v36 (Host.rsqrt : (⟨S128, .f32⟩ : BufTy).Contents (Elt F) → (⟨S128, .f32⟩ : BufTy).Contents (Elt F)),
    StableHlo.unary main_v36 main_v37 (broadcastInDim S1x128 ![1] bcast_S128_S1x128_1 : (⟨S128, .f32⟩ : BufTy).Contents (Elt F) → (⟨S1x128, .f32⟩ : BufTy).Contents (Elt F)),
    StableHlo.unary main_v37 main_v38 (broadcastInDim S100000x128 ![0, 1] bcast_S1x128_S100000x128_0_1 : (⟨S1x128, .f32⟩ : BufTy).Contents (Elt F) → (⟨S100000x128, .f32⟩ : BufTy).Contents (Elt F)),
    StableHlo.binary main_v33 main_v38 main_v39 (mulf : (⟨S100000x128, .f32⟩ : BufTy).Contents (Elt F) → (⟨S100000x128, .f32⟩ : BufTy).Contents (Elt F) → (⟨S100000x128, .f32⟩ : BufTy).Contents (Elt F)),
    StableHlo.unary main_v24 main_v40 (broadcastInDim S1x128 ![1] bcast_S128_S1x128_1 : (⟨S128, .f32⟩ : BufTy).Contents (Elt F) → (⟨S1x128, .f32⟩ : BufTy).Contents (Elt F)),
    StableHlo.unary main_v40 main_v41 (broadcastInDim S100000x128 ![0, 1] bcast_S1x128_S100000x128_0_1 : (⟨S1x128, .f32⟩ : BufTy).Contents (Elt F) → (⟨S100000x128, .f32⟩ : BufTy).Contents (Elt F)),
    StableHlo.binary main_v39 main_v41 main_v42 (mulf : (⟨S100000x128, .f32⟩ : BufTy).Contents (Elt F) → (⟨S100000x128, .f32⟩ : BufTy).Contents (Elt F) → (⟨S100000x128, .f32⟩ : BufTy).Contents (Elt F)),
    StableHlo.unary main_v26 main_v43 (broadcastInDim S1x128 ![1] bcast_S128_S1x128_1 : (⟨S128, .f32⟩ : BufTy).Contents (Elt F) → (⟨S1x128, .f32⟩ : BufTy).Contents (Elt F)),
    StableHlo.unary main_v43 main_v44 (broadcastInDim S100000x128 ![0, 1] bcast_S1x128_S100000x128_0_1 : (⟨S1x128, .f32⟩ : BufTy).Contents (Elt F) → (⟨S100000x128, .f32⟩ : BufTy).Contents (Elt F)),
    StableHlo.binary main_v42 main_v44 main_v45 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (.of main_v45 : StableHlo.TRef sig ⟨S100000x128, .f32⟩) main_call1.v0 main_call1.v1 maximumf,
    StableHlo.unary main_arg7 main_v47 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v47 main_v48 rfl shapeCasts_S1x128x128_S128x128,
    StableHlo.binary main_v46 main_v48 main_v49 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg8 main_v50 ((extractStridedSlice S1x128 ![0, 0] · slices_S3x128_S1x128_0_0) : (⟨S3x128, .f32⟩ : BufTy).Contents (Elt F) → (⟨S1x128, .f32⟩ : BufTy).Contents (Elt F)),
    StableHlo.reshape main_v50 main_v51 rfl shapeCasts_S1x128_S128,
    StableHlo.unary main_v51 main_v52 (broadcastInDim S1x128 ![1] bcast_S128_S1x128_1 : (⟨S128, .f32⟩ : BufTy).Contents (Elt F) → (⟨S1x128, .f32⟩ : BufTy).Contents (Elt F)) ]

abbrev ops_part0_W : List (Ref sig .tc) :=
  [main_v0, main_v1, main_v2, main_v3, main_c, main_v4, main_v5, main_c_0, main_v6, main_v7, main_v8, main_v9, main_v10, main_cst, main_v11, main_v12, main_v13, main_v14, main_v15, main_v16, main_v17, main_v18, main_v19, main_v20, main_v21, main_v22, main_v23, main_v24, main_v25, main_v26, main_cst_1, main_v27, main_cst_2, main_v28, main_v29, main_c_3, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v30, main_v31, main_v32, main_v33, main_cst_4, main_v34, main_v35, main_v36, main_v37, main_v38, main_v39, main_v40, main_v41, main_v42, main_v43, main_v44, main_v45, main_call1_cst, main_call1_v0, main_v46, main_v47, main_v48, main_v49, main_v50, main_v51, main_v52]

abbrev ops_part1 : List (HloOp τ sig (Elt F)) :=
  [ StableHlo.unary main_v52 main_v53 (broadcastInDim S100000x128 ![0, 1] bcast_S1x128_S100000x128_0_1 : (⟨S1x128, .f32⟩ : BufTy).Contents (Elt F) → (⟨S100000x128, .f32⟩ : BufTy).Contents (Elt F)),
    StableHlo.binary main_v49 main_v53 main_v54 (addf : (⟨S100000x128, .f32⟩ : BufTy).Contents (Elt F) → (⟨S100000x128, .f32⟩ : BufTy).Contents (Elt F) → (⟨S100000x128, .f32⟩ : BufTy).Contents (Elt F)),
    StableHlo.TRef.nullary main_call2.cst (constant S_ .f32 0x00000000#32),
    StableHlo.TRef.unary main_call2.cst main_call2.v0 (broadcastInDim S100000x128 ![] bcast_S_S100000x128),
    StableHlo.TRef.binary (.of main_v54 : StableHlo.TRef sig ⟨S100000x128, .f32⟩) main_call2.v0 main_call2.v1 maximumf,
    StableHlo.nullary main_c_5 (constantI S_ 32 0#32),
    StableHlo.unary main_c_5 main_v56 (broadcastInDim S1600000 ![] bcast_S_S1600000 : (⟨S_, .i32⟩ : BufTy).Contents (Elt F) → (⟨S1600000, .i32⟩ : BufTy).Contents (Elt F)),
    StableHlo.binary main_v1 main_v56 main_v57 (cmpi .slt : (⟨S1600000, .i32⟩ : BufTy).Contents (Elt F) → (⟨S1600000, .i32⟩ : BufTy).Contents (Elt F) → (⟨S1600000, .i1⟩ : BufTy).Contents (Elt F)),
    StableHlo.nullary main_c_6 (constantI S_ 32 100000#32),
    StableHlo.unary main_c_6 main_v58 (broadcastInDim S1600000 ![] bcast_S_S1600000 : (⟨S_, .i32⟩ : BufTy).Contents (Elt F) → (⟨S1600000, .i32⟩ : BufTy).Contents (Elt F)),
    StableHlo.binary main_v1 main_v58 main_v59 (addi : (⟨S1600000, .i32⟩ : BufTy).Contents (Elt F) → (⟨S1600000, .i32⟩ : BufTy).Contents (Elt F) → (⟨S1600000, .i32⟩ : BufTy).Contents (Elt F)),
    StableHlo.ternary main_v57 main_v59 main_v1 main_v60 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v60 main_v61 (broadcastInDim S1600000x1 ![0] bcast_S1600000_S1600000x1_0 : (⟨S1600000, .i32⟩ : BufTy).Contents (Elt F) → (⟨S1600000x1, .i32⟩ : BufTy).Contents (Elt F)),
    StableHlo.binary main_v55 main_v61 main_v62 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_7 (constant S_ .f32 0x00000000#32),
    StableHlo.unary main_cst_7 main_v63 (broadcastInDim S100000x128 ![] bcast_S_S100000x128 : (⟨S_, .f32⟩ : BufTy).Contents (Elt F) → (⟨S100000x128, .f32⟩ : BufTy).Contents (Elt F)),
    StableHlo.unary main_v3 main_v64 (broadcastInDim S1600000x1 ![0] bcast_S1600000_S1600000x1_0 : (⟨S1600000, .i32⟩ : BufTy).Contents (Elt F) → (⟨S1600000x1, .i32⟩ : BufTy).Contents (Elt F)),
    StableHlo.ternary main_v63 main_v64 main_v62 main_v65 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v55 main_v65 main_v66 (addf : (⟨S100000x128, .f32⟩ : BufTy).Contents (Elt F) → (⟨S100000x128, .f32⟩ : BufTy).Contents (Elt F) → (⟨S100000x128, .f32⟩ : BufTy).Contents (Elt F)),
    StableHlo.unary main_arg3 main_v67 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v67 main_v68 rfl shapeCasts_S1x128x128_S128x128,
    StableHlo.binary main_v66 main_v68 main_v69 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg4 main_v70 ((extractStridedSlice S1x128 ![1, 0] · slices_S3x128_S1x128_1_0) : (⟨S3x128, .f32⟩ : BufTy).Contents (Elt F) → (⟨S1x128, .f32⟩ : BufTy).Contents (Elt F)),
    StableHlo.reshape main_v70 main_v71 rfl shapeCasts_S1x128_S128,
    StableHlo.unary main_v71 main_v72 (broadcastInDim S1x128 ![1] bcast_S128_S1x128_1 : (⟨S128, .f32⟩ : BufTy).Contents (Elt F) → (⟨S1x128, .f32⟩ : BufTy).Contents (Elt F)),
    StableHlo.unary main_v72 main_v73 (broadcastInDim S100000x128 ![0, 1] bcast_S1x128_S100000x128_0_1 : (⟨S1x128, .f32⟩ : BufTy).Contents (Elt F) → (⟨S100000x128, .f32⟩ : BufTy).Contents (Elt F)),
    StableHlo.binary main_v69 main_v73 main_v74 (addf : (⟨S100000x128, .f32⟩ : BufTy).Contents (Elt F) → (⟨S100000x128, .f32⟩ : BufTy).Contents (Elt F) → (⟨S100000x128, .f32⟩ : BufTy).Contents (Elt F)),
    StableHlo.unary main_arg5 main_v75 ((extractStridedSlice S1x128 ![1, 0] · slices_S3x128_S1x128_1_0) : (⟨S3x128, .f32⟩ : BufTy).Contents (Elt F) → (⟨S1x128, .f32⟩ : BufTy).Contents (Elt F)),
    StableHlo.reshape main_v75 main_v76 rfl shapeCasts_S1x128_S128,
    StableHlo.unary main_arg6 main_v77 ((extractStridedSlice S1x128 ![1, 0] · slices_S3x128_S1x128_1_0) : (⟨S3x128, .f32⟩ : BufTy).Contents (Elt F) → (⟨S1x128, .f32⟩ : BufTy).Contents (Elt F)),
    StableHlo.reshape main_v77 main_v78 rfl shapeCasts_S1x128_S128,
    StableHlo.nullary main_cst_8 (constant S_ .f32 0x00000000#32),
    StableHlo.binary main_v74 main_cst_8 main_v79 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_9 (constant S_ .f32 0x47C35000#32),
    StableHlo.unary main_cst_9 main_v80 (broadcastInDim S128 ![] bcast_S_S128 : (⟨S_, .f32⟩ : BufTy).Contents (Elt F) → (⟨S128, .f32⟩ : BufTy).Contents (Elt F)),
    StableHlo.binary main_v79 main_v80 main_v81 (Host.divf : (⟨S128, .f32⟩ : BufTy).Contents (Elt F) → (⟨S128, .f32⟩ : BufTy).Contents (Elt F) → (⟨S128, .f32⟩ : BufTy).Contents (Elt F)),
    StableHlo.nullary main_c_10 (constantI S_ 32 0#32),
    StableHlo.TRef.nullary main_call3.cst (constant S_ .f32 0x00000000#32),
    StableHlo.TRef.binary (.of main_v74 : StableHlo.TRef sig ⟨S100000x128, .f32⟩) main_call3.cst main_call3.v0 (fun x v => Host.reduceAdd x v reducesTo_S100000x128_S128_d0 h_S_),
    StableHlo.TRef.unary main_call3.v0 main_call3.v1 (broadcastInDim S1x128 ![1] bcast_S128_S1x128_1),
    StableHlo.TRef.nullary main_call3.cst_0 (constant S_ .f32 0x47C35000#32),
    StableHlo.TRef.unary main_call3.cst_0 main_call3.v2 (broadcastInDim S1x128 ![] bcast_S_S1x128),
    StableHlo.TRef.binary main_call3.v1 main_call3.v2 main_call3.v3 Host.divf,
    StableHlo.TRef.unary main_call3.v3 main_call3.v4 (broadcastInDim S100000x128 ![0, 1] bcast_S1x128_S100000x128_0_1),
    StableHlo.TRef.binary (.of main_v74 : StableHlo.TRef sig ⟨S100000x128, .f32⟩) main_call3.v4 main_call3.v5 subf,
    StableHlo.TRef.binary main_call3.v5 main_call3.v5 main_call3.v6 mulf,
    StableHlo.TRef.unary (.of main_c_10 : StableHlo.TRef sig ⟨S_, .i32⟩) main_call3.v7 (sitofp .f32),
    StableHlo.TRef.nullary main_call3.cst_1 (constant S_ .f32 0x47C35000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S100000x128_S128_d0 h_S_),
    StableHlo.TRef.unary main_call3.v8 main_call3.v10 (broadcastInDim S128 ![] bcast_S_S128),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S128 ![] bcast_S_S128),
    StableHlo.TRef.ternary main_call3.v12 main_call3.v11 main_call3.call0.v1 main_call3.call0.v2 (fun p a b => select (broadcastInDim S128 ![] bcast_S_S128 p) a b),
    StableHlo.unary main_v81 main_v83 (broadcastInDim S1x128 ![1] bcast_S128_S1x128_1 : (⟨S128, .f32⟩ : BufTy).Contents (Elt F) → (⟨S1x128, .f32⟩ : BufTy).Contents (Elt F)),
    StableHlo.unary main_v83 main_v84 (broadcastInDim S100000x128 ![0, 1] bcast_S1x128_S100000x128_0_1 : (⟨S1x128, .f32⟩ : BufTy).Contents (Elt F) → (⟨S100000x128, .f32⟩ : BufTy).Contents (Elt F)),
    StableHlo.binary main_v74 main_v84 main_v85 (subf : (⟨S100000x128, .f32⟩ : BufTy).Contents (Elt F) → (⟨S100000x128, .f32⟩ : BufTy).Contents (Elt F) → (⟨S100000x128, .f32⟩ : BufTy).Contents (Elt F)),
    StableHlo.nullary main_cst_11 (constant S_ .f32 0x3727C5AC#32),
    StableHlo.unary main_cst_11 main_v86 (broadcastInDim S128 ![] bcast_S_S128 : (⟨S_, .f32⟩ : BufTy).Contents (Elt F) → (⟨S128, .f32⟩ : BufTy).Contents (Elt F)),
    StableHlo.binary main_v82 main_v86 main_v87 (addf : (⟨S128, .f32⟩ : BufTy).Contents (Elt F) → (⟨S128, .f32⟩ : BufTy).Contents (Elt F) → (⟨S128, .f32⟩ : BufTy).Contents (Elt F)),
    StableHlo.unary main_v87 main_v88 (Host.rsqrt : (⟨S128, .f32⟩ : BufTy).Contents (Elt F) → (⟨S128, .f32⟩ : BufTy).Contents (Elt F)),
    StableHlo.unary main_v88 main_v89 (broadcastInDim S1x128 ![1] bcast_S128_S1x128_1 : (⟨S128, .f32⟩ : BufTy).Contents (Elt F) → (⟨S1x128, .f32⟩ : BufTy).Contents (Elt F)),
    StableHlo.unary main_v89 main_v90 (broadcastInDim S100000x128 ![0, 1] bcast_S1x128_S100000x128_0_1 : (⟨S1x128, .f32⟩ : BufTy).Contents (Elt F) → (⟨S100000x128, .f32⟩ : BufTy).Contents (Elt F)),
    StableHlo.binary main_v85 main_v90 main_v91 (mulf : (⟨S100000x128, .f32⟩ : BufTy).Contents (Elt F) → (⟨S100000x128, .f32⟩ : BufTy).Contents (Elt F) → (⟨S100000x128, .f32⟩ : BufTy).Contents (Elt F)),
    StableHlo.unary main_v76 main_v92 (broadcastInDim S1x128 ![1] bcast_S128_S1x128_1 : (⟨S128, .f32⟩ : BufTy).Contents (Elt F) → (⟨S1x128, .f32⟩ : BufTy).Contents (Elt F)),
    StableHlo.unary main_v92 main_v93 (broadcastInDim S100000x128 ![0, 1] bcast_S1x128_S100000x128_0_1 : (⟨S1x128, .f32⟩ : BufTy).Contents (Elt F) → (⟨S100000x128, .f32⟩ : BufTy).Contents (Elt F)),
    StableHlo.binary main_v91 main_v93 main_v94 (mulf : (⟨S100000x128, .f32⟩ : BufTy).Contents (Elt F) → (⟨S100000x128, .f32⟩ : BufTy).Contents (Elt F) → (⟨S100000x128, .f32⟩ : BufTy).Contents (Elt F)),
    StableHlo.unary main_v78 main_v95 (broadcastInDim S1x128 ![1] bcast_S128_S1x128_1 : (⟨S128, .f32⟩ : BufTy).Contents (Elt F) → (⟨S1x128, .f32⟩ : BufTy).Contents (Elt F)),
    StableHlo.unary main_v95 main_v96 (broadcastInDim S100000x128 ![0, 1] bcast_S1x128_S100000x128_0_1 : (⟨S1x128, .f32⟩ : BufTy).Contents (Elt F) → (⟨S100000x128, .f32⟩ : BufTy).Contents (Elt F)),
    StableHlo.binary main_v94 main_v96 main_v97 (addf : (⟨S100000x128, .f32⟩ : BufTy).Contents (Elt F) → (⟨S100000x128, .f32⟩ : BufTy).Contents (Elt F) → (⟨S100000x128, .f32⟩ : BufTy).Contents (Elt F)),
    StableHlo.TRef.nullary main_call4.cst (constant S_ .f32 0x00000000#32),
    StableHlo.TRef.unary main_call4.cst main_call4.v0 (broadcastInDim S100000x128 ![] bcast_S_S100000x128),
    StableHlo.TRef.binary (.of main_v97 : StableHlo.TRef sig ⟨S100000x128, .f32⟩) main_call4.v0 main_call4.v1 maximumf,
    StableHlo.unary main_arg7 main_v99 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v99 main_v100 rfl shapeCasts_S1x128x128_S128x128,
    StableHlo.binary main_v98 main_v100 main_v101 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg8 main_v102 ((extractStridedSlice S1x128 ![1, 0] · slices_S3x128_S1x128_1_0) : (⟨S3x128, .f32⟩ : BufTy).Contents (Elt F) → (⟨S1x128, .f32⟩ : BufTy).Contents (Elt F)),
    StableHlo.reshape main_v102 main_v103 rfl shapeCasts_S1x128_S128,
    StableHlo.unary main_v103 main_v104 (broadcastInDim S1x128 ![1] bcast_S128_S1x128_1 : (⟨S128, .f32⟩ : BufTy).Contents (Elt F) → (⟨S1x128, .f32⟩ : BufTy).Contents (Elt F)),
    StableHlo.unary main_v104 main_v105 (broadcastInDim S100000x128 ![0, 1] bcast_S1x128_S100000x128_0_1 : (⟨S1x128, .f32⟩ : BufTy).Contents (Elt F) → (⟨S100000x128, .f32⟩ : BufTy).Contents (Elt F)) ]

abbrev ops_part1_W : List (Ref sig .tc) :=
  [main_v53, main_v54, main_call2_cst, main_call2_v0, main_v55, main_c_5, main_v56, main_v57, main_c_6, main_v58, main_v59, main_v60, main_v61, main_v62, main_cst_7, main_v63, main_v64, main_v65, main_v66, main_v67, main_v68, main_v69, main_v70, main_v71, main_v72, main_v73, main_v74, main_v75, main_v76, main_v77, main_v78, main_cst_8, main_v79, main_cst_9, main_v80, main_v81, main_c_10, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v82, main_v83, main_v84, main_v85, main_cst_11, main_v86, main_v87, main_v88, main_v89, main_v90, main_v91, main_v92, main_v93, main_v94, main_v95, main_v96, main_v97, main_call4_cst, main_call4_v0, main_v98, main_v99, main_v100, main_v101, main_v102, main_v103, main_v104, main_v105]

abbrev ops_part2 : List (HloOp τ sig (Elt F)) :=
  [ StableHlo.binary main_v101 main_v105 main_v106 (addf : (⟨S100000x128, .f32⟩ : BufTy).Contents (Elt F) → (⟨S100000x128, .f32⟩ : BufTy).Contents (Elt F) → (⟨S100000x128, .f32⟩ : BufTy).Contents (Elt F)),
    StableHlo.TRef.nullary main_call5.cst (constant S_ .f32 0x00000000#32),
    StableHlo.TRef.unary main_call5.cst main_call5.v0 (broadcastInDim S100000x128 ![] bcast_S_S100000x128),
    StableHlo.TRef.binary (.of main_v106 : StableHlo.TRef sig ⟨S100000x128, .f32⟩) main_call5.v0 main_call5.v1 maximumf,
    StableHlo.nullary main_c_12 (constantI S_ 32 0#32),
    StableHlo.unary main_c_12 main_v108 (broadcastInDim S1600000 ![] bcast_S_S1600000 : (⟨S_, .i32⟩ : BufTy).Contents (Elt F) → (⟨S1600000, .i32⟩ : BufTy).Contents (Elt F)),
    StableHlo.binary main_v1 main_v108 main_v109 (cmpi .slt : (⟨S1600000, .i32⟩ : BufTy).Contents (Elt F) → (⟨S1600000, .i32⟩ : BufTy).Contents (Elt F) → (⟨S1600000, .i1⟩ : BufTy).Contents (Elt F)),
    StableHlo.nullary main_c_13 (constantI S_ 32 100000#32),
    StableHlo.unary main_c_13 main_v110 (broadcastInDim S1600000 ![] bcast_S_S1600000 : (⟨S_, .i32⟩ : BufTy).Contents (Elt F) → (⟨S1600000, .i32⟩ : BufTy).Contents (Elt F)),
    StableHlo.binary main_v1 main_v110 main_v111 (addi : (⟨S1600000, .i32⟩ : BufTy).Contents (Elt F) → (⟨S1600000, .i32⟩ : BufTy).Contents (Elt F) → (⟨S1600000, .i32⟩ : BufTy).Contents (Elt F)),
    StableHlo.ternary main_v109 main_v111 main_v1 main_v112 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v112 main_v113 (broadcastInDim S1600000x1 ![0] bcast_S1600000_S1600000x1_0 : (⟨S1600000, .i32⟩ : BufTy).Contents (Elt F) → (⟨S1600000x1, .i32⟩ : BufTy).Contents (Elt F)),
    StableHlo.binary main_v107 main_v113 main_v114 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_14 (constant S_ .f32 0x00000000#32),
    StableHlo.unary main_cst_14 main_v115 (broadcastInDim S100000x128 ![] bcast_S_S100000x128 : (⟨S_, .f32⟩ : BufTy).Contents (Elt F) → (⟨S100000x128, .f32⟩ : BufTy).Contents (Elt F)),
    StableHlo.unary main_v3 main_v116 (broadcastInDim S1600000x1 ![0] bcast_S1600000_S1600000x1_0 : (⟨S1600000, .i32⟩ : BufTy).Contents (Elt F) → (⟨S1600000x1, .i32⟩ : BufTy).Contents (Elt F)),
    StableHlo.ternary main_v115 main_v116 main_v114 main_v117 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v107 main_v117 main_v118 (addf : (⟨S100000x128, .f32⟩ : BufTy).Contents (Elt F) → (⟨S100000x128, .f32⟩ : BufTy).Contents (Elt F) → (⟨S100000x128, .f32⟩ : BufTy).Contents (Elt F)),
    StableHlo.unary main_arg3 main_v119 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v119 main_v120 rfl shapeCasts_S1x128x128_S128x128,
    StableHlo.binary main_v118 main_v120 main_v121 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg4 main_v122 ((extractStridedSlice S1x128 ![2, 0] · slices_S3x128_S1x128_2_0) : (⟨S3x128, .f32⟩ : BufTy).Contents (Elt F) → (⟨S1x128, .f32⟩ : BufTy).Contents (Elt F)),
    StableHlo.reshape main_v122 main_v123 rfl shapeCasts_S1x128_S128,
    StableHlo.unary main_v123 main_v124 (broadcastInDim S1x128 ![1] bcast_S128_S1x128_1 : (⟨S128, .f32⟩ : BufTy).Contents (Elt F) → (⟨S1x128, .f32⟩ : BufTy).Contents (Elt F)),
    StableHlo.unary main_v124 main_v125 (broadcastInDim S100000x128 ![0, 1] bcast_S1x128_S100000x128_0_1 : (⟨S1x128, .f32⟩ : BufTy).Contents (Elt F) → (⟨S100000x128, .f32⟩ : BufTy).Contents (Elt F)),
    StableHlo.binary main_v121 main_v125 main_v126 (addf : (⟨S100000x128, .f32⟩ : BufTy).Contents (Elt F) → (⟨S100000x128, .f32⟩ : BufTy).Contents (Elt F) → (⟨S100000x128, .f32⟩ : BufTy).Contents (Elt F)),
    StableHlo.unary main_arg5 main_v127 ((extractStridedSlice S1x128 ![2, 0] · slices_S3x128_S1x128_2_0) : (⟨S3x128, .f32⟩ : BufTy).Contents (Elt F) → (⟨S1x128, .f32⟩ : BufTy).Contents (Elt F)),
    StableHlo.reshape main_v127 main_v128 rfl shapeCasts_S1x128_S128,
    StableHlo.unary main_arg6 main_v129 ((extractStridedSlice S1x128 ![2, 0] · slices_S3x128_S1x128_2_0) : (⟨S3x128, .f32⟩ : BufTy).Contents (Elt F) → (⟨S1x128, .f32⟩ : BufTy).Contents (Elt F)),
    StableHlo.reshape main_v129 main_v130 rfl shapeCasts_S1x128_S128,
    StableHlo.nullary main_cst_15 (constant S_ .f32 0x00000000#32),
    StableHlo.binary main_v126 main_cst_15 main_v131 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_16 (constant S_ .f32 0x47C35000#32),
    StableHlo.unary main_cst_16 main_v132 (broadcastInDim S128 ![] bcast_S_S128 : (⟨S_, .f32⟩ : BufTy).Contents (Elt F) → (⟨S128, .f32⟩ : BufTy).Contents (Elt F)),
    StableHlo.binary main_v131 main_v132 main_v133 (Host.divf : (⟨S128, .f32⟩ : BufTy).Contents (Elt F) → (⟨S128, .f32⟩ : BufTy).Contents (Elt F) → (⟨S128, .f32⟩ : BufTy).Contents (Elt F)),
    StableHlo.nullary main_c_17 (constantI S_ 32 0#32),
    StableHlo.TRef.nullary main_call6.cst (constant S_ .f32 0x00000000#32),
    StableHlo.TRef.binary (.of main_v126 : StableHlo.TRef sig ⟨S100000x128, .f32⟩) main_call6.cst main_call6.v0 (fun x v => Host.reduceAdd x v reducesTo_S100000x128_S128_d0 h_S_),
    StableHlo.TRef.unary main_call6.v0 main_call6.v1 (broadcastInDim S1x128 ![1] bcast_S128_S1x128_1),
    StableHlo.TRef.nullary main_call6.cst_0 (constant S_ .f32 0x47C35000#32),
    StableHlo.TRef.unary main_call6.cst_0 main_call6.v2 (broadcastInDim S1x128 ![] bcast_S_S1x128),
    StableHlo.TRef.binary main_call6.v1 main_call6.v2 main_call6.v3 Host.divf,
    StableHlo.TRef.unary main_call6.v3 main_call6.v4 (broadcastInDim S100000x128 ![0, 1] bcast_S1x128_S100000x128_0_1),
    StableHlo.TRef.binary (.of main_v126 : StableHlo.TRef sig ⟨S100000x128, .f32⟩) main_call6.v4 main_call6.v5 subf,
    StableHlo.TRef.binary main_call6.v5 main_call6.v5 main_call6.v6 mulf,
    StableHlo.TRef.unary (.of main_c_17 : StableHlo.TRef sig ⟨S_, .i32⟩) main_call6.v7 (sitofp .f32),
    StableHlo.TRef.nullary main_call6.cst_1 (constant S_ .f32 0x47C35000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S100000x128_S128_d0 h_S_),
    StableHlo.TRef.unary main_call6.v8 main_call6.v10 (broadcastInDim S128 ![] bcast_S_S128),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S128 ![] bcast_S_S128),
    StableHlo.TRef.ternary main_call6.v12 main_call6.v11 main_call6.call0.v1 main_call6.call0.v2 (fun p a b => select (broadcastInDim S128 ![] bcast_S_S128 p) a b),
    StableHlo.unary main_v133 main_v135 (broadcastInDim S1x128 ![1] bcast_S128_S1x128_1 : (⟨S128, .f32⟩ : BufTy).Contents (Elt F) → (⟨S1x128, .f32⟩ : BufTy).Contents (Elt F)),
    StableHlo.unary main_v135 main_v136 (broadcastInDim S100000x128 ![0, 1] bcast_S1x128_S100000x128_0_1 : (⟨S1x128, .f32⟩ : BufTy).Contents (Elt F) → (⟨S100000x128, .f32⟩ : BufTy).Contents (Elt F)),
    StableHlo.binary main_v126 main_v136 main_v137 (subf : (⟨S100000x128, .f32⟩ : BufTy).Contents (Elt F) → (⟨S100000x128, .f32⟩ : BufTy).Contents (Elt F) → (⟨S100000x128, .f32⟩ : BufTy).Contents (Elt F)),
    StableHlo.nullary main_cst_18 (constant S_ .f32 0x3727C5AC#32),
    StableHlo.unary main_cst_18 main_v138 (broadcastInDim S128 ![] bcast_S_S128 : (⟨S_, .f32⟩ : BufTy).Contents (Elt F) → (⟨S128, .f32⟩ : BufTy).Contents (Elt F)),
    StableHlo.binary main_v134 main_v138 main_v139 (addf : (⟨S128, .f32⟩ : BufTy).Contents (Elt F) → (⟨S128, .f32⟩ : BufTy).Contents (Elt F) → (⟨S128, .f32⟩ : BufTy).Contents (Elt F)),
    StableHlo.unary main_v139 main_v140 (Host.rsqrt : (⟨S128, .f32⟩ : BufTy).Contents (Elt F) → (⟨S128, .f32⟩ : BufTy).Contents (Elt F)),
    StableHlo.unary main_v140 main_v141 (broadcastInDim S1x128 ![1] bcast_S128_S1x128_1 : (⟨S128, .f32⟩ : BufTy).Contents (Elt F) → (⟨S1x128, .f32⟩ : BufTy).Contents (Elt F)),
    StableHlo.unary main_v141 main_v142 (broadcastInDim S100000x128 ![0, 1] bcast_S1x128_S100000x128_0_1 : (⟨S1x128, .f32⟩ : BufTy).Contents (Elt F) → (⟨S100000x128, .f32⟩ : BufTy).Contents (Elt F)),
    StableHlo.binary main_v137 main_v142 main_v143 (mulf : (⟨S100000x128, .f32⟩ : BufTy).Contents (Elt F) → (⟨S100000x128, .f32⟩ : BufTy).Contents (Elt F) → (⟨S100000x128, .f32⟩ : BufTy).Contents (Elt F)),
    StableHlo.unary main_v128 main_v144 (broadcastInDim S1x128 ![1] bcast_S128_S1x128_1 : (⟨S128, .f32⟩ : BufTy).Contents (Elt F) → (⟨S1x128, .f32⟩ : BufTy).Contents (Elt F)),
    StableHlo.unary main_v144 main_v145 (broadcastInDim S100000x128 ![0, 1] bcast_S1x128_S100000x128_0_1 : (⟨S1x128, .f32⟩ : BufTy).Contents (Elt F) → (⟨S100000x128, .f32⟩ : BufTy).Contents (Elt F)),
    StableHlo.binary main_v143 main_v145 main_v146 (mulf : (⟨S100000x128, .f32⟩ : BufTy).Contents (Elt F) → (⟨S100000x128, .f32⟩ : BufTy).Contents (Elt F) → (⟨S100000x128, .f32⟩ : BufTy).Contents (Elt F)),
    StableHlo.unary main_v130 main_v147 (broadcastInDim S1x128 ![1] bcast_S128_S1x128_1 : (⟨S128, .f32⟩ : BufTy).Contents (Elt F) → (⟨S1x128, .f32⟩ : BufTy).Contents (Elt F)),
    StableHlo.unary main_v147 main_v148 (broadcastInDim S100000x128 ![0, 1] bcast_S1x128_S100000x128_0_1 : (⟨S1x128, .f32⟩ : BufTy).Contents (Elt F) → (⟨S100000x128, .f32⟩ : BufTy).Contents (Elt F)),
    StableHlo.binary main_v146 main_v148 main_v149 (addf : (⟨S100000x128, .f32⟩ : BufTy).Contents (Elt F) → (⟨S100000x128, .f32⟩ : BufTy).Contents (Elt F) → (⟨S100000x128, .f32⟩ : BufTy).Contents (Elt F)),
    StableHlo.TRef.nullary main_call7.cst (constant S_ .f32 0x00000000#32),
    StableHlo.TRef.unary main_call7.cst main_call7.v0 (broadcastInDim S100000x128 ![] bcast_S_S100000x128),
    StableHlo.TRef.binary (.of main_v149 : StableHlo.TRef sig ⟨S100000x128, .f32⟩) main_call7.v0 main_call7.v1 maximumf,
    StableHlo.unary main_arg7 main_v151 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v151 main_v152 rfl shapeCasts_S1x128x128_S128x128,
    StableHlo.binary main_v150 main_v152 main_v153 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg8 main_v154 ((extractStridedSlice S1x128 ![2, 0] · slices_S3x128_S1x128_2_0) : (⟨S3x128, .f32⟩ : BufTy).Contents (Elt F) → (⟨S1x128, .f32⟩ : BufTy).Contents (Elt F)),
    StableHlo.reshape main_v154 main_v155 rfl shapeCasts_S1x128_S128,
    StableHlo.unary main_v155 main_v156 (broadcastInDim S1x128 ![1] bcast_S128_S1x128_1 : (⟨S128, .f32⟩ : BufTy).Contents (Elt F) → (⟨S1x128, .f32⟩ : BufTy).Contents (Elt F)),
    StableHlo.unary main_v156 main_v157 (broadcastInDim S100000x128 ![0, 1] bcast_S1x128_S100000x128_0_1 : (⟨S1x128, .f32⟩ : BufTy).Contents (Elt F) → (⟨S100000x128, .f32⟩ : BufTy).Contents (Elt F)),
    StableHlo.binary main_v153 main_v157 main_v158 (addf : (⟨S100000x128, .f32⟩ : BufTy).Contents (Elt F) → (⟨S100000x128, .f32⟩ : BufTy).Contents (Elt F) → (⟨S100000x128, .f32⟩ : BufTy).Contents (Elt F)) ]

abbrev ops_part2_W : List (Ref sig .tc) :=
  [main_v106, main_call5_cst, main_call5_v0, main_v107, main_c_12, main_v108, main_v109, main_c_13, main_v110, main_v111, main_v112, main_v113, main_v114, main_cst_14, main_v115, main_v116, main_v117, main_v118, main_v119, main_v120, main_v121, main_v122, main_v123, main_v124, main_v125, main_v126, main_v127, main_v128, main_v129, main_v130, main_cst_15, main_v131, main_cst_16, main_v132, main_v133, main_c_17, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v134, main_v135, main_v136, main_v137, main_cst_18, main_v138, main_v139, main_v140, main_v141, main_v142, main_v143, main_v144, main_v145, main_v146, main_v147, main_v148, main_v149, main_call7_cst, main_call7_v0, main_v150, main_v151, main_v152, main_v153, main_v154, main_v155, main_v156, main_v157, main_v158]

abbrev ops_part3 : List (HloOp τ sig (Elt F)) :=
  [ StableHlo.TRef.nullary main_call8.cst (constant S_ .f32 0x00000000#32),
    StableHlo.TRef.unary main_call8.cst main_call8.v0 (broadcastInDim S100000x128 ![] bcast_S_S100000x128),
    StableHlo.TRef.binary (.of main_v158 : StableHlo.TRef sig ⟨S100000x128, .f32⟩) main_call8.v0 main_call8.v1 maximumf,
    StableHlo.nullary main_cst_19 (constant S_ .f32 0x00000000#32),
    StableHlo.unary main_cst_19 main_v160 (broadcastInDim S1024x128 ![] bcast_S_S1024x128 : (⟨S_, .f32⟩ : BufTy).Contents (Elt F) → (⟨S1024x128, .f32⟩ : BufTy).Contents (Elt F)),
    StableHlo.unary main_arg2 main_v161 (broadcastInDim S100000x1 ![0] bcast_S100000_S100000x1_0 : (⟨S100000, .i32⟩ : BufTy).Contents (Elt F) → (⟨S100000x1, .i32⟩ : BufTy).Contents (Elt F)),
    StableHlo.ternary main_v160 main_v161 main_v159 main_v162 ((fun x i u => Host.scatterAdd scatter_S1024x128_S100000x1_S100000x128_1_0_0_1 x i u) : (⟨S1024x128, .f32⟩ : BufTy).Contents (Elt F) → (⟨S100000x1, .i32⟩ : BufTy).Contents (Elt F) → (⟨S100000x128, .f32⟩ : BufTy).Contents (Elt F) → (⟨S1024x128, .f32⟩ : BufTy).Contents (Elt F)),
    StableHlo.binary main_v162 main_arg9 main_v163 ((fun l r => Host.dotGeneral dot_S1024x128_S128x128_S1024x128_1_0_0_1_n_n none l r) : (⟨S1024x128, .f32⟩ : BufTy).Contents (Elt F) → (⟨S128x128, .f32⟩ : BufTy).Contents (Elt F) → (⟨S1024x128, .f32⟩ : BufTy).Contents (Elt F)),
    StableHlo.unary main_arg10 main_v164 (broadcastInDim S1x128 ![1] bcast_S128_S1x128_1 : (⟨S128, .f32⟩ : BufTy).Contents (Elt F) → (⟨S1x128, .f32⟩ : BufTy).Contents (Elt F)),
    StableHlo.unary main_v164 main_v165 (broadcastInDim S1024x128 ![0, 1] bcast_S1x128_S1024x128_0_1 : (⟨S1x128, .f32⟩ : BufTy).Contents (Elt F) → (⟨S1024x128, .f32⟩ : BufTy).Contents (Elt F)),
    StableHlo.binary main_v163 main_v165 main_v166 (addf : (⟨S1024x128, .f32⟩ : BufTy).Contents (Elt F) → (⟨S1024x128, .f32⟩ : BufTy).Contents (Elt F) → (⟨S1024x128, .f32⟩ : BufTy).Contents (Elt F)),
    StableHlo.TRef.nullary main_call9.cst (constant S_ .f32 0x00000000#32),
    StableHlo.TRef.unary main_call9.cst main_call9.v0 (broadcastInDim S1024x128 ![] bcast_S_S1024x128),
    StableHlo.TRef.binary (.of main_v166 : StableHlo.TRef sig ⟨S1024x128, .f32⟩) main_call9.v0 main_call9.v1 maximumf,
    StableHlo.binary main_v167 main_arg11 main_v168 ((fun l r => Host.dotGeneral dot_S1024x128_S128x64_S1024x64_1_0_0_1_n_n none l r) : (⟨S1024x128, .f32⟩ : BufTy).Contents (Elt F) → (⟨S128x64, .f32⟩ : BufTy).Contents (Elt F) → (⟨S1024x64, .f32⟩ : BufTy).Contents (Elt F)),
    StableHlo.unary main_arg12 main_v169 (broadcastInDim S1x64 ![1] bcast_S64_S1x64_1 : (⟨S64, .f32⟩ : BufTy).Contents (Elt F) → (⟨S1x64, .f32⟩ : BufTy).Contents (Elt F)),
    StableHlo.unary main_v169 main_v170 (broadcastInDim S1024x64 ![0, 1] bcast_S1x64_S1024x64_0_1 : (⟨S1x64, .f32⟩ : BufTy).Contents (Elt F) → (⟨S1024x64, .f32⟩ : BufTy).Contents (Elt F)),
    StableHlo.binary main_v168 main_v170 main_v171 (addf : (⟨S1024x64, .f32⟩ : BufTy).Contents (Elt F) → (⟨S1024x64, .f32⟩ : BufTy).Contents (Elt F) → (⟨S1024x64, .f32⟩ : BufTy).Contents (Elt F)) ]

abbrev ops_part3_W : List (Ref sig .tc) :=
  [main_call8_cst, main_call8_v0, main_v159, main_cst_19, main_v160, main_v161, main_v162, main_v163, main_v164, main_v165, main_v166, main_call9_cst, main_call9_v0, main_v167, main_v168, main_v169, main_v170, main_v171]

end Cert.ReferenceIdeal.Hand

end
-- ==== Proof.RI.Run.lean ====
import proofs.«425279_j44762149159634_1_alg».proof.Proof.RI.Stages
import proofs.«425279_j44762149159634_1_alg».proof.Proof.RI.Ops
import Idealize.ShloMosaic.Lib.Pipeline.Frame

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops : List (HloOp τ sig (Elt F)) :=
  ops_part0 ++ (ops_part1 ++ (ops_part2 ++ ops_part3))

theorem main_part0_eq (c : Dev nD) : main_part0 (F := F) c = seq ops_part0 := rfl
theorem main_part1_eq (c : Dev nD) : main_part1 (F := F) c = seq ops_part1 := rfl
theorem main_part2_eq (c : Dev nD) : main_part2 (F := F) c = seq ops_part2 := rfl
theorem main_part3_eq (c : Dev nD) : main_part3 (F := F) c = seq ops_part3 := rfl

theorem main_eq (c : Dev nD) : main (F := F) c = seq ops := by
  simp only [ops, seq_append, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_part0_sub : (ops_part0 : List (HloOp τ sig (Elt F))).Forall fun op => op.bufs ⊆ tcRefs τ sig := by
  simp only [List.Forall, nullary_bufs_sub, unary_bufs_sub, binary_bufs_sub, ternary_bufs_sub, reshape_bufs_sub, and_self]
theorem ops_part1_sub : (ops_part1 : List (HloOp τ sig (Elt F))).Forall fun op => op.bufs ⊆ tcRefs τ sig := by
  simp only [List.Forall, nullary_bufs_sub, unary_bufs_sub, binary_bufs_sub, ternary_bufs_sub, reshape_bufs_sub, and_self]
theorem ops_part2_sub : (ops_part2 : List (HloOp τ sig (Elt F))).Forall fun op => op.bufs ⊆ tcRefs τ sig := by
  simp only [List.Forall, nullary_bufs_sub, unary_bufs_sub, binary_bufs_sub, ternary_bufs_sub, reshape_bufs_sub, and_self]
theorem ops_part3_sub : (ops_part3 : List (HloOp τ sig (Elt F))).Forall fun op => op.bufs ⊆ tcRefs τ sig := by
  simp only [List.Forall, nullary_bufs_sub, unary_bufs_sub, binary_bufs_sub, ternary_bufs_sub, reshape_bufs_sub, and_self]

theorem ops_sub : (ops : List (HloOp τ sig (Elt F))).Forall fun op => op.bufs ⊆ tcRefs τ sig := by
  simp only [ops, List.forall_append]
  exact ⟨ops_part0_sub, ops_part1_sub, ops_part2_sub, ops_part3_sub⟩

def val1 (V0 : Valuation τ sig (Elt F)) : Valuation τ sig (Elt F) := after ops_part0 V0
def val2 (V0 : Valuation τ sig (Elt F)) : Valuation τ sig (Elt F) := after ops_part1 (val1 V0)
def val3 (V0 : Valuation τ sig (Elt F)) : Valuation τ sig (Elt F) := after ops_part2 (val2 V0)
def val4 (V0 : Valuation τ sig (Elt F)) : Valuation τ sig (Elt F) := after ops_part3 (val3 V0)

theorem after_ops (V0 : Valuation τ sig (Elt F)) : after ops V0 = val4 V0 := by
  simp only [ops, after_append]
  rfl

theorem ops_part0_writes : (ops_part0 : List (HloOp τ sig (Elt F))).Forall fun op =>
    op.writes ⊆ (ops_part0_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)
theorem ops_part1_writes : (ops_part1 : List (HloOp τ sig (Elt F))).Forall fun op =>
    op.writes ⊆ (ops_part1_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)
theorem ops_part2_writes : (ops_part2 : List (HloOp τ sig (Elt F))).Forall fun op =>
    op.writes ⊆ (ops_part2_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)
theorem ops_part3_writes : (ops_part3 : List (HloOp τ sig (Elt F))).Forall fun op =>
    op.writes ⊆ (ops_part3_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

theorem val1_keep (V0 : Valuation τ sig (Elt F)) (r : Ref sig .tc) (h : r ∉ ops_part0_W) :
    val1 V0 (no_index (Proc.devRef .tc r)) = V0 (Proc.devRef .tc r) :=
  after_of_writes_sub ops_part0 _ ops_part0_writes h
theorem val2_keep (V0 : Valuation τ sig (Elt F)) (r : Ref sig .tc) (h : r ∉ ops_part1_W) :
    val2 V0 (no_index (Proc.devRef .tc r)) = val1 V0 (Proc.devRef .tc r) :=
  after_of_writes_sub ops_part1 _ ops_part1_writes h
theorem val3_keep (V0 : Valuation τ sig (Elt F)) (r : Ref sig .tc) (h : r ∉ ops_part2_W) :
    val3 V0 (no_index (Proc.devRef .tc r)) = val2 V0 (Proc.devRef .tc r) :=
  after_of_writes_sub ops_part2 _ ops_part2_writes h
theorem val4_keep (V0 : Valuation τ sig (Elt F)) (r : Ref sig .tc) (h : r ∉ ops_part3_W) :
    val4 V0 (no_index (Proc.devRef .tc r)) = val3 V0 (Proc.devRef .tc r) :=
  after_of_writes_sub ops_part3 _ ops_part3_writes h

theorem val4_of_not_written (V0 : Valuation τ sig (Elt F)) (r : Ref sig .tc) (h0 : r ∉ ops_part0_W) (h1 : r ∉ ops_part1_W)
    (h2 : r ∉ ops_part2_W) (h3 : r ∉ ops_part3_W) : val4 V0 (Proc.devRef .tc r) = V0 (Proc.devRef .tc r) :=
  (val4_keep V0 r h3).trans ((val3_keep V0 r h2).trans ((val2_keep V0 r h1).trans (val1_keep V0 r h0)))

def hid (l : Fin 3) (x : (⟨S100000x128, .f32⟩ : BufTy).Contents (Elt F)) (V0 : Valuation τ sig (Elt F)) :
    (⟨S100000x128, .f32⟩ : BufTy).Contents (Elt F) :=
  hidden x (V0 (Proc.devRef .tc main_arg1)) (parM l (V0 (Proc.devRef .tc main_arg3))) (parV l (V0 (Proc.devRef .tc main_arg4)))
    (parV l (V0 (Proc.devRef .tc main_arg5))) (parV l (V0 (Proc.devRef .tc main_arg6)))

def lay (l : Fin 3) (x : (⟨S100000x128, .f32⟩ : BufTy).Contents (Elt F)) (V0 : Valuation τ sig (Elt F)) :
    (⟨S100000x128, .f32⟩ : BufTy).Contents (Elt F) :=
  layerAt l x (V0 (Proc.devRef .tc main_arg1)) (V0 (Proc.devRef .tc main_arg3)) (V0 (Proc.devRef .tc main_arg4))
    (V0 (Proc.devRef .tc main_arg5)) (V0 (Proc.devRef .tc main_arg6)) (V0 (Proc.devRef .tc main_arg7)) (V0 (Proc.devRef .tc main_arg8))

set_option maxHeartbeats 4000000 in
theorem val1_v1 (V0 : Valuation τ sig (Elt F)) :
    val1 V0 (no_index (Proc.devRef .tc main_v1)) = row0 (V0 (Proc.devRef .tc main_arg1)) := by
  unfold val1
  simp only [ops_part0]
  after_results_simp
  rfl

set_option maxHeartbeats 4000000 in
theorem val1_v3 (V0 : Valuation τ sig (Elt F)) :
    val1 V0 (no_index (Proc.devRef .tc main_v3)) = row1 (V0 (Proc.devRef .tc main_arg1)) := by
  unfold val1
  simp only [ops_part0]
  after_results_simp
  rfl

set_option maxHeartbeats 4000000 in
theorem val1_v52 (V0 : Valuation τ sig (Elt F)) :
    val1 V0 (no_index (Proc.devRef .tc main_v52))
      = broadcastInDim S1x128 ![1] bcast_S128_S1x128_1 (parV 0 (V0 (Proc.devRef .tc main_arg8))) := by
  unfold val1
  simp only [ops_part0]
  after_results_simp
  rfl

set_option maxHeartbeats 4000000 in
theorem val1_v49 (V0 : Valuation τ sig (Elt F)) :
    val1 V0 (no_index (Proc.devRef .tc main_v49))
      = Host.dotGeneral dot_S100000x128_S128x128_S100000x128_1_0_0_1_n_n none
          (hid 0 (V0 (Proc.devRef .tc main_arg0)) V0) (parM 0 (V0 (Proc.devRef .tc main_arg7))) := by
  unfold val1
  simp only [ops_part0]
  after_results_simp
  rfl

set_option maxHeartbeats 4000000 in
theorem val2_v101 (V0 : Valuation τ sig (Elt F)) :
    val2 V0 (no_index (Proc.devRef .tc main_v101))
      = Host.dotGeneral dot_S100000x128_S128x128_S100000x128_1_0_0_1_n_n none
          (hid 1 (lay 0 (V0 (Proc.devRef .tc main_arg0)) V0) V0) (parM 1 (V0 (Proc.devRef .tc main_arg7))) := by
  unfold val2
  simp only [ops_part1]
  after_results_simp
  simp (disch := decide) only [val1_keep, val1_v1, val1_v3, val1_v49, val1_v52]
  rfl

set_option maxHeartbeats 4000000 in
theorem val2_v105 (V0 : Valuation τ sig (Elt F)) :
    val2 V0 (no_index (Proc.devRef .tc main_v105)) = rowB (parV 1 (V0 (Proc.devRef .tc main_arg8))) := by
  unfold val2
  simp only [ops_part1]
  after_results_simp
  simp (disch := decide) only [val1_keep]
  rfl

theorem val2_v1 (V0 : Valuation τ sig (Elt F)) :
    val2 V0 (no_index (Proc.devRef .tc main_v1)) = row0 (V0 (Proc.devRef .tc main_arg1)) :=
  (val2_keep V0 main_v1 (by decide)).trans (val1_v1 V0)

theorem val2_v3 (V0 : Valuation τ sig (Elt F)) :
    val2 V0 (no_index (Proc.devRef .tc main_v3)) = row1 (V0 (Proc.devRef .tc main_arg1)) :=
  (val2_keep V0 main_v3 (by decide)).trans (val1_v3 V0)

set_option maxHeartbeats 4000000 in
theorem val3_v158 (V0 : Valuation τ sig (Elt F)) :
    val3 V0 (no_index (Proc.devRef .tc main_v158))
      = lin (hid 2 (lay 1 (lay 0 (V0 (Proc.devRef .tc main_arg0)) V0) V0) V0)
          (parM 2 (V0 (Proc.devRef .tc main_arg7))) (parV 2 (V0 (Proc.devRef .tc main_arg8))) := by
  unfold val3
  simp only [ops_part2]
  after_results_simp
  simp (disch := decide) only [val2_keep, val1_keep, val2_v1, val2_v3, val2_v101, val2_v105]
  rfl

set_option maxHeartbeats 4000000 in
theorem val4_v171 (V0 : Valuation τ sig (Elt F)) :
    val4 V0 (no_index (Proc.devRef .tc main_v171))
      = out (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6))
          (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) := by
  unfold val4
  simp only [ops_part3]
  after_results_simp
  simp (disch := decide) only [val3_keep, val2_keep, val1_keep, val3_v158]
  rfl

theorem arg_kept (V0 : Valuation τ sig (Elt F)) (r : Ref sig .tc) (h0 : r ∉ ops_part0_W) (h1 : r ∉ ops_part1_W)
    (h2 : r ∉ ops_part2_W) (h3 : r ∉ ops_part3_W) : after ops V0 (Proc.devRef .tc r) = V0 (Proc.devRef .tc r) := by
  rw [after_ops]
  exact val4_of_not_written V0 r h0 h1 h2 h3

theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v171) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c =>
    ⟨(h c main_v171).trans (by rw [after_ops]; exact val4_v171 (launchContents m c)),
      (h c main_arg0).trans (arg_kept (launchContents m c) main_arg0 (by decide) (by decide) (by decide) (by decide)),
      (h c main_arg1).trans (arg_kept (launchContents m c) main_arg1 (by decide) (by decide) (by decide) (by decide)),
      (h c main_arg2).trans (arg_kept (launchContents m c) main_arg2 (by decide) (by decide) (by decide) (by decide)),
      (h c main_arg3).trans (arg_kept (launchContents m c) main_arg3 (by decide) (by decide) (by decide) (by decide)),
      (h c main_arg4).trans (arg_kept (launchContents m c) main_arg4 (by decide) (by decide) (by decide) (by decide)),
      (h c main_arg5).trans (arg_kept (launchContents m c) main_arg5 (by decide) (by decide) (by decide) (by decide)),
      (h c main_arg6).trans (arg_kept (launchContents m c) main_arg6 (by decide) (by decide) (by decide) (by decide)),
      (h c main_arg7).trans (arg_kept (launchContents m c) main_arg7 (by decide) (by decide) (by decide) (by decide)),
      (h c main_arg8).trans (arg_kept (launchContents m c) main_arg8 (by decide) (by decide) (by decide) (by decide)),
      (h c main_arg9).trans (arg_kept (launchContents m c) main_arg9 (by decide) (by decide) (by decide) (by decide)),
      (h c main_arg10).trans (arg_kept (launchContents m c) main_arg10 (by decide) (by decide) (by decide) (by decide)),
      (h c main_arg11).trans (arg_kept (launchContents m c) main_arg11 (by decide) (by decide) (by decide) (by decide)),
      (h c main_arg12).trans (arg_kept (launchContents m c) main_arg12 (by decide) (by decide) (by decide) (by decide))⟩)
    (run_seq scopedRefs_eq scopedSems_eq defs main (fun _ => ops) main_eq (fun _ => ops_sub) m ρ)

theorem frame (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => (h c).2) (run m ρ)

end Cert.ReferenceIdeal.Hand

end
-- ==== Proof.PreFin.lean ====
import proofs.«425279_j44762149159634_1_alg».proof.Pre_finite_inputs
import proofs.«425279_j44762149159634_1_alg».proof.Proof.Gen.Pre_finite_inputs
import proofs.«425279_j44762149159634_1_alg».proof.Proof.Spec
import Idealize.ShloMosaic.Lib.ReduceAll
import Idealize.ShloMosaic.Lib.ValueIdx
import Idealize.ShloMosaic.PureOps.Ideal

noncomputable section

namespace Cert.PreFin

open Idealize.ShloMosaic
open Cert.Pre_finite_inputs (S100000x128 S2x1600000 S100000 S3x128x128 S3x128 S128x128 S128 S128x64 S64 S_)

def AllReal {S : Shape} (a : S.Idx → EReal) : Prop := ∀ i, ∃ q : ℝ, a i = (q : EReal)

instance : Subsingleton S_.Idx := ⟨fun a b => funext fun d => d.elim0⟩

theorem ofBits_inf : Ideal.ofBits .f32 0x7F800000#32 = ⊤ := by simp [Ideal.ofBits, Ideal.ieee]

theorem ofBool_eq_one {b : Bool} (h : BitVec.ofBool b = 1#1) : b = true := by
  cases b
  · exact absurd h (by decide)
  · rfl

theorem exists_real_of_abs_lt_top (x : EReal) (hx : max x (-x) < ⊤) : ∃ q : ℝ, x = (q : EReal) := by
  rw [max_lt_iff] at hx
  induction x using EReal.rec with
  | bot => exact absurd hx.2 (by simp)
  | coe r => exact ⟨r, rfl⟩
  | top => exact absurd hx.1 (by simp)

theorem allReal_of_all {S : Shape} {axes : List (Fin S.rank)} (a : FVec Ideal S .f32)
    (hb : S_.BroadcastsInDim S (![] : Fin 0 → Fin S.rank)) (hr : S.ReducesTo axes S_) (hS : 0 < S_.numel)
    (init : IVec S_ 1) (j : S_.Idx)
    (e : Host.reduce IntOp.andi
          (cmpf .olt (Host.absf a) (broadcastInDim S ![] hb (constant (F := Ideal) S_ .f32 0x7F800000#32))) init hr hS j = 1#1) :
    AllReal a := by
  intro i

  have h1 : Ideal.cmp .olt (max (a i) (-(a i))) (Ideal.ofBits .f32 0x7F800000#32) = 1#1 :=
    Host.reduce_andi_all _ init hr hS j e i
  rw [ofBits_inf] at h1

  have h1' : BitVec.ofBool (decide (max (a i) (-(a i)) < (⊤ : EReal))) = 1#1 := h1
  exact exists_real_of_abs_lt_top (a i) (of_decide_eq_true (ofBool_eq_one h1'))

theorem allReal_of_pre [Cert.Pre_finite_inputs.Facts]
    (a0 : FVec Ideal S100000x128 .f32) (a1 : IVec S2x1600000 32) (a2 : IVec S100000 32)
    (a3 : FVec Ideal S3x128x128 .f32) (a4 : FVec Ideal S3x128 .f32) (a5 : FVec Ideal S3x128 .f32)
    (a6 : FVec Ideal S3x128 .f32) (a7 : FVec Ideal S3x128x128 .f32) (a8 : FVec Ideal S3x128 .f32)
    (a9 : FVec Ideal S128x128 .f32) (a10 : FVec Ideal S128 .f32) (a11 : FVec Ideal S128x64 .f32)
    (a12 : FVec Ideal S64 .f32)
    (h : Cert.Pre_finite_inputs.fn (F := Ideal) a0 a1 a2 a3 a4 a5 a6 a7 a8 a9 a10 a11 a12 = fun _ => 1#1) :
    AllReal a0 ∧ AllReal a3 ∧ AllReal a4 ∧ AllReal a5 ∧ AllReal a6 ∧ AllReal a7 ∧ AllReal a8 ∧ AllReal a9
      ∧ AllReal a10 ∧ AllReal a11 ∧ AllReal a12 := by
  have h0 := congrFun h ValueIdx.ix0
  dsimp only [Cert.Pre_finite_inputs.fn, Cert.Pre_finite_inputs.fn_part1, Cert.Pre_finite_inputs.fn_part2,
    Cert.Pre_finite_inputs.fn_part3] at h0
  simp only [andi, IntOp.andi_eq_one] at h0
  obtain ⟨⟨⟨⟨⟨⟨⟨⟨⟨⟨e0, e3⟩, e4⟩, e5⟩, e6⟩, e7⟩, e8⟩, e9⟩, e10⟩, e11⟩, e12⟩ := h0
  exact ⟨allReal_of_all a0 _ _ _ _ _ e0, allReal_of_all a3 _ _ _ _ _ e3, allReal_of_all a4 _ _ _ _ _ e4,
    allReal_of_all a5 _ _ _ _ _ e5, allReal_of_all a6 _ _ _ _ _ e6, allReal_of_all a7 _ _ _ _ _ e7,
    allReal_of_all a8 _ _ _ _ _ e8, allReal_of_all a9 _ _ _ _ _ e9, allReal_of_all a10 _ _ _ _ _ e10,
    allReal_of_all a11 _ _ _ _ _ e11, allReal_of_all a12 _ _ _ _ _ e12⟩

end Cert.PreFin

end
-- ==== Proof.lean ====
import proofs.«425279_j44762149159634_1_alg».proof.Defs
import proofs.«425279_j44762149159634_1_alg».proof.Proof.Gen.Kernel
import proofs.«425279_j44762149159634_1_alg».proof.Proof.Gen.KernelIdeal
import proofs.«425279_j44762149159634_1_alg».proof.Proof.Gen.ReferenceIdeal
import proofs.«425279_j44762149159634_1_alg».proof.Proof.Gen.Pre_finite_inputs
import proofs.«425279_j44762149159634_1_alg».proof.Proof.K.Frame
import proofs.«425279_j44762149159634_1_alg».proof.Proof.KI.Frame
import proofs.«425279_j44762149159634_1_alg».proof.Proof.KI.Result
import proofs.«425279_j44762149159634_1_alg».proof.Proof.RI.Run
import proofs.«425279_j44762149159634_1_alg».proof.Proof.PreFin
import Idealize.ShloMosaic.Adequacy
import Idealize.ShloMosaic.Init

set_option maxRecDepth 16384

noncomputable section

namespace Cert.Proof

open Idealize.ShloMosaic Idealize.ShloMosaic.TcCoe Idealize.SL.Sem

theorem frame_k [Cert.Kernel.Facts] [Cert.Pre_finite_inputs.Facts] : Cert.frame_Kernel :=
  fun m ρ _ => Cert.Kernel.Hand.frame (F := Bits) m ρ

theorem frame_ki [Cert.KernelIdeal.Facts] [Cert.Pre_finite_inputs.Facts] : Cert.frame_KernelIdeal :=
  fun m ρ _ => Cert.KernelIdeal.Hand.frame (F := Ideal) m ρ

theorem frame_ri [Cert.ReferenceIdeal.Facts] [Cert.Pre_finite_inputs.Facts] : Cert.frame_ReferenceIdeal :=
  fun m ρ _ => Cert.ReferenceIdeal.Hand.frame (F := Ideal) m ρ

theorem algebraic [Cert.KernelIdeal.Facts] [Cert.ReferenceIdeal.Facts] [Cert.Pre_finite_inputs.Facts] : Cert.algebraic_KernelIdeal_ReferenceIdeal := by
  intro m ρ m' ρ' hpre hagree
  refine ⟨fun c => Cert.ReferenceIdeal.Hand.out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · refine (θ_run (Cert.KernelIdeal.defs (F := Ideal)) _ _).mono (fun r h c => ?_) (Cert.KernelIdeal.Hand.run (F := Ideal) m ρ)
    have hreal := Cert.PreFin.allReal_of_pre _ _ _ _ _ _ _ _ _ _ _ _ _ (hpre c)
    obtain ⟨h0, h3, h4, h5, h6, h7, h8, -, -, -, -⟩ := hreal
    refine ⟨?_, (h c _ (Cert.KernelIdeal.Hand.mem_uc Cert.KernelIdeal.main_arg0 (by decide))).trans (Cert.KernelIdeal.Hand.Bd14_arg0 m c),
      (h c _ (Cert.KernelIdeal.Hand.mem_uc Cert.KernelIdeal.main_arg1 (by decide))).trans (Cert.KernelIdeal.Hand.Bd14_arg1 m c),
      (h c _ (Cert.KernelIdeal.Hand.mem_uc Cert.KernelIdeal.main_arg2 (by decide))).trans (Cert.KernelIdeal.Hand.Bd14_arg2 m c),
      (h c _ (Cert.KernelIdeal.Hand.mem_uc Cert.KernelIdeal.main_arg3 (by decide))).trans (Cert.KernelIdeal.Hand.Bd14_arg3 m c),
      (h c _ (Cert.KernelIdeal.Hand.mem_uc Cert.KernelIdeal.main_arg4 (by decide))).trans (Cert.KernelIdeal.Hand.Bd14_arg4 m c),
      (h c _ (Cert.KernelIdeal.Hand.mem_uc Cert.KernelIdeal.main_arg5 (by decide))).trans (Cert.KernelIdeal.Hand.Bd14_arg5 m c),
      (h c _ (Cert.KernelIdeal.Hand.mem_uc Cert.KernelIdeal.main_arg6 (by decide))).trans (Cert.KernelIdeal.Hand.Bd14_arg6 m c),
      (h c _ (Cert.KernelIdeal.Hand.mem_uc Cert.KernelIdeal.main_arg7 (by decide))).trans (Cert.KernelIdeal.Hand.Bd14_arg7 m c),
      (h c _ (Cert.KernelIdeal.Hand.mem_uc Cert.KernelIdeal.main_arg8 (by decide))).trans (Cert.KernelIdeal.Hand.Bd14_arg8 m c),
      (h c _ (Cert.KernelIdeal.Hand.mem_uc Cert.KernelIdeal.main_arg9 (by decide))).trans (Cert.KernelIdeal.Hand.Bd14_arg9 m c),
      (h c _ (Cert.KernelIdeal.Hand.mem_uc Cert.KernelIdeal.main_arg10 (by decide))).trans (Cert.KernelIdeal.Hand.Bd14_arg10 m c),
      (h c _ (Cert.KernelIdeal.Hand.mem_uc Cert.KernelIdeal.main_arg11 (by decide))).trans (Cert.KernelIdeal.Hand.Bd14_arg11 m c),
      (h c _ (Cert.KernelIdeal.Hand.mem_uc Cert.KernelIdeal.main_arg12 (by decide))).trans (Cert.KernelIdeal.Hand.Bd14_arg12 m c)⟩
    exact ((h c _ (Cert.KernelIdeal.Hand.mem_uc Cert.KernelIdeal.main_v115 (by decide))).trans (Cert.KernelIdeal.Hand.Bd14_result m c)).trans
      (Cert.KernelIdeal.HandV.result_eq m c h0 h3 h4 h5 h6 h7 h8)
  · refine (θ_run (Cert.ReferenceIdeal.defs (F := Ideal)) _ _).mono (fun r h c => ⟨(h c).1.trans ?_, (h c).2⟩) (Cert.ReferenceIdeal.Hand.run (F := Ideal) m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
